-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v292)) (v1 : (c : Dev Cert.KernelIdeal.nD) → Buf (Elt Ideal) ((c.tc : Thread Cert.KernelIdeal.nD Cert.KernelIdeal.τ).loc Cert.KernelIdeal.main_v296)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v292) = v0 c
          ∧ r.2.mem ((c.tc : Thread Cert.KernelIdeal.nD Cert.KernelIdeal.τ).loc Cert.KernelIdeal.main_v296) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_v403) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x200000 : Shape := ⟨2, ![2, 200000]⟩
abbrev S200000x2 : Shape := ⟨2, ![200000, 2]⟩
abbrev S100000 : Shape := ⟨1, ![100000]⟩
abbrev S120x300 : Shape := ⟨2, ![120, 300]⟩
abbrev S3x300 : Shape := ⟨2, ![3, 300]⟩
abbrev S5x300x300 : Shape := ⟨3, ![5, 300, 300]⟩
abbrev S5x300 : Shape := ⟨2, ![5, 300]⟩
abbrev S5x6x1 : Shape := ⟨3, ![5, 6, 1]⟩
abbrev S5x3x1 : Shape := ⟨3, ![5, 3, 1]⟩
abbrev S300x256 : Shape := ⟨2, ![300, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S120x300 : S_.BroadcastsInDim S120x300 (![] : Fin 0 → Fin S120x300.rank)
  reducesTo_S120x300_S_d0_1 : S120x300.ReducesTo [0, 1] S_
  h_S_ : 0 < S_.numel
  bcast_S_S3x300 : S_.BroadcastsInDim S3x300 (![] : Fin 0 → Fin S3x300.rank)
  reducesTo_S3x300_S_d0_1 : S3x300.ReducesTo [0, 1] S_
  bcast_S_S5x300x300 : S_.BroadcastsInDim S5x300x300 (![] : Fin 0 → Fin S5x300x300.rank)
  reducesTo_S5x300x300_S_d0_1_2 : S5x300x300.ReducesTo [0, 1, 2] S_
  bcast_S_S5x300 : S_.BroadcastsInDim S5x300 (![] : Fin 0 → Fin S5x300.rank)
  reducesTo_S5x300_S_d0_1 : S5x300.ReducesTo [0, 1] S_
  bcast_S_S5x6x1 : S_.BroadcastsInDim S5x6x1 (![] : Fin 0 → Fin S5x6x1.rank)
  reducesTo_S5x6x1_S_d0_1_2 : S5x6x1.ReducesTo [0, 1, 2] S_
  bcast_S_S5x3x1 : S_.BroadcastsInDim S5x3x1 (![] : Fin 0 → Fin S5x3x1.rank)
  reducesTo_S5x3x1_S_d0_1_2 : S5x3x1.ReducesTo [0, 1, 2] S_
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S128 .f32) (main_arg16 : FVec F S128x2 .f32) (main_arg17 : FVec F S2 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg16
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg17
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg11 : FVec F S5x300 .f32) (main_arg12 : FVec F S300x256 .f32) (main_arg13 : FVec F S256 .f32) (main_arg14 : FVec F S256x128 .f32) (main_arg15 : FVec F S128 .f32) (main_arg16 : FVec F S128x2 .f32) (main_arg17 : FVec F S2 .f32) (main_v33 : IVec S_ 1) : IVec S_ 1 :=
  let main_v34 : FVec F S5x300 .f32 := Host.absf main_arg11
  let main_cst_12 : FVec F S_ .f32 := constant S_ .f32 0x7F800000#32
  let main_v35 : FVec F S5x300 .f32 := broadcastInDim S5x300 ![] bcast_S_S5x300 main_cst_12
  let main_v36 : IVec S5x300 1 := cmpf .olt main_v34 main_v35
  let main_c_13 : IVec S_ 1 := constantI S_ 1 1#1
  let main_v37 : IVec S_ 1 := (fun x v => Host.reduce IntOp.andi x v reducesTo_S5x300_S_d0_1 h_S_) main_v36 main_c_13
  let main_v38 : IVec S_ 1 := andi main_v33 main_v37
  let main_v39 : FVec F S300x256 .f32 := Host.absf main_arg12
  let main_cst_14 : FVec F S_ .f32 := constant S_ .f32 0x7F800000#32
  let main_v40 : FVec F S300x256 .f32 := broadcastInDim S300x256 ![] bcast_S_S300x256 main_cst_14
  let main_v41 : IVec S300x256 1 := cmpf .olt main_v39 main_v40
  let main_c_15 : IVec S_ 1 := constantI S_ 1 1#1
  let main_v42 : IVec S_ 1 := (fun x v => Host.reduce IntOp.andi x v reducesTo_S300x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg14
  let main_cst_18 : FVec F S_ .f32 := constant S_ .f32 0x7F800000#32
  let main_v50 : FVec F S256x128 .f32 := broadcastInDim S256x128 ![] bcast_S_S256x128 main_cst_18
  fn_part3 (F := F) main_arg15 main_arg16 main_arg17 main_v48 main_v49 main_v50

def fn_part1 {F : FTy → Type} [FloatOps F] (main_arg8 : FVec F S5x6x1 .f32) (main_arg9 : FVec F S5x3x1 .f32) (main_arg10 : FVec F S5x300 .f32) (main_arg11 : FVec F S5x300 .f32) (main_arg12 : FVec F S300x256 .f32) (main_arg13 : FVec F S256 .f32) (main_arg14 : FVec F S256x128 .f32) (main_arg15 : FVec F S128 .f32) (main_arg16 : FVec F S128x2 .f32) (main_arg17 : FVec F S2 .f32) (main_v13 : IVec S_ 1) (main_v16 : IVec S5x300 1) : IVec S_ 1 :=
  let main_c_5 : IVec S_ 1 := constantI S_ 1 1#1
  let main_v17 : IVec S_ 1 := (fun x v => Host.reduce IntOp.andi x v reducesTo_S5x300_S_d0_1 h_S_) main_v16 main_c_5
  let main_v18 : IVec S_ 1 := andi main_v13 main_v17
  let main_v19 : FVec F S5x6x1 .f32 := Host.absf main_arg8
  let main_cst_6 : FVec F S_ .f32 := constant S_ .f32 0x7F800000#32
  let main_v20 : FVec F S5x6x1 .f32 := broadcastInDim S5x6x1 ![] bcast_S_S5x6x1 main_cst_6
  let main_v21 : IVec S5x6x1 1 := cmpf .olt main_v19 main_v20
  let main_c_7 : IVec S_ 1 := constantI S_ 1 1#1
  let main_v22 : IVec S_ 1 := (fun x v => Host.reduce IntOp.andi x v reducesTo_S5x6x1_S_d0_1_2 h_S_) main_v21 main_c_7
  let main_v23 : IVec S_ 1 := andi main_v18 main_v22
  let main_v24 : FVec F S5x3x1 .f32 := Host.absf main_arg9
  let main_cst_8 : FVec F S_ .f32 := constant S_ .f32 0x7F800000#32
  let main_v25 : FVec F S5x3x1 .f32 := broadcastInDim S5x3x1 ![] bcast_S_S5x3x1 main_cst_8
  let main_v26 : IVec S5x3x1 1 := cmpf .olt main_v24 main_v25
  let main_c_9 : IVec S_ 1 := constantI S_ 1 1#1
  let main_v27 : IVec S_ 1 := (fun x v => Host.reduce IntOp.andi x v reducesTo_S5x3x1_S_d0_1_2 h_S_) main_v26 main_c_9
  let main_v28 : IVec S_ 1 := andi main_v23 main_v27
  let main_v29 : FVec F S5x300 .f32 := Host.absf main_arg10
  let main_cst_10 : FVec F S_ .f32 := constant S_ .f32 0x7F800000#32
  let main_v30 : FVec F S5x300 .f32 := broadcastInDim S5x300 ![] bcast_S_S5x300 main_cst_10
  let main_v31 : IVec S5x300 1 := cmpf .olt main_v29 main_v30
  let main_c_11 : IVec S_ 1 := constantI S_ 1 1#1
  let main_v32 : IVec S_ 1 := (fun x v => Host.reduce IntOp.andi x v reducesTo_S5x300_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S100000x2 32) (main_arg1 : IVec S2x200000 32) (main_arg2 : IVec S200000x2 32) (main_arg3 : IVec S100000 32) (main_arg4 : FVec F S120x300 .f32) (main_arg5 : FVec F S3x300 .f32) (main_arg6 : FVec F S5x300x300 .f32) (main_arg7 : FVec F S5x300 .f32) (main_arg8 : FVec F S5x6x1 .f32) (main_arg9 : FVec F S5x3x1 .f32) (main_arg10 : FVec F S5x300 .f32) (main_arg11 : FVec F S5x300 .f32) (main_arg12 : FVec F S300x256 .f32) (main_arg13 : FVec F S256 .f32) (main_arg14 : FVec F S256x128 .f32) (main_arg15 : FVec F S128 .f32) (main_arg16 : FVec F S128x2 .f32) (main_arg17 : FVec F S2 .f32) : IVec S_ 1 :=
  let main_v0 : FVec F S120x300 .f32 := Host.absf main_arg4
  let main_cst : FVec F S_ .f32 := constant S_ .f32 0x7F800000#32
  let main_v1 : FVec F S120x300 .f32 := broadcastInDim S120x300 ![] bcast_S_S120x300 main_cst
  let main_v2 : IVec S120x300 1 := cmpf .olt main_v0 main_v1
  let main_c : IVec S_ 1 := constantI S_ 1 1#1
  let main_v3 : IVec S_ 1 := (fun x v => Host.reduce IntOp.andi x v reducesTo_S120x300_S_d0_1 h_S_) main_v2 main_c
  let main_v4 : FVec F S3x300 .f32 := Host.absf main_arg5
  let main_cst_0 : FVec F S_ .f32 := constant S_ .f32 0x7F800000#32
  let main_v5 : FVec F S3x300 .f32 := broadcastInDim S3x300 ![] bcast_S_S3x300 main_cst_0
  let main_v6 : IVec S3x300 1 := cmpf .olt main_v4 main_v5
  let main_c_1 : IVec S_ 1 := constantI S_ 1 1#1
  let main_v7 : IVec S_ 1 := (fun x v => Host.reduce IntOp.andi x v reducesTo_S3x300_S_d0_1 h_S_) main_v6 main_c_1
  let main_v8 : IVec S_ 1 := andi main_v3 main_v7
  let main_v9 : FVec F S5x300x300 .f32 := Host.absf main_arg6
  let main_cst_2 : FVec F S_ .f32 := constant S_ .f32 0x7F800000#32
  let main_v10 : FVec F S5x300x300 .f32 := broadcastInDim S5x300x300 ![] bcast_S_S5x300x300 main_cst_2
  let main_v11 : IVec S5x300x300 1 := cmpf .olt main_v9 main_v10
  let main_c_3 : IVec S_ 1 := constantI S_ 1 1#1
  let main_v12 : IVec S_ 1 := (fun x v => Host.reduce IntOp.andi x v reducesTo_S5x300x300_S_d0_1_2 h_S_) main_v11 main_c_3
  let main_v13 : IVec S_ 1 := andi main_v8 main_v12
  let main_v14 : FVec F S5x300 .f32 := Host.absf main_arg7
  let main_cst_4 : FVec F S_ .f32 := constant S_ .f32 0x7F800000#32
  let main_v15 : FVec F S5x300 .f32 := broadcastInDim S5x300 ![] bcast_S_S5x300 main_cst_4
  let main_v16 : IVec S5x300 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x2 : Shape := ⟨2, ![100000, 2]⟩
abbrev S2x200000 : Shape := ⟨2, ![2, 200000]⟩
abbrev S200000x2 : Shape := ⟨2, ![200000, 2]⟩
abbrev S100000 : Shape := ⟨1, ![100000]⟩
abbrev S120x300 : Shape := ⟨2, ![120, 300]⟩
abbrev S3x300 : Shape := ⟨2, ![3, 300]⟩
abbrev S5x300x300 : Shape := ⟨3, ![5, 300, 300]⟩
abbrev S5x300 : Shape := ⟨2, ![5, 300]⟩
abbrev S5x6x1 : Shape := ⟨3, ![5, 6, 1]⟩
abbrev S5x3x1 : Shape := ⟨3, ![5, 3, 1]⟩
abbrev S300x256 : Shape := ⟨2, ![300, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x200000 : Shape := ⟨2, ![1, 200000]⟩
abbrev S200000 : Shape := ⟨1, ![200000]⟩
abbrev S300000 : Shape := ⟨1, ![300000]⟩
abbrev S200000x1 : Shape := ⟨2, ![200000, 1]⟩
abbrev S_ : Shape := ⟨0, ![]⟩
abbrev S100000x1 : Shape := ⟨2, ![100000, 1]⟩
abbrev S100000x300 : Shape := ⟨2, ![100000, 300]⟩
abbrev S1x300x300 : Shape := ⟨3, ![1, 300, 300]⟩
abbrev S300x300 : Shape := ⟨2, ![300, 300]⟩
abbrev S1x300 : Shape := ⟨2, ![1, 300]⟩
abbrev S2000x300 : Shape := ⟨2, ![2000, 300]⟩
abbrev S1x6x1 : Shape := ⟨3, ![1, 6, 1]⟩
abbrev S6x1 : Shape := ⟨2, ![6, 1]⟩
abbrev S300000x1 : Shape := ⟨2, ![300000, 1]⟩
abbrev S1x3x1 : Shape := ⟨3, ![1, 3, 1]⟩
abbrev S3x1 : Shape := ⟨2, ![3, 1]⟩
abbrev S300000x300 : Shape := ⟨2, ![300000, 300]⟩
abbrev S300 : Shape := ⟨1, ![300]⟩
abbrev S1x256 : Shape := ⟨2, ![1, 256]⟩
abbrev S100000x256 : Shape := ⟨2, ![100000, 256]⟩
abbrev S2000x256 : Shape := ⟨2, ![2000, 256]⟩
abbrev S2048x256 : Shape := ⟨2, ![2048, 256]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2 : Shape := ⟨2, ![1, 2]⟩
abbrev S2048x2 : Shape := ⟨2, ![2048, 2]⟩

abbrev nBuf : Space → Nat
  | .hbm => 370
  | .vmem => 124
  | .smem => 0
  | _ => 0

abbrev hbmTy0_0 (i : Nat) : BufTy := match i % 128 with
  | 0 => ⟨S100000x2, .i32⟩
  | 1 => ⟨S2x200000, .i32⟩
  | 2 => ⟨S200000x2, .i32⟩
  | 3 => ⟨S100000, .i32⟩
  | 4 => ⟨S120x300, .f32⟩
  | 5 => ⟨S3x300, .f32⟩
  | 6 => ⟨S5x300x300, .f32⟩
  | 7 => ⟨S5x300, .f32⟩
  | 8 => ⟨S5x6x1, .f32⟩
  | 9 => ⟨S5x3x1, .f32⟩
  | 10 => ⟨S5x300, .f32⟩
  | 11 => ⟨S5x300, .f32⟩
  | 12 => ⟨S300x256, .f32⟩
  | 13 => ⟨S256, .f32⟩
  | 14 => ⟨S256x128, .f32⟩
  | 15 => ⟨S128, .f32⟩
  | 16 => ⟨S128x2, .f32⟩
  | 17 => ⟨S2, .f32⟩
  | 18 => ⟨S100000, .i32⟩
  | 19 => ⟨S1x200000, .i32⟩
  | 20 => ⟨S200000, .i32⟩
  | 21 => ⟨S300000, .i32⟩
  | 22 => ⟨S1x200000, .i32⟩
  | 23 => ⟨S200000, .i32⟩
  | 24 => ⟨S300000, .i32⟩
  | 25 => ⟨S200000x1, .i32⟩
  | 26 => ⟨S200000, .i32⟩
  | 27 => ⟨S_, .i32⟩
  | 28 => ⟨S100000, .i32⟩
  | 29 => ⟨S300000, .i32⟩
  | 30 => ⟨S200000x1, .i32⟩
  | 31 => ⟨S200000, .i32⟩
  | 32 => ⟨S_, .i32⟩
  | 33 => ⟨S100000, .i32⟩
  | 34 => ⟨S300000, .i32⟩
  | 35 => ⟨S100000x1, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x300, .f32⟩
  | 46 => ⟨S100000x1, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x300, .f32⟩
  | 57 => ⟨S100000x300, .f32⟩
  | 58 => ⟨S1x300x300, .f32⟩
  | 59 => ⟨S300x300, .f32⟩
  | 60 => ⟨S_, .f32⟩
  | 61 => ⟨S1x300, .f32⟩
  | 62 => ⟨S100000x300, .f32⟩
  | 63 => ⟨S1x6x1, .f32⟩
  | 64 => ⟨S6x1, .f32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000x1, .f32⟩
  | 74 => ⟨S1x3x1, .f32⟩
  | 75 => ⟨S3x1, .f32⟩
  | 76 => ⟨S_, .i32⟩
  | 77 => ⟨S300000, .i32⟩
  | 78 => ⟨S300000, .i1⟩
  | 79 => ⟨S_, .i32⟩
  | 80 => ⟨S300000, .i32⟩
  | 81 => ⟨S300000, .i32⟩
  | 82 => ⟨S300000, .i32⟩
  | 83 => ⟨S300000x1, .i32⟩
  | 84 => ⟨S300000x1, .f32⟩
  | 85 => ⟨S300000x1, .f32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x300, .f32⟩
  | 95 => ⟨S300000x300, .f32⟩
  | 96 => ⟨S300000x300, .f32⟩
  | 97 => ⟨S_, .f32⟩
  | 98 => ⟨S100000x300, .f32⟩
  | 99 => ⟨S300000x1, .i32⟩
  | 100 => ⟨S100000x300, .f32⟩
  | 101 => ⟨S1x300, .f32⟩
  | 102 => ⟨S300, .f32⟩
  | 103 => ⟨S1x300, .f32⟩
  | 104 => ⟨S1x300, .f32⟩
  | 105 => ⟨S1x300, .f32⟩
  | 106 => ⟨S1x300, .f32⟩
  | 107 => ⟨S300, .f32⟩
  | 108 => ⟨S1x300, .f32⟩
  | 109 => ⟨S300, .f32⟩
  | 110 => ⟨S1x300, .f32⟩
  | 111 => ⟨S300, .f32⟩
  | 112 => ⟨S1x300, .f32⟩
  | 113 => ⟨S1x300, .f32⟩
  | 114 => ⟨S1x300, .f32⟩
  | 115 => ⟨S100000x300, .f32⟩
  | 116 => ⟨S1x300x300, .f32⟩
  | 117 => ⟨S300x300, .f32⟩
  | 118 => ⟨S_, .f32⟩
  | 119 => ⟨S1x300, .f32⟩
  | 120 => ⟨S100000x300, .f32⟩
  | 121 => ⟨S1x6x1, .f32⟩
  | 122 => ⟨S6x1, .f32⟩
  | 123 => ⟨S_, .i32⟩
  | 124 => ⟨S300000, .i32⟩
  | 125 => ⟨S300000, .i1⟩
  | 126 => ⟨S_, .i32⟩
  | 127 => ⟨S300000, .i32⟩
  | _ => ⟨S100000x2, .i32⟩

abbrev hbmTy0_1 (i : Nat) : BufTy := match i % 128 with
  | 0 => ⟨S300000, .i32⟩
  | 1 => ⟨S300000, .i32⟩
  | 2 => ⟨S300000x1, .i32⟩
  | 3 => ⟨S300000x1, .f32⟩
  | 4 => ⟨S1x3x1, .f32⟩
  | 5 => ⟨S3x1, .f32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x1, .f32⟩
  | 15 => ⟨S300000x1, .f32⟩
  | 16 => ⟨S_, .i32⟩
  | 17 => ⟨S300000, .i32⟩
  | 18 => ⟨S300000, .i1⟩
  | 19 => ⟨S_, .i32⟩
  | 20 => ⟨S300000, .i32⟩
  | 21 => ⟨S300000, .i32⟩
  | 22 => ⟨S300000, .i32⟩
  | 23 => ⟨S300000x1, .i32⟩
  | 24 => ⟨S300000x300, .f32⟩
  | 25 => ⟨S300000x300, .f32⟩
  | 26 => ⟨S300000x300, .f32⟩
  | 27 => ⟨S_, .f32⟩
  | 28 => ⟨S100000x300, .f32⟩
  | 29 => ⟨S300000x1, .i32⟩
  | 30 => ⟨S100000x300, .f32⟩
  | 31 => ⟨S1x300, .f32⟩
  | 32 => ⟨S300, .f32⟩
  | 33 => ⟨S1x300, .f32⟩
  | 34 => ⟨S1x300, .f32⟩
  | 35 => ⟨S1x300, .f32⟩
  | 36 => ⟨S1x300, .f32⟩
  | 37 => ⟨S300, .f32⟩
  | 38 => ⟨S1x300, .f32⟩
  | 39 => ⟨S300, .f32⟩
  | 40 => ⟨S1x300, .f32⟩
  | 41 => ⟨S300, .f32⟩
  | 42 => ⟨S1x300, .f32⟩
  | 43 => ⟨S1x300, .f32⟩
  | 44 => ⟨S1x300, .f32⟩
  | 45 => ⟨S100000x300, .f32⟩
  | 46 => ⟨S1x300x300, .f32⟩
  | 47 => ⟨S300x300, .f32⟩
  | 48 => ⟨S_, .f32⟩
  | 49 => ⟨S1x300, .f32⟩
  | 50 => ⟨S100000x300, .f32⟩
  | 51 => ⟨S1x6x1, .f32⟩
  | 52 => ⟨S6x1, .f32⟩
  | 53 => ⟨S_, .i32⟩
  | 54 => ⟨S300000, .i32⟩
  | 55 => ⟨S300000, .i1⟩
  | 56 => ⟨S_, .i32⟩
  | 57 => ⟨S300000, .i32⟩
  | 58 => ⟨S300000, .i32⟩
  | 59 => ⟨S300000, .i32⟩
  | 60 => ⟨S300000x1, .i32⟩
  | 61 => ⟨S300000x1, .f32⟩
  | 62 => ⟨S1x3x1, .f32⟩
  | 63 => ⟨S3x1, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x1, .f32⟩
  | 73 => ⟨S300000x1, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x300, .f32⟩
  | 83 => ⟨S300000x300, .f32⟩
  | 84 => ⟨S300000x300, .f32⟩
  | 85 => ⟨S_, .f32⟩
  | 86 => ⟨S100000x300, .f32⟩
  | 87 => ⟨S300000x1, .i32⟩
  | 88 => ⟨S100000x300, .f32⟩
  | 89 => ⟨S1x300, .f32⟩
  | 90 => ⟨S300, .f32⟩
  | 91 => ⟨S1x300, .f32⟩
  | 92 => ⟨S1x300, .f32⟩
  | 93 => ⟨S1x300, .f32⟩
  | 94 => ⟨S1x300, .f32⟩
  | 95 => ⟨S300, .f32⟩
  | 96 => ⟨S1x300, .f32⟩
  | 97 => ⟨S300, .f32⟩
  | 98 => ⟨S1x300, .f32⟩
  | 99 => ⟨S300, .f32⟩
  | 100 => ⟨S1x300, .f32⟩
  | 101 => ⟨S1x300, .f32⟩
  | 102 => ⟨S1x300, .f32⟩
  | 103 => ⟨S100000x300, .f32⟩
  | 104 => ⟨S1x300x300, .f32⟩
  | 105 => ⟨S300x300, .f32⟩
  | 106 => ⟨S_, .f32⟩
  | 107 => ⟨S1x300, .f32⟩
  | 108 => ⟨S100000x300, .f32⟩
  | 109 => ⟨S1x6x1, .f32⟩
  | 110 => ⟨S6x1, .f32⟩
  | 111 => ⟨S_, .i32⟩
  | 112 => ⟨S300000, .i32⟩
  | 113 => ⟨S300000, .i1⟩
  | 114 => ⟨S_, .i32⟩
  | 115 => ⟨S300000, .i32⟩
  | 116 => ⟨S300000, .i32⟩
  | 117 => ⟨S300000, .i32⟩
  | 118 => ⟨S300000x1, .i32⟩
  | 119 => ⟨S300000x1, .f32⟩
  | 120 => ⟨S1x3x1, .f32⟩
  | 121 => ⟨S3x1, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S100000x2, .i32⟩

abbrev hbmTy0_2 (i : Nat) : BufTy := match i % 128 with
  | 0 => ⟨S300000, .i32⟩
  | 1 => ⟨S300000x1, .i32⟩
  | 2 => ⟨S300000x1, .f32⟩
  | 3 => ⟨S300000x1, .f32⟩
  | 4 => ⟨S_, .i32⟩
  | 5 => ⟨S300000, .i32⟩
  | 6 => ⟨S300000, .i1⟩
  | 7 => ⟨S_, .i32⟩
  | 8 => ⟨S300000, .i32⟩
  | 9 => ⟨S300000, .i32⟩
  | 10 => ⟨S300000, .i32⟩
  | 11 => ⟨S300000x1, .i32⟩
  | 12 => ⟨S300000x300, .f32⟩
  | 13 => ⟨S300000x300, .f32⟩
  | 14 => ⟨S300000x300, .f32⟩
  | 15 => ⟨S_, .f32⟩
  | 16 => ⟨S100000x300, .f32⟩
  | 17 => ⟨S300000x1, .i32⟩
  | 18 => ⟨S100000x300, .f32⟩
  | 19 => ⟨S1x300, .f32⟩
  | 20 => ⟨S300, .f32⟩
  | 21 => ⟨S1x300, .f32⟩
  | 22 => ⟨S1x300, .f32⟩
  | 23 => ⟨S1x300, .f32⟩
  | 24 => ⟨S1x300, .f32⟩
  | 25 => ⟨S300, .f32⟩
  | 26 => ⟨S1x300, .f32⟩
  | 27 => ⟨S300, .f32⟩
  | 28 => ⟨S1x300, .f32⟩
  | 29 => ⟨S300, .f32⟩
  | 30 => ⟨S1x300, .f32⟩
  | 31 => ⟨S1x300, .f32⟩
  | 32 => ⟨S1x300, .f32⟩
  | 33 => ⟨S100000x300, .f32⟩
  | 34 => ⟨S1x300x300, .f32⟩
  | 35 => ⟨S300x300, .f32⟩
  | 36 => ⟨S_, .f32⟩
  | 37 => ⟨S1x300, .f32⟩
  | 38 => ⟨S100000x300, .f32⟩
  | 39 => ⟨S1x6x1, .f32⟩
  | 40 => ⟨S6x1, .f32⟩
  | 41 => ⟨S_, .i32⟩
  | 42 => ⟨S300000, .i32⟩
  | 43 => ⟨S300000, .i1⟩
  | 44 => ⟨S_, .i32⟩
  | 45 => ⟨S300000, .i32⟩
  | 46 => ⟨S300000, .i32⟩
  | 47 => ⟨S300000, .i32⟩
  | 48 => ⟨S300000x1, .i32⟩
  | 49 => ⟨S300000x1, .f32⟩
  | 50 => ⟨S1x3x1, .f32⟩
  | 51 => ⟨S3x1, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x1, .f32⟩
  | 61 => ⟨S300000x1, .f32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S300000x300, .f32⟩
  | 71 => ⟨S300000x300, .f32⟩
  | 72 => ⟨S300000x300, .f32⟩
  | 73 => ⟨S_, .f32⟩
  | 74 => ⟨S100000x300, .f32⟩
  | 75 => ⟨S300000x1, .i32⟩
  | 76 => ⟨S100000x300, .f32⟩
  | 77 => ⟨S1x300, .f32⟩
  | 78 => ⟨S300, .f32⟩
  | 79 => ⟨S1x300, .f32⟩
  | 80 => ⟨S1x300, .f32⟩
  | 81 => ⟨S1x300, .f32⟩
  | 82 => ⟨S1x300, .f32⟩
  | 83 => ⟨S300, .f32⟩
  | 84 => ⟨S1x300, .f32⟩
  | 85 => ⟨S300, .f32⟩
  | 86 => ⟨S1x300, .f32⟩
  | 87 => ⟨S300, .f32⟩
  | 88 => ⟨S1x300, .f32⟩
  | 89 => ⟨S1x300, .f32⟩
  | 90 => ⟨S1x300, .f32⟩
  | 91 => ⟨S100000x300, .f32⟩
  | 92 => ⟨S1x256, .f32⟩
  | 93 => ⟨S100000x256, .f32⟩
  | 94 => ⟨S_, .f32⟩
  | 95 => ⟨S2048x256, .f32⟩
  | 96 => ⟨S100000x1, .i32⟩
  | 97 => ⟨S2048x256, .f32⟩
  | 98 => ⟨S_, .f32⟩
  | 99 => ⟨S100000, .f32⟩
  | 100 => ⟨S_, .f32⟩
  | 101 => ⟨S2048, .f32⟩
  | 102 => ⟨S100000x1, .i32⟩
  | 103 => ⟨S2048, .f32⟩
  | 104 => ⟨S_, .f32⟩
  | 105 => ⟨S2048, .f32⟩
  | 106 => ⟨S2048, .f32⟩
  | 107 => ⟨S2048x1, .f32⟩
  | 108 => ⟨S2048x256, .f32⟩
  | 109 => ⟨S2048x256, .f32⟩
  | 110 => ⟨S1x128, .f32⟩
  | 111 => ⟨S2048x128, .f32⟩
  | 112 => ⟨S1x2, .f32⟩
  | 113 => ⟨S2048x2, .f32⟩
  | _ => ⟨S100000x2, .i32⟩

abbrev hbmTy (i : Nat) : BufTy := match i / 128 with
  | 0 => hbmTy0_0 i
  | 1 => hbmTy0_1 i
  | 2 => hbmTy0_2 i
  | _ => ⟨S100000x2, .i32⟩

abbrev bufTy : (tb : Table) → Fin (tcTables nBuf tb) → BufTy
  | .hbm, ⟨i, _⟩ => hbmTy i
  | .local _ .vmem, ⟨0, _⟩ => ⟨S2000x300, .f32⟩
  | .local _ .vmem, ⟨1, _⟩ => ⟨S2000x300, .f32⟩
  | .local _ .vmem, ⟨2, _⟩ => ⟨S300x300, .f32⟩
  | .local _ .vmem, ⟨3, _⟩ => ⟨S1x300, .f32⟩
  | .local _ .vmem, ⟨4, _⟩ => ⟨S2000x300, .f32⟩
  | .local _ .vmem, ⟨5, _⟩ => ⟨S2000x300, .f32⟩
  | .local _ .vmem, ⟨6, _⟩ => ⟨S2000x300, .f32⟩
  | .local _ .vmem, ⟨7, _⟩ => ⟨S2000x300, .f32⟩
  | .local _ .vmem, ⟨8, _⟩ => ⟨S1x300, .f32⟩
  | .local _ .vmem, ⟨9, _⟩ => ⟨S1x300, .f32⟩
  | .local _ .vmem, ⟨10, _⟩ => ⟨S1x300, .f32⟩
  | .local _ .vmem, ⟨11, _⟩ => ⟨S1x300, .f32⟩
  | .local _ .vmem, ⟨12, _⟩ => ⟨S1x300, .f32⟩
  | .local _ .vmem, ⟨13, _⟩ => ⟨S2000x300, .f32⟩
  | .local _ .vmem, ⟨14, _⟩ => ⟨S2000x300, .f32⟩
  | .local _ .vmem, ⟨15, _⟩ => ⟨S1x300, .f32⟩
  | .local _ .vmem, ⟨16, _⟩ => ⟨S1x300, .f32⟩
  | .local _ .vmem, ⟨17, _⟩ => ⟨S1x300, .f32⟩
  | .local _ .vmem, ⟨18, _⟩ => ⟨S1x300, .f32⟩
  | .local _ .vmem, ⟨19, _⟩ => ⟨S1x300, .f32⟩
  | .local _ .vmem, ⟨20, _⟩ => ⟨S2000x300, .f32⟩
  | .local _ .vmem, ⟨21, _⟩ => ⟨S2000x300, .f32⟩
  | .local _ .vmem, ⟨22, _⟩ => ⟨S2000x300, .f32⟩
  | .local _ .vmem, ⟨23, _⟩ => ⟨S2000x300, .f32⟩
  | .local _ .vmem, ⟨24, _⟩ => ⟨S300x300, .f32⟩
  | .local _ .vmem, ⟨25, _⟩ => ⟨S1x300, .f32⟩
  | .local _ .vmem, ⟨26, _⟩ => ⟨S2000x300, .f32⟩
  | .local _ .vmem, ⟨27, _⟩ => ⟨S2000x300, .f32⟩
  | .local _ .vmem, ⟨28, _⟩ => ⟨S2000x300, .f32⟩
  | .local _ .vmem, ⟨29, _⟩ => ⟨S2000x300, .f32⟩
  | .local _ .vmem, ⟨30, _⟩ => ⟨S1x300, .f32⟩
  | .local _ .vmem, ⟨31, _⟩ => ⟨S1x300, .f32⟩
  | .local _ .vmem, ⟨32, _⟩ => ⟨S1x300, .f32⟩
  | .local _ .vmem, ⟨33, _⟩ => ⟨S1x300, .f32⟩
  | .local _ .vmem, ⟨34, _⟩ => ⟨S1x300, .f32⟩
  | .local _ .vmem, ⟨35, _⟩ => ⟨S2000x300, .f32⟩
  | .local _ .vmem, ⟨36, _⟩ => ⟨S2000x300, .f32⟩
  | .local _ .vmem, ⟨37, _⟩ => ⟨S1x300, .f32⟩
  | .local _ .vmem, ⟨38, _⟩ => ⟨S1x300, .f32⟩
  | .local _ .vmem, ⟨39, _⟩ => ⟨S1x300, .f32⟩
  | .local _ .vmem, ⟨40, _⟩ => ⟨S1x300, .f32⟩
  | .local _ .vmem, ⟨41, _⟩ => ⟨S1x300, .f32⟩
  | .local _ .vmem, ⟨42, _⟩ => ⟨S2000x300, .f32⟩
  | .local _ .vmem, ⟨43, _⟩ => ⟨S2000x300, .f32⟩
  | .local _ .vmem, ⟨44, _⟩ => ⟨S2000x300, .f32⟩
  | .local _ .vmem, ⟨45, _⟩ => ⟨S2000x300, .f32⟩
  | .local _ .vmem, ⟨46, _⟩ => ⟨S300x300, .f32⟩
  | .local _ .vmem, ⟨47, _⟩ => ⟨S1x300, .f32⟩
  | .local _ .vmem, ⟨48, _⟩ => ⟨S2000x300, .f32⟩
  | .local _ .vmem, ⟨49, _⟩ => ⟨S2000x300, .f32⟩
  | .local _ .vmem, ⟨50, _⟩ => ⟨S2000x300, .f32⟩
  | .local _ .vmem, ⟨51, _⟩ => ⟨S2000x300, .f32⟩
  | .local _ .vmem, ⟨52, _⟩ => ⟨S1x300, .f32⟩
  | .local _ .vmem, ⟨53, _⟩ => ⟨S1x300, .f32⟩
  | .local _ .vmem, ⟨54, _⟩ => ⟨S1x300, .f32⟩
  | .local _ .vmem, ⟨55, _⟩ => ⟨S1x300, .f32⟩
  | .local _ .vmem, ⟨56, _⟩ => ⟨S1x300, .f32⟩
  | .local _ .vmem, ⟨57, _⟩ => ⟨S2000x300, .f32⟩
  | .local _ .vmem, ⟨58, _⟩ => ⟨S2000x300, .f32⟩
  | .local _ .vmem, ⟨59, _⟩ => ⟨S1x300, .f32⟩
  | .local _ .vmem, ⟨60, _⟩ => ⟨S1x300, .f32⟩
  | .local _ .vmem, ⟨61, _⟩ => ⟨S1x300, .f32⟩
  | .local _ .vmem, ⟨62, _⟩ => ⟨S1x300, .f32⟩
  | .local _ .vmem, ⟨63, _⟩ => ⟨S1x300, .f32⟩
  | .local _ .vmem, ⟨64, _⟩ => ⟨S2000x300, .f32⟩
  | .local _ .vmem, ⟨65, _⟩ => ⟨S2000x300, .f32⟩
  | .local _ .vmem, ⟨66, _⟩ => ⟨S2000x300, .f32⟩
  | .local _ .vmem, ⟨67, _⟩ => ⟨S2000x300, .f32⟩
  | .local _ .vmem, ⟨68, _⟩ => ⟨S300x300, .f32⟩
  | .local _ .vmem, ⟨69, _⟩ => ⟨S1x300, .f32⟩
  | .local _ .vmem, ⟨70, _⟩ => ⟨S2000x300, .f32⟩
  | .local _ .vmem, ⟨71, _⟩ => ⟨S2000x300, .f32⟩
  | .local _ .vmem, ⟨72, _⟩ => ⟨S2000x300, .f32⟩
  | .local _ .vmem, ⟨73, _⟩ => ⟨S2000x300, .f32⟩
  | .local _ .vmem, ⟨74, _⟩ => ⟨S1x300, .f32⟩
  | .local _ .vmem, ⟨75, _⟩ => ⟨S1x300, .f32⟩
  | .local _ .vmem, ⟨76, _⟩ => ⟨S1x300, .f32⟩
  | .local _ .vmem, ⟨77, _⟩ => ⟨S1x300, .f32⟩
  | .local _ .vmem, ⟨78, _⟩ => ⟨S1x300, .f32⟩
  | .local _ .vmem, ⟨79, _⟩ => ⟨S2000x300, .f32⟩
  | .local _ .vmem, ⟨80, _⟩ => ⟨S2000x300, .f32⟩
  | .local _ .vmem, ⟨81, _⟩ => ⟨S1x300, .f32⟩
  | .local _ .vmem, ⟨82, _⟩ => ⟨S1x300, .f32⟩
  | .local _ .vmem, ⟨83, _⟩ => ⟨S1x300, .f32⟩
  | .local _ .vmem, ⟨84, _⟩ => ⟨S1x300, .f32⟩
  | .local _ .vmem, ⟨85, _⟩ => ⟨S1x300, .f32⟩
  | .local _ .vmem, ⟨86, _⟩ => ⟨S2000x300, .f32⟩
  | .local _ .vmem, ⟨87, _⟩ => ⟨S2000x300, .f32⟩
  | .local _ .vmem, ⟨88, _⟩ => ⟨S2000x300, .f32⟩
  | .local _ .vmem, ⟨89, _⟩ => ⟨S2000x300, .f32⟩
  | .local _ .vmem, ⟨90, _⟩ => ⟨S300x300, .f32⟩
  | .local _ .vmem, ⟨91, _⟩ => ⟨S1x300, .f32⟩
  | .local _ .vmem, ⟨92, _⟩ => ⟨S2000x300, .f32⟩
  | .local _ .vmem, ⟨93, _⟩ => ⟨S2000x300, .f32⟩
  | .local _ .vmem, ⟨94, _⟩ => ⟨S2000x300, .f32⟩
  | .local _ .vmem, ⟨95, _⟩ => ⟨S2000x300, .f32⟩
  | .local _ .vmem, ⟨96, _⟩ => ⟨S1x300, .f32⟩
  | .local _ .vmem, ⟨97, _⟩ => ⟨S1x300, .f32⟩
  | .local _ .vmem, ⟨98, _⟩ => ⟨S1x300, .f32⟩
  | .local _ .vmem, ⟨99, _⟩ => ⟨S1x300, .f32⟩
  | .local _ .vmem, ⟨100, _⟩ => ⟨S1x300, .f32⟩
  | .local _ .vmem, ⟨101, _⟩ => ⟨S2000x300, .f32⟩
  | .local _ .vmem, ⟨102, _⟩ => ⟨S2000x300, .f32⟩
  | .local _ .vmem, ⟨103, _⟩ => ⟨S1x300, .f32⟩
  | .local _ .vmem, ⟨104, _⟩ => ⟨S1x300, .f32⟩
  | .local _ .vmem, ⟨105, _⟩ => ⟨S1x300, .f32⟩
  | .local _ .vmem, ⟨106, _⟩ => ⟨S1x300, .f32⟩
  | .local _ .vmem, ⟨107, _⟩ => ⟨S1x300, .f32⟩
  | .local _ .vmem, ⟨108, _⟩ => ⟨S2000x300, .f32⟩
  | .local _ .vmem, ⟨109, _⟩ => ⟨S2000x300, .f32⟩
  | .local _ .vmem, ⟨110, _⟩ => ⟨S2000x300, .f32⟩
  | .local _ .vmem, ⟨111, _⟩ => ⟨S2000x300, .f32⟩
  | .local _ .vmem, ⟨112, _⟩ => ⟨S300x256, .f32⟩
  | .local _ .vmem, ⟨113, _⟩ => ⟨S1x256, .f32⟩
  | .local _ .vmem, ⟨114, _⟩ => ⟨S2000x256, .f32⟩
  | .local _ .vmem, ⟨115, _⟩ => ⟨S2000x256, .f32⟩
  | .local _ .vmem, ⟨116, _⟩ => ⟨S2048x256, .f32⟩
  | .local _ .vmem, ⟨117, _⟩ => ⟨S256x128, .f32⟩
  | .local _ .vmem, ⟨118, _⟩ => ⟨S1x128, .f32⟩
  | .local _ .vmem, ⟨119, _⟩ => ⟨S2048x128, .f32⟩
  | .local _ .vmem, ⟨120, _⟩ => ⟨S2048x128, .f32⟩
  | .local _ .vmem, ⟨121, _⟩ => ⟨S128x2, .f32⟩
  | .local _ .vmem, ⟨122, _⟩ => ⟨S1x2, .f32⟩
  | .local _ .vmem, ⟨123, _⟩ => ⟨S2048x2, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_7 : Ref sig .tc := ⟨.hbm, 76, rfl⟩
abbrev main_v49 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_12 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_13 : Ref sig .tc := ⟨.hbm, 123, rfl⟩
abbrev main_v89 : Ref sig .tc := ⟨.hbm, 124, rfl⟩
abbrev main_v90 : Ref sig .tc := ⟨.hbm, 125, rfl⟩
abbrev main_c_14 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_15 : Ref sig .tc := ⟨.hbm, 134, rfl⟩
abbrev main_v98 : Ref sig .tc := ⟨.hbm, 135, rfl⟩
abbrev main_v99 : Ref sig .tc := ⟨.hbm, 136, rfl⟩
abbrev main_c_16 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_17 : Ref sig .tc := ⟨.hbm, 144, rfl⟩
abbrev main_v106 : Ref sig .tc := ⟨.hbm, 145, rfl⟩
abbrev main_v107 : Ref sig .tc := ⟨.hbm, 146, rfl⟩
abbrev main_c_18 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_19 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121_0 : Ref sig .tc := ⟨.hbm, 162, rfl⟩
abbrev main_v121_1 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_20 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_21 : Ref sig .tc := ⟨.hbm, 181, rfl⟩
abbrev main_v138 : Ref sig .tc := ⟨.hbm, 182, rfl⟩
abbrev main_v139 : Ref sig .tc := ⟨.hbm, 183, rfl⟩
abbrev main_c_22 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_c_23 : Ref sig .tc := ⟨.hbm, 192, rfl⟩
abbrev main_v147 : Ref sig .tc := ⟨.hbm, 193, rfl⟩
abbrev main_v148 : Ref sig .tc := ⟨.hbm, 194, rfl⟩
abbrev main_c_24 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_c_25 : Ref sig .tc := ⟨.hbm, 202, rfl⟩
abbrev main_v155 : Ref sig .tc := ⟨.hbm, 203, rfl⟩
abbrev main_v156 : Ref sig .tc := ⟨.hbm, 204, rfl⟩
abbrev main_c_26 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_cst_27 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170_0 : Ref sig .tc := ⟨.hbm, 220, rfl⟩
abbrev main_v170_1 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_cst_28 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_c_29 : Ref sig .tc := ⟨.hbm, 239, rfl⟩
abbrev main_v187 : Ref sig .tc := ⟨.hbm, 240, rfl⟩
abbrev main_v188 : Ref sig .tc := ⟨.hbm, 241, rfl⟩
abbrev main_c_30 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_c_31 : Ref sig .tc := ⟨.hbm, 250, rfl⟩
abbrev main_v196 : Ref sig .tc := ⟨.hbm, 251, rfl⟩
abbrev main_v197 : Ref sig .tc := ⟨.hbm, 252, rfl⟩
abbrev main_c_32 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_c_33 : Ref sig .tc := ⟨.hbm, 260, rfl⟩
abbrev main_v204 : Ref sig .tc := ⟨.hbm, 261, rfl⟩
abbrev main_v205 : Ref sig .tc := ⟨.hbm, 262, rfl⟩
abbrev main_c_34 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_cst_35 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219_0 : Ref sig .tc := ⟨.hbm, 278, rfl⟩
abbrev main_v219_1 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_36 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_c_37 : Ref sig .tc := ⟨.hbm, 297, rfl⟩
abbrev main_v236 : Ref sig .tc := ⟨.hbm, 298, rfl⟩
abbrev main_v237 : Ref sig .tc := ⟨.hbm, 299, rfl⟩
abbrev main_c_38 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_c_39 : Ref sig .tc := ⟨.hbm, 308, rfl⟩
abbrev main_v245 : Ref sig .tc := ⟨.hbm, 309, rfl⟩
abbrev main_v246 : Ref sig .tc := ⟨.hbm, 310, rfl⟩
abbrev main_c_40 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_c_41 : Ref sig .tc := ⟨.hbm, 318, rfl⟩
abbrev main_v253 : Ref sig .tc := ⟨.hbm, 319, rfl⟩
abbrev main_v254 : Ref sig .tc := ⟨.hbm, 320, rfl⟩
abbrev main_c_42 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_cst_43 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268_0 : Ref sig .tc := ⟨.hbm, 336, rfl⟩
abbrev main_v268_1 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_cst_44 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_cst_45 : Ref sig .tc := ⟨.hbm, 354, rfl⟩
abbrev main_v284 : Ref sig .tc := ⟨.hbm, 355, rfl⟩
abbrev main_cst_46 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_cst_47 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_scratch0 : Ref sig .tc := ⟨.vmem, 33, rfl⟩
abbrev cc4_scratch1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_scratch0 : Ref sig .tc := ⟨.vmem, 55, rfl⟩
abbrev cc7_scratch1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg5_0 : Ref sig .tc := ⟨.vmem, 63, rfl⟩
abbrev cc8_stg6_0 : Ref sig .tc := ⟨.vmem, 64, rfl⟩
abbrev cc8_stg6_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_scratch0 : Ref sig .tc := ⟨.vmem, 77, rfl⟩
abbrev cc10_scratch1 : Ref sig .tc := ⟨.vmem, 78, rfl⟩
abbrev cc11_stg0_0 : Ref sig .tc := ⟨.vmem, 79, rfl⟩
abbrev cc11_stg0_1 : Ref sig .tc := ⟨.vmem, 80, rfl⟩
abbrev cc11_stg1_0 : Ref sig .tc := ⟨.vmem, 81, rfl⟩
abbrev cc11_stg2_0 : Ref sig .tc := ⟨.vmem, 82, rfl⟩
abbrev cc11_stg3_0 : Ref sig .tc := ⟨.vmem, 83, rfl⟩
abbrev cc11_stg4_0 : Ref sig .tc := ⟨.vmem, 84, rfl⟩
abbrev cc11_stg5_0 : Ref sig .tc := ⟨.vmem, 85, rfl⟩
abbrev cc11_stg6_0 : Ref sig .tc := ⟨.vmem, 86, rfl⟩
abbrev cc11_stg6_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg2_0 : Ref sig .tc := ⟨.vmem, 91, rfl⟩
abbrev cc12_stg3_0 : Ref sig .tc := ⟨.vmem, 92, rfl⟩
abbrev cc12_stg3_1 : Ref sig .tc := ⟨.vmem, 93, rfl⟩
abbrev cc13_stg0_0 : Ref sig .tc := ⟨.vmem, 94, rfl⟩
abbrev cc13_stg0_1 : Ref sig .tc := ⟨.vmem, 95, rfl⟩
abbrev cc13_stg1_0 : Ref sig .tc := ⟨.vmem, 96, rfl⟩
abbrev cc13_stg2_0 : Ref sig .tc := ⟨.vmem, 97, rfl⟩
abbrev cc13_stg3_0 : Ref sig .tc := ⟨.vmem, 98, rfl⟩
abbrev cc13_scratch0 : Ref sig .tc := ⟨.vmem, 99, rfl⟩
abbrev cc13_scratch1 : Ref sig .tc := ⟨.vmem, 100, rfl⟩
abbrev cc14_stg0_0 : Ref sig .tc := ⟨.vmem, 101, rfl⟩
abbrev cc14_stg0_1 : Ref sig .tc := ⟨.vmem, 102, rfl⟩
abbrev cc14_stg1_0 : Ref sig .tc := ⟨.vmem, 103, rfl⟩
abbrev cc14_stg2_0 : Ref sig .tc := ⟨.vmem, 104, rfl⟩
abbrev cc14_stg3_0 : Ref sig .tc := ⟨.vmem, 105, rfl⟩
abbrev cc14_stg4_0 : Ref sig .tc := ⟨.vmem, 106, rfl⟩
abbrev cc14_stg5_0 : Ref sig .tc := ⟨.vmem, 107, rfl⟩
abbrev cc14_stg6_0 : Ref sig .tc := ⟨.vmem, 108, rfl⟩
abbrev cc14_stg6_1 : Ref sig .tc := ⟨.vmem, 109, rfl⟩
abbrev cc15_stg0_0 : Ref sig .tc := ⟨.vmem, 110, rfl⟩
abbrev cc15_stg0_1 : Ref sig .tc := ⟨.vmem, 111, rfl⟩
abbrev cc15_stg1_0 : Ref sig .tc := ⟨.vmem, 112, rfl⟩
abbrev cc15_stg2_0 : Ref sig .tc := ⟨.vmem, 113, rfl⟩
abbrev cc15_stg3_0 : Ref sig .tc := ⟨.vmem, 114, rfl⟩
abbrev cc15_stg3_1 : Ref sig .tc := ⟨.vmem, 115, rfl⟩
abbrev cc16_stg0_0 : Ref sig .tc := ⟨.vmem, 116, rfl⟩
abbrev cc16_stg1_0 : Ref sig .tc := ⟨.vmem, 117, rfl⟩
abbrev cc16_stg2_0 : Ref sig .tc := ⟨.vmem, 118, rfl⟩
abbrev cc16_stg3_0 : Ref sig .tc := ⟨.vmem, 119, rfl⟩
abbrev cc17_stg0_0 : Ref sig .tc := ⟨.vmem, 120, rfl⟩
abbrev cc17_stg1_0 : Ref sig .tc := ⟨.vmem, 121, rfl⟩
abbrev cc17_stg2_0 : Ref sig .tc := ⟨.vmem, 122, rfl⟩
abbrev cc17_stg3_0 : Ref sig .tc := ⟨.vmem, 123, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem3_0 : DmaSem sig := 55
abbrev cc8_sem4_0 : DmaSem sig := 56
abbrev cc8_sem5_0 : DmaSem sig := 57
abbrev cc8_sem6_0 : DmaSem sig := 58
abbrev cc8_sem6_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem3_0 : DmaSem sig := 75
abbrev cc11_sem4_0 : DmaSem sig := 76
abbrev cc11_sem5_0 : DmaSem sig := 77
abbrev cc11_sem6_0 : DmaSem sig := 78
abbrev cc11_sem6_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem3_0 : DmaSem sig := 84
abbrev cc12_sem3_1 : DmaSem sig := 85
abbrev cc13_sem0_0 : DmaSem sig := 86
abbrev cc13_sem0_1 : DmaSem sig := 87
abbrev cc13_sem1_0 : DmaSem sig := 88
abbrev cc13_sem2_0 : DmaSem sig := 89
abbrev cc13_sem3_0 : DmaSem sig := 90
abbrev cc14_sem0_0 : DmaSem sig := 91
abbrev cc14_sem0_1 : DmaSem sig := 92
abbrev cc14_sem1_0 : DmaSem sig := 93
abbrev cc14_sem2_0 : DmaSem sig := 94
abbrev cc14_sem3_0 : DmaSem sig := 95
abbrev cc14_sem4_0 : DmaSem sig := 96
abbrev cc14_sem5_0 : DmaSem sig := 97
abbrev cc14_sem6_0 : DmaSem sig := 98
abbrev cc14_sem6_1 : DmaSem sig := 99
abbrev cc15_sem0_0 : DmaSem sig := 100
abbrev cc15_sem0_1 : DmaSem sig := 101
abbrev cc15_sem1_0 : DmaSem sig := 102
abbrev cc15_sem2_0 : DmaSem sig := 103
abbrev cc15_sem3_0 : DmaSem sig := 104
abbrev cc15_sem3_1 : DmaSem sig := 105
abbrev cc16_sem0_0 : DmaSem sig := 106
abbrev cc16_sem1_0 : DmaSem sig := 107
abbrev cc16_sem2_0 : DmaSem sig := 108
abbrev cc16_sem3_0 : DmaSem sig := 109
abbrev cc17_sem0_0 : DmaSem sig := 110
abbrev cc17_sem1_0 : DmaSem sig := 111
abbrev cc17_sem2_0 : DmaSem sig := 112
abbrev cc17_sem3_0 : DmaSem sig := 113

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x300 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x300 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S300x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x300 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x300 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x300 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x300 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x300 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x300 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x300 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S300x300 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x300 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def k7_cond2 (i : grid7.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x300 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x300 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x300 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x300 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x300 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x300 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x300 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x300 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x300 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x300 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x300 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x300 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S300x300 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x300 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x300 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![50], ![false]⟩

def k10_cond2 (i : grid10.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x300 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x300 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x300 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x300 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x300 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x300 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x300 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x300 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x300 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S2000x300 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x300 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S300x300 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x300 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x300 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![50], ![false]⟩

def k13_cond2 (i : grid13.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x300 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x300 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x300 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x300 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x300 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x300 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x300 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x300 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x300 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x300 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S2000x300 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x300 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S300x256 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x256 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S2048x256 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S256x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S2048x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S2048x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S128x2 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x2 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S2048x2 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

class Facts₀ : Prop where
  slices_S2x200000_S1x200000_0_0 : S2x200000.Slices ![0, 0] S1x200000
  shapeCasts_S1x200000_S200000 : S1x200000.ShapeCasts S200000
  concatenates_S200000_S100000_S300000_d0 : Shape.Concatenates [S200000, S100000] S300000 0
  slices_S2x200000_S1x200000_1_0 : S2x200000.Slices ![1, 0] S1x200000
  slices_S200000x2_S200000x1_0_0 : S200000x2.Slices ![0, 0] S200000x1
  shapeCasts_S200000x1_S200000 : S200000x1.ShapeCasts S200000
  bcast_S_S100000 : S_.BroadcastsInDim S100000 (![] : Fin 0 → Fin S100000.rank)
  slices_S200000x2_S200000x1_0_1 : S200000x2.Slices ![0, 1] S200000x1
  slices_S100000x2_S100000x1_0_0 : S100000x2.Slices ![0, 0] S100000x1
  shapeCasts_S100000x1_S100000 : S100000x1.ShapeCasts S100000
  bcast_S100000_S100000x1_0 : S100000.BroadcastsInDim S100000x1 (![0] : Fin 1 → Fin S100000x1.rank)
  slices_S100000x2_S100000x1_0_1 : S100000x2.Slices ![0, 1] S100000x1
  slices_S5x300x300_S1x300x300_0_0_0 : S5x300x300.Slices ![0, 0, 0] S1x300x300
  shapeCasts_S1x300x300_S300x300 : S1x300x300.ShapeCasts S300x300
  bcast_S_S1x300 : S_.BroadcastsInDim S1x300 (![] : Fin 0 → Fin S1x300.rank)
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  bitsLt_bf16_f32 : FTy.bits .bf16 < FTy.bits .f32
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  slices_S5x6x1_S1x6x1_0_0_0 : S5x6x1.Slices ![0, 0, 0] S1x6x1
  shapeCasts_S1x6x1_S6x1 : S1x6x1.ShapeCasts S6x1
  bcast_S_S300000 : S_.BroadcastsInDim S300000 (![] : Fin 0 → Fin S300000.rank)
  bcast_S300000_S300000x1_0 : S300000.BroadcastsInDim S300000x1 (![0] : Fin 1 → Fin S300000x1.rank)
  slices_S5x3x1_S1x3x1_0_0_0 : S5x3x1.Slices ![0, 0, 0] S1x3x1
  shapeCasts_S1x3x1_S3x1 : S1x3x1.ShapeCasts S3x1
  bcast_S300000x1_S300000x300_0_1 : S300000x1.BroadcastsInDim S300000x300 (![0, 1] : Fin 2 → Fin S300000x300.rank)
  bcast_S_S100000x300 : S_.BroadcastsInDim S100000x300 (![] : Fin 0 → Fin S100000x300.rank)
  slices_S5x300_S1x300_0_0 : S5x300.Slices ![0, 0] S1x300
  shapeCasts_S1x300_S300 : S1x300.ShapeCasts S300
  shapeCasts_S300_S1x300 : S300.ShapeCasts S1x300
  reduces_S2000x300_S300 : S2000x300.Reduces [0] S300
  slices_S5x300x300_S1x300x300_1_0_0 : S5x300x300.Slices ![1, 0, 0] S1x300x300
  slices_S5x6x1_S1x6x1_1_0_0 : S5x6x1.Slices ![1, 0, 0] S1x6x1
  slices_S5x3x1_S1x3x1_1_0_0 : S5x3x1.Slices ![1, 0, 0] S1x3x1
  slices_S5x300_S1x300_1_0 : S5x300.Slices ![1, 0] S1x300
  slices_S5x300x300_S1x300x300_2_0_0 : S5x300x300.Slices ![2, 0, 0] S1x300x300
  slices_S5x6x1_S1x6x1_2_0_0 : S5x6x1.Slices ![2, 0, 0] S1x6x1
  slices_S5x3x1_S1x3x1_2_0_0 : S5x3x1.Slices ![2, 0, 0] S1x3x1
  slices_S5x300_S1x300_2_0 : S5x300.Slices ![2, 0] S1x300
  slices_S5x300x300_S1x300x300_3_0_0 : S5x300x300.Slices ![3, 0, 0] S1x300x300
  slices_S5x6x1_S1x6x1_3_0_0 : S5x6x1.Slices ![3, 0, 0] S1x6x1
  slices_S5x3x1_S1x3x1_3_0_0 : S5x3x1.Slices ![3, 0, 0] S1x3x1
  slices_S5x300_S1x300_3_0 : S5x300.Slices ![3, 0] S1x300
  slices_S5x300x300_S1x300x300_4_0_0 : S5x300x300.Slices ![4, 0, 0] S1x300x300
  slices_S5x6x1_S1x6x1_4_0_0 : S5x6x1.Slices ![4, 0, 0] S1x6x1
  slices_S5x3x1_S1x3x1_4_0_0 : S5x3x1.Slices ![4, 0, 0] S1x3x1
  slices_S5x300_S1x300_4_0 : S5x300.Slices ![4, 0] S1x300
  shapeCasts_S256_S1x256 : S256.ShapeCasts S1x256
  inb_S300x256_S300x256_0_0 : ∀ a, (![0, 0] : Fin 2 → Nat) a + S300x256.size a ≤ S300x256.size a
  h_S300x256 : 0 < S300x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2_S1x2 : S2.ShapeCasts S1x2
  shapeCasts_S2048x128_S2048x128 : S2048x128.ShapeCasts S2048x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  gather_S120x300_S100000x1_S100000x300_1_0_n_n_0_1_1300_wf : GatherDims.WF S120x300 S100000x1 S100000x300 [1] [0] [] [0] [] 1 ![1, 300]
  gather_S3x300_S100000x1_S100000x300_1_0_n_n_0_1_1300_wf : GatherDims.WF S3x300 S100000x1 S100000x300 [1] [0] [] [0] [] 1 ![1, 300]
  dot_S2000x300_S300x300_S2000x300_1_0_0_1_n_n_wf : DotDims.WF S2000x300 S300x300 S2000x300 [1] [0] [0] [1] [] []
  gather_S6x1_S300000x1_S300000x1_1_0_n_n_0_1_11_wf : GatherDims.WF S6x1 S300000x1 S300000x1 [1] [0] [] [0] [] 1 ![1, 1]
  gather_S3x1_S300000x1_S300000x1_1_0_n_n_0_1_11_wf : GatherDims.WF S3x1 S300000x1 S300000x1 [1] [0] [] [0] [] 1 ![1, 1]
  gather_S100000x300_S300000x1_S300000x300_1_0_n_n_0_1_1300_wf : GatherDims.WF S100000x300 S300000x1 S300000x300 [1] [0] [] [0] [] 1 ![1, 300]
  scatter_S100000x300_S300000x1_S300000x300_1_0_0_1_wf : ScatterDims.WF S100000x300 S300000x1 S300000x300 [1] [0] [0] 1
  dot_S2000x300_S300x256_S2000x256_1_0_0_1_n_n_wf : DotDims.WF S2000x300 S300x256 S2000x256 [1] [0] [0] [1] [] []
  scatter_S2048x256_S100000x1_S100000x256_1_0_0_1_wf : ScatterDims.WF S2048x256 S100000x1 S100000x256 [1] [0] [0] 1
  scatter_S2048_S100000x1_S100000_n_0_0_1_wf : ScatterDims.WF S2048 S100000x1 S100000 [] [0] [0] 1
  dot_S2048x256_S256x128_S2048x128_1_0_0_1_n_n_wf : DotDims.WF S2048x256 S256x128 S2048x128 [1] [0] [0] [1] [] []
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S100000x300.size a
  hwx0_0 : ∀ i : grid0.Coords, EltTy.bits .f32 = 32 ∨ (Rect.block (s := S100000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S100000x300.size a
  hwx0_3 : ∀ i : grid0.Coords, EltTy.bits .f32 = 32 ∨ (Rect.block (s := S100000x300) S2000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S100000x300.size a
  hwx1_0 : ∀ i : grid1.Coords, EltTy.bits .f32 = 32 ∨ (Rect.block (s := S100000x300) S2000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x300.size a ≤ S1x300.size a
  hwx1_1 : ∀ i : grid1.Coords, EltTy.bits .f32 = 32 ∨ (Rect.block (s := S1x300) S1x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S100000x300.size a
  hwx2_0 : ∀ i : grid2.Coords, EltTy.bits .f32 = 32 ∨ (Rect.block (s := S100000x300) S2000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x300.size a ≤ S1x300.size a
  hwx2_1 : ∀ i : grid2.Coords, EltTy.bits .f32 = 32 ∨ (Rect.block (s := S1x300) S1x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x300.size a ≤ S1x300.size a
  hwx2_4 : ∀ i : grid2.Coords, EltTy.bits .f32 = 32 ∨ (Rect.block (s := S1x300) S1x300.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x300.size a ≤ S1x300.size a
  hwx2_5 : ∀ i : grid2.Coords, EltTy.bits .f32 = 32 ∨ (Rect.block (s := S1x300) S1x300.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x300.size a ≤ S100000x300.size a
  hwx2_6 : ∀ i : grid2.Coords, EltTy.bits .f32 = 32 ∨ (Rect.block (s := S100000x300) S2000x300.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S100000x300.size a
  hwx3_0 : ∀ i : grid3.Coords, EltTy.bits .f32 = 32 ∨ (Rect.block (s := S100000x300) S2000x300.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S300x300.size a ≤ S300x300.size a
  hwx3_1 : ∀ i : grid3.Coords, EltTy.bits .f32 = 32 ∨ (Rect.block (s := S300x300) S300x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x300.size a ≤ S100000x300.size a
  hwx3_3 : ∀ i : grid3.Coords, EltTy.bits .f32 = 32 ∨ (Rect.block (s := S100000x300) S2000x300.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x300.size a ≤ S100000x300.size a
  hwx4_0 : ∀ i : grid4.Coords, EltTy.bits .f32 = 32 ∨ (Rect.block (s := S100000x300) S2000x300.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x300.size a ≤ S1x300.size a
  hwx4_1 : ∀ i : grid4.Coords, EltTy.bits .f32 = 32 ∨ (Rect.block (s := S1x300) S1x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x300.size a ≤ S1x300.size a
  hwx4_2 : ∀ i : grid4.Coords, EltTy.bits .f32 = 32 ∨ (Rect.block (s := S1x300) S1x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x300.size a ≤ S1x300.size a
  hwx4_3 : ∀ i : grid4.Coords, EltTy.bits .f32 = 32 ∨ (Rect.block (s := S1x300) S1x300.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x300.size a ≤ S100000x300.size a
  hwx5_0 : ∀ i : grid5.Coords, EltTy.bits .f32 = 32 ∨ (Rect.block (s := S100000x300) S2000x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x300.size a ≤ S1x300.size a
  hwx5_1 : ∀ i : grid5.Coords, EltTy.bits .f32 = 32 ∨ (Rect.block (s := S1x300) S1x300.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x300.size a ≤ S1x300.size a
  hwx5_2 : ∀ i : grid5.Coords, EltTy.bits .f32 = 32 ∨ (Rect.block (s := S1x300) S1x300.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x300.size a ≤ S1x300.size a
  hwx5_3 : ∀ i : grid5.Coords, EltTy.bits .f32 = 32 ∨ (Rect.block (s := S1x300) S1x300.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x300.size a ≤ S1x300.size a
  hwx5_4 : ∀ i : grid5.Coords, EltTy.bits .f32 = 32 ∨ (Rect.block (s := S1x300) S1x300.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x300.size a ≤ S1x300.size a
  hwx5_5 : ∀ i : grid5.Coords, EltTy.bits .f32 = 32 ∨ (Rect.block (s := S1x300) S1x300.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x300.size a ≤ S100000x300.size a
  hwx5_6 : ∀ i : grid5.Coords, EltTy.bits .f32 = 32 ∨ (Rect.block (s := S100000x300) S2000x300.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x300.size a ≤ S100000x300.size a
  hwx6_0 : ∀ i : grid6.Coords, EltTy.bits .f32 = 32 ∨ (Rect.block (s := S100000x300) S2000x300.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S300x300.size a ≤ S300x300.size a
  hwx6_1 : ∀ i : grid6.Coords, EltTy.bits .f32 = 32 ∨ (Rect.block (s := S300x300) S300x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x300.size a ≤ S1x300.size a
  hwx6_2 : ∀ i : grid6.Coords, EltTy.bits .f32 = 32 ∨ (Rect.block (s := S1x300) S1x300.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x300.size a ≤ S100000x300.size a
  hwx6_3 : ∀ i : grid6.Coords, EltTy.bits .f32 = 32 ∨ (Rect.block (s := S100000x300) S2000x300.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x300.size a ≤ S100000x300.size a
  hwx7_0 : ∀ i : grid7.Coords, EltTy.bits .f32 = 32 ∨ (Rect.block (s := S100000x300) S2000x300.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x300.size a ≤ S1x300.size a
  hwx7_1 : ∀ i : grid7.Coords, EltTy.bits .f32 = 32 ∨ (Rect.block (s := S1x300) S1x300.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x300.size a ≤ S1x300.size a
  hwx7_2 : ∀ i : grid7.Coords, EltTy.bits .f32 = 32 ∨ (Rect.block (s := S1x300) S1x300.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x300.size a ≤ S1x300.size a
  hwx7_3 : ∀ i : grid7.Coords, EltTy.bits .f32 = 32 ∨ (Rect.block (s := S1x300) S1x300.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x300.size a ≤ S100000x300.size a
  hwx8_0 : ∀ i : grid8.Coords, EltTy.bits .f32 = 32 ∨ (Rect.block (s := S100000x300) S2000x300.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x300.size a ≤ S1x300.size a
  hwx8_1 : ∀ i : grid8.Coords, EltTy.bits .f32 = 32 ∨ (Rect.block (s := S1x300) S1x300.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x300.size a ≤ S1x300.size a
  hwx8_2 : ∀ i : grid8.Coords, EltTy.bits .f32 = 32 ∨ (Rect.block (s := S1x300) S1x300.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x300.size a ≤ S1x300.size a
  hwx8_3 : ∀ i : grid8.Coords, EltTy.bits .f32 = 32 ∨ (Rect.block (s := S1x300) S1x300.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x300.size a ≤ S1x300.size a
  hwx8_4 : ∀ i : grid8.Coords, EltTy.bits .f32 = 32 ∨ (Rect.block (s := S1x300) S1x300.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x300.size a ≤ S1x300.size a
  hwx8_5 : ∀ i : grid8.Coords, EltTy.bits .f32 = 32 ∨ (Rect.block (s := S1x300) S1x300.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x300.size a ≤ S100000x300.size a
  hwx8_6 : ∀ i : grid8.Coords, EltTy.bits .f32 = 32 ∨ (Rect.block (s := S100000x300) S2000x300.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x300.size a ≤ S100000x300.size a
  hwx9_0 : ∀ i : grid9.Coords, EltTy.bits .f32 = 32 ∨ (Rect.block (s := S100000x300) S2000x300.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S300x300.size a ≤ S300x300.size a
  hwx9_1 : ∀ i : grid9.Coords, EltTy.bits .f32 = 32 ∨ (Rect.block (s := S300x300) S300x300.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x300.size a ≤ S1x300.size a
  hwx9_2 : ∀ i : grid9.Coords, EltTy.bits .f32 = 32 ∨ (Rect.block (s := S1x300) S1x300.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x300.size a ≤ S100000x300.size a
  hwx9_3 : ∀ i : grid9.Coords, EltTy.bits .f32 = 32 ∨ (Rect.block (s := S100000x300) S2000x300.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x300.size a ≤ S100000x300.size a
  hwx10_0 : ∀ i : grid10.Coords, EltTy.bits .f32 = 32 ∨ (Rect.block (s := S100000x300) S2000x300.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x300.size a ≤ S1x300.size a
  hwx10_1 : ∀ i : grid10.Coords, EltTy.bits .f32 = 32 ∨ (Rect.block (s := S1x300) S1x300.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x300.size a ≤ S1x300.size a
  hwx10_2 : ∀ i : grid10.Coords, EltTy.bits .f32 = 32 ∨ (Rect.block (s := S1x300) S1x300.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x300.size a ≤ S1x300.size a
  hwx10_3 : ∀ i : grid10.Coords, EltTy.bits .f32 = 32 ∨ (Rect.block (s := S1x300) S1x300.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x300.size a ≤ S100000x300.size a
  hwx11_0 : ∀ i : grid11.Coords, EltTy.bits .f32 = 32 ∨ (Rect.block (s := S100000x300) S2000x300.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x300.size a ≤ S1x300.size a
  hwx11_1 : ∀ i : grid11.Coords, EltTy.bits .f32 = 32 ∨ (Rect.block (s := S1x300) S1x300.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x300.size a ≤ S1x300.size a
  hwx11_2 : ∀ i : grid11.Coords, EltTy.bits .f32 = 32 ∨ (Rect.block (s := S1x300) S1x300.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x300.size a ≤ S1x300.size a
  hwx11_3 : ∀ i : grid11.Coords, EltTy.bits .f32 = 32 ∨ (Rect.block (s := S1x300) S1x300.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x300.size a ≤ S1x300.size a
  hwx11_4 : ∀ i : grid11.Coords, EltTy.bits .f32 = 32 ∨ (Rect.block (s := S1x300) S1x300.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x300.size a ≤ S1x300.size a
  hwx11_5 : ∀ i : grid11.Coords, EltTy.bits .f32 = 32 ∨ (Rect.block (s := S1x300) S1x300.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2000x300.size a ≤ S100000x300.size a
  hwx11_6 : ∀ i : grid11.Coords, EltTy.bits .f32 = 32 ∨ (Rect.block (s := S100000x300) S2000x300.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x300.size a ≤ S100000x300.size a
  hwx12_0 : ∀ i : grid12.Coords, EltTy.bits .f32 = 32 ∨ (Rect.block (s := S100000x300) S2000x300.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S300x300.size a ≤ S300x300.size a
  hwx12_1 : ∀ i : grid12.Coords, EltTy.bits .f32 = 32 ∨ (Rect.block (s := S300x300) S300x300.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x300.size a ≤ S1x300.size a
  hwx12_2 : ∀ i : grid12.Coords, EltTy.bits .f32 = 32 ∨ (Rect.block (s := S1x300) S1x300.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x300.size a ≤ S100000x300.size a
  hwx12_3 : ∀ i : grid12.Coords, EltTy.bits .f32 = 32 ∨ (Rect.block (s := S100000x300) S2000x300.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x300.size a ≤ S100000x300.size a
  hwx13_0 : ∀ i : grid13.Coords, EltTy.bits .f32 = 32 ∨ (Rect.block (s := S100000x300) S2000x300.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x300.size a ≤ S1x300.size a
  hwx13_1 : ∀ i : grid13.Coords, EltTy.bits .f32 = 32 ∨ (Rect.block (s := S1x300) S1x300.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x300.size a ≤ S1x300.size a
  hwx13_2 : ∀ i : grid13.Coords, EltTy.bits .f32 = 32 ∨ (Rect.block (s := S1x300) S1x300.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x300.size a ≤ S1x300.size a
  hwx13_3 : ∀ i : grid13.Coords, EltTy.bits .f32 = 32 ∨ (Rect.block (s := S1x300) S1x300.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x300.size a ≤ S100000x300.size a
  hwx14_0 : ∀ i : grid14.Coords, EltTy.bits .f32 = 32 ∨ (Rect.block (s := S100000x300) S2000x300.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x300.size a ≤ S1x300.size a
  hwx14_1 : ∀ i : grid14.Coords, EltTy.bits .f32 = 32 ∨ (Rect.block (s := S1x300) S1x300.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x300.size a ≤ S1x300.size a
  hwx14_2 : ∀ i : grid14.Coords, EltTy.bits .f32 = 32 ∨ (Rect.block (s := S1x300) S1x300.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x300.size a ≤ S1x300.size a
  hwx14_3 : ∀ i : grid14.Coords, EltTy.bits .f32 = 32 ∨ (Rect.block (s := S1x300) S1x300.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x300.size a ≤ S1x300.size a
  hwx14_4 : ∀ i : grid14.Coords, EltTy.bits .f32 = 32 ∨ (Rect.block (s := S1x300) S1x300.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x300.size a ≤ S1x300.size a
  hwx14_5 : ∀ i : grid14.Coords, EltTy.bits .f32 = 32 ∨ (Rect.block (s := S1x300) S1x300.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S2000x300.size a ≤ S100000x300.size a
  hwx14_6 : ∀ i : grid14.Coords, EltTy.bits .f32 = 32 ∨ (Rect.block (s := S100000x300) S2000x300.size (cc14_transform_6 i) (hinb14_6 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x300.size a ≤ S100000x300.size a
  hwx15_0 : ∀ i : grid15.Coords, EltTy.bits .f32 = 32 ∨ (Rect.block (s := S100000x300) S2000x300.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S300x256.size a ≤ S300x256.size a
  hwx15_1 : ∀ i : grid15.Coords, EltTy.bits .f32 = 32 ∨ (Rect.block (s := S300x256) S300x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x256.size a ≤ S100000x256.size a
  hwx15_3 : ∀ i : grid15.Coords, EltTy.bits .f32 = 32 ∨ (Rect.block (s := S100000x256) S2000x256.size (cc15_transform_3 i) (hinb15_3 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S2048x256.size a ≤ S2048x256.size a
  hwx16_0 : ∀ i : grid16.Coords, EltTy.bits .f32 = 32 ∨ (Rect.block (s := S2048x256) S2048x256.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S256x128.size a ≤ S256x128.size a
  hwx16_1 : ∀ i : grid16.Coords, EltTy.bits .f32 = 32 ∨ (Rect.block (s := S256x128) S256x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 1
  hreads16_3 : ∀ i i' : grid16.Coords, (∀ a, reads16_3 a = true → i a = i' a) → cc16_transform_3 i = cc16_transform_3 i'
  hinb16_3 : ∀ (i : grid16.Coords) a, (cc16_transform_3 i a + 1) * S2048x128.size a ≤ S2048x128.size a
  hwx16_3 : ∀ i : grid16.Coords, EltTy.bits .f32 = 32 ∨ (Rect.block (s := S2048x128) S2048x128.size (cc16_transform_3 i) (hinb16_3 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S2048x128.size a ≤ S2048x128.size a
  hwx17_0 : ∀ i : grid17.Coords, EltTy.bits .f32 = 32 ∨ (Rect.block (s := S2048x128) S2048x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x2.size a ≤ S128x2.size a
  hwx17_1 : ∀ i : grid17.Coords, EltTy.bits .f32 = 32 ∨ (Rect.block (s := S128x2) S128x2.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x2.size a ≤ S1x2.size a
  hwx17_2 : ∀ i : grid17.Coords, EltTy.bits .f32 = 32 ∨ (Rect.block (s := S1x2) S1x2.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S2048x2.size a ≤ S2048x2.size a
  hwx17_3 : ∀ i : grid17.Coords, EltTy.bits .f32 = 32 ∨ (Rect.block (s := S2048x2) S2048x2.size (cc17_transform_3 i) (hinb17_3 i)).WholeWords (EltTy.packing .f32)

variable [Facts₀]

def gather_S120x300_S100000x1_S100000x300_1_0_n_n_0_1_1300 : GatherDims S120x300 S100000x1 S100000x300 where
  offsetDims := [1]
  collapsedSliceDims := [0]
  operandBatchingDims := []
  startIndicesBatchingDims := []
  startIndexMap := [0]
  indexVectorDim := 1
  sliceSizes := ![1, 300]
  wf := gather_S120x300_S100000x1_S100000x300_1_0_n_n_0_1_1300_wf
def gather_S3x300_S100000x1_S100000x300_1_0_n_n_0_1_1300 : GatherDims S3x300 S100000x1 S100000x300 where
  offsetDims := [1]
  collapsedSliceDims := [0]
  operandBatchingDims := []
  startIndicesBatchingDims := []
  startIndexMap := [0]
  indexVectorDim := 1
  sliceSizes := ![1, 300]
  wf := gather_S3x300_S100000x1_S100000x300_1_0_n_n_0_1_1300_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def gather_S6x1_S300000x1_S300000x1_1_0_n_n_0_1_11 : GatherDims S6x1 S300000x1 S300000x1 where
  offsetDims := [1]
  collapsedSliceDims := [0]
  operandBatchingDims := []
  startIndicesBatchingDims := []
  startIndexMap := [0]
  indexVectorDim := 1
  sliceSizes := ![1, 1]
  wf := gather_S6x1_S300000x1_S300000x1_1_0_n_n_0_1_11_wf
def gather_S3x1_S300000x1_S300000x1_1_0_n_n_0_1_11 : GatherDims S3x1 S300000x1 S300000x1 where
  offsetDims := [1]
  collapsedSliceDims := [0]
  operandBatchingDims := []
  startIndicesBatchingDims := []
  startIndexMap := [0]
  indexVectorDim := 1
  sliceSizes := ![1, 1]
  wf := gather_S3x1_S300000x1_S300000x1_1_0_n_n_0_1_11_wf
def gather_S100000x300_S300000x1_S300000x300_1_0_n_n_0_1_1300 : GatherDims S100000x300 S300000x1 S300000x300 where
  offsetDims := [1]
  collapsedSliceDims := [0]
  operandBatchingDims := []
  startIndicesBatchingDims := []
  startIndexMap := [0]
  indexVectorDim := 1
  sliceSizes := ![1, 300]
  wf := gather_S100000x300_S300000x1_S300000x300_1_0_n_n_0_1_1300_wf
def scatter_S100000x300_S300000x1_S300000x300_1_0_0_1 : ScatterDims S100000x300 S300000x1 S300000x300 where
  updateWindowDims := [1]
  insertedWindowDims := [0]
  scatterDimsToOperandDims := [0]
  indexVectorDim := 1
  wf := scatter_S100000x300_S300000x1_S300000x300_1_0_0_1_wf
def dot_S2000x300_S300x256_S2000x256_1_0_0_1_n_n : DotDims S2000x300 S300x256 S2000x256 where
  lhsContracting := [1]
  rhsContracting := [0]
  lhsNonContracting := [0]
  rhsNonContracting := [1]
  lhsBatch := []
  rhsBatch := []
  wf := dot_S2000x300_S300x256_S2000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_v33) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v68) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72_0) S1x300.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72_1) S1x300.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v68) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72_0) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72_1) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S1x300.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S2000x300.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v82) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S300x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S2000x300.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v117) S2000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v120) S1x300.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v121_0) S1x300.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121_1) S1x300.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v117) S2000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v128) S1x300.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121_0) S1x300.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121_1) S1x300.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v129) S1x300.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v130) S1x300.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v131) S2000x300.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v131) S2000x300.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v133) S300x300.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v134) S1x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v135) S2000x300.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v166) S2000x300.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v169) S1x300.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v170_0) S1x300.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v170_1) S1x300.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v166) S2000x300.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v177) S1x300.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v170_0) S1x300.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v170_1) S1x300.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v178) S1x300.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v179) S1x300.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v180) S2000x300.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v180) S2000x300.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v182) S300x300.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v183) S1x300.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v184) S2000x300.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v215) S2000x300.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v218) S1x300.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v219_0) S1x300.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v219_1) S1x300.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun i => !(k10_cond2 i == 1#1) | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v215) S2000x300.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v226) S1x300.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v219_0) S1x300.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v219_1) S1x300.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v227) S1x300.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v228) S1x300.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v229) S2000x300.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v229) S2000x300.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v231) S300x300.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v232) S1x300.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v233) S2000x300.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v264) S2000x300.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v267) S1x300.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v268_0) S1x300.size cc13_transform_2 reads13_2 true true 1 stage13_2 sem13_2
    hrank13 hreads13_2 hinb13_2 nbuf13_2 (Memref.isWhole_whole _) hwx13_2 hstage13_2

abbrev win13_3 : Pipeline.Window sig grid13 :=
  Pipeline.Window.ofSpec (Memref.whole main_v268_1) S1x300.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun i => !(k13_cond2 i == 1#1) | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v264) S2000x300.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v275) S1x300.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v268_0) S1x300.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v268_1) S1x300.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v276) S1x300.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v277) S1x300.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v278) S2000x300.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v278) S2000x300.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg12) S300x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v279) S1x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v280) S2000x256.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v292) S2048x256.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_arg14) S256x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v293) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v294) S2048x128.size cc16_transform_3 reads16_3 true false 1 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v294) S2048x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_arg16) S128x2.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v295) S1x2.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v296) S2048x2.size cc17_transform_3 reads17_3 true false 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

class Facts : Prop extends Facts₀ where

variable [Facts]
-- ==== ReferenceIdeal.lean ====
abbrev S100000x2 : Shape := ⟨2, ![100000, 2]⟩
abbrev S2x200000 : Shape := ⟨2, ![2, 200000]⟩
abbrev S200000x2 : Shape := ⟨2, ![200000, 2]⟩
abbrev S100000 : Shape := ⟨1, ![100000]⟩
abbrev S120x300 : Shape := ⟨2, ![120, 300]⟩
abbrev S3x300 : Shape := ⟨2, ![3, 300]⟩
abbrev S5x300x300 : Shape := ⟨3, ![5, 300, 300]⟩
abbrev S5x300 : Shape := ⟨2, ![5, 300]⟩
abbrev S5x6x1 : Shape := ⟨3, ![5, 6, 1]⟩
abbrev S5x3x1 : Shape := ⟨3, ![5, 3, 1]⟩
abbrev S300x256 : Shape := ⟨2, ![300, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x200000 : Shape := ⟨2, ![1, 200000]⟩
abbrev S200000 : Shape := ⟨1, ![200000]⟩
abbrev S300000 : Shape := ⟨1, ![300000]⟩
abbrev S200000x1 : Shape := ⟨2, ![200000, 1]⟩
abbrev S_ : Shape := ⟨0, ![]⟩
abbrev S100000x1 : Shape := ⟨2, ![100000, 1]⟩
abbrev S100000x300 : Shape := ⟨2, ![100000, 300]⟩
abbrev S1x6x1 : Shape := ⟨3, ![1, 6, 1]⟩
abbrev S6x1 : Shape := ⟨2, ![6, 1]⟩
abbrev S300000x1 : Shape := ⟨2, ![300000, 1]⟩
abbrev S1x3x1 : Shape := ⟨3, ![1, 3, 1]⟩
abbrev S3x1 : Shape := ⟨2, ![3, 1]⟩
abbrev S1x300x300 : Shape := ⟨3, ![1, 300, 300]⟩
abbrev S300x300 : Shape := ⟨2, ![300, 300]⟩
abbrev S300000x300 : Shape := ⟨2, ![300000, 300]⟩
abbrev S1x300 : Shape := ⟨2, ![1, 300]⟩
abbrev S300 : Shape := ⟨1, ![300]⟩
abbrev S100000x256 : Shape := ⟨2, ![100000, 256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩
abbrev S2048x2 : Shape := ⟨2, ![2048, 2]⟩
abbrev S1x2 : Shape := ⟨2, ![1, 2]⟩

abbrev nBuf : Space → Nat
  | .hbm => 504
  | .vmem => 0
  | .smem => 0
  | _ => 0

abbrev hbmTy0_0 (i : Nat) : BufTy := match i % 128 with
  | 0 => ⟨S100000x2, .i32⟩
  | 1 => ⟨S2x200000, .i32⟩
  | 2 => ⟨S200000x2, .i32⟩
  | 3 => ⟨S100000, .i32⟩
  | 4 => ⟨S120x300, .f32⟩
  | 5 => ⟨S3x300, .f32⟩
  | 6 => ⟨S5x300x300, .f32⟩
  | 7 => ⟨S5x300, .f32⟩
  | 8 => ⟨S5x6x1, .f32⟩
  | 9 => ⟨S5x3x1, .f32⟩
  | 10 => ⟨S5x300, .f32⟩
  | 11 => ⟨S5x300, .f32⟩
  | 12 => ⟨S300x256, .f32⟩
  | 13 => ⟨S256, .f32⟩
  | 14 => ⟨S256x128, .f32⟩
  | 15 => ⟨S128, .f32⟩
  | 16 => ⟨S128x2, .f32⟩
  | 17 => ⟨S2, .f32⟩
  | 18 => ⟨S100000, .i32⟩
  | 19 => ⟨S1x200000, .i32⟩
  | 20 => ⟨S200000, .i32⟩
  | 21 => ⟨S300000, .i32⟩
  | 22 => ⟨S1x200000, .i32⟩
  | 23 => ⟨S200000, .i32⟩
  | 24 => ⟨S300000, .i32⟩
  | 25 => ⟨S200000x1, .i32⟩
  | 26 => ⟨S200000, .i32⟩
  | 27 => ⟨S_, .i32⟩
  | 28 => ⟨S100000, .i32⟩
  | 29 => ⟨S300000, .i32⟩
  | 30 => ⟨S200000x1, .i32⟩
  | 31 => ⟨S200000, .i32⟩
  | 32 => ⟨S_, .i32⟩
  | 33 => ⟨S100000, .i32⟩
  | 34 => ⟨S300000, .i32⟩
  | 35 => ⟨S100000x1, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x300, .f32⟩
  | 46 => ⟨S100000x1, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x300, .f32⟩
  | 57 => ⟨S100000x300, .f32⟩
  | 58 => ⟨S1x6x1, .f32⟩
  | 59 => ⟨S6x1, .f32⟩
  | 60 => ⟨S_, .i32⟩
  | 61 => ⟨S300000, .i32⟩
  | 62 => ⟨S300000, .i1⟩
  | 63 => ⟨S_, .i32⟩
  | 64 => ⟨S300000, .i32⟩
  | 65 => ⟨S300000, .i32⟩
  | 66 => ⟨S300000, .i32⟩
  | 67 => ⟨S300000x1, .i32⟩
  | 68 => ⟨S300000x1, .f32⟩
  | 69 => ⟨S1x3x1, .f32⟩
  | 70 => ⟨S3x1, .f32⟩
  | 71 => ⟨S_, .i32⟩
  | 72 => ⟨S300000, .i32⟩
  | 73 => ⟨S300000, .i1⟩
  | 74 => ⟨S_, .i32⟩
  | 75 => ⟨S300000, .i32⟩
  | 76 => ⟨S300000, .i32⟩
  | 77 => ⟨S300000, .i32⟩
  | 78 => ⟨S300000x1, .i32⟩
  | 79 => ⟨S300000x1, .f32⟩
  | 80 => ⟨S300000x1, .f32⟩
  | 81 => ⟨S1x300x300, .f32⟩
  | 82 => ⟨S300x300, .f32⟩
  | 83 => ⟨S100000x300, .f32⟩
  | 84 => ⟨S_, .i32⟩
  | 85 => ⟨S300000, .i32⟩
  | 86 => ⟨S300000, .i1⟩
  | 87 => ⟨S_, .i32⟩
  | 88 => ⟨S300000, .i32⟩
  | 89 => ⟨S300000, .i32⟩
  | 90 => ⟨S300000, .i32⟩
  | 91 => ⟨S300000x1, .i32⟩
  | 92 => ⟨S300000x300, .f32⟩
  | 93 => ⟨S300000x300, .f32⟩
  | 94 => ⟨S300000x300, .f32⟩
  | 95 => ⟨S_, .f32⟩
  | 96 => ⟨S100000x300, .f32⟩
  | 97 => ⟨S300000x1, .i32⟩
  | 98 => ⟨S100000x300, .f32⟩
  | 99 => ⟨S1x300, .f32⟩
  | 100 => ⟨S300, .f32⟩
  | 101 => ⟨S1x300, .f32⟩
  | 102 => ⟨S100000x300, .f32⟩
  | 103 => ⟨S100000x300, .f32⟩
  | 104 => ⟨S_, .f32⟩
  | 105 => ⟨S300, .f32⟩
  | 106 => ⟨S_, .f32⟩
  | 107 => ⟨S300, .f32⟩
  | 108 => ⟨S300, .f32⟩
  | 109 => ⟨S1x300, .f32⟩
  | 110 => ⟨S100000x300, .f32⟩
  | 111 => ⟨S100000x300, .f32⟩
  | 112 => ⟨S100000x300, .f32⟩
  | 113 => ⟨S_, .f32⟩
  | 114 => ⟨S300, .f32⟩
  | 115 => ⟨S_, .f32⟩
  | 116 => ⟨S300, .f32⟩
  | 117 => ⟨S300, .f32⟩
  | 118 => ⟨S1x300, .f32⟩
  | 119 => ⟨S100000x300, .f32⟩
  | 120 => ⟨S100000x300, .f32⟩
  | 121 => ⟨S_, .f32⟩
  | 122 => ⟨S300, .f32⟩
  | 123 => ⟨S300, .f32⟩
  | 124 => ⟨S300, .f32⟩
  | 125 => ⟨S1x300, .f32⟩
  | 126 => ⟨S100000x300, .f32⟩
  | 127 => ⟨S100000x300, .f32⟩
  | _ => ⟨S100000x2, .i32⟩

abbrev hbmTy0_1 (i : Nat) : BufTy := match i % 128 with
  | 0 => ⟨S1x300, .f32⟩
  | 1 => ⟨S300, .f32⟩
  | 2 => ⟨S1x300, .f32⟩
  | 3 => ⟨S100000x300, .f32⟩
  | 4 => ⟨S100000x300, .f32⟩
  | 5 => ⟨S1x300, .f32⟩
  | 6 => ⟨S300, .f32⟩
  | 7 => ⟨S1x300, .f32⟩
  | 8 => ⟨S100000x300, .f32⟩
  | 9 => ⟨S100000x300, .f32⟩
  | 10 => ⟨S_, .f32⟩
  | 11 => ⟨S100000x300, .f32⟩
  | 12 => ⟨S100000x300, .f32⟩
  | 13 => ⟨S1x6x1, .f32⟩
  | 14 => ⟨S6x1, .f32⟩
  | 15 => ⟨S_, .i32⟩
  | 16 => ⟨S300000, .i32⟩
  | 17 => ⟨S300000, .i1⟩
  | 18 => ⟨S_, .i32⟩
  | 19 => ⟨S300000, .i32⟩
  | 20 => ⟨S300000, .i32⟩
  | 21 => ⟨S300000, .i32⟩
  | 22 => ⟨S300000x1, .i32⟩
  | 23 => ⟨S300000x1, .f32⟩
  | 24 => ⟨S1x3x1, .f32⟩
  | 25 => ⟨S3x1, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000x1, .f32⟩
  | 35 => ⟨S300000x1, .f32⟩
  | 36 => ⟨S1x300x300, .f32⟩
  | 37 => ⟨S300x300, .f32⟩
  | 38 => ⟨S100000x300, .f32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000x300, .f32⟩
  | 48 => ⟨S300000x300, .f32⟩
  | 49 => ⟨S300000x300, .f32⟩
  | 50 => ⟨S_, .f32⟩
  | 51 => ⟨S100000x300, .f32⟩
  | 52 => ⟨S300000x1, .i32⟩
  | 53 => ⟨S100000x300, .f32⟩
  | 54 => ⟨S1x300, .f32⟩
  | 55 => ⟨S300, .f32⟩
  | 56 => ⟨S1x300, .f32⟩
  | 57 => ⟨S100000x300, .f32⟩
  | 58 => ⟨S100000x300, .f32⟩
  | 59 => ⟨S_, .f32⟩
  | 60 => ⟨S300, .f32⟩
  | 61 => ⟨S_, .f32⟩
  | 62 => ⟨S300, .f32⟩
  | 63 => ⟨S300, .f32⟩
  | 64 => ⟨S1x300, .f32⟩
  | 65 => ⟨S100000x300, .f32⟩
  | 66 => ⟨S100000x300, .f32⟩
  | 67 => ⟨S100000x300, .f32⟩
  | 68 => ⟨S_, .f32⟩
  | 69 => ⟨S300, .f32⟩
  | 70 => ⟨S_, .f32⟩
  | 71 => ⟨S300, .f32⟩
  | 72 => ⟨S300, .f32⟩
  | 73 => ⟨S1x300, .f32⟩
  | 74 => ⟨S100000x300, .f32⟩
  | 75 => ⟨S100000x300, .f32⟩
  | 76 => ⟨S_, .f32⟩
  | 77 => ⟨S300, .f32⟩
  | 78 => ⟨S300, .f32⟩
  | 79 => ⟨S300, .f32⟩
  | 80 => ⟨S1x300, .f32⟩
  | 81 => ⟨S100000x300, .f32⟩
  | 82 => ⟨S100000x300, .f32⟩
  | 83 => ⟨S1x300, .f32⟩
  | 84 => ⟨S300, .f32⟩
  | 85 => ⟨S1x300, .f32⟩
  | 86 => ⟨S100000x300, .f32⟩
  | 87 => ⟨S100000x300, .f32⟩
  | 88 => ⟨S1x300, .f32⟩
  | 89 => ⟨S300, .f32⟩
  | 90 => ⟨S1x300, .f32⟩
  | 91 => ⟨S100000x300, .f32⟩
  | 92 => ⟨S100000x300, .f32⟩
  | 93 => ⟨S_, .f32⟩
  | 94 => ⟨S100000x300, .f32⟩
  | 95 => ⟨S100000x300, .f32⟩
  | 96 => ⟨S1x6x1, .f32⟩
  | 97 => ⟨S6x1, .f32⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S300000x1, .f32⟩
  | 107 => ⟨S1x3x1, .f32⟩
  | 108 => ⟨S3x1, .f32⟩
  | 109 => ⟨S_, .i32⟩
  | 110 => ⟨S300000, .i32⟩
  | 111 => ⟨S300000, .i1⟩
  | 112 => ⟨S_, .i32⟩
  | 113 => ⟨S300000, .i32⟩
  | 114 => ⟨S300000, .i32⟩
  | 115 => ⟨S300000, .i32⟩
  | 116 => ⟨S300000x1, .i32⟩
  | 117 => ⟨S300000x1, .f32⟩
  | 118 => ⟨S300000x1, .f32⟩
  | 119 => ⟨S1x300x300, .f32⟩
  | 120 => ⟨S300x300, .f32⟩
  | 121 => ⟨S100000x300, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S100000x2, .i32⟩

abbrev hbmTy0_2 (i : Nat) : BufTy := match i % 128 with
  | 0 => ⟨S300000, .i32⟩
  | 1 => ⟨S300000x1, .i32⟩
  | 2 => ⟨S300000x300, .f32⟩
  | 3 => ⟨S300000x300, .f32⟩
  | 4 => ⟨S300000x300, .f32⟩
  | 5 => ⟨S_, .f32⟩
  | 6 => ⟨S100000x300, .f32⟩
  | 7 => ⟨S300000x1, .i32⟩
  | 8 => ⟨S100000x300, .f32⟩
  | 9 => ⟨S1x300, .f32⟩
  | 10 => ⟨S300, .f32⟩
  | 11 => ⟨S1x300, .f32⟩
  | 12 => ⟨S100000x300, .f32⟩
  | 13 => ⟨S100000x300, .f32⟩
  | 14 => ⟨S_, .f32⟩
  | 15 => ⟨S300, .f32⟩
  | 16 => ⟨S_, .f32⟩
  | 17 => ⟨S300, .f32⟩
  | 18 => ⟨S300, .f32⟩
  | 19 => ⟨S1x300, .f32⟩
  | 20 => ⟨S100000x300, .f32⟩
  | 21 => ⟨S100000x300, .f32⟩
  | 22 => ⟨S100000x300, .f32⟩
  | 23 => ⟨S_, .f32⟩
  | 24 => ⟨S300, .f32⟩
  | 25 => ⟨S_, .f32⟩
  | 26 => ⟨S300, .f32⟩
  | 27 => ⟨S300, .f32⟩
  | 28 => ⟨S1x300, .f32⟩
  | 29 => ⟨S100000x300, .f32⟩
  | 30 => ⟨S100000x300, .f32⟩
  | 31 => ⟨S_, .f32⟩
  | 32 => ⟨S300, .f32⟩
  | 33 => ⟨S300, .f32⟩
  | 34 => ⟨S300, .f32⟩
  | 35 => ⟨S1x300, .f32⟩
  | 36 => ⟨S100000x300, .f32⟩
  | 37 => ⟨S100000x300, .f32⟩
  | 38 => ⟨S1x300, .f32⟩
  | 39 => ⟨S300, .f32⟩
  | 40 => ⟨S1x300, .f32⟩
  | 41 => ⟨S100000x300, .f32⟩
  | 42 => ⟨S100000x300, .f32⟩
  | 43 => ⟨S1x300, .f32⟩
  | 44 => ⟨S300, .f32⟩
  | 45 => ⟨S1x300, .f32⟩
  | 46 => ⟨S100000x300, .f32⟩
  | 47 => ⟨S100000x300, .f32⟩
  | 48 => ⟨S_, .f32⟩
  | 49 => ⟨S100000x300, .f32⟩
  | 50 => ⟨S100000x300, .f32⟩
  | 51 => ⟨S1x6x1, .f32⟩
  | 52 => ⟨S6x1, .f32⟩
  | 53 => ⟨S_, .i32⟩
  | 54 => ⟨S300000, .i32⟩
  | 55 => ⟨S300000, .i1⟩
  | 56 => ⟨S_, .i32⟩
  | 57 => ⟨S300000, .i32⟩
  | 58 => ⟨S300000, .i32⟩
  | 59 => ⟨S300000, .i32⟩
  | 60 => ⟨S300000x1, .i32⟩
  | 61 => ⟨S300000x1, .f32⟩
  | 62 => ⟨S1x3x1, .f32⟩
  | 63 => ⟨S3x1, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x1, .f32⟩
  | 73 => ⟨S300000x1, .f32⟩
  | 74 => ⟨S1x300x300, .f32⟩
  | 75 => ⟨S300x300, .f32⟩
  | 76 => ⟨S100000x300, .f32⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S300000x300, .f32⟩
  | 86 => ⟨S300000x300, .f32⟩
  | 87 => ⟨S300000x300, .f32⟩
  | 88 => ⟨S_, .f32⟩
  | 89 => ⟨S100000x300, .f32⟩
  | 90 => ⟨S300000x1, .i32⟩
  | 91 => ⟨S100000x300, .f32⟩
  | 92 => ⟨S1x300, .f32⟩
  | 93 => ⟨S300, .f32⟩
  | 94 => ⟨S1x300, .f32⟩
  | 95 => ⟨S100000x300, .f32⟩
  | 96 => ⟨S100000x300, .f32⟩
  | 97 => ⟨S_, .f32⟩
  | 98 => ⟨S300, .f32⟩
  | 99 => ⟨S_, .f32⟩
  | 100 => ⟨S300, .f32⟩
  | 101 => ⟨S300, .f32⟩
  | 102 => ⟨S1x300, .f32⟩
  | 103 => ⟨S100000x300, .f32⟩
  | 104 => ⟨S100000x300, .f32⟩
  | 105 => ⟨S100000x300, .f32⟩
  | 106 => ⟨S_, .f32⟩
  | 107 => ⟨S300, .f32⟩
  | 108 => ⟨S_, .f32⟩
  | 109 => ⟨S300, .f32⟩
  | 110 => ⟨S300, .f32⟩
  | 111 => ⟨S1x300, .f32⟩
  | 112 => ⟨S100000x300, .f32⟩
  | 113 => ⟨S100000x300, .f32⟩
  | 114 => ⟨S_, .f32⟩
  | 115 => ⟨S300, .f32⟩
  | 116 => ⟨S300, .f32⟩
  | 117 => ⟨S300, .f32⟩
  | 118 => ⟨S1x300, .f32⟩
  | 119 => ⟨S100000x300, .f32⟩
  | 120 => ⟨S100000x300, .f32⟩
  | 121 => ⟨S1x300, .f32⟩
  | 122 => ⟨S300, .f32⟩
  | 123 => ⟨S1x300, .f32⟩
  | 124 => ⟨S100000x300, .f32⟩
  | 125 => ⟨S100000x300, .f32⟩
  | 126 => ⟨S1x300, .f32⟩
  | 127 => ⟨S300, .f32⟩
  | _ => ⟨S100000x2, .i32⟩

abbrev hbmTy0_3 (i : Nat) : BufTy := match i % 128 with
  | 0 => ⟨S1x300, .f32⟩
  | 1 => ⟨S100000x300, .f32⟩
  | 2 => ⟨S100000x300, .f32⟩
  | 3 => ⟨S_, .f32⟩
  | 4 => ⟨S100000x300, .f32⟩
  | 5 => ⟨S100000x300, .f32⟩
  | 6 => ⟨S1x6x1, .f32⟩
  | 7 => ⟨S6x1, .f32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S300000x1, .f32⟩
  | 17 => ⟨S1x3x1, .f32⟩
  | 18 => ⟨S3x1, .f32⟩
  | 19 => ⟨S_, .i32⟩
  | 20 => ⟨S300000, .i32⟩
  | 21 => ⟨S300000, .i1⟩
  | 22 => ⟨S_, .i32⟩
  | 23 => ⟨S300000, .i32⟩
  | 24 => ⟨S300000, .i32⟩
  | 25 => ⟨S300000, .i32⟩
  | 26 => ⟨S300000x1, .i32⟩
  | 27 => ⟨S300000x1, .f32⟩
  | 28 => ⟨S300000x1, .f32⟩
  | 29 => ⟨S1x300x300, .f32⟩
  | 30 => ⟨S300x300, .f32⟩
  | 31 => ⟨S100000x300, .f32⟩
  | 32 => ⟨S_, .i32⟩
  | 33 => ⟨S300000, .i32⟩
  | 34 => ⟨S300000, .i1⟩
  | 35 => ⟨S_, .i32⟩
  | 36 => ⟨S300000, .i32⟩
  | 37 => ⟨S300000, .i32⟩
  | 38 => ⟨S300000, .i32⟩
  | 39 => ⟨S300000x1, .i32⟩
  | 40 => ⟨S300000x300, .f32⟩
  | 41 => ⟨S300000x300, .f32⟩
  | 42 => ⟨S300000x300, .f32⟩
  | 43 => ⟨S_, .f32⟩
  | 44 => ⟨S100000x300, .f32⟩
  | 45 => ⟨S300000x1, .i32⟩
  | 46 => ⟨S100000x300, .f32⟩
  | 47 => ⟨S1x300, .f32⟩
  | 48 => ⟨S300, .f32⟩
  | 49 => ⟨S1x300, .f32⟩
  | 50 => ⟨S100000x300, .f32⟩
  | 51 => ⟨S100000x300, .f32⟩
  | 52 => ⟨S_, .f32⟩
  | 53 => ⟨S300, .f32⟩
  | 54 => ⟨S_, .f32⟩
  | 55 => ⟨S300, .f32⟩
  | 56 => ⟨S300, .f32⟩
  | 57 => ⟨S1x300, .f32⟩
  | 58 => ⟨S100000x300, .f32⟩
  | 59 => ⟨S100000x300, .f32⟩
  | 60 => ⟨S100000x300, .f32⟩
  | 61 => ⟨S_, .f32⟩
  | 62 => ⟨S300, .f32⟩
  | 63 => ⟨S_, .f32⟩
  | 64 => ⟨S300, .f32⟩
  | 65 => ⟨S300, .f32⟩
  | 66 => ⟨S1x300, .f32⟩
  | 67 => ⟨S100000x300, .f32⟩
  | 68 => ⟨S100000x300, .f32⟩
  | 69 => ⟨S_, .f32⟩
  | 70 => ⟨S300, .f32⟩
  | 71 => ⟨S300, .f32⟩
  | 72 => ⟨S300, .f32⟩
  | 73 => ⟨S1x300, .f32⟩
  | 74 => ⟨S100000x300, .f32⟩
  | 75 => ⟨S100000x300, .f32⟩
  | 76 => ⟨S1x300, .f32⟩
  | 77 => ⟨S300, .f32⟩
  | 78 => ⟨S1x300, .f32⟩
  | 79 => ⟨S100000x300, .f32⟩
  | 80 => ⟨S100000x300, .f32⟩
  | 81 => ⟨S1x300, .f32⟩
  | 82 => ⟨S300, .f32⟩
  | 83 => ⟨S1x300, .f32⟩
  | 84 => ⟨S100000x300, .f32⟩
  | 85 => ⟨S100000x300, .f32⟩
  | 86 => ⟨S_, .f32⟩
  | 87 => ⟨S100000x300, .f32⟩
  | 88 => ⟨S100000x300, .f32⟩
  | 89 => ⟨S100000x256, .f32⟩
  | 90 => ⟨S1x256, .f32⟩
  | 91 => ⟨S100000x256, .f32⟩
  | 92 => ⟨S100000x256, .f32⟩
  | 93 => ⟨S_, .f32⟩
  | 94 => ⟨S2048x256, .f32⟩
  | 95 => ⟨S100000x1, .i32⟩
  | 96 => ⟨S2048x256, .f32⟩
  | 97 => ⟨S_, .f32⟩
  | 98 => ⟨S100000, .f32⟩
  | 99 => ⟨S_, .f32⟩
  | 100 => ⟨S2048, .f32⟩
  | 101 => ⟨S100000x1, .i32⟩
  | 102 => ⟨S2048, .f32⟩
  | 103 => ⟨S_, .f32⟩
  | 104 => ⟨S2048, .f32⟩
  | 105 => ⟨S2048, .f32⟩
  | 106 => ⟨S2048x1, .f32⟩
  | 107 => ⟨S2048x256, .f32⟩
  | 108 => ⟨S2048x256, .f32⟩
  | 109 => ⟨S2048x128, .f32⟩
  | 110 => ⟨S1x128, .f32⟩
  | 111 => ⟨S2048x128, .f32⟩
  | 112 => ⟨S2048x128, .f32⟩
  | 113 => ⟨S_, .f32⟩
  | 114 => ⟨S2048x128, .f32⟩
  | 115 => ⟨S2048x128, .f32⟩
  | 116 => ⟨S2048x2, .f32⟩
  | 117 => ⟨S1x2, .f32⟩
  | 118 => ⟨S2048x2, .f32⟩
  | 119 => ⟨S2048x2, .f32⟩
  | _ => ⟨S100000x2, .i32⟩

abbrev hbmTy (i : Nat) : BufTy := match i / 128 with
  | 0 => hbmTy0_0 i
  | 1 => hbmTy0_1 i
  | 2 => hbmTy0_2 i
  | 3 => hbmTy0_3 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_11 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call0_cst : Ref sig .tc := ⟨.hbm, 138, rfl⟩
abbrev main_call0_v0 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_16 : Ref sig .tc := ⟨.hbm, 143, rfl⟩
abbrev main_v105 : Ref sig .tc := ⟨.hbm, 144, rfl⟩
abbrev main_v106 : Ref sig .tc := ⟨.hbm, 145, rfl⟩
abbrev main_c_17 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_18 : Ref sig .tc := ⟨.hbm, 154, rfl⟩
abbrev main_v114 : Ref sig .tc := ⟨.hbm, 155, rfl⟩
abbrev main_v115 : Ref sig .tc := ⟨.hbm, 156, rfl⟩
abbrev main_c_19 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_20 : Ref sig .tc := ⟨.hbm, 167, rfl⟩
abbrev main_v125 : Ref sig .tc := ⟨.hbm, 168, rfl⟩
abbrev main_v126 : Ref sig .tc := ⟨.hbm, 169, rfl⟩
abbrev main_c_21 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_22 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_23 : Ref sig .tc := ⟨.hbm, 187, rfl⟩
abbrev main_v142 : Ref sig .tc := ⟨.hbm, 188, rfl⟩
abbrev main_cst_24 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_25 : Ref sig .tc := ⟨.hbm, 196, rfl⟩
abbrev main_v149 : Ref sig .tc := ⟨.hbm, 197, rfl⟩
abbrev main_cst_26 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_27 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_call1_cst : Ref sig .tc := ⟨.hbm, 221, rfl⟩
abbrev main_call1_v0 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_c_28 : Ref sig .tc := ⟨.hbm, 226, rfl⟩
abbrev main_v174 : Ref sig .tc := ⟨.hbm, 227, rfl⟩
abbrev main_v175 : Ref sig .tc := ⟨.hbm, 228, rfl⟩
abbrev main_c_29 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_c_30 : Ref sig .tc := ⟨.hbm, 237, rfl⟩
abbrev main_v183 : Ref sig .tc := ⟨.hbm, 238, rfl⟩
abbrev main_v184 : Ref sig .tc := ⟨.hbm, 239, rfl⟩
abbrev main_c_31 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_c_32 : Ref sig .tc := ⟨.hbm, 250, rfl⟩
abbrev main_v194 : Ref sig .tc := ⟨.hbm, 251, rfl⟩
abbrev main_v195 : Ref sig .tc := ⟨.hbm, 252, rfl⟩
abbrev main_c_33 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_34 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_35 : Ref sig .tc := ⟨.hbm, 270, rfl⟩
abbrev main_v211 : Ref sig .tc := ⟨.hbm, 271, rfl⟩
abbrev main_cst_36 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_cst_37 : Ref sig .tc := ⟨.hbm, 279, rfl⟩
abbrev main_v218 : Ref sig .tc := ⟨.hbm, 280, rfl⟩
abbrev main_cst_38 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_cst_39 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_call2_cst : Ref sig .tc := ⟨.hbm, 304, rfl⟩
abbrev main_call2_v0 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_c_40 : Ref sig .tc := ⟨.hbm, 309, rfl⟩
abbrev main_v243 : Ref sig .tc := ⟨.hbm, 310, rfl⟩
abbrev main_v244 : Ref sig .tc := ⟨.hbm, 311, rfl⟩
abbrev main_c_41 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_c_42 : Ref sig .tc := ⟨.hbm, 320, rfl⟩
abbrev main_v252 : Ref sig .tc := ⟨.hbm, 321, rfl⟩
abbrev main_v253 : Ref sig .tc := ⟨.hbm, 322, rfl⟩
abbrev main_c_43 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_c_44 : Ref sig .tc := ⟨.hbm, 333, rfl⟩
abbrev main_v263 : Ref sig .tc := ⟨.hbm, 334, rfl⟩
abbrev main_v264 : Ref sig .tc := ⟨.hbm, 335, rfl⟩
abbrev main_c_45 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_cst_46 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_cst_47 : Ref sig .tc := ⟨.hbm, 353, rfl⟩
abbrev main_v280 : Ref sig .tc := ⟨.hbm, 354, rfl⟩
abbrev main_cst_48 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_cst_49 : Ref sig .tc := ⟨.hbm, 362, rfl⟩
abbrev main_v287 : Ref sig .tc := ⟨.hbm, 363, rfl⟩
abbrev main_cst_50 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_cst_51 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_call3_cst : Ref sig .tc := ⟨.hbm, 387, rfl⟩
abbrev main_call3_v0 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_c_52 : Ref sig .tc := ⟨.hbm, 392, rfl⟩
abbrev main_v312 : Ref sig .tc := ⟨.hbm, 393, rfl⟩
abbrev main_v313 : Ref sig .tc := ⟨.hbm, 394, rfl⟩
abbrev main_c_53 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_c_54 : Ref sig .tc := ⟨.hbm, 403, rfl⟩
abbrev main_v321 : Ref sig .tc := ⟨.hbm, 404, rfl⟩
abbrev main_v322 : Ref sig .tc := ⟨.hbm, 405, rfl⟩
abbrev main_c_55 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_c_56 : Ref sig .tc := ⟨.hbm, 416, rfl⟩
abbrev main_v332 : Ref sig .tc := ⟨.hbm, 417, rfl⟩
abbrev main_v333 : Ref sig .tc := ⟨.hbm, 418, rfl⟩
abbrev main_c_57 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_cst_58 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_cst_59 : Ref sig .tc := ⟨.hbm, 436, rfl⟩
abbrev main_v349 : Ref sig .tc := ⟨.hbm, 437, rfl⟩
abbrev main_cst_60 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_cst_61 : Ref sig .tc := ⟨.hbm, 445, rfl⟩
abbrev main_v356 : Ref sig .tc := ⟨.hbm, 446, rfl⟩
abbrev main_cst_62 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_cst_63 : Ref sig .tc := ⟨.hbm, 453, rfl⟩
abbrev main_v362 : Ref sig .tc := ⟨.hbm, 454, rfl⟩
abbrev main_v363 : Ref sig .tc := ⟨.hbm, 455, rfl⟩
abbrev main_v364 : Ref sig .tc := ⟨.hbm, 456, rfl⟩
abbrev main_v365 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_v369 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_call4_cst : Ref sig .tc := ⟨.hbm, 470, rfl⟩
abbrev main_call4_v0 : Ref sig .tc := ⟨.hbm, 471, rfl⟩
abbrev main_v378 : Ref sig .tc := ⟨.hbm, 472, rfl⟩
abbrev main_v379 : Ref sig .tc := ⟨.hbm, 473, rfl⟩
abbrev main_v380 : Ref sig .tc := ⟨.hbm, 474, rfl⟩
abbrev main_v381 : Ref sig .tc := ⟨.hbm, 475, rfl⟩
abbrev main_v382 : Ref sig .tc := ⟨.hbm, 476, rfl⟩
abbrev main_cst_64 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_cst_65 : Ref sig .tc := ⟨.hbm, 481, rfl⟩
abbrev main_v386 : Ref sig .tc := ⟨.hbm, 482, rfl⟩
abbrev main_cst_66 : Ref sig .tc := ⟨.hbm, 483, rfl⟩
abbrev main_v387 : Ref sig .tc := ⟨.hbm, 484, rfl⟩
abbrev main_v388 : Ref sig .tc := ⟨.hbm, 485, rfl⟩
abbrev main_v389 : Ref sig .tc := ⟨.hbm, 486, rfl⟩
abbrev main_cst_67 : Ref sig .tc := ⟨.hbm, 487, rfl⟩
abbrev main_v390 : Ref sig .tc := ⟨.hbm, 488, rfl⟩
abbrev main_v391 : Ref sig .tc := ⟨.hbm, 489, rfl⟩
abbrev main_v392 : Ref sig .tc := ⟨.hbm, 490, rfl⟩
abbrev main_v393 : Ref sig .tc := ⟨.hbm, 491, rfl⟩
abbrev main_v394 : Ref sig .tc := ⟨.hbm, 492, rfl⟩
abbrev main_v395 : Ref sig .tc := ⟨.hbm, 493, rfl⟩
abbrev main_v396 : Ref sig .tc := ⟨.hbm, 494, rfl⟩
abbrev main_v397 : Ref sig .tc := ⟨.hbm, 495, rfl⟩
abbrev main_v398 : Ref sig .tc := ⟨.hbm, 496, rfl⟩
abbrev main_call5_cst : Ref sig .tc := ⟨.hbm, 497, rfl⟩
abbrev main_call5_v0 : Ref sig .tc := ⟨.hbm, 498, rfl⟩
abbrev main_v399 : Ref sig .tc := ⟨.hbm, 499, rfl⟩
abbrev main_v400 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S100000_S300000_d0 : Shape.Concatenates [S200000, S100000] S300000 0
  slices_S2x200000_S1x200000_1_0 : S2x200000.Slices ![1, 0] S1x200000
  slices_S200000x2_S200000x1_0_0 : S200000x2.Slices ![0, 0] S200000x1
  shapeCasts_S200000x1_S200000 : S200000x1.ShapeCasts S200000
  bcast_S_S100000 : S_.BroadcastsInDim S100000 (![] : Fin 0 → Fin S100000.rank)
  slices_S200000x2_S200000x1_0_1 : S200000x2.Slices ![0, 1] S200000x1
  slices_S100000x2_S100000x1_0_0 : S100000x2.Slices ![0, 0] S100000x1
  shapeCasts_S100000x1_S100000 : S100000x1.ShapeCasts S100000
  bcast_S100000_S100000x1_0 : S100000.BroadcastsInDim S100000x1 (![0] : Fin 1 → Fin S100000x1.rank)
  slices_S100000x2_S100000x1_0_1 : S100000x2.Slices ![0, 1] S100000x1
  slices_S5x6x1_S1x6x1_0_0_0 : S5x6x1.Slices ![0, 0, 0] S1x6x1
  shapeCasts_S1x6x1_S6x1 : S1x6x1.ShapeCasts S6x1
  bcast_S_S300000 : S_.BroadcastsInDim S300000 (![] : Fin 0 → Fin S300000.rank)
  bcast_S300000_S300000x1_0 : S300000.BroadcastsInDim S300000x1 (![0] : Fin 1 → Fin S300000x1.rank)
  slices_S5x3x1_S1x3x1_0_0_0 : S5x3x1.Slices ![0, 0, 0] S1x3x1
  shapeCasts_S1x3x1_S3x1 : S1x3x1.ShapeCasts S3x1
  slices_S5x300x300_S1x300x300_0_0_0 : S5x300x300.Slices ![0, 0, 0] S1x300x300
  shapeCasts_S1x300x300_S300x300 : S1x300x300.ShapeCasts S300x300
  bcast_S300000x1_S300000x300_0_1 : S300000x1.BroadcastsInDim S300000x300 (![0, 1] : Fin 2 → Fin S300000x300.rank)
  bcast_S_S100000x300 : S_.BroadcastsInDim S100000x300 (![] : Fin 0 → Fin S100000x300.rank)
  slices_S5x300_S1x300_0_0 : S5x300.Slices ![0, 0] S1x300
  shapeCasts_S1x300_S300 : S1x300.ShapeCasts S300
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  reducesTo_S100000x300_S300_d0 : S100000x300.ReducesTo [0] S300
  h_S_ : 0 < S_.numel
  bcast_S_S300 : S_.BroadcastsInDim S300 (![] : Fin 0 → Fin S300.rank)
  slices_S5x6x1_S1x6x1_1_0_0 : S5x6x1.Slices ![1, 0, 0] S1x6x1
  slices_S5x3x1_S1x3x1_1_0_0 : S5x3x1.Slices ![1, 0, 0] S1x3x1
  slices_S5x300x300_S1x300x300_1_0_0 : S5x300x300.Slices ![1, 0, 0] S1x300x300
  slices_S5x300_S1x300_1_0 : S5x300.Slices ![1, 0] S1x300
  slices_S5x6x1_S1x6x1_2_0_0 : S5x6x1.Slices ![2, 0, 0] S1x6x1
  slices_S5x3x1_S1x3x1_2_0_0 : S5x3x1.Slices ![2, 0, 0] S1x3x1
  slices_S5x300x300_S1x300x300_2_0_0 : S5x300x300.Slices ![2, 0, 0] S1x300x300
  slices_S5x300_S1x300_2_0 : S5x300.Slices ![2, 0] S1x300
  slices_S5x6x1_S1x6x1_3_0_0 : S5x6x1.Slices ![3, 0, 0] S1x6x1
  slices_S5x3x1_S1x3x1_3_0_0 : S5x3x1.Slices ![3, 0, 0] S1x3x1
  slices_S5x300x300_S1x300x300_3_0_0 : S5x300x300.Slices ![3, 0, 0] S1x300x300
  slices_S5x300_S1x300_3_0 : S5x300.Slices ![3, 0] S1x300
  slices_S5x6x1_S1x6x1_4_0_0 : S5x6x1.Slices ![4, 0, 0] S1x6x1
  slices_S5x3x1_S1x3x1_4_0_0 : S5x3x1.Slices ![4, 0, 0] S1x3x1
  slices_S5x300x300_S1x300x300_4_0_0 : S5x300x300.Slices ![4, 0, 0] S1x300x300
  slices_S5x300_S1x300_4_0 : S5x300.Slices ![4, 0] S1x300
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S120x300_S100000x1_S100000x300_1_0_n_n_0_1_1300_wf : GatherDims.WF S120x300 S100000x1 S100000x300 [1] [0] [] [0] [] 1 ![1, 300]
  gather_S3x300_S100000x1_S100000x300_1_0_n_n_0_1_1300_wf : GatherDims.WF S3x300 S100000x1 S100000x300 [1] [0] [] [0] [] 1 ![1, 300]
  gather_S6x1_S300000x1_S300000x1_1_0_n_n_0_1_11_wf : GatherDims.WF S6x1 S300000x1 S300000x1 [1] [0] [] [0] [] 1 ![1, 1]
  gather_S3x1_S300000x1_S300000x1_1_0_n_n_0_1_11_wf : GatherDims.WF S3x1 S300000x1 S300000x1 [1] [0] [] [0] [] 1 ![1, 1]
  dot_S100000x300_S300x300_S100000x300_1_0_0_1_n_n_wf : DotDims.WF S100000x300 S300x300 S100000x300 [1] [0] [0] [1] [] []
  gather_S100000x300_S300000x1_S300000x300_1_0_n_n_0_1_1300_wf : GatherDims.WF S100000x300 S300000x1 S300000x300 [1] [0] [] [0] [] 1 ![1, 300]
  scatter_S100000x300_S300000x1_S300000x300_1_0_0_1_wf : ScatterDims.WF S100000x300 S300000x1 S300000x300 [1] [0] [0] 1
  dot_S100000x300_S300x256_S100000x256_1_0_0_1_n_n_wf : DotDims.WF S100000x300 S300x256 S100000x256 [1] [0] [0] [1] [] []
  scatter_S2048x256_S100000x1_S100000x256_1_0_0_1_wf : ScatterDims.WF S2048x256 S100000x1 S100000x256 [1] [0] [0] 1
  scatter_S2048_S100000x1_S100000_n_0_0_1_wf : ScatterDims.WF S2048 S100000x1 S100000 [] [0] [0] 1
  dot_S2048x256_S256x128_S2048x128_1_0_0_1_n_n_wf : DotDims.WF S2048x256 S256x128 S2048x128 [1] [0] [0] [1] [] []
  dot_S2048x128_S128x2_S2048x2_1_0_0_1_n_n_wf : DotDims.WF S2048x128 S128x2 S2048x2 [1] [0] [0] [1] [] []

variable [Facts₀]

def gather_S120x300_S100000x1_S100000x300_1_0_n_n_0_1_1300 : GatherDims S120x300 S100000x1 S100000x300 where
  offsetDims := [1]
  collapsedSliceDims := [0]
  operandBatchingDims := []
  startIndicesBatchingDims := []
  startIndexMap := [0]
  indexVectorDim := 1
  sliceSizes := ![1, 300]
  wf := gather_S120x300_S100000x1_S100000x300_1_0_n_n_0_1_1300_wf
def gather_S3x300_S100000x1_S100000x300_1_0_n_n_0_1_1300 : GatherDims S3x300 S100000x1 S100000x300 where
  offsetDims := [1]
  collapsedSliceDims := [0]
  operandBatchingDims := []
  startIndicesBatchingDims := []
  startIndexMap := [0]
  indexVectorDim := 1
  sliceSizes := ![1, 300]
  wf := gather_S3x300_S100000x1_S100000x300_1_0_n_n_0_1_1300_wf
def gather_S6x1_S300000x1_S300000x1_1_0_n_n_0_1_11 : GatherDims S6x1 S300000x1 S300000x1 where
  offsetDims := [1]
  collapsedSliceDims := [0]
  operandBatchingDims := []
  startIndicesBatchingDims := []
  startIndexMap := [0]
  indexVectorDim := 1
  sliceSizes := ![1, 1]
  wf := gather_S6x1_S300000x1_S300000x1_1_0_n_n_0_1_11_wf
def gather_S3x1_S300000x1_S300000x1_1_0_n_n_0_1_11 : GatherDims S3x1 S300000x1 S300000x1 where
  offsetDims := [1]
  collapsedSliceDims := [0]
  operandBatchingDims := []
  startIndicesBatchingDims := []
  startIndexMap := [0]
  indexVectorDim := 1
  sliceSizes := ![1, 1]
  wf := gather_S3x1_S300000x1_S300000x1_1_0_n_n_0_1_11_wf
def dot_S100000x300_S300x300_S100000x300_1_0_0_1_n_n : DotDims S100000x300 S300x300 S100000x300 where
  lhsContracting := [1]
  rhsContracting := [0]
  lhsNonContracting := [0]
  rhsNonContracting := [1]
  lhsBatch := []
  rhsBatch := []
  wf := dot_S100000x300_S300x300_S100000x300_1_0_0_1_n_n_wf
def gather_S100000x300_S300000x1_S300000x300_1_0_n_n_0_1_1300 : GatherDims S100000x300 S300000x1 S300000x300 where
  offsetDims := [1]
  collapsedSliceDims := [0]
  operandBatchingDims := []
  startIndicesBatchingDims := []
  startIndexMap := [0]
  indexVectorDim := 1
  sliceSizes := ![1, 300]
  wf := gather_S100000x300_S300000x1_S300000x300_1_0_n_n_0_1_1300_wf
def scatter_S100000x300_S300000x1_S300000x300_1_0_0_1 : ScatterDims S100000x300 S300000x1 S300000x300 where
  updateWindowDims := [1]
  insertedWindowDims := [0]
  scatterDimsToOperandDims := [0]
  indexVectorDim := 1
  wf := scatter_S100000x300_S300000x1_S300000x300_1_0_0_1_wf
def dot_S100000x300_S300x256_S100000x256_1_0_0_1_n_n : DotDims S100000x300 S300x256 S100000x256 where
  lhsContracting := [1]
  rhsContracting := [0]
  lhsNonContracting := [0]
  rhsNonContracting := [1]
  lhsBatch := []
  rhsBatch := []
  wf := dot_S100000x300_S300x256_S100000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

class Facts : Prop extends Facts₀ where

variable [Facts]
-- ==== Proof.RegionsK.lean ====
import proofs.«120348_j28252294873367_1_alg».proof.Proof.Gen.Kernel.Launch
import Idealize.ShloMosaic.Lib.Pipeline.Frame
import Idealize.ShloMosaic.Lib.Pipeline.Regions

set_option maxRecDepth 2488

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v37 (outs 2 main_v37 c)

abbrev V3 (c : Dev nD) : Valuation τ sig (Elt F) := StableHlo.after hostOps1 (V2 m outs c)

abbrev V4 (c : Dev nD) : Valuation τ sig (Elt F) := Function.update (Function.update (V3 m outs c) main_v72_0 (outs 4 main_v72_0 c)) main_v72_1 (outs 4 main_v72_1 c)

abbrev V5 (c : Dev nD) : Valuation τ sig (Elt F) := StableHlo.after hostOps2 (V4 m outs c)

abbrev V6 (c : Dev nD) : Valuation τ sig (Elt F) := Function.update (V5 m outs c) main_v82 (outs 6 main_v82 c)

abbrev V7 (c : Dev nD) : Valuation τ sig (Elt F) := StableHlo.after hostOps3 (V6 m outs c)

abbrev V8 (c : Dev nD) : Valuation τ sig (Elt F) := Function.update (V7 m outs c) main_v86 (outs 8 main_v86 c)

abbrev V9 (c : Dev nD) : Valuation τ sig (Elt F) := StableHlo.after hostOps4 (V8 m outs c)

abbrev V10 (c : Dev nD) : Valuation τ sig (Elt F) := Function.update (Function.update (V9 m outs c) main_v121_0 (outs 10 main_v121_0 c)) main_v121_1 (outs 10 main_v121_1 c)

abbrev V11 (c : Dev nD) : Valuation τ sig (Elt F) := StableHlo.after hostOps5 (V10 m outs c)

abbrev V12 (c : Dev nD) : Valuation τ sig (Elt F) := Function.update (V11 m outs c) main_v131 (outs 12 main_v131 c)

abbrev V13 (c : Dev nD) : Valuation τ sig (Elt F) := StableHlo.after hostOps6 (V12 m outs c)

abbrev V14 (c : Dev nD) : Valuation τ sig (Elt F) := Function.update (V13 m outs c) main_v135 (outs 14 main_v135 c)

abbrev V15 (c : Dev nD) : Valuation τ sig (Elt F) := StableHlo.after hostOps7 (V14 m outs c)

abbrev V16 (c : Dev nD) : Valuation τ sig (Elt F) := Function.update (Function.update (V15 m outs c) main_v170_0 (outs 16 main_v170_0 c)) main_v170_1 (outs 16 main_v170_1 c)

abbrev V17 (c : Dev nD) : Valuation τ sig (Elt F) := StableHlo.after hostOps8 (V16 m outs c)

abbrev V18 (c : Dev nD) : Valuation τ sig (Elt F) := Function.update (V17 m outs c) main_v180 (outs 18 main_v180 c)

abbrev V19 (c : Dev nD) : Valuation τ sig (Elt F) := StableHlo.after hostOps9 (V18 m outs c)

abbrev V20 (c : Dev nD) : Valuation τ sig (Elt F) := Function.update (V19 m outs c) main_v184 (outs 20 main_v184 c)

abbrev V21 (c : Dev nD) : Valuation τ sig (Elt F) := StableHlo.after hostOps10 (V20 m outs c)

abbrev V22 (c : Dev nD) : Valuation τ sig (Elt F) := Function.update (Function.update (V21 m outs c) main_v219_0 (outs 22 main_v219_0 c)) main_v219_1 (outs 22 main_v219_1 c)

abbrev V23 (c : Dev nD) : Valuation τ sig (Elt F) := StableHlo.after hostOps11 (V22 m outs c)

abbrev V24 (c : Dev nD) : Valuation τ sig (Elt F) := Function.update (V23 m outs c) main_v229 (outs 24 main_v229 c)

abbrev V25 (c : Dev nD) : Valuation τ sig (Elt F) := StableHlo.after hostOps12 (V24 m outs c)

abbrev V26 (c : Dev nD) : Valuation τ sig (Elt F) := Function.update (V25 m outs c) main_v233 (outs 26 main_v233 c)

abbrev V27 (c : Dev nD) : Valuation τ sig (Elt F) := StableHlo.after hostOps13 (V26 m outs c)

abbrev V28 (c : Dev nD) : Valuation τ sig (Elt F) := Function.update (Function.update (V27 m outs c) main_v268_0 (outs 28 main_v268_0 c)) main_v268_1 (outs 28 main_v268_1 c)

abbrev V29 (c : Dev nD) : Valuation τ sig (Elt F) := StableHlo.after hostOps14 (V28 m outs c)

abbrev V30 (c : Dev nD) : Valuation τ sig (Elt F) := Function.update (V29 m outs c) main_v278 (outs 30 main_v278 c)

abbrev V31 (c : Dev nD) : Valuation τ sig (Elt F) := StableHlo.after hostOps15 (V30 m outs c)

abbrev V32 (c : Dev nD) : Valuation τ sig (Elt F) := Function.update (V31 m outs c) main_v280 (outs 32 main_v280 c)

abbrev V33 (c : Dev nD) : Valuation τ sig (Elt F) := StableHlo.after hostOps16 (V32 m outs c)

abbrev V34 (c : Dev nD) : Valuation τ sig (Elt F) := Function.update (V33 m outs c) main_v294 (outs 34 main_v294 c)

abbrev V35 (c : Dev nD) : Valuation τ sig (Elt F) := StableHlo.after hostOps17 (V34 m outs c)

abbrev V36 (c : Dev nD) : Valuation τ sig (Elt F) := Function.update (V35 m outs c) main_v296 (outs 36 main_v296 c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_v8, main_c, main_v9, main_v10, main_v11, main_v12, main_c_0, main_v13, main_v14, main_v15, main_v16, main_c_1, main_v17, main_v18, main_c_2, main_v19, main_v20, main_v21, main_v22, main_v23, main_v24, main_v25, main_c_3, main_v26, main_v27, main_c_4, main_v28, main_v29, main_v30, main_v31, main_v32, main_v33, main_v34, main_v35, main_cst, main_v36]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_v38, main_v39, main_c_5, main_v40, main_v41, main_c_6, main_v42, main_v43, main_v44, main_v45, main_v46, main_v47, main_v48, main_c_7, main_v49, main_v50, main_c_8, main_v51, main_v52, main_v53, main_v54, main_v55, main_v56, main_c_9, main_v57, main_v58, main_c_10, main_v59, main_v60, main_v61, main_v62, main_v63, main_v64, main_v65, main_cst_11, main_v66, main_v67, main_v68, main_v69, main_v70, main_v71]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_v73, main_v74, main_v75, main_v76, main_v77, main_v78, main_v79, main_v80, main_v81]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_v83, main_v84, main_cst_12, main_v85]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_v87, main_v88, main_c_13, main_v89, main_v90, main_c_14, main_v91, main_v92, main_v93, main_v94, main_v95, main_v96, main_v97, main_c_15, main_v98, main_v99, main_c_16, main_v100, main_v101, main_v102, main_v103, main_v104, main_v105, main_c_17, main_v106, main_v107, main_c_18, main_v108, main_v109, main_v110, main_v111, main_v112, main_v113, main_v114, main_cst_19, main_v115, main_v116, main_v117, main_v118, main_v119, main_v120]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_v122, main_v123, main_v124, main_v125, main_v126, main_v127, main_v128, main_v129, main_v130]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor

abbrev hostOps6_W : List (Ref sig .tc) := [main_v132, main_v133, main_cst_20, main_v134]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_v136, main_v137, main_c_21, main_v138, main_v139, main_c_22, main_v140, main_v141, main_v142, main_v143, main_v144, main_v145, main_v146, main_c_23, main_v147, main_v148, main_c_24, main_v149, main_v150, main_v151, main_v152, main_v153, main_v154, main_c_25, main_v155, main_v156, main_c_26, main_v157, main_v158, main_v159, main_v160, main_v161, main_v162, main_v163, main_cst_27, main_v164, main_v165, main_v166, main_v167, main_v168, main_v169]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor

abbrev hostOps8_W : List (Ref sig .tc) := [main_v171, main_v172, main_v173, main_v174, main_v175, main_v176, main_v177, main_v178, main_v179]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor

abbrev hostOps9_W : List (Ref sig .tc) := [main_v181, main_v182, main_cst_28, main_v183]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor

abbrev hostOps10_W : List (Ref sig .tc) := [main_v185, main_v186, main_c_29, main_v187, main_v188, main_c_30, main_v189, main_v190, main_v191, main_v192, main_v193, main_v194, main_v195, main_c_31, main_v196, main_v197, main_c_32, main_v198, main_v199, main_v200, main_v201, main_v202, main_v203, main_c_33, main_v204, main_v205, main_c_34, main_v206, main_v207, main_v208, main_v209, main_v210, main_v211, main_v212, main_cst_35, main_v213, main_v214, main_v215, main_v216, main_v217, main_v218]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor

abbrev hostOps11_W : List (Ref sig .tc) := [main_v220, main_v221, main_v222, main_v223, main_v224, main_v225, main_v226, main_v227, main_v228]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_fresh : (hostOps12 : List (HloOp τ sig (Elt F))).Forall fun op => op.fresh = ∅ := by
  simp only [List.Forall]; repeat' constructor

abbrev hostOps12_W : List (Ref sig .tc) := [main_v230, main_v231, main_cst_36, main_v232]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor

abbrev hostOps13_W : List (Ref sig .tc) := [main_v234, main_v235, main_c_37, main_v236, main_v237, main_c_38, main_v238, main_v239, main_v240, main_v241, main_v242, main_v243, main_v244, main_c_39, main_v245, main_v246, main_c_40, main_v247, main_v248, main_v249, main_v250, main_v251, main_v252, main_c_41, main_v253, main_v254, main_c_42, main_v255, main_v256, main_v257, main_v258, main_v259, main_v260, main_v261, main_cst_43, main_v262, main_v263, main_v264, main_v265, main_v266, main_v267]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor

abbrev hostOps14_W : List (Ref sig .tc) := [main_v269, main_v270, main_v271, main_v272, main_v273, main_v274, main_v275, main_v276, main_v277]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor

abbrev hostOps15_W : List (Ref sig .tc) := [main_v279]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor

abbrev hostOps16_W : List (Ref sig .tc) := [main_cst_44, main_v281, main_v282, main_v283, main_cst_45, main_v284, main_cst_46, main_v285, main_v286, main_v287, main_cst_47, main_v288, main_v289, main_v290, main_v291, main_v292, main_v293]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps17_fresh : (hostOps17 : List (HloOp τ sig (Elt F))).Forall fun op => op.fresh = ∅ := by
  simp only [List.Forall]; repeat' constructor

abbrev hostOps17_W : List (Ref sig .tc) := [main_v295]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v37] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v37)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v72_0, main_v72_1] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v72_0), Function.update_of_ne (StableHlo.devRef_ne_of_ne (List.ne_of_not_mem_cons (List.not_mem_of_not_mem_cons h)) : (Proc.devRef .tc r : DevRef τ sig) ≠ Proc.devRef .tc main_v72_1)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v82] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v82)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v86] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v86)]
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v121_0, main_v121_1] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v121_0), Function.update_of_ne (StableHlo.devRef_ne_of_ne (List.ne_of_not_mem_cons (List.not_mem_of_not_mem_cons h)) : (Proc.devRef .tc r : DevRef τ sig) ≠ Proc.devRef .tc main_v121_1)]
theorem V11_of (c : Dev nD) (r : Ref sig .tc) (h : r ∉ hostOps5_W) : V11 m outs c r = V10 m outs c r :=
  StableHlo.after_of_writes_sub hostOps5 _ hostOps5_writes h
theorem V12_of (c : Dev nD) (r : Ref sig .tc) (h : r ∉ ([main_v131] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v131)]
theorem V13_of (c : Dev nD) (r : Ref sig .tc) (h : r ∉ hostOps6_W) : V13 m outs c r = V12 m outs c r :=
  StableHlo.after_of_writes_sub hostOps6 _ hostOps6_writes h
theorem V14_of (c : Dev nD) (r : Ref sig .tc) (h : r ∉ ([main_v135] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v135)]
theorem V15_of (c : Dev nD) (r : Ref sig .tc) (h : r ∉ hostOps7_W) : V15 m outs c r = V14 m outs c r :=
  StableHlo.after_of_writes_sub hostOps7 _ hostOps7_writes h
theorem V16_of (c : Dev nD) (r : Ref sig .tc) (h : r ∉ ([main_v170_0, main_v170_1] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v170_0), Function.update_of_ne (StableHlo.devRef_ne_of_ne (List.ne_of_not_mem_cons (List.not_mem_of_not_mem_cons h)) : (Proc.devRef .tc r : DevRef τ sig) ≠ Proc.devRef .tc main_v170_1)]
theorem V17_of (c : Dev nD) (r : Ref sig .tc) (h : r ∉ hostOps8_W) : V17 m outs c r = V16 m outs c r :=
  StableHlo.after_of_writes_sub hostOps8 _ hostOps8_writes h
theorem V18_of (c : Dev nD) (r : Ref sig .tc) (h : r ∉ ([main_v180] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v180)]
theorem V19_of (c : Dev nD) (r : Ref sig .tc) (h : r ∉ hostOps9_W) : V19 m outs c r = V18 m outs c r :=
  StableHlo.after_of_writes_sub hostOps9 _ hostOps9_writes h
theorem V20_of (c : Dev nD) (r : Ref sig .tc) (h : r ∉ ([main_v184] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v184)]
theorem V21_of (c : Dev nD) (r : Ref sig .tc) (h : r ∉ hostOps10_W) : V21 m outs c r = V20 m outs c r :=
  StableHlo.after_of_writes_sub hostOps10 _ hostOps10_writes h
theorem V22_of (c : Dev nD) (r : Ref sig .tc) (h : r ∉ ([main_v219_0, main_v219_1] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v219_0), Function.update_of_ne (StableHlo.devRef_ne_of_ne (List.ne_of_not_mem_cons (List.not_mem_of_not_mem_cons h)) : (Proc.devRef .tc r : DevRef τ sig) ≠ Proc.devRef .tc main_v219_1)]
theorem V23_of (c : Dev nD) (r : Ref sig .tc) (h : r ∉ hostOps11_W) : V23 m outs c r = V22 m outs c r :=
  StableHlo.after_of_writes_sub hostOps11 _ hostOps11_writes h
theorem V24_of (c : Dev nD) (r : Ref sig .tc) (h : r ∉ ([main_v229] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v229)]
theorem V25_of (c : Dev nD) (r : Ref sig .tc) (h : r ∉ hostOps12_W) : V25 m outs c r = V24 m outs c r :=
  StableHlo.after_of_writes_sub hostOps12 _ hostOps12_writes h
theorem V26_of (c : Dev nD) (r : Ref sig .tc) (h : r ∉ ([main_v233] : List (Ref sig .tc))) : V26 m outs c r = V25 m outs c r := by
  simp only [V26, Function.update_of_ne (StableHlo.devRef_ne_of_ne (List.ne_of_not_mem_cons h) : (Proc.devRef .tc r : DevRef τ sig) ≠ Proc.devRef .tc main_v233)]
theorem V27_of (c : Dev nD) (r : Ref sig .tc) (h : r ∉ hostOps13_W) : V27 m outs c r = V26 m outs c r :=
  StableHlo.after_of_writes_sub hostOps13 _ hostOps13_writes h
theorem V28_of (c : Dev nD) (r : Ref sig .tc) (h : r ∉ ([main_v268_0, main_v268_1] : List (Ref sig .tc))) : V28 m outs c r = V27 m outs c r := by
  simp only [V28, Function.update_of_ne (StableHlo.devRef_ne_of_ne (List.ne_of_not_mem_cons h) : (Proc.devRef .tc r : DevRef τ sig) ≠ Proc.devRef .tc main_v268_0), Function.update_of_ne (StableHlo.devRef_ne_of_ne (List.ne_of_not_mem_cons (List.not_mem_of_not_mem_cons h)) : (Proc.devRef .tc r : DevRef τ sig) ≠ Proc.devRef .tc main_v268_1)]
theorem V29_of (c : Dev nD) (r : Ref sig .tc) (h : r ∉ hostOps14_W) : V29 m outs c r = V28 m outs c r :=
  StableHlo.after_of_writes_sub hostOps14 _ hostOps14_writes h
theorem V30_of (c : Dev nD) (r : Ref sig .tc) (h : r ∉ ([main_v278] : List (Ref sig .tc))) : V30 m outs c r = V29 m outs c r := by
  simp only [V30, Function.update_of_ne (StableHlo.devRef_ne_of_ne (List.ne_of_not_mem_cons h) : (Proc.devRef .tc r : DevRef τ sig) ≠ Proc.devRef .tc main_v278)]
theorem V31_of (c : Dev nD) (r : Ref sig .tc) (h : r ∉ hostOps15_W) : V31 m outs c r = V30 m outs c r :=
  StableHlo.after_of_writes_sub hostOps15 _ hostOps15_writes h
theorem V32_of (c : Dev nD) (r : Ref sig .tc) (h : r ∉ ([main_v280] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v280)]
theorem V33_of (c : Dev nD) (r : Ref sig .tc) (h : r ∉ hostOps16_W) : V33 m outs c r = V32 m outs c r :=
  StableHlo.after_of_writes_sub hostOps16 _ hostOps16_writes h
theorem V34_of (c : Dev nD) (r : Ref sig .tc) (h : r ∉ ([main_v294] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v294)]
theorem V35_of (c : Dev nD) (r : Ref sig .tc) (h : r ∉ hostOps17_W) : V35 m outs c r = V34 m outs c r :=
  StableHlo.after_of_writes_sub hostOps17 _ hostOps17_writes h
theorem V36_of (c : Dev nD) (r : Ref sig .tc) (h : r ∉ ([main_v296] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v296)]

abbrev Kept (w : List (Ref sig .tc)) (a b : (c : Dev nD) → Valuation τ sig (Elt F)) : Prop :=
  ∀ (c : Dev nD) (r : Ref sig .tc), r ∉ w → b c r = a c r

-- Each valuation of the list is kept by the next outside the matching list of written references.
def Steps : List (List (Ref sig .tc)) → List ((c : Dev nD) → Valuation τ sig (Elt F)) → Prop
  | [], [_] => True
  | w :: ws, a :: b :: vs => Kept w a b ∧ Steps ws (b :: vs)
  | _, _ => False

theorem Steps.step : ∀ (ws : List (List (Ref sig .tc))) (vs : List ((c : Dev nD) → Valuation τ sig (Elt F))), Steps ws vs →
    ∀ (k : ℕ) (b : (c : Dev nD) → Valuation τ sig (Elt F)), vs[k + 1]? = some b → ∃ a, vs[k]? = some a ∧ Kept (ws.getD k []) a b
  | w :: ws, a :: b :: vs, h, 0, b', hb => by
      simp at hb; subst hb; exact ⟨a, rfl, h.1⟩
  | w :: ws, a :: b :: vs, h, k + 1, b', hb => by
      obtain ⟨a', ha', hk⟩ := Steps.step ws (b :: vs) h.2 k b' (by simpa using hb)
      exact ⟨a', by simpa using ha', hk⟩
  | [], [_], _, k, _, hb => by simp at hb
  | [], [], h, _, _, _ => h.elim
  | [], _ :: _ :: _, h, _, _, _ => h.elim
  | _ :: _, [], h, _, _, _ => h.elim
  | _ :: _, [_], h, _, _, _ => h.elim

-- The valuations between @main's items, and what each item may write.
abbrev VsL : List ((c : Dev nD) → Valuation τ sig (Elt F)) := [V0 m, V1 m, V2 m outs, V3 m outs, V4 m outs, V5 m outs, V6 m outs, V7 m outs, V8 m outs, V9 m outs, V10 m outs, V11 m outs, V12 m outs, V13 m outs, V14 m outs, V15 m outs, V16 m outs, V17 m outs, V18 m outs, V19 m outs, V20 m outs, V21 m outs, V22 m outs, V23 m outs, V24 m outs, V25 m outs, V26 m outs, V27 m outs, V28 m outs, V29 m outs, V30 m outs, V31 m outs, V32 m outs, V33 m outs, V34 m outs, V35 m outs, V36 m outs]
abbrev wrL : List (List (Ref sig .tc)) := [hostOps0_W, [main_v37], hostOps1_W, [main_v72_0, main_v72_1], hostOps2_W, [main_v82], hostOps3_W, [main_v86], hostOps4_W, [main_v121_0, main_v121_1], hostOps5_W, [main_v131], hostOps6_W, [main_v135], hostOps7_W, [main_v170_0, main_v170_1], hostOps8_W, [main_v180], hostOps9_W, [main_v184], hostOps10_W, [main_v219_0, main_v219_1], hostOps11_W, [main_v229], hostOps12_W, [main_v233], hostOps13_W, [main_v268_0, main_v268_1], hostOps14_W, [main_v278], hostOps15_W, [main_v280], hostOps16_W, [main_v294], hostOps17_W, [main_v296]]

theorem steps : Steps wrL (VsL m outs) :=
  ⟨V1_of m, V2_of m outs, V3_of m outs, V4_of m outs, V5_of m outs, V6_of m outs, V7_of m outs, V8_of m outs, V9_of m outs, V10_of m outs, V11_of m outs, V12_of m outs, V13_of m outs, V14_of m outs, V15_of m outs, V16_of m outs, V17_of m outs, V18_of m outs, V19_of m outs, V20_of m outs, V21_of m outs, V22_of m outs, V23_of m outs, V24_of m outs, V25_of m outs, V26_of m outs, V27_of m outs, V28_of m outs, V29_of m outs, V30_of m outs, V31_of m outs, V32_of m outs, V33_of m outs, V34_of m outs, V35_of m outs, V36_of m outs, trivial⟩

-- A reference none of the items i, …, i + n - 1 writes holds after them what it held before.
theorem Vs_keep (i n : ℕ) {a b : (c : Dev nD) → Valuation τ sig (Elt F)} (ha : (VsL m outs)[i]? = some a) (hb : (VsL m outs)[i + n]? = some b)
    (c : Dev nD) (r : Ref sig .tc) (h : ∀ k < n, r ∉ wrL.getD (i + k) []) : b c r = a c r := by
  induction n generalizing b with
  | zero => rw [Nat.add_zero, ha] at hb; cases hb; rfl
  | succ n ih =>
    obtain ⟨b', hb', hk⟩ := Steps.step wrL (VsL m outs) (steps m outs) (i + n) b hb
    exact (hk c r (h n n.lt_succ_self)).trans (ih hb' fun k hk => h k (Nat.lt_succ_of_lt hk))

theorem V36_main_arg0 (c : Dev nD) : V36 m outs c main_arg0 = m ((c : Thread nD τ).loc main_arg0) :=
  Vs_keep m outs 0 36 rfl rfl c main_arg0 (by decide +kernel)

theorem V36_main_arg1 (c : Dev nD) : V36 m outs c main_arg1 = m ((c : Thread nD τ).loc main_arg1) :=
  Vs_keep m outs 0 36 rfl rfl c main_arg1 (by decide +kernel)

theorem V36_main_arg2 (c : Dev nD) : V36 m outs c main_arg2 = m ((c : Thread nD τ).loc main_arg2) :=
  Vs_keep m outs 0 36 rfl rfl c main_arg2 (by decide +kernel)

theorem V36_main_arg3 (c : Dev nD) : V36 m outs c main_arg3 = m ((c : Thread nD τ).loc main_arg3) :=
  Vs_keep m outs 0 36 rfl rfl c main_arg3 (by decide +kernel)

theorem V36_main_arg4 (c : Dev nD) : V36 m outs c main_arg4 = m ((c : Thread nD τ).loc main_arg4) :=
  Vs_keep m outs 0 36 rfl rfl c main_arg4 (by decide +kernel)

theorem V36_main_arg5 (c : Dev nD) : V36 m outs c main_arg5 = m ((c : Thread nD τ).loc main_arg5) :=
  Vs_keep m outs 0 36 rfl rfl c main_arg5 (by decide +kernel)

theorem V36_main_arg6 (c : Dev nD) : V36 m outs c main_arg6 = m ((c : Thread nD τ).loc main_arg6) :=
  Vs_keep m outs 0 36 rfl rfl c main_arg6 (by decide +kernel)

theorem V36_main_arg7 (c : Dev nD) : V36 m outs c main_arg7 = m ((c : Thread nD τ).loc main_arg7) :=
  Vs_keep m outs 0 36 rfl rfl c main_arg7 (by decide +kernel)

theorem V36_main_arg8 (c : Dev nD) : V36 m outs c main_arg8 = m ((c : Thread nD τ).loc main_arg8) :=
  Vs_keep m outs 0 36 rfl rfl c main_arg8 (by decide +kernel)

theorem V36_main_arg9 (c : Dev nD) : V36 m outs c main_arg9 = m ((c : Thread nD τ).loc main_arg9) :=
  Vs_keep m outs 0 36 rfl rfl c main_arg9 (by decide +kernel)

theorem V36_main_arg10 (c : Dev nD) : V36 m outs c main_arg10 = m ((c : Thread nD τ).loc main_arg10) :=
  Vs_keep m outs 0 36 rfl rfl c main_arg10 (by decide +kernel)

theorem V36_main_arg11 (c : Dev nD) : V36 m outs c main_arg11 = m ((c : Thread nD τ).loc main_arg11) :=
  Vs_keep m outs 0 36 rfl rfl c main_arg11 (by decide +kernel)

theorem V36_main_arg12 (c : Dev nD) : V36 m outs c main_arg12 = m ((c : Thread nD τ).loc main_arg12) :=
  Vs_keep m outs 0 36 rfl rfl c main_arg12 (by decide +kernel)

theorem V36_main_arg13 (c : Dev nD) : V36 m outs c main_arg13 = m ((c : Thread nD τ).loc main_arg13) :=
  Vs_keep m outs 0 36 rfl rfl c main_arg13 (by decide +kernel)

theorem V36_main_arg14 (c : Dev nD) : V36 m outs c main_arg14 = m ((c : Thread nD τ).loc main_arg14) :=
  Vs_keep m outs 0 36 rfl rfl c main_arg14 (by decide +kernel)

theorem V36_main_arg15 (c : Dev nD) : V36 m outs c main_arg15 = m ((c : Thread nD τ).loc main_arg15) :=
  Vs_keep m outs 0 36 rfl rfl c main_arg15 (by decide +kernel)

theorem V36_main_arg16 (c : Dev nD) : V36 m outs c main_arg16 = m ((c : Thread nD τ).loc main_arg16) :=
  Vs_keep m outs 0 36 rfl rfl c main_arg16 (by decide +kernel)

theorem V36_main_arg17 (c : Dev nD) : V36 m outs c main_arg17 = m ((c : Thread nD τ).loc main_arg17) :=
  Vs_keep m outs 0 36 rfl rfl c main_arg17 (by decide +kernel)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 19 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

def seg10 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V10 m outs) (E 5)

def seg12 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V12 m outs) (E 6)

def seg14 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V14 m outs) (E 7)

def seg16 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V16 m outs) (E 8)

def seg18 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V18 m outs) (E 9)

def seg20 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V20 m outs) (E 10)

def seg22 : HostSeg (Ix := Ix) (Name := ℕ) (U := U) (Lvl := Lvl) (pcfgs (F := F)) defs₀ 𝒱₀ L lv :=
  HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (V22 m outs) (E 11)

def seg24 : HostSeg (Ix := Ix) (Name := ℕ) (U := U) (Lvl := Lvl) (pcfgs (F := F)) defs₀ 𝒱₀ L lv :=
  HostSeg.ofOps _ _ _ _ _ (Pipeline.ucRefs τ sig) hostOps12
    (fun op h => Pipeline.sub_ucRefs op ((List.forall_iff_forall_mem.mp hostOps12_sub) op h))
    (fun op h => (List.forall_iff_forall_mem.mp hostOps12_fresh) op h) (V24 m outs) (E 12)

def seg26 : HostSeg (Ix := Ix) (Name := ℕ) (U := U) (Lvl := Lvl) (pcfgs (F := F)) defs₀ 𝒱₀ L lv :=
  HostSeg.ofOps _ _ _ _ _ (Pipeline.ucRefs τ sig) hostOps13
    (fun op h => Pipeline.sub_ucRefs op ((List.forall_iff_forall_mem.mp hostOps13_sub) op h))
    (fun op h => (List.forall_iff_forall_mem.mp hostOps13_fresh) op h) (V26 m outs) (E 13)

def seg28 : HostSeg (Ix := Ix) (Name := ℕ) (U := U) (Lvl := Lvl) (pcfgs (F := F)) defs₀ 𝒱₀ L lv :=
  HostSeg.ofOps _ _ _ _ _ (Pipeline.ucRefs τ sig) hostOps14
    (fun op h => Pipeline.sub_ucRefs op ((List.forall_iff_forall_mem.mp hostOps14_sub) op h))
    (fun op h => (List.forall_iff_forall_mem.mp hostOps14_fresh) op h) (V28 m outs) (E 14)

def seg30 : HostSeg (Ix := Ix) (Name := ℕ) (U := U) (Lvl := Lvl) (pcfgs (F := F)) defs₀ 𝒱₀ L lv :=
  HostSeg.ofOps _ _ _ _ _ (Pipeline.ucRefs τ sig) hostOps15
    (fun op h => Pipeline.sub_ucRefs op ((List.forall_iff_forall_mem.mp hostOps15_sub) op h))
    (fun op h => (List.forall_iff_forall_mem.mp hostOps15_fresh) op h) (V30 m outs) (E 15)

def seg32 : HostSeg (Ix := Ix) (Name := ℕ) (U := U) (Lvl := Lvl) (pcfgs (F := F)) defs₀ 𝒱₀ L lv :=
  HostSeg.ofOps _ _ _ _ _ (Pipeline.ucRefs τ sig) hostOps16
    (fun op h => Pipeline.sub_ucRefs op ((List.forall_iff_forall_mem.mp hostOps16_sub) op h))
    (fun op h => (List.forall_iff_forall_mem.mp hostOps16_fresh) op h) (V32 m outs) (E 16)

def seg34 : HostSeg (Ix := Ix) (Name := ℕ) (U := U) (Lvl := Lvl) (pcfgs (F := F)) defs₀ 𝒱₀ L lv :=
  HostSeg.ofOps _ _ _ _ _ (Pipeline.ucRefs τ sig) hostOps17
    (fun op h => Pipeline.sub_ucRefs op ((List.forall_iff_forall_mem.mp hostOps17_sub) op h))
    (fun op h => (List.forall_iff_forall_mem.mp hostOps17_fresh) op h) (V34 m outs) (E 17)

end Segs

section

variable {Ix : Type} [DecidableEq Ix] {U : Type} [URA U] {Lvl : Type} [Preorder Lvl]

abbrev adm : (p : Fin 18) → (pcfgs (F := F) p).Adm := fun p => (cfgs p).toPCfg_adm

abbrev segs (𝒱₀ : Variants) (L : GSem nD τ sig → Finset Ix) (lv : GSem nD τ sig → Ix → Lvl) (E : Fin 19 → Dev nD → sProp (MT nD τ sig Ix (Elt F) ℕ U Lvl)) (ι : Ix)
    (pdats : (p : Fin 18) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E), .region R4, .host (seg10 m outs 𝒱₀ L lv E), .region R5, .host (seg12 m outs 𝒱₀ L lv E), .region R6, .host (seg14 m outs 𝒱₀ L lv E), .region R7, .host (seg16 m outs 𝒱₀ L lv E), .region R8, .host (seg18 m outs 𝒱₀ L lv E), .region R9, .host (seg20 m outs 𝒱₀ L lv E), .region R10, .host (seg22 m outs 𝒱₀ L lv E), .region R11, .host (seg24 m outs 𝒱₀ L lv E), .region R12, .host (seg26 m outs 𝒱₀ L lv E), .region R13, .host (seg28 m outs 𝒱₀ L lv E), .region R14, .host (seg30 m outs 𝒱₀ L lv E), .region R15, .host (seg32 m outs 𝒱₀ L lv E), .region R16, .host (seg34 m outs 𝒱₀ L lv E), .region R17]

end

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 18) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 19 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE18 : ∀ c : Dev nD, E 18 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V31 m outs c) ∗ E 15 c) ⊢ R15.pre c)
    (hpost15 : ∀ c : Dev nD, R15.post c ⊢ iprop(StableHlo.held (c : Thread nD τ) (Pipeline.ucRefs τ sig) (V32 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V33 m outs c) ∗ E 16 c) ⊢ R16.pre c)
    (hpost16 : ∀ c : Dev nD, R16.post c ⊢ iprop(StableHlo.held (c : Thread nD τ) (Pipeline.ucRefs τ sig) (V34 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V35 m outs c) ∗ E 17 c) ⊢ R17.pre c)
    (hpost17 : ∀ c : Dev nD, R17.post c ⊢ iprop(StableHlo.held (c : Thread nD τ) (Pipeline.ucRefs τ sig) (V36 m outs c) ∗ E 18 c)) :
    θ_run defs (onTc (τ := τ) (main (F := F))) ⟨m, fun _ => 0, ρ⟩ (fun r => ∀ c : Dev nD,
      ∀ b ∈ Pipeline.ucRefs τ sig, r.2.mem ((c : Thread nD τ).1, b) = V36 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17)
    (fun c Q => by
      rewrite [main_chain c, Seg.run_eq_chain,
        show (segs m outs 𝒱₀ L lv E ι pdats R0 R1 R2 R3 R4 R5 R6 R7 R8 R9 R10 R11 R12 R13 R14 R15 R16 R17 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V36 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, (hpost17 c).trans (sep_mono .rfl (hE18 c))⟩)
    (hinit := ?_) (QY := fun c s => ∀ b ∈ Pipeline.ucRefs τ sig, s.mem ((c : Thread nD τ).1, b) = V36 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V36 m outs c) s') $$ [Hh HSI]
    · isplitl [Hh] <;> iassumption
    icases Hr with ⟨%h, HSI⟩
    imodintro
    isplitr
    · ipureintro
      exact h
    · iexact HSI

end Cert.Kernel.GenP

end
-- ==== Proof.K.Reg0.lean ====
/-
  Region 0 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S2000x300 := Rect.unit (s := S2000x300) ![0, 0] S2000x300.size inb_S2000x300_S2000x300_0_0
abbrev r0_o : Rect S2000x300 := Rect.unit (s := S2000x300) ![0, 0] S2000x300.size inb_S2000x300_S2000x300_0_0
abbrev r0_b : Rect S300x300 := Rect.unit (s := S300x300) ![0, 0] S300x300.size inb_S300x300_S300x300_0_0
abbrev r0_c : Rect S1x300 := Rect.unit (s := S1x300) ![0, 0] S1x300.size inb_S1x300_S1x300_0_0

/-- The output block after the body: its one whole-block store, of the product of the row block with the
    weights plus the bias row. -/
def out0_3 (x0 : Vec F S2000x300 .f32) (x1 : Vec F S300x300 .f32) (x2 : Vec F S1x300 .f32) : Vec F S2000x300 .f32 :=
  View.canon [⟨r0_o, k0_pay1 (View.ld x0 r0_a) (View.ld x1 r0_b) (View.ld x2 r0_c)⟩]

theorem cover0_3 (p0 : Vec F S2000x300 .f32) (y : S2000x300.Idx) :
    ∃ pc ∈ ([⟨r0_o, p0⟩] : List (View.Piece (Elt F) S2000x300 .f32)), y ∈ pc.1.set :=
  View.cover_of_tiled [⟨r0_o, p0⟩] S2000x300.size (by rfl) y

set_option maxHeartbeats 1000000 in
/-- The body on whole staging memrefs: the three inputs kept, the output block at the product. -/
theorem sound_kernel0 (c : Dev nD) (E : Set ℕ) (i : grid0.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core c: the arrays as the region finds them; after the body each input's
    buffer at its block and the output's at the product of the point's blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Reg1.lean ====
/-
  Region 1 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond1_0 (i : grid1.Coords) : Prop :=
  (Scalar.cmpi .ne (Scalar.extui (Scalar.cmpi .eq (BitVec.ofNat 32 (i 0).val) 0#32)) 0#32) = 1#1
/-- the second (the two output rows computed and stored) at its last point only. -/
abbrev cond1_1 (i : grid1.Coords) : Prop := k1_cond2 i = 1#1

/-- The zero offsets of a rank-2 rectangle, as the constant function. -/
theorem off1_zero : (![0, 0] : Fin 2 → ℕ) = fun _ => 0 := by
  funext a; fin_cases a <;> rfl

/-- A load of a whole buffer through the whole-shape rectangle reads its contents. -/
theorem readAt_whole1 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole1 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel1_B (c : Dev nD) (E : Set ℕ) (i : grid1.Coords) (hc0 : ¬cond1_0 i) (hc1 : ¬cond1_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  iexists _; isplitr
  swap; · iexact H5
  ipureintro
  sl_unfold_run_names
  rw [read_store_whole1 (s := S1x300) _ _ off1_zero]
  simp only [View.readCov_unit_zero (S := S1x300) _ off1_zero, readAt_whole1 (s := S2000x300) _ _ off1_zero, readAt_whole1 (s := S1x300) _ _ off1_zero]

set_option maxHeartbeats 1000000 in
/-- The body at the first point, on whole memrefs: the two running rows, found at anything, are reset and then
    accumulate the point's block. -/
theorem sound_kernel1_A (c : Dev nD) (E : Set ℕ) (i : grid1.Coords) (hc0 : cond1_0 i) (hc1 : ¬cond1_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k1_pay4 x b (k1_pay1 (F := F))) ∗ owns (c : Thread nD τ) arg6 fullShare (k1_pay5 x b (k1_pay2 (F := F)))) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  iexists _; isplitr
  swap; · iexact H5
  ipureintro
  sl_unfold_run_names
  rw [read_store_whole1 (s := S1x300) _ _ off1_zero]
  simp only [View.readCov_unit_zero (S := S1x300) _ off1_zero, readAt_whole1 (s := S2000x300) _ _ off1_zero, readAt_whole1 (s := S1x300) _ _ off1_zero]

set_option maxHeartbeats 1000000 in
/-- The body at the last point, on whole memrefs: the two running rows accumulate the point's block, and the two
    output rows, found at anything, are stored from them (the mean row; the mean of squares less the squared mean). -/
theorem sound_kernel1_C (c : Dev nD) (E : Set ℕ) (i : grid1.Coords) (hc0 : ¬cond1_0 i) (hc1 : cond1_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k1_pay6 (k1_pay4 x b s0))
            ∗ owns (c : Thread nD τ) arg4 fullShare (k1_pay7 (k1_pay4 x b s0) (k1_pay5 x b s1))
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  isplitl [H3]
  · iexists _; isplitr
    swap; · iexact H3
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  isplitl [H4]
  · iexists _; isplitr
    swap; · iexact H4
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  iexists _; isplitr
  swap; · iexact H5
  ipureintro
  sl_unfold_run_names
  rw [read_store_whole1 (s := S1x300) _ _ off1_zero]
  simp only [View.readCov_unit_zero (S := S1x300) _ off1_zero, readAt_whole1 (s := S2000x300) _ _ off1_zero, readAt_whole1 (s := S1x300) _ _ off1_zero]

/-! ## Where the branches are taken and where the output windows are idle -/

/-- The reset is taken at the first point only; -/
theorem hcond1_0 : ∀ t : Fin cfg1.N, cond1_0 (grid1.coords t) ↔ t.val = 0 :=
  (by decide +kernel : ∀ t : Fin grid1.N, cond1_0 (grid1.coords t) ↔ t.val = 0)
/-- the output rows are stored at the last point only. -/
theorem hcond1_1 : ∀ t : Fin cfg1.N, cond1_1 (grid1.coords t) ↔ t.val = 49 :=
  (by decide +kernel : ∀ t : Fin grid1.N, cond1_1 (grid1.coords t) ↔ t.val = 49)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the two output windows are idle (the body stores nothing into them) and are not written back; -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- at the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The blocks and the running rows -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two running rows (column sums, column sums of squares) after n points: the reset values, then point by
    point the accumulation of the point's row block and bias row. Past the grid's end nothing changes. -/
def sacc1 (c : Dev nD) : ℕ → Vec F S1x300 .f32 × Vec F S1x300 .f32
  | 0 => (k1_pay1, k1_pay2)
  | n + 1 =>
    if h : n < cfg1.N then
      (k1_pay4 (iblk1 V c 0 ⟨n, h⟩) (iblk1 V c 1 ⟨n, h⟩) (sacc1 c n).1,
       k1_pay5 (iblk1 V c 0 ⟨n, h⟩) (iblk1 V c 1 ⟨n, h⟩) (sacc1 c n).2)
    else sacc1 c n

theorem sacc1_zero (c : Dev nD) : sacc1 V c 0 = (k1_pay1, k1_pay2) := rfl

theorem sacc1_succ (c : Dev nD) (n : ℕ) (h : n < 50) :
    sacc1 V c (n + 1)
      = (k1_pay4 (iblk1 V c 0 ⟨n, lt_of_lt_of_eq h N_1.symm⟩) (iblk1 V c 1 ⟨n, lt_of_lt_of_eq h N_1.symm⟩) (sacc1 V c n).1,
         k1_pay5 (iblk1 V c 0 ⟨n, lt_of_lt_of_eq h N_1.symm⟩) (iblk1 V c 1 ⟨n, lt_of_lt_of_eq h N_1.symm⟩) (sacc1 V c n).2) := by
  rw [sacc1]; exact dif_pos (lt_of_lt_of_eq h N_1.symm)

/-- The same at a grid point: after point t, the rows before it accumulated with t's blocks. -/
theorem sacc1_at (c : Dev nD) (t : Fin cfg1.N) :
    sacc1 V c (t.val + 1)
      = (k1_pay4 (iblk1 V c 0 t) (iblk1 V c 1 t) (sacc1 V c t.val).1, k1_pay5 (iblk1 V c 0 t) (iblk1 V c 1 t) (sacc1 V c t.val).2) := by
  rw [sacc1]; exact dif_pos t.isLt

/-! ## The invariant -/

/-- The two scratch operands: whole scoped buffers of the kernel's own, passed beside the windows. -/
abbrev sc1_0 : Memref sig .tc .vmem S1x300 .f32 := Memref.whole cc1_scratch0
abbrev sc1_1 : Memref sig .tc .vmem S1x300 .f32 := Memref.whole cc1_scratch1

/-- The region invariant before position n: the scoped buffers other than the two scratch rows and the staging
    buffers, at anything; the generator register at some state; the two scratch rows owned whole — before the first
    point at anything, afterwards at the running rows after n points. -/
def Phi1 (c : Dev nD) : ℕ → sProp 𝕄
  | 0 => iprop(Pipeline.scopedRestBut (Ix := Unit) (Name := ℕ) (U := UR sig nD τ) (Lvl := ℕ) (Val := Elt F) spec1 c [cc1_scratch0, cc1_scratch1]
      ∗ (∃ r, prngReg c r)
      ∗ (∃ d, owns (c : Thread nD τ) sc1_0 fullShare d) ∗ (∃ d, owns (c : Thread nD τ) sc1_1 fullShare d))
  | n + 1 => iprop(Pipeline.scopedRestBut (Ix := Unit) (Name := ℕ) (U := UR sig nD τ) (Lvl := ℕ) (Val := Elt F) spec1 c [cc1_scratch0, cc1_scratch1]
      ∗ (∃ r, prngReg c r)
      ∗ owns (c : Thread nD τ) sc1_0 fullShare (sacc1 V c (n + 1)).1 ∗ owns (c : Thread nD τ) sc1_1 fullShare (sacc1 V c (n + 1)).2)

theorem Phi1_zero (c : Dev nD) (n : ℕ) (hz : n = 0) :
    Phi1 V c n = iprop(Pipeline.scopedRestBut (Ix := Unit) (Name := ℕ) (U := UR sig nD τ) (Lvl := ℕ) (Val := Elt F) spec1 c [cc1_scratch0, cc1_scratch1]
      ∗ (∃ r, prngReg c r)
      ∗ (∃ d, owns (c : Thread nD τ) sc1_0 fullShare d) ∗ (∃ d, owns (c : Thread nD τ) sc1_1 fullShare d)) := by
  subst hz; rfl

theorem Phi1_pos (c : Dev nD) (n : ℕ) (hz : n ≠ 0) :
    Phi1 V c n = iprop(Pipeline.scopedRestBut (Ix := Unit) (Name := ℕ) (U := UR sig nD τ) (Lvl := ℕ) (Val := Elt F) spec1 c [cc1_scratch0, cc1_scratch1]
      ∗ (∃ r, prngReg c r)
      ∗ owns (c : Thread nD τ) sc1_0 fullShare (sacc1 V c n).1 ∗ owns (c : Thread nD τ) sc1_1 fullShare (sacc1 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay6 (sacc1 V c 50).1
    | ⟨3, _⟩ => k1_pay7 (sacc1 V c 50).1 (sacc1 V c 50).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay6 (sacc1 V c 50).1 := by dsimp only [dat1]
theorem after1_3 (c : Dev nD) (t : Fin cfg1.N) :
    (dat1 V c).after 3 t = k1_pay7 (sacc1 V c 50).1 (sacc1 V c 50).2 := by dsimp only [dat1]

/-- What the write-back at the last point writes: the two output rows. -/
theorem after1_2_last (c : Dev nD) : (dat1 V c).after 2 ⟨49, by decide⟩ = k1_pay6 (sacc1 V c 50).1 := after1_2 V c _
theorem after1_3_last (c : Dev nD) :
    (dat1 V c).after 3 ⟨49, by decide⟩ = k1_pay7 (sacc1 V c 50).1 (sacc1 V c 50).2 := after1_3 V c _

/-- The same at the last point, over the running rows after it. -/
theorem after1_2_at (c : Dev nD) (t : Fin cfg1.N) (h : t.val = 49) :
    (dat1 V c).after 2 t = k1_pay6 (sacc1 V c (t.val + 1)).1 := by rw [after1_2, h]
theorem after1_3_at (c : Dev nD) (t : Fin cfg1.N) (h : t.val = 49) :
    (dat1 V c).after 3 t = k1_pay7 (sacc1 V c (t.val + 1)).1 (sacc1 V c (t.val + 1)).2 := by rw [after1_3, h]

theorem Phi1_castSucc (c : Dev nD) (t : Fin cfg1.N) : (dat1 V c).Φ t.castSucc = Phi1 V c t.val := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: an output window idle at the point handed back as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) from rfl, Phi1_castSucc,
    show (dat1 V c).leavesExact 0 t = owns (c : Thread nD τ) (st1_0 t) fullShare ((dat1 V c).after 0 t) from by
      unfold Dat.leavesExact; rw [liveAt1_0 t],
    show (dat1 V c).leavesExact 1 t = owns (c : Thread nD τ) (st1_1 t) fullShare ((dat1 V c).after 1 t) from by
      unfold Dat.leavesExact; rw [liveAt1_1 t],
    after1_0, after1_1]
  have hN : t.val < 50 := lt_of_lt_of_eq t.isLt N_1
  by_cases hfirst : t.val = 0
  · -- the first point: reset, then accumulate
    have hreset : cond1_0 (grid1.coords t) := (hcond1_0 t).mpr hfirst
    have hnolast : ¬cond1_1 (grid1.coords t) := fun h => by have := (hcond1_1 t).mp h; omega
    have hs : sacc1 V c t.val = (k1_pay1, k1_pay2) := by rw [hfirst]; rfl
    rw [Dat.leavesExact_idle (dat1 V c) 2 t (idleAt1_2 t hnolast) (noFlush1_2 t hnolast),
      Dat.leavesExact_idle (dat1 V c) 3 t (idleAt1_3 t hnolast) (noFlush1_3 t hnolast),
      Phi1_zero V c _ hfirst, Phi1_pos V c (t.val + 1) (Nat.succ_ne_zero _)]
    simp only [sacc1_at, hs]
    iintro ⟨⟨HR, Hg, ⟨%e0, HS0⟩, ⟨%e1, HS1⟩⟩, Ho, ⟨%d0, H0⟩, ⟨%d1, H1⟩, H2, H3⟩
    iapply (sound_kernel1_A c Set.univ _ hreset hnolast _ _ _ _ _ _ _ _ _ _ _ _ (iblk1 V c 0 t) (iblk1 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond1_0 (grid1.coords t) := fun h => hfirst ((hcond1_0 t).mp h)
    by_cases hlast : t.val = 49
    · -- the last point: accumulate, then the two output rows
      have hstore : cond1_1 (grid1.coords t) := (hcond1_1 t).mpr hlast
      rw [show (dat1 V c).leavesExact 2 t = owns (c : Thread nD τ) (st1_2 t) fullShare ((dat1 V c).after 2 t) from by
          unfold Dat.leavesExact; rw [liveAt1_2 t hstore],
        show (dat1 V c).leavesExact 3 t = owns (c : Thread nD τ) (st1_3 t) fullShare ((dat1 V c).after 3 t) from by
          unfold Dat.leavesExact; rw [liveAt1_3 t hstore],
        after1_2_at V c t hlast, after1_3_at V c t hlast,
        Phi1_pos V c _ hfirst, Phi1_pos V c (t.val + 1) (Nat.succ_ne_zero _)]
      simp only [sacc1_at]
      iintro ⟨⟨HR, Hg, HS0, HS1⟩, Ho, ⟨%d0, H0⟩, ⟨%d1, H1⟩, ⟨%d2, H2⟩, ⟨%d3, H3⟩⟩
      iapply (sound_kernel1_C c Set.univ _ hnoreset hstore _ _ _ _ _ _ _ _ _ _ _ _ (iblk1 V c 0 t) (iblk1 V c 1 t)
        (sacc1 V c t.val).1 (sacc1 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond1_1 (grid1.coords t) := fun h => hlast ((hcond1_1 t).mp h)
      rw [Dat.leavesExact_idle (dat1 V c) 2 t (idleAt1_2 t hnolast) (noFlush1_2 t hnolast),
        Dat.leavesExact_idle (dat1 V c) 3 t (idleAt1_3 t hnolast) (noFlush1_3 t hnolast),
        Phi1_pos V c _ hfirst, Phi1_pos V c (t.val + 1) (Nat.succ_ne_zero _)]
      simp only [sacc1_at]
      iintro ⟨⟨HR, Hg, HS0, HS1⟩, Ho, ⟨%d0, H0⟩, ⟨%d1, H1⟩, H2, H3⟩
      iapply (sound_kernel1_B c Set.univ _ hnoreset hnolast _ _ _ _ _ _ _ _ _ _ _ _ (iblk1 V c 0 t) (iblk1 V c 1 t)
        (sacc1 V c t.val).1 (sacc1 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The region enters the invariant: the two scratch rows are taken out of the scoped rest, at anything; what else
    is handed beside the generator register and the scoped rest is dropped. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, Phi1_zero V c 0 rfl, scopedRest1_split]
  simp only [sc1_0, sc1_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl,
    Phi1_pos V c _ (by rw [Fin.val_last]; have : cfg1.N = 50 := N_1; omega), scopedRest1_split]
  simp only [sc1_0, sc1_1, owns_whole]
  iintro ⟨HR, Hg, HS0, HS1⟩
  isplitl [Hg]; · iexact Hg
  isplitl [HS0 HS1]
  · isplitl [HS0]
    · iexists _; iexact HS0
    iexists _; iexact HS1
  iexact HR

end Cert.Kernel.Reg

end
-- ==== Proof.K.Reg2.lean ====
/-
  Region 2 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S2000x300 := Rect.unit (s := S2000x300) ![0, 0] S2000x300.size inb_S2000x300_S2000x300_0_0
abbrev r2_c : Rect S1x300 := Rect.unit (s := S1x300) ![0, 0] S1x300.size inb_S1x300_S1x300_0_0

/-- The output block after the body: its one whole-block store, of the normalised and rectified row block. -/
def out2_6 (x0 : Vec F S2000x300 .f32) (x1 x2 x3 x4 x5 : Vec F S1x300 .f32) : Vec F S2000x300 .f32 :=
  View.canon [⟨r2_a, k2_pay1 (View.ld x0 r2_a) (View.ld x1 r2_c) (View.ld x2 r2_c) (View.ld x3 r2_c) (View.ld x4 r2_c) (View.ld x5 r2_c)⟩]

theorem cover2_6 (p0 : Vec F S2000x300 .f32) (y : S2000x300.Idx) :
    ∃ pc ∈ ([⟨r2_a, p0⟩] : List (View.Piece (Elt F) S2000x300 .f32)), y ∈ pc.1.set :=
  View.cover_of_tiled [⟨r2_a, p0⟩] S2000x300.size (by rfl) y

set_option maxHeartbeats 1000000 in
/-- The body on whole staging memrefs: the six inputs kept, the output block at the normalised block. -/
theorem sound_kernel2 (c : Dev nD) (E : Set ℕ) (i : grid2.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__bn_norm_kernel i arg1 harg1 arg2 harg2 arg3 harg3 arg4 harg4 arg5 harg5 arg6 harg6 arg7 harg7) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the pipeline on core c: the arrays as the region finds them; after the body each input's
    buffer at its block and the output's at the normalised block of the point's blocks; the invariant the scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Reg3.lean ====
/-
  Region 3 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2000x300 := Rect.unit (s := S2000x300) ![0, 0] S2000x300.size inb_S2000x300_S2000x300_0_0
abbrev r3_o : Rect S2000x300 := Rect.unit (s := S2000x300) ![0, 0] S2000x300.size inb_S2000x300_S2000x300_0_0
abbrev r3_b : Rect S300x300 := Rect.unit (s := S300x300) ![0, 0] S300x300.size inb_S300x300_S300x300_0_0
abbrev r3_c : Rect S1x300 := Rect.unit (s := S1x300) ![0, 0] S1x300.size inb_S1x300_S1x300_0_0

/-- The output block after the body: its one whole-block store, of the product of the row block with the
    weights plus the bias row. -/
def out3_3 (x0 : Vec F S2000x300 .f32) (x1 : Vec F S300x300 .f32) (x2 : Vec F S1x300 .f32) : Vec F S2000x300 .f32 :=
  View.canon [⟨r3_o, k3_pay1 (View.ld x0 r3_a) (View.ld x1 r3_b) (View.ld x2 r3_c)⟩]

theorem cover3_3 (p0 : Vec F S2000x300 .f32) (y : S2000x300.Idx) :
    ∃ pc ∈ ([⟨r3_o, p0⟩] : List (View.Piece (Elt F) S2000x300 .f32)), y ∈ pc.1.set :=
  View.cover_of_tiled [⟨r3_o, p0⟩] S2000x300.size (by rfl) y

set_option maxHeartbeats 1000000 in
/-- The body on whole staging memrefs: the three inputs kept, the output block at the product. -/
theorem sound_kernel3 (c : Dev nD) (E : Set ℕ) (i : grid3.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__matmul_kernel i arg1 harg1 arg2 harg2 arg3 harg3 arg4 harg4) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the pipeline on core c: the arrays as the region finds them; after the body each input's
    buffer at its block and the output's at the product of the point's blocks; the invariant the scoped rest and
    the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Reg4.lean ====
/-
  Region 4 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond4_0 (i : grid4.Coords) : Prop :=
  (Scalar.cmpi .ne (Scalar.extui (Scalar.cmpi .eq (BitVec.ofNat 32 (i 0).val) 0#32)) 0#32) = 1#1
/-- the second (the two output rows computed and stored) at its last point only. -/
abbrev cond4_1 (i : grid4.Coords) : Prop := k4_cond2 i = 1#1

/-- The zero offsets of a rank-2 rectangle, as the constant function. -/
theorem off4_zero : (![0, 0] : Fin 2 → ℕ) = fun _ => 0 := by
  funext a; fin_cases a <;> rfl

/-- A load of a whole buffer through the whole-shape rectangle reads its contents. -/
theorem readAt_whole4 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole4 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel4_B (c : Dev nD) (E : Set ℕ) (i : grid4.Coords) (hc0 : ¬cond4_0 i) (hc1 : ¬cond4_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  iexists _; isplitr
  swap; · iexact H5
  ipureintro
  sl_unfold_run_names
  rw [read_store_whole4 (s := S1x300) _ _ off4_zero]
  simp only [View.readCov_unit_zero (S := S1x300) _ off4_zero, readAt_whole4 (s := S2000x300) _ _ off4_zero, readAt_whole4 (s := S1x300) _ _ off4_zero]

set_option maxHeartbeats 1000000 in
/-- The body at the first point, on whole memrefs: the two running rows, found at anything, are reset and then
    accumulate the point's block. -/
theorem sound_kernel4_A (c : Dev nD) (E : Set ℕ) (i : grid4.Coords) (hc0 : cond4_0 i) (hc1 : ¬cond4_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k4_pay4 x b (k4_pay1 (F := F))) ∗ owns (c : Thread nD τ) arg6 fullShare (k4_pay5 x b (k4_pay2 (F := F)))) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  iexists _; isplitr
  swap; · iexact H5
  ipureintro
  sl_unfold_run_names
  rw [read_store_whole4 (s := S1x300) _ _ off4_zero]
  simp only [View.readCov_unit_zero (S := S1x300) _ off4_zero, readAt_whole4 (s := S2000x300) _ _ off4_zero, readAt_whole4 (s := S1x300) _ _ off4_zero]

set_option maxHeartbeats 1000000 in
/-- The body at the last point, on whole memrefs: the two running rows accumulate the point's block, and the two
    output rows, found at anything, are stored from them (the mean row; the mean of squares less the squared mean). -/
theorem sound_kernel4_C (c : Dev nD) (E : Set ℕ) (i : grid4.Coords) (hc0 : ¬cond4_0 i) (hc1 : cond4_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k4_pay6 (k4_pay4 x b s0))
            ∗ owns (c : Thread nD τ) arg4 fullShare (k4_pay7 (k4_pay4 x b s0) (k4_pay5 x b s1))
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  isplitl [H3]
  · iexists _; isplitr
    swap; · iexact H3
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  isplitl [H4]
  · iexists _; isplitr
    swap; · iexact H4
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  iexists _; isplitr
  swap; · iexact H5
  ipureintro
  sl_unfold_run_names
  rw [read_store_whole4 (s := S1x300) _ _ off4_zero]
  simp only [View.readCov_unit_zero (S := S1x300) _ off4_zero, readAt_whole4 (s := S2000x300) _ _ off4_zero, readAt_whole4 (s := S1x300) _ _ off4_zero]

/-! ## Where the branches are taken and where the output windows are idle -/

/-- The reset is taken at the first point only; -/
theorem hcond4_0 : ∀ t : Fin cfg4.N, cond4_0 (grid4.coords t) ↔ t.val = 0 :=
  (by decide +kernel : ∀ t : Fin grid4.N, cond4_0 (grid4.coords t) ↔ t.val = 0)
/-- the output rows are stored at the last point only. -/
theorem hcond4_1 : ∀ t : Fin cfg4.N, cond4_1 (grid4.coords t) ↔ t.val = 49 :=
  (by decide +kernel : ∀ t : Fin grid4.N, cond4_1 (grid4.coords t) ↔ t.val = 49)

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Before the last point the two output windows are idle (the body stores nothing into them) and are not written back; -/
theorem idleAt4_2 : ∀ t : Fin cfg4.N, ¬cond4_1 (grid4.coords t) → cfg4.idle 2 (grid4.coords t) = true := by decide +kernel
theorem idleAt4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
/-- at the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The blocks and the running rows -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The two running rows (column sums, column sums of squares) after n points: the reset values, then point by
    point the accumulation of the point's row block and bias row. Past the grid's end nothing changes. -/
def sacc4 (c : Dev nD) : ℕ → Vec F S1x300 .f32 × Vec F S1x300 .f32
  | 0 => (k4_pay1, k4_pay2)
  | n + 1 =>
    if h : n < cfg4.N then
      (k4_pay4 (iblk4 V c 0 ⟨n, h⟩) (iblk4 V c 1 ⟨n, h⟩) (sacc4 c n).1,
       k4_pay5 (iblk4 V c 0 ⟨n, h⟩) (iblk4 V c 1 ⟨n, h⟩) (sacc4 c n).2)
    else sacc4 c n

theorem sacc4_zero (c : Dev nD) : sacc4 V c 0 = (k4_pay1, k4_pay2) := rfl

theorem sacc4_succ (c : Dev nD) (n : ℕ) (h : n < 50) :
    sacc4 V c (n + 1)
      = (k4_pay4 (iblk4 V c 0 ⟨n, lt_of_lt_of_eq h N_4.symm⟩) (iblk4 V c 1 ⟨n, lt_of_lt_of_eq h N_4.symm⟩) (sacc4 V c n).1,
         k4_pay5 (iblk4 V c 0 ⟨n, lt_of_lt_of_eq h N_4.symm⟩) (iblk4 V c 1 ⟨n, lt_of_lt_of_eq h N_4.symm⟩) (sacc4 V c n).2) := by
  rw [sacc4]; exact dif_pos (lt_of_lt_of_eq h N_4.symm)

/-- The same at a grid point: after point t, the rows before it accumulated with t's blocks. -/
theorem sacc4_at (c : Dev nD) (t : Fin cfg4.N) :
    sacc4 V c (t.val + 1)
      = (k4_pay4 (iblk4 V c 0 t) (iblk4 V c 1 t) (sacc4 V c t.val).1, k4_pay5 (iblk4 V c 0 t) (iblk4 V c 1 t) (sacc4 V c t.val).2) := by
  rw [sacc4]; exact dif_pos t.isLt

/-! ## The invariant -/

/-- The two scratch operands: whole scoped buffers of the kernel's own, passed beside the windows. -/
abbrev sc4_0 : Memref sig .tc .vmem S1x300 .f32 := Memref.whole cc4_scratch0
abbrev sc4_1 : Memref sig .tc .vmem S1x300 .f32 := Memref.whole cc4_scratch1

/-- The region invariant before position n: the scoped buffers other than the two scratch rows and the staging
    buffers, at anything; the generator register at some state; the two scratch rows owned whole — before the first
    point at anything, afterwards at the running rows after n points. -/
def Phi4 (c : Dev nD) : ℕ → sProp 𝕄
  | 0 => iprop(Pipeline.scopedRestBut (Ix := Unit) (Name := ℕ) (U := UR sig nD τ) (Lvl := ℕ) (Val := Elt F) spec4 c [cc4_scratch0, cc4_scratch1]
      ∗ (∃ r, prngReg c r)
      ∗ (∃ d, owns (c : Thread nD τ) sc4_0 fullShare d) ∗ (∃ d, owns (c : Thread nD τ) sc4_1 fullShare d))
  | n + 1 => iprop(Pipeline.scopedRestBut (Ix := Unit) (Name := ℕ) (U := UR sig nD τ) (Lvl := ℕ) (Val := Elt F) spec4 c [cc4_scratch0, cc4_scratch1]
      ∗ (∃ r, prngReg c r)
      ∗ owns (c : Thread nD τ) sc4_0 fullShare (sacc4 V c (n + 1)).1 ∗ owns (c : Thread nD τ) sc4_1 fullShare (sacc4 V c (n + 1)).2)

theorem Phi4_zero (c : Dev nD) (n : ℕ) (hz : n = 0) :
    Phi4 V c n = iprop(Pipeline.scopedRestBut (Ix := Unit) (Name := ℕ) (U := UR sig nD τ) (Lvl := ℕ) (Val := Elt F) spec4 c [cc4_scratch0, cc4_scratch1]
      ∗ (∃ r, prngReg c r)
      ∗ (∃ d, owns (c : Thread nD τ) sc4_0 fullShare d) ∗ (∃ d, owns (c : Thread nD τ) sc4_1 fullShare d)) := by
  subst hz; rfl

theorem Phi4_pos (c : Dev nD) (n : ℕ) (hz : n ≠ 0) :
    Phi4 V c n = iprop(Pipeline.scopedRestBut (Ix := Unit) (Name := ℕ) (U := UR sig nD τ) (Lvl := ℕ) (Val := Elt F) spec4 c [cc4_scratch0, cc4_scratch1]
      ∗ (∃ r, prngReg c r)
      ∗ owns (c : Thread nD τ) sc4_0 fullShare (sacc4 V c n).1 ∗ owns (c : Thread nD τ) sc4_1 fullShare (sacc4 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (sacc4 V c 50).1
    | ⟨3, _⟩ => k4_pay7 (sacc4 V c 50).1 (sacc4 V c 50).2
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay6 (sacc4 V c 50).1 := by dsimp only [dat4]
theorem after4_3 (c : Dev nD) (t : Fin cfg4.N) :
    (dat4 V c).after 3 t = k4_pay7 (sacc4 V c 50).1 (sacc4 V c 50).2 := by dsimp only [dat4]

/-- What the write-back at the last point writes: the two output rows. -/
theorem after4_2_last (c : Dev nD) : (dat4 V c).after 2 ⟨49, by decide⟩ = k4_pay6 (sacc4 V c 50).1 := after4_2 V c _
theorem after4_3_last (c : Dev nD) :
    (dat4 V c).after 3 ⟨49, by decide⟩ = k4_pay7 (sacc4 V c 50).1 (sacc4 V c 50).2 := after4_3 V c _

/-- The same at the last point, over the running rows after it. -/
theorem after4_2_at (c : Dev nD) (t : Fin cfg4.N) (h : t.val = 49) :
    (dat4 V c).after 2 t = k4_pay6 (sacc4 V c (t.val + 1)).1 := by rw [after4_2, h]
theorem after4_3_at (c : Dev nD) (t : Fin cfg4.N) (h : t.val = 49) :
    (dat4 V c).after 3 t = k4_pay7 (sacc4 V c (t.val + 1)).1 (sacc4 V c (t.val + 1)).2 := by rw [after4_3, h]

theorem Phi4_castSucc (c : Dev nD) (t : Fin cfg4.N) : (dat4 V c).Φ t.castSucc = Phi4 V c t.val := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: an output window idle at the point handed back as it was found. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = Phi4 V c (t.val + 1) from rfl, Phi4_castSucc,
    show (dat4 V c).leavesExact 0 t = owns (c : Thread nD τ) (st4_0 t) fullShare ((dat4 V c).after 0 t) from by
      unfold Dat.leavesExact; rw [liveAt4_0 t],
    show (dat4 V c).leavesExact 1 t = owns (c : Thread nD τ) (st4_1 t) fullShare ((dat4 V c).after 1 t) from by
      unfold Dat.leavesExact; rw [liveAt4_1 t],
    after4_0, after4_1]
  have hN : t.val < 50 := lt_of_lt_of_eq t.isLt N_4
  by_cases hfirst : t.val = 0
  · -- the first point: reset, then accumulate
    have hreset : cond4_0 (grid4.coords t) := (hcond4_0 t).mpr hfirst
    have hnolast : ¬cond4_1 (grid4.coords t) := fun h => by have := (hcond4_1 t).mp h; omega
    have hs : sacc4 V c t.val = (k4_pay1, k4_pay2) := by rw [hfirst]; rfl
    rw [Dat.leavesExact_idle (dat4 V c) 2 t (idleAt4_2 t hnolast) (noFlush4_2 t hnolast),
      Dat.leavesExact_idle (dat4 V c) 3 t (idleAt4_3 t hnolast) (noFlush4_3 t hnolast),
      Phi4_zero V c _ hfirst, Phi4_pos V c (t.val + 1) (Nat.succ_ne_zero _)]
    simp only [sacc4_at, hs]
    iintro ⟨⟨HR, Hg, ⟨%e0, HS0⟩, ⟨%e1, HS1⟩⟩, Ho, ⟨%d0, H0⟩, ⟨%d1, H1⟩, H2, H3⟩
    iapply (sound_kernel4_A c Set.univ _ hreset hnolast _ _ _ _ _ _ _ _ _ _ _ _ (iblk4 V c 0 t) (iblk4 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond4_0 (grid4.coords t) := fun h => hfirst ((hcond4_0 t).mp h)
    by_cases hlast : t.val = 49
    · -- the last point: accumulate, then the two output rows
      have hstore : cond4_1 (grid4.coords t) := (hcond4_1 t).mpr hlast
      rw [show (dat4 V c).leavesExact 2 t = owns (c : Thread nD τ) (st4_2 t) fullShare ((dat4 V c).after 2 t) from by
          unfold Dat.leavesExact; rw [liveAt4_2 t hstore],
        show (dat4 V c).leavesExact 3 t = owns (c : Thread nD τ) (st4_3 t) fullShare ((dat4 V c).after 3 t) from by
          unfold Dat.leavesExact; rw [liveAt4_3 t hstore],
        after4_2_at V c t hlast, after4_3_at V c t hlast,
        Phi4_pos V c _ hfirst, Phi4_pos V c (t.val + 1) (Nat.succ_ne_zero _)]
      simp only [sacc4_at]
      iintro ⟨⟨HR, Hg, HS0, HS1⟩, Ho, ⟨%d0, H0⟩, ⟨%d1, H1⟩, ⟨%d2, H2⟩, ⟨%d3, H3⟩⟩
      iapply (sound_kernel4_C c Set.univ _ hnoreset hstore _ _ _ _ _ _ _ _ _ _ _ _ (iblk4 V c 0 t) (iblk4 V c 1 t)
        (sacc4 V c t.val).1 (sacc4 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond4_1 (grid4.coords t) := fun h => hlast ((hcond4_1 t).mp h)
      rw [Dat.leavesExact_idle (dat4 V c) 2 t (idleAt4_2 t hnolast) (noFlush4_2 t hnolast),
        Dat.leavesExact_idle (dat4 V c) 3 t (idleAt4_3 t hnolast) (noFlush4_3 t hnolast),
        Phi4_pos V c _ hfirst, Phi4_pos V c (t.val + 1) (Nat.succ_ne_zero _)]
      simp only [sacc4_at]
      iintro ⟨⟨HR, Hg, HS0, HS1⟩, Ho, ⟨%d0, H0⟩, ⟨%d1, H1⟩, H2, H3⟩
      iapply (sound_kernel4_B c Set.univ _ hnoreset hnolast _ _ _ _ _ _ _ _ _ _ _ _ (iblk4 V c 0 t) (iblk4 V c 1 t)
        (sacc4 V c t.val).1 (sacc4 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- The region enters the invariant: the two scratch rows are taken out of the scoped rest, at anything; what else
    is handed beside the generator register and the scoped rest is dropped. -/
theorem hin4 (c : Dev nD) (P : sProp 𝕄) :
    iprop((∃ r, prngReg c r) ∗ P ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, Phi4_zero V c 0 rfl, scopedRest4_split]
  simp only [sc4_0, sc4_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl,
    Phi4_pos V c _ (by rw [Fin.val_last]; have : cfg4.N = 50 := N_4; omega), scopedRest4_split]
  simp only [sc4_0, sc4_1, owns_whole]
  iintro ⟨HR, Hg, HS0, HS1⟩
  isplitl [Hg]; · iexact Hg
  isplitl [HS0 HS1]
  · isplitl [HS0]
    · iexists _; iexact HS0
    iexists _; iexact HS1
  iexact HR

end Cert.Kernel.Reg

end
-- ==== Proof.K.Reg5.lean ====
/-
  Region 5 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_a : Rect S2000x300 := Rect.unit (s := S2000x300) ![0, 0] S2000x300.size inb_S2000x300_S2000x300_0_0
abbrev r5_c : Rect S1x300 := Rect.unit (s := S1x300) ![0, 0] S1x300.size inb_S1x300_S1x300_0_0

/-- The output block after the body: its one whole-block store, of the normalised and rectified row block. -/
def out5_6 (x0 : Vec F S2000x300 .f32) (x1 x2 x3 x4 x5 : Vec F S1x300 .f32) : Vec F S2000x300 .f32 :=
  View.canon [⟨r5_a, k5_pay1 (View.ld x0 r5_a) (View.ld x1 r5_c) (View.ld x2 r5_c) (View.ld x3 r5_c) (View.ld x4 r5_c) (View.ld x5 r5_c)⟩]

theorem cover5_6 (p0 : Vec F S2000x300 .f32) (y : S2000x300.Idx) :
    ∃ pc ∈ ([⟨r5_a, p0⟩] : List (View.Piece (Elt F) S2000x300 .f32)), y ∈ pc.1.set :=
  View.cover_of_tiled [⟨r5_a, p0⟩] S2000x300.size (by rfl) y

set_option maxHeartbeats 1000000 in
/-- The body on whole staging memrefs: the six inputs kept, the output block at the normalised block. -/
theorem sound_kernel5 (c : Dev nD) (E : Set ℕ) (i : grid5.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__bn_norm_kernel i arg1 harg1 arg2 harg2 arg3 harg3 arg4 harg4 arg5 harg5 arg6 harg6 arg7 harg7) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of the pipeline on core c: the arrays as the region finds them; after the body each input's
    buffer at its block and the output's at the normalised block of the point's blocks; the invariant the scoped
    rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.K.Reg6.lean ====
/-
  Region 6 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S2000x300 := Rect.unit (s := S2000x300) ![0, 0] S2000x300.size inb_S2000x300_S2000x300_0_0
abbrev r6_o : Rect S2000x300 := Rect.unit (s := S2000x300) ![0, 0] S2000x300.size inb_S2000x300_S2000x300_0_0
abbrev r6_b : Rect S300x300 := Rect.unit (s := S300x300) ![0, 0] S300x300.size inb_S300x300_S300x300_0_0
abbrev r6_c : Rect S1x300 := Rect.unit (s := S1x300) ![0, 0] S1x300.size inb_S1x300_S1x300_0_0

/-- The output block after the body: its one whole-block store, of the product of the row block with the
    weights plus the bias row. -/
def out6_3 (x0 : Vec F S2000x300 .f32) (x1 : Vec F S300x300 .f32) (x2 : Vec F S1x300 .f32) : Vec F S2000x300 .f32 :=
  View.canon [⟨r6_o, k6_pay1 (View.ld x0 r6_a) (View.ld x1 r6_b) (View.ld x2 r6_c)⟩]

theorem cover6_3 (p0 : Vec F S2000x300 .f32) (y : S2000x300.Idx) :
    ∃ pc ∈ ([⟨r6_o, p0⟩] : List (View.Piece (Elt F) S2000x300 .f32)), y ∈ pc.1.set :=
  View.cover_of_tiled [⟨r6_o, p0⟩] S2000x300.size (by rfl) y

set_option maxHeartbeats 1000000 in
/-- The body on whole staging memrefs: the three inputs kept, the output block at the product. -/
theorem sound_kernel6 (c : Dev nD) (E : Set ℕ) (i : grid6.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of the pipeline on core c: the arrays as the region finds them; after the body each input's
    buffer at its block and the output's at the product of the point's blocks; the invariant the scoped rest and
    the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.K.Reg7.lean ====
/-
  Region 7 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond7_0 (i : grid7.Coords) : Prop :=
  (Scalar.cmpi .ne (Scalar.extui (Scalar.cmpi .eq (BitVec.ofNat 32 (i 0).val) 0#32)) 0#32) = 1#1
/-- the second (the two output rows computed and stored) at its last point only. -/
abbrev cond7_1 (i : grid7.Coords) : Prop := k7_cond2 i = 1#1

/-- The zero offsets of a rank-2 rectangle, as the constant function. -/
theorem off7_zero : (![0, 0] : Fin 2 → ℕ) = fun _ => 0 := by
  funext a; fin_cases a <;> rfl

/-- A load of a whole buffer through the whole-shape rectangle reads its contents. -/
theorem readAt_whole7 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole7 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel7_B (c : Dev nD) (E : Set ℕ) (i : grid7.Coords) (hc0 : ¬cond7_0 i) (hc1 : ¬cond7_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k7_pay4 x b s0) ∗ owns (c : Thread nD τ) arg6 fullShare (k7_pay5 x b s1)) -∗ K ⟨⟩))
      ⊢ wp frame (wpE (defs₀ (F := F)) Variants.none c none) E (cc7__bn_stats_kernel i arg1 harg1 arg2 harg2 arg3 harg3 arg4 harg4 arg5 harg5 arg6 harg6) K := by
  simp only [cc7__bn_stats_kernel_eq_skeleton]; unfold cc7__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  iexists _; isplitr
  swap; · iexact H5
  ipureintro
  sl_unfold_run_names
  rw [read_store_whole7 (s := S1x300) _ _ off7_zero]
  simp only [View.readCov_unit_zero (S := S1x300) _ off7_zero, readAt_whole7 (s := S2000x300) _ _ off7_zero, readAt_whole7 (s := S1x300) _ _ off7_zero]

set_option maxHeartbeats 1000000 in
/-- The body at the first point, on whole memrefs: the two running rows, found at anything, are reset and then
    accumulate the point's block. -/
theorem sound_kernel7_A (c : Dev nD) (E : Set ℕ) (i : grid7.Coords) (hc0 : cond7_0 i) (hc1 : ¬cond7_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k7_pay4 x b (k7_pay1 (F := F))) ∗ owns (c : Thread nD τ) arg6 fullShare (k7_pay5 x b (k7_pay2 (F := F)))) -∗ K ⟨⟩))
      ⊢ wp frame (wpE (defs₀ (F := F)) Variants.none c none) E (cc7__bn_stats_kernel i arg1 harg1 arg2 harg2 arg3 harg3 arg4 harg4 arg5 harg5 arg6 harg6) K := by
  simp only [cc7__bn_stats_kernel_eq_skeleton]; unfold cc7__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  iexists _; isplitr
  swap; · iexact H5
  ipureintro
  sl_unfold_run_names
  rw [read_store_whole7 (s := S1x300) _ _ off7_zero]
  simp only [View.readCov_unit_zero (S := S1x300) _ off7_zero, readAt_whole7 (s := S2000x300) _ _ off7_zero, readAt_whole7 (s := S1x300) _ _ off7_zero]

set_option maxHeartbeats 1000000 in
/-- The body at the last point, on whole memrefs: the two running rows accumulate the point's block, and the two
    output rows, found at anything, are stored from them (the mean row; the mean of squares less the squared mean). -/
theorem sound_kernel7_C (c : Dev nD) (E : Set ℕ) (i : grid7.Coords) (hc0 : ¬cond7_0 i) (hc1 : cond7_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k7_pay6 (k7_pay4 x b s0))
            ∗ owns (c : Thread nD τ) arg4 fullShare (k7_pay7 (k7_pay4 x b s0) (k7_pay5 x b s1))
            ∗ owns (c : Thread nD τ) arg5 fullShare (k7_pay4 x b s0) ∗ owns (c : Thread nD τ) arg6 fullShare (k7_pay5 x b s1)) -∗ K ⟨⟩))
      ⊢ wp frame (wpE (defs₀ (F := F)) Variants.none c none) E (cc7__bn_stats_kernel i arg1 harg1 arg2 harg2 arg3 harg3 arg4 harg4 arg5 harg5 arg6 harg6) K := by
  simp only [cc7__bn_stats_kernel_eq_skeleton]; unfold cc7__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  isplitl [H3]
  · iexists _; isplitr
    swap; · iexact H3
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  isplitl [H4]
  · iexists _; isplitr
    swap; · iexact H4
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  iexists _; isplitr
  swap; · iexact H5
  ipureintro
  sl_unfold_run_names
  rw [read_store_whole7 (s := S1x300) _ _ off7_zero]
  simp only [View.readCov_unit_zero (S := S1x300) _ off7_zero, readAt_whole7 (s := S2000x300) _ _ off7_zero, readAt_whole7 (s := S1x300) _ _ off7_zero]

/-! ## Where the branches are taken and where the output windows are idle -/

/-- The reset is taken at the first point only; -/
theorem hcond7_0 : ∀ t : Fin cfg7.N, cond7_0 (grid7.coords t) ↔ t.val = 0 :=
  (by decide +kernel : ∀ t : Fin grid7.N, cond7_0 (grid7.coords t) ↔ t.val = 0)
/-- the output rows are stored at the last point only. -/
theorem hcond7_1 : ∀ t : Fin cfg7.N, cond7_1 (grid7.coords t) ↔ t.val = 49 :=
  (by decide +kernel : ∀ t : Fin grid7.N, cond7_1 (grid7.coords t) ↔ t.val = 49)

/-- The two input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Before the last point the two output windows are idle (the body stores nothing into them) and are not written back; -/
theorem idleAt7_2 : ∀ t : Fin cfg7.N, ¬cond7_1 (grid7.coords t) → cfg7.idle 2 (grid7.coords t) = true := by decide +kernel
theorem idleAt7_3 : ∀ t : Fin cfg7.N, ¬cond7_1 (grid7.coords t) → cfg7.idle 3 (grid7.coords t) = true := by decide +kernel
theorem noFlush7_2 : ∀ t : Fin cfg7.N, ¬cond7_1 (grid7.coords t) → (cfg7.win 2).flush t = false := by decide +kernel
theorem noFlush7_3 : ∀ t : Fin cfg7.N, ¬cond7_1 (grid7.coords t) → (cfg7.win 3).flush t = false := by decide +kernel
/-- at the last point they are live. -/
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## The blocks and the running rows -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The two running rows (column sums, column sums of squares) after n points: the reset values, then point by
    point the accumulation of the point's row block and bias row. Past the grid's end nothing changes. -/
def sacc7 (c : Dev nD) : ℕ → Vec F S1x300 .f32 × Vec F S1x300 .f32
  | 0 => (k7_pay1, k7_pay2)
  | n + 1 =>
    if h : n < cfg7.N then
      (k7_pay4 (iblk7 V c 0 ⟨n, h⟩) (iblk7 V c 1 ⟨n, h⟩) (sacc7 c n).1,
       k7_pay5 (iblk7 V c 0 ⟨n, h⟩) (iblk7 V c 1 ⟨n, h⟩) (sacc7 c n).2)
    else sacc7 c n

theorem sacc7_zero (c : Dev nD) : sacc7 V c 0 = (k7_pay1, k7_pay2) := rfl

theorem sacc7_succ (c : Dev nD) (n : ℕ) (h : n < 50) :
    sacc7 V c (n + 1)
      = (k7_pay4 (iblk7 V c 0 ⟨n, lt_of_lt_of_eq h N_7.symm⟩) (iblk7 V c 1 ⟨n, lt_of_lt_of_eq h N_7.symm⟩) (sacc7 V c n).1,
         k7_pay5 (iblk7 V c 0 ⟨n, lt_of_lt_of_eq h N_7.symm⟩) (iblk7 V c 1 ⟨n, lt_of_lt_of_eq h N_7.symm⟩) (sacc7 V c n).2) := by
  rw [sacc7]; exact dif_pos (lt_of_lt_of_eq h N_7.symm)

/-- The same at a grid point: after point t, the rows before it accumulated with t's blocks. -/
theorem sacc7_at (c : Dev nD) (t : Fin cfg7.N) :
    sacc7 V c (t.val + 1)
      = (k7_pay4 (iblk7 V c 0 t) (iblk7 V c 1 t) (sacc7 V c t.val).1, k7_pay5 (iblk7 V c 0 t) (iblk7 V c 1 t) (sacc7 V c t.val).2) := by
  rw [sacc7]; exact dif_pos t.isLt

/-! ## The invariant -/

/-- The two scratch operands: whole scoped buffers of the kernel's own, passed beside the windows. -/
abbrev sc7_0 : Memref sig .tc .vmem S1x300 .f32 := Memref.whole cc7_scratch0
abbrev sc7_1 : Memref sig .tc .vmem S1x300 .f32 := Memref.whole cc7_scratch1

/-- The region invariant before position n: the scoped buffers other than the two scratch rows and the staging
    buffers, at anything; the generator register at some state; the two scratch rows owned whole — before the first
    point at anything, afterwards at the running rows after n points. -/
def Phi7 (c : Dev nD) : ℕ → sProp 𝕄
  | 0 => iprop(Pipeline.scopedRestBut (Ix := Unit) (Name := ℕ) (U := UR sig nD τ) (Lvl := ℕ) (Val := Elt F) spec7 c [cc7_scratch0, cc7_scratch1]
      ∗ (∃ r, prngReg c r)
      ∗ (∃ d, owns (c : Thread nD τ) sc7_0 fullShare d) ∗ (∃ d, owns (c : Thread nD τ) sc7_1 fullShare d))
  | n + 1 => iprop(Pipeline.scopedRestBut (Ix := Unit) (Name := ℕ) (U := UR sig nD τ) (Lvl := ℕ) (Val := Elt F) spec7 c [cc7_scratch0, cc7_scratch1]
      ∗ (∃ r, prngReg c r)
      ∗ owns (c : Thread nD τ) sc7_0 fullShare (sacc7 V c (n + 1)).1 ∗ owns (c : Thread nD τ) sc7_1 fullShare (sacc7 V c (n + 1)).2)

theorem Phi7_zero (c : Dev nD) (n : ℕ) (hz : n = 0) :
    Phi7 V c n = iprop(Pipeline.scopedRestBut (Ix := Unit) (Name := ℕ) (U := UR sig nD τ) (Lvl := ℕ) (Val := Elt F) spec7 c [cc7_scratch0, cc7_scratch1]
      ∗ (∃ r, prngReg c r)
      ∗ (∃ d, owns (c : Thread nD τ) sc7_0 fullShare d) ∗ (∃ d, owns (c : Thread nD τ) sc7_1 fullShare d)) := by
  subst hz; rfl

theorem Phi7_pos (c : Dev nD) (n : ℕ) (hz : n ≠ 0) :
    Phi7 V c n = iprop(Pipeline.scopedRestBut (Ix := Unit) (Name := ℕ) (U := UR sig nD τ) (Lvl := ℕ) (Val := Elt F) spec7 c [cc7_scratch0, cc7_scratch1]
      ∗ (∃ r, prngReg c r)
      ∗ owns (c : Thread nD τ) sc7_0 fullShare (sacc7 V c n).1 ∗ owns (c : Thread nD τ) sc7_1 fullShare (sacc7 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay6 (sacc7 V c 50).1
    | ⟨3, _⟩ => k7_pay7 (sacc7 V c 50).1 (sacc7 V c 50).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay6 (sacc7 V c 50).1 := by dsimp only [dat7]
theorem after7_3 (c : Dev nD) (t : Fin cfg7.N) :
    (dat7 V c).after 3 t = k7_pay7 (sacc7 V c 50).1 (sacc7 V c 50).2 := by dsimp only [dat7]

/-- What the write-back at the last point writes: the two output rows. -/
theorem after7_2_last (c : Dev nD) : (dat7 V c).after 2 ⟨49, by decide⟩ = k7_pay6 (sacc7 V c 50).1 := after7_2 V c _
theorem after7_3_last (c : Dev nD) :
    (dat7 V c).after 3 ⟨49, by decide⟩ = k7_pay7 (sacc7 V c 50).1 (sacc7 V c 50).2 := after7_3 V c _

/-- The same at the last point, over the running rows after it. -/
theorem after7_2_at (c : Dev nD) (t : Fin cfg7.N) (h : t.val = 49) :
    (dat7 V c).after 2 t = k7_pay6 (sacc7 V c (t.val + 1)).1 := by rw [after7_2, h]
theorem after7_3_at (c : Dev nD) (t : Fin cfg7.N) (h : t.val = 49) :
    (dat7 V c).after 3 t = k7_pay7 (sacc7 V c (t.val + 1)).1 (sacc7 V c (t.val + 1)).2 := by rw [after7_3, h]

theorem Phi7_castSucc (c : Dev nD) (t : Fin cfg7.N) : (dat7 V c).Φ t.castSucc = Phi7 V c t.val := by
  dsimp only [dat7]; simp only [Fin.coe_castSucc]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: an output window idle at the point handed back as it was found. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl,
    show (dat7 V c).Φ t.succ = Phi7 V c (t.val + 1) from rfl, Phi7_castSucc,
    show (dat7 V c).leavesExact 0 t = owns (c : Thread nD τ) (st7_0 t) fullShare ((dat7 V c).after 0 t) from by
      unfold Dat.leavesExact; rw [liveAt7_0 t],
    show (dat7 V c).leavesExact 1 t = owns (c : Thread nD τ) (st7_1 t) fullShare ((dat7 V c).after 1 t) from by
      unfold Dat.leavesExact; rw [liveAt7_1 t],
    after7_0, after7_1]
  have hN : t.val < 50 := lt_of_lt_of_eq t.isLt N_7
  by_cases hfirst : t.val = 0
  · -- the first point: reset, then accumulate
    have hreset : cond7_0 (grid7.coords t) := (hcond7_0 t).mpr hfirst
    have hnolast : ¬cond7_1 (grid7.coords t) := fun h => by have := (hcond7_1 t).mp h; omega
    have hs : sacc7 V c t.val = (k7_pay1, k7_pay2) := by rw [hfirst]; rfl
    rw [Dat.leavesExact_idle (dat7 V c) 2 t (idleAt7_2 t hnolast) (noFlush7_2 t hnolast),
      Dat.leavesExact_idle (dat7 V c) 3 t (idleAt7_3 t hnolast) (noFlush7_3 t hnolast),
      Phi7_zero V c _ hfirst, Phi7_pos V c (t.val + 1) (Nat.succ_ne_zero _)]
    simp only [sacc7_at, hs]
    iintro ⟨⟨HR, Hg, ⟨%e0, HS0⟩, ⟨%e1, HS1⟩⟩, Ho, ⟨%d0, H0⟩, ⟨%d1, H1⟩, H2, H3⟩
    iapply (sound_kernel7_A c Set.univ _ hreset hnolast _ _ _ _ _ _ _ _ _ _ _ _ (iblk7 V c 0 t) (iblk7 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond7_0 (grid7.coords t) := fun h => hfirst ((hcond7_0 t).mp h)
    by_cases hlast : t.val = 49
    · -- the last point: accumulate, then the two output rows
      have hstore : cond7_1 (grid7.coords t) := (hcond7_1 t).mpr hlast
      rw [show (dat7 V c).leavesExact 2 t = owns (c : Thread nD τ) (st7_2 t) fullShare ((dat7 V c).after 2 t) from by
          unfold Dat.leavesExact; rw [liveAt7_2 t hstore],
        show (dat7 V c).leavesExact 3 t = owns (c : Thread nD τ) (st7_3 t) fullShare ((dat7 V c).after 3 t) from by
          unfold Dat.leavesExact; rw [liveAt7_3 t hstore],
        after7_2_at V c t hlast, after7_3_at V c t hlast,
        Phi7_pos V c _ hfirst, Phi7_pos V c (t.val + 1) (Nat.succ_ne_zero _)]
      simp only [sacc7_at]
      iintro ⟨⟨HR, Hg, HS0, HS1⟩, Ho, ⟨%d0, H0⟩, ⟨%d1, H1⟩, ⟨%d2, H2⟩, ⟨%d3, H3⟩⟩
      iapply (sound_kernel7_C c Set.univ _ hnoreset hstore _ _ _ _ _ _ _ _ _ _ _ _ (iblk7 V c 0 t) (iblk7 V c 1 t)
        (sacc7 V c t.val).1 (sacc7 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond7_1 (grid7.coords t) := fun h => hlast ((hcond7_1 t).mp h)
      rw [Dat.leavesExact_idle (dat7 V c) 2 t (idleAt7_2 t hnolast) (noFlush7_2 t hnolast),
        Dat.leavesExact_idle (dat7 V c) 3 t (idleAt7_3 t hnolast) (noFlush7_3 t hnolast),
        Phi7_pos V c _ hfirst, Phi7_pos V c (t.val + 1) (Nat.succ_ne_zero _)]
      simp only [sacc7_at]
      iintro ⟨⟨HR, Hg, HS0, HS1⟩, Ho, ⟨%d0, H0⟩, ⟨%d1, H1⟩, H2, H3⟩
      iapply (sound_kernel7_B c Set.univ _ hnoreset hnolast _ _ _ _ _ _ _ _ _ _ _ _ (iblk7 V c 0 t) (iblk7 V c 1 t)
        (sacc7 V c t.val).1 (sacc7 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- The region enters the invariant: the two scratch rows are taken out of the scoped rest, at anything; what else
    is handed beside the generator register and the scoped rest is dropped. -/
theorem hin7 (c : Dev nD) (P : sProp 𝕄) :
    iprop((∃ r, prngReg c r) ∗ P ∗ Pipeline.scopedRest (Ix := Unit) (Name := ℕ) (U := UR sig nD τ) (Lvl := ℕ) (Val := Elt F) spec7 c)
      ⊢ (dat7 V c).Φ 0 := by
  rw [show (dat7 V c).Φ 0 = Phi7 V c 0 from rfl, Phi7_zero V c 0 rfl, scopedRest7_split]
  simp only [sc7_0, sc7_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout7 (c : Dev nD) :
    (dat7 V c).Φ (Fin.last cfg7.N)
      ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = Phi7 V c (Fin.last cfg7.N).val from rfl,
    Phi7_pos V c _ (by rw [Fin.val_last]; have : cfg7.N = 50 := N_7; omega), scopedRest7_split]
  simp only [sc7_0, sc7_1, owns_whole]
  iintro ⟨HR, Hg, HS0, HS1⟩
  isplitl [Hg]; · iexact Hg
  isplitl [HS0 HS1]
  · isplitl [HS0]
    · iexists _; iexact HS0
    iexists _; iexact HS1
  iexact HR

end Cert.Kernel.Reg

end
-- ==== Proof.K.Reg8.lean ====
/-
  Region 8 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

abbrev r8_a : Rect S2000x300 := Rect.unit (s := S2000x300) ![0, 0] S2000x300.size inb_S2000x300_S2000x300_0_0
abbrev r8_c : Rect S1x300 := Rect.unit (s := S1x300) ![0, 0] S1x300.size inb_S1x300_S1x300_0_0

/-- The output block after the body: its one whole-block store, of the normalised and rectified row block. -/
def out8_6 (x0 : Vec F S2000x300 .f32) (x1 x2 x3 x4 x5 : Vec F S1x300 .f32) : Vec F S2000x300 .f32 :=
  View.canon [⟨r8_a, k8_pay1 (View.ld x0 r8_a) (View.ld x1 r8_c) (View.ld x2 r8_c) (View.ld x3 r8_c) (View.ld x4 r8_c) (View.ld x5 r8_c)⟩]

theorem cover8_6 (p0 : Vec F S2000x300 .f32) (y : S2000x300.Idx) :
    ∃ pc ∈ ([⟨r8_a, p0⟩] : List (View.Piece (Elt F) S2000x300 .f32)), y ∈ pc.1.set :=
  View.cover_of_tiled [⟨r8_a, p0⟩] S2000x300.size (by rfl) y

set_option maxHeartbeats 1000000 in
/-- The body on whole staging memrefs: the six inputs kept, the output block at the normalised block. -/
theorem sound_kernel8 (c : Dev nD) (E : Set ℕ) (i : grid8.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__bn_norm_kernel i arg1 harg1 arg2 harg2 arg3 harg3 arg4 harg4 arg5 harg5 arg6 harg6 arg7 harg7) K := by
  simp only [cc8__bn_norm_kernel_eq_skeleton]; unfold cc8__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-- The proof data of the pipeline on core c: the arrays as the region finds them; after the body each input's
    buffer at its block and the output's at the normalised block of the point's blocks; the invariant the scoped
    rest and the generator register; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.K.Reg9.lean ====
/-
  Region 9 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

abbrev r9_a : Rect S2000x300 := Rect.unit (s := S2000x300) ![0, 0] S2000x300.size inb_S2000x300_S2000x300_0_0
abbrev r9_o : Rect S2000x300 := Rect.unit (s := S2000x300) ![0, 0] S2000x300.size inb_S2000x300_S2000x300_0_0
abbrev r9_b : Rect S300x300 := Rect.unit (s := S300x300) ![0, 0] S300x300.size inb_S300x300_S300x300_0_0
abbrev r9_c : Rect S1x300 := Rect.unit (s := S1x300) ![0, 0] S1x300.size inb_S1x300_S1x300_0_0

/-- The output block after the body: its one whole-block store, of the product of the row block with the
    weights plus the bias row. -/
def out9_3 (x0 : Vec F S2000x300 .f32) (x1 : Vec F S300x300 .f32) (x2 : Vec F S1x300 .f32) : Vec F S2000x300 .f32 :=
  View.canon [⟨r9_o, k9_pay1 (View.ld x0 r9_a) (View.ld x1 r9_b) (View.ld x2 r9_c)⟩]

theorem cover9_3 (p0 : Vec F S2000x300 .f32) (y : S2000x300.Idx) :
    ∃ pc ∈ ([⟨r9_o, p0⟩] : List (View.Piece (Elt F) S2000x300 .f32)), y ∈ pc.1.set :=
  View.cover_of_tiled [⟨r9_o, p0⟩] S2000x300.size (by rfl) y

set_option maxHeartbeats 1000000 in
/-- The body on whole staging memrefs: the three inputs kept, the output block at the product. -/
theorem sound_kernel9 (c : Dev nD) (E : Set ℕ) (i : grid9.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__matmul_kernel i arg1 harg1 arg2 harg2 arg3 harg3 arg4 harg4) K := by
  simp only [cc9__matmul_kernel_eq_skeleton]; unfold cc9__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of the pipeline on core c: the arrays as the region finds them; after the body each input's
    buffer at its block and the output's at the product of the point's blocks; the invariant the scoped rest and
    the generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Reg

end
-- ==== Proof.K.Reg10.lean ====
/-
  Region 10 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond10_0 (i : grid10.Coords) : Prop :=
  (Scalar.cmpi .ne (Scalar.extui (Scalar.cmpi .eq (BitVec.ofNat 32 (i 0).val) 0#32)) 0#32) = 1#1
/-- the second (the two output rows computed and stored) at its last point only. -/
abbrev cond10_1 (i : grid10.Coords) : Prop := k10_cond2 i = 1#1

/-- The zero offsets of a rank-2 rectangle, as the constant function. -/
theorem off10_zero : (![0, 0] : Fin 2 → ℕ) = fun _ => 0 := by
  funext a; fin_cases a <;> rfl

/-- A load of a whole buffer through the whole-shape rectangle reads its contents. -/
theorem readAt_whole10 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole10 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel10_B (c : Dev nD) (E : Set ℕ) (i : grid10.Coords) (hc0 : ¬cond10_0 i) (hc1 : ¬cond10_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k10_pay4 x b s0) ∗ owns (c : Thread nD τ) arg6 fullShare (k10_pay5 x b s1)) -∗ K ⟨⟩))
      ⊢ wp frame (wpE (defs₀ (F := F)) Variants.none c none) E (cc10__bn_stats_kernel i arg1 harg1 arg2 harg2 arg3 harg3 arg4 harg4 arg5 harg5 arg6 harg6) K := by
  simp only [cc10__bn_stats_kernel_eq_skeleton]; unfold cc10__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  iexists _; isplitr
  swap; · iexact H5
  ipureintro
  sl_unfold_run_names
  rw [read_store_whole10 (s := S1x300) _ _ off10_zero]
  simp only [View.readCov_unit_zero (S := S1x300) _ off10_zero, readAt_whole10 (s := S2000x300) _ _ off10_zero, readAt_whole10 (s := S1x300) _ _ off10_zero]

set_option maxHeartbeats 1000000 in
/-- The body at the first point, on whole memrefs: the two running rows, found at anything, are reset and then
    accumulate the point's block. -/
theorem sound_kernel10_A (c : Dev nD) (E : Set ℕ) (i : grid10.Coords) (hc0 : cond10_0 i) (hc1 : ¬cond10_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k10_pay4 x b (k10_pay1 (F := F))) ∗ owns (c : Thread nD τ) arg6 fullShare (k10_pay5 x b (k10_pay2 (F := F)))) -∗ K ⟨⟩))
      ⊢ wp frame (wpE (defs₀ (F := F)) Variants.none c none) E (cc10__bn_stats_kernel i arg1 harg1 arg2 harg2 arg3 harg3 arg4 harg4 arg5 harg5 arg6 harg6) K := by
  simp only [cc10__bn_stats_kernel_eq_skeleton]; unfold cc10__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  iexists _; isplitr
  swap; · iexact H5
  ipureintro
  sl_unfold_run_names
  rw [read_store_whole10 (s := S1x300) _ _ off10_zero]
  simp only [View.readCov_unit_zero (S := S1x300) _ off10_zero, readAt_whole10 (s := S2000x300) _ _ off10_zero, readAt_whole10 (s := S1x300) _ _ off10_zero]

set_option maxHeartbeats 1000000 in
/-- The body at the last point, on whole memrefs: the two running rows accumulate the point's block, and the two
    output rows, found at anything, are stored from them (the mean row; the mean of squares less the squared mean). -/
theorem sound_kernel10_C (c : Dev nD) (E : Set ℕ) (i : grid10.Coords) (hc0 : ¬cond10_0 i) (hc1 : cond10_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k10_pay6 (k10_pay4 x b s0))
            ∗ owns (c : Thread nD τ) arg4 fullShare (k10_pay7 (k10_pay4 x b s0) (k10_pay5 x b s1))
            ∗ owns (c : Thread nD τ) arg5 fullShare (k10_pay4 x b s0) ∗ owns (c : Thread nD τ) arg6 fullShare (k10_pay5 x b s1)) -∗ K ⟨⟩))
      ⊢ wp frame (wpE (defs₀ (F := F)) Variants.none c none) E (cc10__bn_stats_kernel i arg1 harg1 arg2 harg2 arg3 harg3 arg4 harg4 arg5 harg5 arg6 harg6) K := by
  simp only [cc10__bn_stats_kernel_eq_skeleton]; unfold cc10__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  isplitl [H3]
  · iexists _; isplitr
    swap; · iexact H3
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  isplitl [H4]
  · iexists _; isplitr
    swap; · iexact H4
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  iexists _; isplitr
  swap; · iexact H5
  ipureintro
  sl_unfold_run_names
  rw [read_store_whole10 (s := S1x300) _ _ off10_zero]
  simp only [View.readCov_unit_zero (S := S1x300) _ off10_zero, readAt_whole10 (s := S2000x300) _ _ off10_zero, readAt_whole10 (s := S1x300) _ _ off10_zero]

/-! ## Where the branches are taken and where the output windows are idle -/

/-- The reset is taken at the first point only; -/
theorem hcond10_0 : ∀ t : Fin cfg10.N, cond10_0 (grid10.coords t) ↔ t.val = 0 :=
  (by decide +kernel : ∀ t : Fin grid10.N, cond10_0 (grid10.coords t) ↔ t.val = 0)
/-- the output rows are stored at the last point only. -/
theorem hcond10_1 : ∀ t : Fin cfg10.N, cond10_1 (grid10.coords t) ↔ t.val = 49 :=
  (by decide +kernel : ∀ t : Fin grid10.N, cond10_1 (grid10.coords t) ↔ t.val = 49)

/-- The two input windows are never idle. -/
theorem liveAt10_0 : ∀ t : Fin cfg10.N, cfg10.idle 0 (grid10.coords t) = false := by decide +kernel
theorem liveAt10_1 : ∀ t : Fin cfg10.N, cfg10.idle 1 (grid10.coords t) = false := by decide +kernel
/-- Before the last point the two output windows are idle (the body stores nothing into them) and are not written back; -/
theorem idleAt10_2 : ∀ t : Fin cfg10.N, ¬cond10_1 (grid10.coords t) → cfg10.idle 2 (grid10.coords t) = true := by decide +kernel
theorem idleAt10_3 : ∀ t : Fin cfg10.N, ¬cond10_1 (grid10.coords t) → cfg10.idle 3 (grid10.coords t) = true := by decide +kernel
theorem noFlush10_2 : ∀ t : Fin cfg10.N, ¬cond10_1 (grid10.coords t) → (cfg10.win 2).flush t = false := by decide +kernel
theorem noFlush10_3 : ∀ t : Fin cfg10.N, ¬cond10_1 (grid10.coords t) → (cfg10.win 3).flush t = false := by decide +kernel
/-- at the last point they are live. -/
theorem liveAt10_2 : ∀ t : Fin cfg10.N, cond10_1 (grid10.coords t) → cfg10.idle 2 (grid10.coords t) = false := by decide +kernel
theorem liveAt10_3 : ∀ t : Fin cfg10.N, cond10_1 (grid10.coords t) → cfg10.idle 3 (grid10.coords t) = false := by decide +kernel

/-! ## The blocks and the running rows -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The two running rows (column sums, column sums of squares) after n points: the reset values, then point by
    point the accumulation of the point's row block and bias row. Past the grid's end nothing changes. -/
def sacc10 (c : Dev nD) : ℕ → Vec F S1x300 .f32 × Vec F S1x300 .f32
  | 0 => (k10_pay1, k10_pay2)
  | n + 1 =>
    if h : n < cfg10.N then
      (k10_pay4 (iblk10 V c 0 ⟨n, h⟩) (iblk10 V c 1 ⟨n, h⟩) (sacc10 c n).1,
       k10_pay5 (iblk10 V c 0 ⟨n, h⟩) (iblk10 V c 1 ⟨n, h⟩) (sacc10 c n).2)
    else sacc10 c n

theorem sacc10_zero (c : Dev nD) : sacc10 V c 0 = (k10_pay1, k10_pay2) := rfl

theorem sacc10_succ (c : Dev nD) (n : ℕ) (h : n < 50) :
    sacc10 V c (n + 1)
      = (k10_pay4 (iblk10 V c 0 ⟨n, lt_of_lt_of_eq h N_10.symm⟩) (iblk10 V c 1 ⟨n, lt_of_lt_of_eq h N_10.symm⟩) (sacc10 V c n).1,
         k10_pay5 (iblk10 V c 0 ⟨n, lt_of_lt_of_eq h N_10.symm⟩) (iblk10 V c 1 ⟨n, lt_of_lt_of_eq h N_10.symm⟩) (sacc10 V c n).2) := by
  rw [sacc10]; exact dif_pos (lt_of_lt_of_eq h N_10.symm)

/-- The same at a grid point: after point t, the rows before it accumulated with t's blocks. -/
theorem sacc10_at (c : Dev nD) (t : Fin cfg10.N) :
    sacc10 V c (t.val + 1)
      = (k10_pay4 (iblk10 V c 0 t) (iblk10 V c 1 t) (sacc10 V c t.val).1, k10_pay5 (iblk10 V c 0 t) (iblk10 V c 1 t) (sacc10 V c t.val).2) := by
  rw [sacc10]; exact dif_pos t.isLt

/-! ## The invariant -/

/-- The two scratch operands: whole scoped buffers of the kernel's own, passed beside the windows. -/
abbrev sc10_0 : Memref sig .tc .vmem S1x300 .f32 := Memref.whole cc10_scratch0
abbrev sc10_1 : Memref sig .tc .vmem S1x300 .f32 := Memref.whole cc10_scratch1

/-- The region invariant before position n: the scoped buffers other than the two scratch rows and the staging
    buffers, at anything; the generator register at some state; the two scratch rows owned whole — before the first
    point at anything, afterwards at the running rows after n points. -/
def Phi10 (c : Dev nD) : ℕ → sProp 𝕄
  | 0 => iprop(Pipeline.scopedRestBut (Ix := Unit) (Name := ℕ) (U := UR sig nD τ) (Lvl := ℕ) (Val := Elt F) spec10 c [cc10_scratch0, cc10_scratch1]
      ∗ (∃ r, prngReg c r)
      ∗ (∃ d, owns (c : Thread nD τ) sc10_0 fullShare d) ∗ (∃ d, owns (c : Thread nD τ) sc10_1 fullShare d))
  | n + 1 => iprop(Pipeline.scopedRestBut (Ix := Unit) (Name := ℕ) (U := UR sig nD τ) (Lvl := ℕ) (Val := Elt F) spec10 c [cc10_scratch0, cc10_scratch1]
      ∗ (∃ r, prngReg c r)
      ∗ owns (c : Thread nD τ) sc10_0 fullShare (sacc10 V c (n + 1)).1 ∗ owns (c : Thread nD τ) sc10_1 fullShare (sacc10 V c (n + 1)).2)

theorem Phi10_zero (c : Dev nD) (n : ℕ) (hz : n = 0) :
    Phi10 V c n = iprop(Pipeline.scopedRestBut (Ix := Unit) (Name := ℕ) (U := UR sig nD τ) (Lvl := ℕ) (Val := Elt F) spec10 c [cc10_scratch0, cc10_scratch1]
      ∗ (∃ r, prngReg c r)
      ∗ (∃ d, owns (c : Thread nD τ) sc10_0 fullShare d) ∗ (∃ d, owns (c : Thread nD τ) sc10_1 fullShare d)) := by
  subst hz; rfl

theorem Phi10_pos (c : Dev nD) (n : ℕ) (hz : n ≠ 0) :
    Phi10 V c n = iprop(Pipeline.scopedRestBut (Ix := Unit) (Name := ℕ) (U := UR sig nD τ) (Lvl := ℕ) (Val := Elt F) spec10 c [cc10_scratch0, cc10_scratch1]
      ∗ (∃ r, prngReg c r)
      ∗ owns (c : Thread nD τ) sc10_0 fullShare (sacc10 V c n).1 ∗ owns (c : Thread nD τ) sc10_1 fullShare (sacc10 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay6 (sacc10 V c 50).1
    | ⟨3, _⟩ => k10_pay7 (sacc10 V c 50).1 (sacc10 V c 50).2
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay6 (sacc10 V c 50).1 := by dsimp only [dat10]
theorem after10_3 (c : Dev nD) (t : Fin cfg10.N) :
    (dat10 V c).after 3 t = k10_pay7 (sacc10 V c 50).1 (sacc10 V c 50).2 := by dsimp only [dat10]

/-- What the write-back at the last point writes: the two output rows. -/
theorem after10_2_last (c : Dev nD) : (dat10 V c).after 2 ⟨49, by decide⟩ = k10_pay6 (sacc10 V c 50).1 := after10_2 V c _
theorem after10_3_last (c : Dev nD) :
    (dat10 V c).after 3 ⟨49, by decide⟩ = k10_pay7 (sacc10 V c 50).1 (sacc10 V c 50).2 := after10_3 V c _

/-- The same at the last point, over the running rows after it. -/
theorem after10_2_at (c : Dev nD) (t : Fin cfg10.N) (h : t.val = 49) :
    (dat10 V c).after 2 t = k10_pay6 (sacc10 V c (t.val + 1)).1 := by rw [after10_2, h]
theorem after10_3_at (c : Dev nD) (t : Fin cfg10.N) (h : t.val = 49) :
    (dat10 V c).after 3 t = k10_pay7 (sacc10 V c (t.val + 1)).1 (sacc10 V c (t.val + 1)).2 := by rw [after10_3, h]

theorem Phi10_castSucc (c : Dev nD) (t : Fin cfg10.N) : (dat10 V c).Φ t.castSucc = Phi10 V c t.val := by
  dsimp only [dat10]; simp only [Fin.coe_castSucc]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns: an output window idle at the point handed back as it was found. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl,
    show (dat10 V c).Φ t.succ = Phi10 V c (t.val + 1) from rfl, Phi10_castSucc,
    show (dat10 V c).leavesExact 0 t = owns (c : Thread nD τ) (st10_0 t) fullShare ((dat10 V c).after 0 t) from by
      unfold Dat.leavesExact; rw [liveAt10_0 t],
    show (dat10 V c).leavesExact 1 t = owns (c : Thread nD τ) (st10_1 t) fullShare ((dat10 V c).after 1 t) from by
      unfold Dat.leavesExact; rw [liveAt10_1 t],
    after10_0, after10_1]
  have hN : t.val < 50 := lt_of_lt_of_eq t.isLt N_10
  by_cases hfirst : t.val = 0
  · -- the first point: reset, then accumulate
    have hreset : cond10_0 (grid10.coords t) := (hcond10_0 t).mpr hfirst
    have hnolast : ¬cond10_1 (grid10.coords t) := fun h => by have := (hcond10_1 t).mp h; omega
    have hs : sacc10 V c t.val = (k10_pay1, k10_pay2) := by rw [hfirst]; rfl
    rw [Dat.leavesExact_idle (dat10 V c) 2 t (idleAt10_2 t hnolast) (noFlush10_2 t hnolast),
      Dat.leavesExact_idle (dat10 V c) 3 t (idleAt10_3 t hnolast) (noFlush10_3 t hnolast),
      Phi10_zero V c _ hfirst, Phi10_pos V c (t.val + 1) (Nat.succ_ne_zero _)]
    simp only [sacc10_at, hs]
    iintro ⟨⟨HR, Hg, ⟨%e0, HS0⟩, ⟨%e1, HS1⟩⟩, Ho, ⟨%d0, H0⟩, ⟨%d1, H1⟩, H2, H3⟩
    iapply (sound_kernel10_A c Set.univ _ hreset hnolast _ _ _ _ _ _ _ _ _ _ _ _ (iblk10 V c 0 t) (iblk10 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond10_0 (grid10.coords t) := fun h => hfirst ((hcond10_0 t).mp h)
    by_cases hlast : t.val = 49
    · -- the last point: accumulate, then the two output rows
      have hstore : cond10_1 (grid10.coords t) := (hcond10_1 t).mpr hlast
      rw [show (dat10 V c).leavesExact 2 t = owns (c : Thread nD τ) (st10_2 t) fullShare ((dat10 V c).after 2 t) from by
          unfold Dat.leavesExact; rw [liveAt10_2 t hstore],
        show (dat10 V c).leavesExact 3 t = owns (c : Thread nD τ) (st10_3 t) fullShare ((dat10 V c).after 3 t) from by
          unfold Dat.leavesExact; rw [liveAt10_3 t hstore],
        after10_2_at V c t hlast, after10_3_at V c t hlast,
        Phi10_pos V c _ hfirst, Phi10_pos V c (t.val + 1) (Nat.succ_ne_zero _)]
      simp only [sacc10_at]
      iintro ⟨⟨HR, Hg, HS0, HS1⟩, Ho, ⟨%d0, H0⟩, ⟨%d1, H1⟩, ⟨%d2, H2⟩, ⟨%d3, H3⟩⟩
      iapply (sound_kernel10_C c Set.univ _ hnoreset hstore _ _ _ _ _ _ _ _ _ _ _ _ (iblk10 V c 0 t) (iblk10 V c 1 t)
        (sacc10 V c t.val).1 (sacc10 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond10_1 (grid10.coords t) := fun h => hlast ((hcond10_1 t).mp h)
      rw [Dat.leavesExact_idle (dat10 V c) 2 t (idleAt10_2 t hnolast) (noFlush10_2 t hnolast),
        Dat.leavesExact_idle (dat10 V c) 3 t (idleAt10_3 t hnolast) (noFlush10_3 t hnolast),
        Phi10_pos V c _ hfirst, Phi10_pos V c (t.val + 1) (Nat.succ_ne_zero _)]
      simp only [sacc10_at]
      iintro ⟨⟨HR, Hg, HS0, HS1⟩, Ho, ⟨%d0, H0⟩, ⟨%d1, H1⟩, H2, H3⟩
      iapply (sound_kernel10_B c Set.univ _ hnoreset hnolast _ _ _ _ _ _ _ _ _ _ _ _ (iblk10 V c 0 t) (iblk10 V c 1 t)
        (sacc10 V c t.val).1 (sacc10 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- The region enters the invariant: the two scratch rows are taken out of the scoped rest, at anything; what else
    is handed beside the generator register and the scoped rest is dropped. -/
theorem hin10 (c : Dev nD) (P : sProp 𝕄) :
    iprop((∃ r, prngReg c r) ∗ P ∗ Pipeline.scopedRest (Ix := Unit) (Name := ℕ) (U := UR sig nD τ) (Lvl := ℕ) (Val := Elt F) spec10 c)
      ⊢ (dat10 V c).Φ 0 := by
  rw [show (dat10 V c).Φ 0 = Phi10 V c 0 from rfl, Phi10_zero V c 0 rfl, scopedRest10_split]
  simp only [sc10_0, sc10_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout10 (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [show (dat10 V c).Φ (Fin.last cfg10.N) = Phi10 V c (Fin.last cfg10.N).val from rfl,
    Phi10_pos V c _ (by rw [Fin.val_last]; have : cfg10.N = 50 := N_10; omega), scopedRest10_split]
  simp only [sc10_0, sc10_1, owns_whole]
  iintro ⟨HR, Hg, HS0, HS1⟩
  isplitl [Hg]; · iexact Hg
  isplitl [HS0 HS1]
  · isplitl [HS0]
    · iexists _; iexact HS0
    iexists _; iexact HS1
  iexact HR

end Cert.Kernel.Reg

end
-- ==== Proof.K.Reg11.lean ====
/-
  Region 11 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

abbrev r11_a : Rect S2000x300 := Rect.unit (s := S2000x300) ![0, 0] S2000x300.size inb_S2000x300_S2000x300_0_0
abbrev r11_c : Rect S1x300 := Rect.unit (s := S1x300) ![0, 0] S1x300.size inb_S1x300_S1x300_0_0

/-- The output block after the body: its one whole-block store, of the normalised and rectified row block. -/
def out11_6 (x0 : Vec F S2000x300 .f32) (x1 x2 x3 x4 x5 : Vec F S1x300 .f32) : Vec F S2000x300 .f32 :=
  View.canon [⟨r11_a, k11_pay1 (View.ld x0 r11_a) (View.ld x1 r11_c) (View.ld x2 r11_c) (View.ld x3 r11_c) (View.ld x4 r11_c) (View.ld x5 r11_c)⟩]

theorem cover11_6 (p0 : Vec F S2000x300 .f32) (y : S2000x300.Idx) :
    ∃ pc ∈ ([⟨r11_a, p0⟩] : List (View.Piece (Elt F) S2000x300 .f32)), y ∈ pc.1.set :=
  View.cover_of_tiled [⟨r11_a, p0⟩] S2000x300.size (by rfl) y

set_option maxHeartbeats 1000000 in
/-- The body on whole staging memrefs: the six inputs kept, the output block at the normalised block. -/
theorem sound_kernel11 (c : Dev nD) (E : Set ℕ) (i : grid11.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out11_6 x0 x1 x2 x3 x4 x5)) -∗ K ⟨⟩))
      ⊢ wp frame (wpE (defs₀ (F := F)) Variants.none c none) E (cc11__bn_norm_kernel i arg1 harg1 arg2 harg2 arg3 harg3 arg4 harg4 arg5 harg5 arg6 harg6 arg7 harg7) K := by
  simp only [cc11__bn_norm_kernel_eq_skeleton]; unfold cc11__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-- The proof data of the pipeline on core c: the arrays as the region finds them; after the body each input's
    buffer at its block and the output's at the normalised block of the point's blocks; the invariant the scoped
    rest and the generator register; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) :
    (dat11 V c).after 6 t = out11_6 (iblk11 V c 0 t) (iblk11 V c 1 t) (iblk11 V c 2 t) (iblk11 V c 3 t) (iblk11 V c 4 t) (iblk11 V c 5 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Reg

end
-- ==== Proof.K.Reg12.lean ====
/-
  Region 12 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

abbrev r12_a : Rect S2000x300 := Rect.unit (s := S2000x300) ![0, 0] S2000x300.size inb_S2000x300_S2000x300_0_0
abbrev r12_o : Rect S2000x300 := Rect.unit (s := S2000x300) ![0, 0] S2000x300.size inb_S2000x300_S2000x300_0_0
abbrev r12_b : Rect S300x300 := Rect.unit (s := S300x300) ![0, 0] S300x300.size inb_S300x300_S300x300_0_0
abbrev r12_c : Rect S1x300 := Rect.unit (s := S1x300) ![0, 0] S1x300.size inb_S1x300_S1x300_0_0

/-- The output block after the body: its one whole-block store, of the product of the row block with the
    weights plus the bias row. -/
def out12_3 (x0 : Vec F S2000x300 .f32) (x1 : Vec F S300x300 .f32) (x2 : Vec F S1x300 .f32) : Vec F S2000x300 .f32 :=
  View.canon [⟨r12_o, k12_pay1 (View.ld x0 r12_a) (View.ld x1 r12_b) (View.ld x2 r12_c)⟩]

theorem cover12_3 (p0 : Vec F S2000x300 .f32) (y : S2000x300.Idx) :
    ∃ pc ∈ ([⟨r12_o, p0⟩] : List (View.Piece (Elt F) S2000x300 .f32)), y ∈ pc.1.set :=
  View.cover_of_tiled [⟨r12_o, p0⟩] S2000x300.size (by rfl) y

set_option maxHeartbeats 1000000 in
/-- The body on whole staging memrefs: the three inputs kept, the output block at the product. -/
theorem sound_kernel12 (c : Dev nD) (E : Set ℕ) (i : grid12.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out12_3 x0 x1 x2)) -∗ K ⟨⟩))
      ⊢ wp frame (wpE (defs₀ (F := F)) Variants.none c none) E (cc12__matmul_kernel i arg1 harg1 arg2 harg2 arg3 harg3 arg4 harg4) K := by
  simp only [cc12__matmul_kernel_eq_skeleton]; unfold cc12__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The proof data of the pipeline on core c: the arrays as the region finds them; after the body each input's
    buffer at its block and the output's at the product of the point's blocks; the invariant the scoped rest and
    the generator register; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Reg

end
-- ==== Proof.K.Reg13.lean ====
/-
  Region 13 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond13_0 (i : grid13.Coords) : Prop :=
  (Scalar.cmpi .ne (Scalar.extui (Scalar.cmpi .eq (BitVec.ofNat 32 (i 0).val) 0#32)) 0#32) = 1#1
/-- the second (the two output rows computed and stored) at its last point only. -/
abbrev cond13_1 (i : grid13.Coords) : Prop := k13_cond2 i = 1#1

/-- The zero offsets of a rank-2 rectangle, as the constant function. -/
theorem off13_zero : (![0, 0] : Fin 2 → ℕ) = fun _ => 0 := by
  funext a; fin_cases a <;> rfl

/-- A load of a whole buffer through the whole-shape rectangle reads its contents. -/
theorem readAt_whole13 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole13 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel13_B (c : Dev nD) (E : Set ℕ) (i : grid13.Coords) (hc0 : ¬cond13_0 i) (hc1 : ¬cond13_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k13_pay4 x b s0) ∗ owns (c : Thread nD τ) arg6 fullShare (k13_pay5 x b s1)) -∗ K ⟨⟩))
      ⊢ wp frame (wpE (defs₀ (F := F)) Variants.none c none) E (cc13__bn_stats_kernel i arg1 harg1 arg2 harg2 arg3 harg3 arg4 harg4 arg5 harg5 arg6 harg6) K := by
  simp only [cc13__bn_stats_kernel_eq_skeleton]; unfold cc13__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  iexists _; isplitr
  swap; · iexact H5
  ipureintro
  sl_unfold_run_names
  rw [read_store_whole13 (s := S1x300) _ _ off13_zero]
  simp only [View.readCov_unit_zero (S := S1x300) _ off13_zero, readAt_whole13 (s := S2000x300) _ _ off13_zero, readAt_whole13 (s := S1x300) _ _ off13_zero]

set_option maxHeartbeats 1000000 in
/-- The body at the first point, on whole memrefs: the two running rows, found at anything, are reset and then
    accumulate the point's block. -/
theorem sound_kernel13_A (c : Dev nD) (E : Set ℕ) (i : grid13.Coords) (hc0 : cond13_0 i) (hc1 : ¬cond13_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k13_pay4 x b (k13_pay1 (F := F))) ∗ owns (c : Thread nD τ) arg6 fullShare (k13_pay5 x b (k13_pay2 (F := F)))) -∗ K ⟨⟩))
      ⊢ wp frame (wpE (defs₀ (F := F)) Variants.none c none) E (cc13__bn_stats_kernel i arg1 harg1 arg2 harg2 arg3 harg3 arg4 harg4 arg5 harg5 arg6 harg6) K := by
  simp only [cc13__bn_stats_kernel_eq_skeleton]; unfold cc13__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  iexists _; isplitr
  swap; · iexact H5
  ipureintro
  sl_unfold_run_names
  rw [read_store_whole13 (s := S1x300) _ _ off13_zero]
  simp only [View.readCov_unit_zero (S := S1x300) _ off13_zero, readAt_whole13 (s := S2000x300) _ _ off13_zero, readAt_whole13 (s := S1x300) _ _ off13_zero]

set_option maxHeartbeats 1000000 in
/-- The body at the last point, on whole memrefs: the two running rows accumulate the point's block, and the two
    output rows, found at anything, are stored from them (the mean row; the mean of squares less the squared mean). -/
theorem sound_kernel13_C (c : Dev nD) (E : Set ℕ) (i : grid13.Coords) (hc0 : ¬cond13_0 i) (hc1 : cond13_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k13_pay6 (k13_pay4 x b s0))
            ∗ owns (c : Thread nD τ) arg4 fullShare (k13_pay7 (k13_pay4 x b s0) (k13_pay5 x b s1))
            ∗ owns (c : Thread nD τ) arg5 fullShare (k13_pay4 x b s0) ∗ owns (c : Thread nD τ) arg6 fullShare (k13_pay5 x b s1)) -∗ K ⟨⟩))
      ⊢ wp frame (wpE (defs₀ (F := F)) Variants.none c none) E (cc13__bn_stats_kernel i arg1 harg1 arg2 harg2 arg3 harg3 arg4 harg4 arg5 harg5 arg6 harg6) K := by
  simp only [cc13__bn_stats_kernel_eq_skeleton]; unfold cc13__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  isplitl [H3]
  · iexists _; isplitr
    swap; · iexact H3
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  isplitl [H4]
  · iexists _; isplitr
    swap; · iexact H4
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  iexists _; isplitr
  swap; · iexact H5
  ipureintro
  sl_unfold_run_names
  rw [read_store_whole13 (s := S1x300) _ _ off13_zero]
  simp only [View.readCov_unit_zero (S := S1x300) _ off13_zero, readAt_whole13 (s := S2000x300) _ _ off13_zero, readAt_whole13 (s := S1x300) _ _ off13_zero]

/-! ## Where the branches are taken and where the output windows are idle -/

/-- The reset is taken at the first point only; -/
theorem hcond13_0 : ∀ t : Fin cfg13.N, cond13_0 (grid13.coords t) ↔ t.val = 0 :=
  (by decide +kernel : ∀ t : Fin grid13.N, cond13_0 (grid13.coords t) ↔ t.val = 0)
/-- the output rows are stored at the last point only. -/
theorem hcond13_1 : ∀ t : Fin cfg13.N, cond13_1 (grid13.coords t) ↔ t.val = 49 :=
  (by decide +kernel : ∀ t : Fin grid13.N, cond13_1 (grid13.coords t) ↔ t.val = 49)

/-- The two input windows are never idle. -/
theorem liveAt13_0 : ∀ t : Fin cfg13.N, cfg13.idle 0 (grid13.coords t) = false := by decide +kernel
theorem liveAt13_1 : ∀ t : Fin cfg13.N, cfg13.idle 1 (grid13.coords t) = false := by decide +kernel
/-- Before the last point the two output windows are idle (the body stores nothing into them) and are not written back; -/
theorem idleAt13_2 : ∀ t : Fin cfg13.N, ¬cond13_1 (grid13.coords t) → cfg13.idle 2 (grid13.coords t) = true := by decide +kernel
theorem idleAt13_3 : ∀ t : Fin cfg13.N, ¬cond13_1 (grid13.coords t) → cfg13.idle 3 (grid13.coords t) = true := by decide +kernel
theorem noFlush13_2 : ∀ t : Fin cfg13.N, ¬cond13_1 (grid13.coords t) → (cfg13.win 2).flush t = false := by decide +kernel
theorem noFlush13_3 : ∀ t : Fin cfg13.N, ¬cond13_1 (grid13.coords t) → (cfg13.win 3).flush t = false := by decide +kernel
/-- at the last point they are live. -/
theorem liveAt13_2 : ∀ t : Fin cfg13.N, cond13_1 (grid13.coords t) → cfg13.idle 2 (grid13.coords t) = false := by decide +kernel
theorem liveAt13_3 : ∀ t : Fin cfg13.N, cond13_1 (grid13.coords t) → cfg13.idle 3 (grid13.coords t) = false := by decide +kernel

/-! ## The blocks and the running rows -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The two running rows (column sums, column sums of squares) after n points: the reset values, then point by
    point the accumulation of the point's row block and bias row. Past the grid's end nothing changes. -/
def sacc13 (c : Dev nD) : ℕ → Vec F S1x300 .f32 × Vec F S1x300 .f32
  | 0 => (k13_pay1, k13_pay2)
  | n + 1 =>
    if h : n < cfg13.N then
      (k13_pay4 (iblk13 V c 0 ⟨n, h⟩) (iblk13 V c 1 ⟨n, h⟩) (sacc13 c n).1,
       k13_pay5 (iblk13 V c 0 ⟨n, h⟩) (iblk13 V c 1 ⟨n, h⟩) (sacc13 c n).2)
    else sacc13 c n

theorem sacc13_zero (c : Dev nD) : sacc13 V c 0 = (k13_pay1, k13_pay2) := rfl

theorem sacc13_succ (c : Dev nD) (n : ℕ) (h : n < 50) :
    sacc13 V c (n + 1)
      = (k13_pay4 (iblk13 V c 0 ⟨n, lt_of_lt_of_eq h N_13.symm⟩) (iblk13 V c 1 ⟨n, lt_of_lt_of_eq h N_13.symm⟩) (sacc13 V c n).1,
         k13_pay5 (iblk13 V c 0 ⟨n, lt_of_lt_of_eq h N_13.symm⟩) (iblk13 V c 1 ⟨n, lt_of_lt_of_eq h N_13.symm⟩) (sacc13 V c n).2) := by
  rw [sacc13]; exact dif_pos (lt_of_lt_of_eq h N_13.symm)

/-- The same at a grid point: after point t, the rows before it accumulated with t's blocks. -/
theorem sacc13_at (c : Dev nD) (t : Fin cfg13.N) :
    sacc13 V c (t.val + 1)
      = (k13_pay4 (iblk13 V c 0 t) (iblk13 V c 1 t) (sacc13 V c t.val).1, k13_pay5 (iblk13 V c 0 t) (iblk13 V c 1 t) (sacc13 V c t.val).2) := by
  rw [sacc13]; exact dif_pos t.isLt

/-! ## The invariant -/

/-- The two scratch operands: whole scoped buffers of the kernel's own, passed beside the windows. -/
abbrev sc13_0 : Memref sig .tc .vmem S1x300 .f32 := Memref.whole cc13_scratch0
abbrev sc13_1 : Memref sig .tc .vmem S1x300 .f32 := Memref.whole cc13_scratch1

/-- The region invariant before position n: the scoped buffers other than the two scratch rows and the staging
    buffers, at anything; the generator register at some state; the two scratch rows owned whole — before the first
    point at anything, afterwards at the running rows after n points. -/
def Phi13 (c : Dev nD) : ℕ → sProp 𝕄
  | 0 => iprop(Pipeline.scopedRestBut (Ix := Unit) (Name := ℕ) (U := UR sig nD τ) (Lvl := ℕ) (Val := Elt F) spec13 c [cc13_scratch0, cc13_scratch1]
      ∗ (∃ r, prngReg c r)
      ∗ (∃ d, owns (c : Thread nD τ) sc13_0 fullShare d) ∗ (∃ d, owns (c : Thread nD τ) sc13_1 fullShare d))
  | n + 1 => iprop(Pipeline.scopedRestBut (Ix := Unit) (Name := ℕ) (U := UR sig nD τ) (Lvl := ℕ) (Val := Elt F) spec13 c [cc13_scratch0, cc13_scratch1]
      ∗ (∃ r, prngReg c r)
      ∗ owns (c : Thread nD τ) sc13_0 fullShare (sacc13 V c (n + 1)).1 ∗ owns (c : Thread nD τ) sc13_1 fullShare (sacc13 V c (n + 1)).2)

theorem Phi13_zero (c : Dev nD) (n : ℕ) (hz : n = 0) :
    Phi13 V c n = iprop(Pipeline.scopedRestBut (Ix := Unit) (Name := ℕ) (U := UR sig nD τ) (Lvl := ℕ) (Val := Elt F) spec13 c [cc13_scratch0, cc13_scratch1]
      ∗ (∃ r, prngReg c r)
      ∗ (∃ d, owns (c : Thread nD τ) sc13_0 fullShare d) ∗ (∃ d, owns (c : Thread nD τ) sc13_1 fullShare d)) := by
  subst hz; rfl

theorem Phi13_pos (c : Dev nD) (n : ℕ) (hz : n ≠ 0) :
    Phi13 V c n = iprop(Pipeline.scopedRestBut (Ix := Unit) (Name := ℕ) (U := UR sig nD τ) (Lvl := ℕ) (Val := Elt F) spec13 c [cc13_scratch0, cc13_scratch1]
      ∗ (∃ r, prngReg c r)
      ∗ owns (c : Thread nD τ) sc13_0 fullShare (sacc13 V c n).1 ∗ owns (c : Thread nD τ) sc13_1 fullShare (sacc13 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay6 (sacc13 V c 50).1
    | ⟨3, _⟩ => k13_pay7 (sacc13 V c 50).1 (sacc13 V c 50).2
  Φ t := Phi13 V c t.val
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = k13_pay6 (sacc13 V c 50).1 := by dsimp only [dat13]
theorem after13_3 (c : Dev nD) (t : Fin cfg13.N) :
    (dat13 V c).after 3 t = k13_pay7 (sacc13 V c 50).1 (sacc13 V c 50).2 := by dsimp only [dat13]

/-- What the write-back at the last point writes: the two output rows. -/
theorem after13_2_last (c : Dev nD) : (dat13 V c).after 2 ⟨49, by decide⟩ = k13_pay6 (sacc13 V c 50).1 := after13_2 V c _
theorem after13_3_last (c : Dev nD) :
    (dat13 V c).after 3 ⟨49, by decide⟩ = k13_pay7 (sacc13 V c 50).1 (sacc13 V c 50).2 := after13_3 V c _

/-- The same at the last point, over the running rows after it. -/
theorem after13_2_at (c : Dev nD) (t : Fin cfg13.N) (h : t.val = 49) :
    (dat13 V c).after 2 t = k13_pay6 (sacc13 V c (t.val + 1)).1 := by rw [after13_2, h]
theorem after13_3_at (c : Dev nD) (t : Fin cfg13.N) (h : t.val = 49) :
    (dat13 V c).after 3 t = k13_pay7 (sacc13 V c (t.val + 1)).1 (sacc13 V c (t.val + 1)).2 := by rw [after13_3, h]

theorem Phi13_castSucc (c : Dev nD) (t : Fin cfg13.N) : (dat13 V c).Φ t.castSucc = Phi13 V c t.val := by
  dsimp only [dat13]; simp only [Fin.coe_castSucc]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns: an output window idle at the point handed back as it was found. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl,
    show (dat13 V c).Φ t.succ = Phi13 V c (t.val + 1) from rfl, Phi13_castSucc,
    show (dat13 V c).leavesExact 0 t = owns (c : Thread nD τ) (st13_0 t) fullShare ((dat13 V c).after 0 t) from by
      unfold Dat.leavesExact; rw [liveAt13_0 t],
    show (dat13 V c).leavesExact 1 t = owns (c : Thread nD τ) (st13_1 t) fullShare ((dat13 V c).after 1 t) from by
      unfold Dat.leavesExact; rw [liveAt13_1 t],
    after13_0, after13_1]
  have hN : t.val < 50 := lt_of_lt_of_eq t.isLt N_13
  by_cases hfirst : t.val = 0
  · -- the first point: reset, then accumulate
    have hreset : cond13_0 (grid13.coords t) := (hcond13_0 t).mpr hfirst
    have hnolast : ¬cond13_1 (grid13.coords t) := fun h => by have := (hcond13_1 t).mp h; omega
    have hs : sacc13 V c t.val = (k13_pay1, k13_pay2) := by rw [hfirst]; rfl
    rw [Dat.leavesExact_idle (dat13 V c) 2 t (idleAt13_2 t hnolast) (noFlush13_2 t hnolast),
      Dat.leavesExact_idle (dat13 V c) 3 t (idleAt13_3 t hnolast) (noFlush13_3 t hnolast),
      Phi13_zero V c _ hfirst, Phi13_pos V c (t.val + 1) (Nat.succ_ne_zero _)]
    simp only [sacc13_at, hs]
    iintro ⟨⟨HR, Hg, ⟨%e0, HS0⟩, ⟨%e1, HS1⟩⟩, Ho, ⟨%d0, H0⟩, ⟨%d1, H1⟩, H2, H3⟩
    iapply (sound_kernel13_A c Set.univ _ hreset hnolast _ _ _ _ _ _ _ _ _ _ _ _ (iblk13 V c 0 t) (iblk13 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond13_0 (grid13.coords t) := fun h => hfirst ((hcond13_0 t).mp h)
    by_cases hlast : t.val = 49
    · -- the last point: accumulate, then the two output rows
      have hstore : cond13_1 (grid13.coords t) := (hcond13_1 t).mpr hlast
      rw [show (dat13 V c).leavesExact 2 t = owns (c : Thread nD τ) (st13_2 t) fullShare ((dat13 V c).after 2 t) from by
          unfold Dat.leavesExact; rw [liveAt13_2 t hstore],
        show (dat13 V c).leavesExact 3 t = owns (c : Thread nD τ) (st13_3 t) fullShare ((dat13 V c).after 3 t) from by
          unfold Dat.leavesExact; rw [liveAt13_3 t hstore],
        after13_2_at V c t hlast, after13_3_at V c t hlast,
        Phi13_pos V c _ hfirst, Phi13_pos V c (t.val + 1) (Nat.succ_ne_zero _)]
      simp only [sacc13_at]
      iintro ⟨⟨HR, Hg, HS0, HS1⟩, Ho, ⟨%d0, H0⟩, ⟨%d1, H1⟩, ⟨%d2, H2⟩, ⟨%d3, H3⟩⟩
      iapply (sound_kernel13_C c Set.univ _ hnoreset hstore _ _ _ _ _ _ _ _ _ _ _ _ (iblk13 V c 0 t) (iblk13 V c 1 t)
        (sacc13 V c t.val).1 (sacc13 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond13_1 (grid13.coords t) := fun h => hlast ((hcond13_1 t).mp h)
      rw [Dat.leavesExact_idle (dat13 V c) 2 t (idleAt13_2 t hnolast) (noFlush13_2 t hnolast),
        Dat.leavesExact_idle (dat13 V c) 3 t (idleAt13_3 t hnolast) (noFlush13_3 t hnolast),
        Phi13_pos V c _ hfirst, Phi13_pos V c (t.val + 1) (Nat.succ_ne_zero _)]
      simp only [sacc13_at]
      iintro ⟨⟨HR, Hg, HS0, HS1⟩, Ho, ⟨%d0, H0⟩, ⟨%d1, H1⟩, H2, H3⟩
      iapply (sound_kernel13_B c Set.univ _ hnoreset hnolast _ _ _ _ _ _ _ _ _ _ _ _ (iblk13 V c 0 t) (iblk13 V c 1 t)
        (sacc13 V c t.val).1 (sacc13 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation13 (c : Dev nD) : BodyObligation (dat13 (F := F) V c) (defs₀ (F := F)) Variants.none () Set.univ := fun t => by
  rw [bigSep_W13, bigSep_W13]
  exact sound_body13 V c t

/-! ## Into the invariant and out of it -/

/-- The region enters the invariant: the two scratch rows are taken out of the scoped rest, at anything; what else
    is handed beside the generator register and the scoped rest is dropped. -/
theorem hin13 (c : Dev nD) (P : sProp 𝕄) :
    iprop((∃ r, prngReg c r) ∗ P ∗ Pipeline.scopedRest (Ix := Unit) (Name := ℕ) (U := UR sig nD τ) (Lvl := ℕ) (Val := Elt F) spec13 c)
      ⊢ (dat13 V c).Φ 0 := by
  rw [show (dat13 V c).Φ 0 = Phi13 V c 0 from rfl, Phi13_zero V c 0 rfl, scopedRest13_split]
  simp only [sc13_0, sc13_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout13 (c : Dev nD) :
    (dat13 V c).Φ (Fin.last cfg13.N)
      ⊢ iprop((∃ r, prngReg c r) ∗ Pipeline.scopedRest (Ix := Unit) (Name := ℕ) (U := UR sig nD τ) (Lvl := ℕ) (Val := Elt F) spec13 c) := by
  rw [show (dat13 V c).Φ (Fin.last cfg13.N) = Phi13 V c (Fin.last cfg13.N).val from rfl,
    Phi13_pos V c _ (by rw [Fin.val_last]; have : cfg13.N = 50 := N_13; omega), scopedRest13_split]
  simp only [sc13_0, sc13_1, owns_whole]
  iintro ⟨HR, Hg, HS0, HS1⟩
  isplitl [Hg]; · iexact Hg
  isplitl [HS0 HS1]
  · isplitl [HS0]
    · iexists _; iexact HS0
    iexists _; iexact HS1
  iexact HR

end Cert.Kernel.Reg

end
-- ==== Proof.K.Reg14.lean ====
/-
  Region 14 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

abbrev r14_a : Rect S2000x300 := Rect.unit (s := S2000x300) ![0, 0] S2000x300.size inb_S2000x300_S2000x300_0_0
abbrev r14_c : Rect S1x300 := Rect.unit (s := S1x300) ![0, 0] S1x300.size inb_S1x300_S1x300_0_0

/-- The output block after the body: its one whole-block store, of the normalised and rectified row block. -/
def out14_6 (x0 : Vec F S2000x300 .f32) (x1 x2 x3 x4 x5 : Vec F S1x300 .f32) : Vec F S2000x300 .f32 :=
  View.canon [⟨r14_a, k14_pay1 (View.ld x0 r14_a) (View.ld x1 r14_c) (View.ld x2 r14_c) (View.ld x3 r14_c) (View.ld x4 r14_c) (View.ld x5 r14_c)⟩]

theorem cover14_6 (p0 : Vec F S2000x300 .f32) (y : S2000x300.Idx) :
    ∃ pc ∈ ([⟨r14_a, p0⟩] : List (View.Piece (Elt F) S2000x300 .f32)), y ∈ pc.1.set :=
  View.cover_of_tiled [⟨r14_a, p0⟩] S2000x300.size (by rfl) y

set_option maxHeartbeats 1000000 in
/-- The body on whole staging memrefs: the six inputs kept, the output block at the normalised block. -/
theorem sound_kernel14 (c : Dev nD) (E : Set ℕ) (i : grid14.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out14_6 x0 x1 x2 x3 x4 x5)) -∗ K ⟨⟩))
      ⊢ wp frame (wpE (defs₀ (F := F)) Variants.none c none) E (cc14__bn_norm_kernel i arg1 harg1 arg2 harg2 arg3 harg3 arg4 harg4 arg5 harg5 arg6 harg6 arg7 harg7) K := by
  simp only [cc14__bn_norm_kernel_eq_skeleton]; unfold cc14__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-- The proof data of the pipeline on core c: the arrays as the region finds them; after the body each input's
    buffer at its block and the output's at the normalised block of the point's blocks; the invariant the scoped
    rest and the generator register; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) :
    (dat14 V c).after 6 t = out14_6 (iblk14 V c 0 t) (iblk14 V c 1 t) (iblk14 V c 2 t) (iblk14 V c 3 t) (iblk14 V c 4 t) (iblk14 V c 5 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ _ _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Reg

end
-- ==== Proof.K.Reg15.lean ====
/-
  Region 15 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

abbrev r15_a : Rect S2000x300 := Rect.unit (s := S2000x300) ![0, 0] S2000x300.size inb_S2000x300_S2000x300_0_0
abbrev r15_o : Rect S2000x256 := Rect.unit (s := S2000x256) ![0, 0] S2000x256.size inb_S2000x256_S2000x256_0_0
abbrev r15_b : Rect S300x256 := Rect.unit (s := S300x256) ![0, 0] S300x256.size inb_S300x256_S300x256_0_0
abbrev r15_c : Rect S1x256 := Rect.unit (s := S1x256) ![0, 0] S1x256.size inb_S1x256_S1x256_0_0

/-- The output block after the body: its one whole-block store, of the product of the row block with the
    weights plus the bias row. -/
def out15_3 (x0 : Vec F S2000x300 .f32) (x1 : Vec F S300x256 .f32) (x2 : Vec F S1x256 .f32) : Vec F S2000x256 .f32 :=
  View.canon [⟨r15_o, k15_pay1 (View.ld x0 r15_a) (View.ld x1 r15_b) (View.ld x2 r15_c)⟩]

theorem cover15_3 (p0 : Vec F S2000x256 .f32) (y : S2000x256.Idx) :
    ∃ pc ∈ ([⟨r15_o, p0⟩] : List (View.Piece (Elt F) S2000x256 .f32)), y ∈ pc.1.set :=
  View.cover_of_tiled [⟨r15_o, p0⟩] S2000x256.size (by rfl) y

set_option maxHeartbeats 1000000 in
/-- The body on whole staging memrefs: the three inputs kept, the output block at the product. -/
theorem sound_kernel15 (c : Dev nD) (E : Set ℕ) (i : grid15.Coords)
    (arg1 : Memref sig .tc .vmem S2000x300 .f32) (harg1 : arg1.IsWhole) (arg2 : Memref sig .tc .vmem S300x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x300 .f32) (x1 : Vec F S300x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out15_3 x0 x1 x2)) -∗ K ⟨⟩))
      ⊢ wp frame (wpE (defs₀ (F := F)) Variants.none c none) E (cc15__matmul_kernel i arg1 harg1 arg2 harg2 arg3 harg3 arg4 harg4) K := by
  simp only [cc15__matmul_kernel_eq_skeleton]; unfold cc15__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- The proof data of the pipeline on core c: the arrays as the region finds them; after the body each input's
    buffer at its block and the output's at the product of the point's blocks; the invariant the scoped rest and
    the generator register; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Reg

end
-- ==== Proof.K.Reg16.lean ====
/-
  Region 16 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's staging buffer holds its block at every point, fetched there or not. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

abbrev r16_a : Rect S2048x256 := Rect.unit (s := S2048x256) ![0, 0] S2048x256.size inb_S2048x256_S2048x256_0_0
abbrev r16_o : Rect S2048x128 := Rect.unit (s := S2048x128) ![0, 0] S2048x128.size inb_S2048x128_S2048x128_0_0
abbrev r16_b : Rect S256x128 := Rect.unit (s := S256x128) ![0, 0] S256x128.size inb_S256x128_S256x128_0_0
abbrev r16_c : Rect S1x128 := Rect.unit (s := S1x128) ![0, 0] S1x128.size inb_S1x128_S1x128_0_0

/-- The output block after the body: its one whole-block store, of the product of the row block with the
    weights plus the bias row. -/
def out16_3 (x0 : Vec F S2048x256 .f32) (x1 : Vec F S256x128 .f32) (x2 : Vec F S1x128 .f32) : Vec F S2048x128 .f32 :=
  View.canon [⟨r16_o, k16_pay1 (View.ld x0 r16_a) (View.ld x1 r16_b) (View.ld x2 r16_c)⟩]

theorem cover16_3 (p0 : Vec F S2048x128 .f32) (y : S2048x128.Idx) :
    ∃ pc ∈ ([⟨r16_o, p0⟩] : List (View.Piece (Elt F) S2048x128 .f32)), y ∈ pc.1.set :=
  View.cover_of_tiled [⟨r16_o, p0⟩] S2048x128.size (by rfl) y

set_option maxHeartbeats 1000000 in
/-- The body on whole staging memrefs: the three inputs kept, the output block at the product. -/
theorem sound_kernel16 (c : Dev nD) (E : Set ℕ) (i : grid16.Coords)
    (arg1 : Memref sig .tc .vmem S2048x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out16_3 x0 x1 x2)) -∗ K ⟨⟩))
      ⊢ wp frame (wpE (defs₀ (F := F)) Variants.none c none) E (cc16__matmul_kernel i arg1 harg1 arg2 harg2 arg3 harg3 arg4 harg4) K := by
  simp only [cc16__matmul_kernel_eq_skeleton]; unfold cc16__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

/-- The proof data of the pipeline on core c: the arrays as the region finds them; after the body each input's
    buffer at its block and the output's at the product of the point's blocks; the invariant the scoped rest and
    the generator register; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16_3 (iblk16 V c 0 t) (iblk16 V c 1 t) (iblk16 V c 2 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- What the body is called with at point t, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Reg

end
-- ==== Proof.K.Reg17.lean ====
/-
  Region 17 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.Kernel.Launch
import proofs.«120348_j28252294873367_1_alg».proof.Proof.Gen.Kernel.Skeleton
import proofs.«120348_j28252294873367_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

abbrev r17_a : Rect S2048x128 := Rect.unit (s := S2048x128) ![0, 0] S2048x128.size inb_S2048x128_S2048x128_0_0
abbrev r17_o : Rect S2048x2 := Rect.unit (s := S2048x2) ![0, 0] S2048x2.size inb_S2048x2_S2048x2_0_0
abbrev r17_b : Rect S128x2 := Rect.unit (s := S128x2) ![0, 0] S128x2.size inb_S128x2_S128x2_0_0
abbrev r17_c : Rect S1x2 := Rect.unit (s := S1x2) ![0, 0] S1x2.size inb_S1x2_S1x2_0_0

/-- The output block after the body: its one whole-block store, of the product of the row block with the
    weights plus the bias row. -/
def out17_3 (x0 : Vec F S2048x128 .f32) (x1 : Vec F S128x2 .f32) (x2 : Vec F S1x2 .f32) : Vec F S2048x2 .f32 :=
  View.canon [⟨r17_o, k17_pay1 (View.ld x0 r17_a) (View.ld x1 r17_b) (View.ld x2 r17_c)⟩]

theorem cover17_3 (p0 : Vec F S2048x2 .f32) (y : S2048x2.Idx) :
    ∃ pc ∈ ([⟨r17_o, p0⟩] : List (View.Piece (Elt F) S2048x2 .f32)), y ∈ pc.1.set :=
  View.cover_of_tiled [⟨r17_o, p0⟩] S2048x2.size (by rfl) y

set_option maxHeartbeats 1000000 in
/-- The body on whole staging memrefs: the three inputs kept, the output block at the product. -/
theorem sound_kernel17 (c : Dev nD) (E : Set ℕ) (i : grid17.Coords)
    (arg1 : Memref sig .tc .vmem S2048x128 .f32) (harg1 : arg1.IsWhole) (arg2 : Memref sig .tc .vmem S128x2 .f32) (harg2 : arg2.IsWhole)
    (arg3 : Memref sig .tc .vmem S1x2 .f32) (harg3 : arg3.IsWhole) (arg4 : Memref sig .tc .vmem S2048x2 .f32) (harg4 : arg4.IsWhole)
    (x0 : Vec F S2048x128 .f32) (x1 : Vec F S128x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out17_3 x0 x1 x2)) -∗ K ⟨⟩))
      ⊢ wp frame (wpE (defs₀ (F := F)) Variants.none c none) E (cc17__matmul_kernel i arg1 harg1 arg2 harg2 arg3 harg3 arg4 harg4) K := by
  simp only [cc17__matmul_kernel_eq_skeleton]; unfold cc17__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-- The proof data of the pipeline on core c: the arrays as the region finds them; after the body each input's
    buffer at its block and the output's at the product of the point's blocks; the invariant the scoped rest and
    the generator register; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-- What the body is called with at point t, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Reg

end
-- ==== Proof.K.Chain.lean ====
/-
  The program's eighteen regions joined: the buffer contents each region is entered from (the launch contents, each
  host stretch applied, what each earlier region left), the condition that the unknowns outs are what the regions
  leave in their output arrays, and every pipeline's proof data at its region's entry contents.
-/
import proofs.«120348_j28252294873367_1_alg».proof.Proof.RegionsK
import proofs.«120348_j28252294873367_1_alg».proof.Proof.K.Reg0
import proofs.«120348_j28252294873367_1_alg».proof.Proof.K.Reg1
import proofs.«120348_j28252294873367_1_alg».proof.Proof.K.Reg2
import proofs.«120348_j28252294873367_1_alg».proof.Proof.K.Reg3
import proofs.«120348_j28252294873367_1_alg».proof.Proof.K.Reg4
import proofs.«120348_j28252294873367_1_alg».proof.Proof.K.Reg5
import proofs.«120348_j28252294873367_1_alg».proof.Proof.K.Reg6
import proofs.«120348_j28252294873367_1_alg».proof.Proof.K.Reg7
import proofs.«120348_j28252294873367_1_alg».proof.Proof.K.Reg8
import proofs.«120348_j28252294873367_1_alg».proof.Proof.K.Reg9
import proofs.«120348_j28252294873367_1_alg».proof.Proof.K.Reg10
import proofs.«120348_j28252294873367_1_alg».proof.Proof.K.Reg11
import proofs.«120348_j28252294873367_1_alg».proof.Proof.K.Reg12
import proofs.«120348_j28252294873367_1_alg».proof.Proof.K.Reg13
import proofs.«120348_j28252294873367_1_alg».proof.Proof.K.Reg14
import proofs.«120348_j28252294873367_1_alg».proof.Proof.K.Reg15
import proofs.«120348_j28252294873367_1_alg».proof.Proof.K.Reg16
import proofs.«120348_j28252294873367_1_alg».proof.Proof.K.Reg17

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (outs : Outs (F := F))

/-! ## The contents each region is entered from and left at, read at the TensorCore's references -/
abbrev Ve0 : (c : Dev nD) → (b : Ref sig .tc) → Buf (Elt F) ((c : Thread nD τ).loc b) := fun c b => V1 m c b
abbrev Vx0 : (c : Dev nD) → (b : Ref sig .tc) → Buf (Elt F) ((c : Thread nD τ).loc b) := fun c b => V2 m outs c b
abbrev Ve1 : (c : Dev nD) → (b : Ref sig .tc) → Buf (Elt F) ((c : Thread nD τ).loc b) := fun c b => V3 m outs c b
abbrev Vx1 : (c : Dev nD) → (b : Ref sig .tc) → Buf (Elt F) ((c : Thread nD τ).loc b) := fun c b => V4 m outs c b
abbrev Ve2 : (c : Dev nD) → (b : Ref sig .tc) → Buf (Elt F) ((c : Thread nD τ).loc b) := fun c b => V5 m outs c b
abbrev Vx2 : (c : Dev nD) → (b : Ref sig .tc) → Buf (Elt F) ((c : Thread nD τ).loc b) := fun c b => V6 m outs c b
abbrev Ve3 : (c : Dev nD) → (b : Ref sig .tc) → Buf (Elt F) ((c : Thread nD τ).loc b) := fun c b => V7 m outs c b
abbrev Vx3 : (c : Dev nD) → (b : Ref sig .tc) → Buf (Elt F) ((c : Thread nD τ).loc b) := fun c b => V8 m outs c b
abbrev Ve4 : (c : Dev nD) → (b : Ref sig .tc) → Buf (Elt F) ((c : Thread nD τ).loc b) := fun c b => V9 m outs c b
abbrev Vx4 : (c : Dev nD) → (b : Ref sig .tc) → Buf (Elt F) ((c : Thread nD τ).loc b) := fun c b => V10 m outs c b
abbrev Ve5 : (c : Dev nD) → (b : Ref sig .tc) → Buf (Elt F) ((c : Thread nD τ).loc b) := fun c b => V11 m outs c b
abbrev Vx5 : (c : Dev nD) → (b : Ref sig .tc) → Buf (Elt F) ((c : Thread nD τ).loc b) := fun c b => V12 m outs c b
abbrev Ve6 : (c : Dev nD) → (b : Ref sig .tc) → Buf (Elt F) ((c : Thread nD τ).loc b) := fun c b => V13 m outs c b
abbrev Vx6 : (c : Dev nD) → (b : Ref sig .tc) → Buf (Elt F) ((c : Thread nD τ).loc b) := fun c b => V14 m outs c b
abbrev Ve7 : (c : Dev nD) → (b : Ref sig .tc) → Buf (Elt F) ((c : Thread nD τ).loc b) := fun c b => V15 m outs c b
abbrev Vx7 : (c : Dev nD) → (b : Ref sig .tc) → Buf (Elt F) ((c : Thread nD τ).loc b) := fun c b => V16 m outs c b
abbrev Ve8 : (c : Dev nD) → (b : Ref sig .tc) → Buf (Elt F) ((c : Thread nD τ).loc b) := fun c b => V17 m outs c b
abbrev Vx8 : (c : Dev nD) → (b : Ref sig .tc) → Buf (Elt F) ((c : Thread nD τ).loc b) := fun c b => V18 m outs c b
abbrev Ve9 : (c : Dev nD) → (b : Ref sig .tc) → Buf (Elt F) ((c : Thread nD τ).loc b) := fun c b => V19 m outs c b
abbrev Vx9 : (c : Dev nD) → (b : Ref sig .tc) → Buf (Elt F) ((c : Thread nD τ).loc b) := fun c b => V20 m outs c b
abbrev Ve10 : (c : Dev nD) → (b : Ref sig .tc) → Buf (Elt F) ((c : Thread nD τ).loc b) := fun c b => V21 m outs c b
abbrev Vx10 : (c : Dev nD) → (b : Ref sig .tc) → Buf (Elt F) ((c : Thread nD τ).loc b) := fun c b => V22 m outs c b
abbrev Ve11 : (c : Dev nD) → (b : Ref sig .tc) → Buf (Elt F) ((c : Thread nD τ).loc b) := fun c b => V23 m outs c b
abbrev Vx11 : (c : Dev nD) → (b : Ref sig .tc) → Buf (Elt F) ((c : Thread nD τ).loc b) := fun c b => V24 m outs c b
abbrev Ve12 : (c : Dev nD) → (b : Ref sig .tc) → Buf (Elt F) ((c : Thread nD τ).loc b) := fun c b => V25 m outs c b
abbrev Vx12 : (c : Dev nD) → (b : Ref sig .tc) → Buf (Elt F) ((c : Thread nD τ).loc b) := fun c b => V26 m outs c b
abbrev Ve13 : (c : Dev nD) → (b : Ref sig .tc) → Buf (Elt F) ((c : Thread nD τ).loc b) := fun c b => V27 m outs c b
abbrev Vx13 : (c : Dev nD) → (b : Ref sig .tc) → Buf (Elt F) ((c : Thread nD τ).loc b) := fun c b => V28 m outs c b
abbrev Ve14 : (c : Dev nD) → (b : Ref sig .tc) → Buf (Elt F) ((c : Thread nD τ).loc b) := fun c b => V29 m outs c b
abbrev Vx14 : (c : Dev nD) → (b : Ref sig .tc) → Buf (Elt F) ((c : Thread nD τ).loc b) := fun c b => V30 m outs c b
abbrev Ve15 : (c : Dev nD) → (b : Ref sig .tc) → Buf (Elt F) ((c : Thread nD τ).loc b) := fun c b => V31 m outs c b
abbrev Vx15 : (c : Dev nD) → (b : Ref sig .tc) → Buf (Elt F) ((c : Thread nD τ).loc b) := fun c b => V32 m outs c b
abbrev Ve16 : (c : Dev nD) → (b : Ref sig .tc) → Buf (Elt F) ((c : Thread nD τ).loc b) := fun c b => V33 m outs c b
abbrev Vx16 : (c : Dev nD) → (b : Ref sig .tc) → Buf (Elt F) ((c : Thread nD τ).loc b) := fun c b => V34 m outs c b
abbrev Ve17 : (c : Dev nD) → (b : Ref sig .tc) → Buf (Elt F) ((c : Thread nD τ).loc b) := fun c b => V35 m outs c b
abbrev Vx17 : (c : Dev nD) → (b : Ref sig .tc) → Buf (Elt F) ((c : Thread nD τ).loc b) := fun c b => V36 m outs c b

set_option maxHeartbeats 4000000 in
/-- The unknowns are what the regions leave: each output array's write-backs folded over the grid. -/
structure OutsOK : Prop where
  o0_3 : ∀ c : Dev nD, outs 2 main_v37 c = (dat0 (Ve0 m) c).arrAt 3 cfg0.N
  o1_2 : ∀ c : Dev nD, outs 4 main_v72_0 c = (dat1 (Ve1 m outs) c).arrAt 2 cfg1.N
  o1_3 : ∀ c : Dev nD, outs 4 main_v72_1 c = (dat1 (Ve1 m outs) c).arrAt 3 cfg1.N
  o2_6 : ∀ c : Dev nD, outs 6 main_v82 c = (dat2 (Ve2 m outs) c).arrAt 6 cfg2.N
  o3_3 : ∀ c : Dev nD, outs 8 main_v86 c = (dat3 (Ve3 m outs) c).arrAt 3 cfg3.N
  o4_2 : ∀ c : Dev nD, outs 10 main_v121_0 c = (dat4 (Ve4 m outs) c).arrAt 2 cfg4.N
  o4_3 : ∀ c : Dev nD, outs 10 main_v121_1 c = (dat4 (Ve4 m outs) c).arrAt 3 cfg4.N
  o5_6 : ∀ c : Dev nD, outs 12 main_v131 c = (dat5 (Ve5 m outs) c).arrAt 6 cfg5.N
  o6_3 : ∀ c : Dev nD, outs 14 main_v135 c = (dat6 (Ve6 m outs) c).arrAt 3 cfg6.N
  o7_2 : ∀ c : Dev nD, outs 16 main_v170_0 c = (dat7 (Ve7 m outs) c).arrAt 2 cfg7.N
  o7_3 : ∀ c : Dev nD, outs 16 main_v170_1 c = (dat7 (Ve7 m outs) c).arrAt 3 cfg7.N
  o8_6 : ∀ c : Dev nD, outs 18 main_v180 c = (dat8 (Ve8 m outs) c).arrAt 6 cfg8.N
  o9_3 : ∀ c : Dev nD, outs 20 main_v184 c = (dat9 (Ve9 m outs) c).arrAt 3 cfg9.N
  o10_2 : ∀ c : Dev nD, outs 22 main_v219_0 c = (dat10 (Ve10 m outs) c).arrAt 2 cfg10.N
  o10_3 : ∀ c : Dev nD, outs 22 main_v219_1 c = (dat10 (Ve10 m outs) c).arrAt 3 cfg10.N
  o11_6 : ∀ c : Dev nD, outs 24 main_v229 c = (dat11 (Ve11 m outs) c).arrAt 6 cfg11.N
  o12_3 : ∀ c : Dev nD, outs 26 main_v233 c = (dat12 (Ve12 m outs) c).arrAt 3 cfg12.N
  o13_2 : ∀ c : Dev nD, outs 28 main_v268_0 c = (dat13 (Ve13 m outs) c).arrAt 2 cfg13.N
  o13_3 : ∀ c : Dev nD, outs 28 main_v268_1 c = (dat13 (Ve13 m outs) c).arrAt 3 cfg13.N
  o14_6 : ∀ c : Dev nD, outs 30 main_v278 c = (dat14 (Ve14 m outs) c).arrAt 6 cfg14.N
  o15_3 : ∀ c : Dev nD, outs 32 main_v280 c = (dat15 (Ve15 m outs) c).arrAt 3 cfg15.N
  o16_3 : ∀ c : Dev nD, outs 34 main_v294 c = (dat16 (Ve16 m outs) c).arrAt 3 cfg16.N
  o17_3 : ∀ c : Dev nD, outs 36 main_v296 c = (dat17 (Ve17 m outs) c).arrAt 3 cfg17.N

set_option maxHeartbeats 4000000 in
/-- Every pipeline's proof data, each at its region's entry contents: a literal match on the pipeline. -/
def pdats : (p : Fin 18) → (c : Dev nD) → Dat τ (Elt F) Unit ℕ (UR sig nD τ) ℕ (cfgs p) c
  | ⟨0, _⟩ => fun c => dat0 (Ve0 m) c
  | ⟨1, _⟩ => fun c => dat1 (Ve1 m outs) c
  | ⟨2, _⟩ => fun c => dat2 (Ve2 m outs) c
  | ⟨3, _⟩ => fun c => dat3 (Ve3 m outs) c
  | ⟨4, _⟩ => fun c => dat4 (Ve4 m outs) c
  | ⟨5, _⟩ => fun c => dat5 (Ve5 m outs) c
  | ⟨6, _⟩ => fun c => dat6 (Ve6 m outs) c
  | ⟨7, _⟩ => fun c => dat7 (Ve7 m outs) c
  | ⟨8, _⟩ => fun c => dat8 (Ve8 m outs) c
  | ⟨9, _⟩ => fun c => dat9 (Ve9 m outs) c
  | ⟨10, _⟩ => fun c => dat10 (Ve10 m outs) c
  | ⟨11, _⟩ => fun c => dat11 (Ve11 m outs) c
  | ⟨12, _⟩ => fun c => dat12 (Ve12 m outs) c
  | ⟨13, _⟩ => fun c => dat13 (Ve13 m outs) c
  | ⟨14, _⟩ => fun c => dat14 (Ve14 m outs) c
  | ⟨15, _⟩ => fun c => dat15 (Ve15 m outs) c
  | ⟨16, _⟩ => fun c => dat16 (Ve16 m outs) c
  | ⟨17, _⟩ => fun c => dat17 (Ve17 m outs) c
  | ⟨_ + 18, h⟩ => absurd h (Nat.not_lt.2 (Nat.le_add_left _ _))

/-- What rides beside the buffers through every item: the core's generator register at some state and what the core
    owes the others, nothing. -/
abbrev R (c : Dev nD) : sProp (MT nD τ sig Unit (Elt F) ℕ (UR sig nD τ) ℕ) :=
  iprop((∃ r, prngReg c r) ∗ ∃ W, owes (c : Thread nD τ) (0 : CellTallies nD τ sig Unit) W)

abbrev 𝒱₀ : Variants := Variants.none
/-- No core owes another anything: no level is assigned. -/
abbrev L : GSem nD τ sig → Finset Unit := fun _ => ∅
abbrev lv : GSem nD τ sig → Unit → ℕ := fun _ _ => 0

end Cert.Kernel.Reg

end
-- ==== Proof.K.SegOf.lean ====
import proofs.«120348_j28252294873367_1_alg».proof.Proof.K.Chain

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

theorem upd_eq {V : Valuation τ sig (Elt F)} {r : DevRef τ sig} {x y : BufTy.Contents (Elt F) r.ty} (h : x = y) :
    y = Function.update V r x r := by rw [Function.update_self]; exact h.symm

theorem upd_eq' {V : Valuation τ sig (Elt F)} {r r' : DevRef τ sig} (hne : r ≠ r') {x y : BufTy.Contents (Elt F) r.ty}
    {z : BufTy.Contents (Elt F) r'.ty} (h : x = y) : y = Function.update (Function.update V r x) r' z r := by
  rw [Function.update_of_ne hne, Function.update_self]; exact h.symm

theorem hinA {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA
  iintro ⟨Hp, -, Hr⟩
  isplitl [Hr]; · iexact Hr
  iexact Hp

theorem houtA {gr W : ℕ} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

variable (m : (ℓ : Loc nD τ sig) → Buf (Elt F) ℓ) (outs : Outs (F := F))

/-- Region p as a segment between the valuations V and V', which differ only at the arrays of the output windows o. -/
def regOf (p : Fin 18) (lf : Pipeline.LaunchFacts (nD := nD) (τ := τ) cfgs p) (V V' : Dev nD → Valuation τ sig (Elt F))
    (o : List (Fin (cfgs p).W))
    (hbody : ∀ c, Pipeline.BodyObligationLoose (pdats m outs p c) (defs₀ (F := F)) 𝒱₀ () Set.univ)
    (hin : ∀ c, iprop((∃ r, prngReg c r) ∗ Pipeline.prefHeld (pcfgs (F := F) p).pre c (fun _ => fullShare) (adm p).1
        ∗ Pipeline.scopedRest (cfgs p).spec c) ⊢ (pdats m outs p c).Φ 0)
    (hout : ∀ c, (pdats m outs p c).Φ (Fin.last (cfgs p).N) ⊢ iprop((∃ r, prngReg c r) ∗ Pipeline.scopedRest (cfgs p).spec c))
    (hV : ∀ c (r : Ref sig .tc), r ∉ o.map (Pipeline.arrRef (cfgs p).spec) → V' c r = V c r)
    (hF : ∀ c, o.Forall fun w => (pdats m outs p c).arrAt w (cfgs p).N = V' c (Pipeline.arrRef (cfgs p).spec w))
    (hio : ∀ w, w ∉ o → ((cfgs p).win w).isOut = false ∧ Pipeline.arrRef (cfgs p).spec w ∉ o.map (Pipeline.arrRef (cfgs p).spec) := by decide)
    (hd : ∀ c, ((pdats m outs p c).q = fun _ => fullShare) ∧ ((pdats m outs p c).owed = fun _ => 0) ∧ (pdats m outs p c).recorded 0 = Set.univ
      ∧ ∀ w, (pdats m outs p c).A w = V c (Pipeline.arrRef (cfgs p).spec w) := by exact fun _ => ⟨rfl, rfl, rfl, fun _ => rfl⟩) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p fun c => congrFun (hd c).2.1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m outs) lf.win lf.arr_whole c
      ((pdats m outs p c).share_full (congrFun (hd c).1)) (fun b => V c b) (hd c).2.2.2
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(hd c).2.1, (hd c).2.2.1]
      icases HO with ⟨%W, HO⟩; iexists W; isplitr; · ipureintro; exact fun _ _ => Or.inl trivial
      iexact HO
    isplitl [Hp]; · iexact Hp
    iexact Hrest
  hin := hin
  hout c := by
    rw [Pipeline.ownSems0_none]
    refine (hout c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (congrFun (hd c).1))
      (fun b => V c b) (fun b => V' c b) ((pdats m outs p c).arrAt · (cfgs p).N)
      (fun w => if hw : w ∈ o then List.forall_iff_forall_mem.mp (hF c) w hw else
        (((pdats m outs p c).arrAt_in w (hio w hw).1 _).trans ((hd c).2.2.2 w)).trans (hV c _ (hio w hw).2).symm)
      fun b hb => hV c b fun hm => hb (by
        obtain ⟨w, -, rfl⟩ := List.mem_map.mp hm
        exact Finset.mem_image_of_mem _ (Finset.mem_univ w))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

end Cert.Kernel.Reg

end
-- ==== Proof.K.Seg0.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg0 (ho : OutsOK m outs) : Pipeline.RegionSeg (pcfgs (F := F)) adm (pdats m outs) () defs₀ 𝒱₀ L lv 0 :=
  regOf m outs 0 launch0 (V1 m) (V2 m outs) [3] (fun c => (body_obligation0 (Ve0 m) c).loose)
    (fun c => hinA _ c _) (fun c => houtA _ c) (V2_of m outs) fun c => upd_eq (ho.o0_3 c)

end Cert.Kernel.Reg

end
-- ==== Proof.K.Seg1.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg1 (ho : OutsOK m outs) : Pipeline.RegionSeg (pcfgs (F := F)) adm (pdats m outs) () defs₀ 𝒱₀ L lv 1 :=
  regOf m outs 1 launch1 (V3 m outs) (V4 m outs) [2, 3] (fun c => (body_obligation1 (Ve1 m outs) c).loose)
    (fun c => hin1 (Ve1 m outs) c _) (hout1 (Ve1 m outs)) (V4_of m outs) fun c => ⟨upd_eq' (StableHlo.devRef_ne_of_ne (by decide +revert)) (ho.o1_2 c), upd_eq (ho.o1_3 c)⟩

end Cert.Kernel.Reg

end
-- ==== Proof.K.Seg2.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg2 (ho : OutsOK m outs) : Pipeline.RegionSeg (pcfgs (F := F)) adm (pdats m outs) () defs₀ 𝒱₀ L lv 2 :=
  regOf m outs 2 launch2 (V5 m outs) (V6 m outs) [6] (fun c => (body_obligation2 (Ve2 m outs) c).loose)
    (fun c => hinA _ c _) (fun c => houtA _ c) (V6_of m outs) fun c => upd_eq (ho.o2_6 c)

end Cert.Kernel.Reg

end
-- ==== Proof.K.Seg3.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg3 (ho : OutsOK m outs) : Pipeline.RegionSeg (pcfgs (F := F)) adm (pdats m outs) () defs₀ 𝒱₀ L lv 3 :=
  regOf m outs 3 launch3 (V7 m outs) (V8 m outs) [3] (fun c => (body_obligation3 (Ve3 m outs) c).loose)
    (fun c => hinA _ c _) (fun c => houtA _ c) (V8_of m outs) fun c => upd_eq (ho.o3_3 c)

end Cert.Kernel.Reg

end
-- ==== Proof.K.Seg4.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg4 (ho : OutsOK m outs) : Pipeline.RegionSeg (pcfgs (F := F)) adm (pdats m outs) () defs₀ 𝒱₀ L lv 4 :=
  regOf m outs 4 launch4 (V9 m outs) (V10 m outs) [2, 3] (fun c => (body_obligation4 (Ve4 m outs) c).loose)
    (fun c => hin4 (Ve4 m outs) c _) (hout4 (Ve4 m outs)) (V10_of m outs) fun c => ⟨upd_eq' (StableHlo.devRef_ne_of_ne (by decide +revert)) (ho.o4_2 c), upd_eq (ho.o4_3 c)⟩

end Cert.Kernel.Reg

end
-- ==== Proof.K.Seg5.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg5 (ho : OutsOK m outs) : Pipeline.RegionSeg (pcfgs (F := F)) adm (pdats m outs) () defs₀ 𝒱₀ L lv 5 :=
  regOf m outs 5 launch5 (V11 m outs) (V12 m outs) [6] (fun c => (body_obligation5 (Ve5 m outs) c).loose)
    (fun c => hinA _ c _) (fun c => houtA _ c) (V12_of m outs) fun c => upd_eq (ho.o5_6 c)

end Cert.Kernel.Reg

end
-- ==== Proof.K.Seg6.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg6 (ho : OutsOK m outs) : Pipeline.RegionSeg (pcfgs (F := F)) adm (pdats m outs) () defs₀ 𝒱₀ L lv 6 :=
  regOf m outs 6 launch6 (V13 m outs) (V14 m outs) [3] (fun c => (body_obligation6 (Ve6 m outs) c).loose)
    (fun c => hinA _ c _) (fun c => houtA _ c) (V14_of m outs) fun c => upd_eq (ho.o6_3 c)

end Cert.Kernel.Reg

end
-- ==== Proof.K.Seg7.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg7 (ho : OutsOK m outs) : Pipeline.RegionSeg (pcfgs (F := F)) adm (pdats m outs) () defs₀ 𝒱₀ L lv 7 :=
  regOf m outs 7 launch7 (V15 m outs) (V16 m outs) [2, 3] (fun c => (body_obligation7 (Ve7 m outs) c).loose)
    (fun c => hin7 (Ve7 m outs) c _) (hout7 (Ve7 m outs)) (V16_of m outs) fun c => ⟨upd_eq' (StableHlo.devRef_ne_of_ne (by decide +revert)) (ho.o7_2 c), upd_eq (ho.o7_3 c)⟩

end Cert.Kernel.Reg

end
-- ==== Proof.K.Seg8.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg8 (ho : OutsOK m outs) : Pipeline.RegionSeg (pcfgs (F := F)) adm (pdats m outs) () defs₀ 𝒱₀ L lv 8 :=
  regOf m outs 8 launch8 (V17 m outs) (V18 m outs) [6] (fun c => (body_obligation8 (Ve8 m outs) c).loose)
    (fun c => hinA _ c _) (fun c => houtA _ c) (V18_of m outs) fun c => upd_eq (ho.o8_6 c)

end Cert.Kernel.Reg

end
-- ==== Proof.K.Seg9.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg9 (ho : OutsOK m outs) : Pipeline.RegionSeg (pcfgs (F := F)) adm (pdats m outs) () defs₀ 𝒱₀ L lv 9 :=
  regOf m outs 9 launch9 (V19 m outs) (V20 m outs) [3] (fun c => (body_obligation9 (Ve9 m outs) c).loose)
    (fun c => hinA _ c _) (fun c => houtA _ c) (V20_of m outs) fun c => upd_eq (ho.o9_3 c)

end Cert.Kernel.Reg

end
-- ==== Proof.K.Seg10.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg10 (ho : OutsOK m outs) : Pipeline.RegionSeg (pcfgs (F := F)) adm (pdats m outs) () defs₀ 𝒱₀ L lv 10 :=
  regOf m outs 10 launch10 (V21 m outs) (V22 m outs) [2, 3] (fun c => (body_obligation10 (Ve10 m outs) c).loose)
    (fun c => hin10 (Ve10 m outs) c _) (hout10 (Ve10 m outs)) (V22_of m outs) fun c => ⟨upd_eq' (StableHlo.devRef_ne_of_ne (by decide +revert)) (ho.o10_2 c), upd_eq (ho.o10_3 c)⟩

end Cert.Kernel.Reg

end
-- ==== Proof.K.Seg11.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg11 (ho : OutsOK m outs) : Pipeline.RegionSeg (pcfgs (F := F)) adm (pdats m outs) () defs₀ 𝒱₀ L lv 11 :=
  regOf m outs 11 launch11 (V23 m outs) (V24 m outs) [6] (fun c => (body_obligation11 (Ve11 m outs) c).loose)
    (fun c => hinA _ c _) (fun c => houtA _ c) (V24_of m outs) fun c => upd_eq (ho.o11_6 c)

end Cert.Kernel.Reg

end
-- ==== Proof.K.Seg12.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg12 (ho : OutsOK m outs) : Pipeline.RegionSeg (pcfgs (F := F)) adm (pdats m outs) () defs₀ 𝒱₀ L lv 12 :=
  regOf m outs 12 launch12 (V25 m outs) (V26 m outs) [3] (fun c => (body_obligation12 (Ve12 m outs) c).loose)
    (fun c => hinA _ c _) (fun c => houtA _ c) (V26_of m outs) fun c => upd_eq (ho.o12_3 c)

end Cert.Kernel.Reg

end
-- ==== Proof.K.Seg13.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg13 (ho : OutsOK m outs) : Pipeline.RegionSeg (pcfgs (F := F)) adm (pdats m outs) () defs₀ 𝒱₀ L lv 13 :=
  regOf m outs 13 launch13 (V27 m outs) (V28 m outs) [2, 3] (fun c => (body_obligation13 (Ve13 m outs) c).loose)
    (fun c => hin13 (Ve13 m outs) c _) (hout13 (Ve13 m outs)) (V28_of m outs) fun c => ⟨upd_eq' (StableHlo.devRef_ne_of_ne (by decide +revert)) (ho.o13_2 c), upd_eq (ho.o13_3 c)⟩

end Cert.Kernel.Reg

end
-- ==== Proof.K.Seg14.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg14 (ho : OutsOK m outs) : Pipeline.RegionSeg (pcfgs (F := F)) adm (pdats m outs) () defs₀ 𝒱₀ L lv 14 :=
  regOf m outs 14 launch14 (V29 m outs) (V30 m outs) [6] (fun c => (body_obligation14 (Ve14 m outs) c).loose)
    (fun c => hinA _ c _) (fun c => houtA _ c) (V30_of m outs) fun c => upd_eq (ho.o14_6 c)

end Cert.Kernel.Reg

end
-- ==== Proof.K.Seg15.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg15 (ho : OutsOK m outs) : Pipeline.RegionSeg (pcfgs (F := F)) adm (pdats m outs) () defs₀ 𝒱₀ L lv 15 :=
  regOf m outs 15 launch15 (V31 m outs) (V32 m outs) [3] (fun c => (body_obligation15 (Ve15 m outs) c).loose)
    (fun c => hinA _ c _) (fun c => houtA _ c) (V32_of m outs) fun c => upd_eq (ho.o15_3 c)

end Cert.Kernel.Reg

end
-- ==== Proof.K.Seg16.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg16 (ho : OutsOK m outs) : Pipeline.RegionSeg (pcfgs (F := F)) adm (pdats m outs) () defs₀ 𝒱₀ L lv 16 :=
  regOf m outs 16 launch16 (V33 m outs) (V34 m outs) [3] (fun c => (body_obligation16 (Ve16 m outs) c).loose)
    (fun c => hinA _ c _) (fun c => houtA _ c) (V34_of m outs) fun c => upd_eq (ho.o16_3 c)

end Cert.Kernel.Reg

end
-- ==== Proof.K.Seg17.lean ====
import proofs.«120348_j28252294873367_1_alg».proof.Proof.K.SegOf

noncomputable section

namespace Cert.Kernel.Reg

open Cert.Kernel Cert.Kernel.Gen Cert.Kernel.GenP Idealize.ShloMosaic

variable {F : FTy → Type} [FloatOps F] (m : (ℓ : Loc nD τ sig) → Buf (Elt F) ℓ) (outs : Outs (F := F))

def reg17 (ho : OutsOK m outs) : Pipeline.RegionSeg (pcfgs (F := F)) adm (pdats m outs) () defs₀ 𝒱₀ L lv 17 :=
  regOf m outs 17 launch17 (V35 m outs) (V36 m outs) [3] (fun c => (body_obligation17 (Ve17 m outs) c).loose)
    (fun c => hinA _ c _) (fun c => houtA _ c) (V36_of m outs) fun c => upd_eq (ho.o17_3 c)

end Cert.Kernel.Reg

end
-- ==== Proof.K.Run.lean ====
import proofs.«120348_j28252294873367_1_alg».proof.Proof.K.Seg0
import proofs.«120348_j28252294873367_1_alg».proof.Proof.K.Seg1
import proofs.«120348_j28252294873367_1_alg».proof.Proof.K.Seg2
import proofs.«120348_j28252294873367_1_alg».proof.Proof.K.Seg3
import proofs.«120348_j28252294873367_1_alg».proof.Proof.K.Seg4
import proofs.«120348_j28252294873367_1_alg».proof.Proof.K.Seg5
import proofs.«120348_j28252294873367_1_alg».proof.Proof.K.Seg6
import proofs.«120348_j28252294873367_1_alg».proof.Proof.K.Seg7
import proofs.«120348_j28252294873367_1_alg».proof.Proof.K.Seg8
import proofs.«120348_j28252294873367_1_alg».proof.Proof.K.Seg9
import proofs.«120348_j28252294873367_1_alg».proof.Proof.K.Seg10
import proofs.«120348_j28252294873367_1_alg».proof.Proof.K.Seg11
import proofs.«120348_j28252294873367_1_alg».proof.Proof.K.Seg12
import proofs.«120348_j28252294873367_1_alg».proof.Proof.K.Seg13
import proofs.«120348_j28252294873367_1_alg».proof.Proof.K.Seg14
import proofs.«120348_j28252294873367_1_alg».proof.Proof.K.Seg15
import proofs.«120348_j28252294873367_1_alg».proof.Proof.K.Seg16
import proofs.«120348_j28252294873367_1_alg».proof.Proof.K.Seg17

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

theorem launchGhost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launchRest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

theorem run_of (ho : OutsOK m outs) :
    θ_run defs (onTc (τ := τ) (main (F := F))) ⟨m, fun _ => 0, ρ⟩ (fun r => ∀ c : Dev nD,
      ∀ b ∈ Pipeline.ucRefs τ sig, r.2.mem ((c : Thread nD τ).1, b) = V36 m outs c b) :=
  run_cond m (EP := emb₁) (ι := ()) (𝒱₀ := 𝒱₀) (L := L) (lv := lv) (hL := fun _ _ => rfl) (ρ := ρ) (outs := outs) (pdats := pdats m outs)
    (O₀ := 0) (G := fun _ => iprop(emp)) (u₀ := initOf (Pipeline.cells cfgs cellOf_inj) (Pipeline.launchToks cfgs cellOf_inj))
    (hu₀ := launchGhost) (E := fun _ c => R c) (hE0 := launchRest ρ) (hE18 := fun c => by iintro ⟨-, HO⟩; iexact HO)
    (reg0 m outs ho) (fun _ => .rfl) (fun _ => .rfl)
    (reg1 m outs ho) (fun _ => .rfl) (fun _ => .rfl)
    (reg2 m outs ho) (fun _ => .rfl) (fun _ => .rfl)
    (reg3 m outs ho) (fun _ => .rfl) (fun _ => .rfl)
    (reg4 m outs ho) (fun _ => .rfl) (fun _ => .rfl)
    (reg5 m outs ho) (fun _ => .rfl) (fun _ => .rfl)
    (reg6 m outs ho) (fun _ => .rfl) (fun _ => .rfl)
    (reg7 m outs ho) (fun _ => .rfl) (fun _ => .rfl)
    (reg8 m outs ho) (fun _ => .rfl) (fun _ => .rfl)
    (reg9 m outs ho) (fun _ => .rfl) (fun _ => .rfl)
    (reg10 m outs ho) (fun _ => .rfl) (fun _ => .rfl)
    (reg11 m outs ho) (fun _ => .rfl) (fun _ => .rfl)
    (reg12 m outs ho) (fun _ => .rfl) (fun _ => .rfl)
    (reg13 m outs ho) (fun _ => .rfl) (fun _ => .rfl)
    (reg14 m outs ho) (fun _ => .rfl) (fun _ => .rfl)
    (reg15 m outs ho) (fun _ => .rfl) (fun _ => .rfl)
    (reg16 m outs ho) (fun _ => .rfl) (fun _ => .rfl)
    (reg17 m outs ho) (fun _ => .rfl) (fun _ => .rfl)

theorem frame_of (ho : OutsOK m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨(h c (Proc.devRef .tc main_arg0) (Finset.mem_filter.mpr ⟨StableHlo.devRef_mem_tcRefs main_arg0, by decide⟩)).trans (V36_main_arg0 m outs c),
     (h c (Proc.devRef .tc main_arg1) (Finset.mem_filter.mpr ⟨StableHlo.devRef_mem_tcRefs main_arg1, by decide⟩)).trans (V36_main_arg1 m outs c),
     (h c (Proc.devRef .tc main_arg2) (Finset.mem_filter.mpr ⟨StableHlo.devRef_mem_tcRefs main_arg2, by decide⟩)).trans (V36_main_arg2 m outs c),
     (h c (Proc.devRef .tc main_arg3) (Finset.mem_filter.mpr ⟨StableHlo.devRef_mem_tcRefs main_arg3, by decide⟩)).trans (V36_main_arg3 m outs c),
     (h c (Proc.devRef .tc main_arg4) (Finset.mem_filter.mpr ⟨StableHlo.devRef_mem_tcRefs main_arg4, by decide⟩)).trans (V36_main_arg4 m outs c),
     (h c (Proc.devRef .tc main_arg5) (Finset.mem_filter.mpr ⟨StableHlo.devRef_mem_tcRefs main_arg5, by decide⟩)).trans (V36_main_arg5 m outs c),
     (h c (Proc.devRef .tc main_arg6) (Finset.mem_filter.mpr ⟨StableHlo.devRef_mem_tcRefs main_arg6, by decide⟩)).trans (V36_main_arg6 m outs c),
     (h c (Proc.devRef .tc main_arg7) (Finset.mem_filter.mpr ⟨StableHlo.devRef_mem_tcRefs main_arg7, by decide⟩)).trans (V36_main_arg7 m outs c),
     (h c (Proc.devRef .tc main_arg8) (Finset.mem_filter.mpr ⟨StableHlo.devRef_mem_tcRefs main_arg8, by decide⟩)).trans (V36_main_arg8 m outs c),
     (h c (Proc.devRef .tc main_arg9) (Finset.mem_filter.mpr ⟨StableHlo.devRef_mem_tcRefs main_arg9, by decide⟩)).trans (V36_main_arg9 m outs c),
     (h c (Proc.devRef .tc main_arg10) (Finset.mem_filter.mpr ⟨StableHlo.devRef_mem_tcRefs main_arg10, by decide⟩)).trans (V36_main_arg10 m outs c),
     (h c (Proc.devRef .tc main_arg11) (Finset.mem_filter.mpr ⟨StableHlo.devRef_mem_tcRefs main_arg11, by decide⟩)).trans (V36_main_arg11 m outs c),
     (h c (Proc.devRef .tc main_arg12) (Finset.mem_filter.mpr ⟨StableHlo.devRef_mem_tcRefs main_arg12, by decide⟩)).trans (V36_main_arg12 m outs c),
     (h c (Proc.devRef .tc main_arg13) (Finset.mem_filter.mpr ⟨StableHlo.devRef_mem_tcRefs main_arg13, by decide⟩)).trans (V36_main_arg13 m outs c),
     (h c (Proc.devRef .tc main_arg14) (Finset.mem_filter.mpr ⟨StableHlo.devRef_mem_tcRefs main_arg14, by decide⟩)).trans (V36_main_arg14 m outs c),
     (h c (Proc.devRef .tc main_arg15) (Finset.mem_filter.mpr ⟨StableHlo.devRef_mem_tcRefs main_arg15, by decide⟩)).trans (V36_main_arg15 m outs c),
     (h c (Proc.devRef .tc main_arg16) (Finset.mem_filter.mpr ⟨StableHlo.devRef_mem_tcRefs main_arg16, by decide⟩)).trans (V36_main_arg16 m outs c),
     (h c (Proc.devRef .tc main_arg17) (Finset.mem_filter.mpr ⟨StableHlo.devRef_mem_tcRefs main_arg17, by decide⟩)).trans (V36_main_arg17 m outs c)⟩)
    (run_of m ρ outs ho)

end Cert.Kernel.Reg

end
-- ==== Proof.K.OutsEx.lean ====
/-
  The unknowns of the joined regions exist. The contents between @main's items are written over unknowns outs, what
  each region leaves in its output arrays, and the condition on them (OutsOK) reads each region's unknowns off proof
  data that is itself entered from the earlier unknowns. Two facts solve it. LOCALITY: the contents after item J
  depend on the unknowns at indices up to J only (an item that is a host stretch adds none), so a region's entry
  contents depend on the earlier regions' unknowns only. A LADDER of approximations: start anywhere; given the
  unknowns of the regions before region K, define region K's as what its proof data, entered from those, leaves in
  its arrays, and change nothing else. The last rung agrees with rung K on everything region K reads, so it
  satisfies every region's condition at once.
-/
import proofs.«120348_j28252294873367_1_alg».proof.Proof.K.Chain
import Idealize.ShloMosaic.Lib.Pipeline.FrameSuffix

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## Locality: the contents after item J read the unknowns at indices up to J only -/
theorem V2_congr {outs outs' : Outs (F := F)} (h : ∀ J' ≤ 2, ∀ r c, outs J' r c = outs' J' r c) (c : Dev nD) :
    V2 m outs c = V2 m outs' c := by
  unfold V2; simp only [h 2 (le_refl _)]
theorem V3_congr {outs outs' : Outs (F := F)} (h : ∀ J' ≤ 2, ∀ r c, outs J' r c = outs' J' r c) (c : Dev nD) :
    V3 m outs c = V3 m outs' c := by
  unfold V3; rw [V2_congr m (fun J' hJ' => h J' (by omega)) c]
theorem V4_congr {outs outs' : Outs (F := F)} (h : ∀ J' ≤ 4, ∀ r c, outs J' r c = outs' J' r c) (c : Dev nD) :
    V4 m outs c = V4 m outs' c := by
  unfold V4; rw [V3_congr m (fun J' hJ' => h J' (by omega)) c]; simp only [h 4 (le_refl _)]
theorem V5_congr {outs outs' : Outs (F := F)} (h : ∀ J' ≤ 4, ∀ r c, outs J' r c = outs' J' r c) (c : Dev nD) :
    V5 m outs c = V5 m outs' c := by
  unfold V5; rw [V4_congr m (fun J' hJ' => h J' (by omega)) c]
theorem V6_congr {outs outs' : Outs (F := F)} (h : ∀ J' ≤ 6, ∀ r c, outs J' r c = outs' J' r c) (c : Dev nD) :
    V6 m outs c = V6 m outs' c := by
  unfold V6; rw [V5_congr m (fun J' hJ' => h J' (by omega)) c]; simp only [h 6 (le_refl _)]
theorem V7_congr {outs outs' : Outs (F := F)} (h : ∀ J' ≤ 6, ∀ r c, outs J' r c = outs' J' r c) (c : Dev nD) :
    V7 m outs c = V7 m outs' c := by
  unfold V7; rw [V6_congr m (fun J' hJ' => h J' (by omega)) c]
theorem V8_congr {outs outs' : Outs (F := F)} (h : ∀ J' ≤ 8, ∀ r c, outs J' r c = outs' J' r c) (c : Dev nD) :
    V8 m outs c = V8 m outs' c := by
  unfold V8; rw [V7_congr m (fun J' hJ' => h J' (by omega)) c]; simp only [h 8 (le_refl _)]
theorem V9_congr {outs outs' : Outs (F := F)} (h : ∀ J' ≤ 8, ∀ r c, outs J' r c = outs' J' r c) (c : Dev nD) :
    V9 m outs c = V9 m outs' c := by
  unfold V9; rw [V8_congr m (fun J' hJ' => h J' (by omega)) c]
theorem V10_congr {outs outs' : Outs (F := F)} (h : ∀ J' ≤ 10, ∀ r c, outs J' r c = outs' J' r c) (c : Dev nD) :
    V10 m outs c = V10 m outs' c := by
  unfold V10; rw [V9_congr m (fun J' hJ' => h J' (by omega)) c]; simp only [h 10 (le_refl _)]
theorem V11_congr {outs outs' : Outs (F := F)} (h : ∀ J' ≤ 10, ∀ r c, outs J' r c = outs' J' r c) (c : Dev nD) :
    V11 m outs c = V11 m outs' c := by
  unfold V11; rw [V10_congr m (fun J' hJ' => h J' (by omega)) c]
theorem V12_congr {outs outs' : Outs (F := F)} (h : ∀ J' ≤ 12, ∀ r c, outs J' r c = outs' J' r c) (c : Dev nD) :
    V12 m outs c = V12 m outs' c := by
  unfold V12; rw [V11_congr m (fun J' hJ' => h J' (by omega)) c]; simp only [h 12 (le_refl _)]
theorem V13_congr {outs outs' : Outs (F := F)} (h : ∀ J' ≤ 12, ∀ r c, outs J' r c = outs' J' r c) (c : Dev nD) :
    V13 m outs c = V13 m outs' c := by
  unfold V13; rw [V12_congr m (fun J' hJ' => h J' (by omega)) c]
theorem V14_congr {outs outs' : Outs (F := F)} (h : ∀ J' ≤ 14, ∀ r c, outs J' r c = outs' J' r c) (c : Dev nD) :
    V14 m outs c = V14 m outs' c := by
  unfold V14; rw [V13_congr m (fun J' hJ' => h J' (by omega)) c]; simp only [h 14 (le_refl _)]
theorem V15_congr {outs outs' : Outs (F := F)} (h : ∀ J' ≤ 14, ∀ r c, outs J' r c = outs' J' r c) (c : Dev nD) :
    V15 m outs c = V15 m outs' c := by
  unfold V15; rw [V14_congr m (fun J' hJ' => h J' (by omega)) c]
theorem V16_congr {outs outs' : Outs (F := F)} (h : ∀ J' ≤ 16, ∀ r c, outs J' r c = outs' J' r c) (c : Dev nD) :
    V16 m outs c = V16 m outs' c := by
  unfold V16; rw [V15_congr m (fun J' hJ' => h J' (by omega)) c]; simp only [h 16 (le_refl _)]
theorem V17_congr {outs outs' : Outs (F := F)} (h : ∀ J' ≤ 16, ∀ r c, outs J' r c = outs' J' r c) (c : Dev nD) :
    V17 m outs c = V17 m outs' c := by
  unfold V17; rw [V16_congr m (fun J' hJ' => h J' (by omega)) c]
theorem V18_congr {outs outs' : Outs (F := F)} (h : ∀ J' ≤ 18, ∀ r c, outs J' r c = outs' J' r c) (c : Dev nD) :
    V18 m outs c = V18 m outs' c := by
  unfold V18; rw [V17_congr m (fun J' hJ' => h J' (by omega)) c]; simp only [h 18 (le_refl _)]
theorem V19_congr {outs outs' : Outs (F := F)} (h : ∀ J' ≤ 18, ∀ r c, outs J' r c = outs' J' r c) (c : Dev nD) :
    V19 m outs c = V19 m outs' c := by
  unfold V19; rw [V18_congr m (fun J' hJ' => h J' (by omega)) c]
theorem V20_congr {outs outs' : Outs (F := F)} (h : ∀ J' ≤ 20, ∀ r c, outs J' r c = outs' J' r c) (c : Dev nD) :
    V20 m outs c = V20 m outs' c := by
  unfold V20; rw [V19_congr m (fun J' hJ' => h J' (by omega)) c]; simp only [h 20 (le_refl _)]
theorem V21_congr {outs outs' : Outs (F := F)} (h : ∀ J' ≤ 20, ∀ r c, outs J' r c = outs' J' r c) (c : Dev nD) :
    V21 m outs c = V21 m outs' c := by
  unfold V21; rw [V20_congr m (fun J' hJ' => h J' (by omega)) c]
theorem V22_congr {outs outs' : Outs (F := F)} (h : ∀ J' ≤ 22, ∀ r c, outs J' r c = outs' J' r c) (c : Dev nD) :
    V22 m outs c = V22 m outs' c := by
  unfold V22; rw [V21_congr m (fun J' hJ' => h J' (by omega)) c]; simp only [h 22 (le_refl _)]
theorem V23_congr {outs outs' : Outs (F := F)} (h : ∀ J' ≤ 22, ∀ r c, outs J' r c = outs' J' r c) (c : Dev nD) :
    V23 m outs c = V23 m outs' c := by
  unfold V23; rw [V22_congr m (fun J' hJ' => h J' (by omega)) c]
theorem V24_congr {outs outs' : Outs (F := F)} (h : ∀ J' ≤ 24, ∀ r c, outs J' r c = outs' J' r c) (c : Dev nD) :
    V24 m outs c = V24 m outs' c := by
  unfold V24; rw [V23_congr m (fun J' hJ' => h J' (by omega)) c]; simp only [h 24 (le_refl _)]
theorem V25_congr {outs outs' : Outs (F := F)} (h : ∀ J' ≤ 24, ∀ r c, outs J' r c = outs' J' r c) (c : Dev nD) :
    V25 m outs c = V25 m outs' c := by
  unfold V25; rw [V24_congr m (fun J' hJ' => h J' (by omega)) c]
theorem V26_congr {outs outs' : Outs (F := F)} (h : ∀ J' ≤ 26, ∀ r c, outs J' r c = outs' J' r c) (c : Dev nD) :
    V26 m outs c = V26 m outs' c := by
  unfold V26; rw [V25_congr m (fun J' hJ' => h J' (by omega)) c]; simp only [h 26 (le_refl _)]
theorem V27_congr {outs outs' : Outs (F := F)} (h : ∀ J' ≤ 26, ∀ r c, outs J' r c = outs' J' r c) (c : Dev nD) :
    V27 m outs c = V27 m outs' c := by
  unfold V27; rw [V26_congr m (fun J' hJ' => h J' (by omega)) c]
theorem V28_congr {outs outs' : Outs (F := F)} (h : ∀ J' ≤ 28, ∀ r c, outs J' r c = outs' J' r c) (c : Dev nD) :
    V28 m outs c = V28 m outs' c := by
  unfold V28; rw [V27_congr m (fun J' hJ' => h J' (by omega)) c]; simp only [h 28 (le_refl _)]
theorem V29_congr {outs outs' : Outs (F := F)} (h : ∀ J' ≤ 28, ∀ r c, outs J' r c = outs' J' r c) (c : Dev nD) :
    V29 m outs c = V29 m outs' c := by
  unfold V29; rw [V28_congr m (fun J' hJ' => h J' (by omega)) c]
theorem V30_congr {outs outs' : Outs (F := F)} (h : ∀ J' ≤ 30, ∀ r c, outs J' r c = outs' J' r c) (c : Dev nD) :
    V30 m outs c = V30 m outs' c := by
  unfold V30; rw [V29_congr m (fun J' hJ' => h J' (by omega)) c]; simp only [h 30 (le_refl _)]
theorem V31_congr {outs outs' : Outs (F := F)} (h : ∀ J' ≤ 30, ∀ r c, outs J' r c = outs' J' r c) (c : Dev nD) :
    V31 m outs c = V31 m outs' c := by
  unfold V31; rw [V30_congr m (fun J' hJ' => h J' (by omega)) c]
theorem V32_congr {outs outs' : Outs (F := F)} (h : ∀ J' ≤ 32, ∀ r c, outs J' r c = outs' J' r c) (c : Dev nD) :
    V32 m outs c = V32 m outs' c := by
  unfold V32; rw [V31_congr m (fun J' hJ' => h J' (by omega)) c]; simp only [h 32 (le_refl _)]
theorem V33_congr {outs outs' : Outs (F := F)} (h : ∀ J' ≤ 32, ∀ r c, outs J' r c = outs' J' r c) (c : Dev nD) :
    V33 m outs c = V33 m outs' c := by
  unfold V33; rw [V32_congr m (fun J' hJ' => h J' (by omega)) c]
theorem V34_congr {outs outs' : Outs (F := F)} (h : ∀ J' ≤ 34, ∀ r c, outs J' r c = outs' J' r c) (c : Dev nD) :
    V34 m outs c = V34 m outs' c := by
  unfold V34; rw [V33_congr m (fun J' hJ' => h J' (by omega)) c]; simp only [h 34 (le_refl _)]
theorem V35_congr {outs outs' : Outs (F := F)} (h : ∀ J' ≤ 34, ∀ r c, outs J' r c = outs' J' r c) (c : Dev nD) :
    V35 m outs c = V35 m outs' c := by
  unfold V35; rw [V34_congr m (fun J' hJ' => h J' (by omega)) c]
theorem V36_congr {outs outs' : Outs (F := F)} (h : ∀ J' ≤ 36, ∀ r c, outs J' r c = outs' J' r c) (c : Dev nD) :
    V36 m outs c = V36 m outs' c := by
  unfold V36; rw [V35_congr m (fun J' hJ' => h J' (by omega)) c]; simp only [h 36 (le_refl _)]

/-! ## So a region's entry contents read the earlier regions' unknowns only -/
theorem Ve1_congr {outs outs' : Outs (F := F)} (h : ∀ J' ≤ 2, ∀ r c, outs J' r c = outs' J' r c) : Ve1 m outs = Ve1 m outs' := by
  funext c b; exact congrFun (V3_congr m h c) _
theorem Ve2_congr {outs outs' : Outs (F := F)} (h : ∀ J' ≤ 4, ∀ r c, outs J' r c = outs' J' r c) : Ve2 m outs = Ve2 m outs' := by
  funext c b; exact congrFun (V5_congr m h c) _
theorem Ve3_congr {outs outs' : Outs (F := F)} (h : ∀ J' ≤ 6, ∀ r c, outs J' r c = outs' J' r c) : Ve3 m outs = Ve3 m outs' := by
  funext c b; exact congrFun (V7_congr m h c) _
theorem Ve4_congr {outs outs' : Outs (F := F)} (h : ∀ J' ≤ 8, ∀ r c, outs J' r c = outs' J' r c) : Ve4 m outs = Ve4 m outs' := by
  funext c b; exact congrFun (V9_congr m h c) _
theorem Ve5_congr {outs outs' : Outs (F := F)} (h : ∀ J' ≤ 10, ∀ r c, outs J' r c = outs' J' r c) : Ve5 m outs = Ve5 m outs' := by
  funext c b; exact congrFun (V11_congr m h c) _
theorem Ve6_congr {outs outs' : Outs (F := F)} (h : ∀ J' ≤ 12, ∀ r c, outs J' r c = outs' J' r c) : Ve6 m outs = Ve6 m outs' := by
  funext c b; exact congrFun (V13_congr m h c) _
theorem Ve7_congr {outs outs' : Outs (F := F)} (h : ∀ J' ≤ 14, ∀ r c, outs J' r c = outs' J' r c) : Ve7 m outs = Ve7 m outs' := by
  funext c b; exact congrFun (V15_congr m h c) _
theorem Ve8_congr {outs outs' : Outs (F := F)} (h : ∀ J' ≤ 16, ∀ r c, outs J' r c = outs' J' r c) : Ve8 m outs = Ve8 m outs' := by
  funext c b; exact congrFun (V17_congr m h c) _
theorem Ve9_congr {outs outs' : Outs (F := F)} (h : ∀ J' ≤ 18, ∀ r c, outs J' r c = outs' J' r c) : Ve9 m outs = Ve9 m outs' := by
  funext c b; exact congrFun (V19_congr m h c) _
theorem Ve10_congr {outs outs' : Outs (F := F)} (h : ∀ J' ≤ 20, ∀ r c, outs J' r c = outs' J' r c) : Ve10 m outs = Ve10 m outs' := by
  funext c b; exact congrFun (V21_congr m h c) _
theorem Ve11_congr {outs outs' : Outs (F := F)} (h : ∀ J' ≤ 22, ∀ r c, outs J' r c = outs' J' r c) : Ve11 m outs = Ve11 m outs' := by
  funext c b; exact congrFun (V23_congr m h c) _
theorem Ve12_congr {outs outs' : Outs (F := F)} (h : ∀ J' ≤ 24, ∀ r c, outs J' r c = outs' J' r c) : Ve12 m outs = Ve12 m outs' := by
  funext c b; exact congrFun (V25_congr m h c) _
theorem Ve13_congr {outs outs' : Outs (F := F)} (h : ∀ J' ≤ 26, ∀ r c, outs J' r c = outs' J' r c) : Ve13 m outs = Ve13 m outs' := by
  funext c b; exact congrFun (V27_congr m h c) _
theorem Ve14_congr {outs outs' : Outs (F := F)} (h : ∀ J' ≤ 28, ∀ r c, outs J' r c = outs' J' r c) : Ve14 m outs = Ve14 m outs' := by
  funext c b; exact congrFun (V29_congr m h c) _
theorem Ve15_congr {outs outs' : Outs (F := F)} (h : ∀ J' ≤ 30, ∀ r c, outs J' r c = outs' J' r c) : Ve15 m outs = Ve15 m outs' := by
  funext c b; exact congrFun (V31_congr m h c) _
theorem Ve16_congr {outs outs' : Outs (F := F)} (h : ∀ J' ≤ 32, ∀ r c, outs J' r c = outs' J' r c) : Ve16 m outs = Ve16 m outs' := by
  funext c b; exact congrFun (V33_congr m h c) _
theorem Ve17_congr {outs outs' : Outs (F := F)} (h : ∀ J' ≤ 34, ∀ r c, outs J' r c = outs' J' r c) : Ve17 m outs = Ve17 m outs' := by
  funext c b; exact congrFun (V35_congr m h c) _

/-! ## The ladder -/

/-- Rung 0: anything (the launch contents). -/
def outsA0 (J : ℕ) (r : Ref sig .tc) (c : Dev nD) : Buf (Elt F) ((c : Thread nD τ).loc r) := m ((c : Thread nD τ).loc r)
/-- What region 0 leaves, entered from rung 0: its arrays at the write-backs folded over the grid, every other buffer as entered. -/
def left0 (c : Dev nD) : Valuation τ sig (Elt F) :=
  Pipeline.withArrays spec0 c (V1 m c) fun w => (dat0 (Ve0 m) c).arrAt w cfg0.N
/-- Rung 1: rung 0 with region 0's unknowns (index 2) set to that. -/
def outsA1 (J : ℕ) (r : Ref sig .tc) (c : Dev nD) : Buf (Elt F) ((c : Thread nD τ).loc r) :=
  if J = 2 then left0 m c (Proc.devRef (τ := τ) .tc r) else outsA0 m J r c
theorem outsA1_low {J : ℕ} (hJ : J ≤ 1) (r : Ref sig .tc) (c : Dev nD) : outsA1 m J r c = outsA0 m J r c := by
  unfold outsA1; rw [if_neg (by omega)]
/-- What region 1 leaves, entered from rung 1: its arrays at the write-backs folded over the grid, every other buffer as entered. -/
def left1 (c : Dev nD) : Valuation τ sig (Elt F) :=
  Pipeline.withArrays spec1 c (V3 m (outsA1 m) c) fun w => (dat1 (Ve1 m (outsA1 m)) c).arrAt w cfg1.N
/-- Rung 2: rung 1 with region 1's unknowns (index 4) set to that. -/
def outsA2 (J : ℕ) (r : Ref sig .tc) (c : Dev nD) : Buf (Elt F) ((c : Thread nD τ).loc r) :=
  if J = 4 then left1 m c (Proc.devRef (τ := τ) .tc r) else outsA1 m J r c
theorem outsA2_low {J : ℕ} (hJ : J ≤ 3) (r : Ref sig .tc) (c : Dev nD) : outsA2 m J r c = outsA1 m J r c := by
  unfold outsA2; rw [if_neg (by omega)]
/-- What region 2 leaves, entered from rung 2: its arrays at the write-backs folded over the grid, every other buffer as entered. -/
def left2 (c : Dev nD) : Valuation τ sig (Elt F) :=
  Pipeline.withArrays spec2 c (V5 m (outsA2 m) c) fun w => (dat2 (Ve2 m (outsA2 m)) c).arrAt w cfg2.N
/-- Rung 3: rung 2 with region 2's unknowns (index 6) set to that. -/
def outsA3 (J : ℕ) (r : Ref sig .tc) (c : Dev nD) : Buf (Elt F) ((c : Thread nD τ).loc r) :=
  if J = 6 then left2 m c (Proc.devRef (τ := τ) .tc r) else outsA2 m J r c
theorem outsA3_low {J : ℕ} (hJ : J ≤ 5) (r : Ref sig .tc) (c : Dev nD) : outsA3 m J r c = outsA2 m J r c := by
  unfold outsA3; rw [if_neg (by omega)]
/-- What region 3 leaves, entered from rung 3: its arrays at the write-backs folded over the grid, every other buffer as entered. -/
def left3 (c : Dev nD) : Valuation τ sig (Elt F) :=
  Pipeline.withArrays spec3 c (V7 m (outsA3 m) c) fun w => (dat3 (Ve3 m (outsA3 m)) c).arrAt w cfg3.N
/-- Rung 4: rung 3 with region 3's unknowns (index 8) set to that. -/
def outsA4 (J : ℕ) (r : Ref sig .tc) (c : Dev nD) : Buf (Elt F) ((c : Thread nD τ).loc r) :=
  if J = 8 then left3 m c (Proc.devRef (τ := τ) .tc r) else outsA3 m J r c
theorem outsA4_low {J : ℕ} (hJ : J ≤ 7) (r : Ref sig .tc) (c : Dev nD) : outsA4 m J r c = outsA3 m J r c := by
  unfold outsA4; rw [if_neg (by omega)]
/-- What region 4 leaves, entered from rung 4: its arrays at the write-backs folded over the grid, every other buffer as entered. -/
def left4 (c : Dev nD) : Valuation τ sig (Elt F) :=
  Pipeline.withArrays spec4 c (V9 m (outsA4 m) c) fun w => (dat4 (Ve4 m (outsA4 m)) c).arrAt w cfg4.N
/-- Rung 5: rung 4 with region 4's unknowns (index 10) set to that. -/
def outsA5 (J : ℕ) (r : Ref sig .tc) (c : Dev nD) : Buf (Elt F) ((c : Thread nD τ).loc r) :=
  if J = 10 then left4 m c (Proc.devRef (τ := τ) .tc r) else outsA4 m J r c
theorem outsA5_low {J : ℕ} (hJ : J ≤ 9) (r : Ref sig .tc) (c : Dev nD) : outsA5 m J r c = outsA4 m J r c := by
  unfold outsA5; rw [if_neg (by omega)]
/-- What region 5 leaves, entered from rung 5: its arrays at the write-backs folded over the grid, every other buffer as entered. -/
def left5 (c : Dev nD) : Valuation τ sig (Elt F) :=
  Pipeline.withArrays spec5 c (V11 m (outsA5 m) c) fun w => (dat5 (Ve5 m (outsA5 m)) c).arrAt w cfg5.N
/-- Rung 6: rung 5 with region 5's unknowns (index 12) set to that. -/
def outsA6 (J : ℕ) (r : Ref sig .tc) (c : Dev nD) : Buf (Elt F) ((c : Thread nD τ).loc r) :=
  if J = 12 then left5 m c (Proc.devRef (τ := τ) .tc r) else outsA5 m J r c
theorem outsA6_low {J : ℕ} (hJ : J ≤ 11) (r : Ref sig .tc) (c : Dev nD) : outsA6 m J r c = outsA5 m J r c := by
  unfold outsA6; rw [if_neg (by omega)]
/-- What region 6 leaves, entered from rung 6: its arrays at the write-backs folded over the grid, every other buffer as entered. -/
def left6 (c : Dev nD) : Valuation τ sig (Elt F) :=
  Pipeline.withArrays spec6 c (V13 m (outsA6 m) c) fun w => (dat6 (Ve6 m (outsA6 m)) c).arrAt w cfg6.N
/-- Rung 7: rung 6 with region 6's unknowns (index 14) set to that. -/
def outsA7 (J : ℕ) (r : Ref sig .tc) (c : Dev nD) : Buf (Elt F) ((c : Thread nD τ).loc r) :=
  if J = 14 then left6 m c (Proc.devRef (τ := τ) .tc r) else outsA6 m J r c
theorem outsA7_low {J : ℕ} (hJ : J ≤ 13) (r : Ref sig .tc) (c : Dev nD) : outsA7 m J r c = outsA6 m J r c := by
  unfold outsA7; rw [if_neg (by omega)]
/-- What region 7 leaves, entered from rung 7: its arrays at the write-backs folded over the grid, every other buffer as entered. -/
def left7 (c : Dev nD) : Valuation τ sig (Elt F) :=
  Pipeline.withArrays spec7 c (V15 m (outsA7 m) c) fun w => (dat7 (Ve7 m (outsA7 m)) c).arrAt w cfg7.N
/-- Rung 8: rung 7 with region 7's unknowns (index 16) set to that. -/
def outsA8 (J : ℕ) (r : Ref sig .tc) (c : Dev nD) : Buf (Elt F) ((c : Thread nD τ).loc r) :=
  if J = 16 then left7 m c (Proc.devRef (τ := τ) .tc r) else outsA7 m J r c
theorem outsA8_low {J : ℕ} (hJ : J ≤ 15) (r : Ref sig .tc) (c : Dev nD) : outsA8 m J r c = outsA7 m J r c := by
  unfold outsA8; rw [if_neg (by omega)]
/-- What region 8 leaves, entered from rung 8: its arrays at the write-backs folded over the grid, every other buffer as entered. -/
def left8 (c : Dev nD) : Valuation τ sig (Elt F) :=
  Pipeline.withArrays spec8 c (V17 m (outsA8 m) c) fun w => (dat8 (Ve8 m (outsA8 m)) c).arrAt w cfg8.N
/-- Rung 9: rung 8 with region 8's unknowns (index 18) set to that. -/
def outsA9 (J : ℕ) (r : Ref sig .tc) (c : Dev nD) : Buf (Elt F) ((c : Thread nD τ).loc r) :=
  if J = 18 then left8 m c (Proc.devRef (τ := τ) .tc r) else outsA8 m J r c
theorem outsA9_low {J : ℕ} (hJ : J ≤ 17) (r : Ref sig .tc) (c : Dev nD) : outsA9 m J r c = outsA8 m J r c := by
  unfold outsA9; rw [if_neg (by omega)]
/-- What region 9 leaves, entered from rung 9: its arrays at the write-backs folded over the grid, every other buffer as entered. -/
def left9 (c : Dev nD) : Valuation τ sig (Elt F) :=
  Pipeline.withArrays spec9 c (V19 m (outsA9 m) c) fun w => (dat9 (Ve9 m (outsA9 m)) c).arrAt w cfg9.N
/-- Rung 10: rung 9 with region 9's unknowns (index 20) set to that. -/
def outsA10 (J : ℕ) (r : Ref sig .tc) (c : Dev nD) : Buf (Elt F) ((c : Thread nD τ).loc r) :=
  if J = 20 then left9 m c (Proc.devRef (τ := τ) .tc r) else outsA9 m J r c
theorem outsA10_low {J : ℕ} (hJ : J ≤ 19) (r : Ref sig .tc) (c : Dev nD) : outsA10 m J r c = outsA9 m J r c := by
  unfold outsA10; rw [if_neg (by omega)]
/-- What region 10 leaves, entered from rung 10: its arrays at the write-backs folded over the grid, every other buffer as entered. -/
def left10 (c : Dev nD) : Valuation τ sig (Elt F) :=
  Pipeline.withArrays spec10 c (V21 m (outsA10 m) c) fun w => (dat10 (Ve10 m (outsA10 m)) c).arrAt w cfg10.N
/-- Rung 11: rung 10 with region 10's unknowns (index 22) set to that. -/
def outsA11 (J : ℕ) (r : Ref sig .tc) (c : Dev nD) : Buf (Elt F) ((c : Thread nD τ).loc r) :=
  if J = 22 then left10 m c (Proc.devRef (τ := τ) .tc r) else outsA10 m J r c
theorem outsA11_low {J : ℕ} (hJ : J ≤ 21) (r : Ref sig .tc) (c : Dev nD) : outsA11 m J r c = outsA10 m J r c := by
  unfold outsA11; rw [if_neg (by omega)]
/-- What region 11 leaves, entered from rung 11: its arrays at the write-backs folded over the grid, every other buffer as entered. -/
def left11 (c : Dev nD) : Valuation τ sig (Elt F) :=
  Pipeline.withArrays spec11 c (V23 m (outsA11 m) c) fun w => (dat11 (Ve11 m (outsA11 m)) c).arrAt w cfg11.N
/-- Rung 12: rung 11 with region 11's unknowns (index 24) set to that. -/
def outsA12 (J : ℕ) (r : Ref sig .tc) (c : Dev nD) : Buf (Elt F) ((c : Thread nD τ).loc r) :=
  if J = 24 then left11 m c (Proc.devRef (τ := τ) .tc r) else outsA11 m J r c
theorem outsA12_low {J : ℕ} (hJ : J ≤ 23) (r : Ref sig .tc) (c : Dev nD) : outsA12 m J r c = outsA11 m J r c := by
  unfold outsA12; rw [if_neg (by omega)]
/-- What region 12 leaves, entered from rung 12: its arrays at the write-backs folded over the grid, every other buffer as entered. -/
def left12 (c : Dev nD) : Valuation τ sig (Elt F) :=
  Pipeline.withArrays spec12 c (V25 m (outsA12 m) c) fun w => (dat12 (Ve12 m (outsA12 m)) c).arrAt w cfg12.N
/-- Rung 13: rung 12 with region 12's unknowns (index 26) set to that. -/
def outsA13 (J : ℕ) (r : Ref sig .tc) (c : Dev nD) : Buf (Elt F) ((c : Thread nD τ).loc r) :=
  if J = 26 then left12 m c (Proc.devRef (τ := τ) .tc r) else outsA12 m J r c
theorem outsA13_low {J : ℕ} (hJ : J ≤ 25) (r : Ref sig .tc) (c : Dev nD) : outsA13 m J r c = outsA12 m J r c := by
  unfold outsA13; rw [if_neg (by omega)]
/-- What region 13 leaves, entered from rung 13: its arrays at the write-backs folded over the grid, every other buffer as entered. -/
def left13 (c : Dev nD) : Valuation τ sig (Elt F) :=
  Pipeline.withArrays spec13 c (V27 m (outsA13 m) c) fun w => (dat13 (Ve13 m (outsA13 m)) c).arrAt w cfg13.N
/-- Rung 14: rung 13 with region 13's unknowns (index 28) set to that. -/
def outsA14 (J : ℕ) (r : Ref sig .tc) (c : Dev nD) : Buf (Elt F) ((c : Thread nD τ).loc r) :=
  if J = 28 then left13 m c (Proc.devRef (τ := τ) .tc r) else outsA13 m J r c
theorem outsA14_low {J : ℕ} (hJ : J ≤ 27) (r : Ref sig .tc) (c : Dev nD) : outsA14 m J r c = outsA13 m J r c := by
  unfold outsA14; rw [if_neg (by omega)]
/-- What region 14 leaves, entered from rung 14: its arrays at the write-backs folded over the grid, every other buffer as entered. -/
def left14 (c : Dev nD) : Valuation τ sig (Elt F) :=
  Pipeline.withArrays spec14 c (V29 m (outsA14 m) c) fun w => (dat14 (Ve14 m (outsA14 m)) c).arrAt w cfg14.N
/-- Rung 15: rung 14 with region 14's unknowns (index 30) set to that. -/
def outsA15 (J : ℕ) (r : Ref sig .tc) (c : Dev nD) : Buf (Elt F) ((c : Thread nD τ).loc r) :=
  if J = 30 then left14 m c (Proc.devRef (τ := τ) .tc r) else outsA14 m J r c
theorem outsA15_low {J : ℕ} (hJ : J ≤ 29) (r : Ref sig .tc) (c : Dev nD) : outsA15 m J r c = outsA14 m J r c := by
  unfold outsA15; rw [if_neg (by omega)]
/-- What region 15 leaves, entered from rung 15: its arrays at the write-backs folded over the grid, every other buffer as entered. -/
def left15 (c : Dev nD) : Valuation τ sig (Elt F) :=
  Pipeline.withArrays spec15 c (V31 m (outsA15 m) c) fun w => (dat15 (Ve15 m (outsA15 m)) c).arrAt w cfg15.N
/-- Rung 16: rung 15 with region 15's unknowns (index 32) set to that. -/
def outsA16 (J : ℕ) (r : Ref sig .tc) (c : Dev nD) : Buf (Elt F) ((c : Thread nD τ).loc r) :=
  if J = 32 then left15 m c (Proc.devRef (τ := τ) .tc r) else outsA15 m J r c
theorem outsA16_low {J : ℕ} (hJ : J ≤ 31) (r : Ref sig .tc) (c : Dev nD) : outsA16 m J r c = outsA15 m J r c := by
  unfold outsA16; rw [if_neg (by omega)]
/-- What region 16 leaves, entered from rung 16: its arrays at the write-backs folded over the grid, every other buffer as entered. -/
def left16 (c : Dev nD) : Valuation τ sig (Elt F) :=
  Pipeline.withArrays spec16 c (V33 m (outsA16 m) c) fun w => (dat16 (Ve16 m (outsA16 m)) c).arrAt w cfg16.N
/-- Rung 17: rung 16 with region 16's unknowns (index 34) set to that. -/
def outsA17 (J : ℕ) (r : Ref sig .tc) (c : Dev nD) : Buf (Elt F) ((c : Thread nD τ).loc r) :=
  if J = 34 then left16 m c (Proc.devRef (τ := τ) .tc r) else outsA16 m J r c
theorem outsA17_low {J : ℕ} (hJ : J ≤ 33) (r : Ref sig .tc) (c : Dev nD) : outsA17 m J r c = outsA16 m J r c := by
  unfold outsA17; rw [if_neg (by omega)]
/-- What region 17 leaves, entered from rung 17: its arrays at the write-backs folded over the grid, every other buffer as entered. -/
def left17 (c : Dev nD) : Valuation τ sig (Elt F) :=
  Pipeline.withArrays spec17 c (V35 m (outsA17 m) c) fun w => (dat17 (Ve17 m (outsA17 m)) c).arrAt w cfg17.N
/-- Rung 18: rung 17 with region 17's unknowns (index 36) set to that. -/
def outsA18 (J : ℕ) (r : Ref sig .tc) (c : Dev nD) : Buf (Elt F) ((c : Thread nD τ).loc r) :=
  if J = 36 then left17 m c (Proc.devRef (τ := τ) .tc r) else outsA17 m J r c
theorem outsA18_low {J : ℕ} (hJ : J ≤ 35) (r : Ref sig .tc) (c : Dev nD) : outsA18 m J r c = outsA17 m J r c := by
  unfold outsA18; rw [if_neg (by omega)]

/-- THE UNKNOWNS: the last rung. -/
def outsW : Outs (F := F) := outsA18 m

/-! ## The last rung agrees with rung K at the indices region K reads -/
theorem outsW_low18 {J : ℕ} (hJ : J ≤ 36) (r : Ref sig .tc) (c : Dev nD) : outsW m J r c = outsA18 m J r c := rfl
theorem outsW_low17 {J : ℕ} (hJ : J ≤ 34) (r : Ref sig .tc) (c : Dev nD) : outsW m J r c = outsA17 m J r c :=
  (outsW_low18 m (by omega) r c).trans (outsA18_low m (by omega) r c)
theorem outsW_low16 {J : ℕ} (hJ : J ≤ 32) (r : Ref sig .tc) (c : Dev nD) : outsW m J r c = outsA16 m J r c :=
  (outsW_low17 m (by omega) r c).trans (outsA17_low m (by omega) r c)
theorem outsW_low15 {J : ℕ} (hJ : J ≤ 30) (r : Ref sig .tc) (c : Dev nD) : outsW m J r c = outsA15 m J r c :=
  (outsW_low16 m (by omega) r c).trans (outsA16_low m (by omega) r c)
theorem outsW_low14 {J : ℕ} (hJ : J ≤ 28) (r : Ref sig .tc) (c : Dev nD) : outsW m J r c = outsA14 m J r c :=
  (outsW_low15 m (by omega) r c).trans (outsA15_low m (by omega) r c)
theorem outsW_low13 {J : ℕ} (hJ : J ≤ 26) (r : Ref sig .tc) (c : Dev nD) : outsW m J r c = outsA13 m J r c :=
  (outsW_low14 m (by omega) r c).trans (outsA14_low m (by omega) r c)
theorem outsW_low12 {J : ℕ} (hJ : J ≤ 24) (r : Ref sig .tc) (c : Dev nD) : outsW m J r c = outsA12 m J r c :=
  (outsW_low13 m (by omega) r c).trans (outsA13_low m (by omega) r c)
theorem outsW_low11 {J : ℕ} (hJ : J ≤ 22) (r : Ref sig .tc) (c : Dev nD) : outsW m J r c = outsA11 m J r c :=
  (outsW_low12 m (by omega) r c).trans (outsA12_low m (by omega) r c)
theorem outsW_low10 {J : ℕ} (hJ : J ≤ 20) (r : Ref sig .tc) (c : Dev nD) : outsW m J r c = outsA10 m J r c :=
  (outsW_low11 m (by omega) r c).trans (outsA11_low m (by omega) r c)
theorem outsW_low9 {J : ℕ} (hJ : J ≤ 18) (r : Ref sig .tc) (c : Dev nD) : outsW m J r c = outsA9 m J r c :=
  (outsW_low10 m (by omega) r c).trans (outsA10_low m (by omega) r c)
theorem outsW_low8 {J : ℕ} (hJ : J ≤ 16) (r : Ref sig .tc) (c : Dev nD) : outsW m J r c = outsA8 m J r c :=
  (outsW_low9 m (by omega) r c).trans (outsA9_low m (by omega) r c)
theorem outsW_low7 {J : ℕ} (hJ : J ≤ 14) (r : Ref sig .tc) (c : Dev nD) : outsW m J r c = outsA7 m J r c :=
  (outsW_low8 m (by omega) r c).trans (outsA8_low m (by omega) r c)
theorem outsW_low6 {J : ℕ} (hJ : J ≤ 12) (r : Ref sig .tc) (c : Dev nD) : outsW m J r c = outsA6 m J r c :=
  (outsW_low7 m (by omega) r c).trans (outsA7_low m (by omega) r c)
theorem outsW_low5 {J : ℕ} (hJ : J ≤ 10) (r : Ref sig .tc) (c : Dev nD) : outsW m J r c = outsA5 m J r c :=
  (outsW_low6 m (by omega) r c).trans (outsA6_low m (by omega) r c)
theorem outsW_low4 {J : ℕ} (hJ : J ≤ 8) (r : Ref sig .tc) (c : Dev nD) : outsW m J r c = outsA4 m J r c :=
  (outsW_low5 m (by omega) r c).trans (outsA5_low m (by omega) r c)
theorem outsW_low3 {J : ℕ} (hJ : J ≤ 6) (r : Ref sig .tc) (c : Dev nD) : outsW m J r c = outsA3 m J r c :=
  (outsW_low4 m (by omega) r c).trans (outsA4_low m (by omega) r c)
theorem outsW_low2 {J : ℕ} (hJ : J ≤ 4) (r : Ref sig .tc) (c : Dev nD) : outsW m J r c = outsA2 m J r c :=
  (outsW_low3 m (by omega) r c).trans (outsA3_low m (by omega) r c)
theorem outsW_low1 {J : ℕ} (hJ : J ≤ 2) (r : Ref sig .tc) (c : Dev nD) : outsW m J r c = outsA1 m J r c :=
  (outsW_low2 m (by omega) r c).trans (outsA2_low m (by omega) r c)

/-! ## Every region's condition -/
theorem ok0_3 (c : Dev nD) : outsW m 2 main_v37 c = (dat0 (Ve0 m) c).arrAt 3 cfg0.N := by
  rw [outsW_low1 m (le_refl _)]
  unfold outsA1; rw [if_pos rfl]
  unfold left0; exact Pipeline.withArrays_arr spec0 launch0.win.arr_inj c _ _ 3
theorem ok1_2 (c : Dev nD) : outsW m 4 main_v72_0 c = (dat1 (Ve1 m (outsW m)) c).arrAt 2 cfg1.N := by
  rw [Ve1_congr m (outs := outsW m) (outs' := outsA1 m) (fun J' hJ' r c => outsW_low1 m hJ' r c)]
  rw [outsW_low2 m (le_refl _)]
  unfold outsA2; rw [if_pos rfl]
  unfold left1; exact Pipeline.withArrays_arr spec1 launch1.win.arr_inj c _ _ 2
theorem ok1_3 (c : Dev nD) : outsW m 4 main_v72_1 c = (dat1 (Ve1 m (outsW m)) c).arrAt 3 cfg1.N := by
  rw [Ve1_congr m (outs := outsW m) (outs' := outsA1 m) (fun J' hJ' r c => outsW_low1 m hJ' r c)]
  rw [outsW_low2 m (le_refl _)]
  unfold outsA2; rw [if_pos rfl]
  unfold left1; exact Pipeline.withArrays_arr spec1 launch1.win.arr_inj c _ _ 3
theorem ok2_6 (c : Dev nD) : outsW m 6 main_v82 c = (dat2 (Ve2 m (outsW m)) c).arrAt 6 cfg2.N := by
  rw [Ve2_congr m (outs := outsW m) (outs' := outsA2 m) (fun J' hJ' r c => outsW_low2 m hJ' r c)]
  rw [outsW_low3 m (le_refl _)]
  unfold outsA3; rw [if_pos rfl]
  unfold left2; exact Pipeline.withArrays_arr spec2 launch2.win.arr_inj c _ _ 6
theorem ok3_3 (c : Dev nD) : outsW m 8 main_v86 c = (dat3 (Ve3 m (outsW m)) c).arrAt 3 cfg3.N := by
  rw [Ve3_congr m (outs := outsW m) (outs' := outsA3 m) (fun J' hJ' r c => outsW_low3 m hJ' r c)]
  rw [outsW_low4 m (le_refl _)]
  unfold outsA4; rw [if_pos rfl]
  unfold left3; exact Pipeline.withArrays_arr spec3 launch3.win.arr_inj c _ _ 3
theorem ok4_2 (c : Dev nD) : outsW m 10 main_v121_0 c = (dat4 (Ve4 m (outsW m)) c).arrAt 2 cfg4.N := by
  rw [Ve4_congr m (outs := outsW m) (outs' := outsA4 m) (fun J' hJ' r c => outsW_low4 m hJ' r c)]
  rw [outsW_low5 m (le_refl _)]
  unfold outsA5; rw [if_pos rfl]
  unfold left4; exact Pipeline.withArrays_arr spec4 launch4.win.arr_inj c _ _ 2
theorem ok4_3 (c : Dev nD) : outsW m 10 main_v121_1 c = (dat4 (Ve4 m (outsW m)) c).arrAt 3 cfg4.N := by
  rw [Ve4_congr m (outs := outsW m) (outs' := outsA4 m) (fun J' hJ' r c => outsW_low4 m hJ' r c)]
  rw [outsW_low5 m (le_refl _)]
  unfold outsA5; rw [if_pos rfl]
  unfold left4; exact Pipeline.withArrays_arr spec4 launch4.win.arr_inj c _ _ 3
theorem ok5_6 (c : Dev nD) : outsW m 12 main_v131 c = (dat5 (Ve5 m (outsW m)) c).arrAt 6 cfg5.N := by
  rw [Ve5_congr m (outs := outsW m) (outs' := outsA5 m) (fun J' hJ' r c => outsW_low5 m hJ' r c)]
  rw [outsW_low6 m (le_refl _)]
  unfold outsA6; rw [if_pos rfl]
  unfold left5; exact Pipeline.withArrays_arr spec5 launch5.win.arr_inj c _ _ 6
theorem ok6_3 (c : Dev nD) : outsW m 14 main_v135 c = (dat6 (Ve6 m (outsW m)) c).arrAt 3 cfg6.N := by
  rw [Ve6_congr m (outs := outsW m) (outs' := outsA6 m) (fun J' hJ' r c => outsW_low6 m hJ' r c)]
  rw [outsW_low7 m (le_refl _)]
  unfold outsA7; rw [if_pos rfl]
  unfold left6; exact Pipeline.withArrays_arr spec6 launch6.win.arr_inj c _ _ 3
theorem ok7_2 (c : Dev nD) : outsW m 16 main_v170_0 c = (dat7 (Ve7 m (outsW m)) c).arrAt 2 cfg7.N := by
  rw [Ve7_congr m (outs := outsW m) (outs' := outsA7 m) (fun J' hJ' r c => outsW_low7 m hJ' r c)]
  rw [outsW_low8 m (le_refl _)]
  unfold outsA8; rw [if_pos rfl]
  unfold left7; exact Pipeline.withArrays_arr spec7 launch7.win.arr_inj c _ _ 2
theorem ok7_3 (c : Dev nD) : outsW m 16 main_v170_1 c = (dat7 (Ve7 m (outsW m)) c).arrAt 3 cfg7.N := by
  rw [Ve7_congr m (outs := outsW m) (outs' := outsA7 m) (fun J' hJ' r c => outsW_low7 m hJ' r c)]
  rw [outsW_low8 m (le_refl _)]
  unfold outsA8; rw [if_pos rfl]
  unfold left7; exact Pipeline.withArrays_arr spec7 launch7.win.arr_inj c _ _ 3
theorem ok8_6 (c : Dev nD) : outsW m 18 main_v180 c = (dat8 (Ve8 m (outsW m)) c).arrAt 6 cfg8.N := by
  rw [Ve8_congr m (outs := outsW m) (outs' := outsA8 m) (fun J' hJ' r c => outsW_low8 m hJ' r c)]
  rw [outsW_low9 m (le_refl _)]
  unfold outsA9; rw [if_pos rfl]
  unfold left8; exact Pipeline.withArrays_arr spec8 launch8.win.arr_inj c _ _ 6
theorem ok9_3 (c : Dev nD) : outsW m 20 main_v184 c = (dat9 (Ve9 m (outsW m)) c).arrAt 3 cfg9.N := by
  rw [Ve9_congr m (outs := outsW m) (outs' := outsA9 m) (fun J' hJ' r c => outsW_low9 m hJ' r c)]
  rw [outsW_low10 m (le_refl _)]
  unfold outsA10; rw [if_pos rfl]
  unfold left9; exact Pipeline.withArrays_arr spec9 launch9.win.arr_inj c _ _ 3
theorem ok10_2 (c : Dev nD) : outsW m 22 main_v219_0 c = (dat10 (Ve10 m (outsW m)) c).arrAt 2 cfg10.N := by
  rw [Ve10_congr m (outs := outsW m) (outs' := outsA10 m) (fun J' hJ' r c => outsW_low10 m hJ' r c)]
  rw [outsW_low11 m (le_refl _)]
  unfold outsA11; rw [if_pos rfl]
  unfold left10; exact Pipeline.withArrays_arr spec10 launch10.win.arr_inj c _ _ 2
theorem ok10_3 (c : Dev nD) : outsW m 22 main_v219_1 c = (dat10 (Ve10 m (outsW m)) c).arrAt 3 cfg10.N := by
  rw [Ve10_congr m (outs := outsW m) (outs' := outsA10 m) (fun J' hJ' r c => outsW_low10 m hJ' r c)]
  rw [outsW_low11 m (le_refl _)]
  unfold outsA11; rw [if_pos rfl]
  unfold left10; exact Pipeline.withArrays_arr spec10 launch10.win.arr_inj c _ _ 3
theorem ok11_6 (c : Dev nD) : outsW m 24 main_v229 c = (dat11 (Ve11 m (outsW m)) c).arrAt 6 cfg11.N := by
  rw [Ve11_congr m (outs := outsW m) (outs' := outsA11 m) (fun J' hJ' r c => outsW_low11 m hJ' r c)]
  rw [outsW_low12 m (le_refl _)]
  unfold outsA12; rw [if_pos rfl]
  unfold left11; exact Pipeline.withArrays_arr spec11 launch11.win.arr_inj c _ _ 6
theorem ok12_3 (c : Dev nD) : outsW m 26 main_v233 c = (dat12 (Ve12 m (outsW m)) c).arrAt 3 cfg12.N := by
  rw [Ve12_congr m (outs := outsW m) (outs' := outsA12 m) (fun J' hJ' r c => outsW_low12 m hJ' r c)]
  rw [outsW_low13 m (le_refl _)]
  unfold outsA13; rw [if_pos rfl]
  unfold left12; exact Pipeline.withArrays_arr spec12 launch12.win.arr_inj c _ _ 3
theorem ok13_2 (c : Dev nD) : outsW m 28 main_v268_0 c = (dat13 (Ve13 m (outsW m)) c).arrAt 2 cfg13.N := by
  rw [Ve13_congr m (outs := outsW m) (outs' := outsA13 m) (fun J' hJ' r c => outsW_low13 m hJ' r c)]
  rw [outsW_low14 m (le_refl _)]
  unfold outsA14; rw [if_pos rfl]
  unfold left13; exact Pipeline.withArrays_arr spec13 launch13.win.arr_inj c _ _ 2
theorem ok13_3 (c : Dev nD) : outsW m 28 main_v268_1 c = (dat13 (Ve13 m (outsW m)) c).arrAt 3 cfg13.N := by
  rw [Ve13_congr m (outs := outsW m) (outs' := outsA13 m) (fun J' hJ' r c => outsW_low13 m hJ' r c)]
  rw [outsW_low14 m (le_refl _)]
  unfold outsA14; rw [if_pos rfl]
  unfold left13; exact Pipeline.withArrays_arr spec13 launch13.win.arr_inj c _ _ 3
theorem ok14_6 (c : Dev nD) : outsW m 30 main_v278 c = (dat14 (Ve14 m (outsW m)) c).arrAt 6 cfg14.N := by
  rw [Ve14_congr m (outs := outsW m) (outs' := outsA14 m) (fun J' hJ' r c => outsW_low14 m hJ' r c)]
  rw [outsW_low15 m (le_refl _)]
  unfold outsA15; rw [if_pos rfl]
  unfold left14; exact Pipeline.withArrays_arr spec14 launch14.win.arr_inj c _ _ 6
theorem ok15_3 (c : Dev nD) : outsW m 32 main_v280 c = (dat15 (Ve15 m (outsW m)) c).arrAt 3 cfg15.N := by
  rw [Ve15_congr m (outs := outsW m) (outs' := outsA15 m) (fun J' hJ' r c => outsW_low15 m hJ' r c)]
  rw [outsW_low16 m (le_refl _)]
  unfold outsA16; rw [if_pos rfl]
  unfold left15; exact Pipeline.withArrays_arr spec15 launch15.win.arr_inj c _ _ 3
theorem ok16_3 (c : Dev nD) : outsW m 34 main_v294 c = (dat16 (Ve16 m (outsW m)) c).arrAt 3 cfg16.N := by
  rw [Ve16_congr m (outs := outsW m) (outs' := outsA16 m) (fun J' hJ' r c => outsW_low16 m hJ' r c)]
  rw [outsW_low17 m (le_refl _)]
  unfold outsA17; rw [if_pos rfl]
  unfold left16; exact Pipeline.withArrays_arr spec16 launch16.win.arr_inj c _ _ 3
theorem ok17_3 (c : Dev nD) : outsW m 36 main_v296 c = (dat17 (Ve17 m (outsW m)) c).arrAt 3 cfg17.N := by
  rw [Ve17_congr m (outs := outsW m) (outs' := outsA17 m) (fun J' hJ' r c => outsW_low17 m hJ' r c)]
  rw [outsW_low18 m (le_refl _)]
  unfold outsA18; rw [if_pos rfl]
  unfold left17; exact Pipeline.withArrays_arr spec17 launch17.win.arr_inj c _ _ 3

set_option maxHeartbeats 4000000 in
/-- The unknowns are what the regions leave. -/
theorem outsW_ok : OutsOK m (outsW m) where
  o0_3 := ok0_3 m
  o1_2 := ok1_2 m
  o1_3 := ok1_3 m
  o2_6 := ok2_6 m
  o3_3 := ok3_3 m
  o4_2 := ok4_2 m
  o4_3 := ok4_3 m
  o5_6 := ok5_6 m
  o6_3 := ok6_3 m
  o7_2 := ok7_2 m
  o7_3 := ok7_3 m
  o8_6 := ok8_6 m
  o9_3 := ok9_3 m
  o10_2 := ok10_2 m
  o10_3 := ok10_3 m
  o11_6 := ok11_6 m
  o12_3 := ok12_3 m
  o13_2 := ok13_2 m
  o13_3 := ok13_3 m
  o14_6 := ok14_6 m
  o15_3 := ok15_3 m
  o16_3 := ok16_3 m
  o17_3 := ok17_3 m

end Cert.Kernel.Reg

end
-- ==== Proof.RegionsKI.lean ====
import proofs.«120348_j28252294873367_1_alg».proof.Proof.Gen.KernelIdeal.Launch
import Idealize.ShloMosaic.Lib.Pipeline.Frame
import Idealize.ShloMosaic.Lib.Pipeline.Regions

set_option maxRecDepth 2488

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v37 (outs 2 main_v37 c)

abbrev V3 (c : Dev nD) : Valuation τ sig (Elt F) := StableHlo.after hostOps1 (V2 m outs c)

abbrev V4 (c : Dev nD) : Valuation τ sig (Elt F) := Function.update (Function.update (V3 m outs c) main_v72_0 (outs 4 main_v72_0 c)) main_v72_1 (outs 4 main_v72_1 c)

abbrev V5 (c : Dev nD) : Valuation τ sig (Elt F) := StableHlo.after hostOps2 (V4 m outs c)

abbrev V6 (c : Dev nD) : Valuation τ sig (Elt F) := Function.update (V5 m outs c) main_v82 (outs 6 main_v82 c)

abbrev V7 (c : Dev nD) : Valuation τ sig (Elt F) := StableHlo.after hostOps3 (V6 m outs c)

abbrev V8 (c : Dev nD) : Valuation τ sig (Elt F) := Function.update (V7 m outs c) main_v86 (outs 8 main_v86 c)

abbrev V9 (c : Dev nD) : Valuation τ sig (Elt F) := StableHlo.after hostOps4 (V8 m outs c)

abbrev V10 (c : Dev nD) : Valuation τ sig (Elt F) := Function.update (Function.update (V9 m outs c) main_v121_0 (outs 10 main_v121_0 c)) main_v121_1 (outs 10 main_v121_1 c)

abbrev V11 (c : Dev nD) : Valuation τ sig (Elt F) := StableHlo.after hostOps5 (V10 m outs c)

abbrev V12 (c : Dev nD) : Valuation τ sig (Elt F) := Function.update (V11 m outs c) main_v131 (outs 12 main_v131 c)

abbrev V13 (c : Dev nD) : Valuation τ sig (Elt F) := StableHlo.after hostOps6 (V12 m outs c)

abbrev V14 (c : Dev nD) : Valuation τ sig (Elt F) := Function.update (V13 m outs c) main_v135 (outs 14 main_v135 c)

abbrev V15 (c : Dev nD) : Valuation τ sig (Elt F) := StableHlo.after hostOps7 (V14 m outs c)

abbrev V16 (c : Dev nD) : Valuation τ sig (Elt F) := Function.update (Function.update (V15 m outs c) main_v170_0 (outs 16 main_v170_0 c)) main_v170_1 (outs 16 main_v170_1 c)

abbrev V17 (c : Dev nD) : Valuation τ sig (Elt F) := StableHlo.after hostOps8 (V16 m outs c)

abbrev V18 (c : Dev nD) : Valuation τ sig (Elt F) := Function.update (V17 m outs c) main_v180 (outs 18 main_v180 c)

abbrev V19 (c : Dev nD) : Valuation τ sig (Elt F) := StableHlo.after hostOps9 (V18 m outs c)

abbrev V20 (c : Dev nD) : Valuation τ sig (Elt F) := Function.update (V19 m outs c) main_v184 (outs 20 main_v184 c)

abbrev V21 (c : Dev nD) : Valuation τ sig (Elt F) := StableHlo.after hostOps10 (V20 m outs c)

abbrev V22 (c : Dev nD) : Valuation τ sig (Elt F) := Function.update (Function.update (V21 m outs c) main_v219_0 (outs 22 main_v219_0 c)) main_v219_1 (outs 22 main_v219_1 c)

abbrev V23 (c : Dev nD) : Valuation τ sig (Elt F) := StableHlo.after hostOps11 (V22 m outs c)

abbrev V24 (c : Dev nD) : Valuation τ sig (Elt F) := Function.update (V23 m outs c) main_v229 (outs 24 main_v229 c)

abbrev V25 (c : Dev nD) : Valuation τ sig (Elt F) := StableHlo.after hostOps12 (V24 m outs c)

abbrev V26 (c : Dev nD) : Valuation τ sig (Elt F) := Function.update (V25 m outs c) main_v233 (outs 26 main_v233 c)

abbrev V27 (c : Dev nD) : Valuation τ sig (Elt F) := StableHlo.after hostOps13 (V26 m outs c)

abbrev V28 (c : Dev nD) : Valuation τ sig (Elt F) := Function.update (Function.update (V27 m outs c) main_v268_0 (outs 28 main_v268_0 c)) main_v268_1 (outs 28 main_v268_1 c)

abbrev V29 (c : Dev nD) : Valuation τ sig (Elt F) := StableHlo.after hostOps14 (V28 m outs c)

abbrev V30 (c : Dev nD) : Valuation τ sig (Elt F) := Function.update (V29 m outs c) main_v278 (outs 30 main_v278 c)

abbrev V31 (c : Dev nD) : Valuation τ sig (Elt F) := StableHlo.after hostOps15 (V30 m outs c)

abbrev V32 (c : Dev nD) : Valuation τ sig (Elt F) := Function.update (V31 m outs c) main_v280 (outs 32 main_v280 c)

abbrev V33 (c : Dev nD) : Valuation τ sig (Elt F) := StableHlo.after hostOps16 (V32 m outs c)

abbrev V34 (c : Dev nD) : Valuation τ sig (Elt F) := Function.update (V33 m outs c) main_v294 (outs 34 main_v294 c)

abbrev V35 (c : Dev nD) : Valuation τ sig (Elt F) := StableHlo.after hostOps17 (V34 m outs c)

abbrev V36 (c : Dev nD) : Valuation τ sig (Elt F) := Function.update (V35 m outs c) main_v296 (outs 36 main_v296 c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_v8, main_c, main_v9, main_v10, main_v11, main_v12, main_c_0, main_v13, main_v14, main_v15, main_v16, main_c_1, main_v17, main_v18, main_c_2, main_v19, main_v20, main_v21, main_v22, main_v23, main_v24, main_v25, main_c_3, main_v26, main_v27, main_c_4, main_v28, main_v29, main_v30, main_v31, main_v32, main_v33, main_v34, main_v35, main_cst, main_v36]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_v38, main_v39, main_c_5, main_v40, main_v41, main_c_6, main_v42, main_v43, main_v44, main_v45, main_v46, main_v47, main_v48, main_c_7, main_v49, main_v50, main_c_8, main_v51, main_v52, main_v53, main_v54, main_v55, main_v56, main_c_9, main_v57, main_v58, main_c_10, main_v59, main_v60, main_v61, main_v62, main_v63, main_v64, main_v65, main_cst_11, main_v66, main_v67, main_v68, main_v69, main_v70, main_v71]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_v73, main_v74, main_v75, main_v76, main_v77, main_v78, main_v79, main_v80, main_v81]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_v83, main_v84, main_cst_12, main_v85]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_v87, main_v88, main_c_13, main_v89, main_v90, main_c_14, main_v91, main_v92, main_v93, main_v94, main_v95, main_v96, main_v97, main_c_15, main_v98, main_v99, main_c_16, main_v100, main_v101, main_v102, main_v103, main_v104, main_v105, main_c_17, main_v106, main_v107, main_c_18, main_v108, main_v109, main_v110, main_v111, main_v112, main_v113, main_v114, main_cst_19, main_v115, main_v116, main_v117, main_v118, main_v119, main_v120]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_v122, main_v123, main_v124, main_v125, main_v126, main_v127, main_v128, main_v129, main_v130]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor

abbrev hostOps6_W : List (Ref sig .tc) := [main_v132, main_v133, main_cst_20, main_v134]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_v136, main_v137, main_c_21, main_v138, main_v139, main_c_22, main_v140, main_v141, main_v142, main_v143, main_v144, main_v145, main_v146, main_c_23, main_v147, main_v148, main_c_24, main_v149, main_v150, main_v151, main_v152, main_v153, main_v154, main_c_25, main_v155, main_v156, main_c_26, main_v157, main_v158, main_v159, main_v160, main_v161, main_v162, main_v163, main_cst_27, main_v164, main_v165, main_v166, main_v167, main_v168, main_v169]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor

abbrev hostOps8_W : List (Ref sig .tc) := [main_v171, main_v172, main_v173, main_v174, main_v175, main_v176, main_v177, main_v178, main_v179]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor

abbrev hostOps9_W : List (Ref sig .tc) := [main_v181, main_v182, main_cst_28, main_v183]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor

abbrev hostOps10_W : List (Ref sig .tc) := [main_v185, main_v186, main_c_29, main_v187, main_v188, main_c_30, main_v189, main_v190, main_v191, main_v192, main_v193, main_v194, main_v195, main_c_31, main_v196, main_v197, main_c_32, main_v198, main_v199, main_v200, main_v201, main_v202, main_v203, main_c_33, main_v204, main_v205, main_c_34, main_v206, main_v207, main_v208, main_v209, main_v210, main_v211, main_v212, main_cst_35, main_v213, main_v214, main_v215, main_v216, main_v217, main_v218]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor

abbrev hostOps11_W : List (Ref sig .tc) := [main_v220, main_v221, main_v222, main_v223, main_v224, main_v225, main_v226, main_v227, main_v228]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_fresh : (hostOps12 : List (HloOp τ sig (Elt F))).Forall fun op => op.fresh = ∅ := by
  simp only [List.Forall]; repeat' constructor

abbrev hostOps12_W : List (Ref sig .tc) := [main_v230, main_v231, main_cst_36, main_v232]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor

abbrev hostOps13_W : List (Ref sig .tc) := [main_v234, main_v235, main_c_37, main_v236, main_v237, main_c_38, main_v238, main_v239, main_v240, main_v241, main_v242, main_v243, main_v244, main_c_39, main_v245, main_v246, main_c_40, main_v247, main_v248, main_v249, main_v250, main_v251, main_v252, main_c_41, main_v253, main_v254, main_c_42, main_v255, main_v256, main_v257, main_v258, main_v259, main_v260, main_v261, main_cst_43, main_v262, main_v263, main_v264, main_v265, main_v266, main_v267]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor

abbrev hostOps14_W : List (Ref sig .tc) := [main_v269, main_v270, main_v271, main_v272, main_v273, main_v274, main_v275, main_v276, main_v277]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor

abbrev hostOps15_W : List (Ref sig .tc) := [main_v279]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor

abbrev hostOps16_W : List (Ref sig .tc) := [main_cst_44, main_v281, main_v282, main_v283, main_cst_45, main_v284, main_cst_46, main_v285, main_v286, main_v287, main_cst_47, main_v288, main_v289, main_v290, main_v291, main_v292, main_v293]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps17_fresh : (hostOps17 : List (HloOp τ sig (Elt F))).Forall fun op => op.fresh = ∅ := by
  simp only [List.Forall]; repeat' constructor

abbrev hostOps17_W : List (Ref sig .tc) := [main_v295]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v37] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v37)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v72_0, main_v72_1] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v72_0), Function.update_of_ne (StableHlo.devRef_ne_of_ne (List.ne_of_not_mem_cons (List.not_mem_of_not_mem_cons h)) : (Proc.devRef .tc r : DevRef τ sig) ≠ Proc.devRef .tc main_v72_1)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v82] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v82)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v86] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v86)]
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v121_0, main_v121_1] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v121_0), Function.update_of_ne (StableHlo.devRef_ne_of_ne (List.ne_of_not_mem_cons (List.not_mem_of_not_mem_cons h)) : (Proc.devRef .tc r : DevRef τ sig) ≠ Proc.devRef .tc main_v121_1)]
theorem V11_of (c : Dev nD) (r : Ref sig .tc) (h : r ∉ hostOps5_W) : V11 m outs c r = V10 m outs c r :=
  StableHlo.after_of_writes_sub hostOps5 _ hostOps5_writes h
theorem V12_of (c : Dev nD) (r : Ref sig .tc) (h : r ∉ ([main_v131] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v131)]
theorem V13_of (c : Dev nD) (r : Ref sig .tc) (h : r ∉ hostOps6_W) : V13 m outs c r = V12 m outs c r :=
  StableHlo.after_of_writes_sub hostOps6 _ hostOps6_writes h
theorem V14_of (c : Dev nD) (r : Ref sig .tc) (h : r ∉ ([main_v135] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v135)]
theorem V15_of (c : Dev nD) (r : Ref sig .tc) (h : r ∉ hostOps7_W) : V15 m outs c r = V14 m outs c r :=
  StableHlo.after_of_writes_sub hostOps7 _ hostOps7_writes h
theorem V16_of (c : Dev nD) (r : Ref sig .tc) (h : r ∉ ([main_v170_0, main_v170_1] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v170_0), Function.update_of_ne (StableHlo.devRef_ne_of_ne (List.ne_of_not_mem_cons (List.not_mem_of_not_mem_cons h)) : (Proc.devRef .tc r : DevRef τ sig) ≠ Proc.devRef .tc main_v170_1)]
theorem V17_of (c : Dev nD) (r : Ref sig .tc) (h : r ∉ hostOps8_W) : V17 m outs c r = V16 m outs c r :=
  StableHlo.after_of_writes_sub hostOps8 _ hostOps8_writes h
theorem V18_of (c : Dev nD) (r : Ref sig .tc) (h : r ∉ ([main_v180] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v180)]
theorem V19_of (c : Dev nD) (r : Ref sig .tc) (h : r ∉ hostOps9_W) : V19 m outs c r = V18 m outs c r :=
  StableHlo.after_of_writes_sub hostOps9 _ hostOps9_writes h
theorem V20_of (c : Dev nD) (r : Ref sig .tc) (h : r ∉ ([main_v184] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v184)]
theorem V21_of (c : Dev nD) (r : Ref sig .tc) (h : r ∉ hostOps10_W) : V21 m outs c r = V20 m outs c r :=
  StableHlo.after_of_writes_sub hostOps10 _ hostOps10_writes h
theorem V22_of (c : Dev nD) (r : Ref sig .tc) (h : r ∉ ([main_v219_0, main_v219_1] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v219_0), Function.update_of_ne (StableHlo.devRef_ne_of_ne (List.ne_of_not_mem_cons (List.not_mem_of_not_mem_cons h)) : (Proc.devRef .tc r : DevRef τ sig) ≠ Proc.devRef .tc main_v219_1)]
theorem V23_of (c : Dev nD) (r : Ref sig .tc) (h : r ∉ hostOps11_W) : V23 m outs c r = V22 m outs c r :=
  StableHlo.after_of_writes_sub hostOps11 _ hostOps11_writes h
theorem V24_of (c : Dev nD) (r : Ref sig .tc) (h : r ∉ ([main_v229] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v229)]
theorem V25_of (c : Dev nD) (r : Ref sig .tc) (h : r ∉ hostOps12_W) : V25 m outs c r = V24 m outs c r :=
  StableHlo.after_of_writes_sub hostOps12 _ hostOps12_writes h
theorem V26_of (c : Dev nD) (r : Ref sig .tc) (h : r ∉ ([main_v233] : List (Ref sig .tc))) : V26 m outs c r = V25 m outs c r := by
  simp only [V26, Function.update_of_ne (StableHlo.devRef_ne_of_ne (List.ne_of_not_mem_cons h) : (Proc.devRef .tc r : DevRef τ sig) ≠ Proc.devRef .tc main_v233)]
theorem V27_of (c : Dev nD) (r : Ref sig .tc) (h : r ∉ hostOps13_W) : V27 m outs c r = V26 m outs c r :=
  StableHlo.after_of_writes_sub hostOps13 _ hostOps13_writes h
theorem V28_of (c : Dev nD) (r : Ref sig .tc) (h : r ∉ ([main_v268_0, main_v268_1] : List (Ref sig .tc))) : V28 m outs c r = V27 m outs c r := by
  simp only [V28, Function.update_of_ne (StableHlo.devRef_ne_of_ne (List.ne_of_not_mem_cons h) : (Proc.devRef .tc r : DevRef τ sig) ≠ Proc.devRef .tc main_v268_0), Function.update_of_ne (StableHlo.devRef_ne_of_ne (List.ne_of_not_mem_cons (List.not_mem_of_not_mem_cons h)) : (Proc.devRef .tc r : DevRef τ sig) ≠ Proc.devRef .tc main_v268_1)]
theorem V29_of (c : Dev nD) (r : Ref sig .tc) (h : r ∉ hostOps14_W) : V29 m outs c r = V28 m outs c r :=
  StableHlo.after_of_writes_sub hostOps14 _ hostOps14_writes h
theorem V30_of (c : Dev nD) (r : Ref sig .tc) (h : r ∉ ([main_v278] : List (Ref sig .tc))) : V30 m outs c r = V29 m outs c r := by
  simp only [V30, Function.update_of_ne (StableHlo.devRef_ne_of_ne (List.ne_of_not_mem_cons h) : (Proc.devRef .tc r : DevRef τ sig) ≠ Proc.devRef .tc main_v278)]
theorem V31_of (c : Dev nD) (r : Ref sig .tc) (h : r ∉ hostOps15_W) : V31 m outs c r = V30 m outs c r :=
  StableHlo.after_of_writes_sub hostOps15 _ hostOps15_writes h
theorem V32_of (c : Dev nD) (r : Ref sig .tc) (h : r ∉ ([main_v280] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v280)]
theorem V33_of (c : Dev nD) (r : Ref sig .tc) (h : r ∉ hostOps16_W) : V33 m outs c r = V32 m outs c r :=
  StableHlo.after_of_writes_sub hostOps16 _ hostOps16_writes h
theorem V34_of (c : Dev nD) (r : Ref sig .tc) (h : r ∉ ([main_v294] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v294)]
theorem V35_of (c : Dev nD) (r : Ref sig .tc) (h : r ∉ hostOps17_W) : V35 m outs c r = V34 m outs c r :=
  StableHlo.after_of_writes_sub hostOps17 _ hostOps17_writes h
theorem V36_of (c : Dev nD) (r : Ref sig .tc) (h : r ∉ ([main_v296] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v296)]

abbrev Kept (w : List (Ref sig .tc)) (a b : (c : Dev nD) → Valuation τ sig (Elt F)) : Prop :=
  ∀ (c : Dev nD) (r : Ref sig .tc), r ∉ w → b c r = a c r

-- Each valuation of the list is kept by the next outside the matching list of written references.
def Steps : List (List (Ref sig .tc)) → List ((c : Dev nD) → Valuation τ sig (Elt F)) → Prop
  | [], [_] => True
  | w :: ws, a :: b :: vs => Kept w a b ∧ Steps ws (b :: vs)
  | _, _ => False

theorem Steps.step : ∀ (ws : List (List (Ref sig .tc))) (vs : List ((c : Dev nD) → Valuation τ sig (Elt F))), Steps ws vs →
    ∀ (k : ℕ) (b : (c : Dev nD) → Valuation τ sig (Elt F)), vs[k + 1]? = some b → ∃ a, vs[k]? = some a ∧ Kept (ws.getD k []) a b
  | w :: ws, a :: b :: vs, h, 0, b', hb => by
      simp at hb; subst hb; exact ⟨a, rfl, h.1⟩
  | w :: ws, a :: b :: vs, h, k + 1, b', hb => by
      obtain ⟨a', ha', hk⟩ := Steps.step ws (b :: vs) h.2 k b' (by simpa using hb)
      exact ⟨a', by simpa using ha', hk⟩
  | [], [_], _, k, _, hb => by simp at hb
  | [], [], h, _, _, _ => h.elim
  | [], _ :: _ :: _, h, _, _, _ => h.elim
  | _ :: _, [], h, _, _, _ => h.elim
  | _ :: _, [_], h, _, _, _ => h.elim

-- The valuations between @main's items, and what each item may write.
abbrev VsL : List ((c : Dev nD) → Valuation τ sig (Elt F)) := [V0 m, V1 m, V2 m outs, V3 m outs, V4 m outs, V5 m outs, V6 m outs, V7 m outs, V8 m outs, V9 m outs, V10 m outs, V11 m outs, V12 m outs, V13 m outs, V14 m outs, V15 m outs, V16 m outs, V17 m outs, V18 m outs, V19 m outs, V20 m outs, V21 m outs, V22 m outs, V23 m outs, V24 m outs, V25 m outs, V26 m outs, V27 m outs, V28 m outs, V29 m outs, V30 m outs, V31 m outs, V32 m outs, V33 m outs, V34 m outs, V35 m outs, V36 m outs]
abbrev wrL : List (List (Ref sig .tc)) := [hostOps0_W, [main_v37], hostOps1_W, [main_v72_0, main_v72_1], hostOps2_W, [main_v82], hostOps3_W, [main_v86], hostOps4_W, [main_v121_0, main_v121_1], hostOps5_W, [main_v131], hostOps6_W, [main_v135], hostOps7_W, [main_v170_0, main_v170_1], hostOps8_W, [main_v180], hostOps9_W, [main_v184], hostOps10_W, [main_v219_0, main_v219_1], hostOps11_W, [main_v229], hostOps12_W, [main_v233], hostOps13_W, [main_v268_0, main_v268_1], hostOps14_W, [main_v278], hostOps15_W, [main_v280], hostOps16_W, [main_v294], hostOps17_W, [main_v296]]

theorem steps : Steps wrL (VsL m outs) :=
  ⟨V1_of m, V2_of m outs, V3_of m outs, V4_of m outs, V5_of m outs, V6_of m outs, V7_of m outs, V8_of m outs, V9_of m outs, V10_of m outs, V11_of m outs, V12_of m outs, V13_of m outs, V14_of m outs, V15_of m outs, V16_of m outs, V17_of m outs, V18_of m outs, V19_of m outs, V20_of m outs, V21_of m outs, V22_of m outs, V23_of m outs, V24_of m outs, V25_of m outs, V26_of m outs, V27_of m outs, V28_of m outs, V29_of m outs, V30_of m outs, V31_of m outs, V32_of m outs, V33_of m outs, V34_of m outs, V35_of m outs, V36_of m outs, trivial⟩

-- A reference none of the items i, …, i + n - 1 writes holds after them what it held before.
theorem Vs_keep (i n : ℕ) {a b : (c : Dev nD) → Valuation τ sig (Elt F)} (ha : (VsL m outs)[i]? = some a) (hb : (VsL m outs)[i + n]? = some b)
    (c : Dev nD) (r : Ref sig .tc) (h : ∀ k < n, r ∉ wrL.getD (i + k) []) : b c r = a c r := by
  induction n generalizing b with
  | zero => rw [Nat.add_zero, ha] at hb; cases hb; rfl
  | succ n ih =>
    obtain ⟨b', hb', hk⟩ := Steps.step wrL (VsL m outs) (steps m outs) (i + n) b hb
    exact (hk c r (h n n.lt_succ_self)).trans (ih hb' fun k hk => h k (Nat.lt_succ_of_lt hk))

theorem V36_main_arg0 (c : Dev nD) : V36 m outs c main_arg0 = m ((c : Thread nD τ).loc main_arg0) :=
  Vs_keep m outs 0 36 rfl rfl c main_arg0 (by decide +kernel)

theorem V36_main_arg1 (c : Dev nD) : V36 m outs c main_arg1 = m ((c : Thread nD τ).loc main_arg1) :=
  Vs_keep m outs 0 36 rfl rfl c main_arg1 (by decide +kernel)

theorem V36_main_arg2 (c : Dev nD) : V36 m outs c main_arg2 = m ((c : Thread nD τ).loc main_arg2) :=
  Vs_keep m outs 0 36 rfl rfl c main_arg2 (by decide +kernel)

theorem V36_main_arg3 (c : Dev nD) : V36 m outs c main_arg3 = m ((c : Thread nD τ).loc main_arg3) :=
  Vs_keep m outs 0 36 rfl rfl c main_arg3 (by decide +kernel)

theorem V36_main_arg4 (c : Dev nD) : V36 m outs c main_arg4 = m ((c : Thread nD τ).loc main_arg4) :=
  Vs_keep m outs 0 36 rfl rfl c main_arg4 (by decide +kernel)

theorem V36_main_arg5 (c : Dev nD) : V36 m outs c main_arg5 = m ((c : Thread nD τ).loc main_arg5) :=
  Vs_keep m outs 0 36 rfl rfl c main_arg5 (by decide +kernel)

theorem V36_main_arg6 (c : Dev nD) : V36 m outs c main_arg6 = m ((c : Thread nD τ).loc main_arg6) :=
  Vs_keep m outs 0 36 rfl rfl c main_arg6 (by decide +kernel)

theorem V36_main_arg7 (c : Dev nD) : V36 m outs c main_arg7 = m ((c : Thread nD τ).loc main_arg7) :=
  Vs_keep m outs 0 36 rfl rfl c main_arg7 (by decide +kernel)

theorem V36_main_arg8 (c : Dev nD) : V36 m outs c main_arg8 = m ((c : Thread nD τ).loc main_arg8) :=
  Vs_keep m outs 0 36 rfl rfl c main_arg8 (by decide +kernel)

theorem V36_main_arg9 (c : Dev nD) : V36 m outs c main_arg9 = m ((c : Thread nD τ).loc main_arg9) :=
  Vs_keep m outs 0 36 rfl rfl c main_arg9 (by decide +kernel)

theorem V36_main_arg10 (c : Dev nD) : V36 m outs c main_arg10 = m ((c : Thread nD τ).loc main_arg10) :=
  Vs_keep m outs 0 36 rfl rfl c main_arg10 (by decide +kernel)

theorem V36_main_arg11 (c : Dev nD) : V36 m outs c main_arg11 = m ((c : Thread nD τ).loc main_arg11) :=
  Vs_keep m outs 0 36 rfl rfl c main_arg11 (by decide +kernel)

theorem V36_main_arg12 (c : Dev nD) : V36 m outs c main_arg12 = m ((c : Thread nD τ).loc main_arg12) :=
  Vs_keep m outs 0 36 rfl rfl c main_arg12 (by decide +kernel)

theorem V36_main_arg13 (c : Dev nD) : V36 m outs c main_arg13 = m ((c : Thread nD τ).loc main_arg13) :=
  Vs_keep m outs 0 36 rfl rfl c main_arg13 (by decide +kernel)

theorem V36_main_arg14 (c : Dev nD) : V36 m outs c main_arg14 = m ((c : Thread nD τ).loc main_arg14) :=
  Vs_keep m outs 0 36 rfl rfl c main_arg14 (by decide +kernel)

theorem V36_main_arg15 (c : Dev nD) : V36 m outs c main_arg15 = m ((c : Thread nD τ).loc main_arg15) :=
  Vs_keep m outs 0 36 rfl rfl c main_arg15 (by decide +kernel)

theorem V36_main_arg16 (c : Dev nD) : V36 m outs c main_arg16 = m ((c : Thread nD τ).loc main_arg16) :=
  Vs_keep m outs 0 36 rfl rfl c main_arg16 (by decide +kernel)

theorem V36_main_arg17 (c : Dev nD) : V36 m outs c main_arg17 = m ((c : Thread nD τ).loc main_arg17) :=
  Vs_keep m outs 0 36 rfl rfl c main_arg17 (by decide +kernel)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 19 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

def seg10 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V10 m outs) (E 5)

def seg12 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V12 m outs) (E 6)

def seg14 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V14 m outs) (E 7)

def seg16 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V16 m outs) (E 8)

def seg18 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V18 m outs) (E 9)

def seg20 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V20 m outs) (E 10)

def seg22 : HostSeg (Ix := Ix) (Name := ℕ) (U := U) (Lvl := Lvl) (pcfgs (F := F)) defs₀ 𝒱₀ L lv :=
  HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (V22 m outs) (E 11)

def seg24 : HostSeg (Ix := Ix) (Name := ℕ) (U := U) (Lvl := Lvl) (pcfgs (F := F)) defs₀ 𝒱₀ L lv :=
  HostSeg.ofOps _ _ _ _ _ (Pipeline.ucRefs τ sig) hostOps12
    (fun op h => Pipeline.sub_ucRefs op ((List.forall_iff_forall_mem.mp hostOps12_sub) op h))
    (fun op h => (List.forall_iff_forall_mem.mp hostOps12_fresh) op h) (V24 m outs) (E 12)

def seg26 : HostSeg (Ix := Ix) (Name := ℕ) (U := U) (Lvl := Lvl) (pcfgs (F := F)) defs₀ 𝒱₀ L lv :=
  HostSeg.ofOps _ _ _ _ _ (Pipeline.ucRefs τ sig) hostOps13
    (fun op h => Pipeline.sub_ucRefs op ((List.forall_iff_forall_mem.mp hostOps13_sub) op h))
    (fun op h => (List.forall_iff_forall_mem.mp hostOps13_fresh) op h) (V26 m outs) (E 13)

def seg28 : HostSeg (Ix := Ix) (Name := ℕ) (U := U) (Lvl := Lvl) (pcfgs (F := F)) defs₀ 𝒱₀ L lv :=
  HostSeg.ofOps _ _ _ _ _ (Pipeline.ucRefs τ sig) hostOps14
    (fun op h => Pipeline.sub_ucRefs op ((List.forall_iff_forall_mem.mp hostOps14_sub) op h))
    (fun op h => (List.forall_iff_forall_mem.mp hostOps14_fresh) op h) (V28 m outs) (E 14)

def seg30 : HostSeg (Ix := Ix) (Name := ℕ) (U := U) (Lvl := Lvl) (pcfgs (F := F)) defs₀ 𝒱₀ L lv :=
  HostSeg.ofOps _ _ _ _ _ (Pipeline.ucRefs τ sig) hostOps15
    (fun op h => Pipeline.sub_ucRefs op ((List.forall_iff_forall_mem.mp hostOps15_sub) op h))
    (fun op h => (List.forall_iff_forall_mem.mp hostOps15_fresh) op h) (V30 m outs) (E 15)

def seg32 : HostSeg (Ix := Ix) (Name := ℕ) (U := U) (Lvl := Lvl) (pcfgs (F := F)) defs₀ 𝒱₀ L lv :=
  HostSeg.ofOps _ _ _ _ _ (Pipeline.ucRefs τ sig) hostOps16
    (fun op h => Pipeline.sub_ucRefs op ((List.forall_iff_forall_mem.mp hostOps16_sub) op h))
    (fun op h => (List.forall_iff_forall_mem.mp hostOps16_fresh) op h) (V32 m outs) (E 16)

def seg34 : HostSeg (Ix := Ix) (Name := ℕ) (U := U) (Lvl := Lvl) (pcfgs (F := F)) defs₀ 𝒱₀ L lv :=
  HostSeg.ofOps _ _ _ _ _ (Pipeline.ucRefs τ sig) hostOps17
    (fun op h => Pipeline.sub_ucRefs op ((List.forall_iff_forall_mem.mp hostOps17_sub) op h))
    (fun op h => (List.forall_iff_forall_mem.mp hostOps17_fresh) op h) (V34 m outs) (E 17)

end Segs

section

variable {Ix : Type} [DecidableEq Ix] {U : Type} [URA U] {Lvl : Type} [Preorder Lvl]

abbrev adm : (p : Fin 18) → (pcfgs (F := F) p).Adm := fun p => (cfgs p).toPCfg_adm

abbrev segs (𝒱₀ : Variants) (L : GSem nD τ sig → Finset Ix) (lv : GSem nD τ sig → Ix → Lvl) (E : Fin 19 → Dev nD → sProp (MT nD τ sig Ix (Elt F) ℕ U Lvl)) (ι : Ix)
    (pdats : (p : Fin 18) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E), .region R4, .host (seg10 m outs 𝒱₀ L lv E), .region R5, .host (seg12 m outs 𝒱₀ L lv E), .region R6, .host (seg14 m outs 𝒱₀ L lv E), .region R7, .host (seg16 m outs 𝒱₀ L lv E), .region R8, .host (seg18 m outs 𝒱₀ L lv E), .region R9, .host (seg20 m outs 𝒱₀ L lv E), .region R10, .host (seg22 m outs 𝒱₀ L lv E), .region R11, .host (seg24 m outs 𝒱₀ L lv E), .region R12, .host (seg26 m outs 𝒱₀ L lv E), .region R13, .host (seg28 m outs 𝒱₀ L lv E), .region R14, .host (seg30 m outs 𝒱₀ L lv E), .region R15, .host (seg32 m outs 𝒱₀ L lv E), .region R16, .host (seg34 m outs 𝒱₀ L lv E), .region R17]

end

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 18) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 19 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE18 : ∀ c : Dev nD, E 18 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V31 m outs c) ∗ E 15 c) ⊢ R15.pre c)
    (hpost15 : ∀ c : Dev nD, R15.post c ⊢ iprop(StableHlo.held (c : Thread nD τ) (Pipeline.ucRefs τ sig) (V32 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V33 m outs c) ∗ E 16 c) ⊢ R16.pre c)
    (hpost16 : ∀ c : Dev nD, R16.post c ⊢ iprop(StableHlo.held (c : Thread nD τ) (Pipeline.ucRefs τ sig) (V34 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V35 m outs c) ∗ E 17 c) ⊢ R17.pre c)
    (hpost17 : ∀ c : Dev nD, R17.post c ⊢ iprop(StableHlo.held (c : Thread nD τ) (Pipeline.ucRefs τ sig) (V36 m outs c) ∗ E 18 c)) :
    θ_run defs (onTc (τ := τ) (main (F := F))) ⟨m, fun _ => 0, ρ⟩ (fun r => ∀ c : Dev nD,
      ∀ b ∈ Pipeline.ucRefs τ sig, r.2.mem ((c : Thread nD τ).1, b) = V36 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17)
    (fun c Q => by
      rewrite [main_chain c, Seg.run_eq_chain,
        show (segs m outs 𝒱₀ L lv E ι pdats R0 R1 R2 R3 R4 R5 R6 R7 R8 R9 R10 R11 R12 R13 R14 R15 R16 R17 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V36 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, (hpost17 c).trans (sep_mono .rfl (hE18 c))⟩)
    (hinit := ?_) (QY := fun c s => ∀ b ∈ Pipeline.ucRefs τ sig, s.mem ((c : Thread nD τ).1, b) = V36 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V36 m outs c) s') $$ [Hh HSI]
    · isplitl [Hh] <;> iassumption
    icases Hr with ⟨%h, HSI⟩
    imodintro
    isplitr
    · ipureintro
      exact h
    · iexact HSI

end Cert.KernelIdeal.GenP

end
-- ==== Proof.KI.Reg0.lean ====
/-
  Region 0 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S2000x300 := Rect.unit (s := S2000x300) ![0, 0] S2000x300.size inb_S2000x300_S2000x300_0_0
abbrev r0_o : Rect S2000x300 := Rect.unit (s := S2000x300) ![0, 0] S2000x300.size inb_S2000x300_S2000x300_0_0
abbrev r0_b : Rect S300x300 := Rect.unit (s := S300x300) ![0, 0] S300x300.size inb_S300x300_S300x300_0_0
abbrev r0_c : Rect S1x300 := Rect.unit (s := S1x300) ![0, 0] S1x300.size inb_S1x300_S1x300_0_0

/-- The output block after the body: its one whole-block store, of the product of the row block with the
    weights plus the bias row. -/
def out0_3 (x0 : Vec F S2000x300 .f32) (x1 : Vec F S300x300 .f32) (x2 : Vec F S1x300 .f32) : Vec F S2000x300 .f32 :=
  View.canon [⟨r0_o, k0_pay1 (View.ld x0 r0_a) (View.ld x1 r0_b) (View.ld x2 r0_c)⟩]

theorem cover0_3 (p0 : Vec F S2000x300 .f32) (y : S2000x300.Idx) :
    ∃ pc ∈ ([⟨r0_o, p0⟩] : List (View.Piece (Elt F) S2000x300 .f32)), y ∈ pc.1.set :=
  View.cover_of_tiled [⟨r0_o, p0⟩] S2000x300.size (by rfl) y

set_option maxHeartbeats 1000000 in
/-- The body on whole staging memrefs: the three inputs kept, the output block at the product. -/
theorem sound_kernel0 (c : Dev nD) (E : Set ℕ) (i : grid0.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core c: the arrays as the region finds them; after the body each input's
    buffer at its block and the output's at the product of the point's blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg1.lean ====
/-
  Region 1 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond1_0 (i : grid1.Coords) : Prop :=
  (Scalar.cmpi .ne (Scalar.extui (Scalar.cmpi .eq (BitVec.ofNat 32 (i 0).val) 0#32)) 0#32) = 1#1
/-- the second (the two output rows computed and stored) at its last point only. -/
abbrev cond1_1 (i : grid1.Coords) : Prop := k1_cond2 i = 1#1

/-- The zero offsets of a rank-2 rectangle, as the constant function. -/
theorem off1_zero : (![0, 0] : Fin 2 → ℕ) = fun _ => 0 := by
  funext a; fin_cases a <;> rfl

/-- A load of a whole buffer through the whole-shape rectangle reads its contents. -/
theorem readAt_whole1 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole1 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel1_B (c : Dev nD) (E : Set ℕ) (i : grid1.Coords) (hc0 : ¬cond1_0 i) (hc1 : ¬cond1_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  iexists _; isplitr
  swap; · iexact H5
  ipureintro
  sl_unfold_run_names
  rw [read_store_whole1 (s := S1x300) _ _ off1_zero]
  simp only [View.readCov_unit_zero (S := S1x300) _ off1_zero, readAt_whole1 (s := S2000x300) _ _ off1_zero, readAt_whole1 (s := S1x300) _ _ off1_zero]

set_option maxHeartbeats 1000000 in
/-- The body at the first point, on whole memrefs: the two running rows, found at anything, are reset and then
    accumulate the point's block. -/
theorem sound_kernel1_A (c : Dev nD) (E : Set ℕ) (i : grid1.Coords) (hc0 : cond1_0 i) (hc1 : ¬cond1_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k1_pay4 x b (k1_pay1 (F := F))) ∗ owns (c : Thread nD τ) arg6 fullShare (k1_pay5 x b (k1_pay2 (F := F)))) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  iexists _; isplitr
  swap; · iexact H5
  ipureintro
  sl_unfold_run_names
  rw [read_store_whole1 (s := S1x300) _ _ off1_zero]
  simp only [View.readCov_unit_zero (S := S1x300) _ off1_zero, readAt_whole1 (s := S2000x300) _ _ off1_zero, readAt_whole1 (s := S1x300) _ _ off1_zero]

set_option maxHeartbeats 1000000 in
/-- The body at the last point, on whole memrefs: the two running rows accumulate the point's block, and the two
    output rows, found at anything, are stored from them (the mean row; the mean of squares less the squared mean). -/
theorem sound_kernel1_C (c : Dev nD) (E : Set ℕ) (i : grid1.Coords) (hc0 : ¬cond1_0 i) (hc1 : cond1_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k1_pay6 (k1_pay4 x b s0))
            ∗ owns (c : Thread nD τ) arg4 fullShare (k1_pay7 (k1_pay4 x b s0) (k1_pay5 x b s1))
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  isplitl [H3]
  · iexists _; isplitr
    swap; · iexact H3
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  isplitl [H4]
  · iexists _; isplitr
    swap; · iexact H4
    ipureintro
    sl_unfold_run_names
    rw [read_store_whole1 (s := S1x300) _ _ off1_zero]
    simp only [View.readCov_unit_zero (S := S1x300) _ off1_zero, readAt_whole1 (s := S2000x300) _ _ off1_zero, readAt_whole1 (s := S1x300) _ _ off1_zero]
  iexists _; isplitr
  swap; · iexact H5
  ipureintro
  sl_unfold_run_names
  rw [read_store_whole1 (s := S1x300) _ _ off1_zero]
  simp only [View.readCov_unit_zero (S := S1x300) _ off1_zero, readAt_whole1 (s := S2000x300) _ _ off1_zero, readAt_whole1 (s := S1x300) _ _ off1_zero]

/-! ## Where the branches are taken and where the output windows are idle -/

/-- The reset is taken at the first point only; -/
theorem hcond1_0 : ∀ t : Fin cfg1.N, cond1_0 (grid1.coords t) ↔ t.val = 0 :=
  (by decide +kernel : ∀ t : Fin grid1.N, cond1_0 (grid1.coords t) ↔ t.val = 0)
/-- the output rows are stored at the last point only. -/
theorem hcond1_1 : ∀ t : Fin cfg1.N, cond1_1 (grid1.coords t) ↔ t.val = 49 :=
  (by decide +kernel : ∀ t : Fin grid1.N, cond1_1 (grid1.coords t) ↔ t.val = 49)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the two output windows are idle (the body stores nothing into them) and are not written back; -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- at the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The blocks and the running rows -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two running rows (column sums, column sums of squares) after n points: the reset values, then point by
    point the accumulation of the point's row block and bias row. Past the grid's end nothing changes. -/
def sacc1 (c : Dev nD) : ℕ → Vec F S1x300 .f32 × Vec F S1x300 .f32
  | 0 => (k1_pay1, k1_pay2)
  | n + 1 =>
    if h : n < cfg1.N then
      (k1_pay4 (iblk1 V c 0 ⟨n, h⟩) (iblk1 V c 1 ⟨n, h⟩) (sacc1 c n).1,
       k1_pay5 (iblk1 V c 0 ⟨n, h⟩) (iblk1 V c 1 ⟨n, h⟩) (sacc1 c n).2)
    else sacc1 c n

theorem sacc1_zero (c : Dev nD) : sacc1 V c 0 = (k1_pay1, k1_pay2) := rfl

theorem sacc1_succ (c : Dev nD) (n : ℕ) (h : n < 50) :
    sacc1 V c (n + 1)
      = (k1_pay4 (iblk1 V c 0 ⟨n, lt_of_lt_of_eq h N_1.symm⟩) (iblk1 V c 1 ⟨n, lt_of_lt_of_eq h N_1.symm⟩) (sacc1 V c n).1,
         k1_pay5 (iblk1 V c 0 ⟨n, lt_of_lt_of_eq h N_1.symm⟩) (iblk1 V c 1 ⟨n, lt_of_lt_of_eq h N_1.symm⟩) (sacc1 V c n).2) := by
  rw [sacc1]; exact dif_pos (lt_of_lt_of_eq h N_1.symm)

/-- The same at a grid point: after point t, the rows before it accumulated with t's blocks. -/
theorem sacc1_at (c : Dev nD) (t : Fin cfg1.N) :
    sacc1 V c (t.val + 1)
      = (k1_pay4 (iblk1 V c 0 t) (iblk1 V c 1 t) (sacc1 V c t.val).1, k1_pay5 (iblk1 V c 0 t) (iblk1 V c 1 t) (sacc1 V c t.val).2) := by
  rw [sacc1]; exact dif_pos t.isLt

/-! ## The invariant -/

/-- The two scratch operands: whole scoped buffers of the kernel's own, passed beside the windows. -/
abbrev sc1_0 : Memref sig .tc .vmem S1x300 .f32 := Memref.whole cc1_scratch0
abbrev sc1_1 : Memref sig .tc .vmem S1x300 .f32 := Memref.whole cc1_scratch1

/-- The region invariant before position n: the scoped buffers other than the two scratch rows and the staging
    buffers, at anything; the generator register at some state; the two scratch rows owned whole — before the first
    point at anything, afterwards at the running rows after n points. -/
def Phi1 (c : Dev nD) : ℕ → sProp 𝕄
  | 0 => iprop(Pipeline.scopedRestBut (Ix := Unit) (Name := ℕ) (U := UR sig nD τ) (Lvl := ℕ) (Val := Elt F) spec1 c [cc1_scratch0, cc1_scratch1]
      ∗ (∃ r, prngReg c r)
      ∗ (∃ d, owns (c : Thread nD τ) sc1_0 fullShare d) ∗ (∃ d, owns (c : Thread nD τ) sc1_1 fullShare d))
  | n + 1 => iprop(Pipeline.scopedRestBut (Ix := Unit) (Name := ℕ) (U := UR sig nD τ) (Lvl := ℕ) (Val := Elt F) spec1 c [cc1_scratch0, cc1_scratch1]
      ∗ (∃ r, prngReg c r)
      ∗ owns (c : Thread nD τ) sc1_0 fullShare (sacc1 V c (n + 1)).1 ∗ owns (c : Thread nD τ) sc1_1 fullShare (sacc1 V c (n + 1)).2)

theorem Phi1_zero (c : Dev nD) (n : ℕ) (hz : n = 0) :
    Phi1 V c n = iprop(Pipeline.scopedRestBut (Ix := Unit) (Name := ℕ) (U := UR sig nD τ) (Lvl := ℕ) (Val := Elt F) spec1 c [cc1_scratch0, cc1_scratch1]
      ∗ (∃ r, prngReg c r)
      ∗ (∃ d, owns (c : Thread nD τ) sc1_0 fullShare d) ∗ (∃ d, owns (c : Thread nD τ) sc1_1 fullShare d)) := by
  subst hz; rfl

theorem Phi1_pos (c : Dev nD) (n : ℕ) (hz : n ≠ 0) :
    Phi1 V c n = iprop(Pipeline.scopedRestBut (Ix := Unit) (Name := ℕ) (U := UR sig nD τ) (Lvl := ℕ) (Val := Elt F) spec1 c [cc1_scratch0, cc1_scratch1]
      ∗ (∃ r, prngReg c r)
      ∗ owns (c : Thread nD τ) sc1_0 fullShare (sacc1 V c n).1 ∗ owns (c : Thread nD τ) sc1_1 fullShare (sacc1 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay6 (sacc1 V c 50).1
    | ⟨3, _⟩ => k1_pay7 (sacc1 V c 50).1 (sacc1 V c 50).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay6 (sacc1 V c 50).1 := by dsimp only [dat1]
theorem after1_3 (c : Dev nD) (t : Fin cfg1.N) :
    (dat1 V c).after 3 t = k1_pay7 (sacc1 V c 50).1 (sacc1 V c 50).2 := by dsimp only [dat1]

/-- What the write-back at the last point writes: the two output rows. -/
theorem after1_2_last (c : Dev nD) : (dat1 V c).after 2 ⟨49, by decide⟩ = k1_pay6 (sacc1 V c 50).1 := after1_2 V c _
theorem after1_3_last (c : Dev nD) :
    (dat1 V c).after 3 ⟨49, by decide⟩ = k1_pay7 (sacc1 V c 50).1 (sacc1 V c 50).2 := after1_3 V c _

/-- The same at the last point, over the running rows after it. -/
theorem after1_2_at (c : Dev nD) (t : Fin cfg1.N) (h : t.val = 49) :
    (dat1 V c).after 2 t = k1_pay6 (sacc1 V c (t.val + 1)).1 := by rw [after1_2, h]
theorem after1_3_at (c : Dev nD) (t : Fin cfg1.N) (h : t.val = 49) :
    (dat1 V c).after 3 t = k1_pay7 (sacc1 V c (t.val + 1)).1 (sacc1 V c (t.val + 1)).2 := by rw [after1_3, h]

theorem Phi1_castSucc (c : Dev nD) (t : Fin cfg1.N) : (dat1 V c).Φ t.castSucc = Phi1 V c t.val := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: an output window idle at the point handed back as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) from rfl, Phi1_castSucc,
    show (dat1 V c).leavesExact 0 t = owns (c : Thread nD τ) (st1_0 t) fullShare ((dat1 V c).after 0 t) from by
      unfold Dat.leavesExact; rw [liveAt1_0 t],
    show (dat1 V c).leavesExact 1 t = owns (c : Thread nD τ) (st1_1 t) fullShare ((dat1 V c).after 1 t) from by
      unfold Dat.leavesExact; rw [liveAt1_1 t],
    after1_0, after1_1]
  have hN : t.val < 50 := lt_of_lt_of_eq t.isLt N_1
  by_cases hfirst : t.val = 0
  · -- the first point: reset, then accumulate
    have hreset : cond1_0 (grid1.coords t) := (hcond1_0 t).mpr hfirst
    have hnolast : ¬cond1_1 (grid1.coords t) := fun h => by have := (hcond1_1 t).mp h; omega
    have hs : sacc1 V c t.val = (k1_pay1, k1_pay2) := by rw [hfirst]; rfl
    rw [Dat.leavesExact_idle (dat1 V c) 2 t (idleAt1_2 t hnolast) (noFlush1_2 t hnolast),
      Dat.leavesExact_idle (dat1 V c) 3 t (idleAt1_3 t hnolast) (noFlush1_3 t hnolast),
      Phi1_zero V c _ hfirst, Phi1_pos V c (t.val + 1) (Nat.succ_ne_zero _)]
    simp only [sacc1_at, hs]
    iintro ⟨⟨HR, Hg, ⟨%e0, HS0⟩, ⟨%e1, HS1⟩⟩, Ho, ⟨%d0, H0⟩, ⟨%d1, H1⟩, H2, H3⟩
    iapply (sound_kernel1_A c Set.univ _ hreset hnolast _ _ _ _ _ _ _ _ _ _ _ _ (iblk1 V c 0 t) (iblk1 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond1_0 (grid1.coords t) := fun h => hfirst ((hcond1_0 t).mp h)
    by_cases hlast : t.val = 49
    · -- the last point: accumulate, then the two output rows
      have hstore : cond1_1 (grid1.coords t) := (hcond1_1 t).mpr hlast
      rw [show (dat1 V c).leavesExact 2 t = owns (c : Thread nD τ) (st1_2 t) fullShare ((dat1 V c).after 2 t) from by
          unfold Dat.leavesExact; rw [liveAt1_2 t hstore],
        show (dat1 V c).leavesExact 3 t = owns (c : Thread nD τ) (st1_3 t) fullShare ((dat1 V c).after 3 t) from by
          unfold Dat.leavesExact; rw [liveAt1_3 t hstore],
        after1_2_at V c t hlast, after1_3_at V c t hlast,
        Phi1_pos V c _ hfirst, Phi1_pos V c (t.val + 1) (Nat.succ_ne_zero _)]
      simp only [sacc1_at]
      iintro ⟨⟨HR, Hg, HS0, HS1⟩, Ho, ⟨%d0, H0⟩, ⟨%d1, H1⟩, ⟨%d2, H2⟩, ⟨%d3, H3⟩⟩
      iapply (sound_kernel1_C c Set.univ _ hnoreset hstore _ _ _ _ _ _ _ _ _ _ _ _ (iblk1 V c 0 t) (iblk1 V c 1 t)
        (sacc1 V c t.val).1 (sacc1 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond1_1 (grid1.coords t) := fun h => hlast ((hcond1_1 t).mp h)
      rw [Dat.leavesExact_idle (dat1 V c) 2 t (idleAt1_2 t hnolast) (noFlush1_2 t hnolast),
        Dat.leavesExact_idle (dat1 V c) 3 t (idleAt1_3 t hnolast) (noFlush1_3 t hnolast),
        Phi1_pos V c _ hfirst, Phi1_pos V c (t.val + 1) (Nat.succ_ne_zero _)]
      simp only [sacc1_at]
      iintro ⟨⟨HR, Hg, HS0, HS1⟩, Ho, ⟨%d0, H0⟩, ⟨%d1, H1⟩, H2, H3⟩
      iapply (sound_kernel1_B c Set.univ _ hnoreset hnolast _ _ _ _ _ _ _ _ _ _ _ _ (iblk1 V c 0 t) (iblk1 V c 1 t)
        (sacc1 V c t.val).1 (sacc1 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The region enters the invariant: the two scratch rows are taken out of the scoped rest, at anything; what else
    is handed beside the generator register and the scoped rest is dropped. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, Phi1_zero V c 0 rfl, scopedRest1_split]
  simp only [sc1_0, sc1_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl,
    Phi1_pos V c _ (by rw [Fin.val_last]; have : cfg1.N = 50 := N_1; omega), scopedRest1_split]
  simp only [sc1_0, sc1_1, owns_whole]
  iintro ⟨HR, Hg, HS0, HS1⟩
  isplitl [Hg]; · iexact Hg
  isplitl [HS0 HS1]
  · isplitl [HS0]
    · iexists _; iexact HS0
    iexists _; iexact HS1
  iexact HR

end Cert.KernelIdeal.Reg

end
-- ==== Proof.KI.Reg2.lean ====
/-
  Region 2 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S2000x300 := Rect.unit (s := S2000x300) ![0, 0] S2000x300.size inb_S2000x300_S2000x300_0_0
abbrev r2_c : Rect S1x300 := Rect.unit (s := S1x300) ![0, 0] S1x300.size inb_S1x300_S1x300_0_0

/-- The output block after the body: its one whole-block store, of the normalised and rectified row block. -/
def out2_6 (x0 : Vec F S2000x300 .f32) (x1 x2 x3 x4 x5 : Vec F S1x300 .f32) : Vec F S2000x300 .f32 :=
  View.canon [⟨r2_a, k2_pay1 (View.ld x0 r2_a) (View.ld x1 r2_c) (View.ld x2 r2_c) (View.ld x3 r2_c) (View.ld x4 r2_c) (View.ld x5 r2_c)⟩]

theorem cover2_6 (p0 : Vec F S2000x300 .f32) (y : S2000x300.Idx) :
    ∃ pc ∈ ([⟨r2_a, p0⟩] : List (View.Piece (Elt F) S2000x300 .f32)), y ∈ pc.1.set :=
  View.cover_of_tiled [⟨r2_a, p0⟩] S2000x300.size (by rfl) y

set_option maxHeartbeats 1000000 in
/-- The body on whole staging memrefs: the six inputs kept, the output block at the normalised block. -/
theorem sound_kernel2 (c : Dev nD) (E : Set ℕ) (i : grid2.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__bn_norm_kernel i arg1 harg1 arg2 harg2 arg3 harg3 arg4 harg4 arg5 harg5 arg6 harg6 arg7 harg7) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the pipeline on core c: the arrays as the region finds them; after the body each input's
    buffer at its block and the output's at the normalised block of the point's blocks; the invariant the scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Reg3.lean ====
/-
  Region 3 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2000x300 := Rect.unit (s := S2000x300) ![0, 0] S2000x300.size inb_S2000x300_S2000x300_0_0
abbrev r3_o : Rect S2000x300 := Rect.unit (s := S2000x300) ![0, 0] S2000x300.size inb_S2000x300_S2000x300_0_0
abbrev r3_b : Rect S300x300 := Rect.unit (s := S300x300) ![0, 0] S300x300.size inb_S300x300_S300x300_0_0
abbrev r3_c : Rect S1x300 := Rect.unit (s := S1x300) ![0, 0] S1x300.size inb_S1x300_S1x300_0_0

/-- The output block after the body: its one whole-block store, of the product of the row block with the
    weights plus the bias row. -/
def out3_3 (x0 : Vec F S2000x300 .f32) (x1 : Vec F S300x300 .f32) (x2 : Vec F S1x300 .f32) : Vec F S2000x300 .f32 :=
  View.canon [⟨r3_o, k3_pay1 (View.ld x0 r3_a) (View.ld x1 r3_b) (View.ld x2 r3_c)⟩]

theorem cover3_3 (p0 : Vec F S2000x300 .f32) (y : S2000x300.Idx) :
    ∃ pc ∈ ([⟨r3_o, p0⟩] : List (View.Piece (Elt F) S2000x300 .f32)), y ∈ pc.1.set :=
  View.cover_of_tiled [⟨r3_o, p0⟩] S2000x300.size (by rfl) y

set_option maxHeartbeats 1000000 in
/-- The body on whole staging memrefs: the three inputs kept, the output block at the product. -/
theorem sound_kernel3 (c : Dev nD) (E : Set ℕ) (i : grid3.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__matmul_kernel i arg1 harg1 arg2 harg2 arg3 harg3 arg4 harg4) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the pipeline on core c: the arrays as the region finds them; after the body each input's
    buffer at its block and the output's at the product of the point's blocks; the invariant the scoped rest and
    the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Reg4.lean ====
/-
  Region 4 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond4_0 (i : grid4.Coords) : Prop :=
  (Scalar.cmpi .ne (Scalar.extui (Scalar.cmpi .eq (BitVec.ofNat 32 (i 0).val) 0#32)) 0#32) = 1#1
/-- the second (the two output rows computed and stored) at its last point only. -/
abbrev cond4_1 (i : grid4.Coords) : Prop := k4_cond2 i = 1#1

/-- The zero offsets of a rank-2 rectangle, as the constant function. -/
theorem off4_zero : (![0, 0] : Fin 2 → ℕ) = fun _ => 0 := by
  funext a; fin_cases a <;> rfl

/-- A load of a whole buffer through the whole-shape rectangle reads its contents. -/
theorem readAt_whole4 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole4 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel4_B (c : Dev nD) (E : Set ℕ) (i : grid4.Coords) (hc0 : ¬cond4_0 i) (hc1 : ¬cond4_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  iexists _; isplitr
  swap; · iexact H5
  ipureintro
  sl_unfold_run_names
  rw [read_store_whole4 (s := S1x300) _ _ off4_zero]
  simp only [View.readCov_unit_zero (S := S1x300) _ off4_zero, readAt_whole4 (s := S2000x300) _ _ off4_zero, readAt_whole4 (s := S1x300) _ _ off4_zero]

set_option maxHeartbeats 1000000 in
/-- The body at the first point, on whole memrefs: the two running rows, found at anything, are reset and then
    accumulate the point's block. -/
theorem sound_kernel4_A (c : Dev nD) (E : Set ℕ) (i : grid4.Coords) (hc0 : cond4_0 i) (hc1 : ¬cond4_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k4_pay4 x b (k4_pay1 (F := F))) ∗ owns (c : Thread nD τ) arg6 fullShare (k4_pay5 x b (k4_pay2 (F := F)))) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  iexists _; isplitr
  swap; · iexact H5
  ipureintro
  sl_unfold_run_names
  rw [read_store_whole4 (s := S1x300) _ _ off4_zero]
  simp only [View.readCov_unit_zero (S := S1x300) _ off4_zero, readAt_whole4 (s := S2000x300) _ _ off4_zero, readAt_whole4 (s := S1x300) _ _ off4_zero]

set_option maxHeartbeats 1000000 in
/-- The body at the last point, on whole memrefs: the two running rows accumulate the point's block, and the two
    output rows, found at anything, are stored from them (the mean row; the mean of squares less the squared mean). -/
theorem sound_kernel4_C (c : Dev nD) (E : Set ℕ) (i : grid4.Coords) (hc0 : ¬cond4_0 i) (hc1 : cond4_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k4_pay6 (k4_pay4 x b s0))
            ∗ owns (c : Thread nD τ) arg4 fullShare (k4_pay7 (k4_pay4 x b s0) (k4_pay5 x b s1))
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_stats_kernel i arg1 harg1 arg2 harg2 arg3 harg3 arg4 harg4 arg5 harg5 arg6 harg6) K := by
  simp only [cc4__bn_stats_kernel_eq_skeleton]; unfold cc4__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  isplitl [H3]
  · iexists _; isplitr
    swap; · iexact H3
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  isplitl [H4]
  · iexists _; isplitr
    swap; · iexact H4
    ipureintro
    sl_unfold_run_names
    rw [read_store_whole4 (s := S1x300) _ _ off4_zero]
    simp only [View.readCov_unit_zero (S := S1x300) _ off4_zero, readAt_whole4 (s := S2000x300) _ _ off4_zero, readAt_whole4 (s := S1x300) _ _ off4_zero]
  iexists _; isplitr
  swap; · iexact H5
  ipureintro
  sl_unfold_run_names
  rw [read_store_whole4 (s := S1x300) _ _ off4_zero]
  simp only [View.readCov_unit_zero (S := S1x300) _ off4_zero, readAt_whole4 (s := S2000x300) _ _ off4_zero, readAt_whole4 (s := S1x300) _ _ off4_zero]

/-! ## Where the branches are taken and where the output windows are idle -/

/-- The reset is taken at the first point only; -/
theorem hcond4_0 : ∀ t : Fin cfg4.N, cond4_0 (grid4.coords t) ↔ t.val = 0 :=
  (by decide +kernel : ∀ t : Fin grid4.N, cond4_0 (grid4.coords t) ↔ t.val = 0)
/-- the output rows are stored at the last point only. -/
theorem hcond4_1 : ∀ t : Fin cfg4.N, cond4_1 (grid4.coords t) ↔ t.val = 49 :=
  (by decide +kernel : ∀ t : Fin grid4.N, cond4_1 (grid4.coords t) ↔ t.val = 49)

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Before the last point the two output windows are idle (the body stores nothing into them) and are not written back; -/
theorem idleAt4_2 : ∀ t : Fin cfg4.N, ¬cond4_1 (grid4.coords t) → cfg4.idle 2 (grid4.coords t) = true := by decide +kernel
theorem idleAt4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
/-- at the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The blocks and the running rows -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The two running rows (column sums, column sums of squares) after n points: the reset values, then point by
    point the accumulation of the point's row block and bias row. Past the grid's end nothing changes. -/
def sacc4 (c : Dev nD) : ℕ → Vec F S1x300 .f32 × Vec F S1x300 .f32
  | 0 => (k4_pay1, k4_pay2)
  | n + 1 =>
    if h : n < cfg4.N then
      (k4_pay4 (iblk4 V c 0 ⟨n, h⟩) (iblk4 V c 1 ⟨n, h⟩) (sacc4 c n).1,
       k4_pay5 (iblk4 V c 0 ⟨n, h⟩) (iblk4 V c 1 ⟨n, h⟩) (sacc4 c n).2)
    else sacc4 c n

theorem sacc4_zero (c : Dev nD) : sacc4 V c 0 = (k4_pay1, k4_pay2) := rfl

theorem sacc4_succ (c : Dev nD) (n : ℕ) (h : n < 50) :
    sacc4 V c (n + 1)
      = (k4_pay4 (iblk4 V c 0 ⟨n, lt_of_lt_of_eq h N_4.symm⟩) (iblk4 V c 1 ⟨n, lt_of_lt_of_eq h N_4.symm⟩) (sacc4 V c n).1,
         k4_pay5 (iblk4 V c 0 ⟨n, lt_of_lt_of_eq h N_4.symm⟩) (iblk4 V c 1 ⟨n, lt_of_lt_of_eq h N_4.symm⟩) (sacc4 V c n).2) := by
  rw [sacc4]; exact dif_pos (lt_of_lt_of_eq h N_4.symm)

/-- The same at a grid point: after point t, the rows before it accumulated with t's blocks. -/
theorem sacc4_at (c : Dev nD) (t : Fin cfg4.N) :
    sacc4 V c (t.val + 1)
      = (k4_pay4 (iblk4 V c 0 t) (iblk4 V c 1 t) (sacc4 V c t.val).1, k4_pay5 (iblk4 V c 0 t) (iblk4 V c 1 t) (sacc4 V c t.val).2) := by
  rw [sacc4]; exact dif_pos t.isLt

/-! ## The invariant -/

/-- The two scratch operands: whole scoped buffers of the kernel's own, passed beside the windows. -/
abbrev sc4_0 : Memref sig .tc .vmem S1x300 .f32 := Memref.whole cc4_scratch0
abbrev sc4_1 : Memref sig .tc .vmem S1x300 .f32 := Memref.whole cc4_scratch1

/-- The region invariant before position n: the scoped buffers other than the two scratch rows and the staging
    buffers, at anything; the generator register at some state; the two scratch rows owned whole — before the first
    point at anything, afterwards at the running rows after n points. -/
def Phi4 (c : Dev nD) : ℕ → sProp 𝕄
  | 0 => iprop(Pipeline.scopedRestBut (Ix := Unit) (Name := ℕ) (U := UR sig nD τ) (Lvl := ℕ) (Val := Elt F) spec4 c [cc4_scratch0, cc4_scratch1]
      ∗ (∃ r, prngReg c r)
      ∗ (∃ d, owns (c : Thread nD τ) sc4_0 fullShare d) ∗ (∃ d, owns (c : Thread nD τ) sc4_1 fullShare d))
  | n + 1 => iprop(Pipeline.scopedRestBut (Ix := Unit) (Name := ℕ) (U := UR sig nD τ) (Lvl := ℕ) (Val := Elt F) spec4 c [cc4_scratch0, cc4_scratch1]
      ∗ (∃ r, prngReg c r)
      ∗ owns (c : Thread nD τ) sc4_0 fullShare (sacc4 V c (n + 1)).1 ∗ owns (c : Thread nD τ) sc4_1 fullShare (sacc4 V c (n + 1)).2)

theorem Phi4_zero (c : Dev nD) (n : ℕ) (hz : n = 0) :
    Phi4 V c n = iprop(Pipeline.scopedRestBut (Ix := Unit) (Name := ℕ) (U := UR sig nD τ) (Lvl := ℕ) (Val := Elt F) spec4 c [cc4_scratch0, cc4_scratch1]
      ∗ (∃ r, prngReg c r)
      ∗ (∃ d, owns (c : Thread nD τ) sc4_0 fullShare d) ∗ (∃ d, owns (c : Thread nD τ) sc4_1 fullShare d)) := by
  subst hz; rfl

theorem Phi4_pos (c : Dev nD) (n : ℕ) (hz : n ≠ 0) :
    Phi4 V c n = iprop(Pipeline.scopedRestBut (Ix := Unit) (Name := ℕ) (U := UR sig nD τ) (Lvl := ℕ) (Val := Elt F) spec4 c [cc4_scratch0, cc4_scratch1]
      ∗ (∃ r, prngReg c r)
      ∗ owns (c : Thread nD τ) sc4_0 fullShare (sacc4 V c n).1 ∗ owns (c : Thread nD τ) sc4_1 fullShare (sacc4 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (sacc4 V c 50).1
    | ⟨3, _⟩ => k4_pay7 (sacc4 V c 50).1 (sacc4 V c 50).2
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay6 (sacc4 V c 50).1 := by dsimp only [dat4]
theorem after4_3 (c : Dev nD) (t : Fin cfg4.N) :
    (dat4 V c).after 3 t = k4_pay7 (sacc4 V c 50).1 (sacc4 V c 50).2 := by dsimp only [dat4]

/-- What the write-back at the last point writes: the two output rows. -/
theorem after4_2_last (c : Dev nD) : (dat4 V c).after 2 ⟨49, by decide⟩ = k4_pay6 (sacc4 V c 50).1 := after4_2 V c _
theorem after4_3_last (c : Dev nD) :
    (dat4 V c).after 3 ⟨49, by decide⟩ = k4_pay7 (sacc4 V c 50).1 (sacc4 V c 50).2 := after4_3 V c _

/-- The same at the last point, over the running rows after it. -/
theorem after4_2_at (c : Dev nD) (t : Fin cfg4.N) (h : t.val = 49) :
    (dat4 V c).after 2 t = k4_pay6 (sacc4 V c (t.val + 1)).1 := by rw [after4_2, h]
theorem after4_3_at (c : Dev nD) (t : Fin cfg4.N) (h : t.val = 49) :
    (dat4 V c).after 3 t = k4_pay7 (sacc4 V c (t.val + 1)).1 (sacc4 V c (t.val + 1)).2 := by rw [after4_3, h]

theorem Phi4_castSucc (c : Dev nD) (t : Fin cfg4.N) : (dat4 V c).Φ t.castSucc = Phi4 V c t.val := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: an output window idle at the point handed back as it was found. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = Phi4 V c (t.val + 1) from rfl, Phi4_castSucc,
    show (dat4 V c).leavesExact 0 t = owns (c : Thread nD τ) (st4_0 t) fullShare ((dat4 V c).after 0 t) from by
      unfold Dat.leavesExact; rw [liveAt4_0 t],
    show (dat4 V c).leavesExact 1 t = owns (c : Thread nD τ) (st4_1 t) fullShare ((dat4 V c).after 1 t) from by
      unfold Dat.leavesExact; rw [liveAt4_1 t],
    after4_0, after4_1]
  have hN : t.val < 50 := lt_of_lt_of_eq t.isLt N_4
  by_cases hfirst : t.val = 0
  · -- the first point: reset, then accumulate
    have hreset : cond4_0 (grid4.coords t) := (hcond4_0 t).mpr hfirst
    have hnolast : ¬cond4_1 (grid4.coords t) := fun h => by have := (hcond4_1 t).mp h; omega
    have hs : sacc4 V c t.val = (k4_pay1, k4_pay2) := by rw [hfirst]; rfl
    rw [Dat.leavesExact_idle (dat4 V c) 2 t (idleAt4_2 t hnolast) (noFlush4_2 t hnolast),
      Dat.leavesExact_idle (dat4 V c) 3 t (idleAt4_3 t hnolast) (noFlush4_3 t hnolast),
      Phi4_zero V c _ hfirst, Phi4_pos V c (t.val + 1) (Nat.succ_ne_zero _)]
    simp only [sacc4_at, hs]
    iintro ⟨⟨HR, Hg, ⟨%e0, HS0⟩, ⟨%e1, HS1⟩⟩, Ho, ⟨%d0, H0⟩, ⟨%d1, H1⟩, H2, H3⟩
    iapply (sound_kernel4_A c Set.univ _ hreset hnolast _ _ _ _ _ _ _ _ _ _ _ _ (iblk4 V c 0 t) (iblk4 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond4_0 (grid4.coords t) := fun h => hfirst ((hcond4_0 t).mp h)
    by_cases hlast : t.val = 49
    · -- the last point: accumulate, then the two output rows
      have hstore : cond4_1 (grid4.coords t) := (hcond4_1 t).mpr hlast
      rw [show (dat4 V c).leavesExact 2 t = owns (c : Thread nD τ) (st4_2 t) fullShare ((dat4 V c).after 2 t) from by
          unfold Dat.leavesExact; rw [liveAt4_2 t hstore],
        show (dat4 V c).leavesExact 3 t = owns (c : Thread nD τ) (st4_3 t) fullShare ((dat4 V c).after 3 t) from by
          unfold Dat.leavesExact; rw [liveAt4_3 t hstore],
        after4_2_at V c t hlast, after4_3_at V c t hlast,
        Phi4_pos V c _ hfirst, Phi4_pos V c (t.val + 1) (Nat.succ_ne_zero _)]
      simp only [sacc4_at]
      iintro ⟨⟨HR, Hg, HS0, HS1⟩, Ho, ⟨%d0, H0⟩, ⟨%d1, H1⟩, ⟨%d2, H2⟩, ⟨%d3, H3⟩⟩
      iapply (sound_kernel4_C c Set.univ _ hnoreset hstore _ _ _ _ _ _ _ _ _ _ _ _ (iblk4 V c 0 t) (iblk4 V c 1 t)
        (sacc4 V c t.val).1 (sacc4 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond4_1 (grid4.coords t) := fun h => hlast ((hcond4_1 t).mp h)
      rw [Dat.leavesExact_idle (dat4 V c) 2 t (idleAt4_2 t hnolast) (noFlush4_2 t hnolast),
        Dat.leavesExact_idle (dat4 V c) 3 t (idleAt4_3 t hnolast) (noFlush4_3 t hnolast),
        Phi4_pos V c _ hfirst, Phi4_pos V c (t.val + 1) (Nat.succ_ne_zero _)]
      simp only [sacc4_at]
      iintro ⟨⟨HR, Hg, HS0, HS1⟩, Ho, ⟨%d0, H0⟩, ⟨%d1, H1⟩, H2, H3⟩
      iapply (sound_kernel4_B c Set.univ _ hnoreset hnolast _ _ _ _ _ _ _ _ _ _ _ _ (iblk4 V c 0 t) (iblk4 V c 1 t)
        (sacc4 V c t.val).1 (sacc4 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- The region enters the invariant: the two scratch rows are taken out of the scoped rest, at anything; what else
    is handed beside the generator register and the scoped rest is dropped. -/
theorem hin4 (c : Dev nD) (P : sProp 𝕄) :
    iprop((∃ r, prngReg c r) ∗ P ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, Phi4_zero V c 0 rfl, scopedRest4_split]
  simp only [sc4_0, sc4_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl,
    Phi4_pos V c _ (by rw [Fin.val_last]; have : cfg4.N = 50 := N_4; omega), scopedRest4_split]
  simp only [sc4_0, sc4_1, owns_whole]
  iintro ⟨HR, Hg, HS0, HS1⟩
  isplitl [Hg]; · iexact Hg
  isplitl [HS0 HS1]
  · isplitl [HS0]
    · iexists _; iexact HS0
    iexists _; iexact HS1
  iexact HR

end Cert.KernelIdeal.Reg

end
-- ==== Proof.KI.Reg5.lean ====
/-
  Region 5 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_a : Rect S2000x300 := Rect.unit (s := S2000x300) ![0, 0] S2000x300.size inb_S2000x300_S2000x300_0_0
abbrev r5_c : Rect S1x300 := Rect.unit (s := S1x300) ![0, 0] S1x300.size inb_S1x300_S1x300_0_0

/-- The output block after the body: its one whole-block store, of the normalised and rectified row block. -/
def out5_6 (x0 : Vec F S2000x300 .f32) (x1 x2 x3 x4 x5 : Vec F S1x300 .f32) : Vec F S2000x300 .f32 :=
  View.canon [⟨r5_a, k5_pay1 (View.ld x0 r5_a) (View.ld x1 r5_c) (View.ld x2 r5_c) (View.ld x3 r5_c) (View.ld x4 r5_c) (View.ld x5 r5_c)⟩]

theorem cover5_6 (p0 : Vec F S2000x300 .f32) (y : S2000x300.Idx) :
    ∃ pc ∈ ([⟨r5_a, p0⟩] : List (View.Piece (Elt F) S2000x300 .f32)), y ∈ pc.1.set :=
  View.cover_of_tiled [⟨r5_a, p0⟩] S2000x300.size (by rfl) y

set_option maxHeartbeats 1000000 in
/-- The body on whole staging memrefs: the six inputs kept, the output block at the normalised block. -/
theorem sound_kernel5 (c : Dev nD) (E : Set ℕ) (i : grid5.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__bn_norm_kernel i arg1 harg1 arg2 harg2 arg3 harg3 arg4 harg4 arg5 harg5 arg6 harg6 arg7 harg7) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of the pipeline on core c: the arrays as the region finds them; after the body each input's
    buffer at its block and the output's at the normalised block of the point's blocks; the invariant the scoped
    rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KI.Reg6.lean ====
/-
  Region 6 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S2000x300 := Rect.unit (s := S2000x300) ![0, 0] S2000x300.size inb_S2000x300_S2000x300_0_0
abbrev r6_o : Rect S2000x300 := Rect.unit (s := S2000x300) ![0, 0] S2000x300.size inb_S2000x300_S2000x300_0_0
abbrev r6_b : Rect S300x300 := Rect.unit (s := S300x300) ![0, 0] S300x300.size inb_S300x300_S300x300_0_0
abbrev r6_c : Rect S1x300 := Rect.unit (s := S1x300) ![0, 0] S1x300.size inb_S1x300_S1x300_0_0

/-- The output block after the body: its one whole-block store, of the product of the row block with the
    weights plus the bias row. -/
def out6_3 (x0 : Vec F S2000x300 .f32) (x1 : Vec F S300x300 .f32) (x2 : Vec F S1x300 .f32) : Vec F S2000x300 .f32 :=
  View.canon [⟨r6_o, k6_pay1 (View.ld x0 r6_a) (View.ld x1 r6_b) (View.ld x2 r6_c)⟩]

theorem cover6_3 (p0 : Vec F S2000x300 .f32) (y : S2000x300.Idx) :
    ∃ pc ∈ ([⟨r6_o, p0⟩] : List (View.Piece (Elt F) S2000x300 .f32)), y ∈ pc.1.set :=
  View.cover_of_tiled [⟨r6_o, p0⟩] S2000x300.size (by rfl) y

set_option maxHeartbeats 1000000 in
/-- The body on whole staging memrefs: the three inputs kept, the output block at the product. -/
theorem sound_kernel6 (c : Dev nD) (E : Set ℕ) (i : grid6.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of the pipeline on core c: the arrays as the region finds them; after the body each input's
    buffer at its block and the output's at the product of the point's blocks; the invariant the scoped rest and
    the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KI.Reg7.lean ====
/-
  Region 7 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond7_0 (i : grid7.Coords) : Prop :=
  (Scalar.cmpi .ne (Scalar.extui (Scalar.cmpi .eq (BitVec.ofNat 32 (i 0).val) 0#32)) 0#32) = 1#1
/-- the second (the two output rows computed and stored) at its last point only. -/
abbrev cond7_1 (i : grid7.Coords) : Prop := k7_cond2 i = 1#1

/-- The zero offsets of a rank-2 rectangle, as the constant function. -/
theorem off7_zero : (![0, 0] : Fin 2 → ℕ) = fun _ => 0 := by
  funext a; fin_cases a <;> rfl

/-- A load of a whole buffer through the whole-shape rectangle reads its contents. -/
theorem readAt_whole7 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole7 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel7_B (c : Dev nD) (E : Set ℕ) (i : grid7.Coords) (hc0 : ¬cond7_0 i) (hc1 : ¬cond7_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k7_pay4 x b s0) ∗ owns (c : Thread nD τ) arg6 fullShare (k7_pay5 x b s1)) -∗ K ⟨⟩))
      ⊢ wp frame (wpE (defs₀ (F := F)) Variants.none c none) E (cc7__bn_stats_kernel i arg1 harg1 arg2 harg2 arg3 harg3 arg4 harg4 arg5 harg5 arg6 harg6) K := by
  simp only [cc7__bn_stats_kernel_eq_skeleton]; unfold cc7__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  iexists _; isplitr
  swap; · iexact H5
  ipureintro
  sl_unfold_run_names
  rw [read_store_whole7 (s := S1x300) _ _ off7_zero]
  simp only [View.readCov_unit_zero (S := S1x300) _ off7_zero, readAt_whole7 (s := S2000x300) _ _ off7_zero, readAt_whole7 (s := S1x300) _ _ off7_zero]

set_option maxHeartbeats 1000000 in
/-- The body at the first point, on whole memrefs: the two running rows, found at anything, are reset and then
    accumulate the point's block. -/
theorem sound_kernel7_A (c : Dev nD) (E : Set ℕ) (i : grid7.Coords) (hc0 : cond7_0 i) (hc1 : ¬cond7_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k7_pay4 x b (k7_pay1 (F := F))) ∗ owns (c : Thread nD τ) arg6 fullShare (k7_pay5 x b (k7_pay2 (F := F)))) -∗ K ⟨⟩))
      ⊢ wp frame (wpE (defs₀ (F := F)) Variants.none c none) E (cc7__bn_stats_kernel i arg1 harg1 arg2 harg2 arg3 harg3 arg4 harg4 arg5 harg5 arg6 harg6) K := by
  simp only [cc7__bn_stats_kernel_eq_skeleton]; unfold cc7__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  iexists _; isplitr
  swap; · iexact H5
  ipureintro
  sl_unfold_run_names
  rw [read_store_whole7 (s := S1x300) _ _ off7_zero]
  simp only [View.readCov_unit_zero (S := S1x300) _ off7_zero, readAt_whole7 (s := S2000x300) _ _ off7_zero, readAt_whole7 (s := S1x300) _ _ off7_zero]

set_option maxHeartbeats 1000000 in
/-- The body at the last point, on whole memrefs: the two running rows accumulate the point's block, and the two
    output rows, found at anything, are stored from them (the mean row; the mean of squares less the squared mean). -/
theorem sound_kernel7_C (c : Dev nD) (E : Set ℕ) (i : grid7.Coords) (hc0 : ¬cond7_0 i) (hc1 : cond7_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k7_pay6 (k7_pay4 x b s0))
            ∗ owns (c : Thread nD τ) arg4 fullShare (k7_pay7 (k7_pay4 x b s0) (k7_pay5 x b s1))
            ∗ owns (c : Thread nD τ) arg5 fullShare (k7_pay4 x b s0) ∗ owns (c : Thread nD τ) arg6 fullShare (k7_pay5 x b s1)) -∗ K ⟨⟩))
      ⊢ wp frame (wpE (defs₀ (F := F)) Variants.none c none) E (cc7__bn_stats_kernel i arg1 harg1 arg2 harg2 arg3 harg3 arg4 harg4 arg5 harg5 arg6 harg6) K := by
  simp only [cc7__bn_stats_kernel_eq_skeleton]; unfold cc7__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  isplitl [H3]
  · iexists _; isplitr
    swap; · iexact H3
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  isplitl [H4]
  · iexists _; isplitr
    swap; · iexact H4
    ipureintro
    sl_unfold_run_names
    rw [read_store_whole7 (s := S1x300) _ _ off7_zero]
    simp only [View.readCov_unit_zero (S := S1x300) _ off7_zero, readAt_whole7 (s := S2000x300) _ _ off7_zero, readAt_whole7 (s := S1x300) _ _ off7_zero]
  iexists _; isplitr
  swap; · iexact H5
  ipureintro
  sl_unfold_run_names
  rw [read_store_whole7 (s := S1x300) _ _ off7_zero]
  simp only [View.readCov_unit_zero (S := S1x300) _ off7_zero, readAt_whole7 (s := S2000x300) _ _ off7_zero, readAt_whole7 (s := S1x300) _ _ off7_zero]

/-! ## Where the branches are taken and where the output windows are idle -/

/-- The reset is taken at the first point only; -/
theorem hcond7_0 : ∀ t : Fin cfg7.N, cond7_0 (grid7.coords t) ↔ t.val = 0 :=
  (by decide +kernel : ∀ t : Fin grid7.N, cond7_0 (grid7.coords t) ↔ t.val = 0)
/-- the output rows are stored at the last point only. -/
theorem hcond7_1 : ∀ t : Fin cfg7.N, cond7_1 (grid7.coords t) ↔ t.val = 49 :=
  (by decide +kernel : ∀ t : Fin grid7.N, cond7_1 (grid7.coords t) ↔ t.val = 49)

/-- The two input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Before the last point the two output windows are idle (the body stores nothing into them) and are not written back; -/
theorem idleAt7_2 : ∀ t : Fin cfg7.N, ¬cond7_1 (grid7.coords t) → cfg7.idle 2 (grid7.coords t) = true := by decide +kernel
theorem idleAt7_3 : ∀ t : Fin cfg7.N, ¬cond7_1 (grid7.coords t) → cfg7.idle 3 (grid7.coords t) = true := by decide +kernel
theorem noFlush7_2 : ∀ t : Fin cfg7.N, ¬cond7_1 (grid7.coords t) → (cfg7.win 2).flush t = false := by decide +kernel
theorem noFlush7_3 : ∀ t : Fin cfg7.N, ¬cond7_1 (grid7.coords t) → (cfg7.win 3).flush t = false := by decide +kernel
/-- at the last point they are live. -/
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## The blocks and the running rows -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The two running rows (column sums, column sums of squares) after n points: the reset values, then point by
    point the accumulation of the point's row block and bias row. Past the grid's end nothing changes. -/
def sacc7 (c : Dev nD) : ℕ → Vec F S1x300 .f32 × Vec F S1x300 .f32
  | 0 => (k7_pay1, k7_pay2)
  | n + 1 =>
    if h : n < cfg7.N then
      (k7_pay4 (iblk7 V c 0 ⟨n, h⟩) (iblk7 V c 1 ⟨n, h⟩) (sacc7 c n).1,
       k7_pay5 (iblk7 V c 0 ⟨n, h⟩) (iblk7 V c 1 ⟨n, h⟩) (sacc7 c n).2)
    else sacc7 c n

theorem sacc7_zero (c : Dev nD) : sacc7 V c 0 = (k7_pay1, k7_pay2) := rfl

theorem sacc7_succ (c : Dev nD) (n : ℕ) (h : n < 50) :
    sacc7 V c (n + 1)
      = (k7_pay4 (iblk7 V c 0 ⟨n, lt_of_lt_of_eq h N_7.symm⟩) (iblk7 V c 1 ⟨n, lt_of_lt_of_eq h N_7.symm⟩) (sacc7 V c n).1,
         k7_pay5 (iblk7 V c 0 ⟨n, lt_of_lt_of_eq h N_7.symm⟩) (iblk7 V c 1 ⟨n, lt_of_lt_of_eq h N_7.symm⟩) (sacc7 V c n).2) := by
  rw [sacc7]; exact dif_pos (lt_of_lt_of_eq h N_7.symm)

/-- The same at a grid point: after point t, the rows before it accumulated with t's blocks. -/
theorem sacc7_at (c : Dev nD) (t : Fin cfg7.N) :
    sacc7 V c (t.val + 1)
      = (k7_pay4 (iblk7 V c 0 t) (iblk7 V c 1 t) (sacc7 V c t.val).1, k7_pay5 (iblk7 V c 0 t) (iblk7 V c 1 t) (sacc7 V c t.val).2) := by
  rw [sacc7]; exact dif_pos t.isLt

/-! ## The invariant -/

/-- The two scratch operands: whole scoped buffers of the kernel's own, passed beside the windows. -/
abbrev sc7_0 : Memref sig .tc .vmem S1x300 .f32 := Memref.whole cc7_scratch0
abbrev sc7_1 : Memref sig .tc .vmem S1x300 .f32 := Memref.whole cc7_scratch1

/-- The region invariant before position n: the scoped buffers other than the two scratch rows and the staging
    buffers, at anything; the generator register at some state; the two scratch rows owned whole — before the first
    point at anything, afterwards at the running rows after n points. -/
def Phi7 (c : Dev nD) : ℕ → sProp 𝕄
  | 0 => iprop(Pipeline.scopedRestBut (Ix := Unit) (Name := ℕ) (U := UR sig nD τ) (Lvl := ℕ) (Val := Elt F) spec7 c [cc7_scratch0, cc7_scratch1]
      ∗ (∃ r, prngReg c r)
      ∗ (∃ d, owns (c : Thread nD τ) sc7_0 fullShare d) ∗ (∃ d, owns (c : Thread nD τ) sc7_1 fullShare d))
  | n + 1 => iprop(Pipeline.scopedRestBut (Ix := Unit) (Name := ℕ) (U := UR sig nD τ) (Lvl := ℕ) (Val := Elt F) spec7 c [cc7_scratch0, cc7_scratch1]
      ∗ (∃ r, prngReg c r)
      ∗ owns (c : Thread nD τ) sc7_0 fullShare (sacc7 V c (n + 1)).1 ∗ owns (c : Thread nD τ) sc7_1 fullShare (sacc7 V c (n + 1)).2)

theorem Phi7_zero (c : Dev nD) (n : ℕ) (hz : n = 0) :
    Phi7 V c n = iprop(Pipeline.scopedRestBut (Ix := Unit) (Name := ℕ) (U := UR sig nD τ) (Lvl := ℕ) (Val := Elt F) spec7 c [cc7_scratch0, cc7_scratch1]
      ∗ (∃ r, prngReg c r)
      ∗ (∃ d, owns (c : Thread nD τ) sc7_0 fullShare d) ∗ (∃ d, owns (c : Thread nD τ) sc7_1 fullShare d)) := by
  subst hz; rfl

theorem Phi7_pos (c : Dev nD) (n : ℕ) (hz : n ≠ 0) :
    Phi7 V c n = iprop(Pipeline.scopedRestBut (Ix := Unit) (Name := ℕ) (U := UR sig nD τ) (Lvl := ℕ) (Val := Elt F) spec7 c [cc7_scratch0, cc7_scratch1]
      ∗ (∃ r, prngReg c r)
      ∗ owns (c : Thread nD τ) sc7_0 fullShare (sacc7 V c n).1 ∗ owns (c : Thread nD τ) sc7_1 fullShare (sacc7 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay6 (sacc7 V c 50).1
    | ⟨3, _⟩ => k7_pay7 (sacc7 V c 50).1 (sacc7 V c 50).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay6 (sacc7 V c 50).1 := by dsimp only [dat7]
theorem after7_3 (c : Dev nD) (t : Fin cfg7.N) :
    (dat7 V c).after 3 t = k7_pay7 (sacc7 V c 50).1 (sacc7 V c 50).2 := by dsimp only [dat7]

/-- What the write-back at the last point writes: the two output rows. -/
theorem after7_2_last (c : Dev nD) : (dat7 V c).after 2 ⟨49, by decide⟩ = k7_pay6 (sacc7 V c 50).1 := after7_2 V c _
theorem after7_3_last (c : Dev nD) :
    (dat7 V c).after 3 ⟨49, by decide⟩ = k7_pay7 (sacc7 V c 50).1 (sacc7 V c 50).2 := after7_3 V c _

/-- The same at the last point, over the running rows after it. -/
theorem after7_2_at (c : Dev nD) (t : Fin cfg7.N) (h : t.val = 49) :
    (dat7 V c).after 2 t = k7_pay6 (sacc7 V c (t.val + 1)).1 := by rw [after7_2, h]
theorem after7_3_at (c : Dev nD) (t : Fin cfg7.N) (h : t.val = 49) :
    (dat7 V c).after 3 t = k7_pay7 (sacc7 V c (t.val + 1)).1 (sacc7 V c (t.val + 1)).2 := by rw [after7_3, h]

theorem Phi7_castSucc (c : Dev nD) (t : Fin cfg7.N) : (dat7 V c).Φ t.castSucc = Phi7 V c t.val := by
  dsimp only [dat7]; simp only [Fin.coe_castSucc]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: an output window idle at the point handed back as it was found. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl,
    show (dat7 V c).Φ t.succ = Phi7 V c (t.val + 1) from rfl, Phi7_castSucc,
    show (dat7 V c).leavesExact 0 t = owns (c : Thread nD τ) (st7_0 t) fullShare ((dat7 V c).after 0 t) from by
      unfold Dat.leavesExact; rw [liveAt7_0 t],
    show (dat7 V c).leavesExact 1 t = owns (c : Thread nD τ) (st7_1 t) fullShare ((dat7 V c).after 1 t) from by
      unfold Dat.leavesExact; rw [liveAt7_1 t],
    after7_0, after7_1]
  have hN : t.val < 50 := lt_of_lt_of_eq t.isLt N_7
  by_cases hfirst : t.val = 0
  · -- the first point: reset, then accumulate
    have hreset : cond7_0 (grid7.coords t) := (hcond7_0 t).mpr hfirst
    have hnolast : ¬cond7_1 (grid7.coords t) := fun h => by have := (hcond7_1 t).mp h; omega
    have hs : sacc7 V c t.val = (k7_pay1, k7_pay2) := by rw [hfirst]; rfl
    rw [Dat.leavesExact_idle (dat7 V c) 2 t (idleAt7_2 t hnolast) (noFlush7_2 t hnolast),
      Dat.leavesExact_idle (dat7 V c) 3 t (idleAt7_3 t hnolast) (noFlush7_3 t hnolast),
      Phi7_zero V c _ hfirst, Phi7_pos V c (t.val + 1) (Nat.succ_ne_zero _)]
    simp only [sacc7_at, hs]
    iintro ⟨⟨HR, Hg, ⟨%e0, HS0⟩, ⟨%e1, HS1⟩⟩, Ho, ⟨%d0, H0⟩, ⟨%d1, H1⟩, H2, H3⟩
    iapply (sound_kernel7_A c Set.univ _ hreset hnolast _ _ _ _ _ _ _ _ _ _ _ _ (iblk7 V c 0 t) (iblk7 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond7_0 (grid7.coords t) := fun h => hfirst ((hcond7_0 t).mp h)
    by_cases hlast : t.val = 49
    · -- the last point: accumulate, then the two output rows
      have hstore : cond7_1 (grid7.coords t) := (hcond7_1 t).mpr hlast
      rw [show (dat7 V c).leavesExact 2 t = owns (c : Thread nD τ) (st7_2 t) fullShare ((dat7 V c).after 2 t) from by
          unfold Dat.leavesExact; rw [liveAt7_2 t hstore],
        show (dat7 V c).leavesExact 3 t = owns (c : Thread nD τ) (st7_3 t) fullShare ((dat7 V c).after 3 t) from by
          unfold Dat.leavesExact; rw [liveAt7_3 t hstore],
        after7_2_at V c t hlast, after7_3_at V c t hlast,
        Phi7_pos V c _ hfirst, Phi7_pos V c (t.val + 1) (Nat.succ_ne_zero _)]
      simp only [sacc7_at]
      iintro ⟨⟨HR, Hg, HS0, HS1⟩, Ho, ⟨%d0, H0⟩, ⟨%d1, H1⟩, ⟨%d2, H2⟩, ⟨%d3, H3⟩⟩
      iapply (sound_kernel7_C c Set.univ _ hnoreset hstore _ _ _ _ _ _ _ _ _ _ _ _ (iblk7 V c 0 t) (iblk7 V c 1 t)
        (sacc7 V c t.val).1 (sacc7 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond7_1 (grid7.coords t) := fun h => hlast ((hcond7_1 t).mp h)
      rw [Dat.leavesExact_idle (dat7 V c) 2 t (idleAt7_2 t hnolast) (noFlush7_2 t hnolast),
        Dat.leavesExact_idle (dat7 V c) 3 t (idleAt7_3 t hnolast) (noFlush7_3 t hnolast),
        Phi7_pos V c _ hfirst, Phi7_pos V c (t.val + 1) (Nat.succ_ne_zero _)]
      simp only [sacc7_at]
      iintro ⟨⟨HR, Hg, HS0, HS1⟩, Ho, ⟨%d0, H0⟩, ⟨%d1, H1⟩, H2, H3⟩
      iapply (sound_kernel7_B c Set.univ _ hnoreset hnolast _ _ _ _ _ _ _ _ _ _ _ _ (iblk7 V c 0 t) (iblk7 V c 1 t)
        (sacc7 V c t.val).1 (sacc7 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- The region enters the invariant: the two scratch rows are taken out of the scoped rest, at anything; what else
    is handed beside the generator register and the scoped rest is dropped. -/
theorem hin7 (c : Dev nD) (P : sProp 𝕄) :
    iprop((∃ r, prngReg c r) ∗ P ∗ Pipeline.scopedRest (Ix := Unit) (Name := ℕ) (U := UR sig nD τ) (Lvl := ℕ) (Val := Elt F) spec7 c)
      ⊢ (dat7 V c).Φ 0 := by
  rw [show (dat7 V c).Φ 0 = Phi7 V c 0 from rfl, Phi7_zero V c 0 rfl, scopedRest7_split]
  simp only [sc7_0, sc7_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout7 (c : Dev nD) :
    (dat7 V c).Φ (Fin.last cfg7.N)
      ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = Phi7 V c (Fin.last cfg7.N).val from rfl,
    Phi7_pos V c _ (by rw [Fin.val_last]; have : cfg7.N = 50 := N_7; omega), scopedRest7_split]
  simp only [sc7_0, sc7_1, owns_whole]
  iintro ⟨HR, Hg, HS0, HS1⟩
  isplitl [Hg]; · iexact Hg
  isplitl [HS0 HS1]
  · isplitl [HS0]
    · iexists _; iexact HS0
    iexists _; iexact HS1
  iexact HR

end Cert.KernelIdeal.Reg

end
-- ==== Proof.KI.Reg8.lean ====
/-
  Region 8 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

abbrev r8_a : Rect S2000x300 := Rect.unit (s := S2000x300) ![0, 0] S2000x300.size inb_S2000x300_S2000x300_0_0
abbrev r8_c : Rect S1x300 := Rect.unit (s := S1x300) ![0, 0] S1x300.size inb_S1x300_S1x300_0_0

/-- The output block after the body: its one whole-block store, of the normalised and rectified row block. -/
def out8_6 (x0 : Vec F S2000x300 .f32) (x1 x2 x3 x4 x5 : Vec F S1x300 .f32) : Vec F S2000x300 .f32 :=
  View.canon [⟨r8_a, k8_pay1 (View.ld x0 r8_a) (View.ld x1 r8_c) (View.ld x2 r8_c) (View.ld x3 r8_c) (View.ld x4 r8_c) (View.ld x5 r8_c)⟩]

theorem cover8_6 (p0 : Vec F S2000x300 .f32) (y : S2000x300.Idx) :
    ∃ pc ∈ ([⟨r8_a, p0⟩] : List (View.Piece (Elt F) S2000x300 .f32)), y ∈ pc.1.set :=
  View.cover_of_tiled [⟨r8_a, p0⟩] S2000x300.size (by rfl) y

set_option maxHeartbeats 1000000 in
/-- The body on whole staging memrefs: the six inputs kept, the output block at the normalised block. -/
theorem sound_kernel8 (c : Dev nD) (E : Set ℕ) (i : grid8.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__bn_norm_kernel i arg1 harg1 arg2 harg2 arg3 harg3 arg4 harg4 arg5 harg5 arg6 harg6 arg7 harg7) K := by
  simp only [cc8__bn_norm_kernel_eq_skeleton]; unfold cc8__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-- The proof data of the pipeline on core c: the arrays as the region finds them; after the body each input's
    buffer at its block and the output's at the normalised block of the point's blocks; the invariant the scoped
    rest and the generator register; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.KI.Reg9.lean ====
/-
  Region 9 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

abbrev r9_a : Rect S2000x300 := Rect.unit (s := S2000x300) ![0, 0] S2000x300.size inb_S2000x300_S2000x300_0_0
abbrev r9_o : Rect S2000x300 := Rect.unit (s := S2000x300) ![0, 0] S2000x300.size inb_S2000x300_S2000x300_0_0
abbrev r9_b : Rect S300x300 := Rect.unit (s := S300x300) ![0, 0] S300x300.size inb_S300x300_S300x300_0_0
abbrev r9_c : Rect S1x300 := Rect.unit (s := S1x300) ![0, 0] S1x300.size inb_S1x300_S1x300_0_0

/-- The output block after the body: its one whole-block store, of the product of the row block with the
    weights plus the bias row. -/
def out9_3 (x0 : Vec F S2000x300 .f32) (x1 : Vec F S300x300 .f32) (x2 : Vec F S1x300 .f32) : Vec F S2000x300 .f32 :=
  View.canon [⟨r9_o, k9_pay1 (View.ld x0 r9_a) (View.ld x1 r9_b) (View.ld x2 r9_c)⟩]

theorem cover9_3 (p0 : Vec F S2000x300 .f32) (y : S2000x300.Idx) :
    ∃ pc ∈ ([⟨r9_o, p0⟩] : List (View.Piece (Elt F) S2000x300 .f32)), y ∈ pc.1.set :=
  View.cover_of_tiled [⟨r9_o, p0⟩] S2000x300.size (by rfl) y

set_option maxHeartbeats 1000000 in
/-- The body on whole staging memrefs: the three inputs kept, the output block at the product. -/
theorem sound_kernel9 (c : Dev nD) (E : Set ℕ) (i : grid9.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__matmul_kernel i arg1 harg1 arg2 harg2 arg3 harg3 arg4 harg4) K := by
  simp only [cc9__matmul_kernel_eq_skeleton]; unfold cc9__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of the pipeline on core c: the arrays as the region finds them; after the body each input's
    buffer at its block and the output's at the product of the point's blocks; the invariant the scoped rest and
    the generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Reg

end
-- ==== Proof.KI.Reg10.lean ====
/-
  Region 10 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond10_0 (i : grid10.Coords) : Prop :=
  (Scalar.cmpi .ne (Scalar.extui (Scalar.cmpi .eq (BitVec.ofNat 32 (i 0).val) 0#32)) 0#32) = 1#1
/-- the second (the two output rows computed and stored) at its last point only. -/
abbrev cond10_1 (i : grid10.Coords) : Prop := k10_cond2 i = 1#1

/-- The zero offsets of a rank-2 rectangle, as the constant function. -/
theorem off10_zero : (![0, 0] : Fin 2 → ℕ) = fun _ => 0 := by
  funext a; fin_cases a <;> rfl

/-- A load of a whole buffer through the whole-shape rectangle reads its contents. -/
theorem readAt_whole10 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole10 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel10_B (c : Dev nD) (E : Set ℕ) (i : grid10.Coords) (hc0 : ¬cond10_0 i) (hc1 : ¬cond10_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k10_pay4 x b s0) ∗ owns (c : Thread nD τ) arg6 fullShare (k10_pay5 x b s1)) -∗ K ⟨⟩))
      ⊢ wp frame (wpE (defs₀ (F := F)) Variants.none c none) E (cc10__bn_stats_kernel i arg1 harg1 arg2 harg2 arg3 harg3 arg4 harg4 arg5 harg5 arg6 harg6) K := by
  simp only [cc10__bn_stats_kernel_eq_skeleton]; unfold cc10__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  iexists _; isplitr
  swap; · iexact H5
  ipureintro
  sl_unfold_run_names
  rw [read_store_whole10 (s := S1x300) _ _ off10_zero]
  simp only [View.readCov_unit_zero (S := S1x300) _ off10_zero, readAt_whole10 (s := S2000x300) _ _ off10_zero, readAt_whole10 (s := S1x300) _ _ off10_zero]

set_option maxHeartbeats 1000000 in
/-- The body at the first point, on whole memrefs: the two running rows, found at anything, are reset and then
    accumulate the point's block. -/
theorem sound_kernel10_A (c : Dev nD) (E : Set ℕ) (i : grid10.Coords) (hc0 : cond10_0 i) (hc1 : ¬cond10_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k10_pay4 x b (k10_pay1 (F := F))) ∗ owns (c : Thread nD τ) arg6 fullShare (k10_pay5 x b (k10_pay2 (F := F)))) -∗ K ⟨⟩))
      ⊢ wp frame (wpE (defs₀ (F := F)) Variants.none c none) E (cc10__bn_stats_kernel i arg1 harg1 arg2 harg2 arg3 harg3 arg4 harg4 arg5 harg5 arg6 harg6) K := by
  simp only [cc10__bn_stats_kernel_eq_skeleton]; unfold cc10__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  iexists _; isplitr
  swap; · iexact H5
  ipureintro
  sl_unfold_run_names
  rw [read_store_whole10 (s := S1x300) _ _ off10_zero]
  simp only [View.readCov_unit_zero (S := S1x300) _ off10_zero, readAt_whole10 (s := S2000x300) _ _ off10_zero, readAt_whole10 (s := S1x300) _ _ off10_zero]

set_option maxHeartbeats 1000000 in
/-- The body at the last point, on whole memrefs: the two running rows accumulate the point's block, and the two
    output rows, found at anything, are stored from them (the mean row; the mean of squares less the squared mean). -/
theorem sound_kernel10_C (c : Dev nD) (E : Set ℕ) (i : grid10.Coords) (hc0 : ¬cond10_0 i) (hc1 : cond10_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k10_pay6 (k10_pay4 x b s0))
            ∗ owns (c : Thread nD τ) arg4 fullShare (k10_pay7 (k10_pay4 x b s0) (k10_pay5 x b s1))
            ∗ owns (c : Thread nD τ) arg5 fullShare (k10_pay4 x b s0) ∗ owns (c : Thread nD τ) arg6 fullShare (k10_pay5 x b s1)) -∗ K ⟨⟩))
      ⊢ wp frame (wpE (defs₀ (F := F)) Variants.none c none) E (cc10__bn_stats_kernel i arg1 harg1 arg2 harg2 arg3 harg3 arg4 harg4 arg5 harg5 arg6 harg6) K := by
  simp only [cc10__bn_stats_kernel_eq_skeleton]; unfold cc10__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  isplitl [H3]
  · iexists _; isplitr
    swap; · iexact H3
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  isplitl [H4]
  · iexists _; isplitr
    swap; · iexact H4
    ipureintro
    sl_unfold_run_names
    rw [read_store_whole10 (s := S1x300) _ _ off10_zero]
    simp only [View.readCov_unit_zero (S := S1x300) _ off10_zero, readAt_whole10 (s := S2000x300) _ _ off10_zero, readAt_whole10 (s := S1x300) _ _ off10_zero]
  iexists _; isplitr
  swap; · iexact H5
  ipureintro
  sl_unfold_run_names
  rw [read_store_whole10 (s := S1x300) _ _ off10_zero]
  simp only [View.readCov_unit_zero (S := S1x300) _ off10_zero, readAt_whole10 (s := S2000x300) _ _ off10_zero, readAt_whole10 (s := S1x300) _ _ off10_zero]

/-! ## Where the branches are taken and where the output windows are idle -/

/-- The reset is taken at the first point only; -/
theorem hcond10_0 : ∀ t : Fin cfg10.N, cond10_0 (grid10.coords t) ↔ t.val = 0 :=
  (by decide +kernel : ∀ t : Fin grid10.N, cond10_0 (grid10.coords t) ↔ t.val = 0)
/-- the output rows are stored at the last point only. -/
theorem hcond10_1 : ∀ t : Fin cfg10.N, cond10_1 (grid10.coords t) ↔ t.val = 49 :=
  (by decide +kernel : ∀ t : Fin grid10.N, cond10_1 (grid10.coords t) ↔ t.val = 49)

/-- The two input windows are never idle. -/
theorem liveAt10_0 : ∀ t : Fin cfg10.N, cfg10.idle 0 (grid10.coords t) = false := by decide +kernel
theorem liveAt10_1 : ∀ t : Fin cfg10.N, cfg10.idle 1 (grid10.coords t) = false := by decide +kernel
/-- Before the last point the two output windows are idle (the body stores nothing into them) and are not written back; -/
theorem idleAt10_2 : ∀ t : Fin cfg10.N, ¬cond10_1 (grid10.coords t) → cfg10.idle 2 (grid10.coords t) = true := by decide +kernel
theorem idleAt10_3 : ∀ t : Fin cfg10.N, ¬cond10_1 (grid10.coords t) → cfg10.idle 3 (grid10.coords t) = true := by decide +kernel
theorem noFlush10_2 : ∀ t : Fin cfg10.N, ¬cond10_1 (grid10.coords t) → (cfg10.win 2).flush t = false := by decide +kernel
theorem noFlush10_3 : ∀ t : Fin cfg10.N, ¬cond10_1 (grid10.coords t) → (cfg10.win 3).flush t = false := by decide +kernel
/-- at the last point they are live. -/
theorem liveAt10_2 : ∀ t : Fin cfg10.N, cond10_1 (grid10.coords t) → cfg10.idle 2 (grid10.coords t) = false := by decide +kernel
theorem liveAt10_3 : ∀ t : Fin cfg10.N, cond10_1 (grid10.coords t) → cfg10.idle 3 (grid10.coords t) = false := by decide +kernel

/-! ## The blocks and the running rows -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The two running rows (column sums, column sums of squares) after n points: the reset values, then point by
    point the accumulation of the point's row block and bias row. Past the grid's end nothing changes. -/
def sacc10 (c : Dev nD) : ℕ → Vec F S1x300 .f32 × Vec F S1x300 .f32
  | 0 => (k10_pay1, k10_pay2)
  | n + 1 =>
    if h : n < cfg10.N then
      (k10_pay4 (iblk10 V c 0 ⟨n, h⟩) (iblk10 V c 1 ⟨n, h⟩) (sacc10 c n).1,
       k10_pay5 (iblk10 V c 0 ⟨n, h⟩) (iblk10 V c 1 ⟨n, h⟩) (sacc10 c n).2)
    else sacc10 c n

theorem sacc10_zero (c : Dev nD) : sacc10 V c 0 = (k10_pay1, k10_pay2) := rfl

theorem sacc10_succ (c : Dev nD) (n : ℕ) (h : n < 50) :
    sacc10 V c (n + 1)
      = (k10_pay4 (iblk10 V c 0 ⟨n, lt_of_lt_of_eq h N_10.symm⟩) (iblk10 V c 1 ⟨n, lt_of_lt_of_eq h N_10.symm⟩) (sacc10 V c n).1,
         k10_pay5 (iblk10 V c 0 ⟨n, lt_of_lt_of_eq h N_10.symm⟩) (iblk10 V c 1 ⟨n, lt_of_lt_of_eq h N_10.symm⟩) (sacc10 V c n).2) := by
  rw [sacc10]; exact dif_pos (lt_of_lt_of_eq h N_10.symm)

/-- The same at a grid point: after point t, the rows before it accumulated with t's blocks. -/
theorem sacc10_at (c : Dev nD) (t : Fin cfg10.N) :
    sacc10 V c (t.val + 1)
      = (k10_pay4 (iblk10 V c 0 t) (iblk10 V c 1 t) (sacc10 V c t.val).1, k10_pay5 (iblk10 V c 0 t) (iblk10 V c 1 t) (sacc10 V c t.val).2) := by
  rw [sacc10]; exact dif_pos t.isLt

/-! ## The invariant -/

/-- The two scratch operands: whole scoped buffers of the kernel's own, passed beside the windows. -/
abbrev sc10_0 : Memref sig .tc .vmem S1x300 .f32 := Memref.whole cc10_scratch0
abbrev sc10_1 : Memref sig .tc .vmem S1x300 .f32 := Memref.whole cc10_scratch1

/-- The region invariant before position n: the scoped buffers other than the two scratch rows and the staging
    buffers, at anything; the generator register at some state; the two scratch rows owned whole — before the first
    point at anything, afterwards at the running rows after n points. -/
def Phi10 (c : Dev nD) : ℕ → sProp 𝕄
  | 0 => iprop(Pipeline.scopedRestBut (Ix := Unit) (Name := ℕ) (U := UR sig nD τ) (Lvl := ℕ) (Val := Elt F) spec10 c [cc10_scratch0, cc10_scratch1]
      ∗ (∃ r, prngReg c r)
      ∗ (∃ d, owns (c : Thread nD τ) sc10_0 fullShare d) ∗ (∃ d, owns (c : Thread nD τ) sc10_1 fullShare d))
  | n + 1 => iprop(Pipeline.scopedRestBut (Ix := Unit) (Name := ℕ) (U := UR sig nD τ) (Lvl := ℕ) (Val := Elt F) spec10 c [cc10_scratch0, cc10_scratch1]
      ∗ (∃ r, prngReg c r)
      ∗ owns (c : Thread nD τ) sc10_0 fullShare (sacc10 V c (n + 1)).1 ∗ owns (c : Thread nD τ) sc10_1 fullShare (sacc10 V c (n + 1)).2)

theorem Phi10_zero (c : Dev nD) (n : ℕ) (hz : n = 0) :
    Phi10 V c n = iprop(Pipeline.scopedRestBut (Ix := Unit) (Name := ℕ) (U := UR sig nD τ) (Lvl := ℕ) (Val := Elt F) spec10 c [cc10_scratch0, cc10_scratch1]
      ∗ (∃ r, prngReg c r)
      ∗ (∃ d, owns (c : Thread nD τ) sc10_0 fullShare d) ∗ (∃ d, owns (c : Thread nD τ) sc10_1 fullShare d)) := by
  subst hz; rfl

theorem Phi10_pos (c : Dev nD) (n : ℕ) (hz : n ≠ 0) :
    Phi10 V c n = iprop(Pipeline.scopedRestBut (Ix := Unit) (Name := ℕ) (U := UR sig nD τ) (Lvl := ℕ) (Val := Elt F) spec10 c [cc10_scratch0, cc10_scratch1]
      ∗ (∃ r, prngReg c r)
      ∗ owns (c : Thread nD τ) sc10_0 fullShare (sacc10 V c n).1 ∗ owns (c : Thread nD τ) sc10_1 fullShare (sacc10 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay6 (sacc10 V c 50).1
    | ⟨3, _⟩ => k10_pay7 (sacc10 V c 50).1 (sacc10 V c 50).2
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay6 (sacc10 V c 50).1 := by dsimp only [dat10]
theorem after10_3 (c : Dev nD) (t : Fin cfg10.N) :
    (dat10 V c).after 3 t = k10_pay7 (sacc10 V c 50).1 (sacc10 V c 50).2 := by dsimp only [dat10]

/-- What the write-back at the last point writes: the two output rows. -/
theorem after10_2_last (c : Dev nD) : (dat10 V c).after 2 ⟨49, by decide⟩ = k10_pay6 (sacc10 V c 50).1 := after10_2 V c _
theorem after10_3_last (c : Dev nD) :
    (dat10 V c).after 3 ⟨49, by decide⟩ = k10_pay7 (sacc10 V c 50).1 (sacc10 V c 50).2 := after10_3 V c _

/-- The same at the last point, over the running rows after it. -/
theorem after10_2_at (c : Dev nD) (t : Fin cfg10.N) (h : t.val = 49) :
    (dat10 V c).after 2 t = k10_pay6 (sacc10 V c (t.val + 1)).1 := by rw [after10_2, h]
theorem after10_3_at (c : Dev nD) (t : Fin cfg10.N) (h : t.val = 49) :
    (dat10 V c).after 3 t = k10_pay7 (sacc10 V c (t.val + 1)).1 (sacc10 V c (t.val + 1)).2 := by rw [after10_3, h]

theorem Phi10_castSucc (c : Dev nD) (t : Fin cfg10.N) : (dat10 V c).Φ t.castSucc = Phi10 V c t.val := by
  dsimp only [dat10]; simp only [Fin.coe_castSucc]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns: an output window idle at the point handed back as it was found. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl,
    show (dat10 V c).Φ t.succ = Phi10 V c (t.val + 1) from rfl, Phi10_castSucc,
    show (dat10 V c).leavesExact 0 t = owns (c : Thread nD τ) (st10_0 t) fullShare ((dat10 V c).after 0 t) from by
      unfold Dat.leavesExact; rw [liveAt10_0 t],
    show (dat10 V c).leavesExact 1 t = owns (c : Thread nD τ) (st10_1 t) fullShare ((dat10 V c).after 1 t) from by
      unfold Dat.leavesExact; rw [liveAt10_1 t],
    after10_0, after10_1]
  have hN : t.val < 50 := lt_of_lt_of_eq t.isLt N_10
  by_cases hfirst : t.val = 0
  · -- the first point: reset, then accumulate
    have hreset : cond10_0 (grid10.coords t) := (hcond10_0 t).mpr hfirst
    have hnolast : ¬cond10_1 (grid10.coords t) := fun h => by have := (hcond10_1 t).mp h; omega
    have hs : sacc10 V c t.val = (k10_pay1, k10_pay2) := by rw [hfirst]; rfl
    rw [Dat.leavesExact_idle (dat10 V c) 2 t (idleAt10_2 t hnolast) (noFlush10_2 t hnolast),
      Dat.leavesExact_idle (dat10 V c) 3 t (idleAt10_3 t hnolast) (noFlush10_3 t hnolast),
      Phi10_zero V c _ hfirst, Phi10_pos V c (t.val + 1) (Nat.succ_ne_zero _)]
    simp only [sacc10_at, hs]
    iintro ⟨⟨HR, Hg, ⟨%e0, HS0⟩, ⟨%e1, HS1⟩⟩, Ho, ⟨%d0, H0⟩, ⟨%d1, H1⟩, H2, H3⟩
    iapply (sound_kernel10_A c Set.univ _ hreset hnolast _ _ _ _ _ _ _ _ _ _ _ _ (iblk10 V c 0 t) (iblk10 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond10_0 (grid10.coords t) := fun h => hfirst ((hcond10_0 t).mp h)
    by_cases hlast : t.val = 49
    · -- the last point: accumulate, then the two output rows
      have hstore : cond10_1 (grid10.coords t) := (hcond10_1 t).mpr hlast
      rw [show (dat10 V c).leavesExact 2 t = owns (c : Thread nD τ) (st10_2 t) fullShare ((dat10 V c).after 2 t) from by
          unfold Dat.leavesExact; rw [liveAt10_2 t hstore],
        show (dat10 V c).leavesExact 3 t = owns (c : Thread nD τ) (st10_3 t) fullShare ((dat10 V c).after 3 t) from by
          unfold Dat.leavesExact; rw [liveAt10_3 t hstore],
        after10_2_at V c t hlast, after10_3_at V c t hlast,
        Phi10_pos V c _ hfirst, Phi10_pos V c (t.val + 1) (Nat.succ_ne_zero _)]
      simp only [sacc10_at]
      iintro ⟨⟨HR, Hg, HS0, HS1⟩, Ho, ⟨%d0, H0⟩, ⟨%d1, H1⟩, ⟨%d2, H2⟩, ⟨%d3, H3⟩⟩
      iapply (sound_kernel10_C c Set.univ _ hnoreset hstore _ _ _ _ _ _ _ _ _ _ _ _ (iblk10 V c 0 t) (iblk10 V c 1 t)
        (sacc10 V c t.val).1 (sacc10 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond10_1 (grid10.coords t) := fun h => hlast ((hcond10_1 t).mp h)
      rw [Dat.leavesExact_idle (dat10 V c) 2 t (idleAt10_2 t hnolast) (noFlush10_2 t hnolast),
        Dat.leavesExact_idle (dat10 V c) 3 t (idleAt10_3 t hnolast) (noFlush10_3 t hnolast),
        Phi10_pos V c _ hfirst, Phi10_pos V c (t.val + 1) (Nat.succ_ne_zero _)]
      simp only [sacc10_at]
      iintro ⟨⟨HR, Hg, HS0, HS1⟩, Ho, ⟨%d0, H0⟩, ⟨%d1, H1⟩, H2, H3⟩
      iapply (sound_kernel10_B c Set.univ _ hnoreset hnolast _ _ _ _ _ _ _ _ _ _ _ _ (iblk10 V c 0 t) (iblk10 V c 1 t)
        (sacc10 V c t.val).1 (sacc10 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- The region enters the invariant: the two scratch rows are taken out of the scoped rest, at anything; what else
    is handed beside the generator register and the scoped rest is dropped. -/
theorem hin10 (c : Dev nD) (P : sProp 𝕄) :
    iprop((∃ r, prngReg c r) ∗ P ∗ Pipeline.scopedRest (Ix := Unit) (Name := ℕ) (U := UR sig nD τ) (Lvl := ℕ) (Val := Elt F) spec10 c)
      ⊢ (dat10 V c).Φ 0 := by
  rw [show (dat10 V c).Φ 0 = Phi10 V c 0 from rfl, Phi10_zero V c 0 rfl, scopedRest10_split]
  simp only [sc10_0, sc10_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout10 (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [show (dat10 V c).Φ (Fin.last cfg10.N) = Phi10 V c (Fin.last cfg10.N).val from rfl,
    Phi10_pos V c _ (by rw [Fin.val_last]; have : cfg10.N = 50 := N_10; omega), scopedRest10_split]
  simp only [sc10_0, sc10_1, owns_whole]
  iintro ⟨HR, Hg, HS0, HS1⟩
  isplitl [Hg]; · iexact Hg
  isplitl [HS0 HS1]
  · isplitl [HS0]
    · iexists _; iexact HS0
    iexists _; iexact HS1
  iexact HR

end Cert.KernelIdeal.Reg

end
-- ==== Proof.KI.Reg11.lean ====
/-
  Region 11 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

abbrev r11_a : Rect S2000x300 := Rect.unit (s := S2000x300) ![0, 0] S2000x300.size inb_S2000x300_S2000x300_0_0
abbrev r11_c : Rect S1x300 := Rect.unit (s := S1x300) ![0, 0] S1x300.size inb_S1x300_S1x300_0_0

/-- The output block after the body: its one whole-block store, of the normalised and rectified row block. -/
def out11_6 (x0 : Vec F S2000x300 .f32) (x1 x2 x3 x4 x5 : Vec F S1x300 .f32) : Vec F S2000x300 .f32 :=
  View.canon [⟨r11_a, k11_pay1 (View.ld x0 r11_a) (View.ld x1 r11_c) (View.ld x2 r11_c) (View.ld x3 r11_c) (View.ld x4 r11_c) (View.ld x5 r11_c)⟩]

theorem cover11_6 (p0 : Vec F S2000x300 .f32) (y : S2000x300.Idx) :
    ∃ pc ∈ ([⟨r11_a, p0⟩] : List (View.Piece (Elt F) S2000x300 .f32)), y ∈ pc.1.set :=
  View.cover_of_tiled [⟨r11_a, p0⟩] S2000x300.size (by rfl) y

set_option maxHeartbeats 1000000 in
/-- The body on whole staging memrefs: the six inputs kept, the output block at the normalised block. -/
theorem sound_kernel11 (c : Dev nD) (E : Set ℕ) (i : grid11.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out11_6 x0 x1 x2 x3 x4 x5)) -∗ K ⟨⟩))
      ⊢ wp frame (wpE (defs₀ (F := F)) Variants.none c none) E (cc11__bn_norm_kernel i arg1 harg1 arg2 harg2 arg3 harg3 arg4 harg4 arg5 harg5 arg6 harg6 arg7 harg7) K := by
  simp only [cc11__bn_norm_kernel_eq_skeleton]; unfold cc11__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-- The proof data of the pipeline on core c: the arrays as the region finds them; after the body each input's
    buffer at its block and the output's at the normalised block of the point's blocks; the invariant the scoped
    rest and the generator register; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) :
    (dat11 V c).after 6 t = out11_6 (iblk11 V c 0 t) (iblk11 V c 1 t) (iblk11 V c 2 t) (iblk11 V c 3 t) (iblk11 V c 4 t) (iblk11 V c 5 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Reg

end
-- ==== Proof.KI.Reg12.lean ====
/-
  Region 12 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

abbrev r12_a : Rect S2000x300 := Rect.unit (s := S2000x300) ![0, 0] S2000x300.size inb_S2000x300_S2000x300_0_0
abbrev r12_o : Rect S2000x300 := Rect.unit (s := S2000x300) ![0, 0] S2000x300.size inb_S2000x300_S2000x300_0_0
abbrev r12_b : Rect S300x300 := Rect.unit (s := S300x300) ![0, 0] S300x300.size inb_S300x300_S300x300_0_0
abbrev r12_c : Rect S1x300 := Rect.unit (s := S1x300) ![0, 0] S1x300.size inb_S1x300_S1x300_0_0

/-- The output block after the body: its one whole-block store, of the product of the row block with the
    weights plus the bias row. -/
def out12_3 (x0 : Vec F S2000x300 .f32) (x1 : Vec F S300x300 .f32) (x2 : Vec F S1x300 .f32) : Vec F S2000x300 .f32 :=
  View.canon [⟨r12_o, k12_pay1 (View.ld x0 r12_a) (View.ld x1 r12_b) (View.ld x2 r12_c)⟩]

theorem cover12_3 (p0 : Vec F S2000x300 .f32) (y : S2000x300.Idx) :
    ∃ pc ∈ ([⟨r12_o, p0⟩] : List (View.Piece (Elt F) S2000x300 .f32)), y ∈ pc.1.set :=
  View.cover_of_tiled [⟨r12_o, p0⟩] S2000x300.size (by rfl) y

set_option maxHeartbeats 1000000 in
/-- The body on whole staging memrefs: the three inputs kept, the output block at the product. -/
theorem sound_kernel12 (c : Dev nD) (E : Set ℕ) (i : grid12.Coords)
    (arg1 : Memref sig .tc .vmem S2000x300 .f32) (harg1 : arg1.IsWhole) (arg2 : Memref sig .tc .vmem S300x300 .f32) (harg2 : arg2.IsWhole)
    (arg3 : Memref sig .tc .vmem S1x300 .f32) (harg3 : arg3.IsWhole) (arg4 : Memref sig .tc .vmem S2000x300 .f32) (harg4 : arg4.IsWhole)
    (x0 : Vec F S2000x300 .f32) (x1 : Vec F S300x300 .f32) (x2 : Vec F S1x300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out12_3 x0 x1 x2)) -∗ K ⟨⟩))
      ⊢ wp frame (wpE (defs₀ (F := F)) Variants.none c none) E (cc12__matmul_kernel i arg1 harg1 arg2 harg2 arg3 harg3 arg4 harg4) K := by
  simp only [cc12__matmul_kernel_eq_skeleton]; unfold cc12__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The proof data of the pipeline on core c: the arrays as the region finds them; after the body each input's
    buffer at its block and the output's at the product of the point's blocks; the invariant the scoped rest and
    the generator register; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Reg

end
-- ==== Proof.KI.Reg13.lean ====
/-
  Region 13 of the program: the batch-norm statistics over 50 row blocks of 2000 rows. The body keeps two running
  rows across the grid points, the column sums and the column sums of squares of the blocks (each with the bias
  row added): it resets them at the first point, accumulates the point's block into them at every point, and at the
  last point stores the two output rows computed from them (the mean row, and the mean of squares less the squared
  mean). At a parameter V (the buffer contents when the region is entered): each window's block at a grid point,
  the two running rows after any number of points, the body's triple in each of its three cases, the proof data of
  the pipeline (its invariant carries the two running rows at their named contents from one point to the next) and
  the body obligation at every point, with the invariant's entry and exit. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three cases on whole memrefs -/

/-- The first branch of the body (the reset of the two running rows) is taken at the grid's first point only, -/
abbrev cond13_0 (i : grid13.Coords) : Prop :=
  (Scalar.cmpi .ne (Scalar.extui (Scalar.cmpi .eq (BitVec.ofNat 32 (i 0).val) 0#32)) 0#32) = 1#1
/-- the second (the two output rows computed and stored) at its last point only. -/
abbrev cond13_1 (i : grid13.Coords) : Prop := k13_cond2 i = 1#1

/-- The zero offsets of a rank-2 rectangle, as the constant function. -/
theorem off13_zero : (![0, 0] : Fin 2 → ℕ) = fun _ => 0 := by
  funext a; fin_cases a <;> rfl

/-- A load of a whole buffer through the whole-shape rectangle reads its contents. -/
theorem readAt_whole13 {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  (View.readAt_eq_ld v f (Rect.unit off s.size inb)).trans (View.ld_unit_zero h inb _)

/-- After a last store through the whole-shape rectangle the buffer reads the stored value, whatever was stored before. -/
theorem read_store_whole13 {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h inb]

set_option maxHeartbeats 1000000 in
/-- The body at a point that is neither the first nor the last, on whole memrefs: the two inputs kept, each
    running row replaced by its accumulation with the point's block. -/
theorem sound_kernel13_B (c : Dev nD) (E : Set ℕ) (i : grid13.Coords) (hc0 : ¬cond13_0 i) (hc1 : ¬cond13_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k13_pay4 x b s0) ∗ owns (c : Thread nD τ) arg6 fullShare (k13_pay5 x b s1)) -∗ K ⟨⟩))
      ⊢ wp frame (wpE (defs₀ (F := F)) Variants.none c none) E (cc13__bn_stats_kernel i arg1 harg1 arg2 harg2 arg3 harg3 arg4 harg4 arg5 harg5 arg6 harg6) K := by
  simp only [cc13__bn_stats_kernel_eq_skeleton]; unfold cc13__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  iexists _; isplitr
  swap; · iexact H5
  ipureintro
  sl_unfold_run_names
  rw [read_store_whole13 (s := S1x300) _ _ off13_zero]
  simp only [View.readCov_unit_zero (S := S1x300) _ off13_zero, readAt_whole13 (s := S2000x300) _ _ off13_zero, readAt_whole13 (s := S1x300) _ _ off13_zero]

set_option maxHeartbeats 1000000 in
/-- The body at the first point, on whole memrefs: the two running rows, found at anything, are reset and then
    accumulate the point's block. -/
theorem sound_kernel13_A (c : Dev nD) (E : Set ℕ) (i : grid13.Coords) (hc0 : cond13_0 i) (hc1 : ¬cond13_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k13_pay4 x b (k13_pay1 (F := F))) ∗ owns (c : Thread nD τ) arg6 fullShare (k13_pay5 x b (k13_pay2 (F := F)))) -∗ K ⟨⟩))
      ⊢ wp frame (wpE (defs₀ (F := F)) Variants.none c none) E (cc13__bn_stats_kernel i arg1 harg1 arg2 harg2 arg3 harg3 arg4 harg4 arg5 harg5 arg6 harg6) K := by
  simp only [cc13__bn_stats_kernel_eq_skeleton]; unfold cc13__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  iexists _; isplitr
  swap; · iexact H5
  ipureintro
  sl_unfold_run_names
  rw [read_store_whole13 (s := S1x300) _ _ off13_zero]
  simp only [View.readCov_unit_zero (S := S1x300) _ off13_zero, readAt_whole13 (s := S2000x300) _ _ off13_zero, readAt_whole13 (s := S1x300) _ _ off13_zero]

set_option maxHeartbeats 1000000 in
/-- The body at the last point, on whole memrefs: the two running rows accumulate the point's block, and the two
    output rows, found at anything, are stored from them (the mean row; the mean of squares less the squared mean). -/
theorem sound_kernel13_C (c : Dev nD) (E : Set ℕ) (i : grid13.Coords) (hc0 : ¬cond13_0 i) (hc1 : cond13_1 i)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (x : Vec F S2000x300 .f32) (b : Vec F S1x300 .f32) (s0 s1 : Vec F S1x300 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k13_pay6 (k13_pay4 x b s0))
            ∗ owns (c : Thread nD τ) arg4 fullShare (k13_pay7 (k13_pay4 x b s0) (k13_pay5 x b s1))
            ∗ owns (c : Thread nD τ) arg5 fullShare (k13_pay4 x b s0) ∗ owns (c : Thread nD τ) arg6 fullShare (k13_pay5 x b s1)) -∗ K ⟨⟩))
      ⊢ wp frame (wpE (defs₀ (F := F)) Variants.none c none) E (cc13__bn_stats_kernel i arg1 harg1 arg2 harg2 arg3 harg3 arg4 harg4 arg5 harg5 arg6 harg6) K := by
  simp only [cc13__bn_stats_kernel_eq_skeleton]; unfold cc13__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  isplitl [H3]
  · iexists _; isplitr
    swap; · iexact H3
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  isplitl [H4]
  · iexists _; isplitr
    swap; · iexact H4
    ipureintro
    sl_unfold_run_names
    rw [read_store_whole13 (s := S1x300) _ _ off13_zero]
    simp only [View.readCov_unit_zero (S := S1x300) _ off13_zero, readAt_whole13 (s := S2000x300) _ _ off13_zero, readAt_whole13 (s := S1x300) _ _ off13_zero]
  iexists _; isplitr
  swap; · iexact H5
  ipureintro
  sl_unfold_run_names
  rw [read_store_whole13 (s := S1x300) _ _ off13_zero]
  simp only [View.readCov_unit_zero (S := S1x300) _ off13_zero, readAt_whole13 (s := S2000x300) _ _ off13_zero, readAt_whole13 (s := S1x300) _ _ off13_zero]

/-! ## Where the branches are taken and where the output windows are idle -/

/-- The reset is taken at the first point only; -/
theorem hcond13_0 : ∀ t : Fin cfg13.N, cond13_0 (grid13.coords t) ↔ t.val = 0 :=
  (by decide +kernel : ∀ t : Fin grid13.N, cond13_0 (grid13.coords t) ↔ t.val = 0)
/-- the output rows are stored at the last point only. -/
theorem hcond13_1 : ∀ t : Fin cfg13.N, cond13_1 (grid13.coords t) ↔ t.val = 49 :=
  (by decide +kernel : ∀ t : Fin grid13.N, cond13_1 (grid13.coords t) ↔ t.val = 49)

/-- The two input windows are never idle. -/
theorem liveAt13_0 : ∀ t : Fin cfg13.N, cfg13.idle 0 (grid13.coords t) = false := by decide +kernel
theorem liveAt13_1 : ∀ t : Fin cfg13.N, cfg13.idle 1 (grid13.coords t) = false := by decide +kernel
/-- Before the last point the two output windows are idle (the body stores nothing into them) and are not written back; -/
theorem idleAt13_2 : ∀ t : Fin cfg13.N, ¬cond13_1 (grid13.coords t) → cfg13.idle 2 (grid13.coords t) = true := by decide +kernel
theorem idleAt13_3 : ∀ t : Fin cfg13.N, ¬cond13_1 (grid13.coords t) → cfg13.idle 3 (grid13.coords t) = true := by decide +kernel
theorem noFlush13_2 : ∀ t : Fin cfg13.N, ¬cond13_1 (grid13.coords t) → (cfg13.win 2).flush t = false := by decide +kernel
theorem noFlush13_3 : ∀ t : Fin cfg13.N, ¬cond13_1 (grid13.coords t) → (cfg13.win 3).flush t = false := by decide +kernel
/-- at the last point they are live. -/
theorem liveAt13_2 : ∀ t : Fin cfg13.N, cond13_1 (grid13.coords t) → cfg13.idle 2 (grid13.coords t) = false := by decide +kernel
theorem liveAt13_3 : ∀ t : Fin cfg13.N, cond13_1 (grid13.coords t) → cfg13.idle 3 (grid13.coords t) = false := by decide +kernel

/-! ## The blocks and the running rows -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The two running rows (column sums, column sums of squares) after n points: the reset values, then point by
    point the accumulation of the point's row block and bias row. Past the grid's end nothing changes. -/
def sacc13 (c : Dev nD) : ℕ → Vec F S1x300 .f32 × Vec F S1x300 .f32
  | 0 => (k13_pay1, k13_pay2)
  | n + 1 =>
    if h : n < cfg13.N then
      (k13_pay4 (iblk13 V c 0 ⟨n, h⟩) (iblk13 V c 1 ⟨n, h⟩) (sacc13 c n).1,
       k13_pay5 (iblk13 V c 0 ⟨n, h⟩) (iblk13 V c 1 ⟨n, h⟩) (sacc13 c n).2)
    else sacc13 c n

theorem sacc13_zero (c : Dev nD) : sacc13 V c 0 = (k13_pay1, k13_pay2) := rfl

theorem sacc13_succ (c : Dev nD) (n : ℕ) (h : n < 50) :
    sacc13 V c (n + 1)
      = (k13_pay4 (iblk13 V c 0 ⟨n, lt_of_lt_of_eq h N_13.symm⟩) (iblk13 V c 1 ⟨n, lt_of_lt_of_eq h N_13.symm⟩) (sacc13 V c n).1,
         k13_pay5 (iblk13 V c 0 ⟨n, lt_of_lt_of_eq h N_13.symm⟩) (iblk13 V c 1 ⟨n, lt_of_lt_of_eq h N_13.symm⟩) (sacc13 V c n).2) := by
  rw [sacc13]; exact dif_pos (lt_of_lt_of_eq h N_13.symm)

/-- The same at a grid point: after point t, the rows before it accumulated with t's blocks. -/
theorem sacc13_at (c : Dev nD) (t : Fin cfg13.N) :
    sacc13 V c (t.val + 1)
      = (k13_pay4 (iblk13 V c 0 t) (iblk13 V c 1 t) (sacc13 V c t.val).1, k13_pay5 (iblk13 V c 0 t) (iblk13 V c 1 t) (sacc13 V c t.val).2) := by
  rw [sacc13]; exact dif_pos t.isLt

/-! ## The invariant -/

/-- The two scratch operands: whole scoped buffers of the kernel's own, passed beside the windows. -/
abbrev sc13_0 : Memref sig .tc .vmem S1x300 .f32 := Memref.whole cc13_scratch0
abbrev sc13_1 : Memref sig .tc .vmem S1x300 .f32 := Memref.whole cc13_scratch1

/-- The region invariant before position n: the scoped buffers other than the two scratch rows and the staging
    buffers, at anything; the generator register at some state; the two scratch rows owned whole — before the first
    point at anything, afterwards at the running rows after n points. -/
def Phi13 (c : Dev nD) : ℕ → sProp 𝕄
  | 0 => iprop(Pipeline.scopedRestBut (Ix := Unit) (Name := ℕ) (U := UR sig nD τ) (Lvl := ℕ) (Val := Elt F) spec13 c [cc13_scratch0, cc13_scratch1]
      ∗ (∃ r, prngReg c r)
      ∗ (∃ d, owns (c : Thread nD τ) sc13_0 fullShare d) ∗ (∃ d, owns (c : Thread nD τ) sc13_1 fullShare d))
  | n + 1 => iprop(Pipeline.scopedRestBut (Ix := Unit) (Name := ℕ) (U := UR sig nD τ) (Lvl := ℕ) (Val := Elt F) spec13 c [cc13_scratch0, cc13_scratch1]
      ∗ (∃ r, prngReg c r)
      ∗ owns (c : Thread nD τ) sc13_0 fullShare (sacc13 V c (n + 1)).1 ∗ owns (c : Thread nD τ) sc13_1 fullShare (sacc13 V c (n + 1)).2)

theorem Phi13_zero (c : Dev nD) (n : ℕ) (hz : n = 0) :
    Phi13 V c n = iprop(Pipeline.scopedRestBut (Ix := Unit) (Name := ℕ) (U := UR sig nD τ) (Lvl := ℕ) (Val := Elt F) spec13 c [cc13_scratch0, cc13_scratch1]
      ∗ (∃ r, prngReg c r)
      ∗ (∃ d, owns (c : Thread nD τ) sc13_0 fullShare d) ∗ (∃ d, owns (c : Thread nD τ) sc13_1 fullShare d)) := by
  subst hz; rfl

theorem Phi13_pos (c : Dev nD) (n : ℕ) (hz : n ≠ 0) :
    Phi13 V c n = iprop(Pipeline.scopedRestBut (Ix := Unit) (Name := ℕ) (U := UR sig nD τ) (Lvl := ℕ) (Val := Elt F) spec13 c [cc13_scratch0, cc13_scratch1]
      ∗ (∃ r, prngReg c r)
      ∗ owns (c : Thread nD τ) sc13_0 fullShare (sacc13 V c n).1 ∗ owns (c : Thread nD τ) sc13_1 fullShare (sacc13 V c n).2) := by
  cases n with
  | zero => exact absurd rfl hz
  | succ n => rfl

/-! ## The pipeline's proof data -/

/-- The proof data of the pipeline on core c: the arrays as the region finds them; after the body each input's
    buffer at its block; an output's buffer, where the body stores into it (the last point), at the row computed from
    the running rows after all 50 points — at the other points the window is idle and what is named here is not
    consulted; the invariant carries the two running rows; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay6 (sacc13 V c 50).1
    | ⟨3, _⟩ => k13_pay7 (sacc13 V c 50).1 (sacc13 V c 50).2
  Φ t := Phi13 V c t.val
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = k13_pay6 (sacc13 V c 50).1 := by dsimp only [dat13]
theorem after13_3 (c : Dev nD) (t : Fin cfg13.N) :
    (dat13 V c).after 3 t = k13_pay7 (sacc13 V c 50).1 (sacc13 V c 50).2 := by dsimp only [dat13]

/-- What the write-back at the last point writes: the two output rows. -/
theorem after13_2_last (c : Dev nD) : (dat13 V c).after 2 ⟨49, by decide⟩ = k13_pay6 (sacc13 V c 50).1 := after13_2 V c _
theorem after13_3_last (c : Dev nD) :
    (dat13 V c).after 3 ⟨49, by decide⟩ = k13_pay7 (sacc13 V c 50).1 (sacc13 V c 50).2 := after13_3 V c _

/-- The same at the last point, over the running rows after it. -/
theorem after13_2_at (c : Dev nD) (t : Fin cfg13.N) (h : t.val = 49) :
    (dat13 V c).after 2 t = k13_pay6 (sacc13 V c (t.val + 1)).1 := by rw [after13_2, h]
theorem after13_3_at (c : Dev nD) (t : Fin cfg13.N) (h : t.val = 49) :
    (dat13 V c).after 3 t = k13_pay7 (sacc13 V c (t.val + 1)).1 (sacc13 V c (t.val + 1)).2 := by rw [after13_3, h]

theorem Phi13_castSucc (c : Dev nD) (t : Fin cfg13.N) : (dat13 V c).Φ t.castSucc = Phi13 V c t.val := by
  dsimp only [dat13]; simp only [Fin.coe_castSucc]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns: an output window idle at the point handed back as it was found. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4000000 in
/-- The body at any point. The inputs' buffers hold their blocks. At the first point the invariant hands the two
    scratch rows at anything and takes them back reset and accumulated once; at a later point it hands them at the
    running rows so far and takes them back accumulated once more; before the last point the two output windows
    are idle and pass through untouched; at the last point they are handed at anything and left at the two rows
    computed from the running rows after all points. The core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl,
    show (dat13 V c).Φ t.succ = Phi13 V c (t.val + 1) from rfl, Phi13_castSucc,
    show (dat13 V c).leavesExact 0 t = owns (c : Thread nD τ) (st13_0 t) fullShare ((dat13 V c).after 0 t) from by
      unfold Dat.leavesExact; rw [liveAt13_0 t],
    show (dat13 V c).leavesExact 1 t = owns (c : Thread nD τ) (st13_1 t) fullShare ((dat13 V c).after 1 t) from by
      unfold Dat.leavesExact; rw [liveAt13_1 t],
    after13_0, after13_1]
  have hN : t.val < 50 := lt_of_lt_of_eq t.isLt N_13
  by_cases hfirst : t.val = 0
  · -- the first point: reset, then accumulate
    have hreset : cond13_0 (grid13.coords t) := (hcond13_0 t).mpr hfirst
    have hnolast : ¬cond13_1 (grid13.coords t) := fun h => by have := (hcond13_1 t).mp h; omega
    have hs : sacc13 V c t.val = (k13_pay1, k13_pay2) := by rw [hfirst]; rfl
    rw [Dat.leavesExact_idle (dat13 V c) 2 t (idleAt13_2 t hnolast) (noFlush13_2 t hnolast),
      Dat.leavesExact_idle (dat13 V c) 3 t (idleAt13_3 t hnolast) (noFlush13_3 t hnolast),
      Phi13_zero V c _ hfirst, Phi13_pos V c (t.val + 1) (Nat.succ_ne_zero _)]
    simp only [sacc13_at, hs]
    iintro ⟨⟨HR, Hg, ⟨%e0, HS0⟩, ⟨%e1, HS1⟩⟩, Ho, ⟨%d0, H0⟩, ⟨%d1, H1⟩, H2, H3⟩
    iapply (sound_kernel13_A c Set.univ _ hreset hnolast _ _ _ _ _ _ _ _ _ _ _ _ (iblk13 V c 0 t) (iblk13 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HR Hg HS0 HS1]
    · isplitl [HR]; · iexact HR
      isplitl [Hg]; · iexact Hg
      isplitl [HS0]; · iexact HS0
      iexact HS1
    isplitl [Ho]; · iexact Ho
    isplitl [H0]; · iexact H0
    isplitl [H1]; · iexact H1
    isplitl [H2]; · iexact H2
    iexact H3
  · have hnoreset : ¬cond13_0 (grid13.coords t) := fun h => hfirst ((hcond13_0 t).mp h)
    by_cases hlast : t.val = 49
    · -- the last point: accumulate, then the two output rows
      have hstore : cond13_1 (grid13.coords t) := (hcond13_1 t).mpr hlast
      rw [show (dat13 V c).leavesExact 2 t = owns (c : Thread nD τ) (st13_2 t) fullShare ((dat13 V c).after 2 t) from by
          unfold Dat.leavesExact; rw [liveAt13_2 t hstore],
        show (dat13 V c).leavesExact 3 t = owns (c : Thread nD τ) (st13_3 t) fullShare ((dat13 V c).after 3 t) from by
          unfold Dat.leavesExact; rw [liveAt13_3 t hstore],
        after13_2_at V c t hlast, after13_3_at V c t hlast,
        Phi13_pos V c _ hfirst, Phi13_pos V c (t.val + 1) (Nat.succ_ne_zero _)]
      simp only [sacc13_at]
      iintro ⟨⟨HR, Hg, HS0, HS1⟩, Ho, ⟨%d0, H0⟩, ⟨%d1, H1⟩, ⟨%d2, H2⟩, ⟨%d3, H3⟩⟩
      iapply (sound_kernel13_C c Set.univ _ hnoreset hstore _ _ _ _ _ _ _ _ _ _ _ _ (iblk13 V c 0 t) (iblk13 V c 1 t)
        (sacc13 V c t.val).1 (sacc13 V c t.val).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3
    · -- a point between: accumulate only
      have hnolast : ¬cond13_1 (grid13.coords t) := fun h => hlast ((hcond13_1 t).mp h)
      rw [Dat.leavesExact_idle (dat13 V c) 2 t (idleAt13_2 t hnolast) (noFlush13_2 t hnolast),
        Dat.leavesExact_idle (dat13 V c) 3 t (idleAt13_3 t hnolast) (noFlush13_3 t hnolast),
        Phi13_pos V c _ hfirst, Phi13_pos V c (t.val + 1) (Nat.succ_ne_zero _)]
      simp only [sacc13_at]
      iintro ⟨⟨HR, Hg, HS0, HS1⟩, Ho, ⟨%d0, H0⟩, ⟨%d1, H1⟩, H2, H3⟩
      iapply (sound_kernel13_B c Set.univ _ hnoreset hnolast _ _ _ _ _ _ _ _ _ _ _ _ (iblk13 V c 0 t) (iblk13 V c 1 t)
        (sacc13 V c t.val).1 (sacc13 V c t.val).2 _)
      isplitl [H0]; · iexact H0
      isplitl [H1]; · iexact H1
      isplitl [HS0]; · iexact HS0
      isplitl [HS1]; · iexact HS1
      iintro ⟨H0, H1, HS0, HS1⟩
      isplitl [HR Hg HS0 HS1]
      · isplitl [HR]; · iexact HR
        isplitl [Hg]; · iexact Hg
        isplitl [HS0]; · iexact HS0
        iexact HS1
      isplitl [Ho]; · iexact Ho
      isplitl [H0]; · iexact H0
      isplitl [H1]; · iexact H1
      isplitl [H2]; · iexact H2
      iexact H3

/-- The body obligation, at every point. -/
theorem body_obligation13 (c : Dev nD) : BodyObligation (dat13 (F := F) V c) (defs₀ (F := F)) Variants.none () Set.univ := fun t => by
  rw [bigSep_W13, bigSep_W13]
  exact sound_body13 V c t

/-! ## Into the invariant and out of it -/

/-- The region enters the invariant: the two scratch rows are taken out of the scoped rest, at anything; what else
    is handed beside the generator register and the scoped rest is dropped. -/
theorem hin13 (c : Dev nD) (P : sProp 𝕄) :
    iprop((∃ r, prngReg c r) ∗ P ∗ Pipeline.scopedRest (Ix := Unit) (Name := ℕ) (U := UR sig nD τ) (Lvl := ℕ) (Val := Elt F) spec13 c)
      ⊢ (dat13 V c).Φ 0 := by
  rw [show (dat13 V c).Φ 0 = Phi13 V c 0 from rfl, Phi13_zero V c 0 rfl, scopedRest13_split]
  simp only [sc13_0, sc13_1, owns_whole]
  iintro ⟨Hg, -, ⟨HS0, HS1⟩, HR⟩
  isplitl [HR]; · iexact HR
  isplitl [Hg]; · iexact Hg
  isplitl [HS0]; · iexact HS0
  iexact HS1

/-- After the last point the invariant gives the scoped rest back: the running rows' named contents are forgotten. -/
theorem hout13 (c : Dev nD) :
    (dat13 V c).Φ (Fin.last cfg13.N)
      ⊢ iprop((∃ r, prngReg c r) ∗ Pipeline.scopedRest (Ix := Unit) (Name := ℕ) (U := UR sig nD τ) (Lvl := ℕ) (Val := Elt F) spec13 c) := by
  rw [show (dat13 V c).Φ (Fin.last cfg13.N) = Phi13 V c (Fin.last cfg13.N).val from rfl,
    Phi13_pos V c _ (by rw [Fin.val_last]; have : cfg13.N = 50 := N_13; omega), scopedRest13_split]
  simp only [sc13_0, sc13_1, owns_whole]
  iintro ⟨HR, Hg, HS0, HS1⟩
  isplitl [Hg]; · iexact Hg
  isplitl [HS0 HS1]
  · isplitl [HS0]
    · iexists _; iexact HS0
    iexists _; iexact HS1
  iexact HR

end Cert.KernelIdeal.Reg

end
-- ==== Proof.KI.Reg14.lean ====
/-
  Region 14 of the program: batch normalisation and rectifier, entry by entry, over the grid's row blocks.
  At a parameter V (the buffer contents when the region is entered): each window's block at a grid point, what
  the body leaves in the output block (from the row block, the bias, mean, variance, scale and shift rows:
  max(((x + bias − mean) · rsqrt(var + ε)) · γ + β, 0)), the body's triple, the proof data of the pipeline and
  the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

abbrev r14_a : Rect S2000x300 := Rect.unit (s := S2000x300) ![0, 0] S2000x300.size inb_S2000x300_S2000x300_0_0
abbrev r14_c : Rect S1x300 := Rect.unit (s := S1x300) ![0, 0] S1x300.size inb_S1x300_S1x300_0_0

/-- The output block after the body: its one whole-block store, of the normalised and rectified row block. -/
def out14_6 (x0 : Vec F S2000x300 .f32) (x1 x2 x3 x4 x5 : Vec F S1x300 .f32) : Vec F S2000x300 .f32 :=
  View.canon [⟨r14_a, k14_pay1 (View.ld x0 r14_a) (View.ld x1 r14_c) (View.ld x2 r14_c) (View.ld x3 r14_c) (View.ld x4 r14_c) (View.ld x5 r14_c)⟩]

theorem cover14_6 (p0 : Vec F S2000x300 .f32) (y : S2000x300.Idx) :
    ∃ pc ∈ ([⟨r14_a, p0⟩] : List (View.Piece (Elt F) S2000x300 .f32)), y ∈ pc.1.set :=
  View.cover_of_tiled [⟨r14_a, p0⟩] S2000x300.size (by rfl) y

set_option maxHeartbeats 1000000 in
/-- The body on whole staging memrefs: the six inputs kept, the output block at the normalised block. -/
theorem sound_kernel14 (c : Dev nD) (E : Set ℕ) (i : grid14.Coords)
    (arg1 : Memref sig .tc .vmem S2000x300 .f32) (harg1 : arg1.IsWhole) (arg2 : Memref sig .tc .vmem S1x300 .f32) (harg2 : arg2.IsWhole)
    (arg3 : Memref sig .tc .vmem S1x300 .f32) (harg3 : arg3.IsWhole) (arg4 : Memref sig .tc .vmem S1x300 .f32) (harg4 : arg4.IsWhole)
    (arg5 : Memref sig .tc .vmem S1x300 .f32) (harg5 : arg5.IsWhole) (arg6 : Memref sig .tc .vmem S1x300 .f32) (harg6 : arg6.IsWhole)
    (arg7 : Memref sig .tc .vmem S2000x300 .f32) (harg7 : arg7.IsWhole)
    (x0 : Vec F S2000x300 .f32) (x1 x2 x3 x4 x5 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out14_6 x0 x1 x2 x3 x4 x5)) -∗ K ⟨⟩))
      ⊢ wp frame (wpE (defs₀ (F := F)) Variants.none c none) E (cc14__bn_norm_kernel i arg1 harg1 arg2 harg2 arg3 harg3 arg4 harg4 arg5 harg5 arg6 harg6 arg7 harg7) K := by
  simp only [cc14__bn_norm_kernel_eq_skeleton]; unfold cc14__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-- The proof data of the pipeline on core c: the arrays as the region finds them; after the body each input's
    buffer at its block and the output's at the normalised block of the point's blocks; the invariant the scoped
    rest and the generator register; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) :
    (dat14 V c).after 6 t = out14_6 (iblk14 V c 0 t) (iblk14 V c 1 t) (iblk14 V c 2 t) (iblk14 V c 3 t) (iblk14 V c 4 t) (iblk14 V c 5 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ _ _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Reg

end
-- ==== Proof.KI.Reg15.lean ====
/-
  Region 15 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

abbrev r15_a : Rect S2000x300 := Rect.unit (s := S2000x300) ![0, 0] S2000x300.size inb_S2000x300_S2000x300_0_0
abbrev r15_o : Rect S2000x256 := Rect.unit (s := S2000x256) ![0, 0] S2000x256.size inb_S2000x256_S2000x256_0_0
abbrev r15_b : Rect S300x256 := Rect.unit (s := S300x256) ![0, 0] S300x256.size inb_S300x256_S300x256_0_0
abbrev r15_c : Rect S1x256 := Rect.unit (s := S1x256) ![0, 0] S1x256.size inb_S1x256_S1x256_0_0

/-- The output block after the body: its one whole-block store, of the product of the row block with the
    weights plus the bias row. -/
def out15_3 (x0 : Vec F S2000x300 .f32) (x1 : Vec F S300x256 .f32) (x2 : Vec F S1x256 .f32) : Vec F S2000x256 .f32 :=
  View.canon [⟨r15_o, k15_pay1 (View.ld x0 r15_a) (View.ld x1 r15_b) (View.ld x2 r15_c)⟩]

theorem cover15_3 (p0 : Vec F S2000x256 .f32) (y : S2000x256.Idx) :
    ∃ pc ∈ ([⟨r15_o, p0⟩] : List (View.Piece (Elt F) S2000x256 .f32)), y ∈ pc.1.set :=
  View.cover_of_tiled [⟨r15_o, p0⟩] S2000x256.size (by rfl) y

set_option maxHeartbeats 1000000 in
/-- The body on whole staging memrefs: the three inputs kept, the output block at the product. -/
theorem sound_kernel15 (c : Dev nD) (E : Set ℕ) (i : grid15.Coords)
    (arg1 : Memref sig .tc .vmem S2000x300 .f32) (harg1 : arg1.IsWhole) (arg2 : Memref sig .tc .vmem S300x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x300 .f32) (x1 : Vec F S300x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out15_3 x0 x1 x2)) -∗ K ⟨⟩))
      ⊢ wp frame (wpE (defs₀ (F := F)) Variants.none c none) E (cc15__matmul_kernel i arg1 harg1 arg2 harg2 arg3 harg3 arg4 harg4) K := by
  simp only [cc15__matmul_kernel_eq_skeleton]; unfold cc15__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- The proof data of the pipeline on core c: the arrays as the region finds them; after the body each input's
    buffer at its block and the output's at the product of the point's blocks; the invariant the scoped rest and
    the generator register; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Reg

end
-- ==== Proof.KI.Reg16.lean ====
/-
  Region 16 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's staging buffer holds its block at every point, fetched there or not. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

abbrev r16_a : Rect S2048x256 := Rect.unit (s := S2048x256) ![0, 0] S2048x256.size inb_S2048x256_S2048x256_0_0
abbrev r16_o : Rect S2048x128 := Rect.unit (s := S2048x128) ![0, 0] S2048x128.size inb_S2048x128_S2048x128_0_0
abbrev r16_b : Rect S256x128 := Rect.unit (s := S256x128) ![0, 0] S256x128.size inb_S256x128_S256x128_0_0
abbrev r16_c : Rect S1x128 := Rect.unit (s := S1x128) ![0, 0] S1x128.size inb_S1x128_S1x128_0_0

/-- The output block after the body: its one whole-block store, of the product of the row block with the
    weights plus the bias row. -/
def out16_3 (x0 : Vec F S2048x256 .f32) (x1 : Vec F S256x128 .f32) (x2 : Vec F S1x128 .f32) : Vec F S2048x128 .f32 :=
  View.canon [⟨r16_o, k16_pay1 (View.ld x0 r16_a) (View.ld x1 r16_b) (View.ld x2 r16_c)⟩]

theorem cover16_3 (p0 : Vec F S2048x128 .f32) (y : S2048x128.Idx) :
    ∃ pc ∈ ([⟨r16_o, p0⟩] : List (View.Piece (Elt F) S2048x128 .f32)), y ∈ pc.1.set :=
  View.cover_of_tiled [⟨r16_o, p0⟩] S2048x128.size (by rfl) y

set_option maxHeartbeats 1000000 in
/-- The body on whole staging memrefs: the three inputs kept, the output block at the product. -/
theorem sound_kernel16 (c : Dev nD) (E : Set ℕ) (i : grid16.Coords)
    (arg1 : Memref sig .tc .vmem S2048x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out16_3 x0 x1 x2)) -∗ K ⟨⟩))
      ⊢ wp frame (wpE (defs₀ (F := F)) Variants.none c none) E (cc16__matmul_kernel i arg1 harg1 arg2 harg2 arg3 harg3 arg4 harg4) K := by
  simp only [cc16__matmul_kernel_eq_skeleton]; unfold cc16__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

/-- The proof data of the pipeline on core c: the arrays as the region finds them; after the body each input's
    buffer at its block and the output's at the product of the point's blocks; the invariant the scoped rest and
    the generator register; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16_3 (iblk16 V c 0 t) (iblk16 V c 1 t) (iblk16 V c 2 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- What the body is called with at point t, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Reg

end
-- ==== Proof.KI.Reg17.lean ====
/-
  Region 17 of the program: a tiled matrix product x · w + bias over the grid's row blocks.
  At a parameter V (the buffer contents when the region is entered): each window's block at a grid
  point, what the body leaves in the output block (the product of the row block with the whole
  weight matrix plus the broadcast bias row; for the rectified layer, its maximum with zero), the body's
  triple, the proof data of the pipeline and the body obligation at every point. Stated at any float instance.
-/
import proofs.«120348_j28252294873367_1_alg».proof.Proof.Gen.KernelIdeal.Launch
import proofs.«120348_j28252294873367_1_alg».proof.Proof.Gen.KernelIdeal.Skeleton
import proofs.«120348_j28252294873367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

abbrev r17_a : Rect S2048x128 := Rect.unit (s := S2048x128) ![0, 0] S2048x128.size inb_S2048x128_S2048x128_0_0
abbrev r17_o : Rect S2048x2 := Rect.unit (s := S2048x2) ![0, 0] S2048x2.size inb_S2048x2_S2048x2_0_0
abbrev r17_b : Rect S128x2 := Rect.unit (s := S128x2) ![0, 0] S128x2.size inb_S128x2_S128x2_0_0
abbrev r17_c : Rect S1x2 := Rect.unit (s := S1x2) ![0, 0] S1x2.size inb_S1x2_S1x2_0_0

/-- The output block after the body: its one whole-block store, of the product of the row block with the
    weights plus the bias row. -/
def out17_3 (x0 : Vec F S2048x128 .f32) (x1 : Vec F S128x2 .f32) (x2 : Vec F S1x2 .f32) : Vec F S2048x2 .f32 :=
  View.canon [⟨r17_o, k17_pay1 (View.ld x0 r17_a) (View.ld x1 r17_b) (View.ld x2 r17_c)⟩]

theorem cover17_3 (p0 : Vec F S2048x2 .f32) (y : S2048x2.Idx) :
    ∃ pc ∈ ([⟨r17_o, p0⟩] : List (View.Piece (Elt F) S2048x2 .f32)), y ∈ pc.1.set :=
  View.cover_of_tiled [⟨r17_o, p0⟩] S2048x2.size (by rfl) y

set_option maxHeartbeats 1000000 in
/-- The body on whole staging memrefs: the three inputs kept, the output block at the product. -/
theorem sound_kernel17 (c : Dev nD) (E : Set ℕ) (i : grid17.Coords)
    (arg1 : Memref sig .tc .vmem S2048x128 .f32) (harg1 : arg1.IsWhole) (arg2 : Memref sig .tc .vmem S128x2 .f32) (harg2 : arg2.IsWhole)
    (arg3 : Memref sig .tc .vmem S1x2 .f32) (harg3 : arg3.IsWhole) (arg4 : Memref sig .tc .vmem S2048x2 .f32) (harg4 : arg4.IsWhole)
    (x0 : Vec F S2048x128 .f32) (x1 : Vec F S128x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out17_3 x0 x1 x2)) -∗ K ⟨⟩))
      ⊢ wp frame (wpE (defs₀ (F := F)) Variants.none c none) E (cc17__matmul_kernel i arg1 harg1 arg2 harg2 arg3 harg3 arg4 harg4) K := by
  simp only [cc17__matmul_kernel_eq_skeleton]; unfold cc17__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-- The proof data of the pipeline on core c: the arrays as the region finds them; after the body each input's
    buffer at its block and the output's at the product of the point's blocks; the invariant the scoped rest and
    the generator register; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-- What the body is called with at point t, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Reg

end
-- ==== Proof.KI.Chain.lean ====
/-
  The program's eighteen regions joined: the buffer contents each region is entered from (the launch contents, each
  host stretch applied, what each earlier region left), the condition that the unknowns outs are what the regions
  leave in their output arrays, and every pipeline's proof data at its region's entry contents.
-/
import proofs.«120348_j28252294873367_1_alg».proof.Proof.RegionsKI
import proofs.«120348_j28252294873367_1_alg».proof.Proof.KI.Reg0
import proofs.«120348_j28252294873367_1_alg».proof.Proof.KI.Reg1
import proofs.«120348_j28252294873367_1_alg».proof.Proof.KI.Reg2
import proofs.«120348_j28252294873367_1_alg».proof.Proof.KI.Reg3
import proofs.«120348_j28252294873367_1_alg».proof.Proof.KI.Reg4
import proofs.«120348_j28252294873367_1_alg».proof.Proof.KI.Reg5
import proofs.«120348_j28252294873367_1_alg».proof.Proof.KI.Reg6
import proofs.«120348_j28252294873367_1_alg».proof.Proof.KI.Reg7
import proofs.«120348_j28252294873367_1_alg».proof.Proof.KI.Reg8
import proofs.«120348_j28252294873367_1_alg».proof.Proof.KI.Reg9
import proofs.«120348_j28252294873367_1_alg».proof.Proof.KI.Reg10
import proofs.«120348_j28252294873367_1_alg».proof.Proof.KI.Reg11
import proofs.«120348_j28252294873367_1_alg».proof.Proof.KI.Reg12
import proofs.«120348_j28252294873367_1_alg».proof.Proof.KI.Reg13
import proofs.«120348_j28252294873367_1_alg».proof.Proof.KI.Reg14
import proofs.«120348_j28252294873367_1_alg».proof.Proof.KI.Reg15
import proofs.«120348_j28252294873367_1_alg».proof.Proof.KI.Reg16
import proofs.«120348_j28252294873367_1_alg».proof.Proof.KI.Reg17

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (outs : Outs (F := F))

/-! ## The contents each region is entered from and left at, read at the TensorCore's references -/
abbrev Ve0 : (c : Dev nD) → (b : Ref sig .tc) → Buf (Elt F) ((c : Thread nD τ).loc b) := fun c b => V1 m c b
abbrev Vx0 : (c : Dev nD) → (b : Ref sig .tc) → Buf (Elt F) ((c : Thread nD τ).loc b) := fun c b => V2 m outs c b
abbrev Ve1 : (c : Dev nD) → (b : Ref sig .tc) → Buf (Elt F) ((c : Thread nD τ).loc b) := fun c b => V3 m outs c b
abbrev Vx1 : (c : Dev nD) → (b : Ref sig .tc) → Buf (Elt F) ((c : Thread nD τ).loc b) := fun c b => V4 m outs c b
abbrev Ve2 : (c : Dev nD) → (b : Ref sig .tc) → Buf (Elt F) ((c : Thread nD τ).loc b) := fun c b => V5 m outs c b
abbrev Vx2 : (c : Dev nD) → (b : Ref sig .tc) → Buf (Elt F) ((c : Thread nD τ).loc b) := fun c b => V6 m outs c b
abbrev Ve3 : (c : Dev nD) → (b : Ref sig .tc) → Buf (Elt F) ((c : Thread nD τ).loc b) := fun c b => V7 m outs c b
abbrev Vx3 : (c : Dev nD) → (b : Ref sig .tc) → Buf (Elt F) ((c : Thread nD τ).loc b) := fun c b => V8 m outs c b
abbrev Ve4 : (c : Dev nD) → (b : Ref sig .tc) → Buf (Elt F) ((c : Thread nD τ).loc b) := fun c b => V9 m outs c b
abbrev Vx4 : (c : Dev nD) → (b : Ref sig .tc) → Buf (Elt F) ((c : Thread nD τ).loc b) := fun c b => V10 m outs c b
abbrev Ve5 : (c : Dev nD) → (b : Ref sig .tc) → Buf (Elt F) ((c : Thread nD τ).loc b) := fun c b => V11 m outs c b
abbrev Vx5 : (c : Dev nD) → (b : Ref sig .tc) → Buf (Elt F) ((c : Thread nD τ).loc b) := fun c b => V12 m outs c b
abbrev Ve6 : (c : Dev nD) → (b : Ref sig .tc) → Buf (Elt F) ((c : Thread nD τ).loc b) := fun c b => V13 m outs c b
abbrev Vx6 : (c : Dev nD) → (b : Ref sig .tc) → Buf (Elt F) ((c : Thread nD τ).loc b) := fun c b => V14 m outs c b
abbrev Ve7 : (c : Dev nD) → (b : Ref sig .tc) → Buf (Elt F) ((c : Thread nD τ).loc b) := fun c b => V15 m outs c b
abbrev Vx7 : (c : Dev nD) → (b : Ref sig .tc) → Buf (Elt F) ((c : Thread nD τ).loc b) := fun c b => V16 m outs c b
abbrev Ve8 : (c : Dev nD) → (b : Ref sig .tc) → Buf (Elt F) ((c : Thread nD τ).loc b) := fun c b => V17 m outs c b
abbrev Vx8 : (c : Dev nD) → (b : Ref sig .tc) → Buf (Elt F) ((c : Thread nD τ).loc b) := fun c b => V18 m outs c b
abbrev Ve9 : (c : Dev nD) → (b : Ref sig .tc) → Buf (Elt F) ((c : Thread nD τ).loc b) := fun c b => V19 m outs c b
abbrev Vx9 : (c : Dev nD) → (b : Ref sig .tc) → Buf (Elt F) ((c : Thread nD τ).loc b) := fun c b => V20 m outs c b
abbrev Ve10 : (c : Dev nD) → (b : Ref sig .tc) → Buf (Elt F) ((c : Thread nD τ).loc b) := fun c b => V21 m outs c b
abbrev Vx10 : (c : Dev nD) → (b : Ref sig .tc) → Buf (Elt F) ((c : Thread nD τ).loc b) := fun c b => V22 m outs c b
abbrev Ve11 : (c : Dev nD) → (b : Ref sig .tc) → Buf (Elt F) ((c : Thread nD τ).loc b) := fun c b => V23 m outs c b
abbrev Vx11 : (c : Dev nD) → (b : Ref sig .tc) → Buf (Elt F) ((c : Thread nD τ).loc b) := fun c b => V24 m outs c b
abbrev Ve12 : (c : Dev nD) → (b : Ref sig .tc) → Buf (Elt F) ((c : Thread nD τ).loc b) := fun c b => V25 m outs c b
abbrev Vx12 : (c : Dev nD) → (b : Ref sig .tc) → Buf (Elt F) ((c : Thread nD τ).loc b) := fun c b => V26 m outs c b
abbrev Ve13 : (c : Dev nD) → (b : Ref sig .tc) → Buf (Elt F) ((c : Thread nD τ).loc b) := fun c b => V27 m outs c b
abbrev Vx13 : (c : Dev nD) → (b : Ref sig .tc) → Buf (Elt F) ((c : Thread nD τ).loc b) := fun c b => V28 m outs c b
abbrev Ve14 : (c : Dev nD) → (b : Ref sig .tc) → Buf (Elt F) ((c : Thread nD τ).loc b) := fun c b => V29 m outs c b
abbrev Vx14 : (c : Dev nD) → (b : Ref sig .tc) → Buf (Elt F) ((c : Thread nD τ).loc b) := fun c b => V30 m outs c b
abbrev Ve15 : (c : Dev nD) → (b : Ref sig .tc) → Buf (Elt F) ((c : Thread nD τ).loc b) := fun c b => V31 m outs c b
abbrev Vx15 : (c : Dev nD) → (b : Ref sig .tc) → Buf (Elt F) ((c : Thread nD τ).loc b) := fun c b => V32 m outs c b
abbrev Ve16 : (c : Dev nD) → (b : Ref sig .tc) → Buf (Elt F) ((c : Thread nD τ).loc b) := fun c b => V33 m outs c b
abbrev Vx16 : (c : Dev nD) → (b : Ref sig .tc) → Buf (Elt F) ((c : Thread nD τ).loc b) := fun c b => V34 m outs c b
abbrev Ve17 : (c : Dev nD) → (b : Ref sig .tc) → Buf (Elt F) ((c : Thread nD τ).loc b) := fun c b => V35 m outs c b
abbrev Vx17 : (c : Dev nD) → (b : Ref sig .tc) → Buf (Elt F) ((c : Thread nD τ).loc b) := fun c b => V36 m outs c b

set_option maxHeartbeats 4000000 in
/-- The unknowns are what the regions leave: each output array's write-backs folded over the grid. -/
structure OutsOK : Prop where
  o0_3 : ∀ c : Dev nD, outs 2 main_v37 c = (dat0 (Ve0 m) c).arrAt 3 cfg0.N
  o1_2 : ∀ c : Dev nD, outs 4 main_v72_0 c = (dat1 (Ve1 m outs) c).arrAt 2 cfg1.N
  o1_3 : ∀ c : Dev nD, outs 4 main_v72_1 c = (dat1 (Ve1 m outs) c).arrAt 3 cfg1.N
  o2_6 : ∀ c : Dev nD, outs 6 main_v82 c = (dat2 (Ve2 m outs) c).arrAt 6 cfg2.N
  o3_3 : ∀ c : Dev nD, outs 8 main_v86 c = (dat3 (Ve3 m outs) c).arrAt 3 cfg3.N
  o4_2 : ∀ c : Dev nD, outs 10 main_v121_0 c = (dat4 (Ve4 m outs) c).arrAt 2 cfg4.N
  o4_3 : ∀ c : Dev nD, outs 10 main_v121_1 c = (dat4 (Ve4 m outs) c).arrAt 3 cfg4.N
  o5_6 : ∀ c : Dev nD, outs 12 main_v131 c = (dat5 (Ve5 m outs) c).arrAt 6 cfg5.N
  o6_3 : ∀ c : Dev nD, outs 14 main_v135 c = (dat6 (Ve6 m outs) c).arrAt 3 cfg6.N
  o7_2 : ∀ c : Dev nD, outs 16 main_v170_0 c = (dat7 (Ve7 m outs) c).arrAt 2 cfg7.N
  o7_3 : ∀ c : Dev nD, outs 16 main_v170_1 c = (dat7 (Ve7 m outs) c).arrAt 3 cfg7.N
  o8_6 : ∀ c : Dev nD, outs 18 main_v180 c = (dat8 (Ve8 m outs) c).arrAt 6 cfg8.N
  o9_3 : ∀ c : Dev nD, outs 20 main_v184 c = (dat9 (Ve9 m outs) c).arrAt 3 cfg9.N
  o10_2 : ∀ c : Dev nD, outs 22 main_v219_0 c = (dat10 (Ve10 m outs) c).arrAt 2 cfg10.N
  o10_3 : ∀ c : Dev nD, outs 22 main_v219_1 c = (dat10 (Ve10 m outs) c).arrAt 3 cfg10.N
  o11_6 : ∀ c : Dev nD, outs 24 main_v229 c = (dat11 (Ve11 m outs) c).arrAt 6 cfg11.N
  o12_3 : ∀ c : Dev nD, outs 26 main_v233 c = (dat12 (Ve12 m outs) c).arrAt 3 cfg12.N
  o13_2 : ∀ c : Dev nD, outs 28 main_v268_0 c = (dat13 (Ve13 m outs) c).arrAt 2 cfg13.N
  o13_3 : ∀ c : Dev nD, outs 28 main_v268_1 c = (dat13 (Ve13 m outs) c).arrAt 3 cfg13.N
  o14_6 : ∀ c : Dev nD, outs 30 main_v278 c = (dat14 (Ve14 m outs) c).arrAt 6 cfg14.N
  o15_3 : ∀ c : Dev nD, outs 32 main_v280 c = (dat15 (Ve15 m outs) c).arrAt 3 cfg15.N
  o16_3 : ∀ c : Dev nD, outs 34 main_v294 c = (dat16 (Ve16 m outs) c).arrAt 3 cfg16.N
  o17_3 : ∀ c : Dev nD, outs 36 main_v296 c = (dat17 (Ve17 m outs) c).arrAt 3 cfg17.N

set_option maxHeartbeats 4000000 in
/-- Every pipeline's proof data, each at its region's entry contents: a literal match on the pipeline. -/
def pdats : (p : Fin 18) → (c : Dev nD) → Dat τ (Elt F) Unit ℕ (UR sig nD τ) ℕ (cfgs p) c
  | ⟨0, _⟩ => fun c => dat0 (Ve0 m) c
  | ⟨1, _⟩ => fun c => dat1 (Ve1 m outs) c
  | ⟨2, _⟩ => fun c => dat2 (Ve2 m outs) c
  | ⟨3, _⟩ => fun c => dat3 (Ve3 m outs) c
  | ⟨4, _⟩ => fun c => dat4 (Ve4 m outs) c
  | ⟨5, _⟩ => fun c => dat5 (Ve5 m outs) c
  | ⟨6, _⟩ => fun c => dat6 (Ve6 m outs) c
  | ⟨7, _⟩ => fun c => dat7 (Ve7 m outs) c
  | ⟨8, _⟩ => fun c => dat8 (Ve8 m outs) c
  | ⟨9, _⟩ => fun c => dat9 (Ve9 m outs) c
  | ⟨10, _⟩ => fun c => dat10 (Ve10 m outs) c
  | ⟨11, _⟩ => fun c => dat11 (Ve11 m outs) c
  | ⟨12, _⟩ => fun c => dat12 (Ve12 m outs) c
  | ⟨13, _⟩ => fun c => dat13 (Ve13 m outs) c
  | ⟨14, _⟩ => fun c => dat14 (Ve14 m outs) c
  | ⟨15, _⟩ => fun c => dat15 (Ve15 m outs) c
  | ⟨16, _⟩ => fun c => dat16 (Ve16 m outs) c
  | ⟨17, _⟩ => fun c => dat17 (Ve17 m outs) c
  | ⟨_ + 18, h⟩ => absurd h (Nat.not_lt.2 (Nat.le_add_left _ _))

/-- What rides beside the buffers through every item: the core's generator register at some state and what the core
    owes the others, nothing. -/
abbrev R (c : Dev nD) : sProp (MT nD τ sig Unit (Elt F) ℕ (UR sig nD τ) ℕ) :=
  iprop((∃ r, prngReg c r) ∗ ∃ W, owes (c : Thread nD τ) (0 : CellTallies nD τ sig Unit) W)

abbrev 𝒱₀ : Variants := Variants.none
/-- No core owes another anything: no level is assigned. -/
abbrev L : GSem nD τ sig → Finset Unit := fun _ => ∅
abbrev lv : GSem nD τ sig → Unit → ℕ := fun _ _ => 0

end Cert.KernelIdeal.Reg

end
-- ==== Proof.KI.SegOf.lean ====
import proofs.«120348_j28252294873367_1_alg».proof.Proof.KI.Chain

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

theorem upd_eq {V : Valuation τ sig (Elt F)} {r : DevRef τ sig} {x y : BufTy.Contents (Elt F) r.ty} (h : x = y) :
    y = Function.update V r x r := by rw [Function.update_self]; exact h.symm

theorem upd_eq' {V : Valuation τ sig (Elt F)} {r r' : DevRef τ sig} (hne : r ≠ r') {x y : BufTy.Contents (Elt F) r.ty}
    {z : BufTy.Contents (Elt F) r'.ty} (h : x = y) : y = Function.update (Function.update V r x) r' z r := by
  rw [Function.update_of_ne hne, Function.update_self]; exact h.symm

theorem hinA {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA
  iintro ⟨Hp, -, Hr⟩
  isplitl [Hr]; · iexact Hr
  iexact Hp

theorem houtA {gr W : ℕ} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

variable (m : (ℓ : Loc nD τ sig) → Buf (Elt F) ℓ) (outs : Outs (F := F))

/-- Region p as a segment between the valuations V and V', which differ only at the arrays of the output windows o. -/
def regOf (p : Fin 18) (lf : Pipeline.LaunchFacts (nD := nD) (τ := τ) cfgs p) (V V' : Dev nD → Valuation τ sig (Elt F))
    (o : List (Fin (cfgs p).W))
    (hbody : ∀ c, Pipeline.BodyObligationLoose (pdats m outs p c) (defs₀ (F := F)) 𝒱₀ () Set.univ)
    (hin : ∀ c, iprop((∃ r, prngReg c r) ∗ Pipeline.prefHeld (pcfgs (F := F) p).pre c (fun _ => fullShare) (adm p).1
        ∗ Pipeline.scopedRest (cfgs p).spec c) ⊢ (pdats m outs p c).Φ 0)
    (hout : ∀ c, (pdats m outs p c).Φ (Fin.last (cfgs p).N) ⊢ iprop((∃ r, prngReg c r) ∗ Pipeline.scopedRest (cfgs p).spec c))
    (hV : ∀ c (r : Ref sig .tc), r ∉ o.map (Pipeline.arrRef (cfgs p).spec) → V' c r = V c r)
    (hF : ∀ c, o.Forall fun w => (pdats m outs p c).arrAt w (cfgs p).N = V' c (Pipeline.arrRef (cfgs p).spec w))
    (hio : ∀ w, w ∉ o → ((cfgs p).win w).isOut = false ∧ Pipeline.arrRef (cfgs p).spec w ∉ o.map (Pipeline.arrRef (cfgs p).spec) := by decide)
    (hd : ∀ c, ((pdats m outs p c).q = fun _ => fullShare) ∧ ((pdats m outs p c).owed = fun _ => 0) ∧ (pdats m outs p c).recorded 0 = Set.univ
      ∧ ∀ w, (pdats m outs p c).A w = V c (Pipeline.arrRef (cfgs p).spec w) := by exact fun _ => ⟨rfl, rfl, rfl, fun _ => rfl⟩) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p fun c => congrFun (hd c).2.1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m outs) lf.win lf.arr_whole c
      ((pdats m outs p c).share_full (congrFun (hd c).1)) (fun b => V c b) (hd c).2.2.2
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(hd c).2.1, (hd c).2.2.1]
      icases HO with ⟨%W, HO⟩; iexists W; isplitr; · ipureintro; exact fun _ _ => Or.inl trivial
      iexact HO
    isplitl [Hp]; · iexact Hp
    iexact Hrest
  hin := hin
  hout c := by
    rw [Pipeline.ownSems0_none]
    refine (hout c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (congrFun (hd c).1))
      (fun b => V c b) (fun b => V' c b) ((pdats m outs p c).arrAt · (cfgs p).N)
      (fun w => if hw : w ∈ o then List.forall_iff_forall_mem.mp (hF c) w hw else
        (((pdats m outs p c).arrAt_in w (hio w hw).1 _).trans ((hd c).2.2.2 w)).trans (hV c _ (hio w hw).2).symm)
      fun b hb => hV c b fun hm => hb (by
        obtain ⟨w, -, rfl⟩ := List.mem_map.mp hm
        exact Finset.mem_image_of_mem _ (Finset.mem_univ w))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

end Cert.KernelIdeal.Reg

end
-- ==== Proof.KI.Seg0.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg0 (ho : OutsOK m outs) : Pipeline.RegionSeg (pcfgs (F := F)) adm (pdats m outs) () defs₀ 𝒱₀ L lv 0 :=
  regOf m outs 0 launch0 (V1 m) (V2 m outs) [3] (fun c => (body_obligation0 (Ve0 m) c).loose)
    (fun c => hinA _ c _) (fun c => houtA _ c) (V2_of m outs) fun c => upd_eq (ho.o0_3 c)

end Cert.KernelIdeal.Reg

end
-- ==== Proof.KI.Seg1.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg1 (ho : OutsOK m outs) : Pipeline.RegionSeg (pcfgs (F := F)) adm (pdats m outs) () defs₀ 𝒱₀ L lv 1 :=
  regOf m outs 1 launch1 (V3 m outs) (V4 m outs) [2, 3] (fun c => (body_obligation1 (Ve1 m outs) c).loose)
    (fun c => hin1 (Ve1 m outs) c _) (hout1 (Ve1 m outs)) (V4_of m outs) fun c => ⟨upd_eq' (StableHlo.devRef_ne_of_ne (by decide +revert)) (ho.o1_2 c), upd_eq (ho.o1_3 c)⟩

end Cert.KernelIdeal.Reg

end
-- ==== Proof.KI.Seg2.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg2 (ho : OutsOK m outs) : Pipeline.RegionSeg (pcfgs (F := F)) adm (pdats m outs) () defs₀ 𝒱₀ L lv 2 :=
  regOf m outs 2 launch2 (V5 m outs) (V6 m outs) [6] (fun c => (body_obligation2 (Ve2 m outs) c).loose)
    (fun c => hinA _ c _) (fun c => houtA _ c) (V6_of m outs) fun c => upd_eq (ho.o2_6 c)

end Cert.KernelIdeal.Reg

end
-- ==== Proof.KI.Seg3.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg3 (ho : OutsOK m outs) : Pipeline.RegionSeg (pcfgs (F := F)) adm (pdats m outs) () defs₀ 𝒱₀ L lv 3 :=
  regOf m outs 3 launch3 (V7 m outs) (V8 m outs) [3] (fun c => (body_obligation3 (Ve3 m outs) c).loose)
    (fun c => hinA _ c _) (fun c => houtA _ c) (V8_of m outs) fun c => upd_eq (ho.o3_3 c)

end Cert.KernelIdeal.Reg

end
-- ==== Proof.KI.Seg4.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg4 (ho : OutsOK m outs) : Pipeline.RegionSeg (pcfgs (F := F)) adm (pdats m outs) () defs₀ 𝒱₀ L lv 4 :=
  regOf m outs 4 launch4 (V9 m outs) (V10 m outs) [2, 3] (fun c => (body_obligation4 (Ve4 m outs) c).loose)
    (fun c => hin4 (Ve4 m outs) c _) (hout4 (Ve4 m outs)) (V10_of m outs) fun c => ⟨upd_eq' (StableHlo.devRef_ne_of_ne (by decide +revert)) (ho.o4_2 c), upd_eq (ho.o4_3 c)⟩

end Cert.KernelIdeal.Reg

end
-- ==== Proof.KI.Seg5.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg5 (ho : OutsOK m outs) : Pipeline.RegionSeg (pcfgs (F := F)) adm (pdats m outs) () defs₀ 𝒱₀ L lv 5 :=
  regOf m outs 5 launch5 (V11 m outs) (V12 m outs) [6] (fun c => (body_obligation5 (Ve5 m outs) c).loose)
    (fun c => hinA _ c _) (fun c => houtA _ c) (V12_of m outs) fun c => upd_eq (ho.o5_6 c)

end Cert.KernelIdeal.Reg

end
-- ==== Proof.KI.Seg6.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg6 (ho : OutsOK m outs) : Pipeline.RegionSeg (pcfgs (F := F)) adm (pdats m outs) () defs₀ 𝒱₀ L lv 6 :=
  regOf m outs 6 launch6 (V13 m outs) (V14 m outs) [3] (fun c => (body_obligation6 (Ve6 m outs) c).loose)
    (fun c => hinA _ c _) (fun c => houtA _ c) (V14_of m outs) fun c => upd_eq (ho.o6_3 c)

end Cert.KernelIdeal.Reg

end
-- ==== Proof.KI.Seg7.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg7 (ho : OutsOK m outs) : Pipeline.RegionSeg (pcfgs (F := F)) adm (pdats m outs) () defs₀ 𝒱₀ L lv 7 :=
  regOf m outs 7 launch7 (V15 m outs) (V16 m outs) [2, 3] (fun c => (body_obligation7 (Ve7 m outs) c).loose)
    (fun c => hin7 (Ve7 m outs) c _) (hout7 (Ve7 m outs)) (V16_of m outs) fun c => ⟨upd_eq' (StableHlo.devRef_ne_of_ne (by decide +revert)) (ho.o7_2 c), upd_eq (ho.o7_3 c)⟩

end Cert.KernelIdeal.Reg

end
-- ==== Proof.KI.Seg8.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg8 (ho : OutsOK m outs) : Pipeline.RegionSeg (pcfgs (F := F)) adm (pdats m outs) () defs₀ 𝒱₀ L lv 8 :=
  regOf m outs 8 launch8 (V17 m outs) (V18 m outs) [6] (fun c => (body_obligation8 (Ve8 m outs) c).loose)
    (fun c => hinA _ c _) (fun c => houtA _ c) (V18_of m outs) fun c => upd_eq (ho.o8_6 c)

end Cert.KernelIdeal.Reg

end
-- ==== Proof.KI.Seg9.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg9 (ho : OutsOK m outs) : Pipeline.RegionSeg (pcfgs (F := F)) adm (pdats m outs) () defs₀ 𝒱₀ L lv 9 :=
  regOf m outs 9 launch9 (V19 m outs) (V20 m outs) [3] (fun c => (body_obligation9 (Ve9 m outs) c).loose)
    (fun c => hinA _ c _) (fun c => houtA _ c) (V20_of m outs) fun c => upd_eq (ho.o9_3 c)

end Cert.KernelIdeal.Reg

end
-- ==== Proof.KI.Seg10.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg10 (ho : OutsOK m outs) : Pipeline.RegionSeg (pcfgs (F := F)) adm (pdats m outs) () defs₀ 𝒱₀ L lv 10 :=
  regOf m outs 10 launch10 (V21 m outs) (V22 m outs) [2, 3] (fun c => (body_obligation10 (Ve10 m outs) c).loose)
    (fun c => hin10 (Ve10 m outs) c _) (hout10 (Ve10 m outs)) (V22_of m outs) fun c => ⟨upd_eq' (StableHlo.devRef_ne_of_ne (by decide +revert)) (ho.o10_2 c), upd_eq (ho.o10_3 c)⟩

end Cert.KernelIdeal.Reg

end
-- ==== Proof.KI.Seg11.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg11 (ho : OutsOK m outs) : Pipeline.RegionSeg (pcfgs (F := F)) adm (pdats m outs) () defs₀ 𝒱₀ L lv 11 :=
  regOf m outs 11 launch11 (V23 m outs) (V24 m outs) [6] (fun c => (body_obligation11 (Ve11 m outs) c).loose)
    (fun c => hinA _ c _) (fun c => houtA _ c) (V24_of m outs) fun c => upd_eq (ho.o11_6 c)

end Cert.KernelIdeal.Reg

end
-- ==== Proof.KI.Seg12.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg12 (ho : OutsOK m outs) : Pipeline.RegionSeg (pcfgs (F := F)) adm (pdats m outs) () defs₀ 𝒱₀ L lv 12 :=
  regOf m outs 12 launch12 (V25 m outs) (V26 m outs) [3] (fun c => (body_obligation12 (Ve12 m outs) c).loose)
    (fun c => hinA _ c _) (fun c => houtA _ c) (V26_of m outs) fun c => upd_eq (ho.o12_3 c)

end Cert.KernelIdeal.Reg

end
-- ==== Proof.KI.Seg13.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg13 (ho : OutsOK m outs) : Pipeline.RegionSeg (pcfgs (F := F)) adm (pdats m outs) () defs₀ 𝒱₀ L lv 13 :=
  regOf m outs 13 launch13 (V27 m outs) (V28 m outs) [2, 3] (fun c => (body_obligation13 (Ve13 m outs) c).loose)
    (fun c => hin13 (Ve13 m outs) c _) (hout13 (Ve13 m outs)) (V28_of m outs) fun c => ⟨upd_eq' (StableHlo.devRef_ne_of_ne (by decide +revert)) (ho.o13_2 c), upd_eq (ho.o13_3 c)⟩

end Cert.KernelIdeal.Reg

end
-- ==== Proof.KI.Seg14.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg14 (ho : OutsOK m outs) : Pipeline.RegionSeg (pcfgs (F := F)) adm (pdats m outs) () defs₀ 𝒱₀ L lv 14 :=
  regOf m outs 14 launch14 (V29 m outs) (V30 m outs) [6] (fun c => (body_obligation14 (Ve14 m outs) c).loose)
    (fun c => hinA _ c _) (fun c => houtA _ c) (V30_of m outs) fun c => upd_eq (ho.o14_6 c)

end Cert.KernelIdeal.Reg

end
-- ==== Proof.KI.Seg15.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg15 (ho : OutsOK m outs) : Pipeline.RegionSeg (pcfgs (F := F)) adm (pdats m outs) () defs₀ 𝒱₀ L lv 15 :=
  regOf m outs 15 launch15 (V31 m outs) (V32 m outs) [3] (fun c => (body_obligation15 (Ve15 m outs) c).loose)
    (fun c => hinA _ c _) (fun c => houtA _ c) (V32_of m outs) fun c => upd_eq (ho.o15_3 c)

end Cert.KernelIdeal.Reg

end
-- ==== Proof.KI.Seg16.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg16 (ho : OutsOK m outs) : Pipeline.RegionSeg (pcfgs (F := F)) adm (pdats m outs) () defs₀ 𝒱₀ L lv 16 :=
  regOf m outs 16 launch16 (V33 m outs) (V34 m outs) [3] (fun c => (body_obligation16 (Ve16 m outs) c).loose)
    (fun c => hinA _ c _) (fun c => houtA _ c) (V34_of m outs) fun c => upd_eq (ho.o16_3 c)

end Cert.KernelIdeal.Reg

end
-- ==== Proof.KI.Seg17.lean ====
import proofs.«120348_j28252294873367_1_alg».proof.Proof.KI.SegOf

noncomputable section

namespace Cert.KernelIdeal.Reg

open Cert.KernelIdeal Cert.KernelIdeal.Gen Cert.KernelIdeal.GenP Idealize.ShloMosaic

variable {F : FTy → Type} [FloatOps F] (m : (ℓ : Loc nD τ sig) → Buf (Elt F) ℓ) (outs : Outs (F := F))

def reg17 (ho : OutsOK m outs) : Pipeline.RegionSeg (pcfgs (F := F)) adm (pdats m outs) () defs₀ 𝒱₀ L lv 17 :=
  regOf m outs 17 launch17 (V35 m outs) (V36 m outs) [3] (fun c => (body_obligation17 (Ve17 m outs) c).loose)
    (fun c => hinA _ c _) (fun c => houtA _ c) (V36_of m outs) fun c => upd_eq (ho.o17_3 c)

end Cert.KernelIdeal.Reg

end
-- ==== Proof.KI.Run.lean ====
import proofs.«120348_j28252294873367_1_alg».proof.Proof.KI.Seg0
import proofs.«120348_j28252294873367_1_alg».proof.Proof.KI.Seg1
import proofs.«120348_j28252294873367_1_alg».proof.Proof.KI.Seg2
import proofs.«120348_j28252294873367_1_alg».proof.Proof.KI.Seg3
import proofs.«120348_j28252294873367_1_alg».proof.Proof.KI.Seg4
import proofs.«120348_j28252294873367_1_alg».proof.Proof.KI.Seg5
import proofs.«120348_j28252294873367_1_alg».proof.Proof.KI.Seg6
import proofs.«120348_j28252294873367_1_alg».proof.Proof.KI.Seg7
import proofs.«120348_j28252294873367_1_alg».proof.Proof.KI.Seg8
import proofs.«120348_j28252294873367_1_alg».proof.Proof.KI.Seg9
import proofs.«120348_j28252294873367_1_alg».proof.Proof.KI.Seg10
import proofs.«120348_j28252294873367_1_alg».proof.Proof.KI.Seg11
import proofs.«120348_j28252294873367_1_alg».proof.Proof.KI.Seg12
import proofs.«120348_j28252294873367_1_alg».proof.Proof.KI.Seg13
import proofs.«120348_j28252294873367_1_alg».proof.Proof.KI.Seg14
import proofs.«120348_j28252294873367_1_alg».proof.Proof.KI.Seg15
import proofs.«120348_j28252294873367_1_alg».proof.Proof.KI.Seg16
import proofs.«120348_j28252294873367_1_alg».proof.Proof.KI.Seg17

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

theorem launchGhost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launchRest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

theorem run_of (ho : OutsOK m outs) :
    θ_run defs (onTc (τ := τ) (main (F := F))) ⟨m, fun _ => 0, ρ⟩ (fun r => ∀ c : Dev nD,
      ∀ b ∈ Pipeline.ucRefs τ sig, r.2.mem ((c : Thread nD τ).1, b) = V36 m outs c b) :=
  run_cond m (EP := emb₁) (ι := ()) (𝒱₀ := 𝒱₀) (L := L) (lv := lv) (hL := fun _ _ => rfl) (ρ := ρ) (outs := outs) (pdats := pdats m outs)
    (O₀ := 0) (G := fun _ => iprop(emp)) (u₀ := initOf (Pipeline.cells cfgs cellOf_inj) (Pipeline.launchToks cfgs cellOf_inj))
    (hu₀ := launchGhost) (E := fun _ c => R c) (hE0 := launchRest ρ) (hE18 := fun c => by iintro ⟨-, HO⟩; iexact HO)
    (reg0 m outs ho) (fun _ => .rfl) (fun _ => .rfl)
    (reg1 m outs ho) (fun _ => .rfl) (fun _ => .rfl)
    (reg2 m outs ho) (fun _ => .rfl) (fun _ => .rfl)
    (reg3 m outs ho) (fun _ => .rfl) (fun _ => .rfl)
    (reg4 m outs ho) (fun _ => .rfl) (fun _ => .rfl)
    (reg5 m outs ho) (fun _ => .rfl) (fun _ => .rfl)
    (reg6 m outs ho) (fun _ => .rfl) (fun _ => .rfl)
    (reg7 m outs ho) (fun _ => .rfl) (fun _ => .rfl)
    (reg8 m outs ho) (fun _ => .rfl) (fun _ => .rfl)
    (reg9 m outs ho) (fun _ => .rfl) (fun _ => .rfl)
    (reg10 m outs ho) (fun _ => .rfl) (fun _ => .rfl)
    (reg11 m outs ho) (fun _ => .rfl) (fun _ => .rfl)
    (reg12 m outs ho) (fun _ => .rfl) (fun _ => .rfl)
    (reg13 m outs ho) (fun _ => .rfl) (fun _ => .rfl)
    (reg14 m outs ho) (fun _ => .rfl) (fun _ => .rfl)
    (reg15 m outs ho) (fun _ => .rfl) (fun _ => .rfl)
    (reg16 m outs ho) (fun _ => .rfl) (fun _ => .rfl)
    (reg17 m outs ho) (fun _ => .rfl) (fun _ => .rfl)

theorem frame_of (ho : OutsOK m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨(h c (Proc.devRef .tc main_arg0) (Finset.mem_filter.mpr ⟨StableHlo.devRef_mem_tcRefs main_arg0, by decide⟩)).trans (V36_main_arg0 m outs c),
     (h c (Proc.devRef .tc main_arg1) (Finset.mem_filter.mpr ⟨StableHlo.devRef_mem_tcRefs main_arg1, by decide⟩)).trans (V36_main_arg1 m outs c),
     (h c (Proc.devRef .tc main_arg2) (Finset.mem_filter.mpr ⟨StableHlo.devRef_mem_tcRefs main_arg2, by decide⟩)).trans (V36_main_arg2 m outs c),
     (h c (Proc.devRef .tc main_arg3) (Finset.mem_filter.mpr ⟨StableHlo.devRef_mem_tcRefs main_arg3, by decide⟩)).trans (V36_main_arg3 m outs c),
     (h c (Proc.devRef .tc main_arg4) (Finset.mem_filter.mpr ⟨StableHlo.devRef_mem_tcRefs main_arg4, by decide⟩)).trans (V36_main_arg4 m outs c),
     (h c (Proc.devRef .tc main_arg5) (Finset.mem_filter.mpr ⟨StableHlo.devRef_mem_tcRefs main_arg5, by decide⟩)).trans (V36_main_arg5 m outs c),
     (h c (Proc.devRef .tc main_arg6) (Finset.mem_filter.mpr ⟨StableHlo.devRef_mem_tcRefs main_arg6, by decide⟩)).trans (V36_main_arg6 m outs c),
     (h c (Proc.devRef .tc main_arg7) (Finset.mem_filter.mpr ⟨StableHlo.devRef_mem_tcRefs main_arg7, by decide⟩)).trans (V36_main_arg7 m outs c),
     (h c (Proc.devRef .tc main_arg8) (Finset.mem_filter.mpr ⟨StableHlo.devRef_mem_tcRefs main_arg8, by decide⟩)).trans (V36_main_arg8 m outs c),
     (h c (Proc.devRef .tc main_arg9) (Finset.mem_filter.mpr ⟨StableHlo.devRef_mem_tcRefs main_arg9, by decide⟩)).trans (V36_main_arg9 m outs c),
     (h c (Proc.devRef .tc main_arg10) (Finset.mem_filter.mpr ⟨StableHlo.devRef_mem_tcRefs main_arg10, by decide⟩)).trans (V36_main_arg10 m outs c),
     (h c (Proc.devRef .tc main_arg11) (Finset.mem_filter.mpr ⟨StableHlo.devRef_mem_tcRefs main_arg11, by decide⟩)).trans (V36_main_arg11 m outs c),
     (h c (Proc.devRef .tc main_arg12) (Finset.mem_filter.mpr ⟨StableHlo.devRef_mem_tcRefs main_arg12, by decide⟩)).trans (V36_main_arg12 m outs c),
     (h c (Proc.devRef .tc main_arg13) (Finset.mem_filter.mpr ⟨StableHlo.devRef_mem_tcRefs main_arg13, by decide⟩)).trans (V36_main_arg13 m outs c),
     (h c (Proc.devRef .tc main_arg14) (Finset.mem_filter.mpr ⟨StableHlo.devRef_mem_tcRefs main_arg14, by decide⟩)).trans (V36_main_arg14 m outs c),
     (h c (Proc.devRef .tc main_arg15) (Finset.mem_filter.mpr ⟨StableHlo.devRef_mem_tcRefs main_arg15, by decide⟩)).trans (V36_main_arg15 m outs c),
     (h c (Proc.devRef .tc main_arg16) (Finset.mem_filter.mpr ⟨StableHlo.devRef_mem_tcRefs main_arg16, by decide⟩)).trans (V36_main_arg16 m outs c),
     (h c (Proc.devRef .tc main_arg17) (Finset.mem_filter.mpr ⟨StableHlo.devRef_mem_tcRefs main_arg17, by decide⟩)).trans (V36_main_arg17 m outs c)⟩)
    (run_of m ρ outs ho)

end Cert.KernelIdeal.Reg

end
-- ==== Proof.KI.OutsEx.lean ====
/-
  The unknowns of the joined regions exist. The contents between @main's items are written over unknowns outs, what
  each region leaves in its output arrays, and the condition on them (OutsOK) reads each region's unknowns off proof
  data that is itself entered from the earlier unknowns. Two facts solve it. LOCALITY: the contents after item J
  depend on the unknowns at indices up to J only (an item that is a host stretch adds none), so a region's entry
  contents depend on the earlier regions' unknowns only. A LADDER of approximations: start anywhere; given the
  unknowns of the regions before region K, define region K's as what its proof data, entered from those, leaves in
  its arrays, and change nothing else. The last rung agrees with rung K on everything region K reads, so it
  satisfies every region's condition at once.
-/
import proofs.«120348_j28252294873367_1_alg».proof.Proof.KI.Chain
import Idealize.ShloMosaic.Lib.Pipeline.FrameSuffix

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## Locality: the contents after item J read the unknowns at indices up to J only -/
theorem V2_congr {outs outs' : Outs (F := F)} (h : ∀ J' ≤ 2, ∀ r c, outs J' r c = outs' J' r c) (c : Dev nD) :
    V2 m outs c = V2 m outs' c := by
  unfold V2; simp only [h 2 (le_refl _)]
theorem V3_congr {outs outs' : Outs (F := F)} (h : ∀ J' ≤ 2, ∀ r c, outs J' r c = outs' J' r c) (c : Dev nD) :
    V3 m outs c = V3 m outs' c := by
  unfold V3; rw [V2_congr m (fun J' hJ' => h J' (by omega)) c]
theorem V4_congr {outs outs' : Outs (F := F)} (h : ∀ J' ≤ 4, ∀ r c, outs J' r c = outs' J' r c) (c : Dev nD) :
    V4 m outs c = V4 m outs' c := by
  unfold V4; rw [V3_congr m (fun J' hJ' => h J' (by omega)) c]; simp only [h 4 (le_refl _)]
theorem V5_congr {outs outs' : Outs (F := F)} (h : ∀ J' ≤ 4, ∀ r c, outs J' r c = outs' J' r c) (c : Dev nD) :
    V5 m outs c = V5 m outs' c := by
  unfold V5; rw [V4_congr m (fun J' hJ' => h J' (by omega)) c]
theorem V6_congr {outs outs' : Outs (F := F)} (h : ∀ J' ≤ 6, ∀ r c, outs J' r c = outs' J' r c) (c : Dev nD) :
    V6 m outs c = V6 m outs' c := by
  unfold V6; rw [V5_congr m (fun J' hJ' => h J' (by omega)) c]; simp only [h 6 (le_refl _)]
theorem V7_congr {outs outs' : Outs (F := F)} (h : ∀ J' ≤ 6, ∀ r c, outs J' r c = outs' J' r c) (c : Dev nD) :
    V7 m outs c = V7 m outs' c := by
  unfold V7; rw [V6_congr m (fun J' hJ' => h J' (by omega)) c]
theorem V8_congr {outs outs' : Outs (F := F)} (h : ∀ J' ≤ 8, ∀ r c, outs J' r c = outs' J' r c) (c : Dev nD) :
    V8 m outs c = V8 m outs' c := by
  unfold V8; rw [V7_congr m (fun J' hJ' => h J' (by omega)) c]; simp only [h 8 (le_refl _)]
theorem V9_congr {outs outs' : Outs (F := F)} (h : ∀ J' ≤ 8, ∀ r c, outs J' r c = outs' J' r c) (c : Dev nD) :
    V9 m outs c = V9 m outs' c := by
  unfold V9; rw [V8_congr m (fun J' hJ' => h J' (by omega)) c]
theorem V10_congr {outs outs' : Outs (F := F)} (h : ∀ J' ≤ 10, ∀ r c, outs J' r c = outs' J' r c) (c : Dev nD) :
    V10 m outs c = V10 m outs' c := by
  unfold V10; rw [V9_congr m (fun J' hJ' => h J' (by omega)) c]; simp only [h 10 (le_refl _)]
theorem V11_congr {outs outs' : Outs (F := F)} (h : ∀ J' ≤ 10, ∀ r c, outs J' r c = outs' J' r c) (c : Dev nD) :
    V11 m outs c = V11 m outs' c := by
  unfold V11; rw [V10_congr m (fun J' hJ' => h J' (by omega)) c]
theorem V12_congr {outs outs' : Outs (F := F)} (h : ∀ J' ≤ 12, ∀ r c, outs J' r c = outs' J' r c) (c : Dev nD) :
    V12 m outs c = V12 m outs' c := by
  unfold V12; rw [V11_congr m (fun J' hJ' => h J' (by omega)) c]; simp only [h 12 (le_refl _)]
theorem V13_congr {outs outs' : Outs (F := F)} (h : ∀ J' ≤ 12, ∀ r c, outs J' r c = outs' J' r c) (c : Dev nD) :
    V13 m outs c = V13 m outs' c := by
  unfold V13; rw [V12_congr m (fun J' hJ' => h J' (by omega)) c]
theorem V14_congr {outs outs' : Outs (F := F)} (h : ∀ J' ≤ 14, ∀ r c, outs J' r c = outs' J' r c) (c : Dev nD) :
    V14 m outs c = V14 m outs' c := by
  unfold V14; rw [V13_congr m (fun J' hJ' => h J' (by omega)) c]; simp only [h 14 (le_refl _)]
theorem V15_congr {outs outs' : Outs (F := F)} (h : ∀ J' ≤ 14, ∀ r c, outs J' r c = outs' J' r c) (c : Dev nD) :
    V15 m outs c = V15 m outs' c := by
  unfold V15; rw [V14_congr m (fun J' hJ' => h J' (by omega)) c]
theorem V16_congr {outs outs' : Outs (F := F)} (h : ∀ J' ≤ 16, ∀ r c, outs J' r c = outs' J' r c) (c : Dev nD) :
    V16 m outs c = V16 m outs' c := by
  unfold V16; rw [V15_congr m (fun J' hJ' => h J' (by omega)) c]; simp only [h 16 (le_refl _)]
theorem V17_congr {outs outs' : Outs (F := F)} (h : ∀ J' ≤ 16, ∀ r c, outs J' r c = outs' J' r c) (c : Dev nD) :
    V17 m outs c = V17 m outs' c := by
  unfold V17; rw [V16_congr m (fun J' hJ' => h J' (by omega)) c]
theorem V18_congr {outs outs' : Outs (F := F)} (h : ∀ J' ≤ 18, ∀ r c, outs J' r c = outs' J' r c) (c : Dev nD) :
    V18 m outs c = V18 m outs' c := by
  unfold V18; rw [V17_congr m (fun J' hJ' => h J' (by omega)) c]; simp only [h 18 (le_refl _)]
theorem V19_congr {outs outs' : Outs (F := F)} (h : ∀ J' ≤ 18, ∀ r c, outs J' r c = outs' J' r c) (c : Dev nD) :
    V19 m outs c = V19 m outs' c := by
  unfold V19; rw [V18_congr m (fun J' hJ' => h J' (by omega)) c]
theorem V20_congr {outs outs' : Outs (F := F)} (h : ∀ J' ≤ 20, ∀ r c, outs J' r c = outs' J' r c) (c : Dev nD) :
    V20 m outs c = V20 m outs' c := by
  unfold V20; rw [V19_congr m (fun J' hJ' => h J' (by omega)) c]; simp only [h 20 (le_refl _)]
theorem V21_congr {outs outs' : Outs (F := F)} (h : ∀ J' ≤ 20, ∀ r c, outs J' r c = outs' J' r c) (c : Dev nD) :
    V21 m outs c = V21 m outs' c := by
  unfold V21; rw [V20_congr m (fun J' hJ' => h J' (by omega)) c]
theorem V22_congr {outs outs' : Outs (F := F)} (h : ∀ J' ≤ 22, ∀ r c, outs J' r c = outs' J' r c) (c : Dev nD) :
    V22 m outs c = V22 m outs' c := by
  unfold V22; rw [V21_congr m (fun J' hJ' => h J' (by omega)) c]; simp only [h 22 (le_refl _)]
theorem V23_congr {outs outs' : Outs (F := F)} (h : ∀ J' ≤ 22, ∀ r c, outs J' r c = outs' J' r c) (c : Dev nD) :
    V23 m outs c = V23 m outs' c := by
  unfold V23; rw [V22_congr m (fun J' hJ' => h J' (by omega)) c]
theorem V24_congr {outs outs' : Outs (F := F)} (h : ∀ J' ≤ 24, ∀ r c, outs J' r c = outs' J' r c) (c : Dev nD) :
    V24 m outs c = V24 m outs' c := by
  unfold V24; rw [V23_congr m (fun J' hJ' => h J' (by omega)) c]; simp only [h 24 (le_refl _)]
theorem V25_congr {outs outs' : Outs (F := F)} (h : ∀ J' ≤ 24, ∀ r c, outs J' r c = outs' J' r c) (c : Dev nD) :
    V25 m outs c = V25 m outs' c := by
  unfold V25; rw [V24_congr m (fun J' hJ' => h J' (by omega)) c]
theorem V26_congr {outs outs' : Outs (F := F)} (h : ∀ J' ≤ 26, ∀ r c, outs J' r c = outs' J' r c) (c : Dev nD) :
    V26 m outs c = V26 m outs' c := by
  unfold V26; rw [V25_congr m (fun J' hJ' => h J' (by omega)) c]; simp only [h 26 (le_refl _)]
theorem V27_congr {outs outs' : Outs (F := F)} (h : ∀ J' ≤ 26, ∀ r c, outs J' r c = outs' J' r c) (c : Dev nD) :
    V27 m outs c = V27 m outs' c := by
  unfold V27; rw [V26_congr m (fun J' hJ' => h J' (by omega)) c]
theorem V28_congr {outs outs' : Outs (F := F)} (h : ∀ J' ≤ 28, ∀ r c, outs J' r c = outs' J' r c) (c : Dev nD) :
    V28 m outs c = V28 m outs' c := by
  unfold V28; rw [V27_congr m (fun J' hJ' => h J' (by omega)) c]; simp only [h 28 (le_refl _)]
theorem V29_congr {outs outs' : Outs (F := F)} (h : ∀ J' ≤ 28, ∀ r c, outs J' r c = outs' J' r c) (c : Dev nD) :
    V29 m outs c = V29 m outs' c := by
  unfold V29; rw [V28_congr m (fun J' hJ' => h J' (by omega)) c]
theorem V30_congr {outs outs' : Outs (F := F)} (h : ∀ J' ≤ 30, ∀ r c, outs J' r c = outs' J' r c) (c : Dev nD) :
    V30 m outs c = V30 m outs' c := by
  unfold V30; rw [V29_congr m (fun J' hJ' => h J' (by omega)) c]; simp only [h 30 (le_refl _)]
theorem V31_congr {outs outs' : Outs (F := F)} (h : ∀ J' ≤ 30, ∀ r c, outs J' r c = outs' J' r c) (c : Dev nD) :
    V31 m outs c = V31 m outs' c := by
  unfold V31; rw [V30_congr m (fun J' hJ' => h J' (by omega)) c]
theorem V32_congr {outs outs' : Outs (F := F)} (h : ∀ J' ≤ 32, ∀ r c, outs J' r c = outs' J' r c) (c : Dev nD) :
    V32 m outs c = V32 m outs' c := by
  unfold V32; rw [V31_congr m (fun J' hJ' => h J' (by omega)) c]; simp only [h 32 (le_refl _)]
theorem V33_congr {outs outs' : Outs (F := F)} (h : ∀ J' ≤ 32, ∀ r c, outs J' r c = outs' J' r c) (c : Dev nD) :
    V33 m outs c = V33 m outs' c := by
  unfold V33; rw [V32_congr m (fun J' hJ' => h J' (by omega)) c]
theorem V34_congr {outs outs' : Outs (F := F)} (h : ∀ J' ≤ 34, ∀ r c, outs J' r c = outs' J' r c) (c : Dev nD) :
    V34 m outs c = V34 m outs' c := by
  unfold V34; rw [V33_congr m (fun J' hJ' => h J' (by omega)) c]; simp only [h 34 (le_refl _)]
theorem V35_congr {outs outs' : Outs (F := F)} (h : ∀ J' ≤ 34, ∀ r c, outs J' r c = outs' J' r c) (c : Dev nD) :
    V35 m outs c = V35 m outs' c := by
  unfold V35; rw [V34_congr m (fun J' hJ' => h J' (by omega)) c]
theorem V36_congr {outs outs' : Outs (F := F)} (h : ∀ J' ≤ 36, ∀ r c, outs J' r c = outs' J' r c) (c : Dev nD) :
    V36 m outs c = V36 m outs' c := by
  unfold V36; rw [V35_congr m (fun J' hJ' => h J' (by omega)) c]; simp only [h 36 (le_refl _)]

/-! ## So a region's entry contents read the earlier regions' unknowns only -/
theorem Ve1_congr {outs outs' : Outs (F := F)} (h : ∀ J' ≤ 2, ∀ r c, outs J' r c = outs' J' r c) : Ve1 m outs = Ve1 m outs' := by
  funext c b; exact congrFun (V3_congr m h c) _
theorem Ve2_congr {outs outs' : Outs (F := F)} (h : ∀ J' ≤ 4, ∀ r c, outs J' r c = outs' J' r c) : Ve2 m outs = Ve2 m outs' := by
  funext c b; exact congrFun (V5_congr m h c) _
theorem Ve3_congr {outs outs' : Outs (F := F)} (h : ∀ J' ≤ 6, ∀ r c, outs J' r c = outs' J' r c) : Ve3 m outs = Ve3 m outs' := by
  funext c b; exact congrFun (V7_congr m h c) _
theorem Ve4_congr {outs outs' : Outs (F := F)} (h : ∀ J' ≤ 8, ∀ r c, outs J' r c = outs' J' r c) : Ve4 m outs = Ve4 m outs' := by
  funext c b; exact congrFun (V9_congr m h c) _
theorem Ve5_congr {outs outs' : Outs (F := F)} (h : ∀ J' ≤ 10, ∀ r c, outs J' r c = outs' J' r c) : Ve5 m outs = Ve5 m outs' := by
  funext c b; exact congrFun (V11_congr m h c) _
theorem Ve6_congr {outs outs' : Outs (F := F)} (h : ∀ J' ≤ 12, ∀ r c, outs J' r c = outs' J' r c) : Ve6 m outs = Ve6 m outs' := by
  funext c b; exact congrFun (V13_congr m h c) _
theorem Ve7_congr {outs outs' : Outs (F := F)} (h : ∀ J' ≤ 14, ∀ r c, outs J' r c = outs' J' r c) : Ve7 m outs = Ve7 m outs' := by
  funext c b; exact congrFun (V15_congr m h c) _
theorem Ve8_congr {outs outs' : Outs (F := F)} (h : ∀ J' ≤ 16, ∀ r c, outs J' r c = outs' J' r c) : Ve8 m outs = Ve8 m outs' := by
  funext c b; exact congrFun (V17_congr m h c) _
theorem Ve9_congr {outs outs' : Outs (F := F)} (h : ∀ J' ≤ 18, ∀ r c, outs J' r c = outs' J' r c) : Ve9 m outs = Ve9 m outs' := by
  funext c b; exact congrFun (V19_congr m h c) _
theorem Ve10_congr {outs outs' : Outs (F := F)} (h : ∀ J' ≤ 20, ∀ r c, outs J' r c = outs' J' r c) : Ve10 m outs = Ve10 m outs' := by
  funext c b; exact congrFun (V21_congr m h c) _
theorem Ve11_congr {outs outs' : Outs (F := F)} (h : ∀ J' ≤ 22, ∀ r c, outs J' r c = outs' J' r c) : Ve11 m outs = Ve11 m outs' := by
  funext c b; exact congrFun (V23_congr m h c) _
theorem Ve12_congr {outs outs' : Outs (F := F)} (h : ∀ J' ≤ 24, ∀ r c, outs J' r c = outs' J' r c) : Ve12 m outs = Ve12 m outs' := by
  funext c b; exact congrFun (V25_congr m h c) _
theorem Ve13_congr {outs outs' : Outs (F := F)} (h : ∀ J' ≤ 26, ∀ r c, outs J' r c = outs' J' r c) : Ve13 m outs = Ve13 m outs' := by
  funext c b; exact congrFun (V27_congr m h c) _
theorem Ve14_congr {outs outs' : Outs (F := F)} (h : ∀ J' ≤ 28, ∀ r c, outs J' r c = outs' J' r c) : Ve14 m outs = Ve14 m outs' := by
  funext c b; exact congrFun (V29_congr m h c) _
theorem Ve15_congr {outs outs' : Outs (F := F)} (h : ∀ J' ≤ 30, ∀ r c, outs J' r c = outs' J' r c) : Ve15 m outs = Ve15 m outs' := by
  funext c b; exact congrFun (V31_congr m h c) _
theorem Ve16_congr {outs outs' : Outs (F := F)} (h : ∀ J' ≤ 32, ∀ r c, outs J' r c = outs' J' r c) : Ve16 m outs = Ve16 m outs' := by
  funext c b; exact congrFun (V33_congr m h c) _
theorem Ve17_congr {outs outs' : Outs (F := F)} (h : ∀ J' ≤ 34, ∀ r c, outs J' r c = outs' J' r c) : Ve17 m outs = Ve17 m outs' := by
  funext c b; exact congrFun (V35_congr m h c) _

/-! ## The ladder -/

/-- Rung 0: anything (the launch contents). -/
def outsA0 (J : ℕ) (r : Ref sig .tc) (c : Dev nD) : Buf (Elt F) ((c : Thread nD τ).loc r) := m ((c : Thread nD τ).loc r)
/-- What region 0 leaves, entered from rung 0: its arrays at the write-backs folded over the grid, every other buffer as entered. -/
def left0 (c : Dev nD) : Valuation τ sig (Elt F) :=
  Pipeline.withArrays spec0 c (V1 m c) fun w => (dat0 (Ve0 m) c).arrAt w cfg0.N
/-- Rung 1: rung 0 with region 0's unknowns (index 2) set to that. -/
def outsA1 (J : ℕ) (r : Ref sig .tc) (c : Dev nD) : Buf (Elt F) ((c : Thread nD τ).loc r) :=
  if J = 2 then left0 m c (Proc.devRef (τ := τ) .tc r) else outsA0 m J r c
theorem outsA1_low {J : ℕ} (hJ : J ≤ 1) (r : Ref sig .tc) (c : Dev nD) : outsA1 m J r c = outsA0 m J r c := by
  unfold outsA1; rw [if_neg (by omega)]
/-- What region 1 leaves, entered from rung 1: its arrays at the write-backs folded over the grid, every other buffer as entered. -/
def left1 (c : Dev nD) : Valuation τ sig (Elt F) :=
  Pipeline.withArrays spec1 c (V3 m (outsA1 m) c) fun w => (dat1 (Ve1 m (outsA1 m)) c).arrAt w cfg1.N
/-- Rung 2: rung 1 with region 1's unknowns (index 4) set to that. -/
def outsA2 (J : ℕ) (r : Ref sig .tc) (c : Dev nD) : Buf (Elt F) ((c : Thread nD τ).loc r) :=
  if J = 4 then left1 m c (Proc.devRef (τ := τ) .tc r) else outsA1 m J r c
theorem outsA2_low {J : ℕ} (hJ : J ≤ 3) (r : Ref sig .tc) (c : Dev nD) : outsA2 m J r c = outsA1 m J r c := by
  unfold outsA2; rw [if_neg (by omega)]
/-- What region 2 leaves, entered from rung 2: its arrays at the write-backs folded over the grid, every other buffer as entered. -/
def left2 (c : Dev nD) : Valuation τ sig (Elt F) :=
  Pipeline.withArrays spec2 c (V5 m (outsA2 m) c) fun w => (dat2 (Ve2 m (outsA2 m)) c).arrAt w cfg2.N
/-- Rung 3: rung 2 with region 2's unknowns (index 6) set to that. -/
def outsA3 (J : ℕ) (r : Ref sig .tc) (c : Dev nD) : Buf (Elt F) ((c : Thread nD τ).loc r) :=
  if J = 6 then left2 m c (Proc.devRef (τ := τ) .tc r) else outsA2 m J r c
theorem outsA3_low {J : ℕ} (hJ : J ≤ 5) (r : Ref sig .tc) (c : Dev nD) : outsA3 m J r c = outsA2 m J r c := by
  unfold outsA3; rw [if_neg (by omega)]
/-- What region 3 leaves, entered from rung 3: its arrays at the write-backs folded over the grid, every other buffer as entered. -/
def left3 (c : Dev nD) : Valuation τ sig (Elt F) :=
  Pipeline.withArrays spec3 c (V7 m (outsA3 m) c) fun w => (dat3 (Ve3 m (outsA3 m)) c).arrAt w cfg3.N
/-- Rung 4: rung 3 with region 3's unknowns (index 8) set to that. -/
def outsA4 (J : ℕ) (r : Ref sig .tc) (c : Dev nD) : Buf (Elt F) ((c : Thread nD τ).loc r) :=
  if J = 8 then left3 m c (Proc.devRef (τ := τ) .tc r) else outsA3 m J r c
theorem outsA4_low {J : ℕ} (hJ : J ≤ 7) (r : Ref sig .tc) (c : Dev nD) : outsA4 m J r c = outsA3 m J r c := by
  unfold outsA4; rw [if_neg (by omega)]
/-- What region 4 leaves, entered from rung 4: its arrays at the write-backs folded over the grid, every other buffer as entered. -/
def left4 (c : Dev nD) : Valuation τ sig (Elt F) :=
  Pipeline.withArrays spec4 c (V9 m (outsA4 m) c) fun w => (dat4 (Ve4 m (outsA4 m)) c).arrAt w cfg4.N
/-- Rung 5: rung 4 with region 4's unknowns (index 10) set to that. -/
def outsA5 (J : ℕ) (r : Ref sig .tc) (c : Dev nD) : Buf (Elt F) ((c : Thread nD τ).loc r) :=
  if J = 10 then left4 m c (Proc.devRef (τ := τ) .tc r) else outsA4 m J r c
theorem outsA5_low {J : ℕ} (hJ : J ≤ 9) (r : Ref sig .tc) (c : Dev nD) : outsA5 m J r c = outsA4 m J r c := by
  unfold outsA5; rw [if_neg (by omega)]
/-- What region 5 leaves, entered from rung 5: its arrays at the write-backs folded over the grid, every other buffer as entered. -/
def left5 (c : Dev nD) : Valuation τ sig (Elt F) :=
  Pipeline.withArrays spec5 c (V11 m (outsA5 m) c) fun w => (dat5 (Ve5 m (outsA5 m)) c).arrAt w cfg5.N
/-- Rung 6: rung 5 with region 5's unknowns (index 12) set to that. -/
def outsA6 (J : ℕ) (r : Ref sig .tc) (c : Dev nD) : Buf (Elt F) ((c : Thread nD τ).loc r) :=
  if J = 12 then left5 m c (Proc.devRef (τ := τ) .tc r) else outsA5 m J r c
theorem outsA6_low {J : ℕ} (hJ : J ≤ 11) (r : Ref sig .tc) (c : Dev nD) : outsA6 m J r c = outsA5 m J r c := by
  unfold outsA6; rw [if_neg (by omega)]
/-- What region 6 leaves, entered from rung 6: its arrays at the write-backs folded over the grid, every other buffer as entered. -/
def left6 (c : Dev nD) : Valuation τ sig (Elt F) :=
  Pipeline.withArrays spec6 c (V13 m (outsA6 m) c) fun w => (dat6 (Ve6 m (outsA6 m)) c).arrAt w cfg6.N
/-- Rung 7: rung 6 with region 6's unknowns (index 14) set to that. -/
def outsA7 (J : ℕ) (r : Ref sig .tc) (c : Dev nD) : Buf (Elt F) ((c : Thread nD τ).loc r) :=
  if J = 14 then left6 m c (Proc.devRef (τ := τ) .tc r) else outsA6 m J r c
theorem outsA7_low {J : ℕ} (hJ : J ≤ 13) (r : Ref sig .tc) (c : Dev nD) : outsA7 m J r c = outsA6 m J r c := by
  unfold outsA7; rw [if_neg (by omega)]
/-- What region 7 leaves, entered from rung 7: its arrays at the write-backs folded over the grid, every other buffer as entered. -/
def left7 (c : Dev nD) : Valuation τ sig (Elt F) :=
  Pipeline.withArrays spec7 c (V15 m (outsA7 m) c) fun w => (dat7 (Ve7 m (outsA7 m)) c).arrAt w cfg7.N
/-- Rung 8: rung 7 with region 7's unknowns (index 16) set to that. -/
def outsA8 (J : ℕ) (r : Ref sig .tc) (c : Dev nD) : Buf (Elt F) ((c : Thread nD τ).loc r) :=
  if J = 16 then left7 m c (Proc.devRef (τ := τ) .tc r) else outsA7 m J r c
theorem outsA8_low {J : ℕ} (hJ : J ≤ 15) (r : Ref sig .tc) (c : Dev nD) : outsA8 m J r c = outsA7 m J r c := by
  unfold outsA8; rw [if_neg (by omega)]
/-- What region 8 leaves, entered from rung 8: its arrays at the write-backs folded over the grid, every other buffer as entered. -/
def left8 (c : Dev nD) : Valuation τ sig (Elt F) :=
  Pipeline.withArrays spec8 c (V17 m (outsA8 m) c) fun w => (dat8 (Ve8 m (outsA8 m)) c).arrAt w cfg8.N
/-- Rung 9: rung 8 with region 8's unknowns (index 18) set to that. -/
def outsA9 (J : ℕ) (r : Ref sig .tc) (c : Dev nD) : Buf (Elt F) ((c : Thread nD τ).loc r) :=
  if J = 18 then left8 m c (Proc.devRef (τ := τ) .tc r) else outsA8 m J r c
theorem outsA9_low {J : ℕ} (hJ : J ≤ 17) (r : Ref sig .tc) (c : Dev nD) : outsA9 m J r c = outsA8 m J r c := by
  unfold outsA9; rw [if_neg (by omega)]
/-- What region 9 leaves, entered from rung 9: its arrays at the write-backs folded over the grid, every other buffer as entered. -/
def left9 (c : Dev nD) : Valuation τ sig (Elt F) :=
  Pipeline.withArrays spec9 c (V19 m (outsA9 m) c) fun w => (dat9 (Ve9 m (outsA9 m)) c).arrAt w cfg9.N
/-- Rung 10: rung 9 with region 9's unknowns (index 20) set to that. -/
def outsA10 (J : ℕ) (r : Ref sig .tc) (c : Dev nD) : Buf (Elt F) ((c : Thread nD τ).loc r) :=
  if J = 20 then left9 m c (Proc.devRef (τ := τ) .tc r) else outsA9 m J r c
theorem outsA10_low {J : ℕ} (hJ : J ≤ 19) (r : Ref sig .tc) (c : Dev nD) : outsA10 m J r c = outsA9 m J r c := by
  unfold outsA10; rw [if_neg (by omega)]
/-- What region 10 leaves, entered from rung 10: its arrays at the write-backs folded over the grid, every other buffer as entered. -/
def left10 (c : Dev nD) : Valuation τ sig (Elt F) :=
  Pipeline.withArrays spec10 c (V21 m (outsA10 m) c) fun w => (dat10 (Ve10 m (outsA10 m)) c).arrAt w cfg10.N
/-- Rung 11: rung 10 with region 10's unknowns (index 22) set to that. -/
def outsA11 (J : ℕ) (r : Ref sig .tc) (c : Dev nD) : Buf (Elt F) ((c : Thread nD τ).loc r) :=
  if J = 22 then left10 m c (Proc.devRef (τ := τ) .tc r) else outsA10 m J r c
theorem outsA11_low {J : ℕ} (hJ : J ≤ 21) (r : Ref sig .tc) (c : Dev nD) : outsA11 m J r c = outsA10 m J r c := by
  unfold outsA11; rw [if_neg (by omega)]
/-- What region 11 leaves, entered from rung 11: its arrays at the write-backs folded over the grid, every other buffer as entered. -/
def left11 (c : Dev nD) : Valuation τ sig (Elt F) :=
  Pipeline.withArrays spec11 c (V23 m (outsA11 m) c) fun w => (dat11 (Ve11 m (outsA11 m)) c).arrAt w cfg11.N
/-- Rung 12: rung 11 with region 11's unknowns (index 24) set to that. -/
def outsA12 (J : ℕ) (r : Ref sig .tc) (c : Dev nD) : Buf (Elt F) ((c : Thread nD τ).loc r) :=
  if J = 24 then left11 m c (Proc.devRef (τ := τ) .tc r) else outsA11 m J r c
theorem outsA12_low {J : ℕ} (hJ : J ≤ 23) (r : Ref sig .tc) (c : Dev nD) : outsA12 m J r c = outsA11 m J r c := by
  unfold outsA12; rw [if_neg (by omega)]
/-- What region 12 leaves, entered from rung 12: its arrays at the write-backs folded over the grid, every other buffer as entered. -/
def left12 (c : Dev nD) : Valuation τ sig (Elt F) :=
  Pipeline.withArrays spec12 c (V25 m (outsA12 m) c) fun w => (dat12 (Ve12 m (outsA12 m)) c).arrAt w cfg12.N
/-- Rung 13: rung 12 with region 12's unknowns (index 26) set to that. -/
def outsA13 (J : ℕ) (r : Ref sig .tc) (c : Dev nD) : Buf (Elt F) ((c : Thread nD τ).loc r) :=
  if J = 26 then left12 m c (Proc.devRef (τ := τ) .tc r) else outsA12 m J r c
theorem outsA13_low {J : ℕ} (hJ : J ≤ 25) (r : Ref sig .tc) (c : Dev nD) : outsA13 m J r c = outsA12 m J r c := by
  unfold outsA13; rw [if_neg (by omega)]
/-- What region 13 leaves, entered from rung 13: its arrays at the write-backs folded over the grid, every other buffer as entered. -/
def left13 (c : Dev nD) : Valuation τ sig (Elt F) :=
  Pipeline.withArrays spec13 c (V27 m (outsA13 m) c) fun w => (dat13 (Ve13 m (outsA13 m)) c).arrAt w cfg13.N
/-- Rung 14: rung 13 with region 13's unknowns (index 28) set to that. -/
def outsA14 (J : ℕ) (r : Ref sig .tc) (c : Dev nD) : Buf (Elt F) ((c : Thread nD τ).loc r) :=
  if J = 28 then left13 m c (Proc.devRef (τ := τ) .tc r) else outsA13 m J r c
theorem outsA14_low {J : ℕ} (hJ : J ≤ 27) (r : Ref sig .tc) (c : Dev nD) : outsA14 m J r c = outsA13 m J r c := by
  unfold outsA14; rw [if_neg (by omega)]
/-- What region 14 leaves, entered from rung 14: its arrays at the write-backs folded over the grid, every other buffer as entered. -/
def left14 (c : Dev nD) : Valuation τ sig (Elt F) :=
  Pipeline.withArrays spec14 c (V29 m (outsA14 m) c) fun w => (dat14 (Ve14 m (outsA14 m)) c).arrAt w cfg14.N
/-- Rung 15: rung 14 with region 14's unknowns (index 30) set to that. -/
def outsA15 (J : ℕ) (r : Ref sig .tc) (c : Dev nD) : Buf (Elt F) ((c : Thread nD τ).loc r) :=
  if J = 30 then left14 m c (Proc.devRef (τ := τ) .tc r) else outsA14 m J r c
theorem outsA15_low {J : ℕ} (hJ : J ≤ 29) (r : Ref sig .tc) (c : Dev nD) : outsA15 m J r c = outsA14 m J r c := by
  unfold outsA15; rw [if_neg (by omega)]
/-- What region 15 leaves, entered from rung 15: its arrays at the write-backs folded over the grid, every other buffer as entered. -/
def left15 (c : Dev nD) : Valuation τ sig (Elt F) :=
  Pipeline.withArrays spec15 c (V31 m (outsA15 m) c) fun w => (dat15 (Ve15 m (outsA15 m)) c).arrAt w cfg15.N
/-- Rung 16: rung 15 with region 15's unknowns (index 32) set to that. -/
def outsA16 (J : ℕ) (r : Ref sig .tc) (c : Dev nD) : Buf (Elt F) ((c : Thread nD τ).loc r) :=
  if J = 32 then left15 m c (Proc.devRef (τ := τ) .tc r) else outsA15 m J r c
theorem outsA16_low {J : ℕ} (hJ : J ≤ 31) (r : Ref sig .tc) (c : Dev nD) : outsA16 m J r c = outsA15 m J r c := by
  unfold outsA16; rw [if_neg (by omega)]
/-- What region 16 leaves, entered from rung 16: its arrays at the write-backs folded over the grid, every other buffer as entered. -/
def left16 (c : Dev nD) : Valuation τ sig (Elt F) :=
  Pipeline.withArrays spec16 c (V33 m (outsA16 m) c) fun w => (dat16 (Ve16 m (outsA16 m)) c).arrAt w cfg16.N
/-- Rung 17: rung 16 with region 16's unknowns (index 34) set to that. -/
def outsA17 (J : ℕ) (r : Ref sig .tc) (c : Dev nD) : Buf (Elt F) ((c : Thread nD τ).loc r) :=
  if J = 34 then left16 m c (Proc.devRef (τ := τ) .tc r) else outsA16 m J r c
theorem outsA17_low {J : ℕ} (hJ : J ≤ 33) (r : Ref sig .tc) (c : Dev nD) : outsA17 m J r c = outsA16 m J r c := by
  unfold outsA17; rw [if_neg (by omega)]
/-- What region 17 leaves, entered from rung 17: its arrays at the write-backs folded over the grid, every other buffer as entered. -/
def left17 (c : Dev nD) : Valuation τ sig (Elt F) :=
  Pipeline.withArrays spec17 c (V35 m (outsA17 m) c) fun w => (dat17 (Ve17 m (outsA17 m)) c).arrAt w cfg17.N
/-- Rung 18: rung 17 with region 17's unknowns (index 36) set to that. -/
def outsA18 (J : ℕ) (r : Ref sig .tc) (c : Dev nD) : Buf (Elt F) ((c : Thread nD τ).loc r) :=
  if J = 36 then left17 m c (Proc.devRef (τ := τ) .tc r) else outsA17 m J r c
theorem outsA18_low {J : ℕ} (hJ : J ≤ 35) (r : Ref sig .tc) (c : Dev nD) : outsA18 m J r c = outsA17 m J r c := by
  unfold outsA18; rw [if_neg (by omega)]

/-- THE UNKNOWNS: the last rung. -/
def outsW : Outs (F := F) := outsA18 m

/-! ## The last rung agrees with rung K at the indices region K reads -/
theorem outsW_low18 {J : ℕ} (hJ : J ≤ 36) (r : Ref sig .tc) (c : Dev nD) : outsW m J r c = outsA18 m J r c := rfl
theorem outsW_low17 {J : ℕ} (hJ : J ≤ 34) (r : Ref sig .tc) (c : Dev nD) : outsW m J r c = outsA17 m J r c :=
  (outsW_low18 m (by omega) r c).trans (outsA18_low m (by omega) r c)
theorem outsW_low16 {J : ℕ} (hJ : J ≤ 32) (r : Ref sig .tc) (c : Dev nD) : outsW m J r c = outsA16 m J r c :=
  (outsW_low17 m (by omega) r c).trans (outsA17_low m (by omega) r c)
theorem outsW_low15 {J : ℕ} (hJ : J ≤ 30) (r : Ref sig .tc) (c : Dev nD) : outsW m J r c = outsA15 m J r c :=
  (outsW_low16 m (by omega) r c).trans (outsA16_low m (by omega) r c)
theorem outsW_low14 {J : ℕ} (hJ : J ≤ 28) (r : Ref sig .tc) (c : Dev nD) : outsW m J r c = outsA14 m J r c :=
  (outsW_low15 m (by omega) r c).trans (outsA15_low m (by omega) r c)
theorem outsW_low13 {J : ℕ} (hJ : J ≤ 26) (r : Ref sig .tc) (c : Dev nD) : outsW m J r c = outsA13 m J r c :=
  (outsW_low14 m (by omega) r c).trans (outsA14_low m (by omega) r c)
theorem outsW_low12 {J : ℕ} (hJ : J ≤ 24) (r : Ref sig .tc) (c : Dev nD) : outsW m J r c = outsA12 m J r c :=
  (outsW_low13 m (by omega) r c).trans (outsA13_low m (by omega) r c)
theorem outsW_low11 {J : ℕ} (hJ : J ≤ 22) (r : Ref sig .tc) (c : Dev nD) : outsW m J r c = outsA11 m J r c :=
  (outsW_low12 m (by omega) r c).trans (outsA12_low m (by omega) r c)
theorem outsW_low10 {J : ℕ} (hJ : J ≤ 20) (r : Ref sig .tc) (c : Dev nD) : outsW m J r c = outsA10 m J r c :=
  (outsW_low11 m (by omega) r c).trans (outsA11_low m (by omega) r c)
theorem outsW_low9 {J : ℕ} (hJ : J ≤ 18) (r : Ref sig .tc) (c : Dev nD) : outsW m J r c = outsA9 m J r c :=
  (outsW_low10 m (by omega) r c).trans (outsA10_low m (by omega) r c)
theorem outsW_low8 {J : ℕ} (hJ : J ≤ 16) (r : Ref sig .tc) (c : Dev nD) : outsW m J r c = outsA8 m J r c :=
  (outsW_low9 m (by omega) r c).trans (outsA9_low m (by omega) r c)
theorem outsW_low7 {J : ℕ} (hJ : J ≤ 14) (r : Ref sig .tc) (c : Dev nD) : outsW m J r c = outsA7 m J r c :=
  (outsW_low8 m (by omega) r c).trans (outsA8_low m (by omega) r c)
theorem outsW_low6 {J : ℕ} (hJ : J ≤ 12) (r : Ref sig .tc) (c : Dev nD) : outsW m J r c = outsA6 m J r c :=
  (outsW_low7 m (by omega) r c).trans (outsA7_low m (by omega) r c)
theorem outsW_low5 {J : ℕ} (hJ : J ≤ 10) (r : Ref sig .tc) (c : Dev nD) : outsW m J r c = outsA5 m J r c :=
  (outsW_low6 m (by omega) r c).trans (outsA6_low m (by omega) r c)
theorem outsW_low4 {J : ℕ} (hJ : J ≤ 8) (r : Ref sig .tc) (c : Dev nD) : outsW m J r c = outsA4 m J r c :=
  (outsW_low5 m (by omega) r c).trans (outsA5_low m (by omega) r c)
theorem outsW_low3 {J : ℕ} (hJ : J ≤ 6) (r : Ref sig .tc) (c : Dev nD) : outsW m J r c = outsA3 m J r c :=
  (outsW_low4 m (by omega) r c).trans (outsA4_low m (by omega) r c)
theorem outsW_low2 {J : ℕ} (hJ : J ≤ 4) (r : Ref sig .tc) (c : Dev nD) : outsW m J r c = outsA2 m J r c :=
  (outsW_low3 m (by omega) r c).trans (outsA3_low m (by omega) r c)
theorem outsW_low1 {J : ℕ} (hJ : J ≤ 2) (r : Ref sig .tc) (c : Dev nD) : outsW m J r c = outsA1 m J r c :=
  (outsW_low2 m (by omega) r c).trans (outsA2_low m (by omega) r c)

/-! ## Every region's condition -/
theorem ok0_3 (c : Dev nD) : outsW m 2 main_v37 c = (dat0 (Ve0 m) c).arrAt 3 cfg0.N := by
  rw [outsW_low1 m (le_refl _)]
  unfold outsA1; rw [if_pos rfl]
  unfold left0; exact Pipeline.withArrays_arr spec0 launch0.win.arr_inj c _ _ 3
theorem ok1_2 (c : Dev nD) : outsW m 4 main_v72_0 c = (dat1 (Ve1 m (outsW m)) c).arrAt 2 cfg1.N := by
  rw [Ve1_congr m (outs := outsW m) (outs' := outsA1 m) (fun J' hJ' r c => outsW_low1 m hJ' r c)]
  rw [outsW_low2 m (le_refl _)]
  unfold outsA2; rw [if_pos rfl]
  unfold left1; exact Pipeline.withArrays_arr spec1 launch1.win.arr_inj c _ _ 2
theorem ok1_3 (c : Dev nD) : outsW m 4 main_v72_1 c = (dat1 (Ve1 m (outsW m)) c).arrAt 3 cfg1.N := by
  rw [Ve1_congr m (outs := outsW m) (outs' := outsA1 m) (fun J' hJ' r c => outsW_low1 m hJ' r c)]
  rw [outsW_low2 m (le_refl _)]
  unfold outsA2; rw [if_pos rfl]
  unfold left1; exact Pipeline.withArrays_arr spec1 launch1.win.arr_inj c _ _ 3
theorem ok2_6 (c : Dev nD) : outsW m 6 main_v82 c = (dat2 (Ve2 m (outsW m)) c).arrAt 6 cfg2.N := by
  rw [Ve2_congr m (outs := outsW m) (outs' := outsA2 m) (fun J' hJ' r c => outsW_low2 m hJ' r c)]
  rw [outsW_low3 m (le_refl _)]
  unfold outsA3; rw [if_pos rfl]
  unfold left2; exact Pipeline.withArrays_arr spec2 launch2.win.arr_inj c _ _ 6
theorem ok3_3 (c : Dev nD) : outsW m 8 main_v86 c = (dat3 (Ve3 m (outsW m)) c).arrAt 3 cfg3.N := by
  rw [Ve3_congr m (outs := outsW m) (outs' := outsA3 m) (fun J' hJ' r c => outsW_low3 m hJ' r c)]
  rw [outsW_low4 m (le_refl _)]
  unfold outsA4; rw [if_pos rfl]
  unfold left3; exact Pipeline.withArrays_arr spec3 launch3.win.arr_inj c _ _ 3
theorem ok4_2 (c : Dev nD) : outsW m 10 main_v121_0 c = (dat4 (Ve4 m (outsW m)) c).arrAt 2 cfg4.N := by
  rw [Ve4_congr m (outs := outsW m) (outs' := outsA4 m) (fun J' hJ' r c => outsW_low4 m hJ' r c)]
  rw [outsW_low5 m (le_refl _)]
  unfold outsA5; rw [if_pos rfl]
  unfold left4; exact Pipeline.withArrays_arr spec4 launch4.win.arr_inj c _ _ 2
theorem ok4_3 (c : Dev nD) : outsW m 10 main_v121_1 c = (dat4 (Ve4 m (outsW m)) c).arrAt 3 cfg4.N := by
  rw [Ve4_congr m (outs := outsW m) (outs' := outsA4 m) (fun J' hJ' r c => outsW_low4 m hJ' r c)]
  rw [outsW_low5 m (le_refl _)]
  unfold outsA5; rw [if_pos rfl]
  unfold left4; exact Pipeline.withArrays_arr spec4 launch4.win.arr_inj c _ _ 3
theorem ok5_6 (c : Dev nD) : outsW m 12 main_v131 c = (dat5 (Ve5 m (outsW m)) c).arrAt 6 cfg5.N := by
  rw [Ve5_congr m (outs := outsW m) (outs' := outsA5 m) (fun J' hJ' r c => outsW_low5 m hJ' r c)]
  rw [outsW_low6 m (le_refl _)]
  unfold outsA6; rw [if_pos rfl]
  unfold left5; exact Pipeline.withArrays_arr spec5 launch5.win.arr_inj c _ _ 6
theorem ok6_3 (c : Dev nD) : outsW m 14 main_v135 c = (dat6 (Ve6 m (outsW m)) c).arrAt 3 cfg6.N := by
  rw [Ve6_congr m (outs := outsW m) (outs' := outsA6 m) (fun J' hJ' r c => outsW_low6 m hJ' r c)]
  rw [outsW_low7 m (le_refl _)]
  unfold outsA7; rw [if_pos rfl]
  unfold left6; exact Pipeline.withArrays_arr spec6 launch6.win.arr_inj c _ _ 3
theorem ok7_2 (c : Dev nD) : outsW m 16 main_v170_0 c = (dat7 (Ve7 m (outsW m)) c).arrAt 2 cfg7.N := by
  rw [Ve7_congr m (outs := outsW m) (outs' := outsA7 m) (fun J' hJ' r c => outsW_low7 m hJ' r c)]
  rw [outsW_low8 m (le_refl _)]
  unfold outsA8; rw [if_pos rfl]
  unfold left7; exact Pipeline.withArrays_arr spec7 launch7.win.arr_inj c _ _ 2
theorem ok7_3 (c : Dev nD) : outsW m 16 main_v170_1 c = (dat7 (Ve7 m (outsW m)) c).arrAt 3 cfg7.N := by
  rw [Ve7_congr m (outs := outsW m) (outs' := outsA7 m) (fun J' hJ' r c => outsW_low7 m hJ' r c)]
  rw [outsW_low8 m (le_refl _)]
  unfold outsA8; rw [if_pos rfl]
  unfold left7; exact Pipeline.withArrays_arr spec7 launch7.win.arr_inj c _ _ 3
theorem ok8_6 (c : Dev nD) : outsW m 18 main_v180 c = (dat8 (Ve8 m (outsW m)) c).arrAt 6 cfg8.N := by
  rw [Ve8_congr m (outs := outsW m) (outs' := outsA8 m) (fun J' hJ' r c => outsW_low8 m hJ' r c)]
  rw [outsW_low9 m (le_refl _)]
  unfold outsA9; rw [if_pos rfl]
  unfold left8; exact Pipeline.withArrays_arr spec8 launch8.win.arr_inj c _ _ 6
theorem ok9_3 (c : Dev nD) : outsW m 20 main_v184 c = (dat9 (Ve9 m (outsW m)) c).arrAt 3 cfg9.N := by
  rw [Ve9_congr m (outs := outsW m) (outs' := outsA9 m) (fun J' hJ' r c => outsW_low9 m hJ' r c)]
  rw [outsW_low10 m (le_refl _)]
  unfold outsA10; rw [if_pos rfl]
  unfold left9; exact Pipeline.withArrays_arr spec9 launch9.win.arr_inj c _ _ 3
theorem ok10_2 (c : Dev nD) : outsW m 22 main_v219_0 c = (dat10 (Ve10 m (outsW m)) c).arrAt 2 cfg10.N := by
  rw [Ve10_congr m (outs := outsW m) (outs' := outsA10 m) (fun J' hJ' r c => outsW_low10 m hJ' r c)]
  rw [outsW_low11 m (le_refl _)]
  unfold outsA11; rw [if_pos rfl]
  unfold left10; exact Pipeline.withArrays_arr spec10 launch10.win.arr_inj c _ _ 2
theorem ok10_3 (c : Dev nD) : outsW m 22 main_v219_1 c = (dat10 (Ve10 m (outsW m)) c).arrAt 3 cfg10.N := by
  rw [Ve10_congr m (outs := outsW m) (outs' := outsA10 m) (fun J' hJ' r c => outsW_low10 m hJ' r c)]
  rw [outsW_low11 m (le_refl _)]
  unfold outsA11; rw [if_pos rfl]
  unfold left10; exact Pipeline.withArrays_arr spec10 launch10.win.arr_inj c _ _ 3
theorem ok11_6 (c : Dev nD) : outsW m 24 main_v229 c = (dat11 (Ve11 m (outsW m)) c).arrAt 6 cfg11.N := by
  rw [Ve11_congr m (outs := outsW m) (outs' := outsA11 m) (fun J' hJ' r c => outsW_low11 m hJ' r c)]
  rw [outsW_low12 m (le_refl _)]
  unfold outsA12; rw [if_pos rfl]
  unfold left11; exact Pipeline.withArrays_arr spec11 launch11.win.arr_inj c _ _ 6
theorem ok12_3 (c : Dev nD) : outsW m 26 main_v233 c = (dat12 (Ve12 m (outsW m)) c).arrAt 3 cfg12.N := by
  rw [Ve12_congr m (outs := outsW m) (outs' := outsA12 m) (fun J' hJ' r c => outsW_low12 m hJ' r c)]
  rw [outsW_low13 m (le_refl _)]
  unfold outsA13; rw [if_pos rfl]
  unfold left12; exact Pipeline.withArrays_arr spec12 launch12.win.arr_inj c _ _ 3
theorem ok13_2 (c : Dev nD) : outsW m 28 main_v268_0 c = (dat13 (Ve13 m (outsW m)) c).arrAt 2 cfg13.N := by
  rw [Ve13_congr m (outs := outsW m) (outs' := outsA13 m) (fun J' hJ' r c => outsW_low13 m hJ' r c)]
  rw [outsW_low14 m (le_refl _)]
  unfold outsA14; rw [if_pos rfl]
  unfold left13; exact Pipeline.withArrays_arr spec13 launch13.win.arr_inj c _ _ 2
theorem ok13_3 (c : Dev nD) : outsW m 28 main_v268_1 c = (dat13 (Ve13 m (outsW m)) c).arrAt 3 cfg13.N := by
  rw [Ve13_congr m (outs := outsW m) (outs' := outsA13 m) (fun J' hJ' r c => outsW_low13 m hJ' r c)]
  rw [outsW_low14 m (le_refl _)]
  unfold outsA14; rw [if_pos rfl]
  unfold left13; exact Pipeline.withArrays_arr spec13 launch13.win.arr_inj c _ _ 3
theorem ok14_6 (c : Dev nD) : outsW m 30 main_v278 c = (dat14 (Ve14 m (outsW m)) c).arrAt 6 cfg14.N := by
  rw [Ve14_congr m (outs := outsW m) (outs' := outsA14 m) (fun J' hJ' r c => outsW_low14 m hJ' r c)]
  rw [outsW_low15 m (le_refl _)]
  unfold outsA15; rw [if_pos rfl]
  unfold left14; exact Pipeline.withArrays_arr spec14 launch14.win.arr_inj c _ _ 6
theorem ok15_3 (c : Dev nD) : outsW m 32 main_v280 c = (dat15 (Ve15 m (outsW m)) c).arrAt 3 cfg15.N := by
  rw [Ve15_congr m (outs := outsW m) (outs' := outsA15 m) (fun J' hJ' r c => outsW_low15 m hJ' r c)]
  rw [outsW_low16 m (le_refl _)]
  unfold outsA16; rw [if_pos rfl]
  unfold left15; exact Pipeline.withArrays_arr spec15 launch15.win.arr_inj c _ _ 3
theorem ok16_3 (c : Dev nD) : outsW m 34 main_v294 c = (dat16 (Ve16 m (outsW m)) c).arrAt 3 cfg16.N := by
  rw [Ve16_congr m (outs := outsW m) (outs' := outsA16 m) (fun J' hJ' r c => outsW_low16 m hJ' r c)]
  rw [outsW_low17 m (le_refl _)]
  unfold outsA17; rw [if_pos rfl]
  unfold left16; exact Pipeline.withArrays_arr spec16 launch16.win.arr_inj c _ _ 3
theorem ok17_3 (c : Dev nD) : outsW m 36 main_v296 c = (dat17 (Ve17 m (outsW m)) c).arrAt 3 cfg17.N := by
  rw [Ve17_congr m (outs := outsW m) (outs' := outsA17 m) (fun J' hJ' r c => outsW_low17 m hJ' r c)]
  rw [outsW_low18 m (le_refl _)]
  unfold outsA18; rw [if_pos rfl]
  unfold left17; exact Pipeline.withArrays_arr spec17 launch17.win.arr_inj c _ _ 3

set_option maxHeartbeats 4000000 in
/-- The unknowns are what the regions leave. -/
theorem outsW_ok : OutsOK m (outsW m) where
  o0_3 := ok0_3 m
  o1_2 := ok1_2 m
  o1_3 := ok1_3 m
  o2_6 := ok2_6 m
  o3_3 := ok3_3 m
  o4_2 := ok4_2 m
  o4_3 := ok4_3 m
  o5_6 := ok5_6 m
  o6_3 := ok6_3 m
  o7_2 := ok7_2 m
  o7_3 := ok7_3 m
  o8_6 := ok8_6 m
  o9_3 := ok9_3 m
  o10_2 := ok10_2 m
  o10_3 := ok10_3 m
  o11_6 := ok11_6 m
  o12_3 := ok12_3 m
  o13_2 := ok13_2 m
  o13_3 := ok13_3 m
  o14_6 := ok14_6 m
  o15_3 := ok15_3 m
  o16_3 := ok16_3 m
  o17_3 := ok17_3 m

end Cert.KernelIdeal.Reg

end
-- ==== Proof.Common.lean ====
import proofs.«120348_j28252294873367_1_alg».proof.Proof.Gen.KernelIdeal
import Idealize.ShloMosaic.PureOps.Ideal

noncomputable section

namespace Cert.Common

open Cert.KernelIdeal Cert.KernelIdeal.Gen Idealize.ShloMosaic Idealize.SL.Sem

abbrev IV (s : Shape) : Type := s.Idx → BitVec 32

abbrev FV (s : Shape) : Type := s.Idx → EReal

def src (a1 : IV S2x200000) : IV S300000 :=
  concatenate S300000 0
    [⟨S200000, shapeCast S200000 (extractStridedSlice S1x200000 ![0, 0] a1 slices_S2x200000_S1x200000_0_0)
        shapeCasts_S1x200000_S200000⟩,
     ⟨S100000, iotaInDim S100000 32 0⟩]
    concatenates_S200000_S100000_S300000_d0

def dst (a1 : IV S2x200000) : IV S300000 :=
  concatenate S300000 0
    [⟨S200000, shapeCast S200000 (extractStridedSlice S1x200000 ![1, 0] a1 slices_S2x200000_S1x200000_1_0)
        shapeCasts_S1x200000_S200000⟩,
     ⟨S100000, iotaInDim S100000 32 0⟩]
    concatenates_S200000_S100000_S300000_d0

def ea0 (a2 : IV S200000x2) : IV S300000 :=
  concatenate S300000 0
    [⟨S200000, shapeCast S200000 (extractStridedSlice S200000x1 ![0, 0] a2 slices_S200000x2_S200000x1_0_0)
        shapeCasts_S200000x1_S200000⟩,
     ⟨S100000, broadcastInDim S100000 ![] bcast_S_S100000 (constantI S_ 32 4#32)⟩]
    concatenates_S200000_S100000_S300000_d0

def ea1 (a2 : IV S200000x2) : IV S300000 :=
  concatenate S300000 0
    [⟨S200000, shapeCast S200000 (extractStridedSlice S200000x1 ![0, 1] a2 slices_S200000x2_S200000x1_0_1)
        shapeCasts_S200000x1_S200000⟩,
     ⟨S100000, broadcastInDim S100000 ![] bcast_S_S100000 (constantI S_ 32 0#32)⟩]
    concatenates_S200000_S100000_S300000_d0

def wrapIdx (n : BitVec 32) (c : IV S100000) : IV S100000x1 :=
  broadcastInDim S100000x1 ![0] bcast_S100000_S100000x1_0
    (select (cmpi CmpIPredicate.slt c (broadcastInDim S100000 ![] bcast_S_S100000 (constantI S_ 32 0#32)))
      (addi c (broadcastInDim S100000 ![] bcast_S_S100000 (constantI S_ 32 n))) c)

def h0 (a0 : IV S100000x2) (a4 : FV S120x300) (a5 : FV S3x300) : FV S100000x300 :=
  addf (F := Ideal) (φ := .f32)
    (Host.gather gather_S120x300_S100000x1_S100000x300_1_0_n_n_0_1_1300 a4
      (wrapIdx 120#32
        (shapeCast S100000 (extractStridedSlice S100000x1 ![0, 0] a0 slices_S100000x2_S100000x1_0_0)
          shapeCasts_S100000x1_S100000)))
    (Host.gather gather_S3x300_S100000x1_S100000x300_1_0_n_n_0_1_1300 a5
      (wrapIdx 3#32
        (shapeCast S100000 (extractStridedSlice S100000x1 ![0, 1] a0 slices_S100000x2_S100000x1_0_1)
          shapeCasts_S100000x1_S100000)))

def wmat (l : Fin 5) (a6 : FV S5x300x300) : FV S300x300 :=
  match l with
  | 0 => shapeCast S300x300 (extractStridedSlice S1x300x300 ![0, 0, 0] a6 slices_S5x300x300_S1x300x300_0_0_0)
      shapeCasts_S1x300x300_S300x300
  | 1 => shapeCast S300x300 (extractStridedSlice S1x300x300 ![1, 0, 0] a6 slices_S5x300x300_S1x300x300_1_0_0)
      shapeCasts_S1x300x300_S300x300
  | 2 => shapeCast S300x300 (extractStridedSlice S1x300x300 ![2, 0, 0] a6 slices_S5x300x300_S1x300x300_2_0_0)
      shapeCasts_S1x300x300_S300x300
  | 3 => shapeCast S300x300 (extractStridedSlice S1x300x300 ![3, 0, 0] a6 slices_S5x300x300_S1x300x300_3_0_0)
      shapeCasts_S1x300x300_S300x300
  | 4 => shapeCast S300x300 (extractStridedSlice S1x300x300 ![4, 0, 0] a6 slices_S5x300x300_S1x300x300_4_0_0)
      shapeCasts_S1x300x300_S300x300

def tab1 (l : Fin 5) (a8 : FV S5x6x1) : FV S6x1 :=
  match l with
  | 0 => shapeCast S6x1 (extractStridedSlice S1x6x1 ![0, 0, 0] a8 slices_S5x6x1_S1x6x1_0_0_0) shapeCasts_S1x6x1_S6x1
  | 1 => shapeCast S6x1 (extractStridedSlice S1x6x1 ![1, 0, 0] a8 slices_S5x6x1_S1x6x1_1_0_0) shapeCasts_S1x6x1_S6x1
  | 2 => shapeCast S6x1 (extractStridedSlice S1x6x1 ![2, 0, 0] a8 slices_S5x6x1_S1x6x1_2_0_0) shapeCasts_S1x6x1_S6x1
  | 3 => shapeCast S6x1 (extractStridedSlice S1x6x1 ![3, 0, 0] a8 slices_S5x6x1_S1x6x1_3_0_0) shapeCasts_S1x6x1_S6x1
  | 4 => shapeCast S6x1 (extractStridedSlice S1x6x1 ![4, 0, 0] a8 slices_S5x6x1_S1x6x1_4_0_0) shapeCasts_S1x6x1_S6x1

def tab2 (l : Fin 5) (a9 : FV S5x3x1) : FV S3x1 :=
  match l with
  | 0 => shapeCast S3x1 (extractStridedSlice S1x3x1 ![0, 0, 0] a9 slices_S5x3x1_S1x3x1_0_0_0) shapeCasts_S1x3x1_S3x1
  | 1 => shapeCast S3x1 (extractStridedSlice S1x3x1 ![1, 0, 0] a9 slices_S5x3x1_S1x3x1_1_0_0) shapeCasts_S1x3x1_S3x1
  | 2 => shapeCast S3x1 (extractStridedSlice S1x3x1 ![2, 0, 0] a9 slices_S5x3x1_S1x3x1_2_0_0) shapeCasts_S1x3x1_S3x1
  | 3 => shapeCast S3x1 (extractStridedSlice S1x3x1 ![3, 0, 0] a9 slices_S5x3x1_S1x3x1_3_0_0) shapeCasts_S1x3x1_S3x1
  | 4 => shapeCast S3x1 (extractStridedSlice S1x3x1 ![4, 0, 0] a9 slices_S5x3x1_S1x3x1_4_0_0) shapeCasts_S1x3x1_S3x1

def vec (l : Fin 5) (a : FV S5x300) : FV S300 :=
  match l with
  | 0 => shapeCast S300 (extractStridedSlice S1x300 ![0, 0] a slices_S5x300_S1x300_0_0) shapeCasts_S1x300_S300
  | 1 => shapeCast S300 (extractStridedSlice S1x300 ![1, 0] a slices_S5x300_S1x300_1_0) shapeCasts_S1x300_S300
  | 2 => shapeCast S300 (extractStridedSlice S1x300 ![2, 0] a slices_S5x300_S1x300_2_0) shapeCasts_S1x300_S300
  | 3 => shapeCast S300 (extractStridedSlice S1x300 ![3, 0] a slices_S5x300_S1x300_3_0) shapeCasts_S1x300_S300
  | 4 => shapeCast S300 (extractStridedSlice S1x300 ![4, 0] a slices_S5x300_S1x300_4_0) shapeCasts_S1x300_S300

def rowK (v : FV S300) : FV S1x300 := shapeCast S1x300 v shapeCasts_S300_S1x300

def zrow300 : FV S1x300 := broadcastInDim S1x300 ![] bcast_S_S1x300 (constant (F := Ideal) S_ FTy.f32 0#32)

def wrapIdxE (n : BitVec 32) (c : IV S300000) : IV S300000x1 :=
  broadcastInDim S300000x1 ![0] bcast_S300000_S300000x1_0
    (select (cmpi CmpIPredicate.slt c (broadcastInDim S300000 ![] bcast_S_S300000 (constantI S_ 32 0#32)))
      (addi c (broadcastInDim S300000 ![] bcast_S_S300000 (constantI S_ 32 n))) c)

def aggr (hw : FV S100000x300) (s d e0 e1 : IV S300000) (t1 : FV S6x1) (t2 : FV S3x1) : FV S100000x300 :=
  Host.scatterAdd (F := Ideal) (φ := .f32) scatter_S100000x300_S300000x1_S300000x300_1_0_0_1
    (broadcastInDim S100000x300 ![] bcast_S_S100000x300 (constant (F := Ideal) S_ FTy.f32 0#32))
    (broadcastInDim S300000x1 ![0] bcast_S300000_S300000x1_0 d)
    (addf (F := Ideal) (φ := .f32)
      (Host.gather gather_S100000x300_S300000x1_S300000x300_1_0_n_n_0_1_1300 hw (wrapIdxE 100000#32 s))
      (broadcastInDim S300000x300 ![0, 1] bcast_S300000x1_S300000x300_0_1
        (addf (F := Ideal) (φ := .f32)
          (Host.gather gather_S6x1_S300000x1_S300000x1_1_0_n_n_0_1_11 t1 (wrapIdxE 6#32 e0))
          (Host.gather gather_S3x1_S300000x1_S300000x1_1_0_n_n_0_1_11 t2 (wrapIdxE 3#32 e1)))))

def pool (h : FV S100000x256) (a3 : IV S100000) : FV S2048x256 :=
  Host.divf (F := Ideal) (φ := .f32)
    (Host.scatterAdd (F := Ideal) (φ := .f32) scatter_S2048x256_S100000x1_S100000x256_1_0_0_1
      (broadcastInDim S2048x256 ![] bcast_S_S2048x256 (constant (F := Ideal) S_ FTy.f32 0#32))
      (broadcastInDim S100000x1 ![0] bcast_S100000_S100000x1_0 a3)
      h)
    (broadcastInDim S2048x256 ![0, 1] bcast_S2048x1_S2048x256_0_1
      (broadcastInDim S2048x1 ![0] bcast_S2048_S2048x1_0
        (maximumf (F := Ideal) (φ := .f32)
          (Host.scatterAdd (F := Ideal) (φ := .f32) scatter_S2048_S100000x1_S100000_n_0_0_1
            (broadcastInDim S2048 ![] bcast_S_S2048 (constant (F := Ideal) S_ FTy.f32 0#32))
            (broadcastInDim S100000x1 ![0] bcast_S100000_S100000x1_0 a3)
            (broadcastInDim S100000 ![] bcast_S_S100000 (constant (F := Ideal) S_ FTy.f32 1065353216#32)))
          (broadcastInDim S2048 ![] bcast_S_S2048 (constant (F := Ideal) S_ FTy.f32 1065353216#32)))))

def row256 (a : FV S256) : FV S1x256 := shapeCast S1x256 a shapeCasts_S256_S1x256

def row128 (a : FV S128) : FV S1x128 := shapeCast S1x128 a shapeCasts_S128_S1x128

def row2 (a : FV S2) : FV S1x2 := shapeCast S1x2 a shapeCasts_S2_S1x2

end Cert.Common

end
-- ==== Proof.RefFun.lean ====
import proofs.«120348_j28252294873367_1_alg».proof.Proof.Gen.ReferenceIdeal
import proofs.«120348_j28252294873367_1_alg».proof.Proof.Common
import Idealize.ShloMosaic.PureOps.Ideal

noncomputable section

namespace Cert.RefFun

open Cert.ReferenceIdeal Cert.ReferenceIdeal.Gen Idealize.ShloMosaic Idealize.SL.Sem
open Cert.Common (FV)

def bc2 (v : FV S300) : FV S100000x300 := broadcastInDim S100000x300 ![0, 1] bcast_S1x300_S100000x300_0_1 (broadcastInDim S1x300 ![1] bcast_S300_S1x300_1 v)

def bnOut (seg : FV S100000x300) (b : FV S300) : FV S100000x300 := addf (F := Ideal) (φ := .f32) seg (bc2 b)

def colSumHost (x : FV S100000x300) : FV S300 :=
  Host.reduceAdd (F := Ideal) (φ := .f32) x (constant (F := Ideal) S_ .f32 0x00000000#32) reducesTo_S100000x300_S300_d0 h_S_

def nRow : FV S300 := broadcastInDim S300 ![] bcast_S_S300 (constant (F := Ideal) S_ .f32 0x47C35000#32)

def bnMean (out : FV S100000x300) : FV S300 := Host.divf (F := Ideal) (φ := .f32) (colSumHost out) nRow

def bnCent (out : FV S100000x300) : FV S100000x300 := subf (F := Ideal) (φ := .f32) out (bc2 (bnMean out))

def bnVar (out : FV S100000x300) : FV S300 :=
  Host.divf (F := Ideal) (φ := .f32) (colSumHost (mulf (F := Ideal) (φ := .f32) (bnCent out) (bnCent out))) nRow

def bnRs (out : FV S100000x300) : FV S300 :=
  Host.rsqrt (F := Ideal) (φ := .f32) (addf (F := Ideal) (φ := .f32) (bnVar out) (broadcastInDim S300 ![] bcast_S_S300 (constant (F := Ideal) S_ .f32 0x3727C5AC#32)))

def bnHost (seg : FV S100000x300) (b g be : FV S300) : FV S100000x300 :=
  maximumf (F := Ideal) (φ := .f32)
    (addf (F := Ideal) (φ := .f32)
      (mulf (F := Ideal) (φ := .f32)
        (mulf (F := Ideal) (φ := .f32)
          (subf (F := Ideal) (φ := .f32) (addf (F := Ideal) (φ := .f32) seg (broadcastInDim S100000x300 ![0, 1] bcast_S1x300_S100000x300_0_1 (broadcastInDim S1x300 ![1] bcast_S300_S1x300_1 b))) (broadcastInDim S100000x300 ![0, 1] bcast_S1x300_S100000x300_0_1 (broadcastInDim S1x300 ![1] bcast_S300_S1x300_1 (Host.divf (F := Ideal) (φ := .f32) (Host.reduceAdd (F := Ideal) (φ := .f32) (addf (F := Ideal) (φ := .f32) seg (broadcastInDim S100000x300 ![0, 1] bcast_S1x300_S100000x300_0_1 (broadcastInDim S1x300 ![1] bcast_S300_S1x300_1 b))) (constant (F := Ideal) S_ .f32 0x00000000#32) reducesTo_S100000x300_S300_d0 h_S_) (broadcastInDim S300 ![] bcast_S_S300 (constant (F := Ideal) S_ .f32 0x47C35000#32))))))
          (broadcastInDim S100000x300 ![0, 1] bcast_S1x300_S100000x300_0_1 (broadcastInDim S1x300 ![1] bcast_S300_S1x300_1 (Host.rsqrt (F := Ideal) (φ := .f32) (addf (F := Ideal) (φ := .f32) (Host.divf (F := Ideal) (φ := .f32) (Host.reduceAdd (F := Ideal) (φ := .f32) (mulf (F := Ideal) (φ := .f32) (subf (F := Ideal) (φ := .f32) (addf (F := Ideal) (φ := .f32) seg (broadcastInDim S100000x300 ![0, 1] bcast_S1x300_S100000x300_0_1 (broadcastInDim S1x300 ![1] bcast_S300_S1x300_1 b))) (broadcastInDim S100000x300 ![0, 1] bcast_S1x300_S100000x300_0_1 (broadcastInDim S1x300 ![1] bcast_S300_S1x300_1 (Host.divf (F := Ideal) (φ := .f32) (Host.reduceAdd (F := Ideal) (φ := .f32) (addf (F := Ideal) (φ := .f32) seg (broadcastInDim S100000x300 ![0, 1] bcast_S1x300_S100000x300_0_1 (broadcastInDim S1x300 ![1] bcast_S300_S1x300_1 b))) (constant (F := Ideal) S_ .f32 0x00000000#32) reducesTo_S100000x300_S300_d0 h_S_) (broadcastInDim S300 ![] bcast_S_S300 (constant (F := Ideal) S_ .f32 0x47C35000#32)))))) (subf (F := Ideal) (φ := .f32) (addf (F := Ideal) (φ := .f32) seg (broadcastInDim S100000x300 ![0, 1] bcast_S1x300_S100000x300_0_1 (broadcastInDim S1x300 ![1] bcast_S300_S1x300_1 b))) (broadcastInDim S100000x300 ![0, 1] bcast_S1x300_S100000x300_0_1 (broadcastInDim S1x300 ![1] bcast_S300_S1x300_1 (Host.divf (F := Ideal) (φ := .f32) (Host.reduceAdd (F := Ideal) (φ := .f32) (addf (F := Ideal) (φ := .f32) seg (broadcastInDim S100000x300 ![0, 1] bcast_S1x300_S100000x300_0_1 (broadcastInDim S1x300 ![1] bcast_S300_S1x300_1 b))) (constant (F := Ideal) S_ .f32 0x00000000#32) reducesTo_S100000x300_S300_d0 h_S_) (broadcastInDim S300 ![] bcast_S_S300 (constant (F := Ideal) S_ .f32 0x47C35000#32))))))) (constant (F := Ideal) S_ .f32 0x00000000#32) reducesTo_S100000x300_S300_d0 h_S_) (broadcastInDim S300 ![] bcast_S_S300 (constant (F := Ideal) S_ .f32 0x47C35000#32))) (broadcastInDim S300 ![] bcast_S_S300 (constant (F := Ideal) S_ .f32 0x3727C5AC#32)))))))
        (broadcastInDim S100000x300 ![0, 1] bcast_S1x300_S100000x300_0_1 (broadcastInDim S1x300 ![1] bcast_S300_S1x300_1 g)))
      (broadcastInDim S100000x300 ![0, 1] bcast_S1x300_S100000x300_0_1 (broadcastInDim S1x300 ![1] bcast_S300_S1x300_1 be)))
    (broadcastInDim S100000x300 ![] bcast_S_S100000x300 (constant (F := Ideal) S_ .f32 0x00000000#32))

theorem bnHost_eq (seg : FV S100000x300) (b g be : FV S300) :
    bnHost seg b g be
      = maximumf (F := Ideal) (φ := .f32)
          (addf (F := Ideal) (φ := .f32)
            (mulf (F := Ideal) (φ := .f32) (mulf (F := Ideal) (φ := .f32) (bnCent (bnOut seg b)) (bc2 (bnRs (bnOut seg b)))) (bc2 g))
            (bc2 be))
          (broadcastInDim S100000x300 ![] bcast_S_S100000x300 (constant (F := Ideal) S_ .f32 0x00000000#32)) := rfl

def projHost (h : FV S100000x300) (w : FV S300x300) : FV S100000x300 :=
  Host.dotGeneral (F := Ideal) (φ₁ := .f32) (φ₂ := .f32) dot_S100000x300_S300x300_S100000x300_1_0_0_1_n_n none h w

def featHost (h5 : FV S100000x300) (a12 : FV S300x256) (a13 : FV S256) : FV S100000x256 :=
  addf (F := Ideal) (φ := .f32)
    (Host.dotGeneral (F := Ideal) (φ₁ := .f32) (φ₂ := .f32) dot_S100000x300_S300x256_S100000x256_1_0_0_1_n_n none h5 a12)
    (broadcastInDim S100000x256 ![0, 1] bcast_S1x256_S100000x256_0_1 (broadcastInDim S1x256 ![1] bcast_S256_S1x256_1 a13))

def headHost (g0 : FV S2048x256) (a14 : FV S256x128) (a15 : FV S128) (a16 : FV S128x2) (a17 : FV S2) : FV S2048x2 :=
  addf (F := Ideal) (φ := .f32)
    (Host.dotGeneral (F := Ideal) (φ₁ := .f32) (φ₂ := .f32) dot_S2048x128_S128x2_S2048x2_1_0_0_1_n_n none
      (maximumf (F := Ideal) (φ := .f32)
        (addf (F := Ideal) (φ := .f32)
          (Host.dotGeneral (F := Ideal) (φ₁ := .f32) (φ₂ := .f32) dot_S2048x256_S256x128_S2048x128_1_0_0_1_n_n none g0 a14)
          (broadcastInDim S2048x128 ![0, 1] bcast_S1x128_S2048x128_0_1 (broadcastInDim S1x128 ![1] bcast_S128_S1x128_1 a15)))
        (broadcastInDim S2048x128 ![] bcast_S_S2048x128 (constant (F := Ideal) S_ .f32 0x00000000#32)))
      a16)
    (broadcastInDim S2048x2 ![0, 1] bcast_S1x2_S2048x2_0_1 (broadcastInDim S1x2 ![1] bcast_S2_S1x2_1 a17))

end Cert.RefFun

end
-- ==== Proof.RReadA.lean ====
import proofs.«120348_j28252294873367_1_alg».proof.Proof.RefChunks
import proofs.«120348_j28252294873367_1_alg».proof.Proof.RefFun
import proofs.«120348_j28252294873367_1_alg».proof.Proof.Common
import Idealize.ShloMosaic.Lib.StableHlo.Run

set_option maxRecDepth 16384

noncomputable section

namespace Cert.ReferenceIdeal.Read

open Cert.ReferenceIdeal Cert.ReferenceIdeal.Gen Cert.ReferenceIdeal.RunP
open Idealize.ShloMosaic Idealize.ShloMosaic.TcCoe Idealize.SL.Sem Idealize.ShloMosaic.StableHlo

local notation "RV" => Valuation τ sig (Elt Ideal)

theorem cPb_v3 (V : RV) : after (cPb (F := Ideal)) V main_v3 = V main_v3 := by after_results_simp
theorem cPb_v6 (V : RV) : after (cPb (F := Ideal)) V main_v6 = V main_v6 := by after_results_simp
theorem cPb_v10 (V : RV) : after (cPb (F := Ideal)) V main_v10 = V main_v10 := by after_results_simp
theorem cPb_v14 (V : RV) : after (cPb (F := Ideal)) V main_v14 = V main_v14 := by after_results_simp

set_option maxHeartbeats 1000000 in
theorem rP_v3 (W : RV) : after (cP (F := Ideal)) W main_v3 = Cert.Common.src (W main_arg1) := by
  rw [after_cP, cPb_v3]
  after_results
  rfl

set_option maxHeartbeats 1000000 in
theorem rP_v6 (W : RV) : after (cP (F := Ideal)) W main_v6 = Cert.Common.dst (W main_arg1) := by
  rw [after_cP, cPb_v6]
  after_results
  rfl

set_option maxHeartbeats 1000000 in
theorem rP_v10 (W : RV) : after (cP (F := Ideal)) W main_v10 = Cert.Common.ea0 (W main_arg2) := by
  rw [after_cP, cPb_v10]
  after_results
  rfl

set_option maxHeartbeats 1000000 in
theorem rP_v14 (W : RV) : after (cP (F := Ideal)) W main_v14 = Cert.Common.ea1 (W main_arg2) := by
  rw [after_cP, cPb_v14]
  after_results
  rfl

set_option maxHeartbeats 1000000 in
theorem rP_v33 (W : RV) :
    after (cP (F := Ideal)) W main_v33 = Cert.Common.h0 (W main_arg0) (W main_arg4) (W main_arg5) := by
  after_results_simp
  rfl

set_option maxHeartbeats 1000000 in
theorem rA0_v67 (W : RV) :
    after (cA_0 (F := Ideal)) W main_v67
      = Cert.Common.aggr (Cert.RefFun.projHost (W main_v33) (Cert.Common.wmat 0 (W main_arg6)))
          (W main_v3) (W main_v6) (W main_v10) (W main_v14)
          (Cert.Common.tab1 0 (W main_arg8)) (Cert.Common.tab2 0 (W main_arg9)) := by
  after_results_simp
  rfl

set_option maxHeartbeats 1000000 in
theorem rA1_v136 (W : RV) :
    after (cA_1 (F := Ideal)) W main_v136
      = Cert.Common.aggr (Cert.RefFun.projHost (W main_v102) (Cert.Common.wmat 1 (W main_arg6)))
          (W main_v3) (W main_v6) (W main_v10) (W main_v14)
          (Cert.Common.tab1 1 (W main_arg8)) (Cert.Common.tab2 1 (W main_arg9)) := by
  after_results_simp
  rfl

set_option maxHeartbeats 1000000 in
theorem rA2_v205 (W : RV) :
    after (cA_2 (F := Ideal)) W main_v205
      = Cert.Common.aggr (Cert.RefFun.projHost (W main_v171) (Cert.Common.wmat 2 (W main_arg6)))
          (W main_v3) (W main_v6) (W main_v10) (W main_v14)
          (Cert.Common.tab1 2 (W main_arg8)) (Cert.Common.tab2 2 (W main_arg9)) := by
  after_results_simp
  rfl

set_option maxHeartbeats 1000000 in
theorem rA3_v274 (W : RV) :
    after (cA_3 (F := Ideal)) W main_v274
      = Cert.Common.aggr (Cert.RefFun.projHost (W main_v240) (Cert.Common.wmat 3 (W main_arg6)))
          (W main_v3) (W main_v6) (W main_v10) (W main_v14)
          (Cert.Common.tab1 3 (W main_arg8)) (Cert.Common.tab2 3 (W main_arg9)) := by
  after_results_simp
  rfl

set_option maxHeartbeats 1000000 in
theorem rA4_v343 (W : RV) :
    after (cA_4 (F := Ideal)) W main_v343
      = Cert.Common.aggr (Cert.RefFun.projHost (W main_v309) (Cert.Common.wmat 4 (W main_arg6)))
          (W main_v3) (W main_v6) (W main_v10) (W main_v14)
          (Cert.Common.tab1 4 (W main_arg8)) (Cert.Common.tab2 4 (W main_arg9)) := by
  after_results_simp
  rfl

end Cert.ReferenceIdeal.Read

end
-- ==== Proof.RRead.lean ====
import proofs.«120348_j28252294873367_1_alg».proof.Proof.RefChunks
import proofs.«120348_j28252294873367_1_alg».proof.Proof.Common
import proofs.«120348_j28252294873367_1_alg».proof.Proof.RefFun
import Idealize.ShloMosaic.PureOps.Ideal

noncomputable section

namespace Cert.ReferenceIdeal.Read

open Cert.ReferenceIdeal Cert.ReferenceIdeal.Gen Cert.ReferenceIdeal.RunP Idealize.ShloMosaic Idealize.ShloMosaic.TcCoe Idealize.SL.Sem Idealize.ShloMosaic.StableHlo

local notation "RV" => Valuation τ sig (Elt Ideal)

set_option maxHeartbeats 1000000 in
theorem cB_0_read (W : RV) : after (cB_0 (F := Ideal)) W main_v102
    = Cert.RefFun.bnHost (W main_v67) (Cert.Common.vec 0 (W main_arg7)) (Cert.Common.vec 0 (W main_arg10)) (Cert.Common.vec 0 (W main_arg11)) := by
  after_results_simp; rfl

set_option maxHeartbeats 1000000 in
theorem cB_1_read (W : RV) : after (cB_1 (F := Ideal)) W main_v171
    = Cert.RefFun.bnHost (W main_v136) (Cert.Common.vec 1 (W main_arg7)) (Cert.Common.vec 1 (W main_arg10)) (Cert.Common.vec 1 (W main_arg11)) := by
  after_results_simp; rfl

set_option maxHeartbeats 1000000 in
theorem cB_2_read (W : RV) : after (cB_2 (F := Ideal)) W main_v240
    = Cert.RefFun.bnHost (W main_v205) (Cert.Common.vec 2 (W main_arg7)) (Cert.Common.vec 2 (W main_arg10)) (Cert.Common.vec 2 (W main_arg11)) := by
  after_results_simp; rfl

set_option maxHeartbeats 1000000 in
theorem cB_3_read (W : RV) : after (cB_3 (F := Ideal)) W main_v309
    = Cert.RefFun.bnHost (W main_v274) (Cert.Common.vec 3 (W main_arg7)) (Cert.Common.vec 3 (W main_arg10)) (Cert.Common.vec 3 (W main_arg11)) := by
  after_results_simp; rfl

set_option maxHeartbeats 1000000 in
theorem cB_4_read (W : RV) : after (cB_4 (F := Ideal)) W main_v378
    = Cert.RefFun.bnHost (W main_v343) (Cert.Common.vec 4 (W main_arg7)) (Cert.Common.vec 4 (W main_arg10)) (Cert.Common.vec 4 (W main_arg11)) := by
  after_results_simp; rfl

set_option maxHeartbeats 1000000 in
theorem cT_read_v394 (W : RV) : after (cT (F := Ideal)) W main_v394
    = Cert.Common.pool (Cert.RefFun.featHost (W main_v378) (W main_arg12) (W main_arg13)) (W main_arg3) := by
  after_results_simp; rfl

set_option maxHeartbeats 1000000 in
theorem cT_read_v403 (W : RV) : after (cT (F := Ideal)) W main_v403
    = Cert.RefFun.headHost (Cert.Common.pool (Cert.RefFun.featHost (W main_v378) (W main_arg12) (W main_arg13)) (W main_arg3))
        (W main_arg14) (W main_arg15) (W main_arg16) (W main_arg17) := by
  after_results_simp; rfl

end Cert.ReferenceIdeal.Read

end
-- ==== Proof.LibDense.lean ====
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

theorem contr_rank (hlc : d.lhsContracting = [1]) : d.contr.rank = 1 := by
  rw [d.rank_contr, hlc]; rfl

theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

theorem coord_congr {n : Fin 2 → Nat} (j : (⟨2, n⟩ : Shape).Idx) (p q : Nat) (hp : p < 2) (hq : q < 2) (h : p = q) :
    (j ⟨p, hp⟩).val = (j ⟨q, hq⟩).val := by subst h; rfl

theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.LibReal.lean ====
import Idealize.ShloMosaic.PureOps.Ideal
import Idealize.ShloMosaic.PureOps.Ideal.Laws
import Mathlib.Data.EReal.Inv
import Mathlib.Algebra.BigOperators.Group.Finset.Basic
import Mathlib.Algebra.Order.BigOperators.Group.Finset

noncomputable section

namespace Cert.Lib

open Idealize.ShloMosaic
open scoped BigOperators

def IsReal {ι : Type} (f : ι → EReal) : Prop := ∀ i, ∃ r : ℝ, f i = (r : EReal)

theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem nonneg_real_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

theorem real_div {x : EReal} (hx : ∃ r : ℝ, x = (r : EReal)) {n : ℝ} (hn : n ≠ 0) :
    ∃ r : ℝ, Ideal.div x (n : EReal) = (r : EReal) := by
  obtain ⟨a, rfl⟩ := hx
  exact ⟨a * (1 / n), by rw [Ideal.div_coe hn, EReal.coe_mul]⟩

theorem real_rsqrt {x : EReal} (hx : ∃ r : ℝ, 0 < r ∧ x = (r : EReal)) : ∃ r : ℝ, Ideal.rsqrt x = (r : EReal) := by
  obtain ⟨a, ha, rfl⟩ := hx
  exact ⟨(Real.sqrt a)⁻¹, by rw [Ideal.rsqrt_coe, if_neg (not_lt.2 ha.le), if_neg ha.ne']⟩

theorem IsReal.comp {ι κ : Type} {f : ι → EReal} (hf : IsReal f) (g : κ → ι) : IsReal fun j => f (g j) :=
  fun j => hf (g j)

theorem isReal_const {ι : Type} (r : ℝ) : IsReal fun _ : ι => (r : EReal) := fun _ => ⟨r, rfl⟩

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem isReal_constant {s : Shape} {b : BitVec 32} {r : ℝ} (hb : Ideal.ofBits .f32 b = (r : EReal)) :
    IsReal (constant (F := Ideal) s .f32 b) := fun _ => ⟨r, hb⟩

section Pointwise
variable {s : Shape} {φ : FTy} {x y : FVec Ideal s φ}

theorem isReal_addf (hx : IsReal x) (hy : IsReal y) : IsReal (addf x y) := fun i => real_add (hx i) (hy i)

theorem isReal_subf (hx : IsReal x) (hy : IsReal y) : IsReal (subf x y) := fun i => real_sub (hx i) (hy i)

theorem isReal_mulf (hx : IsReal x) (hy : IsReal y) : IsReal (mulf x y) := fun i => real_mul (hx i) (hy i)

theorem isReal_hostDivf_const (hx : IsReal x) {n : ℝ} (hn : n ≠ 0) (hy : ∀ i, y i = (n : EReal)) :
    IsReal (Host.divf x y) := fun i => by
  show ∃ r : ℝ, Ideal.div (x i) (y i) = (r : EReal)
  rw [hy i]; exact real_div (hx i) hn

theorem isReal_divf_const (hx : IsReal x) {n : ℝ} (hn : n ≠ 0) (hy : ∀ i, y i = (n : EReal)) :
    IsReal (divf x y) := fun i => by
  show ∃ r : ℝ, Ideal.div (x i) (y i) = (r : EReal)
  rw [hy i]; exact real_div (hx i) hn

theorem isReal_hostRsqrt (hx : ∀ i, ∃ r : ℝ, 0 < r ∧ x i = (r : EReal)) : IsReal (Host.rsqrt x) :=
  fun i => real_rsqrt (hx i)

theorem isReal_rsqrt (hx : ∀ i, ∃ r : ℝ, 0 < r ∧ x i = (r : EReal)) : IsReal (rsqrt x) :=
  fun i => real_rsqrt (hx i)

end Pointwise

section Reindex
variable {s t : Shape}

theorem isReal_broadcastInDim {x : s.Idx → EReal} (hx : IsReal x) (dims : Fin s.rank → Fin t.rank)
    (h : s.BroadcastsInDim t dims) : IsReal (broadcastInDim t dims h x) := fun _ => hx _

theorem isReal_broadcastTo {x : s.Idx → EReal} (hx : IsReal x) (h : s.Broadcasts t) :
    IsReal (broadcastTo t x h) := fun _ => hx _

theorem isReal_shapeCast {x : s.Idx → EReal} (hx : IsReal x) (h : s.ShapeCasts t) :
    IsReal (shapeCast t x h) := fun _ => hx _

theorem isReal_extractStridedSlice {x : s.Idx → EReal} (hx : IsReal x) (off : Fin s.rank → Nat)
    (h : s.Slices off t) : IsReal (extractStridedSlice t off x h) := fun _ => hx _

theorem isReal_gather {si : Shape} {w : Nat} {x : s.Idx → EReal} (hx : IsReal x) (d : GatherDims s si t)
    (idx : IVec si w) : IsReal (Host.gather d x idx) := fun _ => hx _

end Reindex

theorem isReal_matmul {sl sr so : Shape} (d : DotDims sl sr so) {lhs : sl.Idx → EReal} {rhs : sr.Idx → EReal}
    {acc : so.Idx → EReal} (hl : IsReal lhs) (hr : IsReal rhs) (ha : IsReal acc) :
    IsReal (Ideal.matmul d lhs rhs acc) := fun j =>
  real_add (ha j) (real_sum _ _ fun k _ => real_mul (hl _) (hr _))

theorem isReal_matmulOp {sl sr so : Shape} {φ₁ φ₂ : FTy} (d : DotDims sl sr so) (prec : Option ContractPrecision)
    {lhs : FVec Ideal sl φ₁} {rhs : FVec Ideal sr φ₂} {acc : FVec Ideal so .f32}
    (hl : IsReal lhs) (hr : IsReal rhs) (ha : IsReal acc) : IsReal (matmul d prec lhs rhs acc) :=
  isReal_matmul d hl hr ha

theorem isReal_dotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) :=
  isReal_matmul d hl hr fun _ => ⟨0, rfl⟩

theorem isReal_hostScatterAdd {s si su : Shape} (d : ScatterDims s si su) {w : Nat} {x : s.Idx → EReal}
    (idx : IVec si w) {upd : su.Idx → EReal} (hx : IsReal x) (hu : IsReal upd) :
    IsReal (Ideal.hostScatterAdd d x idx upd) := fun i =>
  real_add (hx i) (real_sum _ _ fun j _ => hu j)

theorem isReal_scatterAdd {s si su : Shape} {φ : FTy} (d : ScatterDims s si su) {w : Nat} {x : FVec Ideal s φ}
    (idx : IVec si w) {upd : FVec Ideal su φ} (hx : IsReal x) (hu : IsReal upd) :
    IsReal (Host.scatterAdd d x idx upd) :=
  isReal_hostScatterAdd d idx hx hu

theorem isReal_hostReduceAdd {s : Shape} {axes : List (Fin s.rank)} {t : Shape} (h : s.ReducesTo axes t)
    {x : s.Idx → EReal} {init : EReal} (hx : IsReal x) (hi : ∃ r : ℝ, init = (r : EReal)) :
    IsReal (Ideal.hostReduceAdd h x init) := fun _ =>
  real_add hi (real_sum _ _ fun i _ => hx i)

theorem isReal_reduceAdd {s : Shape} {axes : List (Fin s.rank)} {t : Shape} (h : s.Reduces axes t)
    {x : s.Idx → EReal} (hx : IsReal x) : IsReal (Ideal.reduceAdd h x) := fun _ =>
  real_sum _ _ fun i _ => hx i

theorem hostScatterAdd_nonneg {s si su : Shape} (d : ScatterDims s si su) {w : Nat} {x : s.Idx → EReal}
    (idx : IVec si w) {upd : su.Idx → EReal} (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨a, ha0, ha⟩ := hx i
  obtain ⟨b, hb0, hb⟩ := nonneg_real_sum (Finset.univ.filter fun j => d.resultIdx? j idx = some i) upd fun j _ => hu j
  exact ⟨a + b, add_nonneg ha0 hb0, by unfold Ideal.hostScatterAdd; rw [ha, hb, EReal.coe_add]⟩

theorem count_add_one_pos {s si su : Shape} (d : ScatterDims s si su) {w : Nat} (idx : IVec si w) (i : s.Idx) :
    ∃ r : ℝ, 0 < r ∧
      Ideal.hostScatterAdd d (fun _ => ((0 : ℝ) : EReal)) idx (fun _ => ((1 : ℝ) : EReal)) i + ((1 : ℝ) : EReal)
        = (r : EReal) := by
  obtain ⟨a, ha0, ha⟩ := hostScatterAdd_nonneg d idx (x := fun _ => ((0 : ℝ) : EReal))
    (upd := fun _ => ((1 : ℝ) : EReal)) (fun _ => ⟨0, le_rfl, rfl⟩) (fun _ => ⟨1, zero_le_one, rfl⟩) i
  exact ⟨a + 1, by linarith, by rw [ha, EReal.coe_add]⟩

theorem scatterAdd_ones_add_one_pos {s si su : Shape} (d : ScatterDims s si su) {w : Nat} (idx : IVec si w)
    (x one : FVec Ideal s .f32) (upd : FVec Ideal su .f32) (hx : ∀ i, x i = ((0 : ℝ) : EReal))
    (hu : ∀ j, upd j = ((1 : ℝ) : EReal)) (h1 : ∀ i, one i = ((1 : ℝ) : EReal)) (i : s.Idx) :
    ∃ r : ℝ, 0 < r ∧ addf (Host.scatterAdd d x idx upd) one i = (r : EReal) := by
  obtain ⟨a, ha0, ha⟩ := hostScatterAdd_nonneg d idx (x := x) (upd := upd) (fun i => ⟨0, le_rfl, hx i⟩)
    (fun j => ⟨1, zero_le_one, hu j⟩) i
  refine ⟨a + 1, by linarith, ?_⟩
  show Ideal.hostScatterAdd d x idx upd i + one i = _
  rw [ha, h1 i, EReal.coe_add]

theorem meanSq_add_eps_pos {ι : Type} [Fintype ι] (a : ι → ℝ) (μ N ε : ℝ) (hN : 0 < N) (hε : 0 < ε) :
    ∃ r : ℝ, 0 < r ∧
      Ideal.div (∑ i, ((a i : EReal) - (μ : EReal)) * ((a i : EReal) - (μ : EReal))) (N : EReal) + (ε : EReal)
        = (r : EReal) := by
  refine ⟨(∑ i, (a i - μ) * (a i - μ)) * (1 / N) + ε, ?_, ?_⟩
  · have h1 : 0 ≤ ∑ i, (a i - μ) * (a i - μ) := Finset.sum_nonneg fun i _ => mul_self_nonneg _
    have h2 : 0 ≤ (∑ i, (a i - μ) * (a i - μ)) * (1 / N) := mul_nonneg h1 (by positivity)
    linarith
  · have hs : (∑ i, ((a i : EReal) - (μ : EReal)) * ((a i : EReal) - (μ : EReal)))
        = ((∑ i, (a i - μ) * (a i - μ) : ℝ) : EReal) := by
      rw [coe_sum]; exact Finset.sum_congr rfl fun i _ => by rw [EReal.coe_mul, EReal.coe_sub]
    rw [hs, Ideal.div_coe hN.ne', ← EReal.coe_mul, ← EReal.coe_add]

theorem ofBits_eps : Ideal.ofBits .f32 0x3727C5AC#32 = (((10995116 : ℝ) * (2 : ℝ) ^ (-40 : ℤ) : ℝ) : EReal) := by
  simp [Ideal.ofBits, Ideal.ieee, -EReal.coe_mul]

theorem eps_pos : (0 : ℝ) < (10995116 : ℝ) * (2 : ℝ) ^ (-40 : ℤ) := by positivity

end Cert.Lib

end
-- ==== Proof.LibVariance.lean ====
import Idealize.ShloMosaic.PureOps.Ideal
import Idealize.ShloMosaic.PureOps.Ideal.Laws
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import proofs.«120348_j28252294873367_1_alg».proof.Proof.LibReal

noncomputable section

namespace Cert.Lib

open Idealize.ShloMosaic
open scoped BigOperators

theorem variance_real {ι : Type} [Fintype ι] (a : ι → ℝ) (N : ℝ) (hN : N ≠ 0) (hcard : (Fintype.card ι : ℝ) = N) :
    (∑ i, a i * a i) * (1 / N) - ((∑ i, a i) * (1 / N)) * ((∑ i, a i) * (1 / N))
      = (∑ i, (a i - (∑ i, a i) * (1 / N)) * (a i - (∑ i, a i) * (1 / N))) * (1 / N) := by
  have key : ∀ (S m : ℝ), (∑ i, a i) = S →
      ∑ i, (a i - m) * (a i - m) = (∑ i, a i * a i) - 2 * m * S + N * (m * m) := by
    intro S m hS
    have h1 : ∀ i, (a i - m) * (a i - m) = a i * a i - 2 * m * a i + m * m := fun i => by ring
    rw [Finset.sum_congr rfl fun i _ => h1 i, Finset.sum_add_distrib, Finset.sum_sub_distrib, ← Finset.mul_sum,
      Finset.sum_const, Finset.card_univ, nsmul_eq_mul, hcard, hS]
  rw [key _ _ rfl]
  field_simp
  ring

theorem variance_identity {ι : Type} [Fintype ι] (a : ι → ℝ) (N : ℝ) (hN : N ≠ 0) (hcard : (Fintype.card ι : ℝ) = N) :
    Ideal.div (∑ i, (a i : EReal) * (a i : EReal)) (N : EReal)
        - Ideal.div (∑ i, (a i : EReal)) (N : EReal) * Ideal.div (∑ i, (a i : EReal)) (N : EReal)
      = Ideal.div (∑ i, ((a i : EReal) - Ideal.div (∑ i, (a i : EReal)) (N : EReal))
          * ((a i : EReal) - Ideal.div (∑ i, (a i : EReal)) (N : EReal))) (N : EReal) := by
  have hsum : (∑ i, (a i : EReal)) = ((∑ i, a i : ℝ) : EReal) := (coe_sum _ _).symm
  have hsq : (∑ i, (a i : EReal) * (a i : EReal)) = ((∑ i, a i * a i : ℝ) : EReal) := by
    rw [coe_sum]; exact Finset.sum_congr rfl fun i _ => (EReal.coe_mul _ _).symm
  have hmean : Ideal.div (∑ i, (a i : EReal)) (N : EReal) = (((∑ i, a i) * (1 / N) : ℝ) : EReal) := by
    rw [hsum, Ideal.div_coe hN, ← EReal.coe_mul]
  have hdev : (∑ i, ((a i : EReal) - (((∑ i, a i) * (1 / N) : ℝ) : EReal))
        * ((a i : EReal) - (((∑ i, a i) * (1 / N) : ℝ) : EReal)))
      = ((∑ i, (a i - (∑ i, a i) * (1 / N)) * (a i - (∑ i, a i) * (1 / N)) : ℝ) : EReal) := by
    rw [coe_sum]; exact Finset.sum_congr rfl fun i _ => by rw [← EReal.coe_sub, ← EReal.coe_mul]
  rw [hmean, hdev, hsq, Ideal.div_coe hN, Ideal.div_coe hN, ← EReal.coe_mul, ← EReal.coe_mul, ← EReal.coe_mul,
    ← EReal.coe_sub, variance_real a N hN hcard]

theorem variance_identity_of_isReal {ι : Type} [Fintype ι] (a : ι → EReal) (ha : IsReal a) (N : ℝ) (hN : N ≠ 0)
    (hcard : (Fintype.card ι : ℝ) = N) :
    Ideal.div (∑ i, a i * a i) (N : EReal) - Ideal.div (∑ i, a i) (N : EReal) * Ideal.div (∑ i, a i) (N : EReal)
      = Ideal.div (∑ i, (a i - Ideal.div (∑ i, a i) (N : EReal)) * (a i - Ideal.div (∑ i, a i) (N : EReal))) (N : EReal) := by
  choose r hr using ha
  have e : a = fun i => (r i : EReal) := funext hr
  subst e
  exact variance_identity r N hN hcard

theorem variance_identity_zero_add {ι : Type} [Fintype ι] (a : ι → EReal) (ha : IsReal a) (N : ℝ) (hN : N ≠ 0)
    (hcard : (Fintype.card ι : ℝ) = N) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal)) * (a i - Ideal.div (0 + ∑ i, a i) (N : EReal)))
          (N : EReal) := by
  simp only [zero_add]
  exact variance_identity_of_isReal a ha N hN hcard

theorem sum_blocks {M : Type} [AddCommMonoid M] (m n : ℕ) (g : Fin (m * n) → M) :
    ∑ i : Fin (m * n), g i = ∑ t : Fin m, ∑ r : Fin n, g (finProdFinEquiv (t, r)) := by
  rw [← Fintype.sum_prod_type' (f := fun t r => g (finProdFinEquiv (t, r)))]
  exact (Equiv.sum_comp finProdFinEquiv g).symm

theorem finProdFinEquiv_val (m n : ℕ) (t : Fin m) (r : Fin n) : (finProdFinEquiv (t, r)).val = r.val + n * t.val := rfl

theorem sum_blocks_of_eq {M : Type} [AddCommMonoid M] (m n N : ℕ) (h : m * n = N) (g : Fin N → M) :
    ∑ i : Fin N, g i
      = ∑ t : Fin m, ∑ r : Fin n, g ⟨t.val * n + r.val, by
          have ht := t.isLt; have hr := r.isLt
          calc t.val * n + r.val < t.val * n + n := by omega
            _ = (t.val + 1) * n := by ring
            _ ≤ m * n := Nat.mul_le_mul_right n ht
            _ = N := h⟩ := by
  subst h
  rw [sum_blocks]
  refine Finset.sum_congr rfl fun t _ => Finset.sum_congr rfl fun r _ => congrArg g (Fin.ext ?_)
  rw [finProdFinEquiv_val]; ring

theorem zero_add_sum_blocks_of_eq {M : Type} [AddCommMonoid M] (m n N : ℕ) (h : m * n = N) (g : Fin N → M)
    (hlt : ∀ (t : Fin m) (r : Fin n), t.val * n + r.val < N) :
    0 + ∑ t : Fin m, ∑ r : Fin n, g ⟨t.val * n + r.val, hlt t r⟩ = ∑ i : Fin N, g i := by
  rw [zero_add, sum_blocks_of_eq m n N h g]

theorem lrelu_ogt_eq_oge (y s : EReal) :
    Scalar.select (Ideal.cmp .ogt y 0) y (y * s) = Scalar.select (Ideal.cmp .oge y 0) y (s * y) := by
  rcases lt_trichotomy y 0 with h | h | h
  · have h1 : ¬ (0 < y) := not_lt.2 h.le
    have h2 : ¬ (0 ≤ y) := not_le.2 h
    simp [Scalar.select, Ideal.cmp, h1, h2, mul_comm]
  · subst h
    simp [Scalar.select, Ideal.cmp]
  · have h2 : (0 : EReal) ≤ y := h.le
    simp [Scalar.select, Ideal.cmp, h, h2]

theorem lrelu_ogt_eq_oge_ofBits (y s : EReal) :
    Scalar.select (Ideal.cmp .ogt y (Ideal.ofBits .f32 0x00000000#32)) y (y * s)
      = Scalar.select (Ideal.cmp .oge y (Ideal.ofBits .f32 0x00000000#32)) y (s * y) := by
  rw [Ideal.ofBits_zero_f32]; exact lrelu_ogt_eq_oge y s

theorem lrelu_vec_eq {sh : Shape} (y s : FVec Ideal sh .f32) :
    select (cmpf .ogt y (constant sh .f32 0x00000000#32)) y (mulf y s)
      = select (cmpf .oge y (constant sh .f32 0x00000000#32)) y (mulf s y) :=
  funext fun i => lrelu_ogt_eq_oge_ofBits (y i) (s i)

theorem real_lrelu {y s z : EReal} (hy : ∃ r : ℝ, y = (r : EReal)) (hs : ∃ r : ℝ, s = (r : EReal)) :
    ∃ r : ℝ, Scalar.select (Ideal.cmp .ogt y z) y (y * s) = (r : EReal) := by
  unfold Scalar.select
  split
  · exact hy
  · exact real_mul hy hs

end Cert.Lib

end
-- ==== Proof.Spec.lean ====
import Idealize.ShloMosaic.PureOps.Ideal
import Idealize.ShloMosaic.PureOps.Ideal.Laws
import Idealize.ShloMosaic.Lib.ValueIdx
import proofs.«120348_j28252294873367_1_alg».proof.Proof.LibDense
import proofs.«120348_j28252294873367_1_alg».proof.Proof.LibReal
import proofs.«120348_j28252294873367_1_alg».proof.Proof.LibVariance

noncomputable section

namespace Cert.Spec

open Idealize.ShloMosaic Idealize.ShloMosaic.ValueIdx
open scoped BigOperators

abbrev Arr (M N : Nat) : Type := (⟨2, ![M, N]⟩ : Shape).Idx → EReal

abbrev row0 {N : Nat} (b : Arr 1 N) (q : Fin N) : EReal := b (ix2 (0 : Fin 1) q)

def affine {M K N : Nat} (x : Arr M K) (w : Arr K N) (b : Arr 1 N) : Arr M N :=
  fun j => Cert.Lib.dense x w j + row0 b (j 1)

def affineMax {M K N : Nat} (x : Arr M K) (w : Arr K N) (b : Arr 1 N) (z : EReal) : Arr M N :=
  fun j => max (affine x w b j) z

def shifted {M N : Nat} (x : Arr M N) (b : Arr 1 N) : Arr M N := fun j => x j + row0 b (j 1)

def colSum {M N : Nat} (x : Arr M N) : Arr 1 N := fun j => ∑ r : Fin M, x (ix2 r (j 1))

def colMean {M N : Nat} (x : Arr M N) (b : Arr 1 N) (n : EReal) : Arr 1 N :=
  fun j => Ideal.div (colSum (shifted x b) j) n

def colVarK {M N : Nat} (x : Arr M N) (b : Arr 1 N) (n : EReal) : Arr 1 N :=
  fun j => Ideal.div (colSum (fun i => shifted x b i * shifted x b i) j) n - colMean x b n j * colMean x b n j

def colVarR {M N : Nat} (x : Arr M N) (b : Arr 1 N) (n : EReal) : Arr 1 N :=
  fun j => Ideal.div (colSum (fun i => (shifted x b i - row0 (colMean x b n) (i 1)) * (shifted x b i - row0 (colMean x b n) (i 1))) j) n

def normMax {M N : Nat} (x : Arr M N) (b mean var g be : Arr 1 N) (eps z : EReal) : Arr M N :=
  fun j => max ((((shifted x b j - row0 mean (j 1)) * Ideal.rsqrt (row0 var (j 1) + eps)) * row0 g (j 1)) + row0 be (j 1)) z

end Cert.Spec

end
-- ==== Proof.Net.lean ====
import proofs.«120348_j28252294873367_1_alg».proof.Proof.Common
import proofs.«120348_j28252294873367_1_alg».proof.Proof.Spec

noncomputable section

namespace Cert.Net

open Cert.KernelIdeal Cert.KernelIdeal.Gen Cert.Common Cert.Spec Idealize.ShloMosaic

abbrev nN : EReal := Ideal.ofBits .f32 0x47C35000#32
abbrev eps : EReal := Ideal.ofBits .f32 0x3727C5AC#32
abbrev zz : EReal := Ideal.ofBits .f32 0x00000000#32

structure Params where
  a0 : IV S100000x2
  a1 : IV S2x200000
  a2 : IV S200000x2
  a3 : IV S100000
  a4 : FV S120x300
  a5 : FV S3x300
  a6 : FV S5x300x300
  a7 : FV S5x300
  a8 : FV S5x6x1
  a9 : FV S5x3x1
  a10 : FV S5x300
  a11 : FV S5x300
  a12 : FV S300x256
  a13 : FV S256
  a14 : FV S256x128
  a15 : FV S128
  a16 : FV S128x2
  a17 : FV S2

def raw (p : Params) (l : Fin 5) (hw : FV S100000x300) : FV S100000x300 :=
  aggr hw (src p.a1) (dst p.a1) (ea0 p.a2) (ea1 p.a2) (tab1 l p.a8) (tab2 l p.a9)

def proj (p : Params) (l : Fin 5) (h : FV S100000x300) : FV S100000x300 :=
  affine (M := 100000) (K := 300) (N := 300) h (wmat l p.a6) zrow300

def kLayer (p : Params) (l : Fin 5) (h : FV S100000x300) : FV S100000x300 :=
  normMax (M := 100000) (N := 300) (raw p l (proj p l h)) (rowK (vec l p.a7))
    (colMean (M := 100000) (N := 300) (raw p l (proj p l h)) (rowK (vec l p.a7)) nN)
    (colVarK (M := 100000) (N := 300) (raw p l (proj p l h)) (rowK (vec l p.a7)) nN)
    (rowK (vec l p.a10)) (rowK (vec l p.a11)) eps zz

def kH (p : Params) : Nat → FV S100000x300
  | 0 => h0 p.a0 p.a4 p.a5
  | 1 => kLayer p 0 (h0 p.a0 p.a4 p.a5)
  | 2 => kLayer p 1 (kLayer p 0 (h0 p.a0 p.a4 p.a5))
  | 3 => kLayer p 2 (kLayer p 1 (kLayer p 0 (h0 p.a0 p.a4 p.a5)))
  | 4 => kLayer p 3 (kLayer p 2 (kLayer p 1 (kLayer p 0 (h0 p.a0 p.a4 p.a5))))
  | _ => kLayer p 4 (kLayer p 3 (kLayer p 2 (kLayer p 1 (kLayer p 0 (h0 p.a0 p.a4 p.a5)))))

def kOut0 (p : Params) : FV S2048x256 :=
  pool (affine (M := 100000) (K := 300) (N := 256) (kH p 5) p.a12 (row256 p.a13)) p.a3

def kOut1 (p : Params) : FV S2048x2 :=
  affine (M := 2048) (K := 128) (N := 2)
    (affineMax (M := 2048) (K := 256) (N := 128) (kOut0 p) p.a14 (row128 p.a15) zz) p.a16 (row2 p.a17)

end Cert.Net

end
-- ==== Proof.NetR.lean ====
import proofs.«120348_j28252294873367_1_alg».proof.Proof.Net
import proofs.«120348_j28252294873367_1_alg».proof.Proof.RefFun

noncomputable section

namespace Cert.Net

open Cert.KernelIdeal Cert.KernelIdeal.Gen Cert.Common Cert.Spec Idealize.ShloMosaic

def rLayer (p : Params) (l : Fin 5) (h : FV S100000x300) : FV S100000x300 :=
  Cert.RefFun.bnHost (raw p l (Cert.RefFun.projHost h (wmat l p.a6))) (vec l p.a7) (vec l p.a10) (vec l p.a11)

def rH (p : Params) : Nat → FV S100000x300
  | 0 => h0 p.a0 p.a4 p.a5
  | 1 => rLayer p 0 (h0 p.a0 p.a4 p.a5)
  | 2 => rLayer p 1 (rLayer p 0 (h0 p.a0 p.a4 p.a5))
  | 3 => rLayer p 2 (rLayer p 1 (rLayer p 0 (h0 p.a0 p.a4 p.a5)))
  | 4 => rLayer p 3 (rLayer p 2 (rLayer p 1 (rLayer p 0 (h0 p.a0 p.a4 p.a5))))
  | _ => rLayer p 4 (rLayer p 3 (rLayer p 2 (rLayer p 1 (rLayer p 0 (h0 p.a0 p.a4 p.a5)))))

def rOut0 (p : Params) : FV S2048x256 := pool (Cert.RefFun.featHost (rH p 5) p.a12 p.a13) p.a3

def rOut1 (p : Params) : FV S2048x2 := Cert.RefFun.headHost (rOut0 p) p.a14 p.a15 p.a16 p.a17

end Cert.Net

end
-- ==== Proof.RVal.lean ====
import proofs.«120348_j28252294873367_1_alg».proof.Proof.RefChunks
import proofs.«120348_j28252294873367_1_alg».proof.Proof.RReadA
import proofs.«120348_j28252294873367_1_alg».proof.Proof.RRead
import proofs.«120348_j28252294873367_1_alg».proof.Proof.NetR
import Idealize.ShloMosaic.Lib.StableHlo.Run

set_option maxRecDepth 16384

noncomputable section

namespace Cert.ReferenceIdeal.RVal

open Cert.ReferenceIdeal Cert.ReferenceIdeal.Gen Cert.ReferenceIdeal.RunP Cert.ReferenceIdeal.Read
open Idealize.ShloMosaic Idealize.ShloMosaic.TcCoe Idealize.SL.Sem Idealize.ShloMosaic.StableHlo

def rparams (W0 : Valuation τ sig (Elt Ideal)) : Cert.Net.Params :=
  ⟨W0 main_arg0, W0 main_arg1, W0 main_arg2, W0 main_arg3, W0 main_arg4, W0 main_arg5, W0 main_arg6, W0 main_arg7, W0 main_arg8, W0 main_arg9, W0 main_arg10, W0 main_arg11, W0 main_arg12, W0 main_arg13, W0 main_arg14, W0 main_arg15, W0 main_arg16, W0 main_arg17⟩

def W1 (W0 : Valuation τ sig (Elt Ideal)) : Valuation τ sig (Elt Ideal) := after (cP (F := Ideal)) W0
def W2 (W0 : Valuation τ sig (Elt Ideal)) : Valuation τ sig (Elt Ideal) := after (cA_0 (F := Ideal)) (W1 W0)
def W3 (W0 : Valuation τ sig (Elt Ideal)) : Valuation τ sig (Elt Ideal) := after (cB_0 (F := Ideal)) (W2 W0)
def W4 (W0 : Valuation τ sig (Elt Ideal)) : Valuation τ sig (Elt Ideal) := after (cA_1 (F := Ideal)) (W3 W0)
def W5 (W0 : Valuation τ sig (Elt Ideal)) : Valuation τ sig (Elt Ideal) := after (cB_1 (F := Ideal)) (W4 W0)
def W6 (W0 : Valuation τ sig (Elt Ideal)) : Valuation τ sig (Elt Ideal) := after (cA_2 (F := Ideal)) (W5 W0)
def W7 (W0 : Valuation τ sig (Elt Ideal)) : Valuation τ sig (Elt Ideal) := after (cB_2 (F := Ideal)) (W6 W0)
def W8 (W0 : Valuation τ sig (Elt Ideal)) : Valuation τ sig (Elt Ideal) := after (cA_3 (F := Ideal)) (W7 W0)
def W9 (W0 : Valuation τ sig (Elt Ideal)) : Valuation τ sig (Elt Ideal) := after (cB_3 (F := Ideal)) (W8 W0)
def W10 (W0 : Valuation τ sig (Elt Ideal)) : Valuation τ sig (Elt Ideal) := after (cA_4 (F := Ideal)) (W9 W0)
def W11 (W0 : Valuation τ sig (Elt Ideal)) : Valuation τ sig (Elt Ideal) := after (cB_4 (F := Ideal)) (W10 W0)
def W12 (W0 : Valuation τ sig (Elt Ideal)) : Valuation τ sig (Elt Ideal) := after (cT (F := Ideal)) (W11 W0)

theorem after_ops_eq (W0 : Valuation τ sig (Elt Ideal)) : after (ops (F := Ideal)) W0 = W12 W0 := after_ops W0

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

abbrev edgeRefs : List (Ref sig .tc) := [main_v3, main_v6, main_v10, main_v14]

abbrev keepRefs : List (Ref sig .tc) := argRefs ++ edgeRefs

theorem arg_keep (r : Ref sig .tc) (hr : r ∈ argRefs) : r ∈ keepRefs := List.mem_append_left _ hr

theorem notMem_of_idx (L W : List (Ref sig .tc))
    (h : ∀ n ∈ L.map (fun r => r.idx.val), n ∉ W.map (fun r => r.idx.val)) : ∀ r ∈ L, r ∉ W :=
  fun r hr hm => h _ (List.mem_map_of_mem hr) (List.mem_map_of_mem hm)

theorem argRefs_cP : ∀ r ∈ argRefs, r ∉ cP_W := notMem_of_idx _ _ (by decide +kernel)
theorem keepRefs_cA_0 : ∀ r ∈ keepRefs, r ∉ cA_0_W := notMem_of_idx _ _ (by decide +kernel)
theorem keepRefs_cB_0 : ∀ r ∈ keepRefs, r ∉ cB_0_W := notMem_of_idx _ _ (by decide +kernel)
theorem keepRefs_cA_1 : ∀ r ∈ keepRefs, r ∉ cA_1_W := notMem_of_idx _ _ (by decide +kernel)
theorem keepRefs_cB_1 : ∀ r ∈ keepRefs, r ∉ cB_1_W := notMem_of_idx _ _ (by decide +kernel)
theorem keepRefs_cA_2 : ∀ r ∈ keepRefs, r ∉ cA_2_W := notMem_of_idx _ _ (by decide +kernel)
theorem keepRefs_cB_2 : ∀ r ∈ keepRefs, r ∉ cB_2_W := notMem_of_idx _ _ (by decide +kernel)
theorem keepRefs_cA_3 : ∀ r ∈ keepRefs, r ∉ cA_3_W := notMem_of_idx _ _ (by decide +kernel)
theorem keepRefs_cB_3 : ∀ r ∈ keepRefs, r ∉ cB_3_W := notMem_of_idx _ _ (by decide +kernel)
theorem keepRefs_cA_4 : ∀ r ∈ keepRefs, r ∉ cA_4_W := notMem_of_idx _ _ (by decide +kernel)
theorem keepRefs_cB_4 : ∀ r ∈ keepRefs, r ∉ cB_4_W := notMem_of_idx _ _ (by decide +kernel)
theorem keepRefs_cT : ∀ r ∈ keepRefs, r ∉ cT_W := notMem_of_idx _ _ (by decide +kernel)

theorem W1_arg (W0 : Valuation τ sig (Elt Ideal)) (r : Ref sig .tc) (hr : r ∈ argRefs) : W1 W0 r = W0 r :=
  cP_keep W0 r (argRefs_cP r hr)

theorem W2_keep (W0 : Valuation τ sig (Elt Ideal)) (r : Ref sig .tc) (hr : r ∈ keepRefs) : W2 W0 r = W1 W0 r :=
  cA_0_keep (W1 W0) r (keepRefs_cA_0 r hr)
theorem W3_keep (W0 : Valuation τ sig (Elt Ideal)) (r : Ref sig .tc) (hr : r ∈ keepRefs) : W3 W0 r = W1 W0 r :=
  (cB_0_keep (W2 W0) r (keepRefs_cB_0 r hr)).trans (W2_keep W0 r hr)
theorem W4_keep (W0 : Valuation τ sig (Elt Ideal)) (r : Ref sig .tc) (hr : r ∈ keepRefs) : W4 W0 r = W1 W0 r :=
  (cA_1_keep (W3 W0) r (keepRefs_cA_1 r hr)).trans (W3_keep W0 r hr)
theorem W5_keep (W0 : Valuation τ sig (Elt Ideal)) (r : Ref sig .tc) (hr : r ∈ keepRefs) : W5 W0 r = W1 W0 r :=
  (cB_1_keep (W4 W0) r (keepRefs_cB_1 r hr)).trans (W4_keep W0 r hr)
theorem W6_keep (W0 : Valuation τ sig (Elt Ideal)) (r : Ref sig .tc) (hr : r ∈ keepRefs) : W6 W0 r = W1 W0 r :=
  (cA_2_keep (W5 W0) r (keepRefs_cA_2 r hr)).trans (W5_keep W0 r hr)
theorem W7_keep (W0 : Valuation τ sig (Elt Ideal)) (r : Ref sig .tc) (hr : r ∈ keepRefs) : W7 W0 r = W1 W0 r :=
  (cB_2_keep (W6 W0) r (keepRefs_cB_2 r hr)).trans (W6_keep W0 r hr)
theorem W8_keep (W0 : Valuation τ sig (Elt Ideal)) (r : Ref sig .tc) (hr : r ∈ keepRefs) : W8 W0 r = W1 W0 r :=
  (cA_3_keep (W7 W0) r (keepRefs_cA_3 r hr)).trans (W7_keep W0 r hr)
theorem W9_keep (W0 : Valuation τ sig (Elt Ideal)) (r : Ref sig .tc) (hr : r ∈ keepRefs) : W9 W0 r = W1 W0 r :=
  (cB_3_keep (W8 W0) r (keepRefs_cB_3 r hr)).trans (W8_keep W0 r hr)
theorem W10_keep (W0 : Valuation τ sig (Elt Ideal)) (r : Ref sig .tc) (hr : r ∈ keepRefs) : W10 W0 r = W1 W0 r :=
  (cA_4_keep (W9 W0) r (keepRefs_cA_4 r hr)).trans (W9_keep W0 r hr)
theorem W11_keep (W0 : Valuation τ sig (Elt Ideal)) (r : Ref sig .tc) (hr : r ∈ keepRefs) : W11 W0 r = W1 W0 r :=
  (cB_4_keep (W10 W0) r (keepRefs_cB_4 r hr)).trans (W10_keep W0 r hr)
theorem W12_keep (W0 : Valuation τ sig (Elt Ideal)) (r : Ref sig .tc) (hr : r ∈ keepRefs) : W12 W0 r = W1 W0 r :=
  (cT_keep (W11 W0) r (keepRefs_cT r hr)).trans (W11_keep W0 r hr)

theorem W2_arg (W0 : Valuation τ sig (Elt Ideal)) (r : Ref sig .tc) (hr : r ∈ argRefs) : W2 W0 r = W0 r :=
  (W2_keep W0 r (arg_keep r hr)).trans (W1_arg W0 r hr)
theorem W3_arg (W0 : Valuation τ sig (Elt Ideal)) (r : Ref sig .tc) (hr : r ∈ argRefs) : W3 W0 r = W0 r :=
  (W3_keep W0 r (arg_keep r hr)).trans (W1_arg W0 r hr)
theorem W4_arg (W0 : Valuation τ sig (Elt Ideal)) (r : Ref sig .tc) (hr : r ∈ argRefs) : W4 W0 r = W0 r :=
  (W4_keep W0 r (arg_keep r hr)).trans (W1_arg W0 r hr)
theorem W5_arg (W0 : Valuation τ sig (Elt Ideal)) (r : Ref sig .tc) (hr : r ∈ argRefs) : W5 W0 r = W0 r :=
  (W5_keep W0 r (arg_keep r hr)).trans (W1_arg W0 r hr)
theorem W6_arg (W0 : Valuation τ sig (Elt Ideal)) (r : Ref sig .tc) (hr : r ∈ argRefs) : W6 W0 r = W0 r :=
  (W6_keep W0 r (arg_keep r hr)).trans (W1_arg W0 r hr)
theorem W7_arg (W0 : Valuation τ sig (Elt Ideal)) (r : Ref sig .tc) (hr : r ∈ argRefs) : W7 W0 r = W0 r :=
  (W7_keep W0 r (arg_keep r hr)).trans (W1_arg W0 r hr)
theorem W8_arg (W0 : Valuation τ sig (Elt Ideal)) (r : Ref sig .tc) (hr : r ∈ argRefs) : W8 W0 r = W0 r :=
  (W8_keep W0 r (arg_keep r hr)).trans (W1_arg W0 r hr)
theorem W9_arg (W0 : Valuation τ sig (Elt Ideal)) (r : Ref sig .tc) (hr : r ∈ argRefs) : W9 W0 r = W0 r :=
  (W9_keep W0 r (arg_keep r hr)).trans (W1_arg W0 r hr)
theorem W10_arg (W0 : Valuation τ sig (Elt Ideal)) (r : Ref sig .tc) (hr : r ∈ argRefs) : W10 W0 r = W0 r :=
  (W10_keep W0 r (arg_keep r hr)).trans (W1_arg W0 r hr)
theorem W11_arg (W0 : Valuation τ sig (Elt Ideal)) (r : Ref sig .tc) (hr : r ∈ argRefs) : W11 W0 r = W0 r :=
  (W11_keep W0 r (arg_keep r hr)).trans (W1_arg W0 r hr)
theorem W12_arg (W0 : Valuation τ sig (Elt Ideal)) (r : Ref sig .tc) (hr : r ∈ argRefs) : W12 W0 r = W0 r :=
  (W12_keep W0 r (arg_keep r hr)).trans (W1_arg W0 r hr)

theorem W1_v3 (W0 : Valuation τ sig (Elt Ideal)) : W1 W0 main_v3 = Cert.Common.src (W0 main_arg1) := rP_v3 W0
theorem W1_v6 (W0 : Valuation τ sig (Elt Ideal)) : W1 W0 main_v6 = Cert.Common.dst (W0 main_arg1) := rP_v6 W0
theorem W1_v10 (W0 : Valuation τ sig (Elt Ideal)) : W1 W0 main_v10 = Cert.Common.ea0 (W0 main_arg2) := rP_v10 W0
theorem W1_v14 (W0 : Valuation τ sig (Elt Ideal)) : W1 W0 main_v14 = Cert.Common.ea1 (W0 main_arg2) := rP_v14 W0
theorem W3_v3 (W0 : Valuation τ sig (Elt Ideal)) : W3 W0 main_v3 = Cert.Common.src (W0 main_arg1) :=
  (W3_keep W0 main_v3 (by decide)).trans (W1_v3 W0)
theorem W3_v6 (W0 : Valuation τ sig (Elt Ideal)) : W3 W0 main_v6 = Cert.Common.dst (W0 main_arg1) :=
  (W3_keep W0 main_v6 (by decide)).trans (W1_v6 W0)
theorem W3_v10 (W0 : Valuation τ sig (Elt Ideal)) : W3 W0 main_v10 = Cert.Common.ea0 (W0 main_arg2) :=
  (W3_keep W0 main_v10 (by decide)).trans (W1_v10 W0)
theorem W3_v14 (W0 : Valuation τ sig (Elt Ideal)) : W3 W0 main_v14 = Cert.Common.ea1 (W0 main_arg2) :=
  (W3_keep W0 main_v14 (by decide)).trans (W1_v14 W0)
theorem W5_v3 (W0 : Valuation τ sig (Elt Ideal)) : W5 W0 main_v3 = Cert.Common.src (W0 main_arg1) :=
  (W5_keep W0 main_v3 (by decide)).trans (W1_v3 W0)
theorem W5_v6 (W0 : Valuation τ sig (Elt Ideal)) : W5 W0 main_v6 = Cert.Common.dst (W0 main_arg1) :=
  (W5_keep W0 main_v6 (by decide)).trans (W1_v6 W0)
theorem W5_v10 (W0 : Valuation τ sig (Elt Ideal)) : W5 W0 main_v10 = Cert.Common.ea0 (W0 main_arg2) :=
  (W5_keep W0 main_v10 (by decide)).trans (W1_v10 W0)
theorem W5_v14 (W0 : Valuation τ sig (Elt Ideal)) : W5 W0 main_v14 = Cert.Common.ea1 (W0 main_arg2) :=
  (W5_keep W0 main_v14 (by decide)).trans (W1_v14 W0)
theorem W7_v3 (W0 : Valuation τ sig (Elt Ideal)) : W7 W0 main_v3 = Cert.Common.src (W0 main_arg1) :=
  (W7_keep W0 main_v3 (by decide)).trans (W1_v3 W0)
theorem W7_v6 (W0 : Valuation τ sig (Elt Ideal)) : W7 W0 main_v6 = Cert.Common.dst (W0 main_arg1) :=
  (W7_keep W0 main_v6 (by decide)).trans (W1_v6 W0)
theorem W7_v10 (W0 : Valuation τ sig (Elt Ideal)) : W7 W0 main_v10 = Cert.Common.ea0 (W0 main_arg2) :=
  (W7_keep W0 main_v10 (by decide)).trans (W1_v10 W0)
theorem W7_v14 (W0 : Valuation τ sig (Elt Ideal)) : W7 W0 main_v14 = Cert.Common.ea1 (W0 main_arg2) :=
  (W7_keep W0 main_v14 (by decide)).trans (W1_v14 W0)
theorem W9_v3 (W0 : Valuation τ sig (Elt Ideal)) : W9 W0 main_v3 = Cert.Common.src (W0 main_arg1) :=
  (W9_keep W0 main_v3 (by decide)).trans (W1_v3 W0)
theorem W9_v6 (W0 : Valuation τ sig (Elt Ideal)) : W9 W0 main_v6 = Cert.Common.dst (W0 main_arg1) :=
  (W9_keep W0 main_v6 (by decide)).trans (W1_v6 W0)
theorem W9_v10 (W0 : Valuation τ sig (Elt Ideal)) : W9 W0 main_v10 = Cert.Common.ea0 (W0 main_arg2) :=
  (W9_keep W0 main_v10 (by decide)).trans (W1_v10 W0)
theorem W9_v14 (W0 : Valuation τ sig (Elt Ideal)) : W9 W0 main_v14 = Cert.Common.ea1 (W0 main_arg2) :=
  (W9_keep W0 main_v14 (by decide)).trans (W1_v14 W0)

theorem W1_h (W0 : Valuation τ sig (Elt Ideal)) : W1 W0 main_v33 = Cert.Net.rH (rparams W0) 0 := rP_v33 W0

theorem W2_seg (W0 : Valuation τ sig (Elt Ideal)) :
    W2 W0 main_v67
      = Cert.Net.raw (rparams W0) 0 (Cert.RefFun.projHost (Cert.Net.rH (rparams W0) 0) (Cert.Common.wmat 0 (rparams W0).a6)) := by
  refine (rA0_v67 (W1 W0)).trans ?_
  rw [W1_h, W1_arg W0 main_arg6 (by decide), W1_v3, W1_v6, W1_v10, W1_v14,
    W1_arg W0 main_arg8 (by decide), W1_arg W0 main_arg9 (by decide)]
  rfl

theorem W3_h (W0 : Valuation τ sig (Elt Ideal)) : W3 W0 main_v102 = Cert.Net.rH (rparams W0) 1 := by
  refine (cB_0_read (W2 W0)).trans ?_
  rw [W2_seg, W2_arg W0 main_arg7 (by decide), W2_arg W0 main_arg10 (by decide), W2_arg W0 main_arg11 (by decide)]
  rfl

theorem W4_seg (W0 : Valuation τ sig (Elt Ideal)) :
    W4 W0 main_v136
      = Cert.Net.raw (rparams W0) 1 (Cert.RefFun.projHost (Cert.Net.rH (rparams W0) 1) (Cert.Common.wmat 1 (rparams W0).a6)) := by
  refine (rA1_v136 (W3 W0)).trans ?_
  rw [W3_h, W3_arg W0 main_arg6 (by decide), W3_v3, W3_v6, W3_v10, W3_v14,
    W3_arg W0 main_arg8 (by decide), W3_arg W0 main_arg9 (by decide)]
  rfl

theorem W5_h (W0 : Valuation τ sig (Elt Ideal)) : W5 W0 main_v171 = Cert.Net.rH (rparams W0) 2 := by
  refine (cB_1_read (W4 W0)).trans ?_
  rw [W4_seg, W4_arg W0 main_arg7 (by decide), W4_arg W0 main_arg10 (by decide), W4_arg W0 main_arg11 (by decide)]
  rfl

theorem W6_seg (W0 : Valuation τ sig (Elt Ideal)) :
    W6 W0 main_v205
      = Cert.Net.raw (rparams W0) 2 (Cert.RefFun.projHost (Cert.Net.rH (rparams W0) 2) (Cert.Common.wmat 2 (rparams W0).a6)) := by
  refine (rA2_v205 (W5 W0)).trans ?_
  rw [W5_h, W5_arg W0 main_arg6 (by decide), W5_v3, W5_v6, W5_v10, W5_v14,
    W5_arg W0 main_arg8 (by decide), W5_arg W0 main_arg9 (by decide)]
  rfl

theorem W7_h (W0 : Valuation τ sig (Elt Ideal)) : W7 W0 main_v240 = Cert.Net.rH (rparams W0) 3 := by
  refine (cB_2_read (W6 W0)).trans ?_
  rw [W6_seg, W6_arg W0 main_arg7 (by decide), W6_arg W0 main_arg10 (by decide), W6_arg W0 main_arg11 (by decide)]
  rfl

theorem W8_seg (W0 : Valuation τ sig (Elt Ideal)) :
    W8 W0 main_v274
      = Cert.Net.raw (rparams W0) 3 (Cert.RefFun.projHost (Cert.Net.rH (rparams W0) 3) (Cert.Common.wmat 3 (rparams W0).a6)) := by
  refine (rA3_v274 (W7 W0)).trans ?_
  rw [W7_h, W7_arg W0 main_arg6 (by decide), W7_v3, W7_v6, W7_v10, W7_v14,
    W7_arg W0 main_arg8 (by decide), W7_arg W0 main_arg9 (by decide)]
  rfl

theorem W9_h (W0 : Valuation τ sig (Elt Ideal)) : W9 W0 main_v309 = Cert.Net.rH (rparams W0) 4 := by
  refine (cB_3_read (W8 W0)).trans ?_
  rw [W8_seg, W8_arg W0 main_arg7 (by decide), W8_arg W0 main_arg10 (by decide), W8_arg W0 main_arg11 (by decide)]
  rfl

theorem W10_seg (W0 : Valuation τ sig (Elt Ideal)) :
    W10 W0 main_v343
      = Cert.Net.raw (rparams W0) 4 (Cert.RefFun.projHost (Cert.Net.rH (rparams W0) 4) (Cert.Common.wmat 4 (rparams W0).a6)) := by
  refine (rA4_v343 (W9 W0)).trans ?_
  rw [W9_h, W9_arg W0 main_arg6 (by decide), W9_v3, W9_v6, W9_v10, W9_v14,
    W9_arg W0 main_arg8 (by decide), W9_arg W0 main_arg9 (by decide)]
  rfl

theorem W11_h (W0 : Valuation τ sig (Elt Ideal)) : W11 W0 main_v378 = Cert.Net.rH (rparams W0) 5 := by
  refine (cB_4_read (W10 W0)).trans ?_
  rw [W10_seg, W10_arg W0 main_arg7 (by decide), W10_arg W0 main_arg10 (by decide), W10_arg W0 main_arg11 (by decide)]
  rfl

theorem rval0 (W0 : Valuation τ sig (Elt Ideal)) : after (ops (F := Ideal)) W0 main_v394 = Cert.Net.rOut0 (rparams W0) := by
  rw [after_ops_eq]
  refine (cT_read_v394 (W11 W0)).trans ?_
  rw [W11_h, W11_arg W0 main_arg12 (by decide), W11_arg W0 main_arg13 (by decide), W11_arg W0 main_arg3 (by decide)]
  rfl

theorem rval1 (W0 : Valuation τ sig (Elt Ideal)) : after (ops (F := Ideal)) W0 main_v403 = Cert.Net.rOut1 (rparams W0) := by
  rw [after_ops_eq]
  refine (cT_read_v403 (W11 W0)).trans ?_
  rw [W11_h, W11_arg W0 main_arg12 (by decide), W11_arg W0 main_arg13 (by decide), W11_arg W0 main_arg3 (by decide),
    W11_arg W0 main_arg14 (by decide), W11_arg W0 main_arg15 (by decide), W11_arg W0 main_arg16 (by decide),
    W11_arg W0 main_arg17 (by decide)]
  rfl

theorem rarg0 (W0 : Valuation τ sig (Elt Ideal)) : after (ops (F := Ideal)) W0 main_arg0 = W0 main_arg0 :=
  (congrFun (after_ops_eq W0) _).trans (W12_arg W0 main_arg0 (by decide))
theorem rarg1 (W0 : Valuation τ sig (Elt Ideal)) : after (ops (F := Ideal)) W0 main_arg1 = W0 main_arg1 :=
  (congrFun (after_ops_eq W0) _).trans (W12_arg W0 main_arg1 (by decide))
theorem rarg2 (W0 : Valuation τ sig (Elt Ideal)) : after (ops (F := Ideal)) W0 main_arg2 = W0 main_arg2 :=
  (congrFun (after_ops_eq W0) _).trans (W12_arg W0 main_arg2 (by decide))
theorem rarg3 (W0 : Valuation τ sig (Elt Ideal)) : after (ops (F := Ideal)) W0 main_arg3 = W0 main_arg3 :=
  (congrFun (after_ops_eq W0) _).trans (W12_arg W0 main_arg3 (by decide))
theorem rarg4 (W0 : Valuation τ sig (Elt Ideal)) : after (ops (F := Ideal)) W0 main_arg4 = W0 main_arg4 :=
  (congrFun (after_ops_eq W0) _).trans (W12_arg W0 main_arg4 (by decide))
theorem rarg5 (W0 : Valuation τ sig (Elt Ideal)) : after (ops (F := Ideal)) W0 main_arg5 = W0 main_arg5 :=
  (congrFun (after_ops_eq W0) _).trans (W12_arg W0 main_arg5 (by decide))
theorem rarg6 (W0 : Valuation τ sig (Elt Ideal)) : after (ops (F := Ideal)) W0 main_arg6 = W0 main_arg6 :=
  (congrFun (after_ops_eq W0) _).trans (W12_arg W0 main_arg6 (by decide))
theorem rarg7 (W0 : Valuation τ sig (Elt Ideal)) : after (ops (F := Ideal)) W0 main_arg7 = W0 main_arg7 :=
  (congrFun (after_ops_eq W0) _).trans (W12_arg W0 main_arg7 (by decide))
theorem rarg8 (W0 : Valuation τ sig (Elt Ideal)) : after (ops (F := Ideal)) W0 main_arg8 = W0 main_arg8 :=
  (congrFun (after_ops_eq W0) _).trans (W12_arg W0 main_arg8 (by decide))
theorem rarg9 (W0 : Valuation τ sig (Elt Ideal)) : after (ops (F := Ideal)) W0 main_arg9 = W0 main_arg9 :=
  (congrFun (after_ops_eq W0) _).trans (W12_arg W0 main_arg9 (by decide))
theorem rarg10 (W0 : Valuation τ sig (Elt Ideal)) : after (ops (F := Ideal)) W0 main_arg10 = W0 main_arg10 :=
  (congrFun (after_ops_eq W0) _).trans (W12_arg W0 main_arg10 (by decide))
theorem rarg11 (W0 : Valuation τ sig (Elt Ideal)) : after (ops (F := Ideal)) W0 main_arg11 = W0 main_arg11 :=
  (congrFun (after_ops_eq W0) _).trans (W12_arg W0 main_arg11 (by decide))
theorem rarg12 (W0 : Valuation τ sig (Elt Ideal)) : after (ops (F := Ideal)) W0 main_arg12 = W0 main_arg12 :=
  (congrFun (after_ops_eq W0) _).trans (W12_arg W0 main_arg12 (by decide))
theorem rarg13 (W0 : Valuation τ sig (Elt Ideal)) : after (ops (F := Ideal)) W0 main_arg13 = W0 main_arg13 :=
  (congrFun (after_ops_eq W0) _).trans (W12_arg W0 main_arg13 (by decide))
theorem rarg14 (W0 : Valuation τ sig (Elt Ideal)) : after (ops (F := Ideal)) W0 main_arg14 = W0 main_arg14 :=
  (congrFun (after_ops_eq W0) _).trans (W12_arg W0 main_arg14 (by decide))
theorem rarg15 (W0 : Valuation τ sig (Elt Ideal)) : after (ops (F := Ideal)) W0 main_arg15 = W0 main_arg15 :=
  (congrFun (after_ops_eq W0) _).trans (W12_arg W0 main_arg15 (by decide))
theorem rarg16 (W0 : Valuation τ sig (Elt Ideal)) : after (ops (F := Ideal)) W0 main_arg16 = W0 main_arg16 :=
  (congrFun (after_ops_eq W0) _).trans (W12_arg W0 main_arg16 (by decide))
theorem rarg17 (W0 : Valuation τ sig (Elt Ideal)) : after (ops (F := Ideal)) W0 main_arg17 = W0 main_arg17 :=
  (congrFun (after_ops_eq W0) _).trans (W12_arg W0 main_arg17 (by decide))

end Cert.ReferenceIdeal.RVal

end
-- ==== Proof.KReadL1.lean ====
import proofs.«120348_j28252294873367_1_alg».proof.Proof.Common
import proofs.«120348_j28252294873367_1_alg».proof.Proof.Gen.KernelIdeal.Launch
import Idealize.ShloMosaic.Lib.StableHlo.Run

/-!
# The kernel program's host stretches around the second layer, as named functions

Stretch 3 prepares the layer's weight matrix and the zero row, stretch 4 aggregates the messages and prepares the bias
row, stretch 5 prepares the three rows of the normalisation.  Each result is the named function of `Cert.Common` at
the arrays the stretch reads, whatever the buffers hold before it.
-/

set_option maxRecDepth 16384

noncomputable section

namespace Cert.KernelIdeal.Read

open Cert.KernelIdeal Cert.KernelIdeal.Gen Cert.Common
open Idealize.ShloMosaic Idealize.ShloMosaic.TcCoe Idealize.SL.Sem Idealize.ShloMosaic.StableHlo

theorem r3_v84 (W : Valuation τ sig (Elt Ideal)) :
    after (hostOps3 (F := Ideal)) W main_v84 = wmat 1 (W main_arg6) := by
  after_results_simp
  rfl

theorem r3_v85 (W : Valuation τ sig (Elt Ideal)) : after (hostOps3 (F := Ideal)) W main_v85 = zrow300 := by
  after_results_simp
  rfl

set_option maxHeartbeats 1000000 in
theorem r4_v117 (W : Valuation τ sig (Elt Ideal)) :
    after (hostOps4 (F := Ideal)) W main_v117
      = aggr (W main_v86) (W main_v3) (W main_v6) (W main_v10) (W main_v14)
          (tab1 1 (W main_arg8)) (tab2 1 (W main_arg9)) := by
  after_results_simp
  rfl

set_option maxHeartbeats 1000000 in
theorem r4_v120 (W : Valuation τ sig (Elt Ideal)) :
    after (hostOps4 (F := Ideal)) W main_v120 = rowK (vec 1 (W main_arg7)) := by
  after_results_simp
  rfl

theorem r5_v128 (W : Valuation τ sig (Elt Ideal)) :
    after (hostOps5 (F := Ideal)) W main_v128 = rowK (vec 1 (W main_arg7)) := by
  after_results_simp
  rfl

theorem r5_v129 (W : Valuation τ sig (Elt Ideal)) :
    after (hostOps5 (F := Ideal)) W main_v129 = rowK (vec 1 (W main_arg10)) := by
  after_results_simp
  rfl

theorem r5_v130 (W : Valuation τ sig (Elt Ideal)) :
    after (hostOps5 (F := Ideal)) W main_v130 = rowK (vec 1 (W main_arg11)) := by
  after_results_simp
  rfl

end Cert.KernelIdeal.Read

end
-- ==== Proof.KReadL2.lean ====
import proofs.«120348_j28252294873367_1_alg».proof.Proof.Common
import proofs.«120348_j28252294873367_1_alg».proof.Proof.Gen.KernelIdeal.Launch
import Idealize.ShloMosaic.Lib.StableHlo.Run

/-!
# The kernel program's host stretches around the third layer, as named functions

Stretch 6 prepares the layer's weight matrix and the zero row, stretch 7 aggregates the messages and prepares the bias
row, stretch 8 prepares the three rows of the normalisation.  Each result is the named function of `Cert.Common` at
the arrays the stretch reads, whatever the buffers hold before it.
-/

set_option maxRecDepth 16384

noncomputable section

namespace Cert.KernelIdeal.Read

open Cert.KernelIdeal Cert.KernelIdeal.Gen Cert.Common
open Idealize.ShloMosaic Idealize.ShloMosaic.TcCoe Idealize.SL.Sem Idealize.ShloMosaic.StableHlo

theorem r6_v133 (W : Valuation τ sig (Elt Ideal)) :
    after (hostOps6 (F := Ideal)) W main_v133 = wmat 2 (W main_arg6) := by
  after_results_simp
  rfl

theorem r6_v134 (W : Valuation τ sig (Elt Ideal)) : after (hostOps6 (F := Ideal)) W main_v134 = zrow300 := by
  after_results_simp
  rfl

set_option maxHeartbeats 1000000 in
theorem r7_v166 (W : Valuation τ sig (Elt Ideal)) :
    after (hostOps7 (F := Ideal)) W main_v166
      = aggr (W main_v135) (W main_v3) (W main_v6) (W main_v10) (W main_v14)
          (tab1 2 (W main_arg8)) (tab2 2 (W main_arg9)) := by
  after_results_simp
  rfl

set_option maxHeartbeats 1000000 in
theorem r7_v169 (W : Valuation τ sig (Elt Ideal)) :
    after (hostOps7 (F := Ideal)) W main_v169 = rowK (vec 2 (W main_arg7)) := by
  after_results_simp
  rfl

theorem r8_v177 (W : Valuation τ sig (Elt Ideal)) :
    after (hostOps8 (F := Ideal)) W main_v177 = rowK (vec 2 (W main_arg7)) := by
  after_results_simp
  rfl

theorem r8_v178 (W : Valuation τ sig (Elt Ideal)) :
    after (hostOps8 (F := Ideal)) W main_v178 = rowK (vec 2 (W main_arg10)) := by
  after_results_simp
  rfl

theorem r8_v179 (W : Valuation τ sig (Elt Ideal)) :
    after (hostOps8 (F := Ideal)) W main_v179 = rowK (vec 2 (W main_arg11)) := by
  after_results_simp
  rfl

end Cert.KernelIdeal.Read

end
-- ==== Proof.KReadL3.lean ====
import proofs.«120348_j28252294873367_1_alg».proof.Proof.Common
import proofs.«120348_j28252294873367_1_alg».proof.Proof.Gen.KernelIdeal.Launch
import Idealize.ShloMosaic.Lib.StableHlo.Run

/-!
# The kernel program's host stretches around the fourth layer, as named functions

Stretch 9 prepares the layer's weight matrix and the zero row, stretch 10 aggregates the messages and prepares the bias
row, stretch 11 prepares the three rows of the normalisation.  Each result is the named function of `Cert.Common` at
the arrays the stretch reads, whatever the buffers hold before it.
-/

set_option maxRecDepth 16384

noncomputable section

namespace Cert.KernelIdeal.Read

open Cert.KernelIdeal Cert.KernelIdeal.Gen Cert.Common
open Idealize.ShloMosaic Idealize.ShloMosaic.TcCoe Idealize.SL.Sem Idealize.ShloMosaic.StableHlo

theorem r9_v182 (W : Valuation τ sig (Elt Ideal)) :
    after (hostOps9 (F := Ideal)) W main_v182 = wmat 3 (W main_arg6) := by
  after_results_simp
  rfl

theorem r9_v183 (W : Valuation τ sig (Elt Ideal)) : after (hostOps9 (F := Ideal)) W main_v183 = zrow300 := by
  after_results_simp
  rfl

set_option maxHeartbeats 1000000 in
theorem r10_v215 (W : Valuation τ sig (Elt Ideal)) :
    after (hostOps10 (F := Ideal)) W main_v215
      = aggr (W main_v184) (W main_v3) (W main_v6) (W main_v10) (W main_v14)
          (tab1 3 (W main_arg8)) (tab2 3 (W main_arg9)) := by
  after_results_simp
  rfl

set_option maxHeartbeats 1000000 in
theorem r10_v218 (W : Valuation τ sig (Elt Ideal)) :
    after (hostOps10 (F := Ideal)) W main_v218 = rowK (vec 3 (W main_arg7)) := by
  after_results_simp
  rfl

theorem r11_v226 (W : Valuation τ sig (Elt Ideal)) :
    after (hostOps11 (F := Ideal)) W main_v226 = rowK (vec 3 (W main_arg7)) := by
  after_results_simp
  rfl

theorem r11_v227 (W : Valuation τ sig (Elt Ideal)) :
    after (hostOps11 (F := Ideal)) W main_v227 = rowK (vec 3 (W main_arg10)) := by
  after_results_simp
  rfl

theorem r11_v228 (W : Valuation τ sig (Elt Ideal)) :
    after (hostOps11 (F := Ideal)) W main_v228 = rowK (vec 3 (W main_arg11)) := by
  after_results_simp
  rfl

end Cert.KernelIdeal.Read

end
-- ==== Proof.KReadL4.lean ====
import proofs.«120348_j28252294873367_1_alg».proof.Proof.Common
import proofs.«120348_j28252294873367_1_alg».proof.Proof.Gen.KernelIdeal.Launch
import Idealize.ShloMosaic.Lib.StableHlo.Run

/-!
# The kernel program's host stretches around the fifth layer, as named functions

Stretch 12 prepares the layer's weight matrix and the zero row, stretch 13 aggregates the messages and prepares the bias
row, stretch 14 prepares the three rows of the normalisation.  Each result is the named function of `Cert.Common` at
the arrays the stretch reads, whatever the buffers hold before it.
-/

set_option maxRecDepth 16384

noncomputable section

namespace Cert.KernelIdeal.Read

open Cert.KernelIdeal Cert.KernelIdeal.Gen Cert.Common
open Idealize.ShloMosaic Idealize.ShloMosaic.TcCoe Idealize.SL.Sem Idealize.ShloMosaic.StableHlo

theorem r12_v231 (W : Valuation τ sig (Elt Ideal)) :
    after (hostOps12 (F := Ideal)) W main_v231 = wmat 4 (W main_arg6) := by
  after_results_simp
  rfl

theorem r12_v232 (W : Valuation τ sig (Elt Ideal)) : after (hostOps12 (F := Ideal)) W main_v232 = zrow300 := by
  after_results_simp
  rfl

set_option maxHeartbeats 1000000 in
theorem r13_v264 (W : Valuation τ sig (Elt Ideal)) :
    after (hostOps13 (F := Ideal)) W main_v264
      = aggr (W main_v233) (W main_v3) (W main_v6) (W main_v10) (W main_v14)
          (tab1 4 (W main_arg8)) (tab2 4 (W main_arg9)) := by
  after_results_simp
  rfl

set_option maxHeartbeats 1000000 in
theorem r13_v267 (W : Valuation τ sig (Elt Ideal)) :
    after (hostOps13 (F := Ideal)) W main_v267 = rowK (vec 4 (W main_arg7)) := by
  after_results_simp
  rfl

theorem r14_v275 (W : Valuation τ sig (Elt Ideal)) :
    after (hostOps14 (F := Ideal)) W main_v275 = rowK (vec 4 (W main_arg7)) := by
  after_results_simp
  rfl

theorem r14_v276 (W : Valuation τ sig (Elt Ideal)) :
    after (hostOps14 (F := Ideal)) W main_v276 = rowK (vec 4 (W main_arg10)) := by
  after_results_simp
  rfl

theorem r14_v277 (W : Valuation τ sig (Elt Ideal)) :
    after (hostOps14 (F := Ideal)) W main_v277 = rowK (vec 4 (W main_arg11)) := by
  after_results_simp
  rfl

end Cert.KernelIdeal.Read

end
-- ==== Proof.KRead.lean ====
import proofs.«120348_j28252294873367_1_alg».proof.Proof.Common
import proofs.«120348_j28252294873367_1_alg».proof.Proof.KReadL1
import proofs.«120348_j28252294873367_1_alg».proof.Proof.KReadL2
import proofs.«120348_j28252294873367_1_alg».proof.Proof.KReadL3
import proofs.«120348_j28252294873367_1_alg».proof.Proof.KReadL4
import proofs.«120348_j28252294873367_1_alg».proof.Proof.Gen.KernelIdeal.Launch
import Idealize.ShloMosaic.Lib.StableHlo.Run

set_option maxRecDepth 16384

noncomputable section

namespace Cert.KernelIdeal.Read

open Cert.KernelIdeal Cert.KernelIdeal.Gen Cert.Common
open Idealize.ShloMosaic Idealize.ShloMosaic.TcCoe Idealize.SL.Sem Idealize.ShloMosaic.StableHlo

abbrev KV := Valuation τ sig (Elt Ideal)

theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

section Split
variable {F : FTy → Type} [FloatOps F]

abbrev pre0 : List (HloOp τ sig (Elt F)) :=
  [ StableHlo.nullary main_v0 (iotaInDim S100000 32 0),
    StableHlo.unary main_arg1 main_v1 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v1 main_v2 rfl shapeCasts_S1x200000_S200000,
    StableHlo.binary main_v2 main_v0 main_v3 ((fun a b => concatenate S300000 0 [⟨S200000, a⟩, ⟨S100000, b⟩] concatenates_S200000_S100000_S300000_d0) : (⟨S200000, .i32⟩ : BufTy).Contents (Elt F) → (⟨S100000, .i32⟩ : BufTy).Contents (Elt F) → (⟨S300000, .i32⟩ : BufTy).Contents (Elt F)),
    StableHlo.unary main_arg1 main_v4 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v4 main_v5 rfl shapeCasts_S1x200000_S200000,
    StableHlo.binary main_v5 main_v0 main_v6 ((fun a b => concatenate S300000 0 [⟨S200000, a⟩, ⟨S100000, b⟩] concatenates_S200000_S100000_S300000_d0) : (⟨S200000, .i32⟩ : BufTy).Contents (Elt F) → (⟨S100000, .i32⟩ : BufTy).Contents (Elt F) → (⟨S300000, .i32⟩ : BufTy).Contents (Elt F)),
    StableHlo.unary main_arg2 main_v7 ((extractStridedSlice S200000x1 ![0, 0] · slices_S200000x2_S200000x1_0_0) : (⟨S200000x2, .i32⟩ : BufTy).Contents (Elt F) → (⟨S200000x1, .i32⟩ : BufTy).Contents (Elt F)),
    StableHlo.reshape main_v7 main_v8 rfl shapeCasts_S200000x1_S200000,
    StableHlo.nullary main_c (constantI S_ 32 4#32),
    StableHlo.unary main_c main_v9 (broadcastInDim S100000 ![] bcast_S_S100000 : (⟨S_, .i32⟩ : BufTy).Contents (Elt F) → (⟨S100000, .i32⟩ : BufTy).Contents (Elt F)),
    StableHlo.binary main_v8 main_v9 main_v10 ((fun a b => concatenate S300000 0 [⟨S200000, a⟩, ⟨S100000, b⟩] concatenates_S200000_S100000_S300000_d0) : (⟨S200000, .i32⟩ : BufTy).Contents (Elt F) → (⟨S100000, .i32⟩ : BufTy).Contents (Elt F) → (⟨S300000, .i32⟩ : BufTy).Contents (Elt F)),
    StableHlo.unary main_arg2 main_v11 ((extractStridedSlice S200000x1 ![0, 1] · slices_S200000x2_S200000x1_0_1) : (⟨S200000x2, .i32⟩ : BufTy).Contents (Elt F) → (⟨S200000x1, .i32⟩ : BufTy).Contents (Elt F)),
    StableHlo.reshape main_v11 main_v12 rfl shapeCasts_S200000x1_S200000,
    StableHlo.nullary main_c_0 (constantI S_ 32 0#32),
    StableHlo.unary main_c_0 main_v13 (broadcastInDim S100000 ![] bcast_S_S100000 : (⟨S_, .i32⟩ : BufTy).Contents (Elt F) → (⟨S100000, .i32⟩ : BufTy).Contents (Elt F)),
    StableHlo.binary main_v12 main_v13 main_v14 ((fun a b => concatenate S300000 0 [⟨S200000, a⟩, ⟨S100000, b⟩] concatenates_S200000_S100000_S300000_d0) : (⟨S200000, .i32⟩ : BufTy).Contents (Elt F) → (⟨S100000, .i32⟩ : BufTy).Contents (Elt F) → (⟨S300000, .i32⟩ : BufTy).Contents (Elt F)) ]

abbrev post0 : List (HloOp τ sig (Elt F)) :=
  [ StableHlo.unary main_arg0 main_v15 ((extractStridedSlice S100000x1 ![0, 0] · slices_S100000x2_S100000x1_0_0) : (⟨S100000x2, .i32⟩ : BufTy).Contents (Elt F) → (⟨S100000x1, .i32⟩ : BufTy).Contents (Elt F)),
    StableHlo.reshape main_v15 main_v16 rfl shapeCasts_S100000x1_S100000,
    StableHlo.nullary main_c_1 (constantI S_ 32 0#32),
    StableHlo.unary main_c_1 main_v17 (broadcastInDim S100000 ![] bcast_S_S100000 : (⟨S_, .i32⟩ : BufTy).Contents (Elt F) → (⟨S100000, .i32⟩ : BufTy).Contents (Elt F)),
    StableHlo.binary main_v16 main_v17 main_v18 (cmpi .slt : (⟨S100000, .i32⟩ : BufTy).Contents (Elt F) → (⟨S100000, .i32⟩ : BufTy).Contents (Elt F) → (⟨S100000, .i1⟩ : BufTy).Contents (Elt F)),
    StableHlo.nullary main_c_2 (constantI S_ 32 120#32),
    StableHlo.unary main_c_2 main_v19 (broadcastInDim S100000 ![] bcast_S_S100000 : (⟨S_, .i32⟩ : BufTy).Contents (Elt F) → (⟨S100000, .i32⟩ : BufTy).Contents (Elt F)),
    StableHlo.binary main_v16 main_v19 main_v20 (addi : (⟨S100000, .i32⟩ : BufTy).Contents (Elt F) → (⟨S100000, .i32⟩ : BufTy).Contents (Elt F) → (⟨S100000, .i32⟩ : BufTy).Contents (Elt F)),
    StableHlo.ternary main_v18 main_v20 main_v16 main_v21 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v21 main_v22 (broadcastInDim S100000x1 ![0] bcast_S100000_S100000x1_0 : (⟨S100000, .i32⟩ : BufTy).Contents (Elt F) → (⟨S100000x1, .i32⟩ : BufTy).Contents (Elt F)),
    StableHlo.binary main_arg4 main_v22 main_v23 ((fun x i => Host.gather gather_S120x300_S100000x1_S100000x300_1_0_n_n_0_1_1300 x i) : (⟨S120x300, .f32⟩ : BufTy).Contents (Elt F) → (⟨S100000x1, .i32⟩ : BufTy).Contents (Elt F) → (⟨S100000x300, .f32⟩ : BufTy).Contents (Elt F)),
    StableHlo.unary main_arg0 main_v24 ((extractStridedSlice S100000x1 ![0, 1] · slices_S100000x2_S100000x1_0_1) : (⟨S100000x2, .i32⟩ : BufTy).Contents (Elt F) → (⟨S100000x1, .i32⟩ : BufTy).Contents (Elt F)),
    StableHlo.reshape main_v24 main_v25 rfl shapeCasts_S100000x1_S100000,
    StableHlo.nullary main_c_3 (constantI S_ 32 0#32),
    StableHlo.unary main_c_3 main_v26 (broadcastInDim S100000 ![] bcast_S_S100000 : (⟨S_, .i32⟩ : BufTy).Contents (Elt F) → (⟨S100000, .i32⟩ : BufTy).Contents (Elt F)),
    StableHlo.binary main_v25 main_v26 main_v27 (cmpi .slt : (⟨S100000, .i32⟩ : BufTy).Contents (Elt F) → (⟨S100000, .i32⟩ : BufTy).Contents (Elt F) → (⟨S100000, .i1⟩ : BufTy).Contents (Elt F)),
    StableHlo.nullary main_c_4 (constantI S_ 32 3#32),
    StableHlo.unary main_c_4 main_v28 (broadcastInDim S100000 ![] bcast_S_S100000 : (⟨S_, .i32⟩ : BufTy).Contents (Elt F) → (⟨S100000, .i32⟩ : BufTy).Contents (Elt F)),
    StableHlo.binary main_v25 main_v28 main_v29 (addi : (⟨S100000, .i32⟩ : BufTy).Contents (Elt F) → (⟨S100000, .i32⟩ : BufTy).Contents (Elt F) → (⟨S100000, .i32⟩ : BufTy).Contents (Elt F)),
    StableHlo.ternary main_v27 main_v29 main_v25 main_v30 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v30 main_v31 (broadcastInDim S100000x1 ![0] bcast_S100000_S100000x1_0 : (⟨S100000, .i32⟩ : BufTy).Contents (Elt F) → (⟨S100000x1, .i32⟩ : BufTy).Contents (Elt F)),
    StableHlo.binary main_arg5 main_v31 main_v32 ((fun x i => Host.gather gather_S3x300_S100000x1_S100000x300_1_0_n_n_0_1_1300 x i) : (⟨S3x300, .f32⟩ : BufTy).Contents (Elt F) → (⟨S100000x1, .i32⟩ : BufTy).Contents (Elt F) → (⟨S100000x300, .f32⟩ : BufTy).Contents (Elt F)),
    StableHlo.binary main_v23 main_v32 main_v33 (addf : (⟨S100000x300, .f32⟩ : BufTy).Contents (Elt F) → (⟨S100000x300, .f32⟩ : BufTy).Contents (Elt F) → (⟨S100000x300, .f32⟩ : BufTy).Contents (Elt F)),
    StableHlo.unary main_arg6 main_v34 ((extractStridedSlice S1x300x300 ![0, 0, 0] · slices_S5x300x300_S1x300x300_0_0_0) : (⟨S5x300x300, .f32⟩ : BufTy).Contents (Elt F) → (⟨S1x300x300, .f32⟩ : BufTy).Contents (Elt F)),
    StableHlo.reshape main_v34 main_v35 rfl shapeCasts_S1x300x300_S300x300,
    StableHlo.nullary main_cst (constant S_ .f32 0x00000000#32),
    StableHlo.unary main_cst main_v36 (broadcastInDim S1x300 ![] bcast_S_S1x300 : (⟨S_, .f32⟩ : BufTy).Contents (Elt F) → (⟨S1x300, .f32⟩ : BufTy).Contents (Elt F)) ]

theorem hostOps0_split : (hostOps0 : List (HloOp τ sig (Elt F))) = pre0 ++ post0 := rfl

end Split

theorem post0_v3 (V : KV) : after (post0 (F := Ideal)) V main_v3 = V main_v3 := by after_results_simp
theorem post0_v6 (V : KV) : after (post0 (F := Ideal)) V main_v6 = V main_v6 := by after_results_simp
theorem post0_v10 (V : KV) : after (post0 (F := Ideal)) V main_v10 = V main_v10 := by after_results_simp
theorem post0_v14 (V : KV) : after (post0 (F := Ideal)) V main_v14 = V main_v14 := by after_results_simp

set_option maxHeartbeats 1000000 in
theorem r0_v3 (W : KV) : after (hostOps0 (F := Ideal)) W main_v3 = src (W main_arg1) := by
  rw [hostOps0_split, after_app, post0_v3]
  after_results
  rfl

set_option maxHeartbeats 1000000 in
theorem r0_v6 (W : KV) : after (hostOps0 (F := Ideal)) W main_v6 = dst (W main_arg1) := by
  rw [hostOps0_split, after_app, post0_v6]
  after_results
  rfl

set_option maxHeartbeats 1000000 in
theorem r0_v10 (W : KV) : after (hostOps0 (F := Ideal)) W main_v10 = ea0 (W main_arg2) := by
  rw [hostOps0_split, after_app, post0_v10]
  after_results
  rfl

set_option maxHeartbeats 1000000 in
theorem r0_v14 (W : KV) : after (hostOps0 (F := Ideal)) W main_v14 = ea1 (W main_arg2) := by
  rw [hostOps0_split, after_app, post0_v14]
  after_results
  rfl

set_option maxHeartbeats 1000000 in
theorem r0_v33 (W : KV) :
    after (hostOps0 (F := Ideal)) W main_v33 = h0 (W main_arg0) (W main_arg4) (W main_arg5) := by
  after_results_simp
  rfl

set_option maxHeartbeats 1000000 in
theorem r0_v35 (W : KV) : after (hostOps0 (F := Ideal)) W main_v35 = wmat 0 (W main_arg6) := by
  after_results_simp
  rfl

set_option maxHeartbeats 1000000 in
theorem r0_v36 (W : KV) : after (hostOps0 (F := Ideal)) W main_v36 = zrow300 := by
  after_results_simp
  rfl

set_option maxHeartbeats 1000000 in
theorem r1_v68 (W : KV) :
    after (hostOps1 (F := Ideal)) W main_v68
      = aggr (W main_v37) (W main_v3) (W main_v6) (W main_v10) (W main_v14)
          (tab1 0 (W main_arg8)) (tab2 0 (W main_arg9)) := by
  after_results_simp
  rfl

set_option maxHeartbeats 1000000 in
theorem r1_v71 (W : KV) : after (hostOps1 (F := Ideal)) W main_v71 = rowK (vec 0 (W main_arg7)) := by
  after_results_simp
  rfl

theorem r2_v79 (W : KV) : after (hostOps2 (F := Ideal)) W main_v79 = rowK (vec 0 (W main_arg7)) := by
  after_results_simp
  rfl

theorem r2_v80 (W : KV) : after (hostOps2 (F := Ideal)) W main_v80 = rowK (vec 0 (W main_arg10)) := by
  after_results_simp
  rfl

theorem r2_v81 (W : KV) : after (hostOps2 (F := Ideal)) W main_v81 = rowK (vec 0 (W main_arg11)) := by
  after_results_simp
  rfl

theorem r15_v279 (W : KV) : after (hostOps15 (F := Ideal)) W main_v279 = row256 (W main_arg13) := by
  after_results_simp
  rfl

set_option maxHeartbeats 1000000 in
theorem r16_v292 (W : KV) : after (hostOps16 (F := Ideal)) W main_v292 = pool (W main_v280) (W main_arg3) := by
  after_results_simp
  rfl

theorem r16_v293 (W : KV) : after (hostOps16 (F := Ideal)) W main_v293 = row128 (W main_arg15) := by
  after_results_simp
  rfl

theorem r17_v295 (W : KV) : after (hostOps17 (F := Ideal)) W main_v295 = row2 (W main_arg17) := by
  after_results_simp
  rfl

end Cert.KernelIdeal.Read

end
-- ==== Proof.Val.MM0.lean ====
/-
  Region 0 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg0
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz0 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay0_apply (x0 : Vec Ideal S2000x300 .f32) (x1 : Vec Ideal S300x300 .f32) (x2 : Vec Ideal S1x300 .f32)
    (p : Fin 2000) (q : Fin 300) :
    k0_pay1 x0 x1 x2 (ix2 p q) = Cert.Lib.dense x0 x1 (ix2 p q) + x2 (ix2 0 q) := by
  unfold k0_pay1
  simp only [shapeCast_self]
  refine (addf_apply _ _ (ix2 p q)).trans ?_
  refine congrArg₂ (· + ·) ?_ ?_
  · exact congrFun (Cert.Lib.matmul_truncf_eq_dense dot_S2000x300_S300x300_S2000x300_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at a point and the three input arrays as the region finds them, at their literal types. -/
abbrev xblk0 (c : Dev nD) (t : Fin cfg0.N) : Vec Ideal S2000x300 .f32 := iblk0 V c 0 t
abbrev wblk0 (c : Dev nD) (t : Fin cfg0.N) : Vec Ideal S300x300 .f32 := iblk0 V c 1 t
abbrev bblk0 (c : Dev nD) (t : Fin cfg0.N) : Vec Ideal S1x300 .f32 := iblk0 V c 2 t
abbrev xarr0 (c : Dev nD) : Vec Ideal S100000x300 .f32 := V c (Pipeline.arrRef spec0 0)
abbrev warr0 (c : Dev nD) : Vec Ideal S300x300 .f32 := V c (Pipeline.arrRef spec0 1)
abbrev barr0 (c : Dev nD) : Vec Ideal S1x300 .f32 := V c (Pipeline.arrRef spec0 2)

/-- Row p of the activations' block at point t is row t × block rows + p of the activations. -/
theorem xblk0_apply (c : Dev nD) (t : Fin cfg0.N) (p : Fin 2000) (k : Fin 300) (r : Fin 100000)
    (hr : r.val = t.val * 2000 + p.val) : xblk0 V c t (ix2 p k) = xarr0 V c (ix2 r k) := by
  obtain ⟨e0, e1, -⟩ := idx0 t
  show V c (Pipeline.arrRef spec0 0) (((cfg0.win 0).blk t).view.emb (ix2 p k)) = V c (Pipeline.arrRef spec0 0) (ix2 r k)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 300 + 1 * k.val = k.val; rw [e1]; omega

/-- The weights' block at every point is the weights. -/
theorem wblk0_apply (c : Dev nD) (t : Fin cfg0.N) (i : S300x300.Idx) : wblk0 V c t i = warr0 V c i := by
  obtain ⟨-, -, e0, e1, -⟩ := idx0 t
  show V c (Pipeline.arrRef spec0 1) (((cfg0.win 1).blk t).view.emb i) = V c (Pipeline.arrRef spec0 1) i
  congr 1
  funext a
  apply Fin.ext
  match a with
  | ⟨0, _⟩ => show win0_1.index t (0 : Fin 2) * 300 + 1 * (i 0).val = (i 0).val; rw [e0]; omega
  | ⟨1, _⟩ => show win0_1.index t (1 : Fin 2) * 300 + 1 * (i 1).val = (i 1).val; rw [e1]; omega

/-- The bias row's block at every point is the bias row. -/
theorem bblk0_apply (c : Dev nD) (t : Fin cfg0.N) (i : S1x300.Idx) : bblk0 V c t i = barr0 V c i := by
  obtain ⟨-, -, -, -, e0, e1, -⟩ := idx0 t
  show V c (Pipeline.arrRef spec0 2) (((cfg0.win 2).blk t).view.emb i) = V c (Pipeline.arrRef spec0 2) i
  congr 1
  funext a
  apply Fin.ext
  match a with
  | ⟨0, _⟩ => show win0_2.index t (0 : Fin 2) * 1 + 1 * (i 0).val = (i 0).val; rw [e0]; omega
  | ⟨1, _⟩ => show win0_2.index t (1 : Fin 2) * 300 + 1 * (i 1).val = (i 1).val; rw [e1]; omega

/-! ## What a point writes back -/

/-- Entry (p, q) of the payload of point t's blocks is entry (t × block rows + p, q) of x · w + bias row of the
    arrays: a row of the product depends on that row of the left factor alone. -/
theorem out0_at (c : Dev nD) (t : Fin cfg0.N) (p : Fin 2000) (q : Fin 300) (r : Fin 100000)
    (hr : r.val = t.val * 2000 + p.val) :
    k0_pay1 (xblk0 V c t) (wblk0 V c t) (bblk0 V c t) (ix2 p q)
      = Cert.Spec.affine (xarr0 V c) (warr0 V c) (barr0 V c) (ix2 r q) := by
  refine (pay0_apply (xblk0 V c t) (wblk0 V c t) (bblk0 V c t) p q).trans ?_
  show _ = Cert.Lib.dense (xarr0 V c) (warr0 V c) (ix2 r q) + barr0 V c (ix2 0 q)
  refine congrArg₂ (· + ·) ?_ ?_
  · exact Cert.Lib.dense_row (xarr0 V c) (xblk0 V c t) (warr0 V c) (wblk0 V c t) r p
      (fun k => xblk0_apply V c t p k r hr) (fun i => wblk0_apply V c t i) q
  · exact bblk0_apply V c t (ix2 0 q)

/-- WHAT POINT t WRITES BACK is block t of x · w + bias row of the three input arrays. -/
theorem flushed0_eq (c : Dev nD) (t : Fin cfg0.N) :
    (dat0 V c).flushed 3 t = ((cfg0.win 3).blk t).view.read (Elt Ideal)
      (Cert.Spec.affine (xarr0 V c) (warr0 V c) (barr0 V c)) := by
  show (cfg0.win 3).cut (grid0.coords t) ((dat0 V c).after 3 t) = _
  rw [after0_3]
  unfold out0_3
  rw [View.canon_unit_zero hz0]
  simp only [View.ld_unit_zero (S := S2000x300) hz0, View.ld_unit_zero (S := S300x300) hz0, View.ld_unit_zero (S := S1x300) hz0]
  obtain ⟨-, -, -, -, -, -, e0, e1⟩ := idx0 t
  have ht : t.val < 50 := lt_of_lt_of_eq t.isLt N_0
  funext y
  have hy0 : (y 0).val < 2000 := (y 0).isLt
  have hy1 : (y 1).val < 300 := (y 1).isLt
  have hx : (cfg0.win 3).xinj (grid0.coords t) y = ix2 (⟨(y 0).val, hy0⟩ : Fin 2000) (⟨(y 1).val, hy1⟩ : Fin 300) :=
    funext fun a => by
      match a with
      | ⟨0, _⟩ => rfl
      | ⟨1, _⟩ => rfl
  have he : ((cfg0.win 3).blk t).view.emb y
      = ix2 (⟨t.val * 2000 + (y 0).val, by omega⟩ : Fin 100000) (⟨(y 1).val, hy1⟩ : Fin 300) :=
    funext fun a => Fin.ext (by
      match a with
      | ⟨0, _⟩ => show win0_3.index t (0 : Fin 2) * 2000 + 1 * (y 0).val = t.val * 2000 + (y 0).val; rw [e0]; omega
      | ⟨1, _⟩ => show win0_3.index t (1 : Fin 2) * 300 + 1 * (y 1).val = (y 1).val; rw [e1]; omega)
  show k0_pay1 (xblk0 V c t) (wblk0 V c t) (bblk0 V c t) ((cfg0.win 3).xinj (grid0.coords t) y)
      = Cert.Spec.affine (xarr0 V c) (warr0 V c) (barr0 V c) (((cfg0.win 3).blk t).view.emb y)
  rw [hx, he]
  exact out0_at V c t _ _ _ rfl

/-! ## From the blocks to the array -/

/-- An index of the output array is in point t's block iff each coordinate is in the block's range on its axis. -/
theorem mem_blk0 (t : Fin cfg0.N) (i : S100000x300.Idx) :
    i ∈ ((cfg0.win 3).blk t).view.set ↔ ∀ a : Fin 2, win0_3.index t a * S2000x300.size a ≤ (i a).val
      ∧ (i a).val < win0_3.index t a * S2000x300.size a + S2000x300.size a := by
  show i ∈ ((View.whole (Pipeline.arrRef spec0 3)).slice (win0_3.rect t)).set ↔ _
  rw [View.set_slice_whole, Rect.mem_set_unit]
  exact Iff.rfl

/-- The output's blocks tile its array: row r is in the block of point r / block rows. -/
theorem cover0 (i : S100000x300.Idx) :
    ∃ t : Fin cfg0.N, (cfg0.win 3).flush t = true ∧ i ∈ ((cfg0.win 3).blk t).view.set := by
  have hi0 : (i 0).val < 100000 := (i 0).isLt
  have hi1 : (i 1).val < 300 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 300 ≤ (i 1).val ∧ (i 1).val < win0_3.index t (1 : Fin 2) * 300 + 300
    rw [e1]; omega

/-- THE OUTPUT ARRAY after the region's last write-back is x · w + bias row of the three input arrays as the region
    found them. -/
theorem final0 (c : Dev nD) :
    (dat0 V c).arrAt 3 cfg0.N
      = Cert.Spec.affine (V c (Pipeline.arrRef spec0 0) : Vec Ideal S100000x300 .f32)
          (V c (Pipeline.arrRef spec0 1) : Vec Ideal S300x300 .f32) (V c (Pipeline.arrRef spec0 2) : Vec Ideal S1x300 .f32) :=
  (dat0 V c).arrAt_eq_of_cover 3 (Cert.Spec.affine (xarr0 V c) (warr0 V c) (barr0 V c))
    (fun t _ => flushed0_eq V c t) cover0

end Cert.KernelIdeal.Val

end
-- ==== Proof.Val.MM3.lean ====
/-
  Region 3 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg3
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz3 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay3_apply (x0 : Vec Ideal S2000x300 .f32) (x1 : Vec Ideal S300x300 .f32) (x2 : Vec Ideal S1x300 .f32)
    (p : Fin 2000) (q : Fin 300) :
    k3_pay1 x0 x1 x2 (ix2 p q) = Cert.Lib.dense x0 x1 (ix2 p q) + x2 (ix2 0 q) := by
  unfold k3_pay1
  simp only [shapeCast_self]
  refine (addf_apply _ _ (ix2 p q)).trans ?_
  refine congrArg₂ (· + ·) ?_ ?_
  · exact congrFun (Cert.Lib.matmul_truncf_eq_dense dot_S2000x300_S300x300_S2000x300_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The three input blocks at a point and the three input arrays as the region finds them, at their literal types. -/
abbrev xblk3 (c : Dev nD) (t : Fin cfg3.N) : Vec Ideal S2000x300 .f32 := iblk3 V c 0 t
abbrev wblk3 (c : Dev nD) (t : Fin cfg3.N) : Vec Ideal S300x300 .f32 := iblk3 V c 1 t
abbrev bblk3 (c : Dev nD) (t : Fin cfg3.N) : Vec Ideal S1x300 .f32 := iblk3 V c 2 t
abbrev xarr3 (c : Dev nD) : Vec Ideal S100000x300 .f32 := V c (Pipeline.arrRef spec3 0)
abbrev warr3 (c : Dev nD) : Vec Ideal S300x300 .f32 := V c (Pipeline.arrRef spec3 1)
abbrev barr3 (c : Dev nD) : Vec Ideal S1x300 .f32 := V c (Pipeline.arrRef spec3 2)

/-- Row p of the activations' block at point t is row t × block rows + p of the activations. -/
theorem xblk3_apply (c : Dev nD) (t : Fin cfg3.N) (p : Fin 2000) (k : Fin 300) (r : Fin 100000)
    (hr : r.val = t.val * 2000 + p.val) : xblk3 V c t (ix2 p k) = xarr3 V c (ix2 r k) := by
  obtain ⟨e0, e1, -⟩ := idx3 t
  show V c (Pipeline.arrRef spec3 0) (((cfg3.win 0).blk t).view.emb (ix2 p k)) = V c (Pipeline.arrRef spec3 0) (ix2 r k)
  congr 1
  funext a
  apply Fin.ext
  match a with
  | ⟨0, _⟩ => show win3_0.index t (0 : Fin 2) * 2000 + 1 * p.val = r.val; rw [e0, hr]; omega
  | ⟨1, _⟩ => show win3_0.index t (1 : Fin 2) * 300 + 1 * k.val = k.val; rw [e1]; omega

/-- The weights' block at every point is the weights. -/
theorem wblk3_apply (c : Dev nD) (t : Fin cfg3.N) (i : S300x300.Idx) : wblk3 V c t i = warr3 V c i := by
  obtain ⟨-, -, e0, e1, -⟩ := idx3 t
  show V c (Pipeline.arrRef spec3 1) (((cfg3.win 1).blk t).view.emb i) = V c (Pipeline.arrRef spec3 1) i
  congr 1
  funext a
  apply Fin.ext
  match a with
  | ⟨0, _⟩ => show win3_1.index t (0 : Fin 2) * 300 + 1 * (i 0).val = (i 0).val; rw [e0]; omega
  | ⟨1, _⟩ => show win3_1.index t (1 : Fin 2) * 300 + 1 * (i 1).val = (i 1).val; rw [e1]; omega

/-- The bias row's block at every point is the bias row. -/
theorem bblk3_apply (c : Dev nD) (t : Fin cfg3.N) (i : S1x300.Idx) : bblk3 V c t i = barr3 V c i := by
  obtain ⟨-, -, -, -, e0, e1, -⟩ := idx3 t
  show V c (Pipeline.arrRef spec3 2) (((cfg3.win 2).blk t).view.emb i) = V c (Pipeline.arrRef spec3 2) i
  congr 1
  funext a
  apply Fin.ext
  match a with
  | ⟨0, _⟩ => show win3_2.index t (0 : Fin 2) * 1 + 1 * (i 0).val = (i 0).val; rw [e0]; omega
  | ⟨1, _⟩ => show win3_2.index t (1 : Fin 2) * 300 + 1 * (i 1).val = (i 1).val; rw [e1]; omega

/-! ## What a point writes back -/

/-- Entry (p, q) of the payload of point t's blocks is entry (t × block rows + p, q) of x · w + bias row of the
    arrays: a row of the product depends on that row of the left factor alone. -/
theorem out3_at (c : Dev nD) (t : Fin cfg3.N) (p : Fin 2000) (q : Fin 300) (r : Fin 100000)
    (hr : r.val = t.val * 2000 + p.val) :
    k3_pay1 (xblk3 V c t) (wblk3 V c t) (bblk3 V c t) (ix2 p q)
      = Cert.Spec.affine (xarr3 V c) (warr3 V c) (barr3 V c) (ix2 r q) := by
  refine (pay3_apply (xblk3 V c t) (wblk3 V c t) (bblk3 V c t) p q).trans ?_
  show _ = Cert.Lib.dense (xarr3 V c) (warr3 V c) (ix2 r q) + barr3 V c (ix2 0 q)
  refine congrArg₂ (· + ·) ?_ ?_
  · exact Cert.Lib.dense_row (xarr3 V c) (xblk3 V c t) (warr3 V c) (wblk3 V c t) r p
      (fun k => xblk3_apply V c t p k r hr) (fun i => wblk3_apply V c t i) q
  · exact bblk3_apply V c t (ix2 0 q)

/-- WHAT POINT t WRITES BACK is block t of x · w + bias row of the three input arrays. -/
theorem flushed3_eq (c : Dev nD) (t : Fin cfg3.N) :
    (dat3 V c).flushed 3 t = ((cfg3.win 3).blk t).view.read (Elt Ideal)
      (Cert.Spec.affine (xarr3 V c) (warr3 V c) (barr3 V c)) := by
  show (cfg3.win 3).cut (grid3.coords t) ((dat3 V c).after 3 t) = _
  rw [after3_3]
  unfold out3_3
  rw [View.canon_unit_zero hz3]
  simp only [View.ld_unit_zero (S := S2000x300) hz3, View.ld_unit_zero (S := S300x300) hz3, View.ld_unit_zero (S := S1x300) hz3]
  obtain ⟨-, -, -, -, -, -, e0, e1⟩ := idx3 t
  have ht : t.val < 50 := lt_of_lt_of_eq t.isLt N_3
  funext y
  have hy0 : (y 0).val < 2000 := (y 0).isLt
  have hy1 : (y 1).val < 300 := (y 1).isLt
  have hx : (cfg3.win 3).xinj (grid3.coords t) y = ix2 (⟨(y 0).val, hy0⟩ : Fin 2000) (⟨(y 1).val, hy1⟩ : Fin 300) :=
    funext fun a => by
      match a with
      | ⟨0, _⟩ => rfl
      | ⟨1, _⟩ => rfl
  have he : ((cfg3.win 3).blk t).view.emb y
      = ix2 (⟨t.val * 2000 + (y 0).val, by omega⟩ : Fin 100000) (⟨(y 1).val, hy1⟩ : Fin 300) :=
    funext fun a => Fin.ext (by
      match a with
      | ⟨0, _⟩ => show win3_3.index t (0 : Fin 2) * 2000 + 1 * (y 0).val = t.val * 2000 + (y 0).val; rw [e0]; omega
      | ⟨1, _⟩ => show win3_3.index t (1 : Fin 2) * 300 + 1 * (y 1).val = (y 1).val; rw [e1]; omega)
  show k3_pay1 (xblk3 V c t) (wblk3 V c t) (bblk3 V c t) ((cfg3.win 3).xinj (grid3.coords t) y)
      = Cert.Spec.affine (xarr3 V c) (warr3 V c) (barr3 V c) (((cfg3.win 3).blk t).view.emb y)
  rw [hx, he]
  exact out3_at V c t _ _ _ rfl

/-! ## From the blocks to the array -/

/-- An index of the output array is in point t's block iff each coordinate is in the block's range on its axis. -/
theorem mem_blk3 (t : Fin cfg3.N) (i : S100000x300.Idx) :
    i ∈ ((cfg3.win 3).blk t).view.set ↔ ∀ a : Fin 2, win3_3.index t a * S2000x300.size a ≤ (i a).val
      ∧ (i a).val < win3_3.index t a * S2000x300.size a + S2000x300.size a := by
  show i ∈ ((View.whole (Pipeline.arrRef spec3 3)).slice (win3_3.rect t)).set ↔ _
  rw [View.set_slice_whole, Rect.mem_set_unit]
  exact Iff.rfl

/-- The output's blocks tile its array: row r is in the block of point r / block rows. -/
theorem cover3 (i : S100000x300.Idx) :
    ∃ t : Fin cfg3.N, (cfg3.win 3).flush t = true ∧ i ∈ ((cfg3.win 3).blk t).view.set := by
  have hi0 : (i 0).val < 100000 := (i 0).isLt
  have hi1 : (i 1).val < 300 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, e0, e1⟩ := idx3 t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 300 ≤ (i 1).val ∧ (i 1).val < win3_3.index t (1 : Fin 2) * 300 + 300
    rw [e1]; omega

/-- THE OUTPUT ARRAY after the region's last write-back is x · w + bias row of the three input arrays as the region
    found them. -/
theorem final3 (c : Dev nD) :
    (dat3 V c).arrAt 3 cfg3.N
      = Cert.Spec.affine (V c (Pipeline.arrRef spec3 0) : Vec Ideal S100000x300 .f32)
          (V c (Pipeline.arrRef spec3 1) : Vec Ideal S300x300 .f32) (V c (Pipeline.arrRef spec3 2) : Vec Ideal S1x300 .f32) :=
  (dat3 V c).arrAt_eq_of_cover 3 (Cert.Spec.affine (xarr3 V c) (warr3 V c) (barr3 V c))
    (fun t _ => flushed3_eq V c t) cover3

end Cert.KernelIdeal.Val

end
-- ==== Proof.Val.MM6.lean ====
/-
  Region 6 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg6
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz6 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay6_apply (x0 : Vec Ideal S2000x300 .f32) (x1 : Vec Ideal S300x300 .f32) (x2 : Vec Ideal S1x300 .f32)
    (p : Fin 2000) (q : Fin 300) :
    k6_pay1 x0 x1 x2 (ix2 p q) = Cert.Lib.dense x0 x1 (ix2 p q) + x2 (ix2 0 q) := by
  unfold k6_pay1
  simp only [shapeCast_self]
  refine (addf_apply _ _ (ix2 p q)).trans ?_
  refine congrArg₂ (· + ·) ?_ ?_
  · exact congrFun (Cert.Lib.matmul_truncf_eq_dense dot_S2000x300_S300x300_S2000x300_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The three input blocks at a point and the three input arrays as the region finds them, at their literal types. -/
abbrev xblk6 (c : Dev nD) (t : Fin cfg6.N) : Vec Ideal S2000x300 .f32 := iblk6 V c 0 t
abbrev wblk6 (c : Dev nD) (t : Fin cfg6.N) : Vec Ideal S300x300 .f32 := iblk6 V c 1 t
abbrev bblk6 (c : Dev nD) (t : Fin cfg6.N) : Vec Ideal S1x300 .f32 := iblk6 V c 2 t
abbrev xarr6 (c : Dev nD) : Vec Ideal S100000x300 .f32 := V c (Pipeline.arrRef spec6 0)
abbrev warr6 (c : Dev nD) : Vec Ideal S300x300 .f32 := V c (Pipeline.arrRef spec6 1)
abbrev barr6 (c : Dev nD) : Vec Ideal S1x300 .f32 := V c (Pipeline.arrRef spec6 2)

/-- Row p of the activations' block at point t is row t × block rows + p of the activations. -/
theorem xblk6_apply (c : Dev nD) (t : Fin cfg6.N) (p : Fin 2000) (k : Fin 300) (r : Fin 100000)
    (hr : r.val = t.val * 2000 + p.val) : xblk6 V c t (ix2 p k) = xarr6 V c (ix2 r k) := by
  obtain ⟨e0, e1, -⟩ := idx6 t
  show V c (Pipeline.arrRef spec6 0) (((cfg6.win 0).blk t).view.emb (ix2 p k)) = V c (Pipeline.arrRef spec6 0) (ix2 r k)
  congr 1
  funext a
  apply Fin.ext
  match a with
  | ⟨0, _⟩ => show win6_0.index t (0 : Fin 2) * 2000 + 1 * p.val = r.val; rw [e0, hr]; omega
  | ⟨1, _⟩ => show win6_0.index t (1 : Fin 2) * 300 + 1 * k.val = k.val; rw [e1]; omega

/-- The weights' block at every point is the weights. -/
theorem wblk6_apply (c : Dev nD) (t : Fin cfg6.N) (i : S300x300.Idx) : wblk6 V c t i = warr6 V c i := by
  obtain ⟨-, -, e0, e1, -⟩ := idx6 t
  show V c (Pipeline.arrRef spec6 1) (((cfg6.win 1).blk t).view.emb i) = V c (Pipeline.arrRef spec6 1) i
  congr 1
  funext a
  apply Fin.ext
  match a with
  | ⟨0, _⟩ => show win6_1.index t (0 : Fin 2) * 300 + 1 * (i 0).val = (i 0).val; rw [e0]; omega
  | ⟨1, _⟩ => show win6_1.index t (1 : Fin 2) * 300 + 1 * (i 1).val = (i 1).val; rw [e1]; omega

/-- The bias row's block at every point is the bias row. -/
theorem bblk6_apply (c : Dev nD) (t : Fin cfg6.N) (i : S1x300.Idx) : bblk6 V c t i = barr6 V c i := by
  obtain ⟨-, -, -, -, e0, e1, -⟩ := idx6 t
  show V c (Pipeline.arrRef spec6 2) (((cfg6.win 2).blk t).view.emb i) = V c (Pipeline.arrRef spec6 2) i
  congr 1
  funext a
  apply Fin.ext
  match a with
  | ⟨0, _⟩ => show win6_2.index t (0 : Fin 2) * 1 + 1 * (i 0).val = (i 0).val; rw [e0]; omega
  | ⟨1, _⟩ => show win6_2.index t (1 : Fin 2) * 300 + 1 * (i 1).val = (i 1).val; rw [e1]; omega

/-! ## What a point writes back -/

/-- Entry (p, q) of the payload of point t's blocks is entry (t × block rows + p, q) of x · w + bias row of the
    arrays: a row of the product depends on that row of the left factor alone. -/
theorem out6_at (c : Dev nD) (t : Fin cfg6.N) (p : Fin 2000) (q : Fin 300) (r : Fin 100000)
    (hr : r.val = t.val * 2000 + p.val) :
    k6_pay1 (xblk6 V c t) (wblk6 V c t) (bblk6 V c t) (ix2 p q)
      = Cert.Spec.affine (xarr6 V c) (warr6 V c) (barr6 V c) (ix2 r q) := by
  refine (pay6_apply (xblk6 V c t) (wblk6 V c t) (bblk6 V c t) p q).trans ?_
  show _ = Cert.Lib.dense (xarr6 V c) (warr6 V c) (ix2 r q) + barr6 V c (ix2 0 q)
  refine congrArg₂ (· + ·) ?_ ?_
  · exact Cert.Lib.dense_row (xarr6 V c) (xblk6 V c t) (warr6 V c) (wblk6 V c t) r p
      (fun k => xblk6_apply V c t p k r hr) (fun i => wblk6_apply V c t i) q
  · exact bblk6_apply V c t (ix2 0 q)

/-- WHAT POINT t WRITES BACK is block t of x · w + bias row of the three input arrays. -/
theorem flushed6_eq (c : Dev nD) (t : Fin cfg6.N) :
    (dat6 V c).flushed 3 t = ((cfg6.win 3).blk t).view.read (Elt Ideal)
      (Cert.Spec.affine (xarr6 V c) (warr6 V c) (barr6 V c)) := by
  show (cfg6.win 3).cut (grid6.coords t) ((dat6 V c).after 3 t) = _
  rw [after6_3]
  unfold out6_3
  rw [View.canon_unit_zero hz6]
  simp only [View.ld_unit_zero (S := S2000x300) hz6, View.ld_unit_zero (S := S300x300) hz6, View.ld_unit_zero (S := S1x300) hz6]
  obtain ⟨-, -, -, -, -, -, e0, e1⟩ := idx6 t
  have ht : t.val < 50 := lt_of_lt_of_eq t.isLt N_6
  funext y
  have hy0 : (y 0).val < 2000 := (y 0).isLt
  have hy1 : (y 1).val < 300 := (y 1).isLt
  have hx : (cfg6.win 3).xinj (grid6.coords t) y = ix2 (⟨(y 0).val, hy0⟩ : Fin 2000) (⟨(y 1).val, hy1⟩ : Fin 300) :=
    funext fun a => by
      match a with
      | ⟨0, _⟩ => rfl
      | ⟨1, _⟩ => rfl
  have he : ((cfg6.win 3).blk t).view.emb y
      = ix2 (⟨t.val * 2000 + (y 0).val, by omega⟩ : Fin 100000) (⟨(y 1).val, hy1⟩ : Fin 300) :=
    funext fun a => Fin.ext (by
      match a with
      | ⟨0, _⟩ => show win6_3.index t (0 : Fin 2) * 2000 + 1 * (y 0).val = t.val * 2000 + (y 0).val; rw [e0]; omega
      | ⟨1, _⟩ => show win6_3.index t (1 : Fin 2) * 300 + 1 * (y 1).val = (y 1).val; rw [e1]; omega)
  show k6_pay1 (xblk6 V c t) (wblk6 V c t) (bblk6 V c t) ((cfg6.win 3).xinj (grid6.coords t) y)
      = Cert.Spec.affine (xarr6 V c) (warr6 V c) (barr6 V c) (((cfg6.win 3).blk t).view.emb y)
  rw [hx, he]
  exact out6_at V c t _ _ _ rfl

/-! ## From the blocks to the array -/

/-- An index of the output array is in point t's block iff each coordinate is in the block's range on its axis. -/
theorem mem_blk6 (t : Fin cfg6.N) (i : S100000x300.Idx) :
    i ∈ ((cfg6.win 3).blk t).view.set ↔ ∀ a : Fin 2, win6_3.index t a * S2000x300.size a ≤ (i a).val
      ∧ (i a).val < win6_3.index t a * S2000x300.size a + S2000x300.size a := by
  show i ∈ ((View.whole (Pipeline.arrRef spec6 3)).slice (win6_3.rect t)).set ↔ _
  rw [View.set_slice_whole, Rect.mem_set_unit]
  exact Iff.rfl

/-- The output's blocks tile its array: row r is in the block of point r / block rows. -/
theorem cover6 (i : S100000x300.Idx) :
    ∃ t : Fin cfg6.N, (cfg6.win 3).flush t = true ∧ i ∈ ((cfg6.win 3).blk t).view.set := by
  have hi0 : (i 0).val < 100000 := (i 0).isLt
  have hi1 : (i 1).val < 300 := (i 1).isLt
  have hN : cfg6.N = 50 := N_6
  obtain ⟨t, ht⟩ : ∃ t : Fin cfg6.N, t.val = (i 0).val / 2000 := ⟨⟨(i 0).val / 2000, by rw [hN]; omega⟩, rfl⟩
  obtain ⟨-, -, -, -, -, -, e0, e1⟩ := idx6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    rw [e0, ht]; omega
  | ⟨1, _⟩ =>
    show win6_3.index t (1 : Fin 2) * 300 ≤ (i 1).val ∧ (i 1).val < win6_3.index t (1 : Fin 2) * 300 + 300
    rw [e1]; omega

/-- THE OUTPUT ARRAY after the region's last write-back is x · w + bias row of the three input arrays as the region
    found them. -/
theorem final6 (c : Dev nD) :
    (dat6 V c).arrAt 3 cfg6.N
      = Cert.Spec.affine (V c (Pipeline.arrRef spec6 0) : Vec Ideal S100000x300 .f32)
          (V c (Pipeline.arrRef spec6 1) : Vec Ideal S300x300 .f32) (V c (Pipeline.arrRef spec6 2) : Vec Ideal S1x300 .f32) :=
  (dat6 V c).arrAt_eq_of_cover 3 (Cert.Spec.affine (xarr6 V c) (warr6 V c) (barr6 V c))
    (fun t _ => flushed6_eq V c t) cover6

end Cert.KernelIdeal.Val

end
-- ==== Proof.Val.MM9.lean ====
/-
  Region 9 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg9
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz9 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay9_apply (x0 : Vec Ideal S2000x300 .f32) (x1 : Vec Ideal S300x300 .f32) (x2 : Vec Ideal S1x300 .f32)
    (p : Fin 2000) (q : Fin 300) :
    k9_pay1 x0 x1 x2 (ix2 p q) = Cert.Lib.dense x0 x1 (ix2 p q) + x2 (ix2 0 q) := by
  unfold k9_pay1
  simp only [shapeCast_self]
  refine (addf_apply _ _ (ix2 p q)).trans ?_
  refine congrArg₂ (· + ·) ?_ ?_
  · exact congrFun (Cert.Lib.matmul_truncf_eq_dense dot_S2000x300_S300x300_S2000x300_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The three input blocks at a point and the three input arrays as the region finds them, at their literal types. -/
abbrev xblk9 (c : Dev nD) (t : Fin cfg9.N) : Vec Ideal S2000x300 .f32 := iblk9 V c 0 t
abbrev wblk9 (c : Dev nD) (t : Fin cfg9.N) : Vec Ideal S300x300 .f32 := iblk9 V c 1 t
abbrev bblk9 (c : Dev nD) (t : Fin cfg9.N) : Vec Ideal S1x300 .f32 := iblk9 V c 2 t
abbrev xarr9 (c : Dev nD) : Vec Ideal S100000x300 .f32 := V c (Pipeline.arrRef spec9 0)
abbrev warr9 (c : Dev nD) : Vec Ideal S300x300 .f32 := V c (Pipeline.arrRef spec9 1)
abbrev barr9 (c : Dev nD) : Vec Ideal S1x300 .f32 := V c (Pipeline.arrRef spec9 2)

/-- Row p of the activations' block at point t is row t × block rows + p of the activations. -/
theorem xblk9_apply (c : Dev nD) (t : Fin cfg9.N) (p : Fin 2000) (k : Fin 300) (r : Fin 100000)
    (hr : r.val = t.val * 2000 + p.val) : xblk9 V c t (ix2 p k) = xarr9 V c (ix2 r k) := by
  obtain ⟨e0, e1, -⟩ := idx9 t
  show V c (Pipeline.arrRef spec9 0) (((cfg9.win 0).blk t).view.emb (ix2 p k)) = V c (Pipeline.arrRef spec9 0) (ix2 r k)
  congr 1
  funext a
  apply Fin.ext
  match a with
  | ⟨0, _⟩ => show win9_0.index t (0 : Fin 2) * 2000 + 1 * p.val = r.val; rw [e0, hr]; omega
  | ⟨1, _⟩ => show win9_0.index t (1 : Fin 2) * 300 + 1 * k.val = k.val; rw [e1]; omega

/-- The weights' block at every point is the weights. -/
theorem wblk9_apply (c : Dev nD) (t : Fin cfg9.N) (i : S300x300.Idx) : wblk9 V c t i = warr9 V c i := by
  obtain ⟨-, -, e0, e1, -⟩ := idx9 t
  show V c (Pipeline.arrRef spec9 1) (((cfg9.win 1).blk t).view.emb i) = V c (Pipeline.arrRef spec9 1) i
  congr 1
  funext a
  apply Fin.ext
  match a with
  | ⟨0, _⟩ => show win9_1.index t (0 : Fin 2) * 300 + 1 * (i 0).val = (i 0).val; rw [e0]; omega
  | ⟨1, _⟩ => show win9_1.index t (1 : Fin 2) * 300 + 1 * (i 1).val = (i 1).val; rw [e1]; omega

/-- The bias row's block at every point is the bias row. -/
theorem bblk9_apply (c : Dev nD) (t : Fin cfg9.N) (i : S1x300.Idx) : bblk9 V c t i = barr9 V c i := by
  obtain ⟨-, -, -, -, e0, e1, -⟩ := idx9 t
  show V c (Pipeline.arrRef spec9 2) (((cfg9.win 2).blk t).view.emb i) = V c (Pipeline.arrRef spec9 2) i
  congr 1
  funext a
  apply Fin.ext
  match a with
  | ⟨0, _⟩ => show win9_2.index t (0 : Fin 2) * 1 + 1 * (i 0).val = (i 0).val; rw [e0]; omega
  | ⟨1, _⟩ => show win9_2.index t (1 : Fin 2) * 300 + 1 * (i 1).val = (i 1).val; rw [e1]; omega

/-! ## What a point writes back -/

/-- Entry (p, q) of the payload of point t's blocks is entry (t × block rows + p, q) of x · w + bias row of the
    arrays: a row of the product depends on that row of the left factor alone. -/
theorem out9_at (c : Dev nD) (t : Fin cfg9.N) (p : Fin 2000) (q : Fin 300) (r : Fin 100000)
    (hr : r.val = t.val * 2000 + p.val) :
    k9_pay1 (xblk9 V c t) (wblk9 V c t) (bblk9 V c t) (ix2 p q)
      = Cert.Spec.affine (xarr9 V c) (warr9 V c) (barr9 V c) (ix2 r q) := by
  refine (pay9_apply (xblk9 V c t) (wblk9 V c t) (bblk9 V c t) p q).trans ?_
  show _ = Cert.Lib.dense (xarr9 V c) (warr9 V c) (ix2 r q) + barr9 V c (ix2 0 q)
  refine congrArg₂ (· + ·) ?_ ?_
  · exact Cert.Lib.dense_row (xarr9 V c) (xblk9 V c t) (warr9 V c) (wblk9 V c t) r p
      (fun k => xblk9_apply V c t p k r hr) (fun i => wblk9_apply V c t i) q
  · exact bblk9_apply V c t (ix2 0 q)

/-- WHAT POINT t WRITES BACK is block t of x · w + bias row of the three input arrays. -/
theorem flushed9_eq (c : Dev nD) (t : Fin cfg9.N) :
    (dat9 V c).flushed 3 t = ((cfg9.win 3).blk t).view.read (Elt Ideal)
      (Cert.Spec.affine (xarr9 V c) (warr9 V c) (barr9 V c)) := by
  show (cfg9.win 3).cut (grid9.coords t) ((dat9 V c).after 3 t) = _
  rw [after9_3]
  unfold out9_3
  rw [View.canon_unit_zero hz9]
  simp only [View.ld_unit_zero (S := S2000x300) hz9, View.ld_unit_zero (S := S300x300) hz9, View.ld_unit_zero (S := S1x300) hz9]
  obtain ⟨-, -, -, -, -, -, e0, e1⟩ := idx9 t
  have ht : t.val < 50 := lt_of_lt_of_eq t.isLt N_9
  funext y
  have hy0 : (y 0).val < 2000 := (y 0).isLt
  have hy1 : (y 1).val < 300 := (y 1).isLt
  have hx : (cfg9.win 3).xinj (grid9.coords t) y = ix2 (⟨(y 0).val, hy0⟩ : Fin 2000) (⟨(y 1).val, hy1⟩ : Fin 300) :=
    funext fun a => by
      match a with
      | ⟨0, _⟩ => rfl
      | ⟨1, _⟩ => rfl
  have he : ((cfg9.win 3).blk t).view.emb y
      = ix2 (⟨t.val * 2000 + (y 0).val, by omega⟩ : Fin 100000) (⟨(y 1).val, hy1⟩ : Fin 300) :=
    funext fun a => Fin.ext (by
      match a with
      | ⟨0, _⟩ => show win9_3.index t (0 : Fin 2) * 2000 + 1 * (y 0).val = t.val * 2000 + (y 0).val; rw [e0]; omega
      | ⟨1, _⟩ => show win9_3.index t (1 : Fin 2) * 300 + 1 * (y 1).val = (y 1).val; rw [e1]; omega)
  show k9_pay1 (xblk9 V c t) (wblk9 V c t) (bblk9 V c t) ((cfg9.win 3).xinj (grid9.coords t) y)
      = Cert.Spec.affine (xarr9 V c) (warr9 V c) (barr9 V c) (((cfg9.win 3).blk t).view.emb y)
  rw [hx, he]
  exact out9_at V c t _ _ _ rfl

/-! ## From the blocks to the array -/

/-- An index of the output array is in point t's block iff each coordinate is in the block's range on its axis. -/
theorem mem_blk9 (t : Fin cfg9.N) (i : S100000x300.Idx) :
    i ∈ ((cfg9.win 3).blk t).view.set ↔ ∀ a : Fin 2, win9_3.index t a * S2000x300.size a ≤ (i a).val
      ∧ (i a).val < win9_3.index t a * S2000x300.size a + S2000x300.size a := by
  show i ∈ ((View.whole (Pipeline.arrRef spec9 3)).slice (win9_3.rect t)).set ↔ _
  rw [View.set_slice_whole, Rect.mem_set_unit]
  exact Iff.rfl

/-- The output's blocks tile its array: row r is in the block of point r / block rows. -/
theorem cover9 (i : S100000x300.Idx) :
    ∃ t : Fin cfg9.N, (cfg9.win 3).flush t = true ∧ i ∈ ((cfg9.win 3).blk t).view.set := by
  have hi0 : (i 0).val < 100000 := (i 0).isLt
  have hi1 : (i 1).val < 300 := (i 1).isLt
  have hN : cfg9.N = 50 := N_9
  obtain ⟨t, ht⟩ : ∃ t : Fin cfg9.N, t.val = (i 0).val / 2000 := ⟨⟨(i 0).val / 2000, by rw [hN]; omega⟩, rfl⟩
  obtain ⟨-, -, -, -, -, -, e0, e1⟩ := idx9 t
  refine ⟨t, flush9_3 t, ?_⟩
  rw [mem_blk9]
  intro a
  match a with
  | ⟨0, _⟩ =>
    show win9_3.index t (0 : Fin 2) * 2000 ≤ (i 0).val ∧ (i 0).val < win9_3.index t (0 : Fin 2) * 2000 + 2000
    rw [e0, ht]; omega
  | ⟨1, _⟩ =>
    show win9_3.index t (1 : Fin 2) * 300 ≤ (i 1).val ∧ (i 1).val < win9_3.index t (1 : Fin 2) * 300 + 300
    rw [e1]; omega

/-- THE OUTPUT ARRAY after the region's last write-back is x · w + bias row of the three input arrays as the region
    found them. -/
theorem final9 (c : Dev nD) :
    (dat9 V c).arrAt 3 cfg9.N
      = Cert.Spec.affine (V c (Pipeline.arrRef spec9 0) : Vec Ideal S100000x300 .f32)
          (V c (Pipeline.arrRef spec9 1) : Vec Ideal S300x300 .f32) (V c (Pipeline.arrRef spec9 2) : Vec Ideal S1x300 .f32) :=
  (dat9 V c).arrAt_eq_of_cover 3 (Cert.Spec.affine (xarr9 V c) (warr9 V c) (barr9 V c))
    (fun t _ => flushed9_eq V c t) cover9

end Cert.KernelIdeal.Val

end
-- ==== Proof.Val.MM12.lean ====
/-
  Region 12 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg12
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz12 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay12_apply (x0 : Vec Ideal S2000x300 .f32) (x1 : Vec Ideal S300x300 .f32) (x2 : Vec Ideal S1x300 .f32)
    (p : Fin 2000) (q : Fin 300) :
    k12_pay1 x0 x1 x2 (ix2 p q) = Cert.Lib.dense x0 x1 (ix2 p q) + x2 (ix2 0 q) := by
  unfold k12_pay1
  simp only [shapeCast_self]
  refine (addf_apply _ _ (ix2 p q)).trans ?_
  refine congrArg₂ (· + ·) ?_ ?_
  · exact congrFun (Cert.Lib.matmul_truncf_eq_dense dot_S2000x300_S300x300_S2000x300_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The three input blocks at a point and the three input arrays as the region finds them, at their literal types. -/
abbrev xblk12 (c : Dev nD) (t : Fin cfg12.N) : Vec Ideal S2000x300 .f32 := iblk12 V c 0 t
abbrev wblk12 (c : Dev nD) (t : Fin cfg12.N) : Vec Ideal S300x300 .f32 := iblk12 V c 1 t
abbrev bblk12 (c : Dev nD) (t : Fin cfg12.N) : Vec Ideal S1x300 .f32 := iblk12 V c 2 t
abbrev xarr12 (c : Dev nD) : Vec Ideal S100000x300 .f32 := V c (Pipeline.arrRef spec12 0)
abbrev warr12 (c : Dev nD) : Vec Ideal S300x300 .f32 := V c (Pipeline.arrRef spec12 1)
abbrev barr12 (c : Dev nD) : Vec Ideal S1x300 .f32 := V c (Pipeline.arrRef spec12 2)

/-- Row p of the activations' block at point t is row t × block rows + p of the activations. -/
theorem xblk12_apply (c : Dev nD) (t : Fin cfg12.N) (p : Fin 2000) (k : Fin 300) (r : Fin 100000)
    (hr : r.val = t.val * 2000 + p.val) : xblk12 V c t (ix2 p k) = xarr12 V c (ix2 r k) := by
  obtain ⟨e0, e1, -⟩ := idx12 t
  show V c (Pipeline.arrRef spec12 0) (((cfg12.win 0).blk t).view.emb (ix2 p k)) = V c (Pipeline.arrRef spec12 0) (ix2 r k)
  congr 1
  funext a
  apply Fin.ext
  match a with
  | ⟨0, _⟩ => show win12_0.index t (0 : Fin 2) * 2000 + 1 * p.val = r.val; rw [e0, hr]; omega
  | ⟨1, _⟩ => show win12_0.index t (1 : Fin 2) * 300 + 1 * k.val = k.val; rw [e1]; omega

/-- The weights' block at every point is the weights. -/
theorem wblk12_apply (c : Dev nD) (t : Fin cfg12.N) (i : S300x300.Idx) : wblk12 V c t i = warr12 V c i := by
  obtain ⟨-, -, e0, e1, -⟩ := idx12 t
  show V c (Pipeline.arrRef spec12 1) (((cfg12.win 1).blk t).view.emb i) = V c (Pipeline.arrRef spec12 1) i
  congr 1
  funext a
  apply Fin.ext
  match a with
  | ⟨0, _⟩ => show win12_1.index t (0 : Fin 2) * 300 + 1 * (i 0).val = (i 0).val; rw [e0]; omega
  | ⟨1, _⟩ => show win12_1.index t (1 : Fin 2) * 300 + 1 * (i 1).val = (i 1).val; rw [e1]; omega

/-- The bias row's block at every point is the bias row. -/
theorem bblk12_apply (c : Dev nD) (t : Fin cfg12.N) (i : S1x300.Idx) : bblk12 V c t i = barr12 V c i := by
  obtain ⟨-, -, -, -, e0, e1, -⟩ := idx12 t
  show V c (Pipeline.arrRef spec12 2) (((cfg12.win 2).blk t).view.emb i) = V c (Pipeline.arrRef spec12 2) i
  congr 1
  funext a
  apply Fin.ext
  match a with
  | ⟨0, _⟩ => show win12_2.index t (0 : Fin 2) * 1 + 1 * (i 0).val = (i 0).val; rw [e0]; omega
  | ⟨1, _⟩ => show win12_2.index t (1 : Fin 2) * 300 + 1 * (i 1).val = (i 1).val; rw [e1]; omega

/-! ## What a point writes back -/

/-- Entry (p, q) of the payload of point t's blocks is entry (t × block rows + p, q) of x · w + bias row of the
    arrays: a row of the product depends on that row of the left factor alone. -/
theorem out12_at (c : Dev nD) (t : Fin cfg12.N) (p : Fin 2000) (q : Fin 300) (r : Fin 100000)
    (hr : r.val = t.val * 2000 + p.val) :
    k12_pay1 (xblk12 V c t) (wblk12 V c t) (bblk12 V c t) (ix2 p q)
      = Cert.Spec.affine (xarr12 V c) (warr12 V c) (barr12 V c) (ix2 r q) := by
  refine (pay12_apply (xblk12 V c t) (wblk12 V c t) (bblk12 V c t) p q).trans ?_
  show _ = Cert.Lib.dense (xarr12 V c) (warr12 V c) (ix2 r q) + barr12 V c (ix2 0 q)
  refine congrArg₂ (· + ·) ?_ ?_
  · exact Cert.Lib.dense_row (xarr12 V c) (xblk12 V c t) (warr12 V c) (wblk12 V c t) r p
      (fun k => xblk12_apply V c t p k r hr) (fun i => wblk12_apply V c t i) q
  · exact bblk12_apply V c t (ix2 0 q)

/-- WHAT POINT t WRITES BACK is block t of x · w + bias row of the three input arrays. -/
theorem flushed12_eq (c : Dev nD) (t : Fin cfg12.N) :
    (dat12 V c).flushed 3 t = ((cfg12.win 3).blk t).view.read (Elt Ideal)
      (Cert.Spec.affine (xarr12 V c) (warr12 V c) (barr12 V c)) := by
  show (cfg12.win 3).cut (grid12.coords t) ((dat12 V c).after 3 t) = _
  rw [after12_3]
  unfold out12_3
  rw [View.canon_unit_zero hz12]
  simp only [View.ld_unit_zero (S := S2000x300) hz12, View.ld_unit_zero (S := S300x300) hz12, View.ld_unit_zero (S := S1x300) hz12]
  obtain ⟨-, -, -, -, -, -, e0, e1⟩ := idx12 t
  have ht : t.val < 50 := lt_of_lt_of_eq t.isLt N_12
  funext y
  have hy0 : (y 0).val < 2000 := (y 0).isLt
  have hy1 : (y 1).val < 300 := (y 1).isLt
  have hx : (cfg12.win 3).xinj (grid12.coords t) y = ix2 (⟨(y 0).val, hy0⟩ : Fin 2000) (⟨(y 1).val, hy1⟩ : Fin 300) :=
    funext fun a => by
      match a with
      | ⟨0, _⟩ => rfl
      | ⟨1, _⟩ => rfl
  have he : ((cfg12.win 3).blk t).view.emb y
      = ix2 (⟨t.val * 2000 + (y 0).val, by omega⟩ : Fin 100000) (⟨(y 1).val, hy1⟩ : Fin 300) :=
    funext fun a => Fin.ext (by
      match a with
      | ⟨0, _⟩ => show win12_3.index t (0 : Fin 2) * 2000 + 1 * (y 0).val = t.val * 2000 + (y 0).val; rw [e0]; omega
      | ⟨1, _⟩ => show win12_3.index t (1 : Fin 2) * 300 + 1 * (y 1).val = (y 1).val; rw [e1]; omega)
  show k12_pay1 (xblk12 V c t) (wblk12 V c t) (bblk12 V c t) ((cfg12.win 3).xinj (grid12.coords t) y)
      = Cert.Spec.affine (xarr12 V c) (warr12 V c) (barr12 V c) (((cfg12.win 3).blk t).view.emb y)
  rw [hx, he]
  exact out12_at V c t _ _ _ rfl

/-! ## From the blocks to the array -/

/-- An index of the output array is in point t's block iff each coordinate is in the block's range on its axis. -/
theorem mem_blk12 (t : Fin cfg12.N) (i : S100000x300.Idx) :
    i ∈ ((cfg12.win 3).blk t).view.set ↔ ∀ a : Fin 2, win12_3.index t a * S2000x300.size a ≤ (i a).val
      ∧ (i a).val < win12_3.index t a * S2000x300.size a + S2000x300.size a := by
  show i ∈ ((View.whole (Pipeline.arrRef spec12 3)).slice (win12_3.rect t)).set ↔ _
  rw [View.set_slice_whole, Rect.mem_set_unit]
  exact Iff.rfl

/-- The output's blocks tile its array: row r is in the block of point r / block rows. -/
theorem cover12 (i : S100000x300.Idx) :
    ∃ t : Fin cfg12.N, (cfg12.win 3).flush t = true ∧ i ∈ ((cfg12.win 3).blk t).view.set := by
  have hi0 : (i 0).val < 100000 := (i 0).isLt
  have hi1 : (i 1).val < 300 := (i 1).isLt
  have hN : cfg12.N = 50 := N_12
  obtain ⟨t, ht⟩ : ∃ t : Fin cfg12.N, t.val = (i 0).val / 2000 := ⟨⟨(i 0).val / 2000, by rw [hN]; omega⟩, rfl⟩
  obtain ⟨-, -, -, -, -, -, e0, e1⟩ := idx12 t
  refine ⟨t, flush12_3 t, ?_⟩
  rw [mem_blk12]
  intro a
  match a with
  | ⟨0, _⟩ =>
    show win12_3.index t (0 : Fin 2) * 2000 ≤ (i 0).val ∧ (i 0).val < win12_3.index t (0 : Fin 2) * 2000 + 2000
    rw [e0, ht]; omega
  | ⟨1, _⟩ =>
    show win12_3.index t (1 : Fin 2) * 300 ≤ (i 1).val ∧ (i 1).val < win12_3.index t (1 : Fin 2) * 300 + 300
    rw [e1]; omega

/-- THE OUTPUT ARRAY after the region's last write-back is x · w + bias row of the three input arrays as the region
    found them. -/
theorem final12 (c : Dev nD) :
    (dat12 V c).arrAt 3 cfg12.N
      = Cert.Spec.affine (V c (Pipeline.arrRef spec12 0) : Vec Ideal S100000x300 .f32)
          (V c (Pipeline.arrRef spec12 1) : Vec Ideal S300x300 .f32) (V c (Pipeline.arrRef spec12 2) : Vec Ideal S1x300 .f32) :=
  (dat12 V c).arrAt_eq_of_cover 3 (Cert.Spec.affine (xarr12 V c) (warr12 V c) (barr12 V c))
    (fun t _ => flushed12_eq V c t) cover12

end Cert.KernelIdeal.Val

end
-- ==== Proof.Val.MM15.lean ====
/-
  Region 15 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg15
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz15 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay15_apply (x0 : Vec Ideal S2000x300 .f32) (x1 : Vec Ideal S300x256 .f32) (x2 : Vec Ideal S1x256 .f32)
    (p : Fin 2000) (q : Fin 256) :
    k15_pay1 x0 x1 x2 (ix2 p q) = Cert.Lib.dense x0 x1 (ix2 p q) + x2 (ix2 0 q) := by
  unfold k15_pay1
  simp only [shapeCast_self]
  refine (addf_apply _ _ (ix2 p q)).trans ?_
  refine congrArg₂ (· + ·) ?_ ?_
  · exact congrFun (Cert.Lib.matmul_truncf_eq_dense dot_S2000x300_S300x256_S2000x256_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- The three input blocks at a point and the three input arrays as the region finds them, at their literal types. -/
abbrev xblk15 (c : Dev nD) (t : Fin cfg15.N) : Vec Ideal S2000x300 .f32 := iblk15 V c 0 t
abbrev wblk15 (c : Dev nD) (t : Fin cfg15.N) : Vec Ideal S300x256 .f32 := iblk15 V c 1 t
abbrev bblk15 (c : Dev nD) (t : Fin cfg15.N) : Vec Ideal S1x256 .f32 := iblk15 V c 2 t
abbrev xarr15 (c : Dev nD) : Vec Ideal S100000x300 .f32 := V c (Pipeline.arrRef spec15 0)
abbrev warr15 (c : Dev nD) : Vec Ideal S300x256 .f32 := V c (Pipeline.arrRef spec15 1)
abbrev barr15 (c : Dev nD) : Vec Ideal S1x256 .f32 := V c (Pipeline.arrRef spec15 2)

/-- Row p of the activations' block at point t is row t × block rows + p of the activations. -/
theorem xblk15_apply (c : Dev nD) (t : Fin cfg15.N) (p : Fin 2000) (k : Fin 300) (r : Fin 100000)
    (hr : r.val = t.val * 2000 + p.val) : xblk15 V c t (ix2 p k) = xarr15 V c (ix2 r k) := by
  obtain ⟨e0, e1, -⟩ := idx15 t
  show V c (Pipeline.arrRef spec15 0) (((cfg15.win 0).blk t).view.emb (ix2 p k)) = V c (Pipeline.arrRef spec15 0) (ix2 r k)
  congr 1
  funext a
  apply Fin.ext
  match a with
  | ⟨0, _⟩ => show win15_0.index t (0 : Fin 2) * 2000 + 1 * p.val = r.val; rw [e0, hr]; omega
  | ⟨1, _⟩ => show win15_0.index t (1 : Fin 2) * 300 + 1 * k.val = k.val; rw [e1]; omega

/-- The weights' block at every point is the weights. -/
theorem wblk15_apply (c : Dev nD) (t : Fin cfg15.N) (i : S300x256.Idx) : wblk15 V c t i = warr15 V c i := by
  obtain ⟨-, -, e0, e1, -⟩ := idx15 t
  show V c (Pipeline.arrRef spec15 1) (((cfg15.win 1).blk t).view.emb i) = V c (Pipeline.arrRef spec15 1) i
  congr 1
  funext a
  apply Fin.ext
  match a with
  | ⟨0, _⟩ => show win15_1.index t (0 : Fin 2) * 300 + 1 * (i 0).val = (i 0).val; rw [e0]; omega
  | ⟨1, _⟩ => show win15_1.index t (1 : Fin 2) * 256 + 1 * (i 1).val = (i 1).val; rw [e1]; omega

/-- The bias row's block at every point is the bias row. -/
theorem bblk15_apply (c : Dev nD) (t : Fin cfg15.N) (i : S1x256.Idx) : bblk15 V c t i = barr15 V c i := by
  obtain ⟨-, -, -, -, e0, e1, -⟩ := idx15 t
  show V c (Pipeline.arrRef spec15 2) (((cfg15.win 2).blk t).view.emb i) = V c (Pipeline.arrRef spec15 2) i
  congr 1
  funext a
  apply Fin.ext
  match a with
  | ⟨0, _⟩ => show win15_2.index t (0 : Fin 2) * 1 + 1 * (i 0).val = (i 0).val; rw [e0]; omega
  | ⟨1, _⟩ => show win15_2.index t (1 : Fin 2) * 256 + 1 * (i 1).val = (i 1).val; rw [e1]; omega

/-! ## What a point writes back -/

/-- Entry (p, q) of the payload of point t's blocks is entry (t × block rows + p, q) of x · w + bias row of the
    arrays: a row of the product depends on that row of the left factor alone. -/
theorem out15_at (c : Dev nD) (t : Fin cfg15.N) (p : Fin 2000) (q : Fin 256) (r : Fin 100000)
    (hr : r.val = t.val * 2000 + p.val) :
    k15_pay1 (xblk15 V c t) (wblk15 V c t) (bblk15 V c t) (ix2 p q)
      = Cert.Spec.affine (xarr15 V c) (warr15 V c) (barr15 V c) (ix2 r q) := by
  refine (pay15_apply (xblk15 V c t) (wblk15 V c t) (bblk15 V c t) p q).trans ?_
  show _ = Cert.Lib.dense (xarr15 V c) (warr15 V c) (ix2 r q) + barr15 V c (ix2 0 q)
  refine congrArg₂ (· + ·) ?_ ?_
  · exact Cert.Lib.dense_row (xarr15 V c) (xblk15 V c t) (warr15 V c) (wblk15 V c t) r p
      (fun k => xblk15_apply V c t p k r hr) (fun i => wblk15_apply V c t i) q
  · exact bblk15_apply V c t (ix2 0 q)

/-- WHAT POINT t WRITES BACK is block t of x · w + bias row of the three input arrays. -/
theorem flushed15_eq (c : Dev nD) (t : Fin cfg15.N) :
    (dat15 V c).flushed 3 t = ((cfg15.win 3).blk t).view.read (Elt Ideal)
      (Cert.Spec.affine (xarr15 V c) (warr15 V c) (barr15 V c)) := by
  show (cfg15.win 3).cut (grid15.coords t) ((dat15 V c).after 3 t) = _
  rw [after15_3]
  unfold out15_3
  rw [View.canon_unit_zero hz15]
  simp only [View.ld_unit_zero (S := S2000x300) hz15, View.ld_unit_zero (S := S300x256) hz15, View.ld_unit_zero (S := S1x256) hz15]
  obtain ⟨-, -, -, -, -, -, e0, e1⟩ := idx15 t
  have ht : t.val < 50 := lt_of_lt_of_eq t.isLt N_15
  funext y
  have hy0 : (y 0).val < 2000 := (y 0).isLt
  have hy1 : (y 1).val < 256 := (y 1).isLt
  have hx : (cfg15.win 3).xinj (grid15.coords t) y = ix2 (⟨(y 0).val, hy0⟩ : Fin 2000) (⟨(y 1).val, hy1⟩ : Fin 256) :=
    funext fun a => by
      match a with
      | ⟨0, _⟩ => rfl
      | ⟨1, _⟩ => rfl
  have he : ((cfg15.win 3).blk t).view.emb y
      = ix2 (⟨t.val * 2000 + (y 0).val, by omega⟩ : Fin 100000) (⟨(y 1).val, hy1⟩ : Fin 256) :=
    funext fun a => Fin.ext (by
      match a with
      | ⟨0, _⟩ => show win15_3.index t (0 : Fin 2) * 2000 + 1 * (y 0).val = t.val * 2000 + (y 0).val; rw [e0]; omega
      | ⟨1, _⟩ => show win15_3.index t (1 : Fin 2) * 256 + 1 * (y 1).val = (y 1).val; rw [e1]; omega)
  show k15_pay1 (xblk15 V c t) (wblk15 V c t) (bblk15 V c t) ((cfg15.win 3).xinj (grid15.coords t) y)
      = Cert.Spec.affine (xarr15 V c) (warr15 V c) (barr15 V c) (((cfg15.win 3).blk t).view.emb y)
  rw [hx, he]
  exact out15_at V c t _ _ _ rfl

/-! ## From the blocks to the array -/

/-- An index of the output array is in point t's block iff each coordinate is in the block's range on its axis. -/
theorem mem_blk15 (t : Fin cfg15.N) (i : S100000x256.Idx) :
    i ∈ ((cfg15.win 3).blk t).view.set ↔ ∀ a : Fin 2, win15_3.index t a * S2000x256.size a ≤ (i a).val
      ∧ (i a).val < win15_3.index t a * S2000x256.size a + S2000x256.size a := by
  show i ∈ ((View.whole (Pipeline.arrRef spec15 3)).slice (win15_3.rect t)).set ↔ _
  rw [View.set_slice_whole, Rect.mem_set_unit]
  exact Iff.rfl

/-- The output's blocks tile its array: row r is in the block of point r / block rows. -/
theorem cover15 (i : S100000x256.Idx) :
    ∃ t : Fin cfg15.N, (cfg15.win 3).flush t = true ∧ i ∈ ((cfg15.win 3).blk t).view.set := by
  have hi0 : (i 0).val < 100000 := (i 0).isLt
  have hi1 : (i 1).val < 256 := (i 1).isLt
  have hN : cfg15.N = 50 := N_15
  obtain ⟨t, ht⟩ : ∃ t : Fin cfg15.N, t.val = (i 0).val / 2000 := ⟨⟨(i 0).val / 2000, by rw [hN]; omega⟩, rfl⟩
  obtain ⟨-, -, -, -, -, -, e0, e1⟩ := idx15 t
  refine ⟨t, flush15_3 t, ?_⟩
  rw [mem_blk15]
  intro a
  match a with
  | ⟨0, _⟩ =>
    show win15_3.index t (0 : Fin 2) * 2000 ≤ (i 0).val ∧ (i 0).val < win15_3.index t (0 : Fin 2) * 2000 + 2000
    rw [e0, ht]; omega
  | ⟨1, _⟩ =>
    show win15_3.index t (1 : Fin 2) * 256 ≤ (i 1).val ∧ (i 1).val < win15_3.index t (1 : Fin 2) * 256 + 256
    rw [e1]; omega

/-- THE OUTPUT ARRAY after the region's last write-back is x · w + bias row of the three input arrays as the region
    found them. -/
theorem final15 (c : Dev nD) :
    (dat15 V c).arrAt 3 cfg15.N
      = Cert.Spec.affine (V c (Pipeline.arrRef spec15 0) : Vec Ideal S100000x300 .f32)
          (V c (Pipeline.arrRef spec15 1) : Vec Ideal S300x256 .f32) (V c (Pipeline.arrRef spec15 2) : Vec Ideal S1x256 .f32) :=
  (dat15 V c).arrAt_eq_of_cover 3 (Cert.Spec.affine (xarr15 V c) (warr15 V c) (barr15 V c))
    (fun t _ => flushed15_eq V c t) cover15

end Cert.KernelIdeal.Val

end
-- ==== Proof.Val.MM16.lean ====
/-
  Region 16 of the program, a tiled matrix product followed by the rectifier, at the ideal values (a float is an extended real, the format
  changes are the identity, every operation exact): the VALUE of the region.
  The body's arithmetic at an entry of the output block is the entry of the product of the row block with the
  weights plus the bias row's entry of that column, then its maximum with the zero the body broadcasts. A row block at a grid point is the rows
  (point × block rows + row inside the block) of the activations, the weights and the bias row are whole at every
  point, and a row of a product depends on that row of the left factor alone: so what a point writes back is its
  block of ONE whole-array function, max(x · w + bias row, 0) of the three input arrays as the region finds them. The
  output's blocks tile its array (the point covering row r is r / block rows), so after the last write-back the
  output array IS that function.
-/
import proofs.«120348_j28252294873367_1_alg».proof.Proof.KI.Reg16
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz16 : (![0, 0] : Fin 2 → Nat) = fun _ => 0 := funext fun a => by fin_cases a <;> rfl

/-! ## The body's arithmetic at an entry -/

/-- Entry (p, q) of the payload: the operands pass through the narrower format unchanged, the matrix product into
    the zero accumulator is the plain product, the broadcast bias row adds its entry of column q, and the last
    operation takes the maximum with the broadcast zero. -/
theorem pay16_apply (x0 : Vec Ideal S2048x256 .f32) (x1 : Vec Ideal S256x128 .f32) (x2 : Vec Ideal S1x128 .f32)
    (p : Fin 2048) (q : Fin 128) :
    k16_pay1 x0 x1 x2 (ix2 p q) = max (Cert.Lib.dense x0 x1 (ix2 p q) + x2 (ix2 0 q)) (Ideal.ofBits .f32 0x00000000#32) := by
  unfold k16_pay1
  simp only [shapeCast_self]
  refine (maximumf_apply _ _ (ix2 p q)).trans ?_
  refine congrArg₂ max ?_ rfl
  refine (addf_apply _ _ (ix2 p q)).trans ?_
  refine congrArg₂ (· + ·) ?_ ?_
  · exact congrFun (Cert.Lib.matmul_truncf_eq_dense dot_S2048x256_S256x128_S2048x128_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- The three input blocks at a point and the three input arrays as the region finds them, at their literal types. -/
abbrev xblk16 (c : Dev nD) (t : Fin cfg16.N) : Vec Ideal S2048x256 .f32 := iblk16 V c 0 t
abbrev wblk16 (c : Dev nD) (t : Fin cfg16.N) : Vec Ideal S256x128 .f32 := iblk16 V c 1 t
abbrev bblk16 (c : Dev nD) (t : Fin cfg16.N) : Vec Ideal S1x128 .f32 := iblk16 V c 2 t
abbrev xarr16 (c : Dev nD) : Vec Ideal S2048x256 .f32 := V c (Pipeline.arrRef spec16 0)
abbrev warr16 (c : Dev nD) : Vec Ideal S256x128 .f32 := V c (Pipeline.arrRef spec16 1)
abbrev barr16 (c : Dev nD) : Vec Ideal S1x128 .f32 := V c (Pipeline.arrRef spec16 2)

/-- Row p of the activations' block at point t is row t × block rows + p of the activations. -/
theorem xblk16_apply (c : Dev nD) (t : Fin cfg16.N) (p : Fin 2048) (k : Fin 256) (r : Fin 2048)
    (hr : r.val = t.val * 2048 + p.val) : xblk16 V c t (ix2 p k) = xarr16 V c (ix2 r k) := by
  obtain ⟨e0, e1, -⟩ := idx16 t
  show V c (Pipeline.arrRef spec16 0) (((cfg16.win 0).blk t).view.emb (ix2 p k)) = V c (Pipeline.arrRef spec16 0) (ix2 r k)
  congr 1
  funext a
  apply Fin.ext
  match a with
  | ⟨0, _⟩ => show win16_0.index t (0 : Fin 2) * 2048 + 1 * p.val = r.val; rw [e0, hr]; omega
  | ⟨1, _⟩ => show win16_0.index t (1 : Fin 2) * 256 + 1 * k.val = k.val; rw [e1]; omega

/-- The weights' block at every point is the weights. -/
theorem wblk16_apply (c : Dev nD) (t : Fin cfg16.N) (i : S256x128.Idx) : wblk16 V c t i = warr16 V c i := by
  obtain ⟨-, -, e0, e1, -⟩ := idx16 t
  show V c (Pipeline.arrRef spec16 1) (((cfg16.win 1).blk t).view.emb i) = V c (Pipeline.arrRef spec16 1) i
  congr 1
  funext a
  apply Fin.ext
  match a with
  | ⟨0, _⟩ => show win16_1.index t (0 : Fin 2) * 256 + 1 * (i 0).val = (i 0).val; rw [e0]; omega
  | ⟨1, _⟩ => show win16_1.index t (1 : Fin 2) * 128 + 1 * (i 1).val = (i 1).val; rw [e1]; omega

/-- The bias row's block at every point is the bias row. -/
theorem bblk16_apply (c : Dev nD) (t : Fin cfg16.N) (i : S1x128.Idx) : bblk16 V c t i = barr16 V c i := by
  obtain ⟨-, -, -, -, e0, e1, -⟩ := idx16 t
  show V c (Pipeline.arrRef spec16 2) (((cfg16.win 2).blk t).view.emb i) = V c (Pipeline.arrRef spec16 2) i
  congr 1
  funext a
  apply Fin.ext
  match a with
  | ⟨0, _⟩ => show win16_2.index t (0 : Fin 2) * 1 + 1 * (i 0).val = (i 0).val; rw [e0]; omega
  | ⟨1, _⟩ => show win16_2.index t (1 : Fin 2) * 128 + 1 * (i 1).val = (i 1).val; rw [e1]; omega

/-! ## What a point writes back -/

/-- Entry (p, q) of the payload of point t's blocks is entry (t × block rows + p, q) of max(x · w + bias row, 0) of
    the arrays: a row of the product depends on that row of the left factor alone. -/
theorem out16_at (c : Dev nD) (t : Fin cfg16.N) (p : Fin 2048) (q : Fin 128) (r : Fin 2048)
    (hr : r.val = t.val * 2048 + p.val) :
    k16_pay1 (xblk16 V c t) (wblk16 V c t) (bblk16 V c t) (ix2 p q)
      = Cert.Spec.affineMax (xarr16 V c) (warr16 V c) (barr16 V c) (Ideal.ofBits .f32 0x00000000#32) (ix2 r q) := by
  refine (pay16_apply (xblk16 V c t) (wblk16 V c t) (bblk16 V c t) p q).trans ?_
  show _ = max (Cert.Lib.dense (xarr16 V c) (warr16 V c) (ix2 r q) + barr16 V c (ix2 0 q)) (Ideal.ofBits .f32 0x00000000#32)
  refine congrArg₂ max ?_ rfl
  refine congrArg₂ (· + ·) ?_ ?_
  · exact Cert.Lib.dense_row (xarr16 V c) (xblk16 V c t) (warr16 V c) (wblk16 V c t) r p
      (fun k => xblk16_apply V c t p k r hr) (fun i => wblk16_apply V c t i) q
  · exact bblk16_apply V c t (ix2 0 q)

/-- WHAT POINT t WRITES BACK is block t of max(x · w + bias row, 0) of the three input arrays. -/
theorem flushed16_eq (c : Dev nD) (t : Fin cfg16.N) :
    (dat16 V c).flushed 3 t = ((cfg16.win 3).blk t).view.read (Elt Ideal)
      (Cert.Spec.affineMax (xarr16 V c) (warr16 V c) (barr16 V c) (Ideal.ofBits .f32 0x00000000#32)) := by
  show (cfg16.win 3).cut (grid16.coords t) ((dat16 V c).after 3 t) = _
  rw [after16_3]
  unfold out16_3
  rw [View.canon_unit_zero hz16]
  simp only [View.ld_unit_zero (S := S2048x256) hz16, View.ld_unit_zero (S := S256x128) hz16, View.ld_unit_zero (S := S1x128) hz16]
  obtain ⟨-, -, -, -, -, -, e0, e1⟩ := idx16 t
  have ht : t.val < 1 := lt_of_lt_of_eq t.isLt N_16
  funext y
  have hy0 : (y 0).val < 2048 := (y 0).isLt
  have hy1 : (y 1).val < 128 := (y 1).isLt
  have hx : (cfg16.win 3).xinj (grid16.coords t) y = ix2 (⟨(y 0).val, hy0⟩ : Fin 2048) (⟨(y 1).val, hy1⟩ : Fin 128) :=
    funext fun a => by
      match a with
      | ⟨0, _⟩ => rfl
      | ⟨1, _⟩ => rfl
  have he : ((cfg16.win 3).blk t).view.emb y
      = ix2 (⟨t.val * 2048 + (y 0).val, by omega⟩ : Fin 2048) (⟨(y 1).val, hy1⟩ : Fin 128) :=
    funext fun a => Fin.ext (by
      match a with
      | ⟨0, _⟩ => show win16_3.index t (0 : Fin 2) * 2048 + 1 * (y 0).val = t.val * 2048 + (y 0).val; rw [e0]; omega
      | ⟨1, _⟩ => show win16_3.index t (1 : Fin 2) * 128 + 1 * (y 1).val = (y 1).val; rw [e1]; omega)
  show k16_pay1 (xblk16 V c t) (wblk16 V c t) (bblk16 V c t) ((cfg16.win 3).xinj (grid16.coords t) y)
      = Cert.Spec.affineMax (xarr16 V c) (warr16 V c) (barr16 V c) (Ideal.ofBits .f32 0x00000000#32) (((cfg16.win 3).blk t).view.emb y)
  rw [hx, he]
  exact out16_at V c t _ _ _ rfl

/-! ## From the blocks to the array -/

/-- An index of the output array is in point t's block iff each coordinate is in the block's range on its axis. -/
theorem mem_blk16 (t : Fin cfg16.N) (i : S2048x128.Idx) :
    i ∈ ((cfg16.win 3).blk t).view.set ↔ ∀ a : Fin 2, win16_3.index t a * S2048x128.size a ≤ (i a).val
      ∧ (i a).val < win16_3.index t a * S2048x128.size a + S2048x128.size a := by
  show i ∈ ((View.whole (Pipeline.arrRef spec16 3)).slice (win16_3.rect t)).set ↔ _
  rw [View.set_slice_whole, Rect.mem_set_unit]
  exact Iff.rfl

/-- The output's blocks tile its array: row r is in the block of point r / block rows. -/
theorem cover16 (i : S2048x128.Idx) :
    ∃ t : Fin cfg16.N, (cfg16.win 3).flush t = true ∧ i ∈ ((cfg16.win 3).blk t).view.set := by
  have hi0 : (i 0).val < 2048 := (i 0).isLt
  have hi1 : (i 1).val < 128 := (i 1).isLt
  have hN : cfg16.N = 1 := N_16
  obtain ⟨t, ht⟩ : ∃ t : Fin cfg16.N, t.val = (i 0).val / 2048 := ⟨⟨(i 0).val / 2048, by rw [hN]; omega⟩, rfl⟩
  obtain ⟨-, -, -, -, -, -, e0, e1⟩ := idx16 t
  refine ⟨t, flush16_3 t, ?_⟩
  rw [mem_blk16]
  intro a
  match a with
  | ⟨0, _⟩ =>
    show win16_3.index t (0 : Fin 2) * 2048 ≤ (i 0).val ∧ (i 0).val < win16_3.index t (0 : Fin 2) * 2048 + 2048
    rw [e0, ht]; omega
  | ⟨1, _⟩ =>
    show win16_3.index t (1 : Fin 2) * 128 ≤ (i 1).val ∧ (i 1).val < win16_3.index t (1 : Fin 2) * 128 + 128
    rw [e1]; omega

/-- THE OUTPUT ARRAY after the region's last write-back is max(x · w + bias row, 0) of the three input arrays as the
    region found them (the zero is the one the body broadcasts). -/
theorem final16 (c : Dev nD) :
    (dat16 V c).arrAt 3 cfg16.N
      = Cert.Spec.affineMax (V c (Pipeline.arrRef spec16 0) : Vec Ideal S2048x256 .f32)
          (V c (Pipeline.arrRef spec16 1) : Vec Ideal S256x128 .f32) (V c (Pipeline.arrRef spec16 2) : Vec Ideal S1x128 .f32)
          (Ideal.ofBits .f32 0x00000000#32) :=
  (dat16 V c).arrAt_eq_of_cover 3 (Cert.Spec.affineMax (xarr16 V c) (warr16 V c) (barr16 V c) (Ideal.ofBits .f32 0x00000000#32))
    (fun t _ => flushed16_eq V c t) cover16

end Cert.KernelIdeal.Val

end
-- ==== Proof.Val.MM17.lean ====
/-
  Region 17 of the program, a tiled matrix product, at the ideal values (a float is an extended real, the format
  changes are the identity, every operation exact): the VALUE of the region.
  The body's arithmetic at an entry of the output block is the entry of the product of the row block with the
  weights plus the bias row's entry of that column. A row block at a grid point is the rows
  (point × block rows + row inside the block) of the activations, the weights and the bias row are whole at every
  point, and a row of a product depends on that row of the left factor alone: so what a point writes back is its
  block of ONE whole-array function, x · w + bias row of the three input arrays as the region finds them. The
  output's blocks tile its array (the point covering row r is r / block rows), so after the last write-back the
  output array IS that function.
-/
import proofs.«120348_j28252294873367_1_alg».proof.Proof.KI.Reg17
import proofs.«120348_j28252294873367_1_alg».proof.Proof.Spec
import proofs.«120348_j28252294873367_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as the body's loads and its store spell them. -/
theorem hz17 : (![0, 0] : Fin 2 → Nat) = fun _ => 0 := funext fun a => by fin_cases a <;> rfl

/-! ## The body's arithmetic at an entry -/

/-- Entry (p, q) of the payload: the operands pass through the narrower format unchanged, the matrix product into
    the zero accumulator is the plain product, and the broadcast bias row adds its entry of column q. -/
theorem pay17_apply (x0 : Vec Ideal S2048x128 .f32) (x1 : Vec Ideal S128x2 .f32) (x2 : Vec Ideal S1x2 .f32)
    (p : Fin 2048) (q : Fin 2) :
    k17_pay1 x0 x1 x2 (ix2 p q) = Cert.Lib.dense x0 x1 (ix2 p q) + x2 (ix2 0 q) := by
  unfold k17_pay1
  simp only [shapeCast_self]
  refine (addf_apply _ _ (ix2 p q)).trans ?_
  refine congrArg₂ (· + ·) ?_ ?_
  · exact congrFun (Cert.Lib.matmul_truncf_eq_dense dot_S2048x128_S128x2_S2048x2_1_0_0_1_n_n rfl rfl rfl rfl rfl rfl none x0 x1 _ _) (ix2 p q)
  · refine broadcastTo_apply x2 _ (ix2 p q) (ix2 0 q) fun a => ?_
    match a with
    | ⟨0, _⟩ => rfl
    | ⟨1, _⟩ => rfl

/-! ## The blocks at a grid point, as parts of the arrays -/

/-- The printed index maps, decided over the grid: the activations' and the output's block index is (point, 0), the
    weights' and the bias row's is (0, 0). -/
theorem idx17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- The three input blocks at a point and the three input arrays as the region finds them, at their literal types. -/
abbrev xblk17 (c : Dev nD) (t : Fin cfg17.N) : Vec Ideal S2048x128 .f32 := iblk17 V c 0 t
abbrev wblk17 (c : Dev nD) (t : Fin cfg17.N) : Vec Ideal S128x2 .f32 := iblk17 V c 1 t
abbrev bblk17 (c : Dev nD) (t : Fin cfg17.N) : Vec Ideal S1x2 .f32 := iblk17 V c 2 t
abbrev xarr17 (c : Dev nD) : Vec Ideal S2048x128 .f32 := V c (Pipeline.arrRef spec17 0)
abbrev warr17 (c : Dev nD) : Vec Ideal S128x2 .f32 := V c (Pipeline.arrRef spec17 1)
abbrev barr17 (c : Dev nD) : Vec Ideal S1x2 .f32 := V c (Pipeline.arrRef spec17 2)

/-- Row p of the activations' block at point t is row t × block rows + p of the activations. -/
theorem xblk17_apply (c : Dev nD) (t : Fin cfg17.N) (p : Fin 2048) (k : Fin 128) (r : Fin 2048)
    (hr : r.val = t.val * 2048 + p.val) : xblk17 V c t (ix2 p k) = xarr17 V c (ix2 r k) := by
  obtain ⟨e0, e1, -⟩ := idx17 t
  show V c (Pipeline.arrRef spec17 0) (((cfg17.win 0).blk t).view.emb (ix2 p k)) = V c (Pipeline.arrRef spec17 0) (ix2 r k)
  congr 1
  funext a
  apply Fin.ext
  match a with
  | ⟨0, _⟩ => show win17_0.index t (0 : Fin 2) * 2048 + 1 * p.val = r.val; rw [e0, hr]; omega
  | ⟨1, _⟩ => show win17_0.index t (1 : Fin 2) * 128 + 1 * k.val = k.val; rw [e1]; omega

/-- The weights' block at every point is the weights. -/
theorem wblk17_apply (c : Dev nD) (t : Fin cfg17.N) (i : S128x2.Idx) : wblk17 V c t i = warr17 V c i := by
  obtain ⟨-, -, e0, e1, -⟩ := idx17 t
  show V c (Pipeline.arrRef spec17 1) (((cfg17.win 1).blk t).view.emb i) = V c (Pipeline.arrRef spec17 1) i
  congr 1
  funext a
  apply Fin.ext
  match a with
  | ⟨0, _⟩ => show win17_1.index t (0 : Fin 2) * 128 + 1 * (i 0).val = (i 0).val; rw [e0]; omega
  | ⟨1, _⟩ => show win17_1.index t (1 : Fin 2) * 2 + 1 * (i 1).val = (i 1).val; rw [e1]; omega

/-- The bias row's block at every point is the bias row. -/
theorem bblk17_apply (c : Dev nD) (t : Fin cfg17.N) (i : S1x2.Idx) : bblk17 V c t i = barr17 V c i := by
  obtain ⟨-, -, -, -, e0, e1, -⟩ := idx17 t
  show V c (Pipeline.arrRef spec17 2) (((cfg17.win 2).blk t).view.emb i) = V c (Pipeline.arrRef spec17 2) i
  congr 1
  funext a
  apply Fin.ext
  match a with
  | ⟨0, _⟩ => show win17_2.index t (0 : Fin 2) * 1 + 1 * (i 0).val = (i 0).val; rw [e0]; omega
  | ⟨1, _⟩ => show win17_2.index t (1 : Fin 2) * 2 + 1 * (i 1).val = (i 1).val; rw [e1]; omega

/-! ## What a point writes back -/

/-- Entry (p, q) of the payload of point t's blocks is entry (t × block rows + p, q) of x · w + bias row of the
    arrays: a row of the product depends on that row of the left factor alone. -/
theorem out17_at (c : Dev nD) (t : Fin cfg17.N) (p : Fin 2048) (q : Fin 2) (r : Fin 2048)
    (hr : r.val = t.val * 2048 + p.val) :
    k17_pay1 (xblk17 V c t) (wblk17 V c t) (bblk17 V c t) (ix2 p q)
      = Cert.Spec.affine (xarr17 V c) (warr17 V c) (barr17 V c) (ix2 r q) := by
  refine (pay17_apply (xblk17 V c t) (wblk17 V c t) (bblk17 V c t) p q).trans ?_
  show _ = Cert.Lib.dense (xarr17 V c) (warr17 V c) (ix2 r q) + barr17 V c (ix2 0 q)
  refine congrArg₂ (· + ·) ?_ ?_
  · exact Cert.Lib.dense_row (xarr17 V c) (xblk17 V c t) (warr17 V c) (wblk17 V c t) r p
      (fun k => xblk17_apply V c t p k r hr) (fun i => wblk17_apply V c t i) q
  · exact bblk17_apply V c t (ix2 0 q)

/-- WHAT POINT t WRITES BACK is block t of x · w + bias row of the three input arrays. -/
theorem flushed17_eq (c : Dev nD) (t : Fin cfg17.N) :
    (dat17 V c).flushed 3 t = ((cfg17.win 3).blk t).view.read (Elt Ideal)
      (Cert.Spec.affine (xarr17 V c) (warr17 V c) (barr17 V c)) := by
  show (cfg17.win 3).cut (grid17.coords t) ((dat17 V c).after 3 t) = _
  rw [after17_3]
  unfold out17_3
  rw [View.canon_unit_zero hz17]
  simp only [View.ld_unit_zero (S := S2048x128) hz17, View.ld_unit_zero (S := S128x2) hz17, View.ld_unit_zero (S := S1x2) hz17]
  obtain ⟨-, -, -, -, -, -, e0, e1⟩ := idx17 t
  have ht : t.val < 1 := lt_of_lt_of_eq t.isLt N_17
  funext y
  have hy0 : (y 0).val < 2048 := (y 0).isLt
  have hy1 : (y 1).val < 2 := (y 1).isLt
  have hx : (cfg17.win 3).xinj (grid17.coords t) y = ix2 (⟨(y 0).val, hy0⟩ : Fin 2048) (⟨(y 1).val, hy1⟩ : Fin 2) :=
    funext fun a => by
      match a with
      | ⟨0, _⟩ => rfl
      | ⟨1, _⟩ => rfl
  have he : ((cfg17.win 3).blk t).view.emb y
      = ix2 (⟨t.val * 2048 + (y 0).val, by omega⟩ : Fin 2048) (⟨(y 1).val, hy1⟩ : Fin 2) :=
    funext fun a => Fin.ext (by
      match a with
      | ⟨0, _⟩ => show win17_3.index t (0 : Fin 2) * 2048 + 1 * (y 0).val = t.val * 2048 + (y 0).val; rw [e0]; omega
      | ⟨1, _⟩ => show win17_3.index t (1 : Fin 2) * 2 + 1 * (y 1).val = (y 1).val; rw [e1]; omega)
  show k17_pay1 (xblk17 V c t) (wblk17 V c t) (bblk17 V c t) ((cfg17.win 3).xinj (grid17.coords t) y)
      = Cert.Spec.affine (xarr17 V c) (warr17 V c) (barr17 V c) (((cfg17.win 3).blk t).view.emb y)
  rw [hx, he]
  exact out17_at V c t _ _ _ rfl

/-! ## From the blocks to the array -/

/-- An index of the output array is in point t's block iff each coordinate is in the block's range on its axis. -/
theorem mem_blk17 (t : Fin cfg17.N) (i : S2048x2.Idx) :
    i ∈ ((cfg17.win 3).blk t).view.set ↔ ∀ a : Fin 2, win17_3.index t a * S2048x2.size a ≤ (i a).val
      ∧ (i a).val < win17_3.index t a * S2048x2.size a + S2048x2.size a := by
  show i ∈ ((View.whole (Pipeline.arrRef spec17 3)).slice (win17_3.rect t)).set ↔ _
  rw [View.set_slice_whole, Rect.mem_set_unit]
  exact Iff.rfl

/-- The output's blocks tile its array: row r is in the block of point r / block rows. -/
theorem cover17 (i : S2048x2.Idx) :
    ∃ t : Fin cfg17.N, (cfg17.win 3).flush t = true ∧ i ∈ ((cfg17.win 3).blk t).view.set := by
  have hi0 : (i 0).val < 2048 := (i 0).isLt
  have hi1 : (i 1).val < 2 := (i 1).isLt
  have hN : cfg17.N = 1 := N_17
  obtain ⟨t, ht⟩ : ∃ t : Fin cfg17.N, t.val = (i 0).val / 2048 := ⟨⟨(i 0).val / 2048, by rw [hN]; omega⟩, rfl⟩
  obtain ⟨-, -, -, -, -, -, e0, e1⟩ := idx17 t
  refine ⟨t, flush17_3 t, ?_⟩
  rw [mem_blk17]
  intro a
  match a with
  | ⟨0, _⟩ =>
    show win17_3.index t (0 : Fin 2) * 2048 ≤ (i 0).val ∧ (i 0).val < win17_3.index t (0 : Fin 2) * 2048 + 2048
    rw [e0, ht]; omega
  | ⟨1, _⟩ =>
    show win17_3.index t (1 : Fin 2) * 2 ≤ (i 1).val ∧ (i 1).val < win17_3.index t (1 : Fin 2) * 2 + 2
    rw [e1]; omega

/-- THE OUTPUT ARRAY after the region's last write-back is x · w + bias row of the three input arrays as the region
    found them. -/
theorem final17 (c : Dev nD) :
    (dat17 V c).arrAt 3 cfg17.N
      = Cert.Spec.affine (V c (Pipeline.arrRef spec17 0) : Vec Ideal S2048x128 .f32)
          (V c (Pipeline.arrRef spec17 1) : Vec Ideal S128x2 .f32) (V c (Pipeline.arrRef spec17 2) : Vec Ideal S1x2 .f32) :=
  (dat17 V c).arrAt_eq_of_cover 3 (Cert.Spec.affine (xarr17 V c) (warr17 V c) (barr17 V c))
    (fun t _ => flushed17_eq V c t) cover17

end Cert.KernelIdeal.Val

end
-- ==== Proof.Val.ST1.lean ====
import proofs.«120348_j28252294873367_1_alg».proof.Proof.KI.Reg1
import proofs.«120348_j28252294873367_1_alg».proof.Proof.Spec
import proofs.«120348_j28252294873367_1_alg».proof.Proof.LibVariance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

theorem lift1_rows (q : Fin 300) (k : Fin 2000) :
    reduces_S2000x300_S300.lift (ix1 q) k = ix2 k q := by
  funext a
  match a with
  | ⟨0, _⟩ => rfl
  | ⟨1, _⟩ => rfl

theorem k1_pay3_apply (x0 : Vec Ideal S2000x300 .f32) (b0 : Vec Ideal S1x300 .f32) (r : Fin 2000) (q : Fin 300) :
    k1_pay3 x0 b0 (ix2 r q) = x0 (ix2 r q) + b0 (ix2 (0 : Fin 1) q) := by
  unfold k1_pay3
  rw [shapeCast_self, shapeCast_self, addf_apply, broadcastTo_1b_ab_apply]

theorem rowsum1_apply (y : FVec Ideal S2000x300 .f32) (hacc : (0x00000000#32 : BitVec 32) = 0x00000000#32) (q : Fin 300) :
    multiReduction (F := Ideal) .add [0] S300 y 0x00000000#32 reduces_S2000x300_S300 (.inl rfl) hacc (ix1 q)
      = ∑ r : Fin 2000, y (ix2 r q) := by
  refine (Ideal.multiReduction_add_single y 0x00000000#32 reduces_S2000x300_S300 (.inl rfl) hacc (ix1 q)).trans ?_
  exact Finset.sum_congr rfl fun k _ => congrArg y (lift1_rows q k)

theorem k1_pay4_apply (x0 : Vec Ideal S2000x300 .f32) (b0 acc : Vec Ideal S1x300 .f32) (q : Fin 300) :
    k1_pay4 x0 b0 acc (ix2 (0 : Fin 1) q)
      = acc (ix2 (0 : Fin 1) q) + ∑ r : Fin 2000, (x0 (ix2 r q) + b0 (ix2 (0 : Fin 1) q)) := by
  unfold k1_pay4
  rw [shapeCast_self, addf_apply, shapeCast_a_1a_apply, rowsum1_apply]
  exact congrArg _ (Finset.sum_congr rfl fun r _ => k1_pay3_apply x0 b0 r q)

theorem k1_pay5_apply (x0 : Vec Ideal S2000x300 .f32) (b0 acc : Vec Ideal S1x300 .f32) (q : Fin 300) :
    k1_pay5 x0 b0 acc (ix2 (0 : Fin 1) q)
      = acc (ix2 (0 : Fin 1) q)
        + ∑ r : Fin 2000, (x0 (ix2 r q) + b0 (ix2 (0 : Fin 1) q)) * (x0 (ix2 r q) + b0 (ix2 (0 : Fin 1) q)) := by
  unfold k1_pay5
  rw [shapeCast_self, addf_apply, shapeCast_a_1a_apply, rowsum1_apply]
  exact congrArg _ (Finset.sum_congr rfl fun r _ => by rw [mulf_apply, k1_pay3_apply])

theorem k1_pay1_apply (q : Fin 300) : (k1_pay1 (F := Ideal)) (ix2 (0 : Fin 1) q) = Ideal.ofBits .f32 0x00000000#32 := by
  unfold k1_pay1
  rw [shapeCast_self]; rfl
theorem k1_pay2_apply (q : Fin 300) : (k1_pay2 (F := Ideal)) (ix2 (0 : Fin 1) q) = Ideal.ofBits .f32 0x00000000#32 := by
  unfold k1_pay2
  rw [shapeCast_self]; rfl

theorem k1_pay6_apply (v : Vec Ideal S1x300 .f32) (q : Fin 300) :
    k1_pay6 v (ix2 (0 : Fin 1) q) = Ideal.div (v (ix2 (0 : Fin 1) q)) (Ideal.ofBits .f32 0x47C35000#32) := by
  unfold k1_pay6
  rw [divf_apply]; rfl

theorem k1_pay7_apply (v w : Vec Ideal S1x300 .f32) (q : Fin 300) :
    k1_pay7 v w (ix2 (0 : Fin 1) q)
      = Ideal.div (w (ix2 (0 : Fin 1) q)) (Ideal.ofBits .f32 0x47C35000#32)
        - k1_pay6 v (ix2 (0 : Fin 1) q) * k1_pay6 v (ix2 (0 : Fin 1) q) := by
  unfold k1_pay7
  rw [subf_apply, divf_apply, mulf_apply]; rfl

section Blocks

variable (V : (c : Dev nD) → (b : Ref sig .tc) → Buf (Elt Ideal) ((c : Thread nD τ).loc b))

theorem index1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem index1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

abbrev xin1 (c : Dev nD) : Cert.Spec.Arr 100000 300 := V c (Pipeline.arrRef spec1 0)
abbrev bin1 (c : Dev nD) : Cert.Spec.Arr 1 300 := V c (Pipeline.arrRef spec1 1)

theorem iblk1_0_apply (c : Dev nD) (t : Fin cfg1.N) (r : Fin 2000) (q : Fin 300) (h : t.val * 2000 + r.val < 100000) :
    (iblk1 V c 0 t : Vec Ideal S2000x300 .f32) (ix2 r q) = xin1 V c (ix2 ⟨t.val * 2000 + r.val, h⟩ q) := by
  unfold iblk1
  rw [View.read_apply]
  show V c (Pipeline.arrRef spec1 0) _ = V c (Pipeline.arrRef spec1 0) _
  congr 1
  funext a
  apply Fin.ext
  match a with
  | ⟨0, _⟩ => show win1_0.index t 0 * 2000 + 1 * r.val = t.val * 2000 + r.val; rw [(index1_0 t).1]; omega
  | ⟨1, _⟩ => show win1_0.index t 1 * 300 + 1 * q.val = q.val; rw [(index1_0 t).2]; omega

theorem iblk1_1_apply (c : Dev nD) (t : Fin cfg1.N) (q : Fin 300) :
    (iblk1 V c 1 t : Vec Ideal S1x300 .f32) (ix2 (0 : Fin 1) q) = bin1 V c (ix2 (0 : Fin 1) q) := by
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [(index1_1 t).1]
  | ⟨1, _⟩ => show win1_1.index t 1 * 300 + 1 * q.val = q.val; rw [(index1_1 t).2]; omega

end Blocks

section Closed

variable (V : (c : Dev nD) → (b : Ref sig .tc) → Buf (Elt Ideal) ((c : Thread nD τ).loc b))

theorem row_lt1 (n : ℕ) (hn : n ≤ 50) (t : Fin n) (r : Fin 2000) : t.val * 2000 + r.val < 100000 := by
  have := t.isLt; have := r.isLt; omega

theorem sacc1_fst (c : Dev nD) (q : Fin 300) : ∀ (n : ℕ) (hn : n ≤ 50),
    (sacc1 V c n).1 (ix2 (0 : Fin 1) q)
      = Ideal.ofBits .f32 0x00000000#32
        + ∑ t : Fin n, ∑ r : Fin 2000,
            Cert.Spec.shifted (xin1 V c) (bin1 V c) (ix2 ⟨t.val * 2000 + r.val, row_lt1 n hn t r⟩ q)
  | 0, _ => by
    rw [sacc1_zero]
    show (k1_pay1 (F := Ideal)) (ix2 (0 : Fin 1) q) = _
    rw [k1_pay1_apply, Finset.univ_eq_empty, Finset.sum_empty, add_zero]
  | n + 1, hn => by
    have hn' : n < 50 := by omega
    rw [sacc1_succ V c n hn']
    refine (k1_pay4_apply (iblk1 V c 0 ⟨n, _⟩) (iblk1 V c 1 ⟨n, _⟩) (sacc1 V c n).1 q).trans ?_
    rw [sacc1_fst c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk1_0_apply V c ⟨n, _⟩ r q (by show n * 2000 + r.val < 100000; have := r.isLt; omega), iblk1_1_apply]
      rfl

theorem sacc1_snd (c : Dev nD) (q : Fin 300) : ∀ (n : ℕ) (hn : n ≤ 50),
    (sacc1 V c n).2 (ix2 (0 : Fin 1) q)
      = Ideal.ofBits .f32 0x00000000#32
        + ∑ t : Fin n, ∑ r : Fin 2000,
            Cert.Spec.shifted (xin1 V c) (bin1 V c) (ix2 ⟨t.val * 2000 + r.val, row_lt1 n hn t r⟩ q)
              * Cert.Spec.shifted (xin1 V c) (bin1 V c) (ix2 ⟨t.val * 2000 + r.val, row_lt1 n hn t r⟩ q)
  | 0, _ => by
    rw [sacc1_zero]
    show (k1_pay2 (F := Ideal)) (ix2 (0 : Fin 1) q) = _
    rw [k1_pay2_apply, Finset.univ_eq_empty, Finset.sum_empty, add_zero]
  | n + 1, hn => by
    have hn' : n < 50 := by omega
    rw [sacc1_succ V c n hn']
    refine (k1_pay5_apply (iblk1 V c 0 ⟨n, _⟩) (iblk1 V c 1 ⟨n, _⟩) (sacc1 V c n).2 q).trans ?_
    rw [sacc1_snd c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk1_0_apply V c ⟨n, _⟩ r q (by show n * 2000 + r.val < 100000; have := r.isLt; omega), iblk1_1_apply]
      rfl

theorem sacc1_fst_all (c : Dev nD) (q : Fin 300) :
    (sacc1 V c 50).1 (ix2 (0 : Fin 1) q)
      = Cert.Spec.colSum (Cert.Spec.shifted (xin1 V c) (bin1 V c)) (ix2 (0 : Fin 1) q) := by
  rw [sacc1_fst V c q 50 le_rfl, Ideal.ofBits_zero_f32, zero_add]
  exact (Cert.Lib.sum_blocks_of_eq 50 2000 100000 rfl
    (fun i => Cert.Spec.shifted (xin1 V c) (bin1 V c) (ix2 i q))).symm

theorem sacc1_snd_all (c : Dev nD) (q : Fin 300) :
    (sacc1 V c 50).2 (ix2 (0 : Fin 1) q)
      = Cert.Spec.colSum (fun i => Cert.Spec.shifted (xin1 V c) (bin1 V c) i * Cert.Spec.shifted (xin1 V c) (bin1 V c) i)
          (ix2 (0 : Fin 1) q) := by
  rw [sacc1_snd V c q 50 le_rfl, Ideal.ofBits_zero_f32, zero_add]
  exact (Cert.Lib.sum_blocks_of_eq 50 2000 100000 rfl
    (fun i => Cert.Spec.shifted (xin1 V c) (bin1 V c) (ix2 i q) * Cert.Spec.shifted (xin1 V c) (bin1 V c) (ix2 i q))).symm

theorem mean1_eq (c : Dev nD) :
    k1_pay6 (sacc1 V c 50).1 = Cert.Spec.colMean (xin1 V c) (bin1 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k1_pay6_apply, sacc1_fst_all]
  rfl

theorem var1_eq (c : Dev nD) :
    k1_pay7 (sacc1 V c 50).1 (sacc1 V c 50).2
      = Cert.Spec.colVarK (xin1 V c) (bin1 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k1_pay7_apply, mean1_eq, sacc1_snd_all]
  rfl

end Closed

section Final

variable (V : (c : Dev nD) → (b : Ref sig .tc) → Buf (Elt Ideal) ((c : Thread nD τ).loc b))

abbrev tlast1 : Fin cfg1.N := ⟨49, by decide⟩

theorem origin1_2 : (fun a => win1_2.index tlast1 a * S1x300.size a) = fun _ => 0 := funext fun a => by fin_cases a <;> decide
theorem origin1_3 : (fun a => win1_3.index tlast1 a * S1x300.size a) = fun _ => 0 := funext fun a => by fin_cases a <;> decide

theorem eq_tlast1_2 (t : Fin cfg1.N) (hf : (cfg1.win 2).flush t = true) : t = tlast1 := by
  have hN : cfg1.N = 50 := N_1
  have := (flush1_2 t).mp hf
  have := t.isLt
  exact Fin.ext (by show t.val = 49; omega)
theorem eq_tlast1_3 (t : Fin cfg1.N) (hf : (cfg1.win 3).flush t = true) : t = tlast1 := by
  have hN : cfg1.N = 50 := N_1
  have := (flush1_3 t).mp hf
  have := t.isLt
  exact Fin.ext (by show t.val = 49; omega)

theorem flushed1_2_eq (c : Dev nD) (t : Fin cfg1.N) (hf : (cfg1.win 2).flush t = true) :
    (dat1 V c).flushed 2 t = ((cfg1.win 2).blk t).view.read (Elt Ideal) (k1_pay6 (sacc1 V c 50).1) := by
  obtain rfl := eq_tlast1_2 t hf
  show (cfg1.win 2).cut (grid1.coords tlast1) ((dat1 V c).after 2 tlast1) = _
  rw [after1_2]
  exact (Memref.read_access_unit_zero (Elt Ideal) (Pipeline.arrRef spec1 2) origin1_2 (fun a => by rw [congrFun origin1_2 a]; simp) _).symm
theorem flushed1_3_eq (c : Dev nD) (t : Fin cfg1.N) (hf : (cfg1.win 3).flush t = true) :
    (dat1 V c).flushed 3 t
      = ((cfg1.win 3).blk t).view.read (Elt Ideal) (k1_pay7 (sacc1 V c 50).1 (sacc1 V c 50).2) := by
  obtain rfl := eq_tlast1_3 t hf
  show (cfg1.win 3).cut (grid1.coords tlast1) ((dat1 V c).after 3 tlast1) = _
  rw [after1_3]
  exact (Memref.read_access_unit_zero (Elt Ideal) (Pipeline.arrRef spec1 3) origin1_3 (fun a => by rw [congrFun origin1_3 a]; simp) _).symm

theorem cover1_2 (c : Dev nD) (i : ((cfg1.win 2).arr.view.loc (c.tc : Thread nD τ)).2.ty.Idx) :
    ∃ t : Fin cfg1.N, (cfg1.win 2).flush t = true ∧ i ∈ ((cfg1.win 2).blk t).view.set :=
  ⟨tlast1, (flush1_2 tlast1).mpr rfl, by
    show i ∈ ((View.whole (Pipeline.arrRef spec1 2)).slice (win1_2.rect tlast1)).set
    rw [View.set_slice_whole, Rect.mem_set_unit]
    intro a
    have h0 : (i 0 : Nat) < 1 := (i 0).isLt
    have h1 : (i 1 : Nat) < 300 := (i 1).isLt
    match a with
    | ⟨0, _⟩ =>
      show win1_2.index tlast1 0 * win1_2.size 0 ≤ (i 0 : Nat)
        ∧ (i 0 : Nat) < win1_2.index tlast1 0 * win1_2.size 0 + win1_2.xsize (grid1.coords tlast1) 0
      rw [show win1_2.index tlast1 0 * win1_2.size 0 = 0 from by decide +kernel,
        show win1_2.xsize (grid1.coords tlast1) 0 = 1 from by decide +kernel]
      omega
    | ⟨1, _⟩ =>
      show win1_2.index tlast1 1 * win1_2.size 1 ≤ (i 1 : Nat)
        ∧ (i 1 : Nat) < win1_2.index tlast1 1 * win1_2.size 1 + win1_2.xsize (grid1.coords tlast1) 1
      rw [show win1_2.index tlast1 1 * win1_2.size 1 = 0 from by decide +kernel,
        show win1_2.xsize (grid1.coords tlast1) 1 = 300 from by decide +kernel]
      omega⟩
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set :=
  ⟨tlast1, (flush1_3 tlast1).mpr rfl, by
    show i ∈ ((View.whole (Pipeline.arrRef spec1 3)).slice (win1_3.rect tlast1)).set
    rw [View.set_slice_whole, Rect.mem_set_unit]
    intro a
    have h0 : (i 0 : Nat) < 1 := (i 0).isLt
    have h1 : (i 1 : Nat) < 300 := (i 1).isLt
    match a with
    | ⟨0, _⟩ =>
      show win1_3.index tlast1 0 * win1_3.size 0 ≤ (i 0 : Nat)
        ∧ (i 0 : Nat) < win1_3.index tlast1 0 * win1_3.size 0 + win1_3.xsize (grid1.coords tlast1) 0
      rw [show win1_3.index tlast1 0 * win1_3.size 0 = 0 from by decide +kernel,
        show win1_3.xsize (grid1.coords tlast1) 0 = 1 from by decide +kernel]
      omega
    | ⟨1, _⟩ =>
      show win1_3.index tlast1 1 * win1_3.size 1 ≤ (i 1 : Nat)
        ∧ (i 1 : Nat) < win1_3.index tlast1 1 * win1_3.size 1 + win1_3.xsize (grid1.coords tlast1) 1
      rw [show win1_3.index tlast1 1 * win1_3.size 1 = 0 from by decide +kernel,
        show win1_3.xsize (grid1.coords tlast1) 1 = 300 from by decide +kernel]
      omega⟩

theorem final1_mean (c : Dev nD) :
    (dat1 (F := Ideal) V c).arrAt 2 cfg1.N
      = Cert.Spec.colMean (V c (Pipeline.arrRef spec1 0)) (V c (Pipeline.arrRef spec1 1)) (Ideal.ofBits .f32 0x47C35000#32) :=
  ((dat1 V c).arrAt_eq_of_cover 2 (k1_pay6 (sacc1 V c 50).1) (flushed1_2_eq V c) (cover1_2 c)).trans (mean1_eq V c)

theorem final1_var (c : Dev nD) :
    (dat1 (F := Ideal) V c).arrAt 3 cfg1.N
      = Cert.Spec.colVarK (V c (Pipeline.arrRef spec1 0)) (V c (Pipeline.arrRef spec1 1)) (Ideal.ofBits .f32 0x47C35000#32) :=
  ((dat1 V c).arrAt_eq_of_cover 3 (k1_pay7 (sacc1 V c 50).1 (sacc1 V c 50).2) (flushed1_3_eq V c) (cover1_3 c)).trans
    (var1_eq V c)

end Final

end Cert.KernelIdeal.Val

end
-- ==== Proof.Val.ST4.lean ====
/-
  The value of region 4 of the program at the ideal instance (a float is an extended real, every operation exact):
  what the batch-norm statistics leave in their two one-row output arrays. The body keeps two running rows over
  the 50 row blocks of 2000 rows. After n blocks, column q of the first row holds 0 plus the entries x + bias of
  column q summed over the rows of those blocks, and column q of the second the same sum of their squares: by
  induction on n, one block's lane sum at a time. A sum over 50 blocks of 2000 rows is the sum over the 100000
  rows (index t · 2000 + r is row r of block t), so after the last point the two rows are the column sums S and Q of
  x + bias and of its square. The last point stores S / n and Q / n − (S / n) · (S / n), n the row count as the
  program spells it, into the two outputs. Each output window has one block, the whole array, and is written back
  at the last point only; so the arrays end holding the column means, and the column means of squares less the
  squared column means.
-/
import proofs.«120348_j28252294873367_1_alg».proof.Proof.KI.Reg4
import proofs.«120348_j28252294873367_1_alg».proof.Proof.Spec
import proofs.«120348_j28252294873367_1_alg».proof.Proof.LibVariance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The body's pure values at an index -/

/-- The index a reduction over the row axis inserts: row k of column q. -/
theorem lift4_rows (q : Fin 300) (k : Fin 2000) :
    reduces_S2000x300_S300.lift (ix1 q) k = ix2 k q := by
  funext a
  match a with
  | ⟨0, _⟩ => rfl
  | ⟨1, _⟩ => rfl

/-- The block with the bias row added to every row, at (r, q). -/
theorem k4_pay3_apply (x0 : Vec Ideal S2000x300 .f32) (b0 : Vec Ideal S1x300 .f32) (r : Fin 2000) (q : Fin 300) :
    k4_pay3 x0 b0 (ix2 r q) = x0 (ix2 r q) + b0 (ix2 (0 : Fin 1) q) := by
  unfold k4_pay3
  rw [shapeCast_self, shapeCast_self, addf_apply, broadcastTo_1b_ab_apply]

/-- A lane sum over the rows of a block, with the zero accumulator, at column q. -/
theorem rowsum4_apply (y : FVec Ideal S2000x300 .f32) (hacc : (0x00000000#32 : BitVec 32) = 0x00000000#32) (q : Fin 300) :
    multiReduction (F := Ideal) .add [0] S300 y 0x00000000#32 reduces_S2000x300_S300 (.inl rfl) hacc (ix1 q)
      = ∑ r : Fin 2000, y (ix2 r q) := by
  refine (Ideal.multiReduction_add_single y 0x00000000#32 reduces_S2000x300_S300 (.inl rfl) hacc (ix1 q)).trans ?_
  exact Finset.sum_congr rfl fun k _ => congrArg y (lift4_rows q k)

/-- The running column sums after one more block: what they were plus the block's column sums. -/
theorem k4_pay4_apply (x0 : Vec Ideal S2000x300 .f32) (b0 acc : Vec Ideal S1x300 .f32) (q : Fin 300) :
    k4_pay4 x0 b0 acc (ix2 (0 : Fin 1) q)
      = acc (ix2 (0 : Fin 1) q) + ∑ r : Fin 2000, (x0 (ix2 r q) + b0 (ix2 (0 : Fin 1) q)) := by
  unfold k4_pay4
  rw [shapeCast_self, addf_apply, shapeCast_a_1a_apply, rowsum4_apply]
  exact congrArg _ (Finset.sum_congr rfl fun r _ => k4_pay3_apply x0 b0 r q)

/-- The running column sums of squares after one more block. -/
theorem k4_pay5_apply (x0 : Vec Ideal S2000x300 .f32) (b0 acc : Vec Ideal S1x300 .f32) (q : Fin 300) :
    k4_pay5 x0 b0 acc (ix2 (0 : Fin 1) q)
      = acc (ix2 (0 : Fin 1) q)
        + ∑ r : Fin 2000, (x0 (ix2 r q) + b0 (ix2 (0 : Fin 1) q)) * (x0 (ix2 r q) + b0 (ix2 (0 : Fin 1) q)) := by
  unfold k4_pay5
  rw [shapeCast_self, addf_apply, shapeCast_a_1a_apply, rowsum4_apply]
  exact congrArg _ (Finset.sum_congr rfl fun r _ => by rw [mulf_apply, k4_pay3_apply])

/-- The reset rows are zero rows. -/
theorem k4_pay1_apply (q : Fin 300) : (k4_pay1 (F := Ideal)) (ix2 (0 : Fin 1) q) = Ideal.ofBits .f32 0x00000000#32 := by
  unfold k4_pay1
  rw [shapeCast_self]; rfl
theorem k4_pay2_apply (q : Fin 300) : (k4_pay2 (F := Ideal)) (ix2 (0 : Fin 1) q) = Ideal.ofBits .f32 0x00000000#32 := by
  unfold k4_pay2
  rw [shapeCast_self]; rfl

/-- The mean row: the column sums divided by the row count. -/
theorem k4_pay6_apply (v : Vec Ideal S1x300 .f32) (q : Fin 300) :
    k4_pay6 v (ix2 (0 : Fin 1) q) = Ideal.div (v (ix2 (0 : Fin 1) q)) (Ideal.ofBits .f32 0x47C35000#32) := by
  unfold k4_pay6
  rw [divf_apply]; rfl

/-- The variance row: the column sums of squares divided by the row count, less the squared mean. -/
theorem k4_pay7_apply (v w : Vec Ideal S1x300 .f32) (q : Fin 300) :
    k4_pay7 v w (ix2 (0 : Fin 1) q)
      = Ideal.div (w (ix2 (0 : Fin 1) q)) (Ideal.ofBits .f32 0x47C35000#32)
        - k4_pay6 v (ix2 (0 : Fin 1) q) * k4_pay6 v (ix2 (0 : Fin 1) q) := by
  unfold k4_pay7
  rw [subf_apply, divf_apply, mulf_apply]; rfl

/-! ## The blocks read off the arrays -/

section Blocks

variable (V : (c : Dev nD) → (b : Ref sig .tc) → Buf (Elt Ideal) ((c : Thread nD τ).loc b))

/-- Where the two input windows' blocks sit: the row blocks follow the grid point, the bias row is one block. -/
theorem index4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem index4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)

/-- The entry contents of the two input arrays, at their literal shapes. -/
abbrev xin4 (c : Dev nD) : Cert.Spec.Arr 100000 300 := V c (Pipeline.arrRef spec4 0)
abbrev bin4 (c : Dev nD) : Cert.Spec.Arr 1 300 := V c (Pipeline.arrRef spec4 1)

/-- Row r of the row block at point t is row 2000 · t + r of the array. -/
theorem iblk4_0_apply (c : Dev nD) (t : Fin cfg4.N) (r : Fin 2000) (q : Fin 300) (h : t.val * 2000 + r.val < 100000) :
    (iblk4 V c 0 t : Vec Ideal S2000x300 .f32) (ix2 r q) = xin4 V c (ix2 ⟨t.val * 2000 + r.val, h⟩ q) := by
  unfold iblk4
  rw [View.read_apply]
  show V c (Pipeline.arrRef spec4 0) _ = V c (Pipeline.arrRef spec4 0) _
  congr 1
  funext a
  apply Fin.ext
  match a with
  | ⟨0, _⟩ => show win4_0.index t 0 * 2000 + 1 * r.val = t.val * 2000 + r.val; rw [(index4_0 t).1]; omega
  | ⟨1, _⟩ => show win4_0.index t 1 * 300 + 1 * q.val = q.val; rw [(index4_0 t).2]; omega

/-- The bias window's block is the bias row at every point. -/
theorem iblk4_1_apply (c : Dev nD) (t : Fin cfg4.N) (q : Fin 300) :
    (iblk4 V c 1 t : Vec Ideal S1x300 .f32) (ix2 (0 : Fin 1) q) = bin4 V c (ix2 (0 : Fin 1) q) := by
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [(index4_1 t).1]
  | ⟨1, _⟩ => show win4_1.index t 1 * 300 + 1 * q.val = q.val; rw [(index4_1 t).2]; omega

end Blocks

/-! ## The running rows in closed form -/

section Closed

variable (V : (c : Dev nD) → (b : Ref sig .tc) → Buf (Elt Ideal) ((c : Thread nD τ).loc b))

/-- Row r of one of the first n ≤ 50 blocks is a row of the array. -/
theorem row_lt4 (n : ℕ) (hn : n ≤ 50) (t : Fin n) (r : Fin 2000) : t.val * 2000 + r.val < 100000 := by
  have := t.isLt; have := r.isLt; omega

/-- After n ≤ 50 points the first running row holds, in column q, zero plus the entries of x + bias of that
    column over the rows of the first n blocks, block by block. -/
theorem sacc4_fst (c : Dev nD) (q : Fin 300) : ∀ (n : ℕ) (hn : n ≤ 50),
    (sacc4 V c n).1 (ix2 (0 : Fin 1) q)
      = Ideal.ofBits .f32 0x00000000#32
        + ∑ t : Fin n, ∑ r : Fin 2000,
            Cert.Spec.shifted (xin4 V c) (bin4 V c) (ix2 ⟨t.val * 2000 + r.val, row_lt4 n hn t r⟩ q)
  | 0, _ => by
    rw [sacc4_zero]
    show (k4_pay1 (F := Ideal)) (ix2 (0 : Fin 1) q) = _
    rw [k4_pay1_apply, Finset.univ_eq_empty, Finset.sum_empty, add_zero]
  | n + 1, hn => by
    have hn' : n < 50 := by omega
    rw [sacc4_succ V c n hn']
    refine (k4_pay4_apply (iblk4 V c 0 ⟨n, _⟩) (iblk4 V c 1 ⟨n, _⟩) (sacc4 V c n).1 q).trans ?_
    rw [sacc4_fst c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk4_0_apply V c ⟨n, _⟩ r q (by show n * 2000 + r.val < 100000; have := r.isLt; omega), iblk4_1_apply]
      rfl

/-- The second running row likewise, with the squares of those entries. -/
theorem sacc4_snd (c : Dev nD) (q : Fin 300) : ∀ (n : ℕ) (hn : n ≤ 50),
    (sacc4 V c n).2 (ix2 (0 : Fin 1) q)
      = Ideal.ofBits .f32 0x00000000#32
        + ∑ t : Fin n, ∑ r : Fin 2000,
            Cert.Spec.shifted (xin4 V c) (bin4 V c) (ix2 ⟨t.val * 2000 + r.val, row_lt4 n hn t r⟩ q)
              * Cert.Spec.shifted (xin4 V c) (bin4 V c) (ix2 ⟨t.val * 2000 + r.val, row_lt4 n hn t r⟩ q)
  | 0, _ => by
    rw [sacc4_zero]
    show (k4_pay2 (F := Ideal)) (ix2 (0 : Fin 1) q) = _
    rw [k4_pay2_apply, Finset.univ_eq_empty, Finset.sum_empty, add_zero]
  | n + 1, hn => by
    have hn' : n < 50 := by omega
    rw [sacc4_succ V c n hn']
    refine (k4_pay5_apply (iblk4 V c 0 ⟨n, _⟩) (iblk4 V c 1 ⟨n, _⟩) (sacc4 V c n).2 q).trans ?_
    rw [sacc4_snd c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk4_0_apply V c ⟨n, _⟩ r q (by show n * 2000 + r.val < 100000; have := r.isLt; omega), iblk4_1_apply]
      rfl

/-- After all 50 points the first running row is the column sums of x + bias over the 100000 rows, -/
theorem sacc4_fst_all (c : Dev nD) (q : Fin 300) :
    (sacc4 V c 50).1 (ix2 (0 : Fin 1) q)
      = Cert.Spec.colSum (Cert.Spec.shifted (xin4 V c) (bin4 V c)) (ix2 (0 : Fin 1) q) := by
  rw [sacc4_fst V c q 50 le_rfl, Ideal.ofBits_zero_f32, zero_add]
  exact (Cert.Lib.sum_blocks_of_eq 50 2000 100000 rfl
    (fun i => Cert.Spec.shifted (xin4 V c) (bin4 V c) (ix2 i q))).symm

/-- and the second the column sums of its squares. -/
theorem sacc4_snd_all (c : Dev nD) (q : Fin 300) :
    (sacc4 V c 50).2 (ix2 (0 : Fin 1) q)
      = Cert.Spec.colSum (fun i => Cert.Spec.shifted (xin4 V c) (bin4 V c) i * Cert.Spec.shifted (xin4 V c) (bin4 V c) i)
          (ix2 (0 : Fin 1) q) := by
  rw [sacc4_snd V c q 50 le_rfl, Ideal.ofBits_zero_f32, zero_add]
  exact (Cert.Lib.sum_blocks_of_eq 50 2000 100000 rfl
    (fun i => Cert.Spec.shifted (xin4 V c) (bin4 V c) (ix2 i q) * Cert.Spec.shifted (xin4 V c) (bin4 V c) (ix2 i q))).symm

/-! ## The two output rows -/

/-- The row the last point stores into the first output: the column means. -/
theorem mean4_eq (c : Dev nD) :
    k4_pay6 (sacc4 V c 50).1 = Cert.Spec.colMean (xin4 V c) (bin4 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k4_pay6_apply, sacc4_fst_all]
  rfl

/-- The row it stores into the second: the column means of squares less the squared column means. -/
theorem var4_eq (c : Dev nD) :
    k4_pay7 (sacc4 V c 50).1 (sacc4 V c 50).2
      = Cert.Spec.colVarK (xin4 V c) (bin4 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k4_pay7_apply, mean4_eq, sacc4_snd_all]
  rfl

end Closed

/-! ## From the one write-back to the arrays -/

section Final

variable (V : (c : Dev nD) → (b : Ref sig .tc) → Buf (Elt Ideal) ((c : Thread nD τ).loc b))

/-- The last point of the grid. -/
abbrev tlast4 : Fin cfg4.N := ⟨49, by decide⟩

/-- The output windows' one block sits at the arrays' origin. -/
theorem origin4_2 : (fun a => win4_2.index tlast4 a * S1x300.size a) = fun _ => 0 := funext fun a => by fin_cases a <;> decide
theorem origin4_3 : (fun a => win4_3.index tlast4 a * S1x300.size a) = fun _ => 0 := funext fun a => by fin_cases a <;> decide

/-- Only the last point writes an output window back. -/
theorem eq_tlast4_2 (t : Fin cfg4.N) (hf : (cfg4.win 2).flush t = true) : t = tlast4 := by
  have hN : cfg4.N = 50 := N_4
  have := (flush4_2 t).mp hf
  have := t.isLt
  exact Fin.ext (by show t.val = 49; omega)
theorem eq_tlast4_3 (t : Fin cfg4.N) (hf : (cfg4.win 3).flush t = true) : t = tlast4 := by
  have hN : cfg4.N = 50 := N_4
  have := (flush4_3 t).mp hf
  have := t.isLt
  exact Fin.ext (by show t.val = 49; omega)

/-- What that write-back writes into the first output is the whole row the body stored: the block is the array. -/
theorem flushed4_2_eq (c : Dev nD) (t : Fin cfg4.N) (hf : (cfg4.win 2).flush t = true) :
    (dat4 V c).flushed 2 t = ((cfg4.win 2).blk t).view.read (Elt Ideal) (k4_pay6 (sacc4 V c 50).1) := by
  obtain rfl := eq_tlast4_2 t hf
  show (cfg4.win 2).cut (grid4.coords tlast4) ((dat4 V c).after 2 tlast4) = _
  rw [after4_2]
  exact (Memref.read_access_unit_zero (Elt Ideal) (Pipeline.arrRef spec4 2) origin4_2 (fun a => by rw [congrFun origin4_2 a]; simp) _).symm
theorem flushed4_3_eq (c : Dev nD) (t : Fin cfg4.N) (hf : (cfg4.win 3).flush t = true) :
    (dat4 V c).flushed 3 t
      = ((cfg4.win 3).blk t).view.read (Elt Ideal) (k4_pay7 (sacc4 V c 50).1 (sacc4 V c 50).2) := by
  obtain rfl := eq_tlast4_3 t hf
  show (cfg4.win 3).cut (grid4.coords tlast4) ((dat4 V c).after 3 tlast4) = _
  rw [after4_3]
  exact (Memref.read_access_unit_zero (Elt Ideal) (Pipeline.arrRef spec4 3) origin4_3 (fun a => by rw [congrFun origin4_3 a]; simp) _).symm

/-- Every entry of a one-row output lies in the block the last point writes back. -/
theorem cover4_2 (c : Dev nD) (i : ((cfg4.win 2).arr.view.loc (c.tc : Thread nD τ)).2.ty.Idx) :
    ∃ t : Fin cfg4.N, (cfg4.win 2).flush t = true ∧ i ∈ ((cfg4.win 2).blk t).view.set :=
  ⟨tlast4, (flush4_2 tlast4).mpr rfl, by
    show i ∈ ((View.whole (Pipeline.arrRef spec4 2)).slice (win4_2.rect tlast4)).set
    rw [View.set_slice_whole, Rect.mem_set_unit]
    intro a
    have h0 : (i 0 : Nat) < 1 := (i 0).isLt
    have h1 : (i 1 : Nat) < 300 := (i 1).isLt
    match a with
    | ⟨0, _⟩ =>
      show win4_2.index tlast4 0 * win4_2.size 0 ≤ (i 0 : Nat)
        ∧ (i 0 : Nat) < win4_2.index tlast4 0 * win4_2.size 0 + win4_2.xsize (grid4.coords tlast4) 0
      rw [show win4_2.index tlast4 0 * win4_2.size 0 = 0 from by decide +kernel,
        show win4_2.xsize (grid4.coords tlast4) 0 = 1 from by decide +kernel]
      omega
    | ⟨1, _⟩ =>
      show win4_2.index tlast4 1 * win4_2.size 1 ≤ (i 1 : Nat)
        ∧ (i 1 : Nat) < win4_2.index tlast4 1 * win4_2.size 1 + win4_2.xsize (grid4.coords tlast4) 1
      rw [show win4_2.index tlast4 1 * win4_2.size 1 = 0 from by decide +kernel,
        show win4_2.xsize (grid4.coords tlast4) 1 = 300 from by decide +kernel]
      omega⟩
theorem cover4_3 (c : Dev nD) (i : ((cfg4.win 3).arr.view.loc (c.tc : Thread nD τ)).2.ty.Idx) :
    ∃ t : Fin cfg4.N, (cfg4.win 3).flush t = true ∧ i ∈ ((cfg4.win 3).blk t).view.set :=
  ⟨tlast4, (flush4_3 tlast4).mpr rfl, by
    show i ∈ ((View.whole (Pipeline.arrRef spec4 3)).slice (win4_3.rect tlast4)).set
    rw [View.set_slice_whole, Rect.mem_set_unit]
    intro a
    have h0 : (i 0 : Nat) < 1 := (i 0).isLt
    have h1 : (i 1 : Nat) < 300 := (i 1).isLt
    match a with
    | ⟨0, _⟩ =>
      show win4_3.index tlast4 0 * win4_3.size 0 ≤ (i 0 : Nat)
        ∧ (i 0 : Nat) < win4_3.index tlast4 0 * win4_3.size 0 + win4_3.xsize (grid4.coords tlast4) 0
      rw [show win4_3.index tlast4 0 * win4_3.size 0 = 0 from by decide +kernel,
        show win4_3.xsize (grid4.coords tlast4) 0 = 1 from by decide +kernel]
      omega
    | ⟨1, _⟩ =>
      show win4_3.index tlast4 1 * win4_3.size 1 ≤ (i 1 : Nat)
        ∧ (i 1 : Nat) < win4_3.index tlast4 1 * win4_3.size 1 + win4_3.xsize (grid4.coords tlast4) 1
      rw [show win4_3.index tlast4 1 * win4_3.size 1 = 0 from by decide +kernel,
        show win4_3.xsize (grid4.coords tlast4) 1 = 300 from by decide +kernel]
      omega⟩

/-- After the region the first output array holds the column means of x + bias over the 100000 rows, -/
theorem final4_mean (c : Dev nD) :
    (dat4 (F := Ideal) V c).arrAt 2 cfg4.N
      = Cert.Spec.colMean (V c (Pipeline.arrRef spec4 0)) (V c (Pipeline.arrRef spec4 1)) (Ideal.ofBits .f32 0x47C35000#32) :=
  ((dat4 V c).arrAt_eq_of_cover 2 (k4_pay6 (sacc4 V c 50).1) (flushed4_2_eq V c) (cover4_2 c)).trans (mean4_eq V c)

/-- and the second the column means of its squares less the squared column means. -/
theorem final4_var (c : Dev nD) :
    (dat4 (F := Ideal) V c).arrAt 3 cfg4.N
      = Cert.Spec.colVarK (V c (Pipeline.arrRef spec4 0)) (V c (Pipeline.arrRef spec4 1)) (Ideal.ofBits .f32 0x47C35000#32) :=
  ((dat4 V c).arrAt_eq_of_cover 3 (k4_pay7 (sacc4 V c 50).1 (sacc4 V c 50).2) (flushed4_3_eq V c) (cover4_3 c)).trans
    (var4_eq V c)

end Final

end Cert.KernelIdeal.Val

end
-- ==== Proof.Val.ST7.lean ====
/-
  The value of region 7 of the program at the ideal instance (a float is an extended real, every operation exact):
  what the batch-norm statistics leave in their two one-row output arrays. The body keeps two running rows over
  the 50 row blocks of 2000 rows. After n blocks, column q of the first row holds 0 plus the entries x + bias of
  column q summed over the rows of those blocks, and column q of the second the same sum of their squares: by
  induction on n, one block's lane sum at a time. A sum over 50 blocks of 2000 rows is the sum over the 100000
  rows (index t · 2000 + r is row r of block t), so after the last point the two rows are the column sums S and Q of
  x + bias and of its square. The last point stores S / n and Q / n − (S / n) · (S / n), n the row count as the
  program spells it, into the two outputs. Each output window has one block, the whole array, and is written back
  at the last point only; so the arrays end holding the column means, and the column means of squares less the
  squared column means.
-/
import proofs.«120348_j28252294873367_1_alg».proof.Proof.KI.Reg7
import proofs.«120348_j28252294873367_1_alg».proof.Proof.Spec
import proofs.«120348_j28252294873367_1_alg».proof.Proof.LibVariance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The body's pure values at an index -/

/-- The index a reduction over the row axis inserts: row k of column q. -/
theorem lift7_rows (q : Fin 300) (k : Fin 2000) :
    reduces_S2000x300_S300.lift (ix1 q) k = ix2 k q := by
  funext a
  match a with
  | ⟨0, _⟩ => rfl
  | ⟨1, _⟩ => rfl

/-- The block with the bias row added to every row, at (r, q). -/
theorem k7_pay3_apply (x0 : Vec Ideal S2000x300 .f32) (b0 : Vec Ideal S1x300 .f32) (r : Fin 2000) (q : Fin 300) :
    k7_pay3 x0 b0 (ix2 r q) = x0 (ix2 r q) + b0 (ix2 (0 : Fin 1) q) := by
  unfold k7_pay3
  rw [shapeCast_self, shapeCast_self, addf_apply, broadcastTo_1b_ab_apply]

/-- A lane sum over the rows of a block, with the zero accumulator, at column q. -/
theorem rowsum7_apply (y : FVec Ideal S2000x300 .f32) (hacc : (0x00000000#32 : BitVec 32) = 0x00000000#32) (q : Fin 300) :
    multiReduction (F := Ideal) .add [0] S300 y 0x00000000#32 reduces_S2000x300_S300 (.inl rfl) hacc (ix1 q)
      = ∑ r : Fin 2000, y (ix2 r q) := by
  refine (Ideal.multiReduction_add_single y 0x00000000#32 reduces_S2000x300_S300 (.inl rfl) hacc (ix1 q)).trans ?_
  exact Finset.sum_congr rfl fun k _ => congrArg y (lift7_rows q k)

/-- The running column sums after one more block: what they were plus the block's column sums. -/
theorem k7_pay4_apply (x0 : Vec Ideal S2000x300 .f32) (b0 acc : Vec Ideal S1x300 .f32) (q : Fin 300) :
    k7_pay4 x0 b0 acc (ix2 (0 : Fin 1) q)
      = acc (ix2 (0 : Fin 1) q) + ∑ r : Fin 2000, (x0 (ix2 r q) + b0 (ix2 (0 : Fin 1) q)) := by
  unfold k7_pay4
  rw [shapeCast_self, addf_apply, shapeCast_a_1a_apply, rowsum7_apply]
  exact congrArg _ (Finset.sum_congr rfl fun r _ => k7_pay3_apply x0 b0 r q)

/-- The running column sums of squares after one more block. -/
theorem k7_pay5_apply (x0 : Vec Ideal S2000x300 .f32) (b0 acc : Vec Ideal S1x300 .f32) (q : Fin 300) :
    k7_pay5 x0 b0 acc (ix2 (0 : Fin 1) q)
      = acc (ix2 (0 : Fin 1) q)
        + ∑ r : Fin 2000, (x0 (ix2 r q) + b0 (ix2 (0 : Fin 1) q)) * (x0 (ix2 r q) + b0 (ix2 (0 : Fin 1) q)) := by
  unfold k7_pay5
  rw [shapeCast_self, addf_apply, shapeCast_a_1a_apply, rowsum7_apply]
  exact congrArg _ (Finset.sum_congr rfl fun r _ => by rw [mulf_apply, k7_pay3_apply])

/-- The reset rows are zero rows. -/
theorem k7_pay1_apply (q : Fin 300) : (k7_pay1 (F := Ideal)) (ix2 (0 : Fin 1) q) = Ideal.ofBits .f32 0x00000000#32 := by
  unfold k7_pay1
  rw [shapeCast_self]; rfl
theorem k7_pay2_apply (q : Fin 300) : (k7_pay2 (F := Ideal)) (ix2 (0 : Fin 1) q) = Ideal.ofBits .f32 0x00000000#32 := by
  unfold k7_pay2
  rw [shapeCast_self]; rfl

/-- The mean row: the column sums divided by the row count. -/
theorem k7_pay6_apply (v : Vec Ideal S1x300 .f32) (q : Fin 300) :
    k7_pay6 v (ix2 (0 : Fin 1) q) = Ideal.div (v (ix2 (0 : Fin 1) q)) (Ideal.ofBits .f32 0x47C35000#32) := by
  unfold k7_pay6
  rw [divf_apply]; rfl

/-- The variance row: the column sums of squares divided by the row count, less the squared mean. -/
theorem k7_pay7_apply (v w : Vec Ideal S1x300 .f32) (q : Fin 300) :
    k7_pay7 v w (ix2 (0 : Fin 1) q)
      = Ideal.div (w (ix2 (0 : Fin 1) q)) (Ideal.ofBits .f32 0x47C35000#32)
        - k7_pay6 v (ix2 (0 : Fin 1) q) * k7_pay6 v (ix2 (0 : Fin 1) q) := by
  unfold k7_pay7
  rw [subf_apply, divf_apply, mulf_apply]; rfl

/-! ## The blocks read off the arrays -/

section Blocks

variable (V : (c : Dev nD) → (b : Ref sig .tc) → Buf (Elt Ideal) ((c : Thread nD τ).loc b))

/-- Where the two input windows' blocks sit: the row blocks follow the grid point, the bias row is one block. -/
theorem index7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)
theorem index7_1 : ∀ t : Fin cfg7.N, win7_1.index t (0 : Fin 2) = 0 ∧ win7_1.index t (1 : Fin 2) = 0 :=
  (by decide +kernel : ∀ t : Fin grid7.N, win7_1.index t (0 : Fin 2) = 0 ∧ win7_1.index t (1 : Fin 2) = 0)

/-- The entry contents of the two input arrays, at their literal shapes. -/
abbrev xin7 (c : Dev nD) : Cert.Spec.Arr 100000 300 := V c (Pipeline.arrRef spec7 0)
abbrev bin7 (c : Dev nD) : Cert.Spec.Arr 1 300 := V c (Pipeline.arrRef spec7 1)

/-- Row r of the row block at point t is row 2000 · t + r of the array. -/
theorem iblk7_0_apply (c : Dev nD) (t : Fin cfg7.N) (r : Fin 2000) (q : Fin 300) (h : t.val * 2000 + r.val < 100000) :
    (iblk7 V c 0 t : Vec Ideal S2000x300 .f32) (ix2 r q) = xin7 V c (ix2 ⟨t.val * 2000 + r.val, h⟩ q) := by
  unfold iblk7
  rw [View.read_apply]
  show V c (Pipeline.arrRef spec7 0) _ = V c (Pipeline.arrRef spec7 0) _
  congr 1
  funext a
  apply Fin.ext
  match a with
  | ⟨0, _⟩ => show win7_0.index t 0 * 2000 + 1 * r.val = t.val * 2000 + r.val; rw [(index7_0 t).1]; omega
  | ⟨1, _⟩ => show win7_0.index t 1 * 300 + 1 * q.val = q.val; rw [(index7_0 t).2]; omega

/-- The bias window's block is the bias row at every point. -/
theorem iblk7_1_apply (c : Dev nD) (t : Fin cfg7.N) (q : Fin 300) :
    (iblk7 V c 1 t : Vec Ideal S1x300 .f32) (ix2 (0 : Fin 1) q) = bin7 V c (ix2 (0 : Fin 1) q) := by
  unfold iblk7
  rw [View.read_apply]
  show V c (Pipeline.arrRef spec7 1) _ = V c (Pipeline.arrRef spec7 1) _
  congr 1
  funext a
  apply Fin.ext
  match a with
  | ⟨0, _⟩ => show win7_1.index t 0 * 1 + 1 * 0 = 0; rw [(index7_1 t).1]
  | ⟨1, _⟩ => show win7_1.index t 1 * 300 + 1 * q.val = q.val; rw [(index7_1 t).2]; omega

end Blocks

/-! ## The running rows in closed form -/

section Closed

variable (V : (c : Dev nD) → (b : Ref sig .tc) → Buf (Elt Ideal) ((c : Thread nD τ).loc b))

/-- Row r of one of the first n ≤ 50 blocks is a row of the array. -/
theorem row_lt7 (n : ℕ) (hn : n ≤ 50) (t : Fin n) (r : Fin 2000) : t.val * 2000 + r.val < 100000 := by
  have := t.isLt; have := r.isLt; omega

/-- After n ≤ 50 points the first running row holds, in column q, zero plus the entries of x + bias of that
    column over the rows of the first n blocks, block by block. -/
theorem sacc7_fst (c : Dev nD) (q : Fin 300) : ∀ (n : ℕ) (hn : n ≤ 50),
    (sacc7 V c n).1 (ix2 (0 : Fin 1) q)
      = Ideal.ofBits .f32 0x00000000#32
        + ∑ t : Fin n, ∑ r : Fin 2000,
            Cert.Spec.shifted (xin7 V c) (bin7 V c) (ix2 ⟨t.val * 2000 + r.val, row_lt7 n hn t r⟩ q)
  | 0, _ => by
    rw [sacc7_zero]
    show (k7_pay1 (F := Ideal)) (ix2 (0 : Fin 1) q) = _
    rw [k7_pay1_apply, Finset.univ_eq_empty, Finset.sum_empty, add_zero]
  | n + 1, hn => by
    have hn' : n < 50 := by omega
    rw [sacc7_succ V c n hn']
    refine (k7_pay4_apply (iblk7 V c 0 ⟨n, _⟩) (iblk7 V c 1 ⟨n, _⟩) (sacc7 V c n).1 q).trans ?_
    rw [sacc7_fst c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk7_0_apply V c ⟨n, _⟩ r q (by show n * 2000 + r.val < 100000; have := r.isLt; omega), iblk7_1_apply]
      rfl

/-- The second running row likewise, with the squares of those entries. -/
theorem sacc7_snd (c : Dev nD) (q : Fin 300) : ∀ (n : ℕ) (hn : n ≤ 50),
    (sacc7 V c n).2 (ix2 (0 : Fin 1) q)
      = Ideal.ofBits .f32 0x00000000#32
        + ∑ t : Fin n, ∑ r : Fin 2000,
            Cert.Spec.shifted (xin7 V c) (bin7 V c) (ix2 ⟨t.val * 2000 + r.val, row_lt7 n hn t r⟩ q)
              * Cert.Spec.shifted (xin7 V c) (bin7 V c) (ix2 ⟨t.val * 2000 + r.val, row_lt7 n hn t r⟩ q)
  | 0, _ => by
    rw [sacc7_zero]
    show (k7_pay2 (F := Ideal)) (ix2 (0 : Fin 1) q) = _
    rw [k7_pay2_apply, Finset.univ_eq_empty, Finset.sum_empty, add_zero]
  | n + 1, hn => by
    have hn' : n < 50 := by omega
    rw [sacc7_succ V c n hn']
    refine (k7_pay5_apply (iblk7 V c 0 ⟨n, _⟩) (iblk7 V c 1 ⟨n, _⟩) (sacc7 V c n).2 q).trans ?_
    rw [sacc7_snd c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk7_0_apply V c ⟨n, _⟩ r q (by show n * 2000 + r.val < 100000; have := r.isLt; omega), iblk7_1_apply]
      rfl

/-- After all 50 points the first running row is the column sums of x + bias over the 100000 rows, -/
theorem sacc7_fst_all (c : Dev nD) (q : Fin 300) :
    (sacc7 V c 50).1 (ix2 (0 : Fin 1) q)
      = Cert.Spec.colSum (Cert.Spec.shifted (xin7 V c) (bin7 V c)) (ix2 (0 : Fin 1) q) := by
  rw [sacc7_fst V c q 50 le_rfl, Ideal.ofBits_zero_f32, zero_add]
  exact (Cert.Lib.sum_blocks_of_eq 50 2000 100000 rfl
    (fun i => Cert.Spec.shifted (xin7 V c) (bin7 V c) (ix2 i q))).symm

/-- and the second the column sums of its squares. -/
theorem sacc7_snd_all (c : Dev nD) (q : Fin 300) :
    (sacc7 V c 50).2 (ix2 (0 : Fin 1) q)
      = Cert.Spec.colSum (fun i => Cert.Spec.shifted (xin7 V c) (bin7 V c) i * Cert.Spec.shifted (xin7 V c) (bin7 V c) i)
          (ix2 (0 : Fin 1) q) := by
  rw [sacc7_snd V c q 50 le_rfl, Ideal.ofBits_zero_f32, zero_add]
  exact (Cert.Lib.sum_blocks_of_eq 50 2000 100000 rfl
    (fun i => Cert.Spec.shifted (xin7 V c) (bin7 V c) (ix2 i q) * Cert.Spec.shifted (xin7 V c) (bin7 V c) (ix2 i q))).symm

/-! ## The two output rows -/

/-- The row the last point stores into the first output: the column means. -/
theorem mean7_eq (c : Dev nD) :
    k7_pay6 (sacc7 V c 50).1 = Cert.Spec.colMean (xin7 V c) (bin7 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k7_pay6_apply, sacc7_fst_all]
  rfl

/-- The row it stores into the second: the column means of squares less the squared column means. -/
theorem var7_eq (c : Dev nD) :
    k7_pay7 (sacc7 V c 50).1 (sacc7 V c 50).2
      = Cert.Spec.colVarK (xin7 V c) (bin7 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k7_pay7_apply, mean7_eq, sacc7_snd_all]
  rfl

end Closed

/-! ## From the one write-back to the arrays -/

section Final

variable (V : (c : Dev nD) → (b : Ref sig .tc) → Buf (Elt Ideal) ((c : Thread nD τ).loc b))

/-- The last point of the grid. -/
abbrev tlast7 : Fin cfg7.N := ⟨49, by decide⟩

/-- The output windows' one block sits at the arrays' origin. -/
theorem origin7_2 : (fun a => win7_2.index tlast7 a * S1x300.size a) = fun _ => 0 := funext fun a => by fin_cases a <;> decide
theorem origin7_3 : (fun a => win7_3.index tlast7 a * S1x300.size a) = fun _ => 0 := funext fun a => by fin_cases a <;> decide

/-- Only the last point writes an output window back. -/
theorem eq_tlast7_2 (t : Fin cfg7.N) (hf : (cfg7.win 2).flush t = true) : t = tlast7 := by
  have hN : cfg7.N = 50 := N_7
  have := (flush7_2 t).mp hf
  have := t.isLt
  exact Fin.ext (by show t.val = 49; omega)
theorem eq_tlast7_3 (t : Fin cfg7.N) (hf : (cfg7.win 3).flush t = true) : t = tlast7 := by
  have hN : cfg7.N = 50 := N_7
  have := (flush7_3 t).mp hf
  have := t.isLt
  exact Fin.ext (by show t.val = 49; omega)

/-- What that write-back writes into the first output is the whole row the body stored: the block is the array. -/
theorem flushed7_2_eq (c : Dev nD) (t : Fin cfg7.N) (hf : (cfg7.win 2).flush t = true) :
    (dat7 V c).flushed 2 t = ((cfg7.win 2).blk t).view.read (Elt Ideal) (k7_pay6 (sacc7 V c 50).1) := by
  obtain rfl := eq_tlast7_2 t hf
  show (cfg7.win 2).cut (grid7.coords tlast7) ((dat7 V c).after 2 tlast7) = _
  rw [after7_2]
  exact (Memref.read_access_unit_zero (Elt Ideal) (Pipeline.arrRef spec7 2) origin7_2 (fun a => by rw [congrFun origin7_2 a]; simp) _).symm
theorem flushed7_3_eq (c : Dev nD) (t : Fin cfg7.N) (hf : (cfg7.win 3).flush t = true) :
    (dat7 V c).flushed 3 t
      = ((cfg7.win 3).blk t).view.read (Elt Ideal) (k7_pay7 (sacc7 V c 50).1 (sacc7 V c 50).2) := by
  obtain rfl := eq_tlast7_3 t hf
  show (cfg7.win 3).cut (grid7.coords tlast7) ((dat7 V c).after 3 tlast7) = _
  rw [after7_3]
  exact (Memref.read_access_unit_zero (Elt Ideal) (Pipeline.arrRef spec7 3) origin7_3 (fun a => by rw [congrFun origin7_3 a]; simp) _).symm

/-- Every entry of a one-row output lies in the block the last point writes back. -/
theorem cover7_2 (c : Dev nD) (i : ((cfg7.win 2).arr.view.loc (c.tc : Thread nD τ)).2.ty.Idx) :
    ∃ t : Fin cfg7.N, (cfg7.win 2).flush t = true ∧ i ∈ ((cfg7.win 2).blk t).view.set :=
  ⟨tlast7, (flush7_2 tlast7).mpr rfl, by
    show i ∈ ((View.whole (Pipeline.arrRef spec7 2)).slice (win7_2.rect tlast7)).set
    rw [View.set_slice_whole, Rect.mem_set_unit]
    intro a
    have h0 : (i 0 : Nat) < 1 := (i 0).isLt
    have h1 : (i 1 : Nat) < 300 := (i 1).isLt
    match a with
    | ⟨0, _⟩ =>
      show win7_2.index tlast7 0 * win7_2.size 0 ≤ (i 0 : Nat)
        ∧ (i 0 : Nat) < win7_2.index tlast7 0 * win7_2.size 0 + win7_2.xsize (grid7.coords tlast7) 0
      rw [show win7_2.index tlast7 0 * win7_2.size 0 = 0 from by decide +kernel,
        show win7_2.xsize (grid7.coords tlast7) 0 = 1 from by decide +kernel]
      omega
    | ⟨1, _⟩ =>
      show win7_2.index tlast7 1 * win7_2.size 1 ≤ (i 1 : Nat)
        ∧ (i 1 : Nat) < win7_2.index tlast7 1 * win7_2.size 1 + win7_2.xsize (grid7.coords tlast7) 1
      rw [show win7_2.index tlast7 1 * win7_2.size 1 = 0 from by decide +kernel,
        show win7_2.xsize (grid7.coords tlast7) 1 = 300 from by decide +kernel]
      omega⟩
theorem cover7_3 (c : Dev nD) (i : ((cfg7.win 3).arr.view.loc (c.tc : Thread nD τ)).2.ty.Idx) :
    ∃ t : Fin cfg7.N, (cfg7.win 3).flush t = true ∧ i ∈ ((cfg7.win 3).blk t).view.set :=
  ⟨tlast7, (flush7_3 tlast7).mpr rfl, by
    show i ∈ ((View.whole (Pipeline.arrRef spec7 3)).slice (win7_3.rect tlast7)).set
    rw [View.set_slice_whole, Rect.mem_set_unit]
    intro a
    have h0 : (i 0 : Nat) < 1 := (i 0).isLt
    have h1 : (i 1 : Nat) < 300 := (i 1).isLt
    match a with
    | ⟨0, _⟩ =>
      show win7_3.index tlast7 0 * win7_3.size 0 ≤ (i 0 : Nat)
        ∧ (i 0 : Nat) < win7_3.index tlast7 0 * win7_3.size 0 + win7_3.xsize (grid7.coords tlast7) 0
      rw [show win7_3.index tlast7 0 * win7_3.size 0 = 0 from by decide +kernel,
        show win7_3.xsize (grid7.coords tlast7) 0 = 1 from by decide +kernel]
      omega
    | ⟨1, _⟩ =>
      show win7_3.index tlast7 1 * win7_3.size 1 ≤ (i 1 : Nat)
        ∧ (i 1 : Nat) < win7_3.index tlast7 1 * win7_3.size 1 + win7_3.xsize (grid7.coords tlast7) 1
      rw [show win7_3.index tlast7 1 * win7_3.size 1 = 0 from by decide +kernel,
        show win7_3.xsize (grid7.coords tlast7) 1 = 300 from by decide +kernel]
      omega⟩

/-- After the region the first output array holds the column means of x + bias over the 100000 rows, -/
theorem final7_mean (c : Dev nD) :
    (dat7 (F := Ideal) V c).arrAt 2 cfg7.N
      = Cert.Spec.colMean (V c (Pipeline.arrRef spec7 0)) (V c (Pipeline.arrRef spec7 1)) (Ideal.ofBits .f32 0x47C35000#32) :=
  ((dat7 V c).arrAt_eq_of_cover 2 (k7_pay6 (sacc7 V c 50).1) (flushed7_2_eq V c) (cover7_2 c)).trans (mean7_eq V c)

/-- and the second the column means of its squares less the squared column means. -/
theorem final7_var (c : Dev nD) :
    (dat7 (F := Ideal) V c).arrAt 3 cfg7.N
      = Cert.Spec.colVarK (V c (Pipeline.arrRef spec7 0)) (V c (Pipeline.arrRef spec7 1)) (Ideal.ofBits .f32 0x47C35000#32) :=
  ((dat7 V c).arrAt_eq_of_cover 3 (k7_pay7 (sacc7 V c 50).1 (sacc7 V c 50).2) (flushed7_3_eq V c) (cover7_3 c)).trans
    (var7_eq V c)

end Final

end Cert.KernelIdeal.Val

end
-- ==== Proof.Val.ST10.lean ====
/-
  The value of region 10 of the program at the ideal instance (a float is an extended real, every operation exact):
  what the batch-norm statistics leave in their two one-row output arrays. The body keeps two running rows over
  the 50 row blocks of 2000 rows. After n blocks, column q of the first row holds 0 plus the entries x + bias of
  column q summed over the rows of those blocks, and column q of the second the same sum of their squares: by
  induction on n, one block's lane sum at a time. A sum over 50 blocks of 2000 rows is the sum over the 100000
  rows (index t · 2000 + r is row r of block t), so after the last point the two rows are the column sums S and Q of
  x + bias and of its square. The last point stores S / n and Q / n − (S / n) · (S / n), n the row count as the
  program spells it, into the two outputs. Each output window has one block, the whole array, and is written back
  at the last point only; so the arrays end holding the column means, and the column means of squares less the
  squared column means.
-/
import proofs.«120348_j28252294873367_1_alg».proof.Proof.KI.Reg10
import proofs.«120348_j28252294873367_1_alg».proof.Proof.Spec
import proofs.«120348_j28252294873367_1_alg».proof.Proof.LibVariance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The body's pure values at an index -/

/-- The index a reduction over the row axis inserts: row k of column q. -/
theorem lift10_rows (q : Fin 300) (k : Fin 2000) :
    reduces_S2000x300_S300.lift (ix1 q) k = ix2 k q := by
  funext a
  match a with
  | ⟨0, _⟩ => rfl
  | ⟨1, _⟩ => rfl

/-- The block with the bias row added to every row, at (r, q). -/
theorem k10_pay3_apply (x0 : Vec Ideal S2000x300 .f32) (b0 : Vec Ideal S1x300 .f32) (r : Fin 2000) (q : Fin 300) :
    k10_pay3 x0 b0 (ix2 r q) = x0 (ix2 r q) + b0 (ix2 (0 : Fin 1) q) := by
  unfold k10_pay3
  rw [shapeCast_self, shapeCast_self, addf_apply, broadcastTo_1b_ab_apply]

/-- A lane sum over the rows of a block, with the zero accumulator, at column q. -/
theorem rowsum10_apply (y : FVec Ideal S2000x300 .f32) (hacc : (0x00000000#32 : BitVec 32) = 0x00000000#32) (q : Fin 300) :
    multiReduction (F := Ideal) .add [0] S300 y 0x00000000#32 reduces_S2000x300_S300 (.inl rfl) hacc (ix1 q)
      = ∑ r : Fin 2000, y (ix2 r q) := by
  refine (Ideal.multiReduction_add_single y 0x00000000#32 reduces_S2000x300_S300 (.inl rfl) hacc (ix1 q)).trans ?_
  exact Finset.sum_congr rfl fun k _ => congrArg y (lift10_rows q k)

/-- The running column sums after one more block: what they were plus the block's column sums. -/
theorem k10_pay4_apply (x0 : Vec Ideal S2000x300 .f32) (b0 acc : Vec Ideal S1x300 .f32) (q : Fin 300) :
    k10_pay4 x0 b0 acc (ix2 (0 : Fin 1) q)
      = acc (ix2 (0 : Fin 1) q) + ∑ r : Fin 2000, (x0 (ix2 r q) + b0 (ix2 (0 : Fin 1) q)) := by
  unfold k10_pay4
  rw [shapeCast_self, addf_apply, shapeCast_a_1a_apply, rowsum10_apply]
  exact congrArg _ (Finset.sum_congr rfl fun r _ => k10_pay3_apply x0 b0 r q)

/-- The running column sums of squares after one more block. -/
theorem k10_pay5_apply (x0 : Vec Ideal S2000x300 .f32) (b0 acc : Vec Ideal S1x300 .f32) (q : Fin 300) :
    k10_pay5 x0 b0 acc (ix2 (0 : Fin 1) q)
      = acc (ix2 (0 : Fin 1) q)
        + ∑ r : Fin 2000, (x0 (ix2 r q) + b0 (ix2 (0 : Fin 1) q)) * (x0 (ix2 r q) + b0 (ix2 (0 : Fin 1) q)) := by
  unfold k10_pay5
  rw [shapeCast_self, addf_apply, shapeCast_a_1a_apply, rowsum10_apply]
  exact congrArg _ (Finset.sum_congr rfl fun r _ => by rw [mulf_apply, k10_pay3_apply])

/-- The reset rows are zero rows. -/
theorem k10_pay1_apply (q : Fin 300) : (k10_pay1 (F := Ideal)) (ix2 (0 : Fin 1) q) = Ideal.ofBits .f32 0x00000000#32 := by
  unfold k10_pay1
  rw [shapeCast_self]; rfl
theorem k10_pay2_apply (q : Fin 300) : (k10_pay2 (F := Ideal)) (ix2 (0 : Fin 1) q) = Ideal.ofBits .f32 0x00000000#32 := by
  unfold k10_pay2
  rw [shapeCast_self]; rfl

/-- The mean row: the column sums divided by the row count. -/
theorem k10_pay6_apply (v : Vec Ideal S1x300 .f32) (q : Fin 300) :
    k10_pay6 v (ix2 (0 : Fin 1) q) = Ideal.div (v (ix2 (0 : Fin 1) q)) (Ideal.ofBits .f32 0x47C35000#32) := by
  unfold k10_pay6
  rw [divf_apply]; rfl

/-- The variance row: the column sums of squares divided by the row count, less the squared mean. -/
theorem k10_pay7_apply (v w : Vec Ideal S1x300 .f32) (q : Fin 300) :
    k10_pay7 v w (ix2 (0 : Fin 1) q)
      = Ideal.div (w (ix2 (0 : Fin 1) q)) (Ideal.ofBits .f32 0x47C35000#32)
        - k10_pay6 v (ix2 (0 : Fin 1) q) * k10_pay6 v (ix2 (0 : Fin 1) q) := by
  unfold k10_pay7
  rw [subf_apply, divf_apply, mulf_apply]; rfl

/-! ## The blocks read off the arrays -/

section Blocks

variable (V : (c : Dev nD) → (b : Ref sig .tc) → Buf (Elt Ideal) ((c : Thread nD τ).loc b))

/-- Where the two input windows' blocks sit: the row blocks follow the grid point, the bias row is one block. -/
theorem index10_0 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)
theorem index10_1 : ∀ t : Fin cfg10.N, win10_1.index t (0 : Fin 2) = 0 ∧ win10_1.index t (1 : Fin 2) = 0 :=
  (by decide +kernel : ∀ t : Fin grid10.N, win10_1.index t (0 : Fin 2) = 0 ∧ win10_1.index t (1 : Fin 2) = 0)

/-- The entry contents of the two input arrays, at their literal shapes. -/
abbrev xin10 (c : Dev nD) : Cert.Spec.Arr 100000 300 := V c (Pipeline.arrRef spec10 0)
abbrev bin10 (c : Dev nD) : Cert.Spec.Arr 1 300 := V c (Pipeline.arrRef spec10 1)

/-- Row r of the row block at point t is row 2000 · t + r of the array. -/
theorem iblk10_0_apply (c : Dev nD) (t : Fin cfg10.N) (r : Fin 2000) (q : Fin 300) (h : t.val * 2000 + r.val < 100000) :
    (iblk10 V c 0 t : Vec Ideal S2000x300 .f32) (ix2 r q) = xin10 V c (ix2 ⟨t.val * 2000 + r.val, h⟩ q) := by
  unfold iblk10
  rw [View.read_apply]
  show V c (Pipeline.arrRef spec10 0) _ = V c (Pipeline.arrRef spec10 0) _
  congr 1
  funext a
  apply Fin.ext
  match a with
  | ⟨0, _⟩ => show win10_0.index t 0 * 2000 + 1 * r.val = t.val * 2000 + r.val; rw [(index10_0 t).1]; omega
  | ⟨1, _⟩ => show win10_0.index t 1 * 300 + 1 * q.val = q.val; rw [(index10_0 t).2]; omega

/-- The bias window's block is the bias row at every point. -/
theorem iblk10_1_apply (c : Dev nD) (t : Fin cfg10.N) (q : Fin 300) :
    (iblk10 V c 1 t : Vec Ideal S1x300 .f32) (ix2 (0 : Fin 1) q) = bin10 V c (ix2 (0 : Fin 1) q) := by
  unfold iblk10
  rw [View.read_apply]
  show V c (Pipeline.arrRef spec10 1) _ = V c (Pipeline.arrRef spec10 1) _
  congr 1
  funext a
  apply Fin.ext
  match a with
  | ⟨0, _⟩ => show win10_1.index t 0 * 1 + 1 * 0 = 0; rw [(index10_1 t).1]
  | ⟨1, _⟩ => show win10_1.index t 1 * 300 + 1 * q.val = q.val; rw [(index10_1 t).2]; omega

end Blocks

/-! ## The running rows in closed form -/

section Closed

variable (V : (c : Dev nD) → (b : Ref sig .tc) → Buf (Elt Ideal) ((c : Thread nD τ).loc b))

/-- Row r of one of the first n ≤ 50 blocks is a row of the array. -/
theorem row_lt10 (n : ℕ) (hn : n ≤ 50) (t : Fin n) (r : Fin 2000) : t.val * 2000 + r.val < 100000 := by
  have := t.isLt; have := r.isLt; omega

/-- After n ≤ 50 points the first running row holds, in column q, zero plus the entries of x + bias of that
    column over the rows of the first n blocks, block by block. -/
theorem sacc10_fst (c : Dev nD) (q : Fin 300) : ∀ (n : ℕ) (hn : n ≤ 50),
    (sacc10 V c n).1 (ix2 (0 : Fin 1) q)
      = Ideal.ofBits .f32 0x00000000#32
        + ∑ t : Fin n, ∑ r : Fin 2000,
            Cert.Spec.shifted (xin10 V c) (bin10 V c) (ix2 ⟨t.val * 2000 + r.val, row_lt10 n hn t r⟩ q)
  | 0, _ => by
    rw [sacc10_zero]
    show (k10_pay1 (F := Ideal)) (ix2 (0 : Fin 1) q) = _
    rw [k10_pay1_apply, Finset.univ_eq_empty, Finset.sum_empty, add_zero]
  | n + 1, hn => by
    have hn' : n < 50 := by omega
    rw [sacc10_succ V c n hn']
    refine (k10_pay4_apply (iblk10 V c 0 ⟨n, _⟩) (iblk10 V c 1 ⟨n, _⟩) (sacc10 V c n).1 q).trans ?_
    rw [sacc10_fst c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk10_0_apply V c ⟨n, _⟩ r q (by show n * 2000 + r.val < 100000; have := r.isLt; omega), iblk10_1_apply]
      rfl

/-- The second running row likewise, with the squares of those entries. -/
theorem sacc10_snd (c : Dev nD) (q : Fin 300) : ∀ (n : ℕ) (hn : n ≤ 50),
    (sacc10 V c n).2 (ix2 (0 : Fin 1) q)
      = Ideal.ofBits .f32 0x00000000#32
        + ∑ t : Fin n, ∑ r : Fin 2000,
            Cert.Spec.shifted (xin10 V c) (bin10 V c) (ix2 ⟨t.val * 2000 + r.val, row_lt10 n hn t r⟩ q)
              * Cert.Spec.shifted (xin10 V c) (bin10 V c) (ix2 ⟨t.val * 2000 + r.val, row_lt10 n hn t r⟩ q)
  | 0, _ => by
    rw [sacc10_zero]
    show (k10_pay2 (F := Ideal)) (ix2 (0 : Fin 1) q) = _
    rw [k10_pay2_apply, Finset.univ_eq_empty, Finset.sum_empty, add_zero]
  | n + 1, hn => by
    have hn' : n < 50 := by omega
    rw [sacc10_succ V c n hn']
    refine (k10_pay5_apply (iblk10 V c 0 ⟨n, _⟩) (iblk10 V c 1 ⟨n, _⟩) (sacc10 V c n).2 q).trans ?_
    rw [sacc10_snd c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk10_0_apply V c ⟨n, _⟩ r q (by show n * 2000 + r.val < 100000; have := r.isLt; omega), iblk10_1_apply]
      rfl

/-- After all 50 points the first running row is the column sums of x + bias over the 100000 rows, -/
theorem sacc10_fst_all (c : Dev nD) (q : Fin 300) :
    (sacc10 V c 50).1 (ix2 (0 : Fin 1) q)
      = Cert.Spec.colSum (Cert.Spec.shifted (xin10 V c) (bin10 V c)) (ix2 (0 : Fin 1) q) := by
  rw [sacc10_fst V c q 50 le_rfl, Ideal.ofBits_zero_f32, zero_add]
  exact (Cert.Lib.sum_blocks_of_eq 50 2000 100000 rfl
    (fun i => Cert.Spec.shifted (xin10 V c) (bin10 V c) (ix2 i q))).symm

/-- and the second the column sums of its squares. -/
theorem sacc10_snd_all (c : Dev nD) (q : Fin 300) :
    (sacc10 V c 50).2 (ix2 (0 : Fin 1) q)
      = Cert.Spec.colSum (fun i => Cert.Spec.shifted (xin10 V c) (bin10 V c) i * Cert.Spec.shifted (xin10 V c) (bin10 V c) i)
          (ix2 (0 : Fin 1) q) := by
  rw [sacc10_snd V c q 50 le_rfl, Ideal.ofBits_zero_f32, zero_add]
  exact (Cert.Lib.sum_blocks_of_eq 50 2000 100000 rfl
    (fun i => Cert.Spec.shifted (xin10 V c) (bin10 V c) (ix2 i q) * Cert.Spec.shifted (xin10 V c) (bin10 V c) (ix2 i q))).symm

/-! ## The two output rows -/

/-- The row the last point stores into the first output: the column means. -/
theorem mean10_eq (c : Dev nD) :
    k10_pay6 (sacc10 V c 50).1 = Cert.Spec.colMean (xin10 V c) (bin10 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k10_pay6_apply, sacc10_fst_all]
  rfl

/-- The row it stores into the second: the column means of squares less the squared column means. -/
theorem var10_eq (c : Dev nD) :
    k10_pay7 (sacc10 V c 50).1 (sacc10 V c 50).2
      = Cert.Spec.colVarK (xin10 V c) (bin10 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k10_pay7_apply, mean10_eq, sacc10_snd_all]
  rfl

end Closed

/-! ## From the one write-back to the arrays -/

section Final

variable (V : (c : Dev nD) → (b : Ref sig .tc) → Buf (Elt Ideal) ((c : Thread nD τ).loc b))

/-- The last point of the grid. -/
abbrev tlast10 : Fin cfg10.N := ⟨49, by decide⟩

/-- The output windows' one block sits at the arrays' origin. -/
theorem origin10_2 : (fun a => win10_2.index tlast10 a * S1x300.size a) = fun _ => 0 := funext fun a => by fin_cases a <;> decide
theorem origin10_3 : (fun a => win10_3.index tlast10 a * S1x300.size a) = fun _ => 0 := funext fun a => by fin_cases a <;> decide

/-- Only the last point writes an output window back. -/
theorem eq_tlast10_2 (t : Fin cfg10.N) (hf : (cfg10.win 2).flush t = true) : t = tlast10 := by
  have hN : cfg10.N = 50 := N_10
  have := (flush10_2 t).mp hf
  have := t.isLt
  exact Fin.ext (by show t.val = 49; omega)
theorem eq_tlast10_3 (t : Fin cfg10.N) (hf : (cfg10.win 3).flush t = true) : t = tlast10 := by
  have hN : cfg10.N = 50 := N_10
  have := (flush10_3 t).mp hf
  have := t.isLt
  exact Fin.ext (by show t.val = 49; omega)

/-- What that write-back writes into the first output is the whole row the body stored: the block is the array. -/
theorem flushed10_2_eq (c : Dev nD) (t : Fin cfg10.N) (hf : (cfg10.win 2).flush t = true) :
    (dat10 V c).flushed 2 t = ((cfg10.win 2).blk t).view.read (Elt Ideal) (k10_pay6 (sacc10 V c 50).1) := by
  obtain rfl := eq_tlast10_2 t hf
  show (cfg10.win 2).cut (grid10.coords tlast10) ((dat10 V c).after 2 tlast10) = _
  rw [after10_2]
  exact (Memref.read_access_unit_zero (Elt Ideal) (Pipeline.arrRef spec10 2) origin10_2 (fun a => by rw [congrFun origin10_2 a]; simp) _).symm
theorem flushed10_3_eq (c : Dev nD) (t : Fin cfg10.N) (hf : (cfg10.win 3).flush t = true) :
    (dat10 V c).flushed 3 t
      = ((cfg10.win 3).blk t).view.read (Elt Ideal) (k10_pay7 (sacc10 V c 50).1 (sacc10 V c 50).2) := by
  obtain rfl := eq_tlast10_3 t hf
  show (cfg10.win 3).cut (grid10.coords tlast10) ((dat10 V c).after 3 tlast10) = _
  rw [after10_3]
  exact (Memref.read_access_unit_zero (Elt Ideal) (Pipeline.arrRef spec10 3) origin10_3 (fun a => by rw [congrFun origin10_3 a]; simp) _).symm

/-- Every entry of a one-row output lies in the block the last point writes back. -/
theorem cover10_2 (c : Dev nD) (i : ((cfg10.win 2).arr.view.loc (c.tc : Thread nD τ)).2.ty.Idx) :
    ∃ t : Fin cfg10.N, (cfg10.win 2).flush t = true ∧ i ∈ ((cfg10.win 2).blk t).view.set :=
  ⟨tlast10, (flush10_2 tlast10).mpr rfl, by
    show i ∈ ((View.whole (Pipeline.arrRef spec10 2)).slice (win10_2.rect tlast10)).set
    rw [View.set_slice_whole, Rect.mem_set_unit]
    intro a
    have h0 : (i 0 : Nat) < 1 := (i 0).isLt
    have h1 : (i 1 : Nat) < 300 := (i 1).isLt
    match a with
    | ⟨0, _⟩ =>
      show win10_2.index tlast10 0 * win10_2.size 0 ≤ (i 0 : Nat)
        ∧ (i 0 : Nat) < win10_2.index tlast10 0 * win10_2.size 0 + win10_2.xsize (grid10.coords tlast10) 0
      rw [show win10_2.index tlast10 0 * win10_2.size 0 = 0 from by decide +kernel,
        show win10_2.xsize (grid10.coords tlast10) 0 = 1 from by decide +kernel]
      omega
    | ⟨1, _⟩ =>
      show win10_2.index tlast10 1 * win10_2.size 1 ≤ (i 1 : Nat)
        ∧ (i 1 : Nat) < win10_2.index tlast10 1 * win10_2.size 1 + win10_2.xsize (grid10.coords tlast10) 1
      rw [show win10_2.index tlast10 1 * win10_2.size 1 = 0 from by decide +kernel,
        show win10_2.xsize (grid10.coords tlast10) 1 = 300 from by decide +kernel]
      omega⟩
theorem cover10_3 (c : Dev nD) (i : ((cfg10.win 3).arr.view.loc (c.tc : Thread nD τ)).2.ty.Idx) :
    ∃ t : Fin cfg10.N, (cfg10.win 3).flush t = true ∧ i ∈ ((cfg10.win 3).blk t).view.set :=
  ⟨tlast10, (flush10_3 tlast10).mpr rfl, by
    show i ∈ ((View.whole (Pipeline.arrRef spec10 3)).slice (win10_3.rect tlast10)).set
    rw [View.set_slice_whole, Rect.mem_set_unit]
    intro a
    have h0 : (i 0 : Nat) < 1 := (i 0).isLt
    have h1 : (i 1 : Nat) < 300 := (i 1).isLt
    match a with
    | ⟨0, _⟩ =>
      show win10_3.index tlast10 0 * win10_3.size 0 ≤ (i 0 : Nat)
        ∧ (i 0 : Nat) < win10_3.index tlast10 0 * win10_3.size 0 + win10_3.xsize (grid10.coords tlast10) 0
      rw [show win10_3.index tlast10 0 * win10_3.size 0 = 0 from by decide +kernel,
        show win10_3.xsize (grid10.coords tlast10) 0 = 1 from by decide +kernel]
      omega
    | ⟨1, _⟩ =>
      show win10_3.index tlast10 1 * win10_3.size 1 ≤ (i 1 : Nat)
        ∧ (i 1 : Nat) < win10_3.index tlast10 1 * win10_3.size 1 + win10_3.xsize (grid10.coords tlast10) 1
      rw [show win10_3.index tlast10 1 * win10_3.size 1 = 0 from by decide +kernel,
        show win10_3.xsize (grid10.coords tlast10) 1 = 300 from by decide +kernel]
      omega⟩

/-- After the region the first output array holds the column means of x + bias over the 100000 rows, -/
theorem final10_mean (c : Dev nD) :
    (dat10 (F := Ideal) V c).arrAt 2 cfg10.N
      = Cert.Spec.colMean (V c (Pipeline.arrRef spec10 0)) (V c (Pipeline.arrRef spec10 1)) (Ideal.ofBits .f32 0x47C35000#32) :=
  ((dat10 V c).arrAt_eq_of_cover 2 (k10_pay6 (sacc10 V c 50).1) (flushed10_2_eq V c) (cover10_2 c)).trans (mean10_eq V c)

/-- and the second the column means of its squares less the squared column means. -/
theorem final10_var (c : Dev nD) :
    (dat10 (F := Ideal) V c).arrAt 3 cfg10.N
      = Cert.Spec.colVarK (V c (Pipeline.arrRef spec10 0)) (V c (Pipeline.arrRef spec10 1)) (Ideal.ofBits .f32 0x47C35000#32) :=
  ((dat10 V c).arrAt_eq_of_cover 3 (k10_pay7 (sacc10 V c 50).1 (sacc10 V c 50).2) (flushed10_3_eq V c) (cover10_3 c)).trans
    (var10_eq V c)

end Final

end Cert.KernelIdeal.Val

end
-- ==== Proof.Val.ST13.lean ====
/-
  The value of region 13 of the program at the ideal instance (a float is an extended real, every operation exact):
  what the batch-norm statistics leave in their two one-row output arrays. The body keeps two running rows over
  the 50 row blocks of 2000 rows. After n blocks, column q of the first row holds 0 plus the entries x + bias of
  column q summed over the rows of those blocks, and column q of the second the same sum of their squares: by
  induction on n, one block's lane sum at a time. A sum over 50 blocks of 2000 rows is the sum over the 100000
  rows (index t · 2000 + r is row r of block t), so after the last point the two rows are the column sums S and Q of
  x + bias and of its square. The last point stores S / n and Q / n − (S / n) · (S / n), n the row count as the
  program spells it, into the two outputs. Each output window has one block, the whole array, and is written back
  at the last point only; so the arrays end holding the column means, and the column means of squares less the
  squared column means.
-/
import proofs.«120348_j28252294873367_1_alg».proof.Proof.KI.Reg13
import proofs.«120348_j28252294873367_1_alg».proof.Proof.Spec
import proofs.«120348_j28252294873367_1_alg».proof.Proof.LibVariance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The body's pure values at an index -/

/-- The index a reduction over the row axis inserts: row k of column q. -/
theorem lift13_rows (q : Fin 300) (k : Fin 2000) :
    reduces_S2000x300_S300.lift (ix1 q) k = ix2 k q := by
  funext a
  match a with
  | ⟨0, _⟩ => rfl
  | ⟨1, _⟩ => rfl

/-- The block with the bias row added to every row, at (r, q). -/
theorem k13_pay3_apply (x0 : Vec Ideal S2000x300 .f32) (b0 : Vec Ideal S1x300 .f32) (r : Fin 2000) (q : Fin 300) :
    k13_pay3 x0 b0 (ix2 r q) = x0 (ix2 r q) + b0 (ix2 (0 : Fin 1) q) := by
  unfold k13_pay3
  rw [shapeCast_self, shapeCast_self, addf_apply, broadcastTo_1b_ab_apply]

/-- A lane sum over the rows of a block, with the zero accumulator, at column q. -/
theorem rowsum13_apply (y : FVec Ideal S2000x300 .f32) (hacc : (0x00000000#32 : BitVec 32) = 0x00000000#32) (q : Fin 300) :
    multiReduction (F := Ideal) .add [0] S300 y 0x00000000#32 reduces_S2000x300_S300 (.inl rfl) hacc (ix1 q)
      = ∑ r : Fin 2000, y (ix2 r q) := by
  refine (Ideal.multiReduction_add_single y 0x00000000#32 reduces_S2000x300_S300 (.inl rfl) hacc (ix1 q)).trans ?_
  exact Finset.sum_congr rfl fun k _ => congrArg y (lift13_rows q k)

/-- The running column sums after one more block: what they were plus the block's column sums. -/
theorem k13_pay4_apply (x0 : Vec Ideal S2000x300 .f32) (b0 acc : Vec Ideal S1x300 .f32) (q : Fin 300) :
    k13_pay4 x0 b0 acc (ix2 (0 : Fin 1) q)
      = acc (ix2 (0 : Fin 1) q) + ∑ r : Fin 2000, (x0 (ix2 r q) + b0 (ix2 (0 : Fin 1) q)) := by
  unfold k13_pay4
  rw [shapeCast_self, addf_apply, shapeCast_a_1a_apply, rowsum13_apply]
  exact congrArg _ (Finset.sum_congr rfl fun r _ => k13_pay3_apply x0 b0 r q)

/-- The running column sums of squares after one more block. -/
theorem k13_pay5_apply (x0 : Vec Ideal S2000x300 .f32) (b0 acc : Vec Ideal S1x300 .f32) (q : Fin 300) :
    k13_pay5 x0 b0 acc (ix2 (0 : Fin 1) q)
      = acc (ix2 (0 : Fin 1) q)
        + ∑ r : Fin 2000, (x0 (ix2 r q) + b0 (ix2 (0 : Fin 1) q)) * (x0 (ix2 r q) + b0 (ix2 (0 : Fin 1) q)) := by
  unfold k13_pay5
  rw [shapeCast_self, addf_apply, shapeCast_a_1a_apply, rowsum13_apply]
  exact congrArg _ (Finset.sum_congr rfl fun r _ => by rw [mulf_apply, k13_pay3_apply])

/-- The reset rows are zero rows. -/
theorem k13_pay1_apply (q : Fin 300) : (k13_pay1 (F := Ideal)) (ix2 (0 : Fin 1) q) = Ideal.ofBits .f32 0x00000000#32 := by
  unfold k13_pay1
  rw [shapeCast_self]; rfl
theorem k13_pay2_apply (q : Fin 300) : (k13_pay2 (F := Ideal)) (ix2 (0 : Fin 1) q) = Ideal.ofBits .f32 0x00000000#32 := by
  unfold k13_pay2
  rw [shapeCast_self]; rfl

/-- The mean row: the column sums divided by the row count. -/
theorem k13_pay6_apply (v : Vec Ideal S1x300 .f32) (q : Fin 300) :
    k13_pay6 v (ix2 (0 : Fin 1) q) = Ideal.div (v (ix2 (0 : Fin 1) q)) (Ideal.ofBits .f32 0x47C35000#32) := by
  unfold k13_pay6
  rw [divf_apply]; rfl

/-- The variance row: the column sums of squares divided by the row count, less the squared mean. -/
theorem k13_pay7_apply (v w : Vec Ideal S1x300 .f32) (q : Fin 300) :
    k13_pay7 v w (ix2 (0 : Fin 1) q)
      = Ideal.div (w (ix2 (0 : Fin 1) q)) (Ideal.ofBits .f32 0x47C35000#32)
        - k13_pay6 v (ix2 (0 : Fin 1) q) * k13_pay6 v (ix2 (0 : Fin 1) q) := by
  unfold k13_pay7
  rw [subf_apply, divf_apply, mulf_apply]; rfl

/-! ## The blocks read off the arrays -/

section Blocks

variable (V : (c : Dev nD) → (b : Ref sig .tc) → Buf (Elt Ideal) ((c : Thread nD τ).loc b))

/-- Where the two input windows' blocks sit: the row blocks follow the grid point, the bias row is one block. -/
theorem index13_0 : ∀ t : Fin cfg13.N, win13_0.index t (0 : Fin 2) = t.val ∧ win13_0.index t (1 : Fin 2) = 0 :=
  (by decide +kernel : ∀ t : Fin grid13.N, win13_0.index t (0 : Fin 2) = t.val ∧ win13_0.index t (1 : Fin 2) = 0)
theorem index13_1 : ∀ t : Fin cfg13.N, win13_1.index t (0 : Fin 2) = 0 ∧ win13_1.index t (1 : Fin 2) = 0 :=
  (by decide +kernel : ∀ t : Fin grid13.N, win13_1.index t (0 : Fin 2) = 0 ∧ win13_1.index t (1 : Fin 2) = 0)

/-- The entry contents of the two input arrays, at their literal shapes. -/
abbrev xin13 (c : Dev nD) : Cert.Spec.Arr 100000 300 := V c (Pipeline.arrRef spec13 0)
abbrev bin13 (c : Dev nD) : Cert.Spec.Arr 1 300 := V c (Pipeline.arrRef spec13 1)

/-- Row r of the row block at point t is row 2000 · t + r of the array. -/
theorem iblk13_0_apply (c : Dev nD) (t : Fin cfg13.N) (r : Fin 2000) (q : Fin 300) (h : t.val * 2000 + r.val < 100000) :
    (iblk13 V c 0 t : Vec Ideal S2000x300 .f32) (ix2 r q) = xin13 V c (ix2 ⟨t.val * 2000 + r.val, h⟩ q) := by
  unfold iblk13
  rw [View.read_apply]
  show V c (Pipeline.arrRef spec13 0) _ = V c (Pipeline.arrRef spec13 0) _
  congr 1
  funext a
  apply Fin.ext
  match a with
  | ⟨0, _⟩ => show win13_0.index t 0 * 2000 + 1 * r.val = t.val * 2000 + r.val; rw [(index13_0 t).1]; omega
  | ⟨1, _⟩ => show win13_0.index t 1 * 300 + 1 * q.val = q.val; rw [(index13_0 t).2]; omega

/-- The bias window's block is the bias row at every point. -/
theorem iblk13_1_apply (c : Dev nD) (t : Fin cfg13.N) (q : Fin 300) :
    (iblk13 V c 1 t : Vec Ideal S1x300 .f32) (ix2 (0 : Fin 1) q) = bin13 V c (ix2 (0 : Fin 1) q) := by
  unfold iblk13
  rw [View.read_apply]
  show V c (Pipeline.arrRef spec13 1) _ = V c (Pipeline.arrRef spec13 1) _
  congr 1
  funext a
  apply Fin.ext
  match a with
  | ⟨0, _⟩ => show win13_1.index t 0 * 1 + 1 * 0 = 0; rw [(index13_1 t).1]
  | ⟨1, _⟩ => show win13_1.index t 1 * 300 + 1 * q.val = q.val; rw [(index13_1 t).2]; omega

end Blocks

/-! ## The running rows in closed form -/

section Closed

variable (V : (c : Dev nD) → (b : Ref sig .tc) → Buf (Elt Ideal) ((c : Thread nD τ).loc b))

/-- Row r of one of the first n ≤ 50 blocks is a row of the array. -/
theorem row_lt13 (n : ℕ) (hn : n ≤ 50) (t : Fin n) (r : Fin 2000) : t.val * 2000 + r.val < 100000 := by
  have := t.isLt; have := r.isLt; omega

/-- After n ≤ 50 points the first running row holds, in column q, zero plus the entries of x + bias of that
    column over the rows of the first n blocks, block by block. -/
theorem sacc13_fst (c : Dev nD) (q : Fin 300) : ∀ (n : ℕ) (hn : n ≤ 50),
    (sacc13 V c n).1 (ix2 (0 : Fin 1) q)
      = Ideal.ofBits .f32 0x00000000#32
        + ∑ t : Fin n, ∑ r : Fin 2000,
            Cert.Spec.shifted (xin13 V c) (bin13 V c) (ix2 ⟨t.val * 2000 + r.val, row_lt13 n hn t r⟩ q)
  | 0, _ => by
    rw [sacc13_zero]
    show (k13_pay1 (F := Ideal)) (ix2 (0 : Fin 1) q) = _
    rw [k13_pay1_apply, Finset.univ_eq_empty, Finset.sum_empty, add_zero]
  | n + 1, hn => by
    have hn' : n < 50 := by omega
    rw [sacc13_succ V c n hn']
    refine (k13_pay4_apply (iblk13 V c 0 ⟨n, _⟩) (iblk13 V c 1 ⟨n, _⟩) (sacc13 V c n).1 q).trans ?_
    rw [sacc13_fst c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk13_0_apply V c ⟨n, _⟩ r q (by show n * 2000 + r.val < 100000; have := r.isLt; omega), iblk13_1_apply]
      rfl

/-- The second running row likewise, with the squares of those entries. -/
theorem sacc13_snd (c : Dev nD) (q : Fin 300) : ∀ (n : ℕ) (hn : n ≤ 50),
    (sacc13 V c n).2 (ix2 (0 : Fin 1) q)
      = Ideal.ofBits .f32 0x00000000#32
        + ∑ t : Fin n, ∑ r : Fin 2000,
            Cert.Spec.shifted (xin13 V c) (bin13 V c) (ix2 ⟨t.val * 2000 + r.val, row_lt13 n hn t r⟩ q)
              * Cert.Spec.shifted (xin13 V c) (bin13 V c) (ix2 ⟨t.val * 2000 + r.val, row_lt13 n hn t r⟩ q)
  | 0, _ => by
    rw [sacc13_zero]
    show (k13_pay2 (F := Ideal)) (ix2 (0 : Fin 1) q) = _
    rw [k13_pay2_apply, Finset.univ_eq_empty, Finset.sum_empty, add_zero]
  | n + 1, hn => by
    have hn' : n < 50 := by omega
    rw [sacc13_succ V c n hn']
    refine (k13_pay5_apply (iblk13 V c 0 ⟨n, _⟩) (iblk13 V c 1 ⟨n, _⟩) (sacc13 V c n).2 q).trans ?_
    rw [sacc13_snd c q n (by omega), add_assoc]
    refine congrArg _ ?_
    refine Eq.trans ?_ (Fin.sum_univ_castSucc _).symm
    refine congrArg₂ (· + ·) ?_ ?_
    · exact Finset.sum_congr rfl fun t _ => Finset.sum_congr rfl fun r _ => rfl
    · refine Finset.sum_congr rfl fun r _ => ?_
      rw [iblk13_0_apply V c ⟨n, _⟩ r q (by show n * 2000 + r.val < 100000; have := r.isLt; omega), iblk13_1_apply]
      rfl

/-- After all 50 points the first running row is the column sums of x + bias over the 100000 rows, -/
theorem sacc13_fst_all (c : Dev nD) (q : Fin 300) :
    (sacc13 V c 50).1 (ix2 (0 : Fin 1) q)
      = Cert.Spec.colSum (Cert.Spec.shifted (xin13 V c) (bin13 V c)) (ix2 (0 : Fin 1) q) := by
  rw [sacc13_fst V c q 50 le_rfl, Ideal.ofBits_zero_f32, zero_add]
  exact (Cert.Lib.sum_blocks_of_eq 50 2000 100000 rfl
    (fun i => Cert.Spec.shifted (xin13 V c) (bin13 V c) (ix2 i q))).symm

/-- and the second the column sums of its squares. -/
theorem sacc13_snd_all (c : Dev nD) (q : Fin 300) :
    (sacc13 V c 50).2 (ix2 (0 : Fin 1) q)
      = Cert.Spec.colSum (fun i => Cert.Spec.shifted (xin13 V c) (bin13 V c) i * Cert.Spec.shifted (xin13 V c) (bin13 V c) i)
          (ix2 (0 : Fin 1) q) := by
  rw [sacc13_snd V c q 50 le_rfl, Ideal.ofBits_zero_f32, zero_add]
  exact (Cert.Lib.sum_blocks_of_eq 50 2000 100000 rfl
    (fun i => Cert.Spec.shifted (xin13 V c) (bin13 V c) (ix2 i q) * Cert.Spec.shifted (xin13 V c) (bin13 V c) (ix2 i q))).symm

/-! ## The two output rows -/

/-- The row the last point stores into the first output: the column means. -/
theorem mean13_eq (c : Dev nD) :
    k13_pay6 (sacc13 V c 50).1 = Cert.Spec.colMean (xin13 V c) (bin13 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k13_pay6_apply, sacc13_fst_all]
  rfl

/-- The row it stores into the second: the column means of squares less the squared column means. -/
theorem var13_eq (c : Dev nD) :
    k13_pay7 (sacc13 V c 50).1 (sacc13 V c 50).2
      = Cert.Spec.colVarK (xin13 V c) (bin13 V c) (Ideal.ofBits .f32 0x47C35000#32) := by
  funext j
  obtain ⟨u, q, rfl⟩ : ∃ (u : Fin 1) (q : Fin 300), j = ix2 u q := ⟨j 0, j 1, eq_ix2 j⟩
  obtain rfl : u = 0 := Subsingleton.elim _ _
  rw [k13_pay7_apply, mean13_eq, sacc13_snd_all]
  rfl

end Closed

/-! ## From the one write-back to the arrays -/

section Final

variable (V : (c : Dev nD) → (b : Ref sig .tc) → Buf (Elt Ideal) ((c : Thread nD τ).loc b))

/-- The last point of the grid. -/
abbrev tlast13 : Fin cfg13.N := ⟨49, by decide⟩

/-- The output windows' one block sits at the arrays' origin. -/
theorem origin13_2 : (fun a => win13_2.index tlast13 a * S1x300.size a) = fun _ => 0 := funext fun a => by fin_cases a <;> decide
theorem origin13_3 : (fun a => win13_3.index tlast13 a * S1x300.size a) = fun _ => 0 := funext fun a => by fin_cases a <;> decide

/-- Only the last point writes an output window back. -/
theorem eq_tlast13_2 (t : Fin cfg13.N) (hf : (cfg13.win 2).flush t = true) : t = tlast13 := by
  have hN : cfg13.N = 50 := N_13
  have := (flush13_2 t).mp hf
  have := t.isLt
  exact Fin.ext (by show t.val = 49; omega)
theorem eq_tlast13_3 (t : Fin cfg13.N) (hf : (cfg13.win 3).flush t = true) : t = tlast13 := by
  have hN : cfg13.N = 50 := N_13
  have := (flush13_3 t).mp hf
  have := t.isLt
  exact Fin.ext (by show t.val = 49; omega)

/-- What that write-back writes into the first output is the whole row the body stored: the block is the array. -/
theorem flushed13_2_eq (c : Dev nD) (t : Fin cfg13.N) (hf : (cfg13.win 2).flush t = true) :
    (dat13 V c).flushed 2 t = ((cfg13.win 2).blk t).view.read (Elt Ideal) (k13_pay6 (sacc13 V c 50).1) := by
  obtain rfl := eq_tlast13_2 t hf
  show (cfg13.win 2).cut (grid13.coords tlast13) ((dat13 V c).after 2 tlast13) = _
  rw [after13_2]
  exact (Memref.read_access_unit_zero (Elt Ideal) (Pipeline.arrRef spec13 2) origin13_2 (fun a => by rw [congrFun origin13_2 a]; simp) _).symm
theorem flushed13_3_eq (c : Dev nD) (t : Fin cfg13.N) (hf : (cfg13.win 3).flush t = true) :
    (dat13 V c).flushed 3 t
      = ((cfg13.win 3).blk t).view.read (Elt Ideal) (k13_pay7 (sacc13 V c 50).1 (sacc13 V c 50).2) := by
  obtain rfl := eq_tlast13_3 t hf
  show (cfg13.win 3).cut (grid13.coords tlast13) ((dat13 V c).after 3 tlast13) = _
  rw [after13_3]
  exact (Memref.read_access_unit_zero (Elt Ideal) (Pipeline.arrRef spec13 3) origin13_3 (fun a => by rw [congrFun origin13_3 a]; simp) _).symm

/-- Every entry of a one-row output lies in the block the last point writes back. -/
theorem cover13_2 (c : Dev nD) (i : ((cfg13.win 2).arr.view.loc (c.tc : Thread nD τ)).2.ty.Idx) :
    ∃ t : Fin cfg13.N, (cfg13.win 2).flush t = true ∧ i ∈ ((cfg13.win 2).blk t).view.set :=
  ⟨tlast13, (flush13_2 tlast13).mpr rfl, by
    show i ∈ ((View.whole (Pipeline.arrRef spec13 2)).slice (win13_2.rect tlast13)).set
    rw [View.set_slice_whole, Rect.mem_set_unit]
    intro a
    have h0 : (i 0 : Nat) < 1 := (i 0).isLt
    have h1 : (i 1 : Nat) < 300 := (i 1).isLt
    match a with
    | ⟨0, _⟩ =>
      show win13_2.index tlast13 0 * win13_2.size 0 ≤ (i 0 : Nat)
        ∧ (i 0 : Nat) < win13_2.index tlast13 0 * win13_2.size 0 + win13_2.xsize (grid13.coords tlast13) 0
      rw [show win13_2.index tlast13 0 * win13_2.size 0 = 0 from by decide +kernel,
        show win13_2.xsize (grid13.coords tlast13) 0 = 1 from by decide +kernel]
      omega
    | ⟨1, _⟩ =>
      show win13_2.index tlast13 1 * win13_2.size 1 ≤ (i 1 : Nat)
        ∧ (i 1 : Nat) < win13_2.index tlast13 1 * win13_2.size 1 + win13_2.xsize (grid13.coords tlast13) 1
      rw [show win13_2.index tlast13 1 * win13_2.size 1 = 0 from by decide +kernel,
        show win13_2.xsize (grid13.coords tlast13) 1 = 300 from by decide +kernel]
      omega⟩
theorem cover13_3 (c : Dev nD) (i : ((cfg13.win 3).arr.view.loc (c.tc : Thread nD τ)).2.ty.Idx) :
    ∃ t : Fin cfg13.N, (cfg13.win 3).flush t = true ∧ i ∈ ((cfg13.win 3).blk t).view.set :=
  ⟨tlast13, (flush13_3 tlast13).mpr rfl, by
    show i ∈ ((View.whole (Pipeline.arrRef spec13 3)).slice (win13_3.rect tlast13)).set
    rw [View.set_slice_whole, Rect.mem_set_unit]
    intro a
    have h0 : (i 0 : Nat) < 1 := (i 0).isLt
    have h1 : (i 1 : Nat) < 300 := (i 1).isLt
    match a with
    | ⟨0, _⟩ =>
      show win13_3.index tlast13 0 * win13_3.size 0 ≤ (i 0 : Nat)
        ∧ (i 0 : Nat) < win13_3.index tlast13 0 * win13_3.size 0 + win13_3.xsize (grid13.coords tlast13) 0
      rw [show win13_3.index tlast13 0 * win13_3.size 0 = 0 from by decide +kernel,
        show win13_3.xsize (grid13.coords tlast13) 0 = 1 from by decide +kernel]
      omega
    | ⟨1, _⟩ =>
      show win13_3.index tlast13 1 * win13_3.size 1 ≤ (i 1 : Nat)
        ∧ (i 1 : Nat) < win13_3.index tlast13 1 * win13_3.size 1 + win13_3.xsize (grid13.coords tlast13) 1
      rw [show win13_3.index tlast13 1 * win13_3.size 1 = 0 from by decide +kernel,
        show win13_3.xsize (grid13.coords tlast13) 1 = 300 from by decide +kernel]
      omega⟩

/-- After the region the first output array holds the column means of x + bias over the 100000 rows, -/
theorem final13_mean (c : Dev nD) :
    (dat13 (F := Ideal) V c).arrAt 2 cfg13.N
      = Cert.Spec.colMean (V c (Pipeline.arrRef spec13 0)) (V c (Pipeline.arrRef spec13 1)) (Ideal.ofBits .f32 0x47C35000#32) :=
  ((dat13 V c).arrAt_eq_of_cover 2 (k13_pay6 (sacc13 V c 50).1) (flushed13_2_eq V c) (cover13_2 c)).trans (mean13_eq V c)

/-- and the second the column means of its squares less the squared column means. -/
theorem final13_var (c : Dev nD) :
    (dat13 (F := Ideal) V c).arrAt 3 cfg13.N
      = Cert.Spec.colVarK (V c (Pipeline.arrRef spec13 0)) (V c (Pipeline.arrRef spec13 1)) (Ideal.ofBits .f32 0x47C35000#32) :=
  ((dat13 V c).arrAt_eq_of_cover 3 (k13_pay7 (sacc13 V c 50).1 (sacc13 V c 50).2) (flushed13_3_eq V c) (cover13_3 c)).trans
    (var13_eq V c)

end Final

end Cert.KernelIdeal.Val

end
-- ==== Proof.Val.NM2.lean ====
import proofs.«120348_j28252294873367_1_alg».proof.Proof.KI.Reg2
import proofs.«120348_j28252294873367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

theorem bcastRow2_apply (x : FVec Ideal S1x300 .f32) (p : Fin 2000) (q : Fin 300) :
    broadcastTo S2000x300 x broadcasts_S1x300_S2000x300 (ix2 p q) = x (ix2 (0 : Fin 1) q) :=
  broadcastTo_apply x broadcasts_S1x300_S2000x300 (ix2 p q) (ix2 (0 : Fin 1) q) (fun a => by
    match a with
    | ⟨0, _⟩ => rfl
    | ⟨1, _⟩ => rfl)

theorem rsqrt2_apply {s : Shape} {φ : FTy} (a : FVec Ideal s φ) (i : s.Idx) : rsqrt a i = Ideal.rsqrt (a i) := rfl

theorem pay2_apply (x0 : Vec Ideal S2000x300 .f32) (x1 x2 x3 x4 x5 : Vec Ideal S1x300 .f32) (p : Fin 2000) (q : Fin 300) :
    k2_pay1 x0 x1 x2 x3 x4 x5 (ix2 p q)
      = max ((((x0 (ix2 p q) + x1 (ix2 (0 : Fin 1) q) - x2 (ix2 (0 : Fin 1) q))
          * Ideal.rsqrt (x3 (ix2 (0 : Fin 1) q) + Ideal.ofBits .f32 0x3727C5AC#32)) * x4 (ix2 (0 : Fin 1) q))
          + x5 (ix2 (0 : Fin 1) q)) (Ideal.ofBits .f32 0x00000000#32) := by
  unfold k2_pay1
  simp only [shapeCast_self]
  simp only [maximumf_apply, addf_apply, mulf_apply, subf_apply, bcastRow2_apply, rsqrt2_apply, broadcast_apply]
  rfl

theorem pay2_at (x0 : Vec Ideal S2000x300 .f32) (x1 x2 x3 x4 x5 : Vec Ideal S1x300 .f32) (y : S2000x300.Idx) :
    k2_pay1 x0 x1 x2 x3 x4 x5 y
      = max ((((x0 y + x1 (ix2 (0 : Fin 1) (y 1 : Fin 300)) - x2 (ix2 (0 : Fin 1) (y 1 : Fin 300)))
          * Ideal.rsqrt (x3 (ix2 (0 : Fin 1) (y 1 : Fin 300)) + Ideal.ofBits .f32 0x3727C5AC#32)) * x4 (ix2 (0 : Fin 1) (y 1 : Fin 300)))
          + x5 (ix2 (0 : Fin 1) (y 1 : Fin 300))) (Ideal.ofBits .f32 0x00000000#32) := by
  obtain ⟨p, q, rfl⟩ : ∃ (p : Fin 2000) (q : Fin 300), y = ix2 p q := ⟨y 0, y 1, eq_ix2 y⟩
  exact pay2_apply x0 x1 x2 x3 x4 x5 p q

theorem hz2 : (![0, 0] : Fin 2 → Nat) = fun _ => 0 := funext fun a => by fin_cases a <;> rfl

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

theorem blk2_0_eq (c : Dev nD) (t : Fin cfg2.N) (y : S2000x300.Idx) :
    (iblk2 V c 0 t : Vec Ideal S2000x300 .f32) y
      = (V c (Pipeline.arrRef spec2 0) : S100000x300.Idx → EReal) (((cfg2.win 6).blk t).view.emb y : S100000x300.Idx) := by
  obtain ⟨e0, e1, -, -, -, -, -, -, -, -, -, -, f0, f1⟩ := idx_facts2 t
  unfold iblk2
  rw [View.read_apply, cast_eq]
  refine congrArg (V c (Pipeline.arrRef spec2 0) : S100000x300.Idx → EReal) ?_
  funext a
  apply Fin.ext
  match a with
  | ⟨0, _⟩ => show win2_0.index t (0 : Fin 2) * 2000 + 1 * (y 0).val = win2_6.index t (0 : Fin 2) * 2000 + 1 * (y 0).val; omega
  | ⟨1, _⟩ => show win2_0.index t (1 : Fin 2) * 300 + 1 * (y 1).val = win2_6.index t (1 : Fin 2) * 300 + 1 * (y 1).val; omega

theorem blk2_1_eq (c : Dev nD) (t : Fin cfg2.N) (y : S2000x300.Idx) :
    (iblk2 V c 1 t : Vec Ideal S1x300 .f32) (ix2 (0 : Fin 1) (y 1 : Fin 300))
      = (V c (Pipeline.arrRef spec2 1) : S1x300.Idx → EReal) (ix2 (0 : Fin 1) ((((cfg2.win 6).blk t).view.emb y : S100000x300.Idx) 1 : Fin 300)) := by
  obtain ⟨-, -, e0, e1, -, -, -, -, -, -, -, -, -, f1⟩ := idx_facts2 t
  unfold iblk2
  rw [View.read_apply, cast_eq]
  refine congrArg (V c (Pipeline.arrRef spec2 1) : S1x300.Idx → EReal) ?_
  funext a
  apply Fin.ext
  match a with
  | ⟨0, _⟩ => show win2_1.index t (0 : Fin 2) * 1 + 1 * 0 = 0; omega
  | ⟨1, _⟩ => show win2_1.index t (1 : Fin 2) * 300 + 1 * (y 1).val = win2_6.index t (1 : Fin 2) * 300 + 1 * (y 1).val; omega
theorem blk2_2_eq (c : Dev nD) (t : Fin cfg2.N) (y : S2000x300.Idx) :
    (iblk2 V c 2 t : Vec Ideal S1x300 .f32) (ix2 (0 : Fin 1) (y 1 : Fin 300))
      = (V c (Pipeline.arrRef spec2 2) : S1x300.Idx → EReal) (ix2 (0 : Fin 1) ((((cfg2.win 6).blk t).view.emb y : S100000x300.Idx) 1 : Fin 300)) := by
  obtain ⟨-, -, -, -, e0, e1, -, -, -, -, -, -, -, f1⟩ := idx_facts2 t
  unfold iblk2
  rw [View.read_apply, cast_eq]
  refine congrArg (V c (Pipeline.arrRef spec2 2) : S1x300.Idx → EReal) ?_
  funext a
  apply Fin.ext
  match a with
  | ⟨0, _⟩ => show win2_2.index t (0 : Fin 2) * 1 + 1 * 0 = 0; omega
  | ⟨1, _⟩ => show win2_2.index t (1 : Fin 2) * 300 + 1 * (y 1).val = win2_6.index t (1 : Fin 2) * 300 + 1 * (y 1).val; omega
theorem blk2_3_eq (c : Dev nD) (t : Fin cfg2.N) (y : S2000x300.Idx) :
    (iblk2 V c 3 t : Vec Ideal S1x300 .f32) (ix2 (0 : Fin 1) (y 1 : Fin 300))
      = (V c (Pipeline.arrRef spec2 3) : S1x300.Idx → EReal) (ix2 (0 : Fin 1) ((((cfg2.win 6).blk t).view.emb y : S100000x300.Idx) 1 : Fin 300)) := by
  obtain ⟨-, -, -, -, -, -, e0, e1, -, -, -, -, -, f1⟩ := idx_facts2 t
  unfold iblk2
  rw [View.read_apply, cast_eq]
  refine congrArg (V c (Pipeline.arrRef spec2 3) : S1x300.Idx → EReal) ?_
  funext a
  apply Fin.ext
  match a with
  | ⟨0, _⟩ => show win2_3.index t (0 : Fin 2) * 1 + 1 * 0 = 0; omega
  | ⟨1, _⟩ => show win2_3.index t (1 : Fin 2) * 300 + 1 * (y 1).val = win2_6.index t (1 : Fin 2) * 300 + 1 * (y 1).val; omega
theorem blk2_4_eq (c : Dev nD) (t : Fin cfg2.N) (y : S2000x300.Idx) :
    (iblk2 V c 4 t : Vec Ideal S1x300 .f32) (ix2 (0 : Fin 1) (y 1 : Fin 300))
      = (V c (Pipeline.arrRef spec2 4) : S1x300.Idx → EReal) (ix2 (0 : Fin 1) ((((cfg2.win 6).blk t).view.emb y : S100000x300.Idx) 1 : Fin 300)) := by
  obtain ⟨-, -, -, -, -, -, -, -, e0, e1, -, -, -, f1⟩ := idx_facts2 t
  unfold iblk2
  rw [View.read_apply, cast_eq]
  refine congrArg (V c (Pipeline.arrRef spec2 4) : S1x300.Idx → EReal) ?_
  funext a
  apply Fin.ext
  match a with
  | ⟨0, _⟩ => show win2_4.index t (0 : Fin 2) * 1 + 1 * 0 = 0; omega
  | ⟨1, _⟩ => show win2_4.index t (1 : Fin 2) * 300 + 1 * (y 1).val = win2_6.index t (1 : Fin 2) * 300 + 1 * (y 1).val; omega
theorem blk2_5_eq (c : Dev nD) (t : Fin cfg2.N) (y : S2000x300.Idx) :
    (iblk2 V c 5 t : Vec Ideal S1x300 .f32) (ix2 (0 : Fin 1) (y 1 : Fin 300))
      = (V c (Pipeline.arrRef spec2 5) : S1x300.Idx → EReal) (ix2 (0 : Fin 1) ((((cfg2.win 6).blk t).view.emb y : S100000x300.Idx) 1 : Fin 300)) := by
  obtain ⟨-, -, -, -, -, -, -, -, -, -, e0, e1, -, f1⟩ := idx_facts2 t
  unfold iblk2
  rw [View.read_apply, cast_eq]
  refine congrArg (V c (Pipeline.arrRef spec2 5) : S1x300.Idx → EReal) ?_
  funext a
  apply Fin.ext
  match a with
  | ⟨0, _⟩ => show win2_5.index t (0 : Fin 2) * 1 + 1 * 0 = 0; omega
  | ⟨1, _⟩ => show win2_5.index t (1 : Fin 2) * 300 + 1 * (y 1).val = win2_6.index t (1 : Fin 2) * 300 + 1 * (y 1).val; omega

theorem norm2_congr {a a' b b' m m' v v' g g' s s' : EReal} (eps z : EReal)
    (ha : a = a') (hb : b = b') (hm : m = m') (hv : v = v') (hg : g = g') (hs : s = s') :
    max ((((a + b - m) * Ideal.rsqrt (v + eps)) * g) + s) z = max ((((a' + b' - m') * Ideal.rsqrt (v' + eps)) * g') + s') z := by
  rw [ha, hb, hm, hv, hg, hs]

theorem pay2_blk (c : Dev nD) (t : Fin cfg2.N) (y : S2000x300.Idx) :
    k2_pay1 (iblk2 V c 0 t) (iblk2 V c 1 t) (iblk2 V c 2 t) (iblk2 V c 3 t) (iblk2 V c 4 t) (iblk2 V c 5 t) y
      = Cert.Spec.normMax (M := 100000) (N := 300) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (Ideal.ofBits .f32 0x3727C5AC#32) (Ideal.ofBits .f32 0x00000000#32) (((cfg2.win 6).blk t).view.emb y : S100000x300.Idx) :=
  (pay2_at (iblk2 V c 0 t) (iblk2 V c 1 t) (iblk2 V c 2 t) (iblk2 V c 3 t) (iblk2 V c 4 t) (iblk2 V c 5 t) y).trans
    (norm2_congr (Ideal.ofBits .f32 0x3727C5AC#32) (Ideal.ofBits .f32 0x00000000#32) (blk2_0_eq V c t y) (blk2_1_eq V c t y) (blk2_2_eq V c t y)
      (blk2_3_eq V c t y) (blk2_4_eq V c t y) (blk2_5_eq V c t y))

theorem after2_6_pay (c : Dev nD) (t : Fin cfg2.N) :
    (dat2 (F := Ideal) V c).after 6 t = k2_pay1 (iblk2 V c 0 t) (iblk2 V c 1 t) (iblk2 V c 2 t) (iblk2 V c 3 t) (iblk2 V c 4 t) (iblk2 V c 5 t) := by
  rw [after2_6]
  unfold out2_6
  rw [View.canon_unit_zero hz2]
  simp only [View.ld_unit_zero (S := S2000x300) hz2, View.ld_unit_zero (S := S1x300) hz2]

theorem flushed2_eq (c : Dev nD) (t : Fin cfg2.N) :
    (dat2 (F := Ideal) V c).flushed 6 t = ((cfg2.win 6).blk t).view.read (Elt Ideal)
      (Cert.Spec.normMax (M := 100000) (N := 300) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (Ideal.ofBits .f32 0x3727C5AC#32) (Ideal.ofBits .f32 0x00000000#32)) := by
  show (cfg2.win 6).cut (grid2.coords t) ((dat2 V c).after 6 t) = _
  rw [after2_6_pay V c t]
  funext j
  rw [View.read_apply, cast_eq]
  exact pay2_blk V c t j

theorem mem_blk2 (t : Fin cfg2.N) (i : S100000x300.Idx) :
    i ∈ ((cfg2.win 6).blk t).view.set ↔ ∀ a : Fin 2, win2_6.index t a * S2000x300.size a ≤ (i a).val ∧ (i a).val < win2_6.index t a * S2000x300.size a + S2000x300.size a := by
  show i ∈ ((View.whole (Pipeline.arrRef spec2 6)).slice (win2_6.rect t)).set ↔ _
  rw [View.set_slice_whole, Rect.mem_set_unit]
  exact Iff.rfl

theorem cover2 (i : S100000x300.Idx) :
    ∃ t : Fin cfg2.N, (cfg2.win 6).flush t = true ∧ i ∈ ((cfg2.win 6).blk t).view.set := by
  have hi0 : (i 0).val < 100000 := (i 0).isLt
  have hi1 : (i 1).val < 300 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, -, -, -, -, -, -, -, e0, e1⟩ := idx_facts2 t
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 300 ≤ (i 1).val ∧ (i 1).val < win2_6.index t (1 : Fin 2) * 300 + 300; omega

theorem final2 (c : Dev nD) :
    (dat2 (F := Ideal) V c).arrAt 6 cfg2.N
      = Cert.Spec.normMax (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (Ideal.ofBits .f32 0x3727C5AC#32) (Ideal.ofBits .f32 0x00000000#32) :=
  (dat2 (F := Ideal) V c).arrAt_eq_of_cover 6 _ (fun t _ => flushed2_eq V c t) (cover2)

end Cert.KernelIdeal.Val

end
-- ==== Proof.Val.NM5.lean ====
/-
  The value of the batch-normalisation region at the ideal instance (a float is an extended real, every operation
  exact): the body's arithmetic at an entry of the block; each window's block as a part of its array (a block's
  coordinate is index × size + the coordinate inside the block; the five row windows sit at block (0, 0)); what a grid
  point writes back is its block of ONE whole-array function of the six input arrays; the row blocks tile the output;
  so the output array after the region's last write-back is that function:
  max(((x + bias − mean) · rsqrt(var + ε)) · γ + β, 0), entry by entry.
-/
import proofs.«120348_j28252294873367_1_alg».proof.Proof.KI.Reg5
import proofs.«120348_j28252294873367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

/-! ## The body's arithmetic at an entry -/

/-- A one-row block broadcast down the rows reads, at row p and column q, the row's column q. -/
theorem bcastRow5_apply (x : FVec Ideal S1x300 .f32) (p : Fin 2000) (q : Fin 300) :
    broadcastTo S2000x300 x broadcasts_S1x300_S2000x300 (ix2 p q) = x (ix2 (0 : Fin 1) q) :=
  broadcastTo_apply x broadcasts_S1x300_S2000x300 (ix2 p q) (ix2 (0 : Fin 1) q) (fun a => by
    match a with
    | ⟨0, _⟩ => rfl
    | ⟨1, _⟩ => rfl)

/-- The reciprocal square root of a block, at an index, is that of the entry. -/
theorem rsqrt5_apply {s : Shape} {φ : FTy} (a : FVec Ideal s φ) (i : s.Idx) : rsqrt a i = Ideal.rsqrt (a i) := rfl

/-- The body's arithmetic at row p and column q of the block: the entry plus the bias, minus the mean, times the
    reciprocal square root of variance plus ε, times the scale, plus the shift, and the maximum with zero. -/
theorem pay5_apply (x0 : Vec Ideal S2000x300 .f32) (x1 x2 x3 x4 x5 : Vec Ideal S1x300 .f32) (p : Fin 2000) (q : Fin 300) :
    k5_pay1 x0 x1 x2 x3 x4 x5 (ix2 p q)
      = max ((((x0 (ix2 p q) + x1 (ix2 (0 : Fin 1) q) - x2 (ix2 (0 : Fin 1) q))
          * Ideal.rsqrt (x3 (ix2 (0 : Fin 1) q) + Ideal.ofBits .f32 0x3727C5AC#32)) * x4 (ix2 (0 : Fin 1) q))
          + x5 (ix2 (0 : Fin 1) q)) (Ideal.ofBits .f32 0x00000000#32) := by
  unfold k5_pay1
  simp only [shapeCast_self]
  simp only [maximumf_apply, addf_apply, mulf_apply, subf_apply, bcastRow5_apply, rsqrt5_apply, broadcast_apply]
  rfl

/-- The same at any index y of the block: the rows are read at y's column. -/
theorem pay5_at (x0 : Vec Ideal S2000x300 .f32) (x1 x2 x3 x4 x5 : Vec Ideal S1x300 .f32) (y : S2000x300.Idx) :
    k5_pay1 x0 x1 x2 x3 x4 x5 y
      = max ((((x0 y + x1 (ix2 (0 : Fin 1) (y 1 : Fin 300)) - x2 (ix2 (0 : Fin 1) (y 1 : Fin 300)))
          * Ideal.rsqrt (x3 (ix2 (0 : Fin 1) (y 1 : Fin 300)) + Ideal.ofBits .f32 0x3727C5AC#32)) * x4 (ix2 (0 : Fin 1) (y 1 : Fin 300)))
          + x5 (ix2 (0 : Fin 1) (y 1 : Fin 300))) (Ideal.ofBits .f32 0x00000000#32) := by
  obtain ⟨p, q, rfl⟩ : ∃ (p : Fin 2000) (q : Fin 300), y = ix2 p q := ⟨y 0, y 1, eq_ix2 y⟩
  exact pay5_apply x0 x1 x2 x3 x4 x5 p q

/-! ## The windows' blocks as parts of their arrays -/

theorem hz5 : (![0, 0] : Fin 2 → Nat) = fun _ => 0 := funext fun a => by fin_cases a <;> rfl

/-- The windows' block indices over the grid: the row-block windows (the input array's and the output's) are at
    block (t, 0) at point t, the five row windows at block (0, 0) throughout. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

/-- The input array's block at point t, at an index y of the block, is the array where the output's block has y:
    the two windows move together over the row blocks. -/
theorem blk5_0_eq (c : Dev nD) (t : Fin cfg5.N) (y : S2000x300.Idx) :
    (iblk5 V c 0 t : Vec Ideal S2000x300 .f32) y
      = (V c (Pipeline.arrRef spec5 0) : S100000x300.Idx → EReal) (((cfg5.win 6).blk t).view.emb y : S100000x300.Idx) := by
  obtain ⟨e0, e1, -, -, -, -, -, -, -, -, -, -, f0, f1⟩ := idx_facts5 t
  unfold iblk5
  rw [View.read_apply, cast_eq]
  refine congrArg (V c (Pipeline.arrRef spec5 0) : S100000x300.Idx → EReal) ?_
  funext a
  apply Fin.ext
  match a with
  | ⟨0, _⟩ => show win5_0.index t (0 : Fin 2) * 2000 + 1 * (y 0).val = win5_6.index t (0 : Fin 2) * 2000 + 1 * (y 0).val; omega
  | ⟨1, _⟩ => show win5_0.index t (1 : Fin 2) * 300 + 1 * (y 1).val = win5_6.index t (1 : Fin 2) * 300 + 1 * (y 1).val; omega

/-- A row window's block, at any point, read at the column of y, is its one-row array at the column where the output's
    block has y: the row windows stay at block (0, 0), and the output's blocks span all 300 columns. -/
theorem blk5_1_eq (c : Dev nD) (t : Fin cfg5.N) (y : S2000x300.Idx) :
    (iblk5 V c 1 t : Vec Ideal S1x300 .f32) (ix2 (0 : Fin 1) (y 1 : Fin 300))
      = (V c (Pipeline.arrRef spec5 1) : S1x300.Idx → EReal) (ix2 (0 : Fin 1) ((((cfg5.win 6).blk t).view.emb y : S100000x300.Idx) 1 : Fin 300)) := by
  obtain ⟨-, -, e0, e1, -, -, -, -, -, -, -, -, -, f1⟩ := idx_facts5 t
  unfold iblk5
  rw [View.read_apply, cast_eq]
  refine congrArg (V c (Pipeline.arrRef spec5 1) : S1x300.Idx → EReal) ?_
  funext a
  apply Fin.ext
  match a with
  | ⟨0, _⟩ => show win5_1.index t (0 : Fin 2) * 1 + 1 * 0 = 0; omega
  | ⟨1, _⟩ => show win5_1.index t (1 : Fin 2) * 300 + 1 * (y 1).val = win5_6.index t (1 : Fin 2) * 300 + 1 * (y 1).val; omega
theorem blk5_2_eq (c : Dev nD) (t : Fin cfg5.N) (y : S2000x300.Idx) :
    (iblk5 V c 2 t : Vec Ideal S1x300 .f32) (ix2 (0 : Fin 1) (y 1 : Fin 300))
      = (V c (Pipeline.arrRef spec5 2) : S1x300.Idx → EReal) (ix2 (0 : Fin 1) ((((cfg5.win 6).blk t).view.emb y : S100000x300.Idx) 1 : Fin 300)) := by
  obtain ⟨-, -, -, -, e0, e1, -, -, -, -, -, -, -, f1⟩ := idx_facts5 t
  unfold iblk5
  rw [View.read_apply, cast_eq]
  refine congrArg (V c (Pipeline.arrRef spec5 2) : S1x300.Idx → EReal) ?_
  funext a
  apply Fin.ext
  match a with
  | ⟨0, _⟩ => show win5_2.index t (0 : Fin 2) * 1 + 1 * 0 = 0; omega
  | ⟨1, _⟩ => show win5_2.index t (1 : Fin 2) * 300 + 1 * (y 1).val = win5_6.index t (1 : Fin 2) * 300 + 1 * (y 1).val; omega
theorem blk5_3_eq (c : Dev nD) (t : Fin cfg5.N) (y : S2000x300.Idx) :
    (iblk5 V c 3 t : Vec Ideal S1x300 .f32) (ix2 (0 : Fin 1) (y 1 : Fin 300))
      = (V c (Pipeline.arrRef spec5 3) : S1x300.Idx → EReal) (ix2 (0 : Fin 1) ((((cfg5.win 6).blk t).view.emb y : S100000x300.Idx) 1 : Fin 300)) := by
  obtain ⟨-, -, -, -, -, -, e0, e1, -, -, -, -, -, f1⟩ := idx_facts5 t
  unfold iblk5
  rw [View.read_apply, cast_eq]
  refine congrArg (V c (Pipeline.arrRef spec5 3) : S1x300.Idx → EReal) ?_
  funext a
  apply Fin.ext
  match a with
  | ⟨0, _⟩ => show win5_3.index t (0 : Fin 2) * 1 + 1 * 0 = 0; omega
  | ⟨1, _⟩ => show win5_3.index t (1 : Fin 2) * 300 + 1 * (y 1).val = win5_6.index t (1 : Fin 2) * 300 + 1 * (y 1).val; omega
theorem blk5_4_eq (c : Dev nD) (t : Fin cfg5.N) (y : S2000x300.Idx) :
    (iblk5 V c 4 t : Vec Ideal S1x300 .f32) (ix2 (0 : Fin 1) (y 1 : Fin 300))
      = (V c (Pipeline.arrRef spec5 4) : S1x300.Idx → EReal) (ix2 (0 : Fin 1) ((((cfg5.win 6).blk t).view.emb y : S100000x300.Idx) 1 : Fin 300)) := by
  obtain ⟨-, -, -, -, -, -, -, -, e0, e1, -, -, -, f1⟩ := idx_facts5 t
  unfold iblk5
  rw [View.read_apply, cast_eq]
  refine congrArg (V c (Pipeline.arrRef spec5 4) : S1x300.Idx → EReal) ?_
  funext a
  apply Fin.ext
  match a with
  | ⟨0, _⟩ => show win5_4.index t (0 : Fin 2) * 1 + 1 * 0 = 0; omega
  | ⟨1, _⟩ => show win5_4.index t (1 : Fin 2) * 300 + 1 * (y 1).val = win5_6.index t (1 : Fin 2) * 300 + 1 * (y 1).val; omega
theorem blk5_5_eq (c : Dev nD) (t : Fin cfg5.N) (y : S2000x300.Idx) :
    (iblk5 V c 5 t : Vec Ideal S1x300 .f32) (ix2 (0 : Fin 1) (y 1 : Fin 300))
      = (V c (Pipeline.arrRef spec5 5) : S1x300.Idx → EReal) (ix2 (0 : Fin 1) ((((cfg5.win 6).blk t).view.emb y : S100000x300.Idx) 1 : Fin 300)) := by
  obtain ⟨-, -, -, -, -, -, -, -, -, -, e0, e1, -, f1⟩ := idx_facts5 t
  unfold iblk5
  rw [View.read_apply, cast_eq]
  refine congrArg (V c (Pipeline.arrRef spec5 5) : S1x300.Idx → EReal) ?_
  funext a
  apply Fin.ext
  match a with
  | ⟨0, _⟩ => show win5_5.index t (0 : Fin 2) * 1 + 1 * 0 = 0; omega
  | ⟨1, _⟩ => show win5_5.index t (1 : Fin 2) * 300 + 1 * (y 1).val = win5_6.index t (1 : Fin 2) * 300 + 1 * (y 1).val; omega

/-! ## What a point writes back, the cover, the array after the region -/

/-- Equal entries give equal normalised and rectified values. -/
theorem norm5_congr {a a' b b' m m' v v' g g' s s' : EReal} (eps z : EReal)
    (ha : a = a') (hb : b = b') (hm : m = m') (hv : v = v') (hg : g = g') (hs : s = s') :
    max ((((a + b - m) * Ideal.rsqrt (v + eps)) * g) + s) z = max ((((a' + b' - m') * Ideal.rsqrt (v' + eps)) * g') + s') z := by
  rw [ha, hb, hm, hv, hg, hs]

/-- The body's arithmetic of the six blocks at point t, at an index y of the block, is the normalised and rectified
    array of the six arrays where the output's block has y. -/
theorem pay5_blk (c : Dev nD) (t : Fin cfg5.N) (y : S2000x300.Idx) :
    k5_pay1 (iblk5 V c 0 t) (iblk5 V c 1 t) (iblk5 V c 2 t) (iblk5 V c 3 t) (iblk5 V c 4 t) (iblk5 V c 5 t) y
      = Cert.Spec.normMax (M := 100000) (N := 300) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (Ideal.ofBits .f32 0x3727C5AC#32) (Ideal.ofBits .f32 0x00000000#32) (((cfg5.win 6).blk t).view.emb y : S100000x300.Idx) :=
  (pay5_at (iblk5 V c 0 t) (iblk5 V c 1 t) (iblk5 V c 2 t) (iblk5 V c 3 t) (iblk5 V c 4 t) (iblk5 V c 5 t) y).trans
    (norm5_congr (Ideal.ofBits .f32 0x3727C5AC#32) (Ideal.ofBits .f32 0x00000000#32) (blk5_0_eq V c t y) (blk5_1_eq V c t y) (blk5_2_eq V c t y)
      (blk5_3_eq V c t y) (blk5_4_eq V c t y) (blk5_5_eq V c t y))

/-- What the body leaves in the output's staging buffer at point t: its arithmetic of the six blocks. -/
theorem after5_6_pay (c : Dev nD) (t : Fin cfg5.N) :
    (dat5 (F := Ideal) V c).after 6 t = k5_pay1 (iblk5 V c 0 t) (iblk5 V c 1 t) (iblk5 V c 2 t) (iblk5 V c 3 t) (iblk5 V c 4 t) (iblk5 V c 5 t) := by
  rw [after5_6]
  unfold out5_6
  rw [View.canon_unit_zero hz5]
  simp only [View.ld_unit_zero (S := S2000x300) hz5, View.ld_unit_zero (S := S1x300) hz5]

/-- WHAT POINT t WRITES BACK is block t of the normalised and rectified array of the six arrays as the region finds them. -/
theorem flushed5_eq (c : Dev nD) (t : Fin cfg5.N) :
    (dat5 (F := Ideal) V c).flushed 6 t = ((cfg5.win 6).blk t).view.read (Elt Ideal)
      (Cert.Spec.normMax (M := 100000) (N := 300) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (Ideal.ofBits .f32 0x3727C5AC#32) (Ideal.ofBits .f32 0x00000000#32)) := by
  show (cfg5.win 6).cut (grid5.coords t) ((dat5 V c).after 6 t) = _
  rw [after5_6_pay V c t]
  funext j
  rw [View.read_apply, cast_eq]
  exact pay5_blk V c t j

/-- An index of the output array is in point t's block iff each coordinate is in the block's range on its axis. -/
theorem mem_blk5 (t : Fin cfg5.N) (i : S100000x300.Idx) :
    i ∈ ((cfg5.win 6).blk t).view.set ↔ ∀ a : Fin 2, win5_6.index t a * S2000x300.size a ≤ (i a).val ∧ (i a).val < win5_6.index t a * S2000x300.size a + S2000x300.size a := by
  show i ∈ ((View.whole (Pipeline.arrRef spec5 6)).slice (win5_6.rect t)).set ↔ _
  rw [View.set_slice_whole, Rect.mem_set_unit]
  exact Iff.rfl

/-- The row blocks tile the output array: row r is in the block of point r / 2000. -/
theorem cover5 (i : S100000x300.Idx) :
    ∃ t : Fin cfg5.N, (cfg5.win 6).flush t = true ∧ i ∈ ((cfg5.win 6).blk t).view.set := by
  have hi0 : (i 0).val < 100000 := (i 0).isLt
  have hi1 : (i 1).val < 300 := (i 1).isLt
  have hN : cfg5.N = 50 := N_5
  obtain ⟨t, ht⟩ : ∃ t : Fin cfg5.N, t.val = (i 0).val / 2000 := ⟨⟨(i 0).val / 2000, by omega⟩, rfl⟩
  obtain ⟨-, -, -, -, -, -, -, -, -, -, -, -, e0, e1⟩ := idx_facts5 t
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 300 ≤ (i 1).val ∧ (i 1).val < win5_6.index t (1 : Fin 2) * 300 + 300; omega

/-- THE OUTPUT ARRAY AFTER THE REGION is the normalised and rectified array of the six input arrays as the region
    found them: max(((x + bias − mean) · rsqrt(var + ε)) · γ + β, 0), entry by entry. -/
theorem final5 (c : Dev nD) :
    (dat5 (F := Ideal) V c).arrAt 6 cfg5.N
      = Cert.Spec.normMax (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (Ideal.ofBits .f32 0x3727C5AC#32) (Ideal.ofBits .f32 0x00000000#32) :=
  (dat5 (F := Ideal) V c).arrAt_eq_of_cover 6 _ (fun t _ => flushed5_eq V c t) (cover5)

end Cert.KernelIdeal.Val

end
-- ==== Proof.Val.NM8.lean ====
/-
  The value of the batch-normalisation region at the ideal instance (a float is an extended real, every operation
  exact): the body's arithmetic at an entry of the block; each window's block as a part of its array (a block's
  coordinate is index × size + the coordinate inside the block; the five row windows sit at block (0, 0)); what a grid
  point writes back is its block of ONE whole-array function of the six input arrays; the row blocks tile the output;
  so the output array after the region's last write-back is that function:
  max(((x + bias − mean) · rsqrt(var + ε)) · γ + β, 0), entry by entry.
-/
import proofs.«120348_j28252294873367_1_alg».proof.Proof.KI.Reg8
import proofs.«120348_j28252294873367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

/-! ## The body's arithmetic at an entry -/

/-- A one-row block broadcast down the rows reads, at row p and column q, the row's column q. -/
theorem bcastRow8_apply (x : FVec Ideal S1x300 .f32) (p : Fin 2000) (q : Fin 300) :
    broadcastTo S2000x300 x broadcasts_S1x300_S2000x300 (ix2 p q) = x (ix2 (0 : Fin 1) q) :=
  broadcastTo_apply x broadcasts_S1x300_S2000x300 (ix2 p q) (ix2 (0 : Fin 1) q) (fun a => by
    match a with
    | ⟨0, _⟩ => rfl
    | ⟨1, _⟩ => rfl)

/-- The reciprocal square root of a block, at an index, is that of the entry. -/
theorem rsqrt8_apply {s : Shape} {φ : FTy} (a : FVec Ideal s φ) (i : s.Idx) : rsqrt a i = Ideal.rsqrt (a i) := rfl

/-- The body's arithmetic at row p and column q of the block: the entry plus the bias, minus the mean, times the
    reciprocal square root of variance plus ε, times the scale, plus the shift, and the maximum with zero. -/
theorem pay8_apply (x0 : Vec Ideal S2000x300 .f32) (x1 x2 x3 x4 x5 : Vec Ideal S1x300 .f32) (p : Fin 2000) (q : Fin 300) :
    k8_pay1 x0 x1 x2 x3 x4 x5 (ix2 p q)
      = max ((((x0 (ix2 p q) + x1 (ix2 (0 : Fin 1) q) - x2 (ix2 (0 : Fin 1) q))
          * Ideal.rsqrt (x3 (ix2 (0 : Fin 1) q) + Ideal.ofBits .f32 0x3727C5AC#32)) * x4 (ix2 (0 : Fin 1) q))
          + x5 (ix2 (0 : Fin 1) q)) (Ideal.ofBits .f32 0x00000000#32) := by
  unfold k8_pay1
  simp only [shapeCast_self]
  simp only [maximumf_apply, addf_apply, mulf_apply, subf_apply, bcastRow8_apply, rsqrt8_apply, broadcast_apply]
  rfl

/-- The same at any index y of the block: the rows are read at y's column. -/
theorem pay8_at (x0 : Vec Ideal S2000x300 .f32) (x1 x2 x3 x4 x5 : Vec Ideal S1x300 .f32) (y : S2000x300.Idx) :
    k8_pay1 x0 x1 x2 x3 x4 x5 y
      = max ((((x0 y + x1 (ix2 (0 : Fin 1) (y 1 : Fin 300)) - x2 (ix2 (0 : Fin 1) (y 1 : Fin 300)))
          * Ideal.rsqrt (x3 (ix2 (0 : Fin 1) (y 1 : Fin 300)) + Ideal.ofBits .f32 0x3727C5AC#32)) * x4 (ix2 (0 : Fin 1) (y 1 : Fin 300)))
          + x5 (ix2 (0 : Fin 1) (y 1 : Fin 300))) (Ideal.ofBits .f32 0x00000000#32) := by
  obtain ⟨p, q, rfl⟩ : ∃ (p : Fin 2000) (q : Fin 300), y = ix2 p q := ⟨y 0, y 1, eq_ix2 y⟩
  exact pay8_apply x0 x1 x2 x3 x4 x5 p q

/-! ## The windows' blocks as parts of their arrays -/

theorem hz8 : (![0, 0] : Fin 2 → Nat) = fun _ => 0 := funext fun a => by fin_cases a <;> rfl

/-- The windows' block indices over the grid: the row-block windows (the input array's and the output's) are at
    block (t, 0) at point t, the five row windows at block (0, 0) throughout. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

variable (V : (c : Dev nD) → (b : Ref sig .tc) → Buf (Elt Ideal) ((c : Thread nD τ).loc b))

/-- The input array's block at point t, at an index y of the block, is the array where the output's block has y:
    the two windows move together over the row blocks. -/
theorem blk8_0_eq (c : Dev nD) (t : Fin cfg8.N) (y : S2000x300.Idx) :
    (iblk8 V c 0 t : Vec Ideal S2000x300 .f32) y
      = (V c (Pipeline.arrRef spec8 0) : S100000x300.Idx → EReal) (((cfg8.win 6).blk t).view.emb y : S100000x300.Idx) := by
  obtain ⟨e0, e1, -, -, -, -, -, -, -, -, -, -, f0, f1⟩ := idx_facts8 t
  unfold iblk8
  rw [View.read_apply, cast_eq]
  refine congrArg (V c (Pipeline.arrRef spec8 0) : S100000x300.Idx → EReal) ?_
  funext a
  apply Fin.ext
  match a with
  | ⟨0, _⟩ => show win8_0.index t (0 : Fin 2) * 2000 + 1 * (y 0).val = win8_6.index t (0 : Fin 2) * 2000 + 1 * (y 0).val; omega
  | ⟨1, _⟩ => show win8_0.index t (1 : Fin 2) * 300 + 1 * (y 1).val = win8_6.index t (1 : Fin 2) * 300 + 1 * (y 1).val; omega

/-- A row window's block, at any point, read at the column of y, is its one-row array at the column where the output's
    block has y: the row windows stay at block (0, 0), and the output's blocks span all 300 columns. -/
theorem blk8_1_eq (c : Dev nD) (t : Fin cfg8.N) (y : S2000x300.Idx) :
    (iblk8 V c 1 t : Vec Ideal S1x300 .f32) (ix2 (0 : Fin 1) (y 1 : Fin 300))
      = (V c (Pipeline.arrRef spec8 1) : S1x300.Idx → EReal) (ix2 (0 : Fin 1) ((((cfg8.win 6).blk t).view.emb y : S100000x300.Idx) 1 : Fin 300)) := by
  obtain ⟨-, -, e0, e1, -, -, -, -, -, -, -, -, -, f1⟩ := idx_facts8 t
  unfold iblk8
  rw [View.read_apply, cast_eq]
  refine congrArg (V c (Pipeline.arrRef spec8 1) : S1x300.Idx → EReal) ?_
  funext a
  apply Fin.ext
  match a with
  | ⟨0, _⟩ => show win8_1.index t (0 : Fin 2) * 1 + 1 * 0 = 0; omega
  | ⟨1, _⟩ => show win8_1.index t (1 : Fin 2) * 300 + 1 * (y 1).val = win8_6.index t (1 : Fin 2) * 300 + 1 * (y 1).val; omega
theorem blk8_2_eq (c : Dev nD) (t : Fin cfg8.N) (y : S2000x300.Idx) :
    (iblk8 V c 2 t : Vec Ideal S1x300 .f32) (ix2 (0 : Fin 1) (y 1 : Fin 300))
      = (V c (Pipeline.arrRef spec8 2) : S1x300.Idx → EReal) (ix2 (0 : Fin 1) ((((cfg8.win 6).blk t).view.emb y : S100000x300.Idx) 1 : Fin 300)) := by
  obtain ⟨-, -, -, -, e0, e1, -, -, -, -, -, -, -, f1⟩ := idx_facts8 t
  unfold iblk8
  rw [View.read_apply, cast_eq]
  refine congrArg (V c (Pipeline.arrRef spec8 2) : S1x300.Idx → EReal) ?_
  funext a
  apply Fin.ext
  match a with
  | ⟨0, _⟩ => show win8_2.index t (0 : Fin 2) * 1 + 1 * 0 = 0; omega
  | ⟨1, _⟩ => show win8_2.index t (1 : Fin 2) * 300 + 1 * (y 1).val = win8_6.index t (1 : Fin 2) * 300 + 1 * (y 1).val; omega
theorem blk8_3_eq (c : Dev nD) (t : Fin cfg8.N) (y : S2000x300.Idx) :
    (iblk8 V c 3 t : Vec Ideal S1x300 .f32) (ix2 (0 : Fin 1) (y 1 : Fin 300))
      = (V c (Pipeline.arrRef spec8 3) : S1x300.Idx → EReal) (ix2 (0 : Fin 1) ((((cfg8.win 6).blk t).view.emb y : S100000x300.Idx) 1 : Fin 300)) := by
  obtain ⟨-, -, -, -, -, -, e0, e1, -, -, -, -, -, f1⟩ := idx_facts8 t
  unfold iblk8
  rw [View.read_apply, cast_eq]
  refine congrArg (V c (Pipeline.arrRef spec8 3) : S1x300.Idx → EReal) ?_
  funext a
  apply Fin.ext
  match a with
  | ⟨0, _⟩ => show win8_3.index t (0 : Fin 2) * 1 + 1 * 0 = 0; omega
  | ⟨1, _⟩ => show win8_3.index t (1 : Fin 2) * 300 + 1 * (y 1).val = win8_6.index t (1 : Fin 2) * 300 + 1 * (y 1).val; omega
theorem blk8_4_eq (c : Dev nD) (t : Fin cfg8.N) (y : S2000x300.Idx) :
    (iblk8 V c 4 t : Vec Ideal S1x300 .f32) (ix2 (0 : Fin 1) (y 1 : Fin 300))
      = (V c (Pipeline.arrRef spec8 4) : S1x300.Idx → EReal) (ix2 (0 : Fin 1) ((((cfg8.win 6).blk t).view.emb y : S100000x300.Idx) 1 : Fin 300)) := by
  obtain ⟨-, -, -, -, -, -, -, -, e0, e1, -, -, -, f1⟩ := idx_facts8 t
  unfold iblk8
  rw [View.read_apply, cast_eq]
  refine congrArg (V c (Pipeline.arrRef spec8 4) : S1x300.Idx → EReal) ?_
  funext a
  apply Fin.ext
  match a with
  | ⟨0, _⟩ => show win8_4.index t (0 : Fin 2) * 1 + 1 * 0 = 0; omega
  | ⟨1, _⟩ => show win8_4.index t (1 : Fin 2) * 300 + 1 * (y 1).val = win8_6.index t (1 : Fin 2) * 300 + 1 * (y 1).val; omega
theorem blk8_5_eq (c : Dev nD) (t : Fin cfg8.N) (y : S2000x300.Idx) :
    (iblk8 V c 5 t : Vec Ideal S1x300 .f32) (ix2 (0 : Fin 1) (y 1 : Fin 300))
      = (V c (Pipeline.arrRef spec8 5) : S1x300.Idx → EReal) (ix2 (0 : Fin 1) ((((cfg8.win 6).blk t).view.emb y : S100000x300.Idx) 1 : Fin 300)) := by
  obtain ⟨-, -, -, -, -, -, -, -, -, -, e0, e1, -, f1⟩ := idx_facts8 t
  unfold iblk8
  rw [View.read_apply, cast_eq]
  refine congrArg (V c (Pipeline.arrRef spec8 5) : S1x300.Idx → EReal) ?_
  funext a
  apply Fin.ext
  match a with
  | ⟨0, _⟩ => show win8_5.index t (0 : Fin 2) * 1 + 1 * 0 = 0; omega
  | ⟨1, _⟩ => show win8_5.index t (1 : Fin 2) * 300 + 1 * (y 1).val = win8_6.index t (1 : Fin 2) * 300 + 1 * (y 1).val; omega

/-! ## What a point writes back, the cover, the array after the region -/

/-- Equal entries give equal normalised and rectified values. -/
theorem norm8_congr {a a' b b' m m' v v' g g' s s' : EReal} (eps z : EReal)
    (ha : a = a') (hb : b = b') (hm : m = m') (hv : v = v') (hg : g = g') (hs : s = s') :
    max ((((a + b - m) * Ideal.rsqrt (v + eps)) * g) + s) z = max ((((a' + b' - m') * Ideal.rsqrt (v' + eps)) * g') + s') z := by
  rw [ha, hb, hm, hv, hg, hs]

/-- The body's arithmetic of the six blocks at point t, at an index y of the block, is the normalised and rectified
    array of the six arrays where the output's block has y. -/
theorem pay8_blk (c : Dev nD) (t : Fin cfg8.N) (y : S2000x300.Idx) :
    k8_pay1 (iblk8 V c 0 t) (iblk8 V c 1 t) (iblk8 V c 2 t) (iblk8 V c 3 t) (iblk8 V c 4 t) (iblk8 V c 5 t) y
      = Cert.Spec.normMax (M := 100000) (N := 300) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (Ideal.ofBits .f32 0x3727C5AC#32) (Ideal.ofBits .f32 0x00000000#32) (((cfg8.win 6).blk t).view.emb y : S100000x300.Idx) :=
  (pay8_at (iblk8 V c 0 t) (iblk8 V c 1 t) (iblk8 V c 2 t) (iblk8 V c 3 t) (iblk8 V c 4 t) (iblk8 V c 5 t) y).trans
    (norm8_congr (Ideal.ofBits .f32 0x3727C5AC#32) (Ideal.ofBits .f32 0x00000000#32) (blk8_0_eq V c t y) (blk8_1_eq V c t y) (blk8_2_eq V c t y)
      (blk8_3_eq V c t y) (blk8_4_eq V c t y) (blk8_5_eq V c t y))

/-- What the body leaves in the output's staging buffer at point t: its arithmetic of the six blocks. -/
theorem after8_6_pay (c : Dev nD) (t : Fin cfg8.N) :
    (dat8 (F := Ideal) V c).after 6 t = k8_pay1 (iblk8 V c 0 t) (iblk8 V c 1 t) (iblk8 V c 2 t) (iblk8 V c 3 t) (iblk8 V c 4 t) (iblk8 V c 5 t) := by
  rw [after8_6]
  unfold out8_6
  rw [View.canon_unit_zero hz8]
  simp only [View.ld_unit_zero (S := S2000x300) hz8, View.ld_unit_zero (S := S1x300) hz8]

/-- WHAT POINT t WRITES BACK is block t of the normalised and rectified array of the six arrays as the region finds them. -/
theorem flushed8_eq (c : Dev nD) (t : Fin cfg8.N) :
    (dat8 (F := Ideal) V c).flushed 6 t = ((cfg8.win 6).blk t).view.read (Elt Ideal)
      (Cert.Spec.normMax (M := 100000) (N := 300) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (Ideal.ofBits .f32 0x3727C5AC#32) (Ideal.ofBits .f32 0x00000000#32)) := by
  show (cfg8.win 6).cut (grid8.coords t) ((dat8 V c).after 6 t) = _
  rw [after8_6_pay V c t]
  funext j
  rw [View.read_apply, cast_eq]
  exact pay8_blk V c t j

/-- An index of the output array is in point t's block iff each coordinate is in the block's range on its axis. -/
theorem mem_blk8 (t : Fin cfg8.N) (i : S100000x300.Idx) :
    i ∈ ((cfg8.win 6).blk t).view.set ↔ ∀ a : Fin 2, win8_6.index t a * S2000x300.size a ≤ (i a).val ∧ (i a).val < win8_6.index t a * S2000x300.size a + S2000x300.size a := by
  show i ∈ ((View.whole (Pipeline.arrRef spec8 6)).slice (win8_6.rect t)).set ↔ _
  rw [View.set_slice_whole, Rect.mem_set_unit]
  exact Iff.rfl

/-- The row blocks tile the output array: row r is in the block of point r / 2000. -/
theorem cover8 (i : S100000x300.Idx) :
    ∃ t : Fin cfg8.N, (cfg8.win 6).flush t = true ∧ i ∈ ((cfg8.win 6).blk t).view.set := by
  have hi0 : (i 0).val < 100000 := (i 0).isLt
  have hi1 : (i 1).val < 300 := (i 1).isLt
  have hN : cfg8.N = 50 := N_8
  obtain ⟨t, ht⟩ : ∃ t : Fin cfg8.N, t.val = (i 0).val / 2000 := ⟨⟨(i 0).val / 2000, by omega⟩, rfl⟩
  obtain ⟨-, -, -, -, -, -, -, -, -, -, -, -, e0, e1⟩ := idx_facts8 t
  refine ⟨t, flush8_6 t, ?_⟩
  rw [mem_blk8]
  intro a
  match a with
  | ⟨0, _⟩ => show win8_6.index t (0 : Fin 2) * 2000 ≤ (i 0).val ∧ (i 0).val < win8_6.index t (0 : Fin 2) * 2000 + 2000; omega
  | ⟨1, _⟩ => show win8_6.index t (1 : Fin 2) * 300 ≤ (i 1).val ∧ (i 1).val < win8_6.index t (1 : Fin 2) * 300 + 300; omega

/-- THE OUTPUT ARRAY AFTER THE REGION is the normalised and rectified array of the six input arrays as the region
    found them: max(((x + bias − mean) · rsqrt(var + ε)) · γ + β, 0), entry by entry. -/
theorem final8 (c : Dev nD) :
    (dat8 (F := Ideal) V c).arrAt 6 cfg8.N
      = Cert.Spec.normMax (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (Ideal.ofBits .f32 0x3727C5AC#32) (Ideal.ofBits .f32 0x00000000#32) :=
  (dat8 (F := Ideal) V c).arrAt_eq_of_cover 6 _ (fun t _ => flushed8_eq V c t) (cover8)

end Cert.KernelIdeal.Val

end
-- ==== Proof.Val.NM11.lean ====
/-
  The value of the batch-normalisation region at the ideal instance (a float is an extended real, every operation
  exact): the body's arithmetic at an entry of the block; each window's block as a part of its array (a block's
  coordinate is index × size + the coordinate inside the block; the five row windows sit at block (0, 0)); what a grid
  point writes back is its block of ONE whole-array function of the six input arrays; the row blocks tile the output;
  so the output array after the region's last write-back is that function:
  max(((x + bias − mean) · rsqrt(var + ε)) · γ + β, 0), entry by entry.
-/
import proofs.«120348_j28252294873367_1_alg».proof.Proof.KI.Reg11
import proofs.«120348_j28252294873367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

/-! ## The body's arithmetic at an entry -/

/-- A one-row block broadcast down the rows reads, at row p and column q, the row's column q. -/
theorem bcastRow11_apply (x : FVec Ideal S1x300 .f32) (p : Fin 2000) (q : Fin 300) :
    broadcastTo S2000x300 x broadcasts_S1x300_S2000x300 (ix2 p q) = x (ix2 (0 : Fin 1) q) :=
  broadcastTo_apply x broadcasts_S1x300_S2000x300 (ix2 p q) (ix2 (0 : Fin 1) q) (fun a => by
    match a with
    | ⟨0, _⟩ => rfl
    | ⟨1, _⟩ => rfl)

/-- The reciprocal square root of a block, at an index, is that of the entry. -/
theorem rsqrt11_apply {s : Shape} {φ : FTy} (a : FVec Ideal s φ) (i : s.Idx) : rsqrt a i = Ideal.rsqrt (a i) := rfl

/-- The body's arithmetic at row p and column q of the block: the entry plus the bias, minus the mean, times the
    reciprocal square root of variance plus ε, times the scale, plus the shift, and the maximum with zero. -/
theorem pay11_apply (x0 : Vec Ideal S2000x300 .f32) (x1 x2 x3 x4 x5 : Vec Ideal S1x300 .f32) (p : Fin 2000) (q : Fin 300) :
    k11_pay1 x0 x1 x2 x3 x4 x5 (ix2 p q)
      = max ((((x0 (ix2 p q) + x1 (ix2 (0 : Fin 1) q) - x2 (ix2 (0 : Fin 1) q))
          * Ideal.rsqrt (x3 (ix2 (0 : Fin 1) q) + Ideal.ofBits .f32 0x3727C5AC#32)) * x4 (ix2 (0 : Fin 1) q))
          + x5 (ix2 (0 : Fin 1) q)) (Ideal.ofBits .f32 0x00000000#32) := by
  unfold k11_pay1
  simp only [shapeCast_self]
  simp only [maximumf_apply, addf_apply, mulf_apply, subf_apply, bcastRow11_apply, rsqrt11_apply, broadcast_apply]
  rfl

/-- The same at any index y of the block: the rows are read at y's column. -/
theorem pay11_at (x0 : Vec Ideal S2000x300 .f32) (x1 x2 x3 x4 x5 : Vec Ideal S1x300 .f32) (y : S2000x300.Idx) :
    k11_pay1 x0 x1 x2 x3 x4 x5 y
      = max ((((x0 y + x1 (ix2 (0 : Fin 1) (y 1 : Fin 300)) - x2 (ix2 (0 : Fin 1) (y 1 : Fin 300)))
          * Ideal.rsqrt (x3 (ix2 (0 : Fin 1) (y 1 : Fin 300)) + Ideal.ofBits .f32 0x3727C5AC#32)) * x4 (ix2 (0 : Fin 1) (y 1 : Fin 300)))
          + x5 (ix2 (0 : Fin 1) (y 1 : Fin 300))) (Ideal.ofBits .f32 0x00000000#32) := by
  obtain ⟨p, q, rfl⟩ : ∃ (p : Fin 2000) (q : Fin 300), y = ix2 p q := ⟨y 0, y 1, eq_ix2 y⟩
  exact pay11_apply x0 x1 x2 x3 x4 x5 p q

/-! ## The windows' blocks as parts of their arrays -/

theorem hz11 : (![0, 0] : Fin 2 → Nat) = fun _ => 0 := funext fun a => by fin_cases a <;> rfl

/-- The windows' block indices over the grid: the row-block windows (the input array's and the output's) are at
    block (t, 0) at point t, the five row windows at block (0, 0) throughout. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

variable (V : (c : Dev nD) → (b : Ref sig .tc) → Buf (Elt Ideal) ((c : Thread nD τ).loc b))

/-- The input array's block at point t, at an index y of the block, is the array where the output's block has y:
    the two windows move together over the row blocks. -/
theorem blk11_0_eq (c : Dev nD) (t : Fin cfg11.N) (y : S2000x300.Idx) :
    (iblk11 V c 0 t : Vec Ideal S2000x300 .f32) y
      = (V c (Pipeline.arrRef spec11 0) : S100000x300.Idx → EReal) (((cfg11.win 6).blk t).view.emb y : S100000x300.Idx) := by
  obtain ⟨e0, e1, -, -, -, -, -, -, -, -, -, -, f0, f1⟩ := idx_facts11 t
  unfold iblk11
  rw [View.read_apply, cast_eq]
  refine congrArg (V c (Pipeline.arrRef spec11 0) : S100000x300.Idx → EReal) ?_
  funext a
  apply Fin.ext
  match a with
  | ⟨0, _⟩ => show win11_0.index t (0 : Fin 2) * 2000 + 1 * (y 0).val = win11_6.index t (0 : Fin 2) * 2000 + 1 * (y 0).val; omega
  | ⟨1, _⟩ => show win11_0.index t (1 : Fin 2) * 300 + 1 * (y 1).val = win11_6.index t (1 : Fin 2) * 300 + 1 * (y 1).val; omega

/-- A row window's block, at any point, read at the column of y, is its one-row array at the column where the output's
    block has y: the row windows stay at block (0, 0), and the output's blocks span all 300 columns. -/
theorem blk11_1_eq (c : Dev nD) (t : Fin cfg11.N) (y : S2000x300.Idx) :
    (iblk11 V c 1 t : Vec Ideal S1x300 .f32) (ix2 (0 : Fin 1) (y 1 : Fin 300))
      = (V c (Pipeline.arrRef spec11 1) : S1x300.Idx → EReal) (ix2 (0 : Fin 1) ((((cfg11.win 6).blk t).view.emb y : S100000x300.Idx) 1 : Fin 300)) := by
  obtain ⟨-, -, e0, e1, -, -, -, -, -, -, -, -, -, f1⟩ := idx_facts11 t
  unfold iblk11
  rw [View.read_apply, cast_eq]
  refine congrArg (V c (Pipeline.arrRef spec11 1) : S1x300.Idx → EReal) ?_
  funext a
  apply Fin.ext
  match a with
  | ⟨0, _⟩ => show win11_1.index t (0 : Fin 2) * 1 + 1 * 0 = 0; omega
  | ⟨1, _⟩ => show win11_1.index t (1 : Fin 2) * 300 + 1 * (y 1).val = win11_6.index t (1 : Fin 2) * 300 + 1 * (y 1).val; omega
theorem blk11_2_eq (c : Dev nD) (t : Fin cfg11.N) (y : S2000x300.Idx) :
    (iblk11 V c 2 t : Vec Ideal S1x300 .f32) (ix2 (0 : Fin 1) (y 1 : Fin 300))
      = (V c (Pipeline.arrRef spec11 2) : S1x300.Idx → EReal) (ix2 (0 : Fin 1) ((((cfg11.win 6).blk t).view.emb y : S100000x300.Idx) 1 : Fin 300)) := by
  obtain ⟨-, -, -, -, e0, e1, -, -, -, -, -, -, -, f1⟩ := idx_facts11 t
  unfold iblk11
  rw [View.read_apply, cast_eq]
  refine congrArg (V c (Pipeline.arrRef spec11 2) : S1x300.Idx → EReal) ?_
  funext a
  apply Fin.ext
  match a with
  | ⟨0, _⟩ => show win11_2.index t (0 : Fin 2) * 1 + 1 * 0 = 0; omega
  | ⟨1, _⟩ => show win11_2.index t (1 : Fin 2) * 300 + 1 * (y 1).val = win11_6.index t (1 : Fin 2) * 300 + 1 * (y 1).val; omega
theorem blk11_3_eq (c : Dev nD) (t : Fin cfg11.N) (y : S2000x300.Idx) :
    (iblk11 V c 3 t : Vec Ideal S1x300 .f32) (ix2 (0 : Fin 1) (y 1 : Fin 300))
      = (V c (Pipeline.arrRef spec11 3) : S1x300.Idx → EReal) (ix2 (0 : Fin 1) ((((cfg11.win 6).blk t).view.emb y : S100000x300.Idx) 1 : Fin 300)) := by
  obtain ⟨-, -, -, -, -, -, e0, e1, -, -, -, -, -, f1⟩ := idx_facts11 t
  unfold iblk11
  rw [View.read_apply, cast_eq]
  refine congrArg (V c (Pipeline.arrRef spec11 3) : S1x300.Idx → EReal) ?_
  funext a
  apply Fin.ext
  match a with
  | ⟨0, _⟩ => show win11_3.index t (0 : Fin 2) * 1 + 1 * 0 = 0; omega
  | ⟨1, _⟩ => show win11_3.index t (1 : Fin 2) * 300 + 1 * (y 1).val = win11_6.index t (1 : Fin 2) * 300 + 1 * (y 1).val; omega
theorem blk11_4_eq (c : Dev nD) (t : Fin cfg11.N) (y : S2000x300.Idx) :
    (iblk11 V c 4 t : Vec Ideal S1x300 .f32) (ix2 (0 : Fin 1) (y 1 : Fin 300))
      = (V c (Pipeline.arrRef spec11 4) : S1x300.Idx → EReal) (ix2 (0 : Fin 1) ((((cfg11.win 6).blk t).view.emb y : S100000x300.Idx) 1 : Fin 300)) := by
  obtain ⟨-, -, -, -, -, -, -, -, e0, e1, -, -, -, f1⟩ := idx_facts11 t
  unfold iblk11
  rw [View.read_apply, cast_eq]
  refine congrArg (V c (Pipeline.arrRef spec11 4) : S1x300.Idx → EReal) ?_
  funext a
  apply Fin.ext
  match a with
  | ⟨0, _⟩ => show win11_4.index t (0 : Fin 2) * 1 + 1 * 0 = 0; omega
  | ⟨1, _⟩ => show win11_4.index t (1 : Fin 2) * 300 + 1 * (y 1).val = win11_6.index t (1 : Fin 2) * 300 + 1 * (y 1).val; omega
theorem blk11_5_eq (c : Dev nD) (t : Fin cfg11.N) (y : S2000x300.Idx) :
    (iblk11 V c 5 t : Vec Ideal S1x300 .f32) (ix2 (0 : Fin 1) (y 1 : Fin 300))
      = (V c (Pipeline.arrRef spec11 5) : S1x300.Idx → EReal) (ix2 (0 : Fin 1) ((((cfg11.win 6).blk t).view.emb y : S100000x300.Idx) 1 : Fin 300)) := by
  obtain ⟨-, -, -, -, -, -, -, -, -, -, e0, e1, -, f1⟩ := idx_facts11 t
  unfold iblk11
  rw [View.read_apply, cast_eq]
  refine congrArg (V c (Pipeline.arrRef spec11 5) : S1x300.Idx → EReal) ?_
  funext a
  apply Fin.ext
  match a with
  | ⟨0, _⟩ => show win11_5.index t (0 : Fin 2) * 1 + 1 * 0 = 0; omega
  | ⟨1, _⟩ => show win11_5.index t (1 : Fin 2) * 300 + 1 * (y 1).val = win11_6.index t (1 : Fin 2) * 300 + 1 * (y 1).val; omega

/-! ## What a point writes back, the cover, the array after the region -/

/-- Equal entries give equal normalised and rectified values. -/
theorem norm11_congr {a a' b b' m m' v v' g g' s s' : EReal} (eps z : EReal)
    (ha : a = a') (hb : b = b') (hm : m = m') (hv : v = v') (hg : g = g') (hs : s = s') :
    max ((((a + b - m) * Ideal.rsqrt (v + eps)) * g) + s) z = max ((((a' + b' - m') * Ideal.rsqrt (v' + eps)) * g') + s') z := by
  rw [ha, hb, hm, hv, hg, hs]

/-- The body's arithmetic of the six blocks at point t, at an index y of the block, is the normalised and rectified
    array of the six arrays where the output's block has y. -/
theorem pay11_blk (c : Dev nD) (t : Fin cfg11.N) (y : S2000x300.Idx) :
    k11_pay1 (iblk11 V c 0 t) (iblk11 V c 1 t) (iblk11 V c 2 t) (iblk11 V c 3 t) (iblk11 V c 4 t) (iblk11 V c 5 t) y
      = Cert.Spec.normMax (M := 100000) (N := 300) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))
        (Ideal.ofBits .f32 0x3727C5AC#32) (Ideal.ofBits .f32 0x00000000#32) (((cfg11.win 6).blk t).view.emb y : S100000x300.Idx) :=
  (pay11_at (iblk11 V c 0 t) (iblk11 V c 1 t) (iblk11 V c 2 t) (iblk11 V c 3 t) (iblk11 V c 4 t) (iblk11 V c 5 t) y).trans
    (norm11_congr (Ideal.ofBits .f32 0x3727C5AC#32) (Ideal.ofBits .f32 0x00000000#32) (blk11_0_eq V c t y) (blk11_1_eq V c t y) (blk11_2_eq V c t y)
      (blk11_3_eq V c t y) (blk11_4_eq V c t y) (blk11_5_eq V c t y))

/-- What the body leaves in the output's staging buffer at point t: its arithmetic of the six blocks. -/
theorem after11_6_pay (c : Dev nD) (t : Fin cfg11.N) :
    (dat11 (F := Ideal) V c).after 6 t = k11_pay1 (iblk11 V c 0 t) (iblk11 V c 1 t) (iblk11 V c 2 t) (iblk11 V c 3 t) (iblk11 V c 4 t) (iblk11 V c 5 t) := by
  rw [after11_6]
  unfold out11_6
  rw [View.canon_unit_zero hz11]
  simp only [View.ld_unit_zero (S := S2000x300) hz11, View.ld_unit_zero (S := S1x300) hz11]

/-- WHAT POINT t WRITES BACK is block t of the normalised and rectified array of the six arrays as the region finds them. -/
theorem flushed11_eq (c : Dev nD) (t : Fin cfg11.N) :
    (dat11 (F := Ideal) V c).flushed 6 t = ((cfg11.win 6).blk t).view.read (Elt Ideal)
      (Cert.Spec.normMax (M := 100000) (N := 300) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))
        (Ideal.ofBits .f32 0x3727C5AC#32) (Ideal.ofBits .f32 0x00000000#32)) := by
  show (cfg11.win 6).cut (grid11.coords t) ((dat11 V c).after 6 t) = _
  rw [after11_6_pay V c t]
  funext j
  rw [View.read_apply, cast_eq]
  exact pay11_blk V c t j

/-- An index of the output array is in point t's block iff each coordinate is in the block's range on its axis. -/
theorem mem_blk11 (t : Fin cfg11.N) (i : S100000x300.Idx) :
    i ∈ ((cfg11.win 6).blk t).view.set ↔ ∀ a : Fin 2, win11_6.index t a * S2000x300.size a ≤ (i a).val ∧ (i a).val < win11_6.index t a * S2000x300.size a + S2000x300.size a := by
  show i ∈ ((View.whole (Pipeline.arrRef spec11 6)).slice (win11_6.rect t)).set ↔ _
  rw [View.set_slice_whole, Rect.mem_set_unit]
  exact Iff.rfl

/-- The row blocks tile the output array: row r is in the block of point r / 2000. -/
theorem cover11 (i : S100000x300.Idx) :
    ∃ t : Fin cfg11.N, (cfg11.win 6).flush t = true ∧ i ∈ ((cfg11.win 6).blk t).view.set := by
  have hi0 : (i 0).val < 100000 := (i 0).isLt
  have hi1 : (i 1).val < 300 := (i 1).isLt
  have hN : cfg11.N = 50 := N_11
  obtain ⟨t, ht⟩ : ∃ t : Fin cfg11.N, t.val = (i 0).val / 2000 := ⟨⟨(i 0).val / 2000, by omega⟩, rfl⟩
  obtain ⟨-, -, -, -, -, -, -, -, -, -, -, -, e0, e1⟩ := idx_facts11 t
  refine ⟨t, flush11_6 t, ?_⟩
  rw [mem_blk11]
  intro a
  match a with
  | ⟨0, _⟩ => show win11_6.index t (0 : Fin 2) * 2000 ≤ (i 0).val ∧ (i 0).val < win11_6.index t (0 : Fin 2) * 2000 + 2000; omega
  | ⟨1, _⟩ => show win11_6.index t (1 : Fin 2) * 300 ≤ (i 1).val ∧ (i 1).val < win11_6.index t (1 : Fin 2) * 300 + 300; omega

/-- THE OUTPUT ARRAY AFTER THE REGION is the normalised and rectified array of the six input arrays as the region
    found them: max(((x + bias − mean) · rsqrt(var + ε)) · γ + β, 0), entry by entry. -/
theorem final11 (c : Dev nD) :
    (dat11 (F := Ideal) V c).arrAt 6 cfg11.N
      = Cert.Spec.normMax (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))
        (Ideal.ofBits .f32 0x3727C5AC#32) (Ideal.ofBits .f32 0x00000000#32) :=
  (dat11 (F := Ideal) V c).arrAt_eq_of_cover 6 _ (fun t _ => flushed11_eq V c t) (cover11)

end Cert.KernelIdeal.Val

end
-- ==== Proof.Val.NM14.lean ====
/-
  The value of the batch-normalisation region at the ideal instance (a float is an extended real, every operation
  exact): the body's arithmetic at an entry of the block; each window's block as a part of its array (a block's
  coordinate is index × size + the coordinate inside the block; the five row windows sit at block (0, 0)); what a grid
  point writes back is its block of ONE whole-array function of the six input arrays; the row blocks tile the output;
  so the output array after the region's last write-back is that function:
  max(((x + bias − mean) · rsqrt(var + ε)) · γ + β, 0), entry by entry.
-/
import proofs.«120348_j28252294873367_1_alg».proof.Proof.KI.Reg14
import proofs.«120348_j28252294873367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

/-! ## The body's arithmetic at an entry -/

/-- A one-row block broadcast down the rows reads, at row p and column q, the row's column q. -/
theorem bcastRow14_apply (x : FVec Ideal S1x300 .f32) (p : Fin 2000) (q : Fin 300) :
    broadcastTo S2000x300 x broadcasts_S1x300_S2000x300 (ix2 p q) = x (ix2 (0 : Fin 1) q) :=
  broadcastTo_apply x broadcasts_S1x300_S2000x300 (ix2 p q) (ix2 (0 : Fin 1) q) (fun a => by
    match a with
    | ⟨0, _⟩ => rfl
    | ⟨1, _⟩ => rfl)

/-- The reciprocal square root of a block, at an index, is that of the entry. -/
theorem rsqrt14_apply {s : Shape} {φ : FTy} (a : FVec Ideal s φ) (i : s.Idx) : rsqrt a i = Ideal.rsqrt (a i) := rfl

/-- The body's arithmetic at row p and column q of the block: the entry plus the bias, minus the mean, times the
    reciprocal square root of variance plus ε, times the scale, plus the shift, and the maximum with zero. -/
theorem pay14_apply (x0 : Vec Ideal S2000x300 .f32) (x1 x2 x3 x4 x5 : Vec Ideal S1x300 .f32) (p : Fin 2000) (q : Fin 300) :
    k14_pay1 x0 x1 x2 x3 x4 x5 (ix2 p q)
      = max ((((x0 (ix2 p q) + x1 (ix2 (0 : Fin 1) q) - x2 (ix2 (0 : Fin 1) q))
          * Ideal.rsqrt (x3 (ix2 (0 : Fin 1) q) + Ideal.ofBits .f32 0x3727C5AC#32)) * x4 (ix2 (0 : Fin 1) q))
          + x5 (ix2 (0 : Fin 1) q)) (Ideal.ofBits .f32 0x00000000#32) := by
  unfold k14_pay1
  simp only [shapeCast_self]
  simp only [maximumf_apply, addf_apply, mulf_apply, subf_apply, bcastRow14_apply, rsqrt14_apply, broadcast_apply]
  rfl

/-- The same at any index y of the block: the rows are read at y's column. -/
theorem pay14_at (x0 : Vec Ideal S2000x300 .f32) (x1 x2 x3 x4 x5 : Vec Ideal S1x300 .f32) (y : S2000x300.Idx) :
    k14_pay1 x0 x1 x2 x3 x4 x5 y
      = max ((((x0 y + x1 (ix2 (0 : Fin 1) (y 1 : Fin 300)) - x2 (ix2 (0 : Fin 1) (y 1 : Fin 300)))
          * Ideal.rsqrt (x3 (ix2 (0 : Fin 1) (y 1 : Fin 300)) + Ideal.ofBits .f32 0x3727C5AC#32)) * x4 (ix2 (0 : Fin 1) (y 1 : Fin 300)))
          + x5 (ix2 (0 : Fin 1) (y 1 : Fin 300))) (Ideal.ofBits .f32 0x00000000#32) := by
  obtain ⟨p, q, rfl⟩ : ∃ (p : Fin 2000) (q : Fin 300), y = ix2 p q := ⟨y 0, y 1, eq_ix2 y⟩
  exact pay14_apply x0 x1 x2 x3 x4 x5 p q

/-! ## The windows' blocks as parts of their arrays -/

theorem hz14 : (![0, 0] : Fin 2 → Nat) = fun _ => 0 := funext fun a => by fin_cases a <;> rfl

/-- The windows' block indices over the grid: the row-block windows (the input array's and the output's) are at
    block (t, 0) at point t, the five row windows at block (0, 0) throughout. -/
theorem idx_facts14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = t.val ∧ win14_6.index t (1 : Fin 2) = 0 :=
  (by decide +kernel : ∀ t : Fin grid14.N, _)

variable (V : (c : Dev nD) → (b : Ref sig .tc) → Buf (Elt Ideal) ((c : Thread nD τ).loc b))

/-- The input array's block at point t, at an index y of the block, is the array where the output's block has y:
    the two windows move together over the row blocks. -/
theorem blk14_0_eq (c : Dev nD) (t : Fin cfg14.N) (y : S2000x300.Idx) :
    (iblk14 V c 0 t : Vec Ideal S2000x300 .f32) y
      = (V c (Pipeline.arrRef spec14 0) : S100000x300.Idx → EReal) (((cfg14.win 6).blk t).view.emb y : S100000x300.Idx) := by
  obtain ⟨e0, e1, -, -, -, -, -, -, -, -, -, -, f0, f1⟩ := idx_facts14 t
  unfold iblk14
  rw [View.read_apply, cast_eq]
  refine congrArg (V c (Pipeline.arrRef spec14 0) : S100000x300.Idx → EReal) ?_
  funext a
  apply Fin.ext
  match a with
  | ⟨0, _⟩ => show win14_0.index t (0 : Fin 2) * 2000 + 1 * (y 0).val = win14_6.index t (0 : Fin 2) * 2000 + 1 * (y 0).val; omega
  | ⟨1, _⟩ => show win14_0.index t (1 : Fin 2) * 300 + 1 * (y 1).val = win14_6.index t (1 : Fin 2) * 300 + 1 * (y 1).val; omega

/-- A row window's block, at any point, read at the column of y, is its one-row array at the column where the output's
    block has y: the row windows stay at block (0, 0), and the output's blocks span all 300 columns. -/
theorem blk14_1_eq (c : Dev nD) (t : Fin cfg14.N) (y : S2000x300.Idx) :
    (iblk14 V c 1 t : Vec Ideal S1x300 .f32) (ix2 (0 : Fin 1) (y 1 : Fin 300))
      = (V c (Pipeline.arrRef spec14 1) : S1x300.Idx → EReal) (ix2 (0 : Fin 1) ((((cfg14.win 6).blk t).view.emb y : S100000x300.Idx) 1 : Fin 300)) := by
  obtain ⟨-, -, e0, e1, -, -, -, -, -, -, -, -, -, f1⟩ := idx_facts14 t
  unfold iblk14
  rw [View.read_apply, cast_eq]
  refine congrArg (V c (Pipeline.arrRef spec14 1) : S1x300.Idx → EReal) ?_
  funext a
  apply Fin.ext
  match a with
  | ⟨0, _⟩ => show win14_1.index t (0 : Fin 2) * 1 + 1 * 0 = 0; omega
  | ⟨1, _⟩ => show win14_1.index t (1 : Fin 2) * 300 + 1 * (y 1).val = win14_6.index t (1 : Fin 2) * 300 + 1 * (y 1).val; omega
theorem blk14_2_eq (c : Dev nD) (t : Fin cfg14.N) (y : S2000x300.Idx) :
    (iblk14 V c 2 t : Vec Ideal S1x300 .f32) (ix2 (0 : Fin 1) (y 1 : Fin 300))
      = (V c (Pipeline.arrRef spec14 2) : S1x300.Idx → EReal) (ix2 (0 : Fin 1) ((((cfg14.win 6).blk t).view.emb y : S100000x300.Idx) 1 : Fin 300)) := by
  obtain ⟨-, -, -, -, e0, e1, -, -, -, -, -, -, -, f1⟩ := idx_facts14 t
  unfold iblk14
  rw [View.read_apply, cast_eq]
  refine congrArg (V c (Pipeline.arrRef spec14 2) : S1x300.Idx → EReal) ?_
  funext a
  apply Fin.ext
  match a with
  | ⟨0, _⟩ => show win14_2.index t (0 : Fin 2) * 1 + 1 * 0 = 0; omega
  | ⟨1, _⟩ => show win14_2.index t (1 : Fin 2) * 300 + 1 * (y 1).val = win14_6.index t (1 : Fin 2) * 300 + 1 * (y 1).val; omega
theorem blk14_3_eq (c : Dev nD) (t : Fin cfg14.N) (y : S2000x300.Idx) :
    (iblk14 V c 3 t : Vec Ideal S1x300 .f32) (ix2 (0 : Fin 1) (y 1 : Fin 300))
      = (V c (Pipeline.arrRef spec14 3) : S1x300.Idx → EReal) (ix2 (0 : Fin 1) ((((cfg14.win 6).blk t).view.emb y : S100000x300.Idx) 1 : Fin 300)) := by
  obtain ⟨-, -, -, -, -, -, e0, e1, -, -, -, -, -, f1⟩ := idx_facts14 t
  unfold iblk14
  rw [View.read_apply, cast_eq]
  refine congrArg (V c (Pipeline.arrRef spec14 3) : S1x300.Idx → EReal) ?_
  funext a
  apply Fin.ext
  match a with
  | ⟨0, _⟩ => show win14_3.index t (0 : Fin 2) * 1 + 1 * 0 = 0; omega
  | ⟨1, _⟩ => show win14_3.index t (1 : Fin 2) * 300 + 1 * (y 1).val = win14_6.index t (1 : Fin 2) * 300 + 1 * (y 1).val; omega
theorem blk14_4_eq (c : Dev nD) (t : Fin cfg14.N) (y : S2000x300.Idx) :
    (iblk14 V c 4 t : Vec Ideal S1x300 .f32) (ix2 (0 : Fin 1) (y 1 : Fin 300))
      = (V c (Pipeline.arrRef spec14 4) : S1x300.Idx → EReal) (ix2 (0 : Fin 1) ((((cfg14.win 6).blk t).view.emb y : S100000x300.Idx) 1 : Fin 300)) := by
  obtain ⟨-, -, -, -, -, -, -, -, e0, e1, -, -, -, f1⟩ := idx_facts14 t
  unfold iblk14
  rw [View.read_apply, cast_eq]
  refine congrArg (V c (Pipeline.arrRef spec14 4) : S1x300.Idx → EReal) ?_
  funext a
  apply Fin.ext
  match a with
  | ⟨0, _⟩ => show win14_4.index t (0 : Fin 2) * 1 + 1 * 0 = 0; omega
  | ⟨1, _⟩ => show win14_4.index t (1 : Fin 2) * 300 + 1 * (y 1).val = win14_6.index t (1 : Fin 2) * 300 + 1 * (y 1).val; omega
theorem blk14_5_eq (c : Dev nD) (t : Fin cfg14.N) (y : S2000x300.Idx) :
    (iblk14 V c 5 t : Vec Ideal S1x300 .f32) (ix2 (0 : Fin 1) (y 1 : Fin 300))
      = (V c (Pipeline.arrRef spec14 5) : S1x300.Idx → EReal) (ix2 (0 : Fin 1) ((((cfg14.win 6).blk t).view.emb y : S100000x300.Idx) 1 : Fin 300)) := by
  obtain ⟨-, -, -, -, -, -, -, -, -, -, e0, e1, -, f1⟩ := idx_facts14 t
  unfold iblk14
  rw [View.read_apply, cast_eq]
  refine congrArg (V c (Pipeline.arrRef spec14 5) : S1x300.Idx → EReal) ?_
  funext a
  apply Fin.ext
  match a with
  | ⟨0, _⟩ => show win14_5.index t (0 : Fin 2) * 1 + 1 * 0 = 0; omega
  | ⟨1, _⟩ => show win14_5.index t (1 : Fin 2) * 300 + 1 * (y 1).val = win14_6.index t (1 : Fin 2) * 300 + 1 * (y 1).val; omega

/-! ## What a point writes back, the cover, the array after the region -/

/-- Equal entries give equal normalised and rectified values. -/
theorem norm14_congr {a a' b b' m m' v v' g g' s s' : EReal} (eps z : EReal)
    (ha : a = a') (hb : b = b') (hm : m = m') (hv : v = v') (hg : g = g') (hs : s = s') :
    max ((((a + b - m) * Ideal.rsqrt (v + eps)) * g) + s) z = max ((((a' + b' - m') * Ideal.rsqrt (v' + eps)) * g') + s') z := by
  rw [ha, hb, hm, hv, hg, hs]

/-- The body's arithmetic of the six blocks at point t, at an index y of the block, is the normalised and rectified
    array of the six arrays where the output's block has y. -/
theorem pay14_blk (c : Dev nD) (t : Fin cfg14.N) (y : S2000x300.Idx) :
    k14_pay1 (iblk14 V c 0 t) (iblk14 V c 1 t) (iblk14 V c 2 t) (iblk14 V c 3 t) (iblk14 V c 4 t) (iblk14 V c 5 t) y
      = Cert.Spec.normMax (M := 100000) (N := 300) (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5))
        (Ideal.ofBits .f32 0x3727C5AC#32) (Ideal.ofBits .f32 0x00000000#32) (((cfg14.win 6).blk t).view.emb y : S100000x300.Idx) :=
  (pay14_at (iblk14 V c 0 t) (iblk14 V c 1 t) (iblk14 V c 2 t) (iblk14 V c 3 t) (iblk14 V c 4 t) (iblk14 V c 5 t) y).trans
    (norm14_congr (Ideal.ofBits .f32 0x3727C5AC#32) (Ideal.ofBits .f32 0x00000000#32) (blk14_0_eq V c t y) (blk14_1_eq V c t y) (blk14_2_eq V c t y)
      (blk14_3_eq V c t y) (blk14_4_eq V c t y) (blk14_5_eq V c t y))

/-- What the body leaves in the output's staging buffer at point t: its arithmetic of the six blocks. -/
theorem after14_6_pay (c : Dev nD) (t : Fin cfg14.N) :
    (dat14 (F := Ideal) V c).after 6 t = k14_pay1 (iblk14 V c 0 t) (iblk14 V c 1 t) (iblk14 V c 2 t) (iblk14 V c 3 t) (iblk14 V c 4 t) (iblk14 V c 5 t) := by
  rw [after14_6]
  unfold out14_6
  rw [View.canon_unit_zero hz14]
  simp only [View.ld_unit_zero (S := S2000x300) hz14, View.ld_unit_zero (S := S1x300) hz14]

/-- WHAT POINT t WRITES BACK is block t of the normalised and rectified array of the six arrays as the region finds them. -/
theorem flushed14_eq (c : Dev nD) (t : Fin cfg14.N) :
    (dat14 (F := Ideal) V c).flushed 6 t = ((cfg14.win 6).blk t).view.read (Elt Ideal)
      (Cert.Spec.normMax (M := 100000) (N := 300) (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5))
        (Ideal.ofBits .f32 0x3727C5AC#32) (Ideal.ofBits .f32 0x00000000#32)) := by
  show (cfg14.win 6).cut (grid14.coords t) ((dat14 V c).after 6 t) = _
  rw [after14_6_pay V c t]
  funext j
  rw [View.read_apply, cast_eq]
  exact pay14_blk V c t j

/-- An index of the output array is in point t's block iff each coordinate is in the block's range on its axis. -/
theorem mem_blk14 (t : Fin cfg14.N) (i : S100000x300.Idx) :
    i ∈ ((cfg14.win 6).blk t).view.set ↔ ∀ a : Fin 2, win14_6.index t a * S2000x300.size a ≤ (i a).val ∧ (i a).val < win14_6.index t a * S2000x300.size a + S2000x300.size a := by
  show i ∈ ((View.whole (Pipeline.arrRef spec14 6)).slice (win14_6.rect t)).set ↔ _
  rw [View.set_slice_whole, Rect.mem_set_unit]
  exact Iff.rfl

/-- The row blocks tile the output array: row r is in the block of point r / 2000. -/
theorem cover14 (i : S100000x300.Idx) :
    ∃ t : Fin cfg14.N, (cfg14.win 6).flush t = true ∧ i ∈ ((cfg14.win 6).blk t).view.set := by
  have hi0 : (i 0).val < 100000 := (i 0).isLt
  have hi1 : (i 1).val < 300 := (i 1).isLt
  have hN : cfg14.N = 50 := N_14
  obtain ⟨t, ht⟩ : ∃ t : Fin cfg14.N, t.val = (i 0).val / 2000 := ⟨⟨(i 0).val / 2000, by omega⟩, rfl⟩
  obtain ⟨-, -, -, -, -, -, -, -, -, -, -, -, e0, e1⟩ := idx_facts14 t
  refine ⟨t, flush14_6 t, ?_⟩
  rw [mem_blk14]
  intro a
  match a with
  | ⟨0, _⟩ => show win14_6.index t (0 : Fin 2) * 2000 ≤ (i 0).val ∧ (i 0).val < win14_6.index t (0 : Fin 2) * 2000 + 2000; omega
  | ⟨1, _⟩ => show win14_6.index t (1 : Fin 2) * 300 ≤ (i 1).val ∧ (i 1).val < win14_6.index t (1 : Fin 2) * 300 + 300; omega

/-- THE OUTPUT ARRAY AFTER THE REGION is the normalised and rectified array of the six input arrays as the region
    found them: max(((x + bias − mean) · rsqrt(var + ε)) · γ + β, 0), entry by entry. -/
theorem final14 (c : Dev nD) :
    (dat14 (F := Ideal) V c).arrAt 6 cfg14.N
      = Cert.Spec.normMax (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5))
        (Ideal.ofBits .f32 0x3727C5AC#32) (Ideal.ofBits .f32 0x00000000#32) :=
  (dat14 (F := Ideal) V c).arrAt_eq_of_cover 6 _ (fun t _ => flushed14_eq V c t) (cover14)

end Cert.KernelIdeal.Val

end
-- ==== Proof.KI.KVal.lean ====
import proofs.«120348_j28252294873367_1_alg».proof.Proof.KI.Chain
import proofs.«120348_j28252294873367_1_alg».proof.Proof.Common
import proofs.«120348_j28252294873367_1_alg».proof.Proof.Net
import proofs.«120348_j28252294873367_1_alg».proof.Proof.KRead
import proofs.«120348_j28252294873367_1_alg».proof.Proof.Val.MM0
import proofs.«120348_j28252294873367_1_alg».proof.Proof.Val.MM3
import proofs.«120348_j28252294873367_1_alg».proof.Proof.Val.MM6
import proofs.«120348_j28252294873367_1_alg».proof.Proof.Val.MM9
import proofs.«120348_j28252294873367_1_alg».proof.Proof.Val.MM12
import proofs.«120348_j28252294873367_1_alg».proof.Proof.Val.MM15
import proofs.«120348_j28252294873367_1_alg».proof.Proof.Val.MM16
import proofs.«120348_j28252294873367_1_alg».proof.Proof.Val.MM17
import proofs.«120348_j28252294873367_1_alg».proof.Proof.Val.ST1
import proofs.«120348_j28252294873367_1_alg».proof.Proof.Val.ST4
import proofs.«120348_j28252294873367_1_alg».proof.Proof.Val.ST7
import proofs.«120348_j28252294873367_1_alg».proof.Proof.Val.ST10
import proofs.«120348_j28252294873367_1_alg».proof.Proof.Val.ST13
import proofs.«120348_j28252294873367_1_alg».proof.Proof.Val.NM2
import proofs.«120348_j28252294873367_1_alg».proof.Proof.Val.NM5
import proofs.«120348_j28252294873367_1_alg».proof.Proof.Val.NM8
import proofs.«120348_j28252294873367_1_alg».proof.Proof.Val.NM11
import proofs.«120348_j28252294873367_1_alg».proof.Proof.Val.NM14

set_option maxRecDepth 16384

noncomputable section

namespace Cert.KernelIdeal.Reg

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (outs : Outs (F := Ideal))

noncomputable def params (c : Dev nD) : Cert.Net.Params :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14),
   m ((c : Thread nD τ).loc main_arg15), m ((c : Thread nD τ).loc main_arg16), m ((c : Thread nD τ).loc main_arg17)⟩

theorem A0_0 (c : Dev nD) :
    V0 m c main_arg0 = (params m c).a0 :=
  rfl

theorem A1_0 (c : Dev nD) :
    V0 m c main_arg1 = (params m c).a1 :=
  rfl

theorem A2_0 (c : Dev nD) :
    V0 m c main_arg2 = (params m c).a2 :=
  rfl

theorem A3_0 (c : Dev nD) :
    V0 m c main_arg3 = (params m c).a3 :=
  rfl

theorem A3_32 (c : Dev nD) :
    V32 m outs c main_arg3 = (params m c).a3 :=
  (Vs_keep m outs 0 32 rfl rfl c main_arg3 (by decide +kernel)).trans (A3_0 m c)

theorem A4_0 (c : Dev nD) :
    V0 m c main_arg4 = (params m c).a4 :=
  rfl

theorem A5_0 (c : Dev nD) :
    V0 m c main_arg5 = (params m c).a5 :=
  rfl

theorem A6_0 (c : Dev nD) :
    V0 m c main_arg6 = (params m c).a6 :=
  rfl

theorem A6_6 (c : Dev nD) :
    V6 m outs c main_arg6 = (params m c).a6 :=
  (Vs_keep m outs 0 6 rfl rfl c main_arg6 (by decide +kernel)).trans (A6_0 m c)

theorem A6_12 (c : Dev nD) :
    V12 m outs c main_arg6 = (params m c).a6 :=
  (Vs_keep m outs 0 12 rfl rfl c main_arg6 (by decide +kernel)).trans (A6_0 m c)

theorem A6_18 (c : Dev nD) :
    V18 m outs c main_arg6 = (params m c).a6 :=
  (Vs_keep m outs 0 18 rfl rfl c main_arg6 (by decide +kernel)).trans (A6_0 m c)

theorem A6_24 (c : Dev nD) :
    V24 m outs c main_arg6 = (params m c).a6 :=
  (Vs_keep m outs 0 24 rfl rfl c main_arg6 (by decide +kernel)).trans (A6_0 m c)

theorem A7_0 (c : Dev nD) :
    V0 m c main_arg7 = (params m c).a7 :=
  rfl

theorem A7_2 (c : Dev nD) :
    V2 m outs c main_arg7 = (params m c).a7 :=
  (Vs_keep m outs 0 2 rfl rfl c main_arg7 (by decide +kernel)).trans (A7_0 m c)

theorem A7_4 (c : Dev nD) :
    V4 m outs c main_arg7 = (params m c).a7 :=
  (Vs_keep m outs 0 4 rfl rfl c main_arg7 (by decide +kernel)).trans (A7_0 m c)

theorem A7_8 (c : Dev nD) :
    V8 m outs c main_arg7 = (params m c).a7 :=
  (Vs_keep m outs 0 8 rfl rfl c main_arg7 (by decide +kernel)).trans (A7_0 m c)

theorem A7_10 (c : Dev nD) :
    V10 m outs c main_arg7 = (params m c).a7 :=
  (Vs_keep m outs 0 10 rfl rfl c main_arg7 (by decide +kernel)).trans (A7_0 m c)

theorem A7_14 (c : Dev nD) :
    V14 m outs c main_arg7 = (params m c).a7 :=
  (Vs_keep m outs 0 14 rfl rfl c main_arg7 (by decide +kernel)).trans (A7_0 m c)

theorem A7_16 (c : Dev nD) :
    V16 m outs c main_arg7 = (params m c).a7 :=
  (Vs_keep m outs 0 16 rfl rfl c main_arg7 (by decide +kernel)).trans (A7_0 m c)

theorem A7_20 (c : Dev nD) :
    V20 m outs c main_arg7 = (params m c).a7 :=
  (Vs_keep m outs 0 20 rfl rfl c main_arg7 (by decide +kernel)).trans (A7_0 m c)

theorem A7_22 (c : Dev nD) :
    V22 m outs c main_arg7 = (params m c).a7 :=
  (Vs_keep m outs 0 22 rfl rfl c main_arg7 (by decide +kernel)).trans (A7_0 m c)

theorem A7_26 (c : Dev nD) :
    V26 m outs c main_arg7 = (params m c).a7 :=
  (Vs_keep m outs 0 26 rfl rfl c main_arg7 (by decide +kernel)).trans (A7_0 m c)

theorem A7_28 (c : Dev nD) :
    V28 m outs c main_arg7 = (params m c).a7 :=
  (Vs_keep m outs 0 28 rfl rfl c main_arg7 (by decide +kernel)).trans (A7_0 m c)

theorem A8_0 (c : Dev nD) :
    V0 m c main_arg8 = (params m c).a8 :=
  rfl

theorem A8_2 (c : Dev nD) :
    V2 m outs c main_arg8 = (params m c).a8 :=
  (Vs_keep m outs 0 2 rfl rfl c main_arg8 (by decide +kernel)).trans (A8_0 m c)

theorem A8_8 (c : Dev nD) :
    V8 m outs c main_arg8 = (params m c).a8 :=
  (Vs_keep m outs 0 8 rfl rfl c main_arg8 (by decide +kernel)).trans (A8_0 m c)

theorem A8_14 (c : Dev nD) :
    V14 m outs c main_arg8 = (params m c).a8 :=
  (Vs_keep m outs 0 14 rfl rfl c main_arg8 (by decide +kernel)).trans (A8_0 m c)

theorem A8_20 (c : Dev nD) :
    V20 m outs c main_arg8 = (params m c).a8 :=
  (Vs_keep m outs 0 20 rfl rfl c main_arg8 (by decide +kernel)).trans (A8_0 m c)

theorem A8_26 (c : Dev nD) :
    V26 m outs c main_arg8 = (params m c).a8 :=
  (Vs_keep m outs 0 26 rfl rfl c main_arg8 (by decide +kernel)).trans (A8_0 m c)

theorem A9_0 (c : Dev nD) :
    V0 m c main_arg9 = (params m c).a9 :=
  rfl

theorem A9_2 (c : Dev nD) :
    V2 m outs c main_arg9 = (params m c).a9 :=
  (Vs_keep m outs 0 2 rfl rfl c main_arg9 (by decide +kernel)).trans (A9_0 m c)

theorem A9_8 (c : Dev nD) :
    V8 m outs c main_arg9 = (params m c).a9 :=
  (Vs_keep m outs 0 8 rfl rfl c main_arg9 (by decide +kernel)).trans (A9_0 m c)

theorem A9_14 (c : Dev nD) :
    V14 m outs c main_arg9 = (params m c).a9 :=
  (Vs_keep m outs 0 14 rfl rfl c main_arg9 (by decide +kernel)).trans (A9_0 m c)

theorem A9_20 (c : Dev nD) :
    V20 m outs c main_arg9 = (params m c).a9 :=
  (Vs_keep m outs 0 20 rfl rfl c main_arg9 (by decide +kernel)).trans (A9_0 m c)

theorem A9_26 (c : Dev nD) :
    V26 m outs c main_arg9 = (params m c).a9 :=
  (Vs_keep m outs 0 26 rfl rfl c main_arg9 (by decide +kernel)).trans (A9_0 m c)

theorem A10_0 (c : Dev nD) :
    V0 m c main_arg10 = (params m c).a10 :=
  rfl

theorem A10_4 (c : Dev nD) :
    V4 m outs c main_arg10 = (params m c).a10 :=
  (Vs_keep m outs 0 4 rfl rfl c main_arg10 (by decide +kernel)).trans (A10_0 m c)

theorem A10_10 (c : Dev nD) :
    V10 m outs c main_arg10 = (params m c).a10 :=
  (Vs_keep m outs 0 10 rfl rfl c main_arg10 (by decide +kernel)).trans (A10_0 m c)

theorem A10_16 (c : Dev nD) :
    V16 m outs c main_arg10 = (params m c).a10 :=
  (Vs_keep m outs 0 16 rfl rfl c main_arg10 (by decide +kernel)).trans (A10_0 m c)

theorem A10_22 (c : Dev nD) :
    V22 m outs c main_arg10 = (params m c).a10 :=
  (Vs_keep m outs 0 22 rfl rfl c main_arg10 (by decide +kernel)).trans (A10_0 m c)

theorem A10_28 (c : Dev nD) :
    V28 m outs c main_arg10 = (params m c).a10 :=
  (Vs_keep m outs 0 28 rfl rfl c main_arg10 (by decide +kernel)).trans (A10_0 m c)

theorem A11_0 (c : Dev nD) :
    V0 m c main_arg11 = (params m c).a11 :=
  rfl

theorem A11_4 (c : Dev nD) :
    V4 m outs c main_arg11 = (params m c).a11 :=
  (Vs_keep m outs 0 4 rfl rfl c main_arg11 (by decide +kernel)).trans (A11_0 m c)

theorem A11_10 (c : Dev nD) :
    V10 m outs c main_arg11 = (params m c).a11 :=
  (Vs_keep m outs 0 10 rfl rfl c main_arg11 (by decide +kernel)).trans (A11_0 m c)

theorem A11_16 (c : Dev nD) :
    V16 m outs c main_arg11 = (params m c).a11 :=
  (Vs_keep m outs 0 16 rfl rfl c main_arg11 (by decide +kernel)).trans (A11_0 m c)

theorem A11_22 (c : Dev nD) :
    V22 m outs c main_arg11 = (params m c).a11 :=
  (Vs_keep m outs 0 22 rfl rfl c main_arg11 (by decide +kernel)).trans (A11_0 m c)

theorem A11_28 (c : Dev nD) :
    V28 m outs c main_arg11 = (params m c).a11 :=
  (Vs_keep m outs 0 28 rfl rfl c main_arg11 (by decide +kernel)).trans (A11_0 m c)

theorem A12_0 (c : Dev nD) :
    V0 m c main_arg12 = (params m c).a12 :=
  rfl

theorem A12_31 (c : Dev nD) :
    V31 m outs c main_arg12 = (params m c).a12 :=
  (Vs_keep m outs 0 31 rfl rfl c main_arg12 (by decide +kernel)).trans (A12_0 m c)

theorem A13_0 (c : Dev nD) :
    V0 m c main_arg13 = (params m c).a13 :=
  rfl

theorem A13_30 (c : Dev nD) :
    V30 m outs c main_arg13 = (params m c).a13 :=
  (Vs_keep m outs 0 30 rfl rfl c main_arg13 (by decide +kernel)).trans (A13_0 m c)

theorem A14_0 (c : Dev nD) :
    V0 m c main_arg14 = (params m c).a14 :=
  rfl

theorem A14_33 (c : Dev nD) :
    V33 m outs c main_arg14 = (params m c).a14 :=
  (Vs_keep m outs 0 33 rfl rfl c main_arg14 (by decide +kernel)).trans (A14_0 m c)

theorem A15_0 (c : Dev nD) :
    V0 m c main_arg15 = (params m c).a15 :=
  rfl

theorem A15_32 (c : Dev nD) :
    V32 m outs c main_arg15 = (params m c).a15 :=
  (Vs_keep m outs 0 32 rfl rfl c main_arg15 (by decide +kernel)).trans (A15_0 m c)

theorem A16_0 (c : Dev nD) :
    V0 m c main_arg16 = (params m c).a16 :=
  rfl

theorem A16_35 (c : Dev nD) :
    V35 m outs c main_arg16 = (params m c).a16 :=
  (Vs_keep m outs 0 35 rfl rfl c main_arg16 (by decide +kernel)).trans (A16_0 m c)

theorem A17_0 (c : Dev nD) :
    V0 m c main_arg17 = (params m c).a17 :=
  rfl

theorem A17_34 (c : Dev nD) :
    V34 m outs c main_arg17 = (params m c).a17 :=
  (Vs_keep m outs 0 34 rfl rfl c main_arg17 (by decide +kernel)).trans (A17_0 m c)

theorem I3_1 (c : Dev nD) :
    V1 m c main_v3 = Cert.Common.src (params m c).a1 :=
  (Read.r0_v3 (V0 m c)).trans (by rw [A1_0 m c])

theorem I3_2 (c : Dev nD) :
    V2 m outs c main_v3 = Cert.Common.src (params m c).a1 :=
  (V2_of m outs c main_v3 (by decide)).trans (I3_1 m c)

theorem I3_8 (c : Dev nD) :
    V8 m outs c main_v3 = Cert.Common.src (params m c).a1 :=
  (Vs_keep m outs 1 7 rfl rfl c main_v3 (by decide +kernel)).trans (I3_1 m c)

theorem I3_14 (c : Dev nD) :
    V14 m outs c main_v3 = Cert.Common.src (params m c).a1 :=
  (Vs_keep m outs 1 13 rfl rfl c main_v3 (by decide +kernel)).trans (I3_1 m c)

theorem I3_20 (c : Dev nD) :
    V20 m outs c main_v3 = Cert.Common.src (params m c).a1 :=
  (Vs_keep m outs 1 19 rfl rfl c main_v3 (by decide +kernel)).trans (I3_1 m c)

theorem I3_26 (c : Dev nD) :
    V26 m outs c main_v3 = Cert.Common.src (params m c).a1 :=
  (Vs_keep m outs 1 25 rfl rfl c main_v3 (by decide +kernel)).trans (I3_1 m c)

theorem I6_1 (c : Dev nD) :
    V1 m c main_v6 = Cert.Common.dst (params m c).a1 :=
  (Read.r0_v6 (V0 m c)).trans (by rw [A1_0 m c])

theorem I6_2 (c : Dev nD) :
    V2 m outs c main_v6 = Cert.Common.dst (params m c).a1 :=
  (V2_of m outs c main_v6 (by decide)).trans (I6_1 m c)

theorem I6_8 (c : Dev nD) :
    V8 m outs c main_v6 = Cert.Common.dst (params m c).a1 :=
  (Vs_keep m outs 1 7 rfl rfl c main_v6 (by decide +kernel)).trans (I6_1 m c)

theorem I6_14 (c : Dev nD) :
    V14 m outs c main_v6 = Cert.Common.dst (params m c).a1 :=
  (Vs_keep m outs 1 13 rfl rfl c main_v6 (by decide +kernel)).trans (I6_1 m c)

theorem I6_20 (c : Dev nD) :
    V20 m outs c main_v6 = Cert.Common.dst (params m c).a1 :=
  (Vs_keep m outs 1 19 rfl rfl c main_v6 (by decide +kernel)).trans (I6_1 m c)

theorem I6_26 (c : Dev nD) :
    V26 m outs c main_v6 = Cert.Common.dst (params m c).a1 :=
  (Vs_keep m outs 1 25 rfl rfl c main_v6 (by decide +kernel)).trans (I6_1 m c)

theorem I10_1 (c : Dev nD) :
    V1 m c main_v10 = Cert.Common.ea0 (params m c).a2 :=
  (Read.r0_v10 (V0 m c)).trans (by rw [A2_0 m c])

theorem I10_2 (c : Dev nD) :
    V2 m outs c main_v10 = Cert.Common.ea0 (params m c).a2 :=
  (V2_of m outs c main_v10 (by decide)).trans (I10_1 m c)

theorem I10_8 (c : Dev nD) :
    V8 m outs c main_v10 = Cert.Common.ea0 (params m c).a2 :=
  (Vs_keep m outs 1 7 rfl rfl c main_v10 (by decide +kernel)).trans (I10_1 m c)

theorem I10_14 (c : Dev nD) :
    V14 m outs c main_v10 = Cert.Common.ea0 (params m c).a2 :=
  (Vs_keep m outs 1 13 rfl rfl c main_v10 (by decide +kernel)).trans (I10_1 m c)

theorem I10_20 (c : Dev nD) :
    V20 m outs c main_v10 = Cert.Common.ea0 (params m c).a2 :=
  (Vs_keep m outs 1 19 rfl rfl c main_v10 (by decide +kernel)).trans (I10_1 m c)

theorem I10_26 (c : Dev nD) :
    V26 m outs c main_v10 = Cert.Common.ea0 (params m c).a2 :=
  (Vs_keep m outs 1 25 rfl rfl c main_v10 (by decide +kernel)).trans (I10_1 m c)

theorem I14_1 (c : Dev nD) :
    V1 m c main_v14 = Cert.Common.ea1 (params m c).a2 :=
  (Read.r0_v14 (V0 m c)).trans (by rw [A2_0 m c])

theorem I14_2 (c : Dev nD) :
    V2 m outs c main_v14 = Cert.Common.ea1 (params m c).a2 :=
  (V2_of m outs c main_v14 (by decide)).trans (I14_1 m c)

theorem I14_8 (c : Dev nD) :
    V8 m outs c main_v14 = Cert.Common.ea1 (params m c).a2 :=
  (Vs_keep m outs 1 7 rfl rfl c main_v14 (by decide +kernel)).trans (I14_1 m c)

theorem I14_14 (c : Dev nD) :
    V14 m outs c main_v14 = Cert.Common.ea1 (params m c).a2 :=
  (Vs_keep m outs 1 13 rfl rfl c main_v14 (by decide +kernel)).trans (I14_1 m c)

theorem I14_20 (c : Dev nD) :
    V20 m outs c main_v14 = Cert.Common.ea1 (params m c).a2 :=
  (Vs_keep m outs 1 19 rfl rfl c main_v14 (by decide +kernel)).trans (I14_1 m c)

theorem I14_26 (c : Dev nD) :
    V26 m outs c main_v14 = Cert.Common.ea1 (params m c).a2 :=
  (Vs_keep m outs 1 25 rfl rfl c main_v14 (by decide +kernel)).trans (I14_1 m c)

theorem H0_1 (c : Dev nD) :
    V1 m c main_v33 = Cert.Net.kH (params m c) 0 :=
  (Read.r0_v33 (V0 m c)).trans (by rw [A0_0 m c, A4_0 m c, A5_0 m c] <;> rfl)

theorem W0 (c : Dev nD) :
    V1 m c main_v35 = Cert.Common.wmat 0 (params m c).a6 :=
  (Read.r0_v35 (V0 m c)).trans (by rw [A6_0 m c])

theorem Z0 (c : Dev nD) :
    V1 m c main_v36 = Cert.Common.zrow300 :=
  Read.r0_v36 (V0 m c)

theorem MM0 (ho : OutsOK m outs) (c : Dev nD) :
    V2 m outs c main_v37 = Cert.Net.proj (params m c) 0 (Cert.Net.kH (params m c) 0) :=
  by
  have e1 : V2 m outs c main_v37 = outs 2 main_v37 c := Function.update_self _ _ _
  have e2 := ho.o0_3 c
  have e3 : (dat0 (Ve0 m) c).arrAt 3 cfg0.N = Cert.Spec.affine (M := 100000) (K := 300) (N := 300) (V1 m c main_v33) (V1 m c main_v35) (V1 m c main_v36) :=
    Cert.KernelIdeal.Val.final0 (Ve0 m) c
  have e4 : Cert.Spec.affine (M := 100000) (K := 300) (N := 300) (V1 m c main_v33) (V1 m c main_v35) (V1 m c main_v36) = Cert.Net.proj (params m c) 0 (Cert.Net.kH (params m c) 0) := by
    rw [H0_1 m c, W0 m c, Z0 m c] <;> rfl
  exact e1.trans (e2.trans (e3.trans e4))

theorem RAW0_3 (ho : OutsOK m outs) (c : Dev nD) :
    V3 m outs c main_v68 = Cert.Net.raw (params m c) 0 (Cert.Net.proj (params m c) 0 (Cert.Net.kH (params m c) 0)) :=
  (Read.r1_v68 (V2 m outs c)).trans (by rw [MM0 m outs ho c, I3_2 m outs c, I6_2 m outs c, I10_2 m outs c, I14_2 m outs c, A8_2 m outs c, A9_2 m outs c] <;> rfl)

theorem B0 (c : Dev nD) :
    V3 m outs c main_v71 = Cert.Common.rowK (Cert.Common.vec 0 (params m c).a7) :=
  (Read.r1_v71 (V2 m outs c)).trans (by rw [A7_2 m outs c])

theorem MEAN0_4 (ho : OutsOK m outs) (c : Dev nD) :
    V4 m outs c main_v72_0 = Cert.Spec.colMean (M := 100000) (N := 300) (Cert.Net.raw (params m c) 0 (Cert.Net.proj (params m c) 0 (Cert.Net.kH (params m c) 0))) (Cert.Common.rowK (Cert.Common.vec 0 (params m c).a7)) Cert.Net.nN :=
  by
  have e1 : V4 m outs c main_v72_0 = outs 4 main_v72_0 c := (Function.update_of_ne (StableHlo.devRef_ne_of_ne (by decide)) _ _).trans (Function.update_self _ _ _)
  have e2 := ho.o1_2 c
  have e3 : (dat1 (Ve1 m outs) c).arrAt 2 cfg1.N = Cert.Spec.colMean (M := 100000) (N := 300) (V3 m outs c main_v68) (V3 m outs c main_v71) Cert.Net.nN :=
    Cert.KernelIdeal.Val.final1_mean (Ve1 m outs) c
  have e4 : Cert.Spec.colMean (M := 100000) (N := 300) (V3 m outs c main_v68) (V3 m outs c main_v71) Cert.Net.nN = Cert.Spec.colMean (M := 100000) (N := 300) (Cert.Net.raw (params m c) 0 (Cert.Net.proj (params m c) 0 (Cert.Net.kH (params m c) 0))) (Cert.Common.rowK (Cert.Common.vec 0 (params m c).a7)) Cert.Net.nN := by
    rw [RAW0_3 m outs ho c, B0 m outs c] <;> rfl
  exact e1.trans (e2.trans (e3.trans e4))

theorem VAR0_4 (ho : OutsOK m outs) (c : Dev nD) :
    V4 m outs c main_v72_1 = Cert.Spec.colVarK (M := 100000) (N := 300) (Cert.Net.raw (params m c) 0 (Cert.Net.proj (params m c) 0 (Cert.Net.kH (params m c) 0))) (Cert.Common.rowK (Cert.Common.vec 0 (params m c).a7)) Cert.Net.nN :=
  by
  have e1 : V4 m outs c main_v72_1 = outs 4 main_v72_1 c := Function.update_self _ _ _
  have e2 := ho.o1_3 c
  have e3 : (dat1 (Ve1 m outs) c).arrAt 3 cfg1.N = Cert.Spec.colVarK (M := 100000) (N := 300) (V3 m outs c main_v68) (V3 m outs c main_v71) Cert.Net.nN :=
    Cert.KernelIdeal.Val.final1_var (Ve1 m outs) c
  have e4 : Cert.Spec.colVarK (M := 100000) (N := 300) (V3 m outs c main_v68) (V3 m outs c main_v71) Cert.Net.nN = Cert.Spec.colVarK (M := 100000) (N := 300) (Cert.Net.raw (params m c) 0 (Cert.Net.proj (params m c) 0 (Cert.Net.kH (params m c) 0))) (Cert.Common.rowK (Cert.Common.vec 0 (params m c).a7)) Cert.Net.nN := by
    rw [RAW0_3 m outs ho c, B0 m outs c] <;> rfl
  exact e1.trans (e2.trans (e3.trans e4))

theorem RAW0_4 (ho : OutsOK m outs) (c : Dev nD) :
    V4 m outs c main_v68 = Cert.Net.raw (params m c) 0 (Cert.Net.proj (params m c) 0 (Cert.Net.kH (params m c) 0)) :=
  (V4_of m outs c main_v68 (by decide)).trans (RAW0_3 m outs ho c)

theorem RAW0_5 (ho : OutsOK m outs) (c : Dev nD) :
    V5 m outs c main_v68 = Cert.Net.raw (params m c) 0 (Cert.Net.proj (params m c) 0 (Cert.Net.kH (params m c) 0)) :=
  (V5_of m outs c main_v68 (by decide)).trans (RAW0_4 m outs ho c)

theorem MEAN0_5 (ho : OutsOK m outs) (c : Dev nD) :
    V5 m outs c main_v72_0 = Cert.Spec.colMean (M := 100000) (N := 300) (Cert.Net.raw (params m c) 0 (Cert.Net.proj (params m c) 0 (Cert.Net.kH (params m c) 0))) (Cert.Common.rowK (Cert.Common.vec 0 (params m c).a7)) Cert.Net.nN :=
  (V5_of m outs c main_v72_0 (by decide)).trans (MEAN0_4 m outs ho c)

theorem VAR0_5 (ho : OutsOK m outs) (c : Dev nD) :
    V5 m outs c main_v72_1 = Cert.Spec.colVarK (M := 100000) (N := 300) (Cert.Net.raw (params m c) 0 (Cert.Net.proj (params m c) 0 (Cert.Net.kH (params m c) 0))) (Cert.Common.rowK (Cert.Common.vec 0 (params m c).a7)) Cert.Net.nN :=
  (V5_of m outs c main_v72_1 (by decide)).trans (VAR0_4 m outs ho c)

theorem RB0 (c : Dev nD) :
    V5 m outs c main_v79 = Cert.Common.rowK (Cert.Common.vec 0 (params m c).a7) :=
  (Read.r2_v79 (V4 m outs c)).trans (by rw [A7_4 m outs c])

theorem RG0 (c : Dev nD) :
    V5 m outs c main_v80 = Cert.Common.rowK (Cert.Common.vec 0 (params m c).a10) :=
  (Read.r2_v80 (V4 m outs c)).trans (by rw [A10_4 m outs c])

theorem RE0 (c : Dev nD) :
    V5 m outs c main_v81 = Cert.Common.rowK (Cert.Common.vec 0 (params m c).a11) :=
  (Read.r2_v81 (V4 m outs c)).trans (by rw [A11_4 m outs c])

theorem H1_6 (ho : OutsOK m outs) (c : Dev nD) :
    V6 m outs c main_v82 = Cert.Net.kH (params m c) 1 :=
  by
  have e1 : V6 m outs c main_v82 = outs 6 main_v82 c := Function.update_self _ _ _
  have e2 := ho.o2_6 c
  have e3 : (dat2 (Ve2 m outs) c).arrAt 6 cfg2.N = Cert.Spec.normMax (M := 100000) (N := 300) (V5 m outs c main_v68) (V5 m outs c main_v79) (V5 m outs c main_v72_0) (V5 m outs c main_v72_1) (V5 m outs c main_v80) (V5 m outs c main_v81) Cert.Net.eps Cert.Net.zz :=
    Cert.KernelIdeal.Val.final2 (Ve2 m outs) c
  have e4 : Cert.Spec.normMax (M := 100000) (N := 300) (V5 m outs c main_v68) (V5 m outs c main_v79) (V5 m outs c main_v72_0) (V5 m outs c main_v72_1) (V5 m outs c main_v80) (V5 m outs c main_v81) Cert.Net.eps Cert.Net.zz = Cert.Net.kH (params m c) 1 := by
    rw [RAW0_5 m outs ho c, RB0 m outs c, MEAN0_5 m outs ho c, VAR0_5 m outs ho c, RG0 m outs c, RE0 m outs c] <;> rfl
  exact e1.trans (e2.trans (e3.trans e4))

theorem H1_7 (ho : OutsOK m outs) (c : Dev nD) :
    V7 m outs c main_v82 = Cert.Net.kH (params m c) 1 :=
  (V7_of m outs c main_v82 (by decide)).trans (H1_6 m outs ho c)

theorem W1 (c : Dev nD) :
    V7 m outs c main_v84 = Cert.Common.wmat 1 (params m c).a6 :=
  (Read.r3_v84 (V6 m outs c)).trans (by rw [A6_6 m outs c])

theorem Z1 (c : Dev nD) :
    V7 m outs c main_v85 = Cert.Common.zrow300 :=
  Read.r3_v85 (V6 m outs c)

theorem MM1 (ho : OutsOK m outs) (c : Dev nD) :
    V8 m outs c main_v86 = Cert.Net.proj (params m c) 1 (Cert.Net.kH (params m c) 1) :=
  by
  have e1 : V8 m outs c main_v86 = outs 8 main_v86 c := Function.update_self _ _ _
  have e2 := ho.o3_3 c
  have e3 : (dat3 (Ve3 m outs) c).arrAt 3 cfg3.N = Cert.Spec.affine (M := 100000) (K := 300) (N := 300) (V7 m outs c main_v82) (V7 m outs c main_v84) (V7 m outs c main_v85) :=
    Cert.KernelIdeal.Val.final3 (Ve3 m outs) c
  have e4 : Cert.Spec.affine (M := 100000) (K := 300) (N := 300) (V7 m outs c main_v82) (V7 m outs c main_v84) (V7 m outs c main_v85) = Cert.Net.proj (params m c) 1 (Cert.Net.kH (params m c) 1) := by
    rw [H1_7 m outs ho c, W1 m outs c, Z1 m outs c] <;> rfl
  exact e1.trans (e2.trans (e3.trans e4))

theorem RAW1_9 (ho : OutsOK m outs) (c : Dev nD) :
    V9 m outs c main_v117 = Cert.Net.raw (params m c) 1 (Cert.Net.proj (params m c) 1 (Cert.Net.kH (params m c) 1)) :=
  (Read.r4_v117 (V8 m outs c)).trans (by rw [MM1 m outs ho c, I3_8 m outs c, I6_8 m outs c, I10_8 m outs c, I14_8 m outs c, A8_8 m outs c, A9_8 m outs c] <;> rfl)

theorem B1 (c : Dev nD) :
    V9 m outs c main_v120 = Cert.Common.rowK (Cert.Common.vec 1 (params m c).a7) :=
  (Read.r4_v120 (V8 m outs c)).trans (by rw [A7_8 m outs c])

theorem MEAN1_10 (ho : OutsOK m outs) (c : Dev nD) :
    V10 m outs c main_v121_0 = Cert.Spec.colMean (M := 100000) (N := 300) (Cert.Net.raw (params m c) 1 (Cert.Net.proj (params m c) 1 (Cert.Net.kH (params m c) 1))) (Cert.Common.rowK (Cert.Common.vec 1 (params m c).a7)) Cert.Net.nN :=
  by
  have e1 : V10 m outs c main_v121_0 = outs 10 main_v121_0 c := (Function.update_of_ne (StableHlo.devRef_ne_of_ne (by decide)) _ _).trans (Function.update_self _ _ _)
  have e2 := ho.o4_2 c
  have e3 : (dat4 (Ve4 m outs) c).arrAt 2 cfg4.N = Cert.Spec.colMean (M := 100000) (N := 300) (V9 m outs c main_v117) (V9 m outs c main_v120) Cert.Net.nN :=
    Cert.KernelIdeal.Val.final4_mean (Ve4 m outs) c
  have e4 : Cert.Spec.colMean (M := 100000) (N := 300) (V9 m outs c main_v117) (V9 m outs c main_v120) Cert.Net.nN = Cert.Spec.colMean (M := 100000) (N := 300) (Cert.Net.raw (params m c) 1 (Cert.Net.proj (params m c) 1 (Cert.Net.kH (params m c) 1))) (Cert.Common.rowK (Cert.Common.vec 1 (params m c).a7)) Cert.Net.nN := by
    rw [RAW1_9 m outs ho c, B1 m outs c] <;> rfl
  exact e1.trans (e2.trans (e3.trans e4))

theorem VAR1_10 (ho : OutsOK m outs) (c : Dev nD) :
    V10 m outs c main_v121_1 = Cert.Spec.colVarK (M := 100000) (N := 300) (Cert.Net.raw (params m c) 1 (Cert.Net.proj (params m c) 1 (Cert.Net.kH (params m c) 1))) (Cert.Common.rowK (Cert.Common.vec 1 (params m c).a7)) Cert.Net.nN :=
  by
  have e1 : V10 m outs c main_v121_1 = outs 10 main_v121_1 c := Function.update_self _ _ _
  have e2 := ho.o4_3 c
  have e3 : (dat4 (Ve4 m outs) c).arrAt 3 cfg4.N = Cert.Spec.colVarK (M := 100000) (N := 300) (V9 m outs c main_v117) (V9 m outs c main_v120) Cert.Net.nN :=
    Cert.KernelIdeal.Val.final4_var (Ve4 m outs) c
  have e4 : Cert.Spec.colVarK (M := 100000) (N := 300) (V9 m outs c main_v117) (V9 m outs c main_v120) Cert.Net.nN = Cert.Spec.colVarK (M := 100000) (N := 300) (Cert.Net.raw (params m c) 1 (Cert.Net.proj (params m c) 1 (Cert.Net.kH (params m c) 1))) (Cert.Common.rowK (Cert.Common.vec 1 (params m c).a7)) Cert.Net.nN := by
    rw [RAW1_9 m outs ho c, B1 m outs c] <;> rfl
  exact e1.trans (e2.trans (e3.trans e4))

theorem RAW1_10 (ho : OutsOK m outs) (c : Dev nD) :
    V10 m outs c main_v117 = Cert.Net.raw (params m c) 1 (Cert.Net.proj (params m c) 1 (Cert.Net.kH (params m c) 1)) :=
  (V10_of m outs c main_v117 (by decide)).trans (RAW1_9 m outs ho c)

theorem RAW1_11 (ho : OutsOK m outs) (c : Dev nD) :
    V11 m outs c main_v117 = Cert.Net.raw (params m c) 1 (Cert.Net.proj (params m c) 1 (Cert.Net.kH (params m c) 1)) :=
  (V11_of m outs c main_v117 (by decide)).trans (RAW1_10 m outs ho c)

theorem MEAN1_11 (ho : OutsOK m outs) (c : Dev nD) :
    V11 m outs c main_v121_0 = Cert.Spec.colMean (M := 100000) (N := 300) (Cert.Net.raw (params m c) 1 (Cert.Net.proj (params m c) 1 (Cert.Net.kH (params m c) 1))) (Cert.Common.rowK (Cert.Common.vec 1 (params m c).a7)) Cert.Net.nN :=
  (V11_of m outs c main_v121_0 (by decide)).trans (MEAN1_10 m outs ho c)

theorem VAR1_11 (ho : OutsOK m outs) (c : Dev nD) :
    V11 m outs c main_v121_1 = Cert.Spec.colVarK (M := 100000) (N := 300) (Cert.Net.raw (params m c) 1 (Cert.Net.proj (params m c) 1 (Cert.Net.kH (params m c) 1))) (Cert.Common.rowK (Cert.Common.vec 1 (params m c).a7)) Cert.Net.nN :=
  (V11_of m outs c main_v121_1 (by decide)).trans (VAR1_10 m outs ho c)

theorem RB1 (c : Dev nD) :
    V11 m outs c main_v128 = Cert.Common.rowK (Cert.Common.vec 1 (params m c).a7) :=
  (Read.r5_v128 (V10 m outs c)).trans (by rw [A7_10 m outs c])

theorem RG1 (c : Dev nD) :
    V11 m outs c main_v129 = Cert.Common.rowK (Cert.Common.vec 1 (params m c).a10) :=
  (Read.r5_v129 (V10 m outs c)).trans (by rw [A10_10 m outs c])

theorem RE1 (c : Dev nD) :
    V11 m outs c main_v130 = Cert.Common.rowK (Cert.Common.vec 1 (params m c).a11) :=
  (Read.r5_v130 (V10 m outs c)).trans (by rw [A11_10 m outs c])

theorem H2_12 (ho : OutsOK m outs) (c : Dev nD) :
    V12 m outs c main_v131 = Cert.Net.kH (params m c) 2 :=
  by
  have e1 : V12 m outs c main_v131 = outs 12 main_v131 c := Function.update_self _ _ _
  have e2 := ho.o5_6 c
  have e3 : (dat5 (Ve5 m outs) c).arrAt 6 cfg5.N = Cert.Spec.normMax (M := 100000) (N := 300) (V11 m outs c main_v117) (V11 m outs c main_v128) (V11 m outs c main_v121_0) (V11 m outs c main_v121_1) (V11 m outs c main_v129) (V11 m outs c main_v130) Cert.Net.eps Cert.Net.zz :=
    Cert.KernelIdeal.Val.final5 (Ve5 m outs) c
  have e4 : Cert.Spec.normMax (M := 100000) (N := 300) (V11 m outs c main_v117) (V11 m outs c main_v128) (V11 m outs c main_v121_0) (V11 m outs c main_v121_1) (V11 m outs c main_v129) (V11 m outs c main_v130) Cert.Net.eps Cert.Net.zz = Cert.Net.kH (params m c) 2 := by
    rw [RAW1_11 m outs ho c, RB1 m outs c, MEAN1_11 m outs ho c, VAR1_11 m outs ho c, RG1 m outs c, RE1 m outs c] <;> rfl
  exact e1.trans (e2.trans (e3.trans e4))

theorem H2_13 (ho : OutsOK m outs) (c : Dev nD) :
    V13 m outs c main_v131 = Cert.Net.kH (params m c) 2 :=
  (V13_of m outs c main_v131 (by decide)).trans (H2_12 m outs ho c)

theorem W2 (c : Dev nD) :
    V13 m outs c main_v133 = Cert.Common.wmat 2 (params m c).a6 :=
  (Read.r6_v133 (V12 m outs c)).trans (by rw [A6_12 m outs c])

theorem Z2 (c : Dev nD) :
    V13 m outs c main_v134 = Cert.Common.zrow300 :=
  Read.r6_v134 (V12 m outs c)

theorem MM2 (ho : OutsOK m outs) (c : Dev nD) :
    V14 m outs c main_v135 = Cert.Net.proj (params m c) 2 (Cert.Net.kH (params m c) 2) :=
  by
  have e1 : V14 m outs c main_v135 = outs 14 main_v135 c := Function.update_self _ _ _
  have e2 := ho.o6_3 c
  have e3 : (dat6 (Ve6 m outs) c).arrAt 3 cfg6.N = Cert.Spec.affine (M := 100000) (K := 300) (N := 300) (V13 m outs c main_v131) (V13 m outs c main_v133) (V13 m outs c main_v134) :=
    Cert.KernelIdeal.Val.final6 (Ve6 m outs) c
  have e4 : Cert.Spec.affine (M := 100000) (K := 300) (N := 300) (V13 m outs c main_v131) (V13 m outs c main_v133) (V13 m outs c main_v134) = Cert.Net.proj (params m c) 2 (Cert.Net.kH (params m c) 2) := by
    rw [H2_13 m outs ho c, W2 m outs c, Z2 m outs c] <;> rfl
  exact e1.trans (e2.trans (e3.trans e4))

theorem RAW2_15 (ho : OutsOK m outs) (c : Dev nD) :
    V15 m outs c main_v166 = Cert.Net.raw (params m c) 2 (Cert.Net.proj (params m c) 2 (Cert.Net.kH (params m c) 2)) :=
  (Read.r7_v166 (V14 m outs c)).trans (by rw [MM2 m outs ho c, I3_14 m outs c, I6_14 m outs c, I10_14 m outs c, I14_14 m outs c, A8_14 m outs c, A9_14 m outs c] <;> rfl)

theorem B2 (c : Dev nD) :
    V15 m outs c main_v169 = Cert.Common.rowK (Cert.Common.vec 2 (params m c).a7) :=
  (Read.r7_v169 (V14 m outs c)).trans (by rw [A7_14 m outs c])

theorem MEAN2_16 (ho : OutsOK m outs) (c : Dev nD) :
    V16 m outs c main_v170_0 = Cert.Spec.colMean (M := 100000) (N := 300) (Cert.Net.raw (params m c) 2 (Cert.Net.proj (params m c) 2 (Cert.Net.kH (params m c) 2))) (Cert.Common.rowK (Cert.Common.vec 2 (params m c).a7)) Cert.Net.nN :=
  by
  have e1 : V16 m outs c main_v170_0 = outs 16 main_v170_0 c := (Function.update_of_ne (StableHlo.devRef_ne_of_ne (by decide)) _ _).trans (Function.update_self _ _ _)
  have e2 := ho.o7_2 c
  have e3 : (dat7 (Ve7 m outs) c).arrAt 2 cfg7.N = Cert.Spec.colMean (M := 100000) (N := 300) (V15 m outs c main_v166) (V15 m outs c main_v169) Cert.Net.nN :=
    Cert.KernelIdeal.Val.final7_mean (Ve7 m outs) c
  have e4 : Cert.Spec.colMean (M := 100000) (N := 300) (V15 m outs c main_v166) (V15 m outs c main_v169) Cert.Net.nN = Cert.Spec.colMean (M := 100000) (N := 300) (Cert.Net.raw (params m c) 2 (Cert.Net.proj (params m c) 2 (Cert.Net.kH (params m c) 2))) (Cert.Common.rowK (Cert.Common.vec 2 (params m c).a7)) Cert.Net.nN := by
    rw [RAW2_15 m outs ho c, B2 m outs c] <;> rfl
  exact e1.trans (e2.trans (e3.trans e4))

theorem VAR2_16 (ho : OutsOK m outs) (c : Dev nD) :
    V16 m outs c main_v170_1 = Cert.Spec.colVarK (M := 100000) (N := 300) (Cert.Net.raw (params m c) 2 (Cert.Net.proj (params m c) 2 (Cert.Net.kH (params m c) 2))) (Cert.Common.rowK (Cert.Common.vec 2 (params m c).a7)) Cert.Net.nN :=
  by
  have e1 : V16 m outs c main_v170_1 = outs 16 main_v170_1 c := Function.update_self _ _ _
  have e2 := ho.o7_3 c
  have e3 : (dat7 (Ve7 m outs) c).arrAt 3 cfg7.N = Cert.Spec.colVarK (M := 100000) (N := 300) (V15 m outs c main_v166) (V15 m outs c main_v169) Cert.Net.nN :=
    Cert.KernelIdeal.Val.final7_var (Ve7 m outs) c
  have e4 : Cert.Spec.colVarK (M := 100000) (N := 300) (V15 m outs c main_v166) (V15 m outs c main_v169) Cert.Net.nN = Cert.Spec.colVarK (M := 100000) (N := 300) (Cert.Net.raw (params m c) 2 (Cert.Net.proj (params m c) 2 (Cert.Net.kH (params m c) 2))) (Cert.Common.rowK (Cert.Common.vec 2 (params m c).a7)) Cert.Net.nN := by
    rw [RAW2_15 m outs ho c, B2 m outs c] <;> rfl
  exact e1.trans (e2.trans (e3.trans e4))

theorem RAW2_16 (ho : OutsOK m outs) (c : Dev nD) :
    V16 m outs c main_v166 = Cert.Net.raw (params m c) 2 (Cert.Net.proj (params m c) 2 (Cert.Net.kH (params m c) 2)) :=
  (V16_of m outs c main_v166 (by decide)).trans (RAW2_15 m outs ho c)

theorem RAW2_17 (ho : OutsOK m outs) (c : Dev nD) :
    V17 m outs c main_v166 = Cert.Net.raw (params m c) 2 (Cert.Net.proj (params m c) 2 (Cert.Net.kH (params m c) 2)) :=
  (V17_of m outs c main_v166 (by decide)).trans (RAW2_16 m outs ho c)

theorem MEAN2_17 (ho : OutsOK m outs) (c : Dev nD) :
    V17 m outs c main_v170_0 = Cert.Spec.colMean (M := 100000) (N := 300) (Cert.Net.raw (params m c) 2 (Cert.Net.proj (params m c) 2 (Cert.Net.kH (params m c) 2))) (Cert.Common.rowK (Cert.Common.vec 2 (params m c).a7)) Cert.Net.nN :=
  (V17_of m outs c main_v170_0 (by decide)).trans (MEAN2_16 m outs ho c)

theorem VAR2_17 (ho : OutsOK m outs) (c : Dev nD) :
    V17 m outs c main_v170_1 = Cert.Spec.colVarK (M := 100000) (N := 300) (Cert.Net.raw (params m c) 2 (Cert.Net.proj (params m c) 2 (Cert.Net.kH (params m c) 2))) (Cert.Common.rowK (Cert.Common.vec 2 (params m c).a7)) Cert.Net.nN :=
  (V17_of m outs c main_v170_1 (by decide)).trans (VAR2_16 m outs ho c)

theorem RB2 (c : Dev nD) :
    V17 m outs c main_v177 = Cert.Common.rowK (Cert.Common.vec 2 (params m c).a7) :=
  (Read.r8_v177 (V16 m outs c)).trans (by rw [A7_16 m outs c])

theorem RG2 (c : Dev nD) :
    V17 m outs c main_v178 = Cert.Common.rowK (Cert.Common.vec 2 (params m c).a10) :=
  (Read.r8_v178 (V16 m outs c)).trans (by rw [A10_16 m outs c])

theorem RE2 (c : Dev nD) :
    V17 m outs c main_v179 = Cert.Common.rowK (Cert.Common.vec 2 (params m c).a11) :=
  (Read.r8_v179 (V16 m outs c)).trans (by rw [A11_16 m outs c])

theorem H3_18 (ho : OutsOK m outs) (c : Dev nD) :
    V18 m outs c main_v180 = Cert.Net.kH (params m c) 3 :=
  by
  have e1 : V18 m outs c main_v180 = outs 18 main_v180 c := Function.update_self _ _ _
  have e2 := ho.o8_6 c
  have e3 : (dat8 (Ve8 m outs) c).arrAt 6 cfg8.N = Cert.Spec.normMax (M := 100000) (N := 300) (V17 m outs c main_v166) (V17 m outs c main_v177) (V17 m outs c main_v170_0) (V17 m outs c main_v170_1) (V17 m outs c main_v178) (V17 m outs c main_v179) Cert.Net.eps Cert.Net.zz :=
    Cert.KernelIdeal.Val.final8 (Ve8 m outs) c
  have e4 : Cert.Spec.normMax (M := 100000) (N := 300) (V17 m outs c main_v166) (V17 m outs c main_v177) (V17 m outs c main_v170_0) (V17 m outs c main_v170_1) (V17 m outs c main_v178) (V17 m outs c main_v179) Cert.Net.eps Cert.Net.zz = Cert.Net.kH (params m c) 3 := by
    rw [RAW2_17 m outs ho c, RB2 m outs c, MEAN2_17 m outs ho c, VAR2_17 m outs ho c, RG2 m outs c, RE2 m outs c] <;> rfl
  exact e1.trans (e2.trans (e3.trans e4))

theorem H3_19 (ho : OutsOK m outs) (c : Dev nD) :
    V19 m outs c main_v180 = Cert.Net.kH (params m c) 3 :=
  (V19_of m outs c main_v180 (by decide)).trans (H3_18 m outs ho c)

theorem W3 (c : Dev nD) :
    V19 m outs c main_v182 = Cert.Common.wmat 3 (params m c).a6 :=
  (Read.r9_v182 (V18 m outs c)).trans (by rw [A6_18 m outs c])

theorem Z3 (c : Dev nD) :
    V19 m outs c main_v183 = Cert.Common.zrow300 :=
  Read.r9_v183 (V18 m outs c)

theorem MM3 (ho : OutsOK m outs) (c : Dev nD) :
    V20 m outs c main_v184 = Cert.Net.proj (params m c) 3 (Cert.Net.kH (params m c) 3) :=
  by
  have e1 : V20 m outs c main_v184 = outs 20 main_v184 c := Function.update_self _ _ _
  have e2 := ho.o9_3 c
  have e3 : (dat9 (Ve9 m outs) c).arrAt 3 cfg9.N = Cert.Spec.affine (M := 100000) (K := 300) (N := 300) (V19 m outs c main_v180) (V19 m outs c main_v182) (V19 m outs c main_v183) :=
    Cert.KernelIdeal.Val.final9 (Ve9 m outs) c
  have e4 : Cert.Spec.affine (M := 100000) (K := 300) (N := 300) (V19 m outs c main_v180) (V19 m outs c main_v182) (V19 m outs c main_v183) = Cert.Net.proj (params m c) 3 (Cert.Net.kH (params m c) 3) := by
    rw [H3_19 m outs ho c, W3 m outs c, Z3 m outs c] <;> rfl
  exact e1.trans (e2.trans (e3.trans e4))

theorem RAW3_21 (ho : OutsOK m outs) (c : Dev nD) :
    V21 m outs c main_v215 = Cert.Net.raw (params m c) 3 (Cert.Net.proj (params m c) 3 (Cert.Net.kH (params m c) 3)) :=
  (Read.r10_v215 (V20 m outs c)).trans (by rw [MM3 m outs ho c, I3_20 m outs c, I6_20 m outs c, I10_20 m outs c, I14_20 m outs c, A8_20 m outs c, A9_20 m outs c] <;> rfl)

theorem B3 (c : Dev nD) :
    V21 m outs c main_v218 = Cert.Common.rowK (Cert.Common.vec 3 (params m c).a7) :=
  (Read.r10_v218 (V20 m outs c)).trans (by rw [A7_20 m outs c])

theorem MEAN3_22 (ho : OutsOK m outs) (c : Dev nD) :
    V22 m outs c main_v219_0 = Cert.Spec.colMean (M := 100000) (N := 300) (Cert.Net.raw (params m c) 3 (Cert.Net.proj (params m c) 3 (Cert.Net.kH (params m c) 3))) (Cert.Common.rowK (Cert.Common.vec 3 (params m c).a7)) Cert.Net.nN :=
  by
  have e1 : V22 m outs c main_v219_0 = outs 22 main_v219_0 c := (Function.update_of_ne (StableHlo.devRef_ne_of_ne (by decide)) _ _).trans (Function.update_self _ _ _)
  have e2 := ho.o10_2 c
  have e3 : (dat10 (Ve10 m outs) c).arrAt 2 cfg10.N = Cert.Spec.colMean (M := 100000) (N := 300) (V21 m outs c main_v215) (V21 m outs c main_v218) Cert.Net.nN :=
    Cert.KernelIdeal.Val.final10_mean (Ve10 m outs) c
  have e4 : Cert.Spec.colMean (M := 100000) (N := 300) (V21 m outs c main_v215) (V21 m outs c main_v218) Cert.Net.nN = Cert.Spec.colMean (M := 100000) (N := 300) (Cert.Net.raw (params m c) 3 (Cert.Net.proj (params m c) 3 (Cert.Net.kH (params m c) 3))) (Cert.Common.rowK (Cert.Common.vec 3 (params m c).a7)) Cert.Net.nN := by
    rw [RAW3_21 m outs ho c, B3 m outs c] <;> rfl
  exact e1.trans (e2.trans (e3.trans e4))

theorem VAR3_22 (ho : OutsOK m outs) (c : Dev nD) :
    V22 m outs c main_v219_1 = Cert.Spec.colVarK (M := 100000) (N := 300) (Cert.Net.raw (params m c) 3 (Cert.Net.proj (params m c) 3 (Cert.Net.kH (params m c) 3))) (Cert.Common.rowK (Cert.Common.vec 3 (params m c).a7)) Cert.Net.nN :=
  by
  have e1 : V22 m outs c main_v219_1 = outs 22 main_v219_1 c := Function.update_self _ _ _
  have e2 := ho.o10_3 c
  have e3 : (dat10 (Ve10 m outs) c).arrAt 3 cfg10.N = Cert.Spec.colVarK (M := 100000) (N := 300) (V21 m outs c main_v215) (V21 m outs c main_v218) Cert.Net.nN :=
    Cert.KernelIdeal.Val.final10_var (Ve10 m outs) c
  have e4 : Cert.Spec.colVarK (M := 100000) (N := 300) (V21 m outs c main_v215) (V21 m outs c main_v218) Cert.Net.nN = Cert.Spec.colVarK (M := 100000) (N := 300) (Cert.Net.raw (params m c) 3 (Cert.Net.proj (params m c) 3 (Cert.Net.kH (params m c) 3))) (Cert.Common.rowK (Cert.Common.vec 3 (params m c).a7)) Cert.Net.nN := by
    rw [RAW3_21 m outs ho c, B3 m outs c] <;> rfl
  exact e1.trans (e2.trans (e3.trans e4))

theorem RAW3_22 (ho : OutsOK m outs) (c : Dev nD) :
    V22 m outs c main_v215 = Cert.Net.raw (params m c) 3 (Cert.Net.proj (params m c) 3 (Cert.Net.kH (params m c) 3)) :=
  (V22_of m outs c main_v215 (by decide)).trans (RAW3_21 m outs ho c)

theorem RAW3_23 (ho : OutsOK m outs) (c : Dev nD) :
    V23 m outs c main_v215 = Cert.Net.raw (params m c) 3 (Cert.Net.proj (params m c) 3 (Cert.Net.kH (params m c) 3)) :=
  (V23_of m outs c main_v215 (by decide)).trans (RAW3_22 m outs ho c)

theorem MEAN3_23 (ho : OutsOK m outs) (c : Dev nD) :
    V23 m outs c main_v219_0 = Cert.Spec.colMean (M := 100000) (N := 300) (Cert.Net.raw (params m c) 3 (Cert.Net.proj (params m c) 3 (Cert.Net.kH (params m c) 3))) (Cert.Common.rowK (Cert.Common.vec 3 (params m c).a7)) Cert.Net.nN :=
  (V23_of m outs c main_v219_0 (by decide)).trans (MEAN3_22 m outs ho c)

theorem VAR3_23 (ho : OutsOK m outs) (c : Dev nD) :
    V23 m outs c main_v219_1 = Cert.Spec.colVarK (M := 100000) (N := 300) (Cert.Net.raw (params m c) 3 (Cert.Net.proj (params m c) 3 (Cert.Net.kH (params m c) 3))) (Cert.Common.rowK (Cert.Common.vec 3 (params m c).a7)) Cert.Net.nN :=
  (V23_of m outs c main_v219_1 (by decide)).trans (VAR3_22 m outs ho c)

theorem RB3 (c : Dev nD) :
    V23 m outs c main_v226 = Cert.Common.rowK (Cert.Common.vec 3 (params m c).a7) :=
  (Read.r11_v226 (V22 m outs c)).trans (by rw [A7_22 m outs c])

theorem RG3 (c : Dev nD) :
    V23 m outs c main_v227 = Cert.Common.rowK (Cert.Common.vec 3 (params m c).a10) :=
  (Read.r11_v227 (V22 m outs c)).trans (by rw [A10_22 m outs c])

theorem RE3 (c : Dev nD) :
    V23 m outs c main_v228 = Cert.Common.rowK (Cert.Common.vec 3 (params m c).a11) :=
  (Read.r11_v228 (V22 m outs c)).trans (by rw [A11_22 m outs c])

theorem H4_24 (ho : OutsOK m outs) (c : Dev nD) :
    V24 m outs c main_v229 = Cert.Net.kH (params m c) 4 :=
  by
  have e1 : V24 m outs c main_v229 = outs 24 main_v229 c := Function.update_self _ _ _
  have e2 := ho.o11_6 c
  have e3 : (dat11 (Ve11 m outs) c).arrAt 6 cfg11.N = Cert.Spec.normMax (M := 100000) (N := 300) (V23 m outs c main_v215) (V23 m outs c main_v226) (V23 m outs c main_v219_0) (V23 m outs c main_v219_1) (V23 m outs c main_v227) (V23 m outs c main_v228) Cert.Net.eps Cert.Net.zz :=
    Cert.KernelIdeal.Val.final11 (Ve11 m outs) c
  have e4 : Cert.Spec.normMax (M := 100000) (N := 300) (V23 m outs c main_v215) (V23 m outs c main_v226) (V23 m outs c main_v219_0) (V23 m outs c main_v219_1) (V23 m outs c main_v227) (V23 m outs c main_v228) Cert.Net.eps Cert.Net.zz = Cert.Net.kH (params m c) 4 := by
    rw [RAW3_23 m outs ho c, RB3 m outs c, MEAN3_23 m outs ho c, VAR3_23 m outs ho c, RG3 m outs c, RE3 m outs c] <;> rfl
  exact e1.trans (e2.trans (e3.trans e4))

theorem H4_25 (ho : OutsOK m outs) (c : Dev nD) :
    V25 m outs c main_v229 = Cert.Net.kH (params m c) 4 :=
  (V25_of m outs c main_v229 (by decide)).trans (H4_24 m outs ho c)

theorem W4 (c : Dev nD) :
    V25 m outs c main_v231 = Cert.Common.wmat 4 (params m c).a6 :=
  (Read.r12_v231 (V24 m outs c)).trans (by rw [A6_24 m outs c])

theorem Z4 (c : Dev nD) :
    V25 m outs c main_v232 = Cert.Common.zrow300 :=
  Read.r12_v232 (V24 m outs c)

theorem MM4 (ho : OutsOK m outs) (c : Dev nD) :
    V26 m outs c main_v233 = Cert.Net.proj (params m c) 4 (Cert.Net.kH (params m c) 4) :=
  by
  have e1 : V26 m outs c main_v233 = outs 26 main_v233 c := Function.update_self _ _ _
  have e2 := ho.o12_3 c
  have e3 : (dat12 (Ve12 m outs) c).arrAt 3 cfg12.N = Cert.Spec.affine (M := 100000) (K := 300) (N := 300) (V25 m outs c main_v229) (V25 m outs c main_v231) (V25 m outs c main_v232) :=
    Cert.KernelIdeal.Val.final12 (Ve12 m outs) c
  have e4 : Cert.Spec.affine (M := 100000) (K := 300) (N := 300) (V25 m outs c main_v229) (V25 m outs c main_v231) (V25 m outs c main_v232) = Cert.Net.proj (params m c) 4 (Cert.Net.kH (params m c) 4) := by
    rw [H4_25 m outs ho c, W4 m outs c, Z4 m outs c] <;> rfl
  exact e1.trans (e2.trans (e3.trans e4))

theorem RAW4_27 (ho : OutsOK m outs) (c : Dev nD) :
    V27 m outs c main_v264 = Cert.Net.raw (params m c) 4 (Cert.Net.proj (params m c) 4 (Cert.Net.kH (params m c) 4)) :=
  (Read.r13_v264 (V26 m outs c)).trans (by rw [MM4 m outs ho c, I3_26 m outs c, I6_26 m outs c, I10_26 m outs c, I14_26 m outs c, A8_26 m outs c, A9_26 m outs c] <;> rfl)

theorem B4 (c : Dev nD) :
    V27 m outs c main_v267 = Cert.Common.rowK (Cert.Common.vec 4 (params m c).a7) :=
  (Read.r13_v267 (V26 m outs c)).trans (by rw [A7_26 m outs c])

theorem MEAN4_28 (ho : OutsOK m outs) (c : Dev nD) :
    V28 m outs c main_v268_0 = Cert.Spec.colMean (M := 100000) (N := 300) (Cert.Net.raw (params m c) 4 (Cert.Net.proj (params m c) 4 (Cert.Net.kH (params m c) 4))) (Cert.Common.rowK (Cert.Common.vec 4 (params m c).a7)) Cert.Net.nN :=
  by
  have e1 : V28 m outs c main_v268_0 = outs 28 main_v268_0 c := (Function.update_of_ne (StableHlo.devRef_ne_of_ne (by decide)) _ _).trans (Function.update_self _ _ _)
  have e2 := ho.o13_2 c
  have e3 : (dat13 (Ve13 m outs) c).arrAt 2 cfg13.N = Cert.Spec.colMean (M := 100000) (N := 300) (V27 m outs c main_v264) (V27 m outs c main_v267) Cert.Net.nN :=
    Cert.KernelIdeal.Val.final13_mean (Ve13 m outs) c
  have e4 : Cert.Spec.colMean (M := 100000) (N := 300) (V27 m outs c main_v264) (V27 m outs c main_v267) Cert.Net.nN = Cert.Spec.colMean (M := 100000) (N := 300) (Cert.Net.raw (params m c) 4 (Cert.Net.proj (params m c) 4 (Cert.Net.kH (params m c) 4))) (Cert.Common.rowK (Cert.Common.vec 4 (params m c).a7)) Cert.Net.nN := by
    rw [RAW4_27 m outs ho c, B4 m outs c] <;> rfl
  exact e1.trans (e2.trans (e3.trans e4))

theorem VAR4_28 (ho : OutsOK m outs) (c : Dev nD) :
    V28 m outs c main_v268_1 = Cert.Spec.colVarK (M := 100000) (N := 300) (Cert.Net.raw (params m c) 4 (Cert.Net.proj (params m c) 4 (Cert.Net.kH (params m c) 4))) (Cert.Common.rowK (Cert.Common.vec 4 (params m c).a7)) Cert.Net.nN :=
  by
  have e1 : V28 m outs c main_v268_1 = outs 28 main_v268_1 c := Function.update_self _ _ _
  have e2 := ho.o13_3 c
  have e3 : (dat13 (Ve13 m outs) c).arrAt 3 cfg13.N = Cert.Spec.colVarK (M := 100000) (N := 300) (V27 m outs c main_v264) (V27 m outs c main_v267) Cert.Net.nN :=
    Cert.KernelIdeal.Val.final13_var (Ve13 m outs) c
  have e4 : Cert.Spec.colVarK (M := 100000) (N := 300) (V27 m outs c main_v264) (V27 m outs c main_v267) Cert.Net.nN = Cert.Spec.colVarK (M := 100000) (N := 300) (Cert.Net.raw (params m c) 4 (Cert.Net.proj (params m c) 4 (Cert.Net.kH (params m c) 4))) (Cert.Common.rowK (Cert.Common.vec 4 (params m c).a7)) Cert.Net.nN := by
    rw [RAW4_27 m outs ho c, B4 m outs c] <;> rfl
  exact e1.trans (e2.trans (e3.trans e4))

theorem RAW4_28 (ho : OutsOK m outs) (c : Dev nD) :
    V28 m outs c main_v264 = Cert.Net.raw (params m c) 4 (Cert.Net.proj (params m c) 4 (Cert.Net.kH (params m c) 4)) :=
  (V28_of m outs c main_v264 (by decide)).trans (RAW4_27 m outs ho c)

theorem RAW4_29 (ho : OutsOK m outs) (c : Dev nD) :
    V29 m outs c main_v264 = Cert.Net.raw (params m c) 4 (Cert.Net.proj (params m c) 4 (Cert.Net.kH (params m c) 4)) :=
  (V29_of m outs c main_v264 (by decide)).trans (RAW4_28 m outs ho c)

theorem MEAN4_29 (ho : OutsOK m outs) (c : Dev nD) :
    V29 m outs c main_v268_0 = Cert.Spec.colMean (M := 100000) (N := 300) (Cert.Net.raw (params m c) 4 (Cert.Net.proj (params m c) 4 (Cert.Net.kH (params m c) 4))) (Cert.Common.rowK (Cert.Common.vec 4 (params m c).a7)) Cert.Net.nN :=
  (V29_of m outs c main_v268_0 (by decide)).trans (MEAN4_28 m outs ho c)

theorem VAR4_29 (ho : OutsOK m outs) (c : Dev nD) :
    V29 m outs c main_v268_1 = Cert.Spec.colVarK (M := 100000) (N := 300) (Cert.Net.raw (params m c) 4 (Cert.Net.proj (params m c) 4 (Cert.Net.kH (params m c) 4))) (Cert.Common.rowK (Cert.Common.vec 4 (params m c).a7)) Cert.Net.nN :=
  (V29_of m outs c main_v268_1 (by decide)).trans (VAR4_28 m outs ho c)

theorem RB4 (c : Dev nD) :
    V29 m outs c main_v275 = Cert.Common.rowK (Cert.Common.vec 4 (params m c).a7) :=
  (Read.r14_v275 (V28 m outs c)).trans (by rw [A7_28 m outs c])

theorem RG4 (c : Dev nD) :
    V29 m outs c main_v276 = Cert.Common.rowK (Cert.Common.vec 4 (params m c).a10) :=
  (Read.r14_v276 (V28 m outs c)).trans (by rw [A10_28 m outs c])

theorem RE4 (c : Dev nD) :
    V29 m outs c main_v277 = Cert.Common.rowK (Cert.Common.vec 4 (params m c).a11) :=
  (Read.r14_v277 (V28 m outs c)).trans (by rw [A11_28 m outs c])

theorem H5_30 (ho : OutsOK m outs) (c : Dev nD) :
    V30 m outs c main_v278 = Cert.Net.kH (params m c) 5 :=
  by
  have e1 : V30 m outs c main_v278 = outs 30 main_v278 c := Function.update_self _ _ _
  have e2 := ho.o14_6 c
  have e3 : (dat14 (Ve14 m outs) c).arrAt 6 cfg14.N = Cert.Spec.normMax (M := 100000) (N := 300) (V29 m outs c main_v264) (V29 m outs c main_v275) (V29 m outs c main_v268_0) (V29 m outs c main_v268_1) (V29 m outs c main_v276) (V29 m outs c main_v277) Cert.Net.eps Cert.Net.zz :=
    Cert.KernelIdeal.Val.final14 (Ve14 m outs) c
  have e4 : Cert.Spec.normMax (M := 100000) (N := 300) (V29 m outs c main_v264) (V29 m outs c main_v275) (V29 m outs c main_v268_0) (V29 m outs c main_v268_1) (V29 m outs c main_v276) (V29 m outs c main_v277) Cert.Net.eps Cert.Net.zz = Cert.Net.kH (params m c) 5 := by
    rw [RAW4_29 m outs ho c, RB4 m outs c, MEAN4_29 m outs ho c, VAR4_29 m outs ho c, RG4 m outs c, RE4 m outs c] <;> rfl
  exact e1.trans (e2.trans (e3.trans e4))

theorem H5_31 (ho : OutsOK m outs) (c : Dev nD) :
    V31 m outs c main_v278 = Cert.Net.kH (params m c) 5 :=
  (V31_of m outs c main_v278 (by decide)).trans (H5_30 m outs ho c)

theorem R256 (c : Dev nD) :
    V31 m outs c main_v279 = Cert.Common.row256 (params m c).a13 :=
  (Read.r15_v279 (V30 m outs c)).trans (by rw [A13_30 m outs c])

theorem FEAT (ho : OutsOK m outs) (c : Dev nD) :
    V32 m outs c main_v280 = Cert.Spec.affine (M := 100000) (K := 300) (N := 256) (Cert.Net.kH (params m c) 5) (params m c).a12 (Cert.Common.row256 (params m c).a13) :=
  by
  have e1 : V32 m outs c main_v280 = outs 32 main_v280 c := Function.update_self _ _ _
  have e2 := ho.o15_3 c
  have e3 : (dat15 (Ve15 m outs) c).arrAt 3 cfg15.N = Cert.Spec.affine (M := 100000) (K := 300) (N := 256) (V31 m outs c main_v278) (V31 m outs c main_arg12) (V31 m outs c main_v279) :=
    Cert.KernelIdeal.Val.final15 (Ve15 m outs) c
  have e4 : Cert.Spec.affine (M := 100000) (K := 300) (N := 256) (V31 m outs c main_v278) (V31 m outs c main_arg12) (V31 m outs c main_v279) = Cert.Spec.affine (M := 100000) (K := 300) (N := 256) (Cert.Net.kH (params m c) 5) (params m c).a12 (Cert.Common.row256 (params m c).a13) := by
    rw [H5_31 m outs ho c, A12_31 m outs c, R256 m outs c] <;> rfl
  exact e1.trans (e2.trans (e3.trans e4))

theorem OUT0_33 (ho : OutsOK m outs) (c : Dev nD) :
    V33 m outs c main_v292 = Cert.Net.kOut0 (params m c) :=
  (Read.r16_v292 (V32 m outs c)).trans (by rw [FEAT m outs ho c, A3_32 m outs c] <;> rfl)

theorem R128 (c : Dev nD) :
    V33 m outs c main_v293 = Cert.Common.row128 (params m c).a15 :=
  (Read.r16_v293 (V32 m outs c)).trans (by rw [A15_32 m outs c])

theorem HEAD_34 (ho : OutsOK m outs) (c : Dev nD) :
    V34 m outs c main_v294 = Cert.Spec.affineMax (M := 2048) (K := 256) (N := 128) (Cert.Net.kOut0 (params m c)) (params m c).a14 (Cert.Common.row128 (params m c).a15) Cert.Net.zz :=
  by
  have e1 : V34 m outs c main_v294 = outs 34 main_v294 c := Function.update_self _ _ _
  have e2 := ho.o16_3 c
  have e3 : (dat16 (Ve16 m outs) c).arrAt 3 cfg16.N = Cert.Spec.affineMax (M := 2048) (K := 256) (N := 128) (V33 m outs c main_v292) (V33 m outs c main_arg14) (V33 m outs c main_v293) Cert.Net.zz :=
    Cert.KernelIdeal.Val.final16 (Ve16 m outs) c
  have e4 : Cert.Spec.affineMax (M := 2048) (K := 256) (N := 128) (V33 m outs c main_v292) (V33 m outs c main_arg14) (V33 m outs c main_v293) Cert.Net.zz = Cert.Spec.affineMax (M := 2048) (K := 256) (N := 128) (Cert.Net.kOut0 (params m c)) (params m c).a14 (Cert.Common.row128 (params m c).a15) Cert.Net.zz := by
    rw [OUT0_33 m outs ho c, A14_33 m outs c, R128 m outs c] <;> rfl
  exact e1.trans (e2.trans (e3.trans e4))

theorem OUT0_34 (ho : OutsOK m outs) (c : Dev nD) :
    V34 m outs c main_v292 = Cert.Net.kOut0 (params m c) :=
  (V34_of m outs c main_v292 (by decide)).trans (OUT0_33 m outs ho c)

theorem OUT0_35 (ho : OutsOK m outs) (c : Dev nD) :
    V35 m outs c main_v292 = Cert.Net.kOut0 (params m c) :=
  (V35_of m outs c main_v292 (by decide)).trans (OUT0_34 m outs ho c)

theorem HEAD_35 (ho : OutsOK m outs) (c : Dev nD) :
    V35 m outs c main_v294 = Cert.Spec.affineMax (M := 2048) (K := 256) (N := 128) (Cert.Net.kOut0 (params m c)) (params m c).a14 (Cert.Common.row128 (params m c).a15) Cert.Net.zz :=
  (V35_of m outs c main_v294 (by decide)).trans (HEAD_34 m outs ho c)

theorem R2 (c : Dev nD) :
    V35 m outs c main_v295 = Cert.Common.row2 (params m c).a17 :=
  (Read.r17_v295 (V34 m outs c)).trans (by rw [A17_34 m outs c])

theorem OUT0_36 (ho : OutsOK m outs) (c : Dev nD) :
    V36 m outs c main_v292 = Cert.Net.kOut0 (params m c) :=
  (V36_of m outs c main_v292 (by decide)).trans (OUT0_35 m outs ho c)

theorem OUT1_36 (ho : OutsOK m outs) (c : Dev nD) :
    V36 m outs c main_v296 = Cert.Net.kOut1 (params m c) :=
  by
  have e1 : V36 m outs c main_v296 = outs 36 main_v296 c := Function.update_self _ _ _
  have e2 := ho.o17_3 c
  have e3 : (dat17 (Ve17 m outs) c).arrAt 3 cfg17.N = Cert.Spec.affine (M := 2048) (K := 128) (N := 2) (V35 m outs c main_v294) (V35 m outs c main_arg16) (V35 m outs c main_v295) :=
    Cert.KernelIdeal.Val.final17 (Ve17 m outs) c
  have e4 : Cert.Spec.affine (M := 2048) (K := 128) (N := 2) (V35 m outs c main_v294) (V35 m outs c main_arg16) (V35 m outs c main_v295) = Cert.Net.kOut1 (params m c) := by
    rw [HEAD_35 m outs ho c, A16_35 m outs c, R2 m outs c] <;> rfl
  exact e1.trans (e2.trans (e3.trans e4))

theorem kval0 (ho : OutsOK m outs) (c : Dev nD) : V36 m outs c main_v292 = Cert.Net.kOut0 (params m c) := OUT0_36 m outs ho c

theorem kval1 (ho : OutsOK m outs) (c : Dev nD) : V36 m outs c main_v296 = Cert.Net.kOut1 (params m c) := OUT1_36 m outs ho c

end Cert.KernelIdeal.Reg

end
-- ==== Proof.Math.lean ====
import Idealize.ShloMosaic.PureOps.Ideal
import Idealize.ShloMosaic.PureOps.Ideal.Laws
import Idealize.ShloMosaic.Lib.ValueIdx
import Mathlib.Data.EReal.Inv
import Mathlib.Data.Fintype.Card
import Mathlib.Algebra.BigOperators.Group.Finset.Basic
import Mathlib.Tactic.NormNum
import Mathlib.Tactic.Linarith
import Mathlib.Tactic.Positivity
import proofs.«120348_j28252294873367_1_alg».proof.Proof.Spec

noncomputable section

namespace Cert.Spec

open Idealize.ShloMosaic Idealize.ShloMosaic.ValueIdx
open Cert.Lib
open scoped BigOperators

theorem ofBits_1e5 : Ideal.ofBits .f32 0x47C35000#32 = ((100000 : ℝ) : EReal) := by
  simp [Ideal.ofBits, Ideal.ieee, -EReal.coe_mul]; norm_num

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem eq_ix2_row0 {N : Nat} (j : (⟨2, ![1, N]⟩ : Shape).Idx) : j = ix2 (0 : Fin 1) (j 1) := by
  funext a
  match a with
  | ⟨0, h0⟩ =>
    refine Fin.ext ?_
    have h : (j ⟨0, h0⟩).val < 1 := (j ⟨0, h0⟩).isLt
    show (j ⟨0, h0⟩).val = 0
    omega
  | ⟨1, _⟩ => rfl

section RealValued
variable {M K N : Nat}

theorem isReal_dense {x : Arr M K} {w : Arr K N} (hx : IsReal x) (hw : IsReal w) : IsReal (Cert.Lib.dense x w) :=
  fun _ => real_sum _ _ fun _ _ => real_mul (hx _) (hw _)

theorem isReal_affine {x : Arr M K} {w : Arr K N} {b : Arr 1 N} (hx : IsReal x) (hw : IsReal w) (hb : IsReal b) :
    IsReal (affine x w b) :=
  fun j => real_add (isReal_dense hx hw j) (hb _)

theorem isReal_affineMax {x : Arr M K} {w : Arr K N} {b : Arr 1 N} (hx : IsReal x) (hw : IsReal w) (hb : IsReal b)
    (z : ℝ) : IsReal (affineMax x w b (z : EReal)) :=
  fun j => real_max (isReal_affine hx hw hb j) ⟨z, rfl⟩

theorem isReal_shifted {x : Arr M N} {b : Arr 1 N} (hx : IsReal x) (hb : IsReal b) : IsReal (shifted x b) :=
  fun j => real_add (hx j) (hb _)

theorem isReal_colSum {x : Arr M N} (hx : IsReal x) : IsReal (colSum x) :=
  fun _ => real_sum _ _ fun _ _ => hx _

theorem isReal_colMean {x : Arr M N} {b : Arr 1 N} (hx : IsReal x) (hb : IsReal b) {n : ℝ} (hn : n ≠ 0) :
    IsReal (colMean x b (n : EReal)) :=
  fun j => real_div (isReal_colSum (isReal_shifted hx hb) j) hn

end RealValued

section Variance
variable {M N : Nat}

theorem colVarK_eq_colVarR (x : Arr M N) (b : Arr 1 N) (hx : IsReal x) (hb : IsReal b) (n : ℝ) (hn : n ≠ 0)
    (hM : (M : ℝ) = n) : colVarK x b (n : EReal) = colVarR x b (n : EReal) := by
  funext j
  have ha : IsReal (fun r : Fin M => shifted x b (ix2 r (j 1))) := fun r => isReal_shifted hx hb (ix2 r (j 1))
  have hcard : (Fintype.card (Fin M) : ℝ) = n := by rw [Fintype.card_fin]; exact hM
  exact variance_identity_of_isReal (fun r : Fin M => shifted x b (ix2 r (j 1))) ha n hn hcard

theorem colVarR_nonneg {x : Arr M N} {b : Arr 1 N} (hx : IsReal x) (hb : IsReal b) {n : ℝ} (hn : 0 < n) :
    ∀ j, ∃ r : ℝ, 0 ≤ r ∧ colVarR x b (n : EReal) j = (r : EReal) := by
  intro j
  have hm := isReal_colMean hx hb hn.ne'
  obtain ⟨s, hs0, hs⟩ := nonneg_real_sum Finset.univ
    (fun r : Fin M => (shifted x b (ix2 r (j 1)) - row0 (colMean x b (n : EReal)) (j 1))
      * (shifted x b (ix2 r (j 1)) - row0 (colMean x b (n : EReal)) (j 1)))
    (fun r _ => by
      obtain ⟨d, hd⟩ := real_sub (isReal_shifted hx hb (ix2 r (j 1))) (hm (ix2 (0 : Fin 1) (j 1)))
      refine ⟨d * d, mul_self_nonneg d, ?_⟩
      show (shifted x b (ix2 r (j 1)) - colMean x b (n : EReal) (ix2 (0 : Fin 1) (j 1)))
        * (shifted x b (ix2 r (j 1)) - colMean x b (n : EReal) (ix2 (0 : Fin 1) (j 1))) = ((d * d : ℝ) : EReal)
      rw [hd, EReal.coe_mul])
  have hpos : (0 : ℝ) ≤ 1 / n := by positivity
  refine ⟨s * (1 / n), mul_nonneg hs0 hpos, ?_⟩
  show Ideal.div (∑ r : Fin M, (shifted x b (ix2 r (j 1)) - row0 (colMean x b (n : EReal)) (j 1))
      * (shifted x b (ix2 r (j 1)) - row0 (colMean x b (n : EReal)) (j 1))) (n : EReal) = _
  rw [hs, Ideal.div_coe hn.ne', EReal.coe_mul]

end Variance

section Norm
variable {M N : Nat}

theorem isReal_normMax {x : Arr M N} {b mean var g be : Arr 1 N} (hx : IsReal x) (hb : IsReal b)
    (hmean : IsReal mean) (hg : IsReal g) (hbe : IsReal be)
    (hvar : ∀ j, ∃ r : ℝ, 0 ≤ r ∧ var j = (r : EReal)) {eps : ℝ} (heps : 0 < eps) {z : ℝ} :
    IsReal (normMax x b mean var g be (eps : EReal) (z : EReal)) := by
  intro j
  have hrs : ∃ r : ℝ, Ideal.rsqrt (row0 var (j 1) + (eps : EReal)) = (r : EReal) := by
    obtain ⟨v, hv0, hv⟩ := hvar (ix2 (0 : Fin 1) (j 1))
    refine real_rsqrt ⟨v + eps, by linarith, ?_⟩
    show var (ix2 (0 : Fin 1) (j 1)) + (eps : EReal) = ((v + eps : ℝ) : EReal)
    rw [hv, EReal.coe_add]
  exact real_max
    (real_add (real_mul (real_mul (real_sub (isReal_shifted hx hb j) (hmean _)) hrs) (hg _)) (hbe _)) ⟨z, rfl⟩

theorem layer_norm_eq (x : Arr M N) (b g be : Arr 1 N) (hx : IsReal x) (hb : IsReal b) (n : ℝ) (hn : n ≠ 0)
    (hM : (M : ℝ) = n) (eps z : EReal) :
    normMax x b (colMean x b (n : EReal)) (colVarK x b (n : EReal)) g be eps z
      = normMax x b (colMean x b (n : EReal)) (colVarR x b (n : EReal)) g be eps z := by
  rw [colVarK_eq_colVarR x b hx hb n hn hM]

end Norm

end Cert.Spec

end
-- ==== Proof.MathHost.lean ====
import Idealize.ShloMosaic.PureOps.Ideal.Laws
import Idealize.ShloMosaic.Lib.ValueIdx
import Idealize.ShloMosaic.Lib.IdealHost
import Idealize.ShloMosaic.Lib.Pipeline.Value
import proofs.«120348_j28252294873367_1_alg».proof.Proof.Math

noncomputable section

namespace Cert.Spec

open Idealize.ShloMosaic Idealize.ShloMosaic.ValueIdx
open Cert.Lib
open scoped BigOperators

section Broadcast
variable {α : Type} {M N : Nat}

theorem bcast_vec_row_apply (h : (⟨1, ![N]⟩ : Shape).BroadcastsInDim ⟨2, ![1, N]⟩ ![1])
    (v : (⟨1, ![N]⟩ : Shape).Idx → α) (j : (⟨2, ![1, N]⟩ : Shape).Idx) :
    broadcastInDim ⟨2, ![1, N]⟩ ![1] h v j = v (ix1 (j 1)) := by
  refine broadcastInDim_apply ![1] h v j (ix1 (j 1)) fun a => ?_
  match a with
  | ⟨0, _⟩ =>
    show (j 1).val = if N = 1 then 0 else (j 1).val
    split
    · have := idx2_lt1 j; omega
    · rfl

theorem bcast_row_rows_apply (h : (⟨2, ![1, N]⟩ : Shape).BroadcastsInDim ⟨2, ![M, N]⟩ ![0, 1])
    (y : (⟨2, ![1, N]⟩ : Shape).Idx → α) (j : (⟨2, ![M, N]⟩ : Shape).Idx) :
    broadcastInDim ⟨2, ![M, N]⟩ ![0, 1] h y j = y (ix2 (0 : Fin 1) (j 1)) := by
  refine broadcastInDim_apply ![0, 1] h y j (ix2 (0 : Fin 1) (j 1)) fun a => ?_
  match a with
  | ⟨0, _⟩ => rfl
  | ⟨1, _⟩ =>
    show (j 1).val = if N = 1 then 0 else (j 1).val
    split
    · have := idx2_lt1 j; omega
    · rfl

theorem bcast_vec_rows_apply (h1 : (⟨1, ![N]⟩ : Shape).BroadcastsInDim ⟨2, ![1, N]⟩ ![1])
    (h2 : (⟨2, ![1, N]⟩ : Shape).BroadcastsInDim ⟨2, ![M, N]⟩ ![0, 1])
    (v : (⟨1, ![N]⟩ : Shape).Idx → α) (j : (⟨2, ![M, N]⟩ : Shape).Idx) :
    broadcastInDim ⟨2, ![M, N]⟩ ![0, 1] h2 (broadcastInDim ⟨2, ![1, N]⟩ ![1] h1 v) j = v (ix1 (j 1)) :=
  (bcast_row_rows_apply h2 _ j).trans (bcast_vec_row_apply h1 v _)

end Broadcast

section ColumnSum
variable {M N : Nat}

theorem reduces_rows (h' : (⟨2, ![M, N]⟩ : Shape).ReducesTo [0] ⟨1, ![N]⟩) :
    (⟨2, ![M, N]⟩ : Shape).Reduces [0] ⟨1, ![N]⟩ :=
  ⟨h'.1, Nat.one_pos, h'.2⟩

theorem lift_rows_eq (h : (⟨2, ![M, N]⟩ : Shape).Reduces [0] ⟨1, ![N]⟩) (j : (⟨1, ![N]⟩ : Shape).Idx) (k : Fin M) :
    h.lift j k = ix2 k (j 0) := by
  funext c
  match c with
  | ⟨0, _⟩ => exact Fin.ext rfl
  | ⟨1, _⟩ => exact Fin.ext rfl

theorem hostReduceAdd_rows (h' : (⟨2, ![M, N]⟩ : Shape).ReducesTo [0] ⟨1, ![N]⟩)
    (x : (⟨2, ![M, N]⟩ : Shape).Idx → EReal) (init : EReal) (j : (⟨1, ![N]⟩ : Shape).Idx) :
    Ideal.hostReduceAdd h' x init j = init + ∑ r : Fin M, x (ix2 r (j 0)) := by
  rw [Ideal.hostReduceAdd_single h' (reduces_rows h')]
  exact congrArg (init + ·) (Finset.sum_congr rfl fun k _ => congrArg x (lift_rows_eq (reduces_rows h') j k))

theorem hostReduceAdd_zero_rows (h' : (⟨2, ![M, N]⟩ : Shape).ReducesTo [0] ⟨1, ![N]⟩)
    (hu : 0 < (⟨0, ![]⟩ : Shape).numel) (x : FVec Ideal ⟨2, ![M, N]⟩ .f32) (j : (⟨1, ![N]⟩ : Shape).Idx) :
    Host.reduceAdd x (constant (F := Ideal) ⟨0, ![]⟩ .f32 0x00000000#32) h' hu j = ∑ r : Fin M, x (ix2 r (j 0)) := by
  rw [hostReduceAdd_apply, hostReduceAdd_rows]
  show Ideal.ofBits .f32 0x00000000#32 + _ = _
  rw [Ideal.ofBits_zero_f32, zero_add]

end ColumnSum

section Layer
variable {M N : Nat}

def asRow (v : (⟨1, ![N]⟩ : Shape).Idx → EReal) : Arr 1 N := fun j => v (ix1 (j 1))

theorem row0_asRow (v : (⟨1, ![N]⟩ : Shape).Idx → EReal) (q : Fin N) : row0 (asRow v) q = v (ix1 q) := rfl

variable (hr : (⟨2, ![M, N]⟩ : Shape).ReducesTo [0] ⟨1, ![N]⟩) (hu : 0 < (⟨0, ![]⟩ : Shape).numel)
  (bS : (⟨0, ![]⟩ : Shape).BroadcastsInDim ⟨1, ![N]⟩ ![])
  (b1 : (⟨1, ![N]⟩ : Shape).BroadcastsInDim ⟨2, ![1, N]⟩ ![1])
  (b2 : (⟨2, ![1, N]⟩ : Shape).BroadcastsInDim ⟨2, ![M, N]⟩ ![0, 1])
  (bA : (⟨0, ![]⟩ : Shape).BroadcastsInDim ⟨2, ![M, N]⟩ ![])
  (x : Arr M N) (b : Arr 1 N)

theorem host_mean_apply (c : BitVec 32) (out : FVec Ideal ⟨2, ![M, N]⟩ .f32) (hout : ∀ i, out i = shifted x b i)
    (j : (⟨1, ![N]⟩ : Shape).Idx) :
    Host.divf (Host.reduceAdd out (constant (F := Ideal) ⟨0, ![]⟩ .f32 0x00000000#32) hr hu)
        (broadcastInDim ⟨1, ![N]⟩ ![] bS (constant (F := Ideal) ⟨0, ![]⟩ .f32 c)) j
      = row0 (colMean x b (Ideal.ofBits .f32 c)) (j 0) := by
  have e : out = shifted x b := funext hout
  subst e
  rw [hostDivf_apply, hostReduceAdd_zero_rows, broadcastInDim_scalar_apply]
  rfl

theorem host_cent_apply (n : EReal) (out : FVec Ideal ⟨2, ![M, N]⟩ .f32) (mean : FVec Ideal ⟨1, ![N]⟩ .f32)
    (hout : ∀ i, out i = shifted x b i) (hmean : ∀ j, mean j = row0 (colMean x b n) (j 0))
    (i : (⟨2, ![M, N]⟩ : Shape).Idx) :
    subf out (broadcastInDim ⟨2, ![M, N]⟩ ![0, 1] b2 (broadcastInDim ⟨2, ![1, N]⟩ ![1] b1 mean)) i
      = shifted x b i - row0 (colMean x b n) (i 1) := by
  show out i - broadcastInDim ⟨2, ![M, N]⟩ ![0, 1] b2 (broadcastInDim ⟨2, ![1, N]⟩ ![1] b1 mean) i = _
  rw [bcast_vec_rows_apply, hout, hmean]
  rfl

theorem host_var_apply (c : BitVec 32) (cent : FVec Ideal ⟨2, ![M, N]⟩ .f32)
    (hcent : ∀ i, cent i = shifted x b i - row0 (colMean x b (Ideal.ofBits .f32 c)) (i 1))
    (j : (⟨1, ![N]⟩ : Shape).Idx) :
    Host.divf (Host.reduceAdd (mulf cent cent) (constant (F := Ideal) ⟨0, ![]⟩ .f32 0x00000000#32) hr hu)
        (broadcastInDim ⟨1, ![N]⟩ ![] bS (constant (F := Ideal) ⟨0, ![]⟩ .f32 c)) j
      = row0 (colVarR x b (Ideal.ofBits .f32 c)) (j 0) := by
  have e : cent = fun i => shifted x b i - row0 (colMean x b (Ideal.ofBits .f32 c)) (i 1) := funext hcent
  subst e
  rw [hostDivf_apply, hostReduceAdd_zero_rows, broadcastInDim_scalar_apply]
  rfl

theorem host_norm_apply (n : EReal) (ce cz : BitVec 32) (cent : FVec Ideal ⟨2, ![M, N]⟩ .f32)
    (var g be : FVec Ideal ⟨1, ![N]⟩ .f32)
    (hcent : ∀ i, cent i = shifted x b i - row0 (colMean x b n) (i 1))
    (hvar : ∀ j, var j = row0 (colVarR x b n) (j 0)) (i : (⟨2, ![M, N]⟩ : Shape).Idx) :
    maximumf
        (addf
          (mulf
            (mulf cent
              (broadcastInDim ⟨2, ![M, N]⟩ ![0, 1] b2 (broadcastInDim ⟨2, ![1, N]⟩ ![1] b1
                (Host.rsqrt (addf var (broadcastInDim ⟨1, ![N]⟩ ![] bS (constant (F := Ideal) ⟨0, ![]⟩ .f32 ce)))))))
            (broadcastInDim ⟨2, ![M, N]⟩ ![0, 1] b2 (broadcastInDim ⟨2, ![1, N]⟩ ![1] b1 g)))
          (broadcastInDim ⟨2, ![M, N]⟩ ![0, 1] b2 (broadcastInDim ⟨2, ![1, N]⟩ ![1] b1 be)))
        (broadcastInDim ⟨2, ![M, N]⟩ ![] bA (constant (F := Ideal) ⟨0, ![]⟩ .f32 cz)) i
      = normMax x b (colMean x b n) (colVarR x b n) (asRow g) (asRow be) (Ideal.ofBits .f32 ce)
          (Ideal.ofBits .f32 cz) i := by
  show max
      (cent i
            * broadcastInDim ⟨2, ![M, N]⟩ ![0, 1] b2 (broadcastInDim ⟨2, ![1, N]⟩ ![1] b1
                (Host.rsqrt (addf var (broadcastInDim ⟨1, ![N]⟩ ![] bS (constant (F := Ideal) ⟨0, ![]⟩ .f32 ce))))) i
          * broadcastInDim ⟨2, ![M, N]⟩ ![0, 1] b2 (broadcastInDim ⟨2, ![1, N]⟩ ![1] b1 g) i
        + broadcastInDim ⟨2, ![M, N]⟩ ![0, 1] b2 (broadcastInDim ⟨2, ![1, N]⟩ ![1] b1 be) i)
      (broadcastInDim ⟨2, ![M, N]⟩ ![] bA (constant (F := Ideal) ⟨0, ![]⟩ .f32 cz) i) = _
  rw [bcast_vec_rows_apply, bcast_vec_rows_apply, bcast_vec_rows_apply, broadcastInDim_scalar_apply, hcent]
  show max
      ((shifted x b i - row0 (colMean x b n) (i 1))
            * Ideal.rsqrt (var (ix1 (i 1)) + broadcastInDim ⟨1, ![N]⟩ ![] bS (constant (F := Ideal) ⟨0, ![]⟩ .f32 ce) (ix1 (i 1)))
          * g (ix1 (i 1)) + be (ix1 (i 1)))
      (Ideal.ofBits .f32 cz) = _
  rw [broadcastInDim_scalar_apply, hvar]
  rfl

end Layer

end Cert.Spec

end
-- ==== Proof.NetEq.lean ====
import proofs.«120348_j28252294873367_1_alg».proof.Proof.Net
import proofs.«120348_j28252294873367_1_alg».proof.Proof.RefFun
import proofs.«120348_j28252294873367_1_alg».proof.Proof.Math
import proofs.«120348_j28252294873367_1_alg».proof.Proof.MathHost
import proofs.«120348_j28252294873367_1_alg».proof.Proof.LibDense
import proofs.«120348_j28252294873367_1_alg».proof.Proof.LibReal
import Idealize.ShloMosaic.Lib.ValueLayout
import Idealize.ShloMosaic.Lib.IdealHost
import Mathlib.Tactic.NormNum

noncomputable section

namespace Cert.Net

open Cert.KernelIdeal Cert.KernelIdeal.Gen Cert.Common Cert.Spec Cert.Lib Cert.RefFun
open Idealize.ShloMosaic Idealize.ShloMosaic.ValueIdx
open scoped BigOperators

section General
variable {M K N : Nat}

theorem isReal_asRow {v : (⟨1, ![N]⟩ : Shape).Idx → EReal} (hv : IsReal v) : IsReal (asRow v) := fun _ => hv _

theorem shapeCast_row_eq_asRow (v : (⟨1, ![N]⟩ : Shape).Idx → EReal)
    (h : (⟨1, ![N]⟩ : Shape).ShapeCasts ⟨2, ![1, N]⟩) : shapeCast ⟨2, ![1, N]⟩ v h = asRow v := by
  funext j
  obtain ⟨a, q, rfl⟩ : ∃ a q, j = ix2 a q := ⟨j 0, j 1, eq_ix2 j⟩
  exact shapeCast_a_1a_apply v h a q

theorem normMax_varR_eq_varK (x : Arr M N) (b g be : Arr 1 N) (hx : IsReal x) (hb : IsReal b) {n : ℝ} (hn : n ≠ 0)
    (hM : (M : ℝ) = n) {c : EReal} (hc : c = (n : EReal)) (e z : EReal) :
    normMax x b (colMean x b c) (colVarR x b c) g be e z = normMax x b (colMean x b c) (colVarK x b c) g be e z := by
  subst hc
  exact (layer_norm_eq x b g be hx hb n hn hM e z).symm

theorem isReal_normMax_varK {x : Arr M N} {b g be : Arr 1 N} (hx : IsReal x) (hb : IsReal b) (hg : IsReal g)
    (hbe : IsReal be) {n : ℝ} (hn : 0 < n) (hM : (M : ℝ) = n) {c e z : EReal} (hc : c = (n : EReal)) {er : ℝ}
    (her : 0 < er) (he : e = (er : EReal)) {zr : ℝ} (hz : z = (zr : EReal)) :
    IsReal (normMax x b (colMean x b c) (colVarK x b c) g be e z) := by
  subst hc he hz
  rw [colVarK_eq_colVarR x b hx hb n hn.ne' hM]
  exact isReal_normMax hx hb (isReal_colMean hx hb hn.ne') hg hbe (colVarR_nonneg hx hb hn) her

theorem dot_add_bias_eq_affine (d : DotDims ⟨2, ![M, K]⟩ ⟨2, ![K, N]⟩ ⟨2, ![M, N]⟩) (hlc : d.lhsContracting = [1])
    (hrc : d.rhsContracting = [0]) (hln : d.lhsNonContracting = [0]) (hrn : d.rhsNonContracting = [1])
    (hlb : d.lhsBatch = []) (hrb : d.rhsBatch = []) (x : FVec Ideal ⟨2, ![M, K]⟩ .f32)
    (w : FVec Ideal ⟨2, ![K, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none x w)
        (broadcastInDim ⟨2, ![M, N]⟩ ![0, 1] h2 (broadcastInDim ⟨2, ![1, N]⟩ ![1] h1 v))
      = affine x w (shapeCast ⟨2, ![1, N]⟩ v hc) := by
  funext j
  rw [shapeCast_row_eq_asRow]
  show Host.dotGeneral d none x w j
      + broadcastInDim ⟨2, ![M, N]⟩ ![0, 1] h2 (broadcastInDim ⟨2, ![1, N]⟩ ![1] h1 v) j
    = dense x w j + v (ix1 (j 1))
  rw [dotGeneral_eq_dense d hlc hrc hln hrn hlb hrb, bcast_vec_rows_apply]

theorem dot_add_bias_max_eq_affineMax (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (w : FVec Ideal ⟨2, ![K, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (hA : (⟨0, ![]⟩ : Shape).BroadcastsInDim ⟨2, ![M, N]⟩ ![]) (cz : BitVec 32) :
    maximumf
        (addf (Host.dotGeneral d none x w)
          (broadcastInDim ⟨2, ![M, N]⟩ ![0, 1] h2 (broadcastInDim ⟨2, ![1, N]⟩ ![1] h1 v)))
        (broadcastInDim ⟨2, ![M, N]⟩ ![] hA (constant (F := Ideal) ⟨0, ![]⟩ .f32 cz))
      = affineMax x w (shapeCast ⟨2, ![1, N]⟩ v hc) (Ideal.ofBits .f32 cz) := by
  funext j
  rw [dot_add_bias_eq_affine d hlc hrc hln hrn hlb hrb x w v h1 h2 hc]
  show max (affine x w (shapeCast ⟨2, ![1, N]⟩ v hc) j)
      (broadcastInDim ⟨2, ![M, N]⟩ ![] hA (constant (F := Ideal) ⟨0, ![]⟩ .f32 cz) j) = _
  rw [broadcastInDim_scalar_apply]
  rfl

end General

theorem zrow300_apply (j : S1x300.Idx) : zrow300 j = 0 := by
  unfold zrow300
  rw [broadcastInDim_scalar_apply]
  exact Ideal.ofBits_zero_f32

theorem projHost_eq (h : FV S100000x300) (w : FV S300x300) :
    projHost h w = affine (M := 100000) (K := 300) (N := 300) h w zrow300 := by
  funext j
  have hd : projHost h w = dense (M := 100000) (K := 300) (N := 300) h w :=
    dotGeneral_eq_dense (M := 100000) (K := 300) (N := 300)
      Cert.ReferenceIdeal.dot_S100000x300_S300x300_S100000x300_1_0_0_1_n_n rfl rfl rfl rfl rfl rfl none h w
  rw [hd]
  show dense h w j = dense h w j + zrow300 (ix2 (0 : Fin 1) (j 1))
  rw [zrow300_apply, add_zero]

theorem feat_eq (h5 : FV S100000x300) (a12 : FV S300x256) (a13 : FV S256) :
    featHost h5 a12 a13 = affine (M := 100000) (K := 300) (N := 256) h5 a12 (row256 a13) :=
  dot_add_bias_eq_affine (M := 100000) (K := 300) (N := 256)
    Cert.ReferenceIdeal.dot_S100000x300_S300x256_S100000x256_1_0_0_1_n_n rfl rfl rfl rfl rfl rfl h5 a12 a13 _ _ _

theorem head_eq (g0 : FV S2048x256) (a14 : FV S256x128) (a15 : FV S128) (a16 : FV S128x2) (a17 : FV S2) :
    headHost g0 a14 a15 a16 a17
      = affine (M := 2048) (K := 128) (N := 2)
          (affineMax (M := 2048) (K := 256) (N := 128) g0 a14 (row128 a15) zz) a16 (row2 a17) := by
  unfold headHost
  rw [dot_add_bias_max_eq_affineMax (M := 2048) (K := 256) (N := 128)
    Cert.ReferenceIdeal.dot_S2048x256_S256x128_S2048x128_1_0_0_1_n_n rfl rfl rfl rfl rfl rfl g0 a14 a15 _ _
    shapeCasts_S128_S1x128 _ 0x00000000#32]
  exact dot_add_bias_eq_affine (M := 2048) (K := 128) (N := 2)
    Cert.ReferenceIdeal.dot_S2048x128_S128x2_S2048x2_1_0_0_1_n_n rfl rfl rfl rfl rfl rfl _ a16 a17 _ _ _

theorem bnOut_apply (seg : FV S100000x300) (b : FV S300) (i : S100000x300.Idx) :
    bnOut seg b i = shifted (M := 100000) (N := 300) seg (asRow b) i :=
  congrArg (seg i + ·) (bcast_vec_rows_apply (M := 100000) (N := 300) _ _ b i)

theorem bnHost_eq_normMax (seg : FV S100000x300) (b g be : FV S300) :
    bnHost seg b g be
      = normMax (M := 100000) (N := 300) seg (asRow b) (colMean seg (asRow b) nN) (colVarR seg (asRow b) nN)
          (asRow g) (asRow be) eps zz := by
  funext i
  have hout : ∀ i, bnOut seg b i = shifted (M := 100000) (N := 300) seg (asRow b) i := bnOut_apply seg b
  have hmean : ∀ j, bnMean (bnOut seg b) j = row0 (colMean (M := 100000) (N := 300) seg (asRow b) nN) (j 0) :=
    host_mean_apply (M := 100000) (N := 300) Cert.ReferenceIdeal.Gen.reducesTo_S100000x300_S300_d0
      Cert.ReferenceIdeal.Gen.h_S_ Cert.ReferenceIdeal.Gen.bcast_S_S300 seg (asRow b) 0x47C35000#32 (bnOut seg b) hout
  have hcent : ∀ i, bnCent (bnOut seg b) i
      = shifted (M := 100000) (N := 300) seg (asRow b) i - row0 (colMean (M := 100000) (N := 300) seg (asRow b) nN) (i 1) :=
    host_cent_apply (M := 100000) (N := 300) Cert.ReferenceIdeal.Gen.bcast_S300_S1x300_1
      Cert.ReferenceIdeal.Gen.bcast_S1x300_S100000x300_0_1 seg (asRow b) nN (bnOut seg b) (bnMean (bnOut seg b)) hout hmean
  have hvar : ∀ j, bnVar (bnOut seg b) j = row0 (colVarR (M := 100000) (N := 300) seg (asRow b) nN) (j 0) :=
    host_var_apply (M := 100000) (N := 300) Cert.ReferenceIdeal.Gen.reducesTo_S100000x300_S300_d0
      Cert.ReferenceIdeal.Gen.h_S_ Cert.ReferenceIdeal.Gen.bcast_S_S300 seg (asRow b) 0x47C35000#32
      (bnCent (bnOut seg b)) hcent
  rw [bnHost_eq]
  exact host_norm_apply (M := 100000) (N := 300) Cert.ReferenceIdeal.Gen.bcast_S_S300
    Cert.ReferenceIdeal.Gen.bcast_S300_S1x300_1 Cert.ReferenceIdeal.Gen.bcast_S1x300_S100000x300_0_1
    Cert.ReferenceIdeal.Gen.bcast_S_S100000x300 seg (asRow b) nN 0x3727C5AC#32 0x00000000#32
    (bnCent (bnOut seg b)) (bnVar (bnOut seg b)) g be hcent hvar i

theorem isReal_wmat (l : Fin 5) {a6 : FV S5x300x300} (h : IsReal a6) : IsReal (wmat l a6) := by
  match l with
  | 0 => exact isReal_shapeCast (isReal_extractStridedSlice h _ _) _
  | 1 => exact isReal_shapeCast (isReal_extractStridedSlice h _ _) _
  | 2 => exact isReal_shapeCast (isReal_extractStridedSlice h _ _) _
  | 3 => exact isReal_shapeCast (isReal_extractStridedSlice h _ _) _
  | 4 => exact isReal_shapeCast (isReal_extractStridedSlice h _ _) _

theorem isReal_tab1 (l : Fin 5) {a8 : FV S5x6x1} (h : IsReal a8) : IsReal (tab1 l a8) := by
  match l with
  | 0 => exact isReal_shapeCast (isReal_extractStridedSlice h _ _) _
  | 1 => exact isReal_shapeCast (isReal_extractStridedSlice h _ _) _
  | 2 => exact isReal_shapeCast (isReal_extractStridedSlice h _ _) _
  | 3 => exact isReal_shapeCast (isReal_extractStridedSlice h _ _) _
  | 4 => exact isReal_shapeCast (isReal_extractStridedSlice h _ _) _

theorem isReal_tab2 (l : Fin 5) {a9 : FV S5x3x1} (h : IsReal a9) : IsReal (tab2 l a9) := by
  match l with
  | 0 => exact isReal_shapeCast (isReal_extractStridedSlice h _ _) _
  | 1 => exact isReal_shapeCast (isReal_extractStridedSlice h _ _) _
  | 2 => exact isReal_shapeCast (isReal_extractStridedSlice h _ _) _
  | 3 => exact isReal_shapeCast (isReal_extractStridedSlice h _ _) _
  | 4 => exact isReal_shapeCast (isReal_extractStridedSlice h _ _) _

theorem isReal_vec (l : Fin 5) {a : FV S5x300} (h : IsReal a) : IsReal (vec l a) := by
  match l with
  | 0 => exact isReal_shapeCast (isReal_extractStridedSlice h _ _) _
  | 1 => exact isReal_shapeCast (isReal_extractStridedSlice h _ _) _
  | 2 => exact isReal_shapeCast (isReal_extractStridedSlice h _ _) _
  | 3 => exact isReal_shapeCast (isReal_extractStridedSlice h _ _) _
  | 4 => exact isReal_shapeCast (isReal_extractStridedSlice h _ _) _

theorem isReal_rowK {v : FV S300} (h : IsReal v) : IsReal (rowK v) := isReal_shapeCast h _

theorem isReal_row256 {a : FV S256} (h : IsReal a) : IsReal (row256 a) := isReal_shapeCast h _

theorem isReal_row128 {a : FV S128} (h : IsReal a) : IsReal (row128 a) := isReal_shapeCast h _

theorem isReal_row2 {a : FV S2} (h : IsReal a) : IsReal (row2 a) := isReal_shapeCast h _

theorem isReal_zrow300 : IsReal zrow300 := fun j => ⟨0, by rw [zrow300_apply]; rfl⟩

theorem isReal_aggr {hw : FV S100000x300} (s d e0 e1 : IV S300000) {t1 : FV S6x1} {t2 : FV S3x1} (hhw : IsReal hw)
    (h1 : IsReal t1) (h2 : IsReal t2) : IsReal (aggr hw s d e0 e1 t1 t2) :=
  isReal_scatterAdd _ _ (isReal_broadcastInDim (isReal_constant ofBits_zero) _ _)
    (isReal_addf (isReal_gather hhw _ _)
      (isReal_broadcastInDim (isReal_addf (isReal_gather h1 _ _) (isReal_gather h2 _ _)) _ _))

theorem h0_real {a0 : IV S100000x2} {a4 : FV S120x300} {a5 : FV S3x300} (h4 : IsReal a4) (h5 : IsReal a5) :
    IsReal (h0 a0 a4 a5) :=
  isReal_addf (isReal_gather h4 _ _) (isReal_gather h5 _ _)

section Layers
variable (p : Params) (h : FV S100000x300)

theorem isReal_raw_proj (hh : IsReal h) (h6 : IsReal p.a6) (h8 : IsReal p.a8) (h9 : IsReal p.a9) (l : Fin 5) :
    IsReal (raw p l (proj p l h)) :=
  isReal_aggr _ _ _ _ (isReal_affine hh (isReal_wmat l h6) isReal_zrow300) (isReal_tab1 l h8) (isReal_tab2 l h9)

theorem kLayer_eq (l : Fin 5) :
    kLayer p l h
      = normMax (M := 100000) (N := 300) (raw p l (proj p l h)) (asRow (vec l p.a7))
          (colMean (raw p l (proj p l h)) (asRow (vec l p.a7)) nN)
          (colVarK (raw p l (proj p l h)) (asRow (vec l p.a7)) nN) (asRow (vec l p.a10)) (asRow (vec l p.a11)) eps zz := by
  unfold kLayer rowK
  rw [shapeCast_row_eq_asRow, shapeCast_row_eq_asRow, shapeCast_row_eq_asRow]

theorem rows_cast : ((100000 : ℕ) : ℝ) = (100000 : ℝ) := by norm_num

theorem layer_eq (hh : IsReal h) (h6 : IsReal p.a6) (h7 : IsReal p.a7) (h8 : IsReal p.a8) (h9 : IsReal p.a9)
    (l : Fin 5) :
    bnHost (raw p l (projHost h (wmat l p.a6))) (vec l p.a7) (vec l p.a10) (vec l p.a11) = kLayer p l h := by
  rw [projHost_eq, bnHost_eq_normMax, kLayer_eq]
  exact normMax_varR_eq_varK (M := 100000) (N := 300) (raw p l (proj p l h)) (asRow (vec l p.a7)) _ _
    (isReal_raw_proj p h hh h6 h8 h9 l) (isReal_asRow (isReal_vec l h7)) (n := 100000) (by norm_num) rows_cast
    ofBits_1e5 eps zz

theorem layer_real (hh : IsReal h) (h6 : IsReal p.a6) (h7 : IsReal p.a7) (h8 : IsReal p.a8) (h9 : IsReal p.a9)
    (h10 : IsReal p.a10) (h11 : IsReal p.a11) (l : Fin 5) : IsReal (kLayer p l h) := by
  rw [kLayer_eq]
  exact isReal_normMax_varK (M := 100000) (N := 300) (isReal_raw_proj p h hh h6 h8 h9 l)
    (isReal_asRow (isReal_vec l h7)) (isReal_asRow (isReal_vec l h10)) (isReal_asRow (isReal_vec l h11))
    (n := 100000) (by norm_num) rows_cast ofBits_1e5 eps_pos ofBits_eps ofBits_zero

end Layers

end Cert.Net

end
-- ==== Proof.Final.lean ====
import proofs.«120348_j28252294873367_1_alg».proof.Proof.NetR
import proofs.«120348_j28252294873367_1_alg».proof.Proof.NetEq

noncomputable section

namespace Cert.Net

open Cert.KernelIdeal Cert.KernelIdeal.Gen Cert.Common Cert.Spec Cert.Lib Cert.RefFun Idealize.ShloMosaic

variable (p : Params)

theorem layer_step (h6 : IsReal p.a6) (h7 : IsReal p.a7) (h8 : IsReal p.a8) (h9 : IsReal p.a9) (h10 : IsReal p.a10)
    (h11 : IsReal p.a11) (l : Fin 5) {x y : FV S100000x300} (hxy : x = y) (hy : IsReal y) :
    rLayer p l x = kLayer p l y ∧ IsReal (kLayer p l y) := by
  subst hxy
  exact ⟨layer_eq p x hy h6 h7 h8 h9 l, layer_real p x hy h6 h7 h8 h9 h10 h11 l⟩

theorem levels (h4 : IsReal p.a4) (h5 : IsReal p.a5) (h6 : IsReal p.a6) (h7 : IsReal p.a7) (h8 : IsReal p.a8)
    (h9 : IsReal p.a9) (h10 : IsReal p.a10) (h11 : IsReal p.a11) : ∀ n, rH p n = kH p n ∧ IsReal (kH p n) := by
  have r0 : IsReal (h0 p.a0 p.a4 p.a5) := h0_real h4 h5
  have s1 := layer_step p h6 h7 h8 h9 h10 h11 0 rfl r0
  have s2 := layer_step p h6 h7 h8 h9 h10 h11 1 s1.1 s1.2
  have s3 := layer_step p h6 h7 h8 h9 h10 h11 2 s2.1 s2.2
  have s4 := layer_step p h6 h7 h8 h9 h10 h11 3 s3.1 s3.2
  have s5 := layer_step p h6 h7 h8 h9 h10 h11 4 s4.1 s4.2
  intro n
  match n with
  | 0 => exact ⟨rfl, r0⟩
  | 1 => exact s1
  | 2 => exact s2
  | 3 => exact s3
  | 4 => exact s4
  | _ + 5 => exact s5

theorem rH_eq_kH (h4 : IsReal p.a4) (h5 : IsReal p.a5) (h6 : IsReal p.a6) (h7 : IsReal p.a7) (h8 : IsReal p.a8)
    (h9 : IsReal p.a9) (h10 : IsReal p.a10) (h11 : IsReal p.a11) (n : Nat) : rH p n = kH p n :=
  (levels p h4 h5 h6 h7 h8 h9 h10 h11 n).1

theorem kH_real (h4 : IsReal p.a4) (h5 : IsReal p.a5) (h6 : IsReal p.a6) (h7 : IsReal p.a7) (h8 : IsReal p.a8)
    (h9 : IsReal p.a9) (h10 : IsReal p.a10) (h11 : IsReal p.a11) (n : Nat) : IsReal (kH p n) :=
  (levels p h4 h5 h6 h7 h8 h9 h10 h11 n).2

theorem out0_eq (h4 : IsReal p.a4) (h5 : IsReal p.a5) (h6 : IsReal p.a6) (h7 : IsReal p.a7) (h8 : IsReal p.a8)
    (h9 : IsReal p.a9) (h10 : IsReal p.a10) (h11 : IsReal p.a11) : rOut0 p = kOut0 p := by
  unfold rOut0 kOut0
  rw [feat_eq, rH_eq_kH p h4 h5 h6 h7 h8 h9 h10 h11 5]

theorem out1_eq (h4 : IsReal p.a4) (h5 : IsReal p.a5) (h6 : IsReal p.a6) (h7 : IsReal p.a7) (h8 : IsReal p.a8)
    (h9 : IsReal p.a9) (h10 : IsReal p.a10) (h11 : IsReal p.a11) : rOut1 p = kOut1 p := by
  unfold rOut1 kOut1
  rw [head_eq, out0_eq p h4 h5 h6 h7 h8 h9 h10 h11]

end Cert.Net

end
-- ==== Proof.PreReal.lean ====
import proofs.«120348_j28252294873367_1_alg».proof.Proof.Gen.Pre_finite_inputs
import proofs.«120348_j28252294873367_1_alg».proof.Proof.LibReal
import Idealize.ShloMosaic.Lib.ReduceAll
import Idealize.ShloMosaic.Lib.ValueIdx
import Idealize.ShloMosaic.PureOps.Ideal

set_option maxRecDepth 16384

noncomputable section

namespace Cert.PreReal

open Idealize.ShloMosaic Cert.Pre_finite_inputs

instance subsingleton_idx : Subsingleton S_.Idx := ⟨fun a b => funext fun d => d.elim0⟩

theorem real_of_abs_lt_top (a : EReal) (h : max a (-a) < ⊤) : ∃ r : ℝ, a = (r : EReal) := by
  induction a with
  | bot => simp at h
  | coe r => exact ⟨r, rfl⟩
  | top => simp at h

theorem ofBits_inf : Ideal.ofBits .f32 0x7F800000#32 = ⊤ := by simp [Ideal.ofBits, Ideal.ieee]

theorem ofBool_eq_one (b : Bool) : BitVec.ofBool b = 1#1 ↔ b = true := by cases b <;> decide

theorem isReal_of_all_lt_inf {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
        (cmpf .olt (Host.absf x) (broadcastInDim s ![] hb (constant (F := Ideal) S_ .f32 0x7F800000#32))) init hr hu j = 1#1) :
    Cert.Lib.IsReal x := fun i => by
  have e := Host.reduce_andi_all _ init hr hu j h i
  have e' : Ideal.cmp .olt (max (x i) (-(x i))) (Ideal.ofBits .f32 0x7F800000#32) = 1#1 := e
  rw [ofBits_inf] at e'
  unfold Ideal.cmp at e'
  exact real_of_abs_lt_top (x i) (of_decide_eq_true ((ofBool_eq_one _).1 e'))

theorem and_split (a b : IVec S_ 1) (j : S_.Idx) (h : andi a b j = 1#1) : a j = 1#1 ∧ b j = 1#1 :=
  IntOp.andi_eq_one.1 h

theorem real_of_fn (a0 : IVec S100000x2 32) (a1 : IVec S2x200000 32) (a2 : IVec S200000x2 32) (a3 : IVec S100000 32) (a4 : FVec Ideal S120x300 .f32) (a5 : FVec Ideal S3x300 .f32) (a6 : FVec Ideal S5x300x300 .f32) (a7 : FVec Ideal S5x300 .f32) (a8 : FVec Ideal S5x6x1 .f32) (a9 : FVec Ideal S5x3x1 .f32) (a10 : FVec Ideal S5x300 .f32) (a11 : FVec Ideal S5x300 .f32) (a12 : FVec Ideal S300x256 .f32) (a13 : FVec Ideal S256 .f32) (a14 : FVec Ideal S256x128 .f32) (a15 : FVec Ideal S128 .f32) (a16 : FVec Ideal S128x2 .f32) (a17 : FVec Ideal S2 .f32)
    (h : Cert.Pre_finite_inputs.fn (F := Ideal) a0 a1 a2 a3 a4 a5 a6 a7 a8 a9 a10 a11 a12 a13 a14 a15 a16 a17 = fun _ => 1#1) :
    Cert.Lib.IsReal a4 ∧ Cert.Lib.IsReal a5 ∧ Cert.Lib.IsReal a6 ∧ Cert.Lib.IsReal a7 ∧ Cert.Lib.IsReal a8 ∧ Cert.Lib.IsReal a9 ∧ Cert.Lib.IsReal a10 ∧ Cert.Lib.IsReal a11 ∧ Cert.Lib.IsReal a12 ∧ Cert.Lib.IsReal a13 ∧ Cert.Lib.IsReal a14 ∧ Cert.Lib.IsReal a15 ∧ Cert.Lib.IsReal a16 ∧ Cert.Lib.IsReal a17 := by
  have e := congrFun h ValueIdx.ix0
  dsimp only [fn, fn_part1, fn_part2, fn_part3, fn_part4] at e
  obtain ⟨e, h17⟩ := and_split _ _ _ e
  obtain ⟨e, h16⟩ := and_split _ _ _ e
  obtain ⟨e, h15⟩ := and_split _ _ _ e
  obtain ⟨e, h14⟩ := and_split _ _ _ e
  obtain ⟨e, h13⟩ := and_split _ _ _ e
  obtain ⟨e, h12⟩ := and_split _ _ _ e
  obtain ⟨e, h11⟩ := and_split _ _ _ e
  obtain ⟨e, h10⟩ := and_split _ _ _ e
  obtain ⟨e, h9⟩ := and_split _ _ _ e
  obtain ⟨e, h8⟩ := and_split _ _ _ e
  obtain ⟨e, h7⟩ := and_split _ _ _ e
  obtain ⟨e, h6⟩ := and_split _ _ _ e
  obtain ⟨h4, h5⟩ := and_split _ _ _ e
  exact ⟨isReal_of_all_lt_inf a4 _ _ _ _ _ h4,
    isReal_of_all_lt_inf a5 _ _ _ _ _ h5,
    isReal_of_all_lt_inf a6 _ _ _ _ _ h6,
    isReal_of_all_lt_inf a7 _ _ _ _ _ h7,
    isReal_of_all_lt_inf a8 _ _ _ _ _ h8,
    isReal_of_all_lt_inf a9 _ _ _ _ _ h9,
    isReal_of_all_lt_inf a10 _ _ _ _ _ h10,
    isReal_of_all_lt_inf a11 _ _ _ _ _ h11,
    isReal_of_all_lt_inf a12 _ _ _ _ _ h12,
    isReal_of_all_lt_inf a13 _ _ _ _ _ h13,
    isReal_of_all_lt_inf a14 _ _ _ _ _ h14,
    isReal_of_all_lt_inf a15 _ _ _ _ _ h15,
    isReal_of_all_lt_inf a16 _ _ _ _ _ h16,
    isReal_of_all_lt_inf a17 _ _ _ _ _ h17⟩

end Cert.PreReal

end
-- ==== Proof.PreRealK.lean ====
import proofs.«120348_j28252294873367_1_alg».proof.Defs
import proofs.«120348_j28252294873367_1_alg».proof.Proof.PreReal

set_option maxRecDepth 16384

noncomputable section

namespace Cert.PreReal

open Idealize.ShloMosaic Idealize.SL.Sem Cert.Pre_finite_inputs

theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Lib.IsReal (m ((c.tc : Thread Cert.KernelIdeal.nD Cert.KernelIdeal.τ).loc Cert.KernelIdeal.main_arg4) : FVec Ideal S120x300 .f32)
      ∧ Cert.Lib.IsReal (m ((c.tc : Thread Cert.KernelIdeal.nD Cert.KernelIdeal.τ).loc Cert.KernelIdeal.main_arg5) : FVec Ideal S3x300 .f32)
      ∧ Cert.Lib.IsReal (m ((c.tc : Thread Cert.KernelIdeal.nD Cert.KernelIdeal.τ).loc Cert.KernelIdeal.main_arg6) : FVec Ideal S5x300x300 .f32)
      ∧ Cert.Lib.IsReal (m ((c.tc : Thread Cert.KernelIdeal.nD Cert.KernelIdeal.τ).loc Cert.KernelIdeal.main_arg7) : FVec Ideal S5x300 .f32)
      ∧ Cert.Lib.IsReal (m ((c.tc : Thread Cert.KernelIdeal.nD Cert.KernelIdeal.τ).loc Cert.KernelIdeal.main_arg8) : FVec Ideal S5x6x1 .f32)
      ∧ Cert.Lib.IsReal (m ((c.tc : Thread Cert.KernelIdeal.nD Cert.KernelIdeal.τ).loc Cert.KernelIdeal.main_arg9) : FVec Ideal S5x3x1 .f32)
      ∧ Cert.Lib.IsReal (m ((c.tc : Thread Cert.KernelIdeal.nD Cert.KernelIdeal.τ).loc Cert.KernelIdeal.main_arg10) : FVec Ideal S5x300 .f32)
      ∧ Cert.Lib.IsReal (m ((c.tc : Thread Cert.KernelIdeal.nD Cert.KernelIdeal.τ).loc Cert.KernelIdeal.main_arg11) : FVec Ideal S5x300 .f32)
      ∧ Cert.Lib.IsReal (m ((c.tc : Thread Cert.KernelIdeal.nD Cert.KernelIdeal.τ).loc Cert.KernelIdeal.main_arg12) : FVec Ideal S300x256 .f32)
      ∧ Cert.Lib.IsReal (m ((c.tc : Thread Cert.KernelIdeal.nD Cert.KernelIdeal.τ).loc Cert.KernelIdeal.main_arg13) : FVec Ideal S256 .f32)
      ∧ Cert.Lib.IsReal (m ((c.tc : Thread Cert.KernelIdeal.nD Cert.KernelIdeal.τ).loc Cert.KernelIdeal.main_arg14) : FVec Ideal S256x128 .f32)
      ∧ Cert.Lib.IsReal (m ((c.tc : Thread Cert.KernelIdeal.nD Cert.KernelIdeal.τ).loc Cert.KernelIdeal.main_arg15) : FVec Ideal S128 .f32)
      ∧ Cert.Lib.IsReal (m ((c.tc : Thread Cert.KernelIdeal.nD Cert.KernelIdeal.τ).loc Cert.KernelIdeal.main_arg16) : FVec Ideal S128x2 .f32)
      ∧ Cert.Lib.IsReal (m ((c.tc : Thread Cert.KernelIdeal.nD Cert.KernelIdeal.τ).loc Cert.KernelIdeal.main_arg17) : FVec Ideal S2 .f32) :=
  real_of_fn
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (hpre c)

end Cert.PreReal

end
-- ==== Proof.Alg.lean ====
import proofs.«120348_j28252294873367_1_alg».proof.Defs
import proofs.«120348_j28252294873367_1_alg».proof.Proof.Gen.KernelIdeal
import proofs.«120348_j28252294873367_1_alg».proof.Proof.Gen.ReferenceIdeal
import proofs.«120348_j28252294873367_1_alg».proof.Proof.Gen.Pre_finite_inputs
import proofs.«120348_j28252294873367_1_alg».proof.Proof.RegionsKI
import proofs.«120348_j28252294873367_1_alg».proof.Proof.KI.Run
import proofs.«120348_j28252294873367_1_alg».proof.Proof.KI.OutsEx
import proofs.«120348_j28252294873367_1_alg».proof.Proof.KI.KVal
import proofs.«120348_j28252294873367_1_alg».proof.Proof.RefRun
import proofs.«120348_j28252294873367_1_alg».proof.Proof.RVal
import proofs.«120348_j28252294873367_1_alg».proof.Proof.Final
import proofs.«120348_j28252294873367_1_alg».proof.Proof.PreRealK
import Idealize.ShloMosaic.Lib.StableHlo.Run

noncomputable section

namespace Cert.Proof

open Idealize.ShloMosaic Idealize.ShloMosaic.TcCoe Idealize.SL.Sem

theorem rparams_eq_params
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.RVal.rparams (StableHlo.launchContents m' c) = Cert.KernelIdeal.Reg.params m c := by
  unfold Cert.ReferenceIdeal.RVal.rparams Cert.KernelIdeal.Reg.params
  congr 1

theorem algebraic : Cert.algebraic_KernelIdeal_ReferenceIdeal := by
  intro m g m' g' hpre hagree
  refine ⟨fun c => Cert.Net.kOut0 (Cert.KernelIdeal.Reg.params m c),
    fun c => Cert.Net.kOut1 (Cert.KernelIdeal.Reg.params m c), ?_, ?_⟩
  ·
    refine (θ_run (Cert.KernelIdeal.defs (F := Ideal)) _ _).mono (fun r h c => ?_)
      (Cert.KernelIdeal.Reg.run_of (F := Ideal) m g (Cert.KernelIdeal.Reg.outsW m) (Cert.KernelIdeal.Reg.outsW_ok m))
    have hk := fun (b : Ref Cert.KernelIdeal.sig .tc)
        (hb : ¬ (Proc.devRef (τ := Cert.KernelIdeal.τ) .tc b).isScoped) =>
      h c (Proc.devRef .tc b) (Finset.mem_filter.mpr ⟨StableHlo.devRef_mem_tcRefs b, hb⟩)
    exact ⟨(hk Cert.KernelIdeal.main_v292 (by decide)).trans
        (Cert.KernelIdeal.Reg.kval0 m (Cert.KernelIdeal.Reg.outsW m) (Cert.KernelIdeal.Reg.outsW_ok m) c),
      (hk Cert.KernelIdeal.main_v296 (by decide)).trans
        (Cert.KernelIdeal.Reg.kval1 m (Cert.KernelIdeal.Reg.outsW m) (Cert.KernelIdeal.Reg.outsW_ok m) c),
      (hk Cert.KernelIdeal.main_arg0 (by decide)).trans (Cert.KernelIdeal.GenP.V36_main_arg0 m (Cert.KernelIdeal.Reg.outsW m) c),
      (hk Cert.KernelIdeal.main_arg1 (by decide)).trans (Cert.KernelIdeal.GenP.V36_main_arg1 m (Cert.KernelIdeal.Reg.outsW m) c),
      (hk Cert.KernelIdeal.main_arg2 (by decide)).trans (Cert.KernelIdeal.GenP.V36_main_arg2 m (Cert.KernelIdeal.Reg.outsW m) c),
      (hk Cert.KernelIdeal.main_arg3 (by decide)).trans (Cert.KernelIdeal.GenP.V36_main_arg3 m (Cert.KernelIdeal.Reg.outsW m) c),
      (hk Cert.KernelIdeal.main_arg4 (by decide)).trans (Cert.KernelIdeal.GenP.V36_main_arg4 m (Cert.KernelIdeal.Reg.outsW m) c),
      (hk Cert.KernelIdeal.main_arg5 (by decide)).trans (Cert.KernelIdeal.GenP.V36_main_arg5 m (Cert.KernelIdeal.Reg.outsW m) c),
      (hk Cert.KernelIdeal.main_arg6 (by decide)).trans (Cert.KernelIdeal.GenP.V36_main_arg6 m (Cert.KernelIdeal.Reg.outsW m) c),
      (hk Cert.KernelIdeal.main_arg7 (by decide)).trans (Cert.KernelIdeal.GenP.V36_main_arg7 m (Cert.KernelIdeal.Reg.outsW m) c),
      (hk Cert.KernelIdeal.main_arg8 (by decide)).trans (Cert.KernelIdeal.GenP.V36_main_arg8 m (Cert.KernelIdeal.Reg.outsW m) c),
      (hk Cert.KernelIdeal.main_arg9 (by decide)).trans (Cert.KernelIdeal.GenP.V36_main_arg9 m (Cert.KernelIdeal.Reg.outsW m) c),
      (hk Cert.KernelIdeal.main_arg10 (by decide)).trans (Cert.KernelIdeal.GenP.V36_main_arg10 m (Cert.KernelIdeal.Reg.outsW m) c),
      (hk Cert.KernelIdeal.main_arg11 (by decide)).trans (Cert.KernelIdeal.GenP.V36_main_arg11 m (Cert.KernelIdeal.Reg.outsW m) c),
      (hk Cert.KernelIdeal.main_arg12 (by decide)).trans (Cert.KernelIdeal.GenP.V36_main_arg12 m (Cert.KernelIdeal.Reg.outsW m) c),
      (hk Cert.KernelIdeal.main_arg13 (by decide)).trans (Cert.KernelIdeal.GenP.V36_main_arg13 m (Cert.KernelIdeal.Reg.outsW m) c),
      (hk Cert.KernelIdeal.main_arg14 (by decide)).trans (Cert.KernelIdeal.GenP.V36_main_arg14 m (Cert.KernelIdeal.Reg.outsW m) c),
      (hk Cert.KernelIdeal.main_arg15 (by decide)).trans (Cert.KernelIdeal.GenP.V36_main_arg15 m (Cert.KernelIdeal.Reg.outsW m) c),
      (hk Cert.KernelIdeal.main_arg16 (by decide)).trans (Cert.KernelIdeal.GenP.V36_main_arg16 m (Cert.KernelIdeal.Reg.outsW m) c),
      (hk Cert.KernelIdeal.main_arg17 (by decide)).trans (Cert.KernelIdeal.GenP.V36_main_arg17 m (Cert.KernelIdeal.Reg.outsW m) c)⟩
  ·
    refine (θ_run (Cert.ReferenceIdeal.defs (F := Ideal)) _ _).mono (fun r h c => ?_)
      (Cert.ReferenceIdeal.RunP.run_fold (F := Ideal) m' g')
    obtain ⟨a0, a1, a2, a3, a4, a5, a6, a7, a8, a9, a10, a11, a12, a13, a14, a15, a16, a17⟩ := hagree c
    have hp := rparams_eq_params m m' c a0 a1 a2 a3 a4 a5 a6 a7 a8 a9 a10 a11 a12 a13 a14 a15 a16 a17
    obtain ⟨h4, h5, h6, h7, h8, h9, h10, h11, -⟩ := Cert.PreReal.args_real m hpre c
    exact ⟨(h c Cert.ReferenceIdeal.main_v394).trans ((Cert.ReferenceIdeal.RVal.rval0 _).trans
        ((congrArg Cert.Net.rOut0 hp).trans
          (Cert.Net.out0_eq (Cert.KernelIdeal.Reg.params m c) h4 h5 h6 h7 h8 h9 h10 h11))),
      (h c Cert.ReferenceIdeal.main_v403).trans ((Cert.ReferenceIdeal.RVal.rval1 _).trans
        ((congrArg Cert.Net.rOut1 hp).trans
          (Cert.Net.out1_eq (Cert.KernelIdeal.Reg.params m c) h4 h5 h6 h7 h8 h9 h10 h11))),
      (h c Cert.ReferenceIdeal.main_arg0).trans (Cert.ReferenceIdeal.RVal.rarg0 _),
      (h c Cert.ReferenceIdeal.main_arg1).trans (Cert.ReferenceIdeal.RVal.rarg1 _),
      (h c Cert.ReferenceIdeal.main_arg2).trans (Cert.ReferenceIdeal.RVal.rarg2 _),
      (h c Cert.ReferenceIdeal.main_arg3).trans (Cert.ReferenceIdeal.RVal.rarg3 _),
      (h c Cert.ReferenceIdeal.main_arg4).trans (Cert.ReferenceIdeal.RVal.rarg4 _),
      (h c Cert.ReferenceIdeal.main_arg5).trans (Cert.ReferenceIdeal.RVal.rarg5 _),
      (h c Cert.ReferenceIdeal.main_arg6).trans (Cert.ReferenceIdeal.RVal.rarg6 _),
      (h c Cert.ReferenceIdeal.main_arg7).trans (Cert.ReferenceIdeal.RVal.rarg7 _),
      (h c Cert.ReferenceIdeal.main_arg8).trans (Cert.ReferenceIdeal.RVal.rarg8 _),
      (h c Cert.ReferenceIdeal.main_arg9).trans (Cert.ReferenceIdeal.RVal.rarg9 _),
      (h c Cert.ReferenceIdeal.main_arg10).trans (Cert.ReferenceIdeal.RVal.rarg10 _),
      (h c Cert.ReferenceIdeal.main_arg11).trans (Cert.ReferenceIdeal.RVal.rarg11 _),
      (h c Cert.ReferenceIdeal.main_arg12).trans (Cert.ReferenceIdeal.RVal.rarg12 _),
      (h c Cert.ReferenceIdeal.main_arg13).trans (Cert.ReferenceIdeal.RVal.rarg13 _),
      (h c Cert.ReferenceIdeal.main_arg14).trans (Cert.ReferenceIdeal.RVal.rarg14 _),
      (h c Cert.ReferenceIdeal.main_arg15).trans (Cert.ReferenceIdeal.RVal.rarg15 _),
      (h c Cert.ReferenceIdeal.main_arg16).trans (Cert.ReferenceIdeal.RVal.rarg16 _),
      (h c Cert.ReferenceIdeal.main_arg17).trans (Cert.ReferenceIdeal.RVal.rarg17 _)⟩

end Cert.Proof

end
-- ==== Proof.lean ====
import proofs.«120348_j28252294873367_1_alg».proof.Defs
import proofs.«120348_j28252294873367_1_alg».proof.Proof.Gen.Kernel
import proofs.«120348_j28252294873367_1_alg».proof.Proof.Gen.KernelIdeal
import proofs.«120348_j28252294873367_1_alg».proof.Proof.Gen.ReferenceIdeal
import proofs.«120348_j28252294873367_1_alg».proof.Proof.Gen.Pre_finite_inputs
import proofs.«120348_j28252294873367_1_alg».proof.Proof.K.Run
import proofs.«120348_j28252294873367_1_alg».proof.Proof.K.OutsEx
import proofs.«120348_j28252294873367_1_alg».proof.Proof.KI.Run
import proofs.«120348_j28252294873367_1_alg».proof.Proof.KI.OutsEx
import proofs.«120348_j28252294873367_1_alg».proof.Proof.RefRun
import proofs.«120348_j28252294873367_1_alg».proof.Proof.RVal
import proofs.«120348_j28252294873367_1_alg».proof.Proof.Alg
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  Cert.Kernel.Reg.frame_of m ρ (Cert.Kernel.Reg.outsW m) (Cert.Kernel.Reg.outsW_ok m)

theorem frame_ki : Cert.frame_KernelIdeal := fun m ρ _ =>
  Cert.KernelIdeal.Reg.frame_of m ρ (Cert.KernelIdeal.Reg.outsW m) (Cert.KernelIdeal.Reg.outsW_ok m)

theorem frame_ri : Cert.frame_ReferenceIdeal := fun m ρ _ =>
  (θ_run Cert.ReferenceIdeal.defs _ _).mono (fun _ h c =>
    ⟨(h c Cert.ReferenceIdeal.main_arg0).trans (Cert.ReferenceIdeal.RVal.rarg0 _),
     (h c Cert.ReferenceIdeal.main_arg1).trans (Cert.ReferenceIdeal.RVal.rarg1 _),
     (h c Cert.ReferenceIdeal.main_arg2).trans (Cert.ReferenceIdeal.RVal.rarg2 _),
     (h c Cert.ReferenceIdeal.main_arg3).trans (Cert.ReferenceIdeal.RVal.rarg3 _),
     (h c Cert.ReferenceIdeal.main_arg4).trans (Cert.ReferenceIdeal.RVal.rarg4 _),
     (h c Cert.ReferenceIdeal.main_arg5).trans (Cert.ReferenceIdeal.RVal.rarg5 _),
     (h c Cert.ReferenceIdeal.main_arg6).trans (Cert.ReferenceIdeal.RVal.rarg6 _),
     (h c Cert.ReferenceIdeal.main_arg7).trans (Cert.ReferenceIdeal.RVal.rarg7 _),
     (h c Cert.ReferenceIdeal.main_arg8).trans (Cert.ReferenceIdeal.RVal.rarg8 _),
     (h c Cert.ReferenceIdeal.main_arg9).trans (Cert.ReferenceIdeal.RVal.rarg9 _),
     (h c Cert.ReferenceIdeal.main_arg10).trans (Cert.ReferenceIdeal.RVal.rarg10 _),
     (h c Cert.ReferenceIdeal.main_arg11).trans (Cert.ReferenceIdeal.RVal.rarg11 _),
     (h c Cert.ReferenceIdeal.main_arg12).trans (Cert.ReferenceIdeal.RVal.rarg12 _),
     (h c Cert.ReferenceIdeal.main_arg13).trans (Cert.ReferenceIdeal.RVal.rarg13 _),
     (h c Cert.ReferenceIdeal.main_arg14).trans (Cert.ReferenceIdeal.RVal.rarg14 _),
     (h c Cert.ReferenceIdeal.main_arg15).trans (Cert.ReferenceIdeal.RVal.rarg15 _),
     (h c Cert.ReferenceIdeal.main_arg16).trans (Cert.ReferenceIdeal.RVal.rarg16 _),
     (h c Cert.ReferenceIdeal.main_arg17).trans (Cert.ReferenceIdeal.RVal.rarg17 _)⟩)
    (Cert.ReferenceIdeal.RunP.run_fold (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
